-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v212)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v212) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v372) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S3x2x128x128 : Shape := ⟨4, ![3, 2, 128, 128]⟩
abbrev S3x2x128 : Shape := ⟨3, ![3, 2, 128]⟩
abbrev S3x256x128 : Shape := ⟨3, ![3, 256, 128]⟩
abbrev S3x128 : Shape := ⟨2, ![3, 128]⟩
abbrev S384 : Shape := ⟨1, ![384]⟩
abbrev S384x128 : Shape := ⟨2, ![384, 128]⟩
abbrev S128 : Shape := ⟨1, ![128]⟩
abbrev S128x10 : Shape := ⟨2, ![128, 10]⟩
abbrev S10 : Shape := ⟨1, ![10]⟩
abbrev S2x800000 : Shape := ⟨2, ![2, 800000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S3x2x128x128 : S_.BroadcastsInDim S3x2x128x128 (![] : Fin 0 → Fin S3x2x128x128.rank)
  reducesTo_S3x2x128x128_S_d0_1_2_3 : S3x2x128x128.ReducesTo [0, 1, 2, 3] S_
  bcast_S_S3x2x128 : S_.BroadcastsInDim S3x2x128 (![] : Fin 0 → Fin S3x2x128.rank)
  reducesTo_S3x2x128_S_d0_1_2 : S3x2x128.ReducesTo [0, 1, 2] S_
  bcast_S_S3x256x128 : S_.BroadcastsInDim S3x256x128 (![] : Fin 0 → Fin S3x256x128.rank)
  reducesTo_S3x256x128_S_d0_1_2 : S3x256x128.ReducesTo [0, 1, 2] S_
  bcast_S_S3x128 : S_.BroadcastsInDim S3x128 (![] : Fin 0 → Fin S3x128.rank)
  reducesTo_S3x128_S_d0_1 : S3x128.ReducesTo [0, 1] S_
  bcast_S_S384 : S_.BroadcastsInDim S384 (![] : Fin 0 → Fin S384.rank)
  reducesTo_S384_S_d0 : S384.ReducesTo [0] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128x10 .f32) (main_arg13 : FVec F S10 .f32) (main_v48 : IVec S_ 1) (main_v49 : FVec F S384x128 .f32) (main_v50 : FVec F S384x128 .f32) : IVec S_ 1 :=
  let main_v51 : IVec S384x128 1 := cmpf .olt main_v49 main_v50
  let main_c_19 : IVec S_ 1 := constantI S_ 1 1#1
  let main_v52 : IVec S_ 1 := (fun x v => Host.reduce IntOp.andi x v reducesTo_S384x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x10 .f32 := Host.absf main_arg12
  let main_cst_22 : FVec F S_ .f32 := constant S_ .f32 0x7F800000#32
  let main_v60 : FVec F S128x10 .f32 := broadcastInDim S128x10 ![] bcast_S_S128x10 main_cst_22
  let main_v61 : IVec S128x10 1 := cmpf .olt main_v59 main_v60
  let main_c_23 : IVec S_ 1 := constantI S_ 1 1#1
  let main_v62 : IVec S_ 1 := (fun x v => Host.reduce IntOp.andi x v reducesTo_S128x10_S_d0_1 h_S_) main_v61 main_c_23
  let main_v63 : IVec S_ 1 := andi main_v58 main_v62
  let main_v64 : FVec F S10 .f32 := Host.absf main_arg13
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_v63 main_v67

def fn_part2 {F : FTy → Type} [FloatOps F] (main_arg7 : FVec F S384 .f32) (main_arg8 : FVec F S384 .f32) (main_arg9 : FVec F S384 .f32) (main_arg10 : FVec F S384x128 .f32) (main_arg11 : FVec F S128 .f32) (main_arg12 : FVec F S128x10 .f32) (main_arg13 : FVec F S10 .f32) (main_v33 : IVec S_ 1) : IVec S_ 1 :=
  let main_v34 : FVec F S384 .f32 := Host.absf main_arg7
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S384 .f32 := Host.absf main_arg8
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S384 .f32 := Host.absf main_arg9
  let main_cst_16 : FVec F S_ .f32 := constant S_ .f32 0x7F800000#32
  let main_v45 : FVec F S384 .f32 := broadcastInDim S384 ![] bcast_S_S384 main_cst_16
  let main_v46 : IVec S384 1 := cmpf .olt main_v44 main_v45
  let main_c_17 : IVec S_ 1 := constantI S_ 1 1#1
  let main_v47 : IVec S_ 1 := (fun x v => Host.reduce IntOp.andi x v reducesTo_S384_S_d0 h_S_) main_v46 main_c_17
  let main_v48 : IVec S_ 1 := andi main_v43 main_v47
  let main_v49 : FVec F S384x128 .f32 := Host.absf main_arg10
  let main_cst_18 : FVec F S_ .f32 := constant S_ .f32 0x7F800000#32
  let main_v50 : FVec F S384x128 .f32 := broadcastInDim S384x128 ![] bcast_S_S384x128 main_cst_18
  fn_part3 (F := F) main_arg11 main_arg12 main_arg13 main_v48 main_v49 main_v50

def fn_part1 {F : FTy → Type} [FloatOps F] (main_arg4 : FVec F S3x256x128 .f32) (main_arg5 : FVec F S3x128 .f32) (main_arg6 : FVec F S384 .f32) (main_arg7 : FVec F S384 .f32) (main_arg8 : FVec F S384 .f32) (main_arg9 : FVec F S384 .f32) (main_arg10 : FVec F S384x128 .f32) (main_arg11 : FVec F S128 .f32) (main_arg12 : FVec F S128x10 .f32) (main_arg13 : FVec F S10 .f32) (main_v13 : IVec S_ 1) (main_v16 : IVec S3x2x128 1) : IVec S_ 1 :=
  let main_c_5 : IVec S_ 1 := constantI S_ 1 1#1
  let main_v17 : IVec S_ 1 := (fun x v => Host.reduce IntOp.andi x v reducesTo_S3x2x128_S_d0_1_2 h_S_) main_v16 main_c_5
  let main_v18 : IVec S_ 1 := andi main_v13 main_v17
  let main_v19 : FVec F S3x256x128 .f32 := Host.absf main_arg4
  let main_cst_6 : FVec F S_ .f32 := constant S_ .f32 0x7F800000#32
  let main_v20 : FVec F S3x256x128 .f32 := broadcastInDim S3x256x128 ![] bcast_S_S3x256x128 main_cst_6
  let main_v21 : IVec S3x256x128 1 := cmpf .olt main_v19 main_v20
  let main_c_7 : IVec S_ 1 := constantI S_ 1 1#1
  let main_v22 : IVec S_ 1 := (fun x v => Host.reduce IntOp.andi x v reducesTo_S3x256x128_S_d0_1_2 h_S_) main_v21 main_c_7
  let main_v23 : IVec S_ 1 := andi main_v18 main_v22
  let main_v24 : FVec F S3x128 .f32 := Host.absf main_arg5
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S384 .f32 := Host.absf main_arg6
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S50000x128 .f32) (main_arg1 : FVec F S800000 .f32) (main_arg2 : FVec F S3x2x128x128 .f32) (main_arg3 : FVec F S3x2x128 .f32) (main_arg4 : FVec F S3x256x128 .f32) (main_arg5 : FVec F S3x128 .f32) (main_arg6 : FVec F S384 .f32) (main_arg7 : FVec F S384 .f32) (main_arg8 : FVec F S384 .f32) (main_arg9 : FVec F S384 .f32) (main_arg10 : FVec F S384x128 .f32) (main_arg11 : FVec F S128 .f32) (main_arg12 : FVec F S128x10 .f32) (main_arg13 : FVec F S10 .f32) (main_arg14 : IVec S2x800000 32) (main_arg15 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S3x2x128x128 .f32 := Host.absf main_arg2
  let main_cst_2 : FVec F S_ .f32 := constant S_ .f32 0x7F800000#32
  let main_v10 : FVec F S3x2x128x128 .f32 := broadcastInDim S3x2x128x128 ![] bcast_S_S3x2x128x128 main_cst_2
  let main_v11 : IVec S3x2x128x128 1 := cmpf .olt main_v9 main_v10
  let main_c_3 : IVec S_ 1 := constantI S_ 1 1#1
  let main_v12 : IVec S_ 1 := (fun x v => Host.reduce IntOp.andi x v reducesTo_S3x2x128x128_S_d0_1_2_3 h_S_) main_v11 main_c_3
  let main_v13 : IVec S_ 1 := andi main_v8 main_v12
  let main_v14 : FVec F S3x2x128 .f32 := Host.absf main_arg3
  let main_cst_4 : FVec F S_ .f32 := constant S_ .f32 0x7F800000#32
  let main_v15 : FVec F S3x2x128 .f32 := broadcastInDim S3x2x128 ![] bcast_S_S3x2x128 main_cst_4
  let main_v16 : IVec S3x2x128 1 := cmpf .olt main_v14 main_v15
  fn_part1 (F := F) main_arg4 main_arg5 main_arg6 main_arg7 main_arg8 main_arg9 main_arg10 main_arg11 main_arg12 main_arg13 main_v13 main_v16
-- ==== Kernel.lean ====
abbrev S50000x128 : Shape := ⟨2, ![50000, 128]⟩
abbrev S800000 : Shape := ⟨1, ![800000]⟩
abbrev S3x2x128x128 : Shape := ⟨4, ![3, 2, 128, 128]⟩
abbrev S3x2x128 : Shape := ⟨3, ![3, 2, 128]⟩
abbrev S3x256x128 : Shape := ⟨3, ![3, 256, 128]⟩
abbrev S3x128 : Shape := ⟨2, ![3, 128]⟩
abbrev S384 : Shape := ⟨1, ![384]⟩
abbrev S384x128 : Shape := ⟨2, ![384, 128]⟩
abbrev S128 : Shape := ⟨1, ![128]⟩
abbrev S128x10 : Shape := ⟨2, ![128, 10]⟩
abbrev S10 : Shape := ⟨1, ![10]⟩
abbrev S2x800000 : Shape := ⟨2, ![2, 800000]⟩
abbrev S50000 : Shape := ⟨1, ![50000]⟩
abbrev S1x800000 : Shape := ⟨2, ![1, 800000]⟩
abbrev S_ : Shape := ⟨0, ![]⟩
abbrev S800000x1 : Shape := ⟨2, ![800000, 1]⟩
abbrev S1x1x128x128 : Shape := ⟨4, ![1, 1, 128, 128]⟩
abbrev S128x128 : Shape := ⟨2, ![128, 128]⟩
abbrev S1x1x128 : Shape := ⟨3, ![1, 1, 128]⟩
abbrev S2000x128 : Shape := ⟨2, ![2000, 128]⟩
abbrev S800000x128 : Shape := ⟨2, ![800000, 128]⟩
abbrev S50000x1 : Shape := ⟨2, ![50000, 1]⟩
abbrev S1x128 : Shape := ⟨2, ![1, 128]⟩
abbrev S2000x1 : Shape := ⟨2, ![2000, 1]⟩
abbrev S1x256x128 : Shape := ⟨3, ![1, 256, 128]⟩
abbrev S256x128 : Shape := ⟨2, ![256, 128]⟩
abbrev S512x128 : Shape := ⟨2, ![512, 128]⟩
abbrev S2000x512 : Shape := ⟨2, ![2000, 512]⟩
abbrev S512x384 : Shape := ⟨2, ![512, 384]⟩
abbrev S1x384 : Shape := ⟨2, ![1, 384]⟩
abbrev S1x10 : Shape := ⟨2, ![1, 10]⟩
abbrev S512x10 : Shape := ⟨2, ![512, 10]⟩
abbrev S512 : Shape := ⟨1, ![512]⟩
abbrev S512x1 : Shape := ⟨2, ![512, 1]⟩

abbrev nBuf : Space → Nat
  | .hbm => 264
  | .vmem => 121
  | .smem => 0
  | _ => 0

abbrev hbmTy0_0 (i : Nat) : BufTy := match i % 128 with
  | 0 => ⟨S50000x128, .f32⟩
  | 1 => ⟨S800000, .f32⟩
  | 2 => ⟨S3x2x128x128, .f32⟩
  | 3 => ⟨S3x2x128, .f32⟩
  | 4 => ⟨S3x256x128, .f32⟩
  | 5 => ⟨S3x128, .f32⟩
  | 6 => ⟨S384, .f32⟩
  | 7 => ⟨S384, .f32⟩
  | 8 => ⟨S384, .f32⟩
  | 9 => ⟨S384, .f32⟩
  | 10 => ⟨S384x128, .f32⟩
  | 11 => ⟨S128, .f32⟩
  | 12 => ⟨S128x10, .f32⟩
  | 13 => ⟨S10, .f32⟩
  | 14 => ⟨S2x800000, .i32⟩
  | 15 => ⟨S50000, .i32⟩
  | 16 => ⟨S1x800000, .i32⟩
  | 17 => ⟨S800000, .i32⟩
  | 18 => ⟨S1x800000, .i32⟩
  | 19 => ⟨S800000, .i32⟩
  | 20 => ⟨S800000, .i32⟩
  | 21 => ⟨S800000, .i32⟩
  | 22 => ⟨S800000, .i32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .i32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .i32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S_, .f32⟩
  | 51 => ⟨S50000, .f32⟩
  | 52 => ⟨S800000x1, .i32⟩
  | 53 => ⟨S50000, .f32⟩
  | 54 => ⟨S_, .f32⟩
  | 55 => ⟨S50000, .f32⟩
  | 56 => ⟨S50000, .f32⟩
  | 57 => ⟨S50000, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000, .f32⟩
  | 67 => ⟨S800000, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000, .f32⟩
  | 77 => ⟨S800000, .f32⟩
  | 78 => ⟨S50000, .f32⟩
  | 79 => ⟨S1x1x128x128, .f32⟩
  | 80 => ⟨S128x128, .f32⟩
  | 81 => ⟨S1x1x128x128, .f32⟩
  | 82 => ⟨S128x128, .f32⟩
  | 83 => ⟨S1x1x128, .f32⟩
  | 84 => ⟨S128, .f32⟩
  | 85 => ⟨S1x1x128, .f32⟩
  | 86 => ⟨S128, .f32⟩
  | 87 => ⟨S50000x128, .bf16⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .bf16⟩
  | 97 => ⟨S800000x128, .f32⟩
  | 98 => ⟨S800000x1, .f32⟩
  | 99 => ⟨S800000x128, .f32⟩
  | 100 => ⟨S800000x128, .f32⟩
  | 101 => ⟨S_, .f32⟩
  | 102 => ⟨S50000x128, .f32⟩
  | 103 => ⟨S800000x1, .i32⟩
  | 104 => ⟨S50000x128, .f32⟩
  | 105 => ⟨S50000x1, .f32⟩
  | 106 => ⟨S1x128, .f32⟩
  | 107 => ⟨S50000x128, .bf16⟩
  | 108 => ⟨S50000x128, .bf16⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x128, .bf16⟩
  | 118 => ⟨S800000x128, .f32⟩
  | 119 => ⟨S800000x1, .f32⟩
  | 120 => ⟨S800000x128, .f32⟩
  | 121 => ⟨S800000x128, .f32⟩
  | 122 => ⟨S_, .f32⟩
  | 123 => ⟨S50000x128, .f32⟩
  | 124 => ⟨S800000x1, .i32⟩
  | 125 => ⟨S50000x128, .f32⟩
  | 126 => ⟨S1x256x128, .f32⟩
  | 127 => ⟨S256x128, .f32⟩
  | _ => ⟨S50000x128, .f32⟩

abbrev hbmTy0_1 (i : Nat) : BufTy := match i % 128 with
  | 0 => ⟨S1x128, .f32⟩
  | 1 => ⟨S128, .f32⟩
  | 2 => ⟨S128x128, .f32⟩
  | 3 => ⟨S128x128, .f32⟩
  | 4 => ⟨S50000x1, .f32⟩
  | 5 => ⟨S1x128, .f32⟩
  | 6 => ⟨S1x128, .f32⟩
  | 7 => ⟨S50000x1, .i32⟩
  | 8 => ⟨S50000x128, .f32⟩
  | 9 => ⟨S512x128, .f32⟩
  | 10 => ⟨S1x1x128x128, .f32⟩
  | 11 => ⟨S128x128, .f32⟩
  | 12 => ⟨S1x1x128x128, .f32⟩
  | 13 => ⟨S128x128, .f32⟩
  | 14 => ⟨S1x1x128, .f32⟩
  | 15 => ⟨S128, .f32⟩
  | 16 => ⟨S1x1x128, .f32⟩
  | 17 => ⟨S128, .f32⟩
  | 18 => ⟨S50000x128, .bf16⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .bf16⟩
  | 28 => ⟨S800000x128, .f32⟩
  | 29 => ⟨S800000x1, .f32⟩
  | 30 => ⟨S800000x128, .f32⟩
  | 31 => ⟨S800000x128, .f32⟩
  | 32 => ⟨S_, .f32⟩
  | 33 => ⟨S50000x128, .f32⟩
  | 34 => ⟨S800000x1, .i32⟩
  | 35 => ⟨S50000x128, .f32⟩
  | 36 => ⟨S50000x1, .f32⟩
  | 37 => ⟨S1x128, .f32⟩
  | 38 => ⟨S50000x128, .bf16⟩
  | 39 => ⟨S50000x128, .bf16⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x128, .bf16⟩
  | 49 => ⟨S800000x128, .f32⟩
  | 50 => ⟨S800000x1, .f32⟩
  | 51 => ⟨S800000x128, .f32⟩
  | 52 => ⟨S800000x128, .f32⟩
  | 53 => ⟨S_, .f32⟩
  | 54 => ⟨S50000x128, .f32⟩
  | 55 => ⟨S800000x1, .i32⟩
  | 56 => ⟨S50000x128, .f32⟩
  | 57 => ⟨S1x256x128, .f32⟩
  | 58 => ⟨S256x128, .f32⟩
  | 59 => ⟨S1x128, .f32⟩
  | 60 => ⟨S128, .f32⟩
  | 61 => ⟨S128x128, .f32⟩
  | 62 => ⟨S128x128, .f32⟩
  | 63 => ⟨S50000x1, .f32⟩
  | 64 => ⟨S1x128, .f32⟩
  | 65 => ⟨S1x128, .f32⟩
  | 66 => ⟨S50000x1, .i32⟩
  | 67 => ⟨S50000x128, .f32⟩
  | 68 => ⟨S512x128, .f32⟩
  | 69 => ⟨S1x1x128x128, .f32⟩
  | 70 => ⟨S128x128, .f32⟩
  | 71 => ⟨S1x1x128x128, .f32⟩
  | 72 => ⟨S128x128, .f32⟩
  | 73 => ⟨S1x1x128, .f32⟩
  | 74 => ⟨S128, .f32⟩
  | 75 => ⟨S1x1x128, .f32⟩
  | 76 => ⟨S128, .f32⟩
  | 77 => ⟨S50000x128, .bf16⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .bf16⟩
  | 87 => ⟨S800000x128, .f32⟩
  | 88 => ⟨S800000x1, .f32⟩
  | 89 => ⟨S800000x128, .f32⟩
  | 90 => ⟨S800000x128, .f32⟩
  | 91 => ⟨S_, .f32⟩
  | 92 => ⟨S50000x128, .f32⟩
  | 93 => ⟨S800000x1, .i32⟩
  | 94 => ⟨S50000x128, .f32⟩
  | 95 => ⟨S50000x1, .f32⟩
  | 96 => ⟨S1x128, .f32⟩
  | 97 => ⟨S50000x128, .bf16⟩
  | 98 => ⟨S50000x128, .bf16⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x128, .bf16⟩
  | 108 => ⟨S800000x128, .f32⟩
  | 109 => ⟨S800000x1, .f32⟩
  | 110 => ⟨S800000x128, .f32⟩
  | 111 => ⟨S800000x128, .f32⟩
  | 112 => ⟨S_, .f32⟩
  | 113 => ⟨S50000x128, .f32⟩
  | 114 => ⟨S800000x1, .i32⟩
  | 115 => ⟨S50000x128, .f32⟩
  | 116 => ⟨S1x256x128, .f32⟩
  | 117 => ⟨S256x128, .f32⟩
  | 118 => ⟨S1x128, .f32⟩
  | 119 => ⟨S128, .f32⟩
  | 120 => ⟨S128x128, .f32⟩
  | 121 => ⟨S128x128, .f32⟩
  | 122 => ⟨S50000x1, .f32⟩
  | 123 => ⟨S1x128, .f32⟩
  | 124 => ⟨S1x128, .f32⟩
  | 125 => ⟨S50000x1, .i32⟩
  | 126 => ⟨S50000x128, .f32⟩
  | 127 => ⟨S512x128, .f32⟩
  | _ => ⟨S50000x128, .f32⟩

abbrev hbmTy0_2 (i : Nat) : BufTy := match i % 128 with
  | 0 => ⟨S512x384, .f32⟩
  | 1 => ⟨S1x384, .f32⟩
  | 2 => ⟨S1x384, .f32⟩
  | 3 => ⟨S1x384, .f32⟩
  | 4 => ⟨S1x384, .f32⟩
  | 5 => ⟨S1x128, .f32⟩
  | 6 => ⟨S1x10, .f32⟩
  | 7 => ⟨S512x10, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .bf16⟩
  | .local _ .vmem, ⟨4, _⟩ => ⟨S2000x128, .bf16⟩
  | .local _ .vmem, ⟨5, _⟩ => ⟨S2000x128, .f32⟩
  | .local _ .vmem, ⟨6, _⟩ => ⟨S2000x128, .f32⟩
  | .local _ .vmem, ⟨7, _⟩ => ⟨S2000x128, .bf16⟩
  | .local _ .vmem, ⟨8, _⟩ => ⟨S2000x128, .bf16⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .bf16⟩
  | .local _ .vmem, ⟨13, _⟩ => ⟨S2000x128, .bf16⟩
  | .local _ .vmem, ⟨14, _⟩ => ⟨S2000x128, .bf16⟩
  | .local _ .vmem, ⟨15, _⟩ => ⟨S2000x128, .bf16⟩
  | .local _ .vmem, ⟨16, _⟩ => ⟨S128x128, .f32⟩
  | .local _ .vmem, ⟨17, _⟩ => ⟨S2000x128, .bf16⟩
  | .local _ .vmem, ⟨18, _⟩ => ⟨S2000x128, .bf16⟩
  | .local _ .vmem, ⟨19, _⟩ => ⟨S2000x128, .f32⟩
  | .local _ .vmem, ⟨20, _⟩ => ⟨S2000x128, .f32⟩
  | .local _ .vmem, ⟨21, _⟩ => ⟨S2000x128, .bf16⟩
  | .local _ .vmem, ⟨22, _⟩ => ⟨S2000x128, .bf16⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .bf16⟩
  | .local _ .vmem, ⟨27, _⟩ => ⟨S2000x128, .bf16⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S2000x1, .i32⟩
  | .local _ .vmem, ⟨32, _⟩ => ⟨S2000x1, .i32⟩
  | .local _ .vmem, ⟨33, _⟩ => ⟨S2000x128, .f32⟩
  | .local _ .vmem, ⟨34, _⟩ => ⟨S2000x128, .f32⟩
  | .local _ .vmem, ⟨35, _⟩ => ⟨S512x128, .f32⟩
  | .local _ .vmem, ⟨36, _⟩ => ⟨S512x128, .f32⟩
  | .local _ .vmem, ⟨37, _⟩ => ⟨S2000x128, .f32⟩
  | .local _ .vmem, ⟨38, _⟩ => ⟨S2000x128, .f32⟩
  | .local _ .vmem, ⟨39, _⟩ => ⟨S128x128, .f32⟩
  | .local _ .vmem, ⟨40, _⟩ => ⟨S2000x128, .bf16⟩
  | .local _ .vmem, ⟨41, _⟩ => ⟨S2000x128, .bf16⟩
  | .local _ .vmem, ⟨42, _⟩ => ⟨S2000x128, .f32⟩
  | .local _ .vmem, ⟨43, _⟩ => ⟨S2000x128, .f32⟩
  | .local _ .vmem, ⟨44, _⟩ => ⟨S2000x128, .bf16⟩
  | .local _ .vmem, ⟨45, _⟩ => ⟨S2000x128, .bf16⟩
  | .local _ .vmem, ⟨46, _⟩ => ⟨S2000x1, .f32⟩
  | .local _ .vmem, ⟨47, _⟩ => ⟨S2000x1, .f32⟩
  | .local _ .vmem, ⟨48, _⟩ => ⟨S1x128, .f32⟩
  | .local _ .vmem, ⟨49, _⟩ => ⟨S2000x128, .bf16⟩
  | .local _ .vmem, ⟨50, _⟩ => ⟨S2000x128, .bf16⟩
  | .local _ .vmem, ⟨51, _⟩ => ⟨S2000x128, .bf16⟩
  | .local _ .vmem, ⟨52, _⟩ => ⟨S2000x128, .bf16⟩
  | .local _ .vmem, ⟨53, _⟩ => ⟨S128x128, .f32⟩
  | .local _ .vmem, ⟨54, _⟩ => ⟨S2000x128, .bf16⟩
  | .local _ .vmem, ⟨55, _⟩ => ⟨S2000x128, .bf16⟩
  | .local _ .vmem, ⟨56, _⟩ => ⟨S2000x128, .f32⟩
  | .local _ .vmem, ⟨57, _⟩ => ⟨S2000x128, .f32⟩
  | .local _ .vmem, ⟨58, _⟩ => ⟨S2000x128, .bf16⟩
  | .local _ .vmem, ⟨59, _⟩ => ⟨S2000x128, .bf16⟩
  | .local _ .vmem, ⟨60, _⟩ => ⟨S2000x1, .f32⟩
  | .local _ .vmem, ⟨61, _⟩ => ⟨S2000x1, .f32⟩
  | .local _ .vmem, ⟨62, _⟩ => ⟨S1x128, .f32⟩
  | .local _ .vmem, ⟨63, _⟩ => ⟨S2000x128, .bf16⟩
  | .local _ .vmem, ⟨64, _⟩ => ⟨S2000x128, .bf16⟩
  | .local _ .vmem, ⟨65, _⟩ => ⟨S128x128, .f32⟩
  | .local _ .vmem, ⟨66, _⟩ => ⟨S128x128, .f32⟩
  | .local _ .vmem, ⟨67, _⟩ => ⟨S1x128, .f32⟩
  | .local _ .vmem, ⟨68, _⟩ => ⟨S2000x1, .i32⟩
  | .local _ .vmem, ⟨69, _⟩ => ⟨S2000x1, .i32⟩
  | .local _ .vmem, ⟨70, _⟩ => ⟨S2000x128, .f32⟩
  | .local _ .vmem, ⟨71, _⟩ => ⟨S2000x128, .f32⟩
  | .local _ .vmem, ⟨72, _⟩ => ⟨S512x128, .f32⟩
  | .local _ .vmem, ⟨73, _⟩ => ⟨S512x128, .f32⟩
  | .local _ .vmem, ⟨74, _⟩ => ⟨S2000x128, .f32⟩
  | .local _ .vmem, ⟨75, _⟩ => ⟨S2000x128, .f32⟩
  | .local _ .vmem, ⟨76, _⟩ => ⟨S128x128, .f32⟩
  | .local _ .vmem, ⟨77, _⟩ => ⟨S2000x128, .bf16⟩
  | .local _ .vmem, ⟨78, _⟩ => ⟨S2000x128, .bf16⟩
  | .local _ .vmem, ⟨79, _⟩ => ⟨S2000x128, .f32⟩
  | .local _ .vmem, ⟨80, _⟩ => ⟨S2000x128, .f32⟩
  | .local _ .vmem, ⟨81, _⟩ => ⟨S2000x128, .bf16⟩
  | .local _ .vmem, ⟨82, _⟩ => ⟨S2000x128, .bf16⟩
  | .local _ .vmem, ⟨83, _⟩ => ⟨S2000x1, .f32⟩
  | .local _ .vmem, ⟨84, _⟩ => ⟨S2000x1, .f32⟩
  | .local _ .vmem, ⟨85, _⟩ => ⟨S1x128, .f32⟩
  | .local _ .vmem, ⟨86, _⟩ => ⟨S2000x128, .bf16⟩
  | .local _ .vmem, ⟨87, _⟩ => ⟨S2000x128, .bf16⟩
  | .local _ .vmem, ⟨88, _⟩ => ⟨S2000x128, .bf16⟩
  | .local _ .vmem, ⟨89, _⟩ => ⟨S2000x128, .bf16⟩
  | .local _ .vmem, ⟨90, _⟩ => ⟨S128x128, .f32⟩
  | .local _ .vmem, ⟨91, _⟩ => ⟨S2000x128, .bf16⟩
  | .local _ .vmem, ⟨92, _⟩ => ⟨S2000x128, .bf16⟩
  | .local _ .vmem, ⟨93, _⟩ => ⟨S2000x128, .f32⟩
  | .local _ .vmem, ⟨94, _⟩ => ⟨S2000x128, .f32⟩
  | .local _ .vmem, ⟨95, _⟩ => ⟨S2000x128, .bf16⟩
  | .local _ .vmem, ⟨96, _⟩ => ⟨S2000x128, .bf16⟩
  | .local _ .vmem, ⟨97, _⟩ => ⟨S2000x1, .f32⟩
  | .local _ .vmem, ⟨98, _⟩ => ⟨S2000x1, .f32⟩
  | .local _ .vmem, ⟨99, _⟩ => ⟨S1x128, .f32⟩
  | .local _ .vmem, ⟨100, _⟩ => ⟨S2000x128, .bf16⟩
  | .local _ .vmem, ⟨101, _⟩ => ⟨S2000x128, .bf16⟩
  | .local _ .vmem, ⟨102, _⟩ => ⟨S128x128, .f32⟩
  | .local _ .vmem, ⟨103, _⟩ => ⟨S128x128, .f32⟩
  | .local _ .vmem, ⟨104, _⟩ => ⟨S1x128, .f32⟩
  | .local _ .vmem, ⟨105, _⟩ => ⟨S2000x1, .i32⟩
  | .local _ .vmem, ⟨106, _⟩ => ⟨S2000x1, .i32⟩
  | .local _ .vmem, ⟨107, _⟩ => ⟨S2000x128, .f32⟩
  | .local _ .vmem, ⟨108, _⟩ => ⟨S2000x128, .f32⟩
  | .local _ .vmem, ⟨109, _⟩ => ⟨S512x128, .f32⟩
  | .local _ .vmem, ⟨110, _⟩ => ⟨S512x128, .f32⟩
  | .local _ .vmem, ⟨111, _⟩ => ⟨S512x384, .f32⟩
  | .local _ .vmem, ⟨112, _⟩ => ⟨S1x384, .f32⟩
  | .local _ .vmem, ⟨113, _⟩ => ⟨S1x384, .f32⟩
  | .local _ .vmem, ⟨114, _⟩ => ⟨S1x384, .f32⟩
  | .local _ .vmem, ⟨115, _⟩ => ⟨S1x384, .f32⟩
  | .local _ .vmem, ⟨116, _⟩ => ⟨S384x128, .f32⟩
  | .local _ .vmem, ⟨117, _⟩ => ⟨S1x128, .f32⟩
  | .local _ .vmem, ⟨118, _⟩ => ⟨S128x10, .f32⟩
  | .local _ .vmem, ⟨119, _⟩ => ⟨S1x10, .f32⟩
  | .local _ .vmem, ⟨120, _⟩ => ⟨S512x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | _, _ => false

abbrev semScoped : Fin 0 → Bool
  | ⟨_, h⟩ => absurd h (Nat.not_lt_zero _)

abbrev dmaSemScoped : Fin 118 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | _ => false

abbrev sig : RefSig :=
  ofTc nBuf bufTy 0 118 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_v0 : Ref sig .tc := ⟨.hbm, 20, rfl⟩
abbrev main_call0_v1_0 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c_1 : Ref sig .tc := ⟨.hbm, 32, rfl⟩
abbrev main_v12 : Ref sig .tc := ⟨.hbm, 33, rfl⟩
abbrev main_v13 : Ref sig .tc := ⟨.hbm, 34, rfl⟩
abbrev main_c_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_c_4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_5 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_6 : Ref sig .tc := ⟨.hbm, 58, rfl⟩
abbrev main_v32 : Ref sig .tc := ⟨.hbm, 59, rfl⟩
abbrev main_v33 : Ref sig .tc := ⟨.hbm, 60, rfl⟩
abbrev main_c_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_8 : Ref sig .tc := ⟨.hbm, 68, rfl⟩
abbrev main_v40 : Ref sig .tc := ⟨.hbm, 69, rfl⟩
abbrev main_v41 : Ref sig .tc := ⟨.hbm, 70, rfl⟩
abbrev main_c_9 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_10 : Ref sig .tc := ⟨.hbm, 88, rfl⟩
abbrev main_v58 : Ref sig .tc := ⟨.hbm, 89, rfl⟩
abbrev main_v59 : Ref sig .tc := ⟨.hbm, 90, rfl⟩
abbrev main_c_11 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_12 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_13 : Ref sig .tc := ⟨.hbm, 109, rfl⟩
abbrev main_v76 : Ref sig .tc := ⟨.hbm, 110, rfl⟩
abbrev main_v77 : Ref sig .tc := ⟨.hbm, 111, rfl⟩
abbrev main_c_14 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_15 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100_0 : Ref sig .tc := ⟨.hbm, 136, rfl⟩
abbrev main_v100_1 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_c_16 : Ref sig .tc := ⟨.hbm, 147, rfl⟩
abbrev main_v110 : Ref sig .tc := ⟨.hbm, 148, rfl⟩
abbrev main_v111 : Ref sig .tc := ⟨.hbm, 149, rfl⟩
abbrev main_c_17 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_cst_18 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_c_19 : Ref sig .tc := ⟨.hbm, 168, rfl⟩
abbrev main_v128 : Ref sig .tc := ⟨.hbm, 169, rfl⟩
abbrev main_v129 : Ref sig .tc := ⟨.hbm, 170, rfl⟩
abbrev main_c_20 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_cst_21 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152_0 : Ref sig .tc := ⟨.hbm, 195, rfl⟩
abbrev main_v152_1 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_c_22 : Ref sig .tc := ⟨.hbm, 206, rfl⟩
abbrev main_v162 : Ref sig .tc := ⟨.hbm, 207, rfl⟩
abbrev main_v163 : Ref sig .tc := ⟨.hbm, 208, rfl⟩
abbrev main_c_23 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_cst_24 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_c_25 : Ref sig .tc := ⟨.hbm, 227, rfl⟩
abbrev main_v180 : Ref sig .tc := ⟨.hbm, 228, rfl⟩
abbrev main_v181 : Ref sig .tc := ⟨.hbm, 229, rfl⟩
abbrev main_c_26 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_cst_27 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204_0 : Ref sig .tc := ⟨.hbm, 254, rfl⟩
abbrev main_v204_1 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc3_stg5_0 : Ref sig .tc := ⟨.vmem, 28, rfl⟩
abbrev cc3_stg6_0 : Ref sig .tc := ⟨.vmem, 29, rfl⟩
abbrev cc3_stg7_0 : Ref sig .tc := ⟨.vmem, 30, rfl⟩
abbrev cc3_stg8_0 : Ref sig .tc := ⟨.vmem, 31, rfl⟩
abbrev cc3_stg8_1 : Ref sig .tc := ⟨.vmem, 32, rfl⟩
abbrev cc3_stg9_0 : Ref sig .tc := ⟨.vmem, 33, rfl⟩
abbrev cc3_stg9_1 : Ref sig .tc := ⟨.vmem, 34, rfl⟩
abbrev cc3_stg10_0 : Ref sig .tc := ⟨.vmem, 35, rfl⟩
abbrev cc3_scratch0 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg2_0 : Ref sig .tc := ⟨.vmem, 40, rfl⟩
abbrev cc4_stg2_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg4_1 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg2_0 : Ref sig .tc := ⟨.vmem, 54, rfl⟩
abbrev cc6_stg2_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg1_1 : Ref sig .tc := ⟨.vmem, 59, rfl⟩
abbrev cc7_stg2_0 : Ref sig .tc := ⟨.vmem, 60, rfl⟩
abbrev cc7_stg2_1 : Ref sig .tc := ⟨.vmem, 61, rfl⟩
abbrev cc7_stg3_0 : Ref sig .tc := ⟨.vmem, 62, rfl⟩
abbrev cc7_stg4_0 : Ref sig .tc := ⟨.vmem, 63, rfl⟩
abbrev cc7_stg4_1 : Ref sig .tc := ⟨.vmem, 64, rfl⟩
abbrev cc7_stg5_0 : Ref sig .tc := ⟨.vmem, 65, rfl⟩
abbrev cc7_stg6_0 : Ref sig .tc := ⟨.vmem, 66, rfl⟩
abbrev cc7_stg7_0 : Ref sig .tc := ⟨.vmem, 67, rfl⟩
abbrev cc7_stg8_0 : Ref sig .tc := ⟨.vmem, 68, rfl⟩
abbrev cc7_stg8_1 : Ref sig .tc := ⟨.vmem, 69, rfl⟩
abbrev cc7_stg9_0 : Ref sig .tc := ⟨.vmem, 70, rfl⟩
abbrev cc7_stg9_1 : Ref sig .tc := ⟨.vmem, 71, rfl⟩
abbrev cc7_stg10_0 : Ref sig .tc := ⟨.vmem, 72, rfl⟩
abbrev cc7_scratch0 : Ref sig .tc := ⟨.vmem, 73, rfl⟩
abbrev cc8_stg0_0 : Ref sig .tc := ⟨.vmem, 74, rfl⟩
abbrev cc8_stg0_1 : Ref sig .tc := ⟨.vmem, 75, rfl⟩
abbrev cc8_stg1_0 : Ref sig .tc := ⟨.vmem, 76, rfl⟩
abbrev cc8_stg2_0 : Ref sig .tc := ⟨.vmem, 77, rfl⟩
abbrev cc8_stg2_1 : Ref sig .tc := ⟨.vmem, 78, rfl⟩
abbrev cc9_stg0_0 : Ref sig .tc := ⟨.vmem, 79, rfl⟩
abbrev cc9_stg0_1 : Ref sig .tc := ⟨.vmem, 80, rfl⟩
abbrev cc9_stg1_0 : Ref sig .tc := ⟨.vmem, 81, rfl⟩
abbrev cc9_stg1_1 : Ref sig .tc := ⟨.vmem, 82, rfl⟩
abbrev cc9_stg2_0 : Ref sig .tc := ⟨.vmem, 83, rfl⟩
abbrev cc9_stg2_1 : Ref sig .tc := ⟨.vmem, 84, rfl⟩
abbrev cc9_stg3_0 : Ref sig .tc := ⟨.vmem, 85, rfl⟩
abbrev cc9_stg4_0 : Ref sig .tc := ⟨.vmem, 86, rfl⟩
abbrev cc9_stg4_1 : Ref sig .tc := ⟨.vmem, 87, rfl⟩
abbrev cc10_stg0_0 : Ref sig .tc := ⟨.vmem, 88, rfl⟩
abbrev cc10_stg0_1 : Ref sig .tc := ⟨.vmem, 89, rfl⟩
abbrev cc10_stg1_0 : Ref sig .tc := ⟨.vmem, 90, rfl⟩
abbrev cc10_stg2_0 : Ref sig .tc := ⟨.vmem, 91, rfl⟩
abbrev cc10_stg2_1 : Ref sig .tc := ⟨.vmem, 92, rfl⟩
abbrev cc11_stg0_0 : Ref sig .tc := ⟨.vmem, 93, rfl⟩
abbrev cc11_stg0_1 : Ref sig .tc := ⟨.vmem, 94, rfl⟩
abbrev cc11_stg1_0 : Ref sig .tc := ⟨.vmem, 95, rfl⟩
abbrev cc11_stg1_1 : Ref sig .tc := ⟨.vmem, 96, rfl⟩
abbrev cc11_stg2_0 : Ref sig .tc := ⟨.vmem, 97, rfl⟩
abbrev cc11_stg2_1 : Ref sig .tc := ⟨.vmem, 98, rfl⟩
abbrev cc11_stg3_0 : Ref sig .tc := ⟨.vmem, 99, rfl⟩
abbrev cc11_stg4_0 : Ref sig .tc := ⟨.vmem, 100, rfl⟩
abbrev cc11_stg4_1 : Ref sig .tc := ⟨.vmem, 101, rfl⟩
abbrev cc11_stg5_0 : Ref sig .tc := ⟨.vmem, 102, rfl⟩
abbrev cc11_stg6_0 : Ref sig .tc := ⟨.vmem, 103, rfl⟩
abbrev cc11_stg7_0 : Ref sig .tc := ⟨.vmem, 104, rfl⟩
abbrev cc11_stg8_0 : Ref sig .tc := ⟨.vmem, 105, rfl⟩
abbrev cc11_stg8_1 : Ref sig .tc := ⟨.vmem, 106, rfl⟩
abbrev cc11_stg9_0 : Ref sig .tc := ⟨.vmem, 107, rfl⟩
abbrev cc11_stg9_1 : Ref sig .tc := ⟨.vmem, 108, rfl⟩
abbrev cc11_stg10_0 : Ref sig .tc := ⟨.vmem, 109, rfl⟩
abbrev cc11_scratch0 : Ref sig .tc := ⟨.vmem, 110, rfl⟩
abbrev cc12_stg0_0 : Ref sig .tc := ⟨.vmem, 111, rfl⟩
abbrev cc12_stg1_0 : Ref sig .tc := ⟨.vmem, 112, rfl⟩
abbrev cc12_stg2_0 : Ref sig .tc := ⟨.vmem, 113, rfl⟩
abbrev cc12_stg3_0 : Ref sig .tc := ⟨.vmem, 114, rfl⟩
abbrev cc12_stg4_0 : Ref sig .tc := ⟨.vmem, 115, rfl⟩
abbrev cc12_stg5_0 : Ref sig .tc := ⟨.vmem, 116, rfl⟩
abbrev cc12_stg6_0 : Ref sig .tc := ⟨.vmem, 117, rfl⟩
abbrev cc12_stg7_0 : Ref sig .tc := ⟨.vmem, 118, rfl⟩
abbrev cc12_stg8_0 : Ref sig .tc := ⟨.vmem, 119, rfl⟩
abbrev cc12_stg9_0 : Ref sig .tc := ⟨.vmem, 120, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc3_sem5_0 : DmaSem sig := 28
abbrev cc3_sem6_0 : DmaSem sig := 29
abbrev cc3_sem7_0 : DmaSem sig := 30
abbrev cc3_sem8_0 : DmaSem sig := 31
abbrev cc3_sem8_1 : DmaSem sig := 32
abbrev cc3_sem9_0 : DmaSem sig := 33
abbrev cc3_sem9_1 : DmaSem sig := 34
abbrev cc3_sem10_0 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem2_1 : DmaSem sig := 46
abbrev cc5_sem3_0 : DmaSem sig := 47
abbrev cc5_sem4_0 : DmaSem sig := 48
abbrev cc5_sem4_1 : DmaSem sig := 49
abbrev cc6_sem0_0 : DmaSem sig := 50
abbrev cc6_sem0_1 : DmaSem sig := 51
abbrev cc6_sem1_0 : DmaSem sig := 52
abbrev cc6_sem2_0 : DmaSem sig := 53
abbrev cc6_sem2_1 : DmaSem sig := 54
abbrev cc7_sem0_0 : DmaSem sig := 55
abbrev cc7_sem0_1 : DmaSem sig := 56
abbrev cc7_sem1_0 : DmaSem sig := 57
abbrev cc7_sem1_1 : DmaSem sig := 58
abbrev cc7_sem2_0 : DmaSem sig := 59
abbrev cc7_sem2_1 : DmaSem sig := 60
abbrev cc7_sem3_0 : DmaSem sig := 61
abbrev cc7_sem4_0 : DmaSem sig := 62
abbrev cc7_sem4_1 : DmaSem sig := 63
abbrev cc7_sem5_0 : DmaSem sig := 64
abbrev cc7_sem6_0 : DmaSem sig := 65
abbrev cc7_sem7_0 : DmaSem sig := 66
abbrev cc7_sem8_0 : DmaSem sig := 67
abbrev cc7_sem8_1 : DmaSem sig := 68
abbrev cc7_sem9_0 : DmaSem sig := 69
abbrev cc7_sem9_1 : DmaSem sig := 70
abbrev cc7_sem10_0 : DmaSem sig := 71
abbrev cc8_sem0_0 : DmaSem sig := 72
abbrev cc8_sem0_1 : DmaSem sig := 73
abbrev cc8_sem1_0 : DmaSem sig := 74
abbrev cc8_sem2_0 : DmaSem sig := 75
abbrev cc8_sem2_1 : DmaSem sig := 76
abbrev cc9_sem0_0 : DmaSem sig := 77
abbrev cc9_sem0_1 : DmaSem sig := 78
abbrev cc9_sem1_0 : DmaSem sig := 79
abbrev cc9_sem1_1 : DmaSem sig := 80
abbrev cc9_sem2_0 : DmaSem sig := 81
abbrev cc9_sem2_1 : DmaSem sig := 82
abbrev cc9_sem3_0 : DmaSem sig := 83
abbrev cc9_sem4_0 : DmaSem sig := 84
abbrev cc9_sem4_1 : DmaSem sig := 85
abbrev cc10_sem0_0 : DmaSem sig := 86
abbrev cc10_sem0_1 : DmaSem sig := 87
abbrev cc10_sem1_0 : DmaSem sig := 88
abbrev cc10_sem2_0 : DmaSem sig := 89
abbrev cc10_sem2_1 : DmaSem sig := 90
abbrev cc11_sem0_0 : DmaSem sig := 91
abbrev cc11_sem0_1 : DmaSem sig := 92
abbrev cc11_sem1_0 : DmaSem sig := 93
abbrev cc11_sem1_1 : DmaSem sig := 94
abbrev cc11_sem2_0 : DmaSem sig := 95
abbrev cc11_sem2_1 : DmaSem sig := 96
abbrev cc11_sem3_0 : DmaSem sig := 97
abbrev cc11_sem4_0 : DmaSem sig := 98
abbrev cc11_sem4_1 : DmaSem sig := 99
abbrev cc11_sem5_0 : DmaSem sig := 100
abbrev cc11_sem6_0 : DmaSem sig := 101
abbrev cc11_sem7_0 : DmaSem sig := 102
abbrev cc11_sem8_0 : DmaSem sig := 103
abbrev cc11_sem8_1 : DmaSem sig := 104
abbrev cc11_sem9_0 : DmaSem sig := 105
abbrev cc11_sem9_1 : DmaSem sig := 106
abbrev cc11_sem10_0 : DmaSem sig := 107
abbrev cc12_sem0_0 : DmaSem sig := 108
abbrev cc12_sem1_0 : DmaSem sig := 109
abbrev cc12_sem2_0 : DmaSem sig := 110
abbrev cc12_sem3_0 : DmaSem sig := 111
abbrev cc12_sem4_0 : DmaSem sig := 112
abbrev cc12_sem5_0 : DmaSem sig := 113
abbrev cc12_sem6_0 : DmaSem sig := 114
abbrev cc12_sem7_0 : DmaSem sig := 115
abbrev cc12_sem8_0 : DmaSem sig := 116
abbrev cc12_sem9_0 : DmaSem sig := 117

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def k3_cond2 (i : grid3.Coords) : BitVec 1 :=
  let arg0 : BitVec 32 := BitVec.ofNat 32 (i 0).val
  let c24_i32 : BitVec 32 := 24#32
  let v53 : BitVec 1 := Scalar.cmpi .eq arg0 c24_i32
  let v54 : BitVec 32 := Scalar.extui v53
  let c0_i32_28 : BitVec 32 := 0#32
  let v55 : BitVec 1 := Scalar.cmpi .ne v54 c0_i32_28
  v55

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x1 .i32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S2000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 1 → Memref sig .tc .vmem S512x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x128 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x128 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def k7_cond2 (i : grid7.Coords) : BitVec 1 :=
  let arg0 : BitVec 32 := BitVec.ofNat 32 (i 0).val
  let c24_i32 : BitVec 32 := 24#32
  let v53 : BitVec 1 := Scalar.cmpi .eq arg0 c24_i32
  let v54 : BitVec 32 := Scalar.extui v53
  let c0_i32_28 : BitVec 32 := 0#32
  let v55 : BitVec 1 := Scalar.cmpi .ne v54 c0_i32_28
  v55

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_10 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2000x128 .bf16 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S128x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S128x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 2 → Memref sig .tc .vmem S2000x1 .i32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev stage7_9 : Fin 2 → Memref sig .tc .vmem S2000x128 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

abbrev stage7_10 : Fin 1 → Memref sig .tc .vmem S512x128 .f32 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S2000x128 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x128 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S2000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S2000x128 .bf16 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S2000x128 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![25], ![false]⟩

def k11_cond2 (i : grid11.Coords) : BitVec 1 :=
  let arg0 : BitVec 32 := BitVec.ofNat 32 (i 0).val
  let c24_i32 : BitVec 32 := 24#32
  let v53 : BitVec 1 := Scalar.cmpi .eq arg0 c24_i32
  let v54 : BitVec 32 := Scalar.extui v53
  let c0_i32_28 : BitVec 32 := 0#32
  let v55 : BitVec 1 := Scalar.cmpi .ne v54 c0_i32_28
  v55

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_8 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_9 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_10 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S2000x128 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S2000x1 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S2000x128 .bf16 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev stage11_5 : Fin 1 → Memref sig .tc .vmem S128x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S128x128 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 1 → Memref sig .tc .vmem S1x128 .f32 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))
abbrev reads11_7 : Fin grid11.rank → Bool := ![false]

abbrev stage11_8 : Fin 2 → Memref sig .tc .vmem S2000x1 .i32 := fun | 0 => Memref.whole cc11_stg8_0 | 1 => Memref.whole cc11_stg8_1 | ⟨_ + 2, h⟩ => absurd h (Nat.not_lt.2 (Nat.le_add_left _ _))
abbrev sem11_8 : Fin 2 → DmaSem sig := fun | 0 => cc11_sem8_0 | 1 => cc11_sem8_1 | ⟨_ + 2, h⟩ => absurd h (Nat.not_lt.2 (Nat.le_add_left _ _))
abbrev reads11_8 : Fin grid11.rank → Bool := ![true]

abbrev stage11_9 : Fin 2 → Memref sig .tc .vmem S2000x128 .f32 := fun | 0 => Memref.whole cc11_stg9_0 | 1 => Memref.whole cc11_stg9_1 | ⟨_ + 2, h⟩ => absurd h (Nat.not_lt.2 (Nat.le_add_left _ _))
abbrev sem11_9 : Fin 2 → DmaSem sig := fun | 0 => cc11_sem9_0 | 1 => cc11_sem9_1 | ⟨_ + 2, h⟩ => absurd h (Nat.not_lt.2 (Nat.le_add_left _ _))
abbrev reads11_9 : Fin grid11.rank → Bool := ![true]

abbrev stage11_10 : Fin 1 → Memref sig .tc .vmem S512x128 .f32 := fun | 0 => Memref.whole cc11_stg10_0 | ⟨_ + 1, h⟩ => absurd h (Nat.not_lt.2 (Nat.le_add_left _ _))
abbrev sem11_10 : Fin 1 → DmaSem sig := fun | 0 => cc11_sem10_0 | ⟨_ + 1, h⟩ => absurd h (Nat.not_lt.2 (Nat.le_add_left _ _))
abbrev reads11_10 : Fin grid11.rank → Bool := ![false]

abbrev grid12 : Pipeline.Grid := ⟨1, ![1], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_8 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_9 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 1 → Memref sig .tc .vmem S512x384 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![false]

abbrev stage12_1 : Fin 1 → Memref sig .tc .vmem S1x384 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x384 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x384 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x384 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S384x128 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S1x128 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 1 → Memref sig .tc .vmem S128x10 .f32 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))
abbrev reads12_7 : Fin grid12.rank → Bool := ![false]

abbrev stage12_8 : Fin 1 → Memref sig .tc .vmem S1x10 .f32 := fun | 0 => Memref.whole cc12_stg8_0 | ⟨_ + 1, h⟩ => absurd h (Nat.not_lt.2 (Nat.le_add_left _ _))
abbrev sem12_8 : Fin 1 → DmaSem sig := fun | 0 => cc12_sem8_0 | ⟨_ + 1, h⟩ => absurd h (Nat.not_lt.2 (Nat.le_add_left _ _))
abbrev reads12_8 : Fin grid12.rank → Bool := ![false]

abbrev stage12_9 : Fin 1 → Memref sig .tc .vmem S512x10 .f32 := fun | 0 => Memref.whole cc12_stg9_0 | ⟨_ + 1, h⟩ => absurd h (Nat.not_lt.2 (Nat.le_add_left _ _))
abbrev sem12_9 : Fin 1 → DmaSem sig := fun | 0 => cc12_sem9_0 | ⟨_ + 1, h⟩ => absurd h (Nat.not_lt.2 (Nat.le_add_left _ _))
abbrev reads12_9 : Fin grid12.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  slices_S3x2x128x128_S1x1x128x128_0_0_0_0 : S3x2x128x128.Slices ![0, 0, 0, 0] S1x1x128x128
  shapeCasts_S1x1x128x128_S128x128 : S1x1x128x128.ShapeCasts S128x128
  slices_S3x2x128x128_S1x1x128x128_0_1_0_0 : S3x2x128x128.Slices ![0, 1, 0, 0] S1x1x128x128
  slices_S3x2x128_S1x1x128_0_0_0 : S3x2x128.Slices ![0, 0, 0] S1x1x128
  shapeCasts_S1x1x128_S128 : S1x1x128.ShapeCasts S128
  slices_S3x2x128_S1x1x128_0_1_0 : S3x2x128.Slices ![0, 1, 0] S1x1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S2000x128_S2000x128_0_0 : (Rect.unit (s := S2000x128) ![0, 0] S2000x128.size inb_S2000x128_S2000x128_0_0).PackedRows (EltTy.packing .bf16)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3x256x128_S1x256x128_0_0_0 : S3x256x128.Slices ![0, 0, 0] S1x256x128
  shapeCasts_S1x256x128_S256x128 : S1x256x128.ShapeCasts S256x128
  slices_S3x128_S1x128_0_0 : S3x128.Slices ![0, 0] S1x128
  shapeCasts_S1x128_S128 : S1x128.ShapeCasts S128
  slices_S256x128_S128x128_0_0 : S256x128.Slices ![0, 0] S128x128
  slices_S256x128_S128x128_128_0 : S256x128.Slices ![128, 0] S128x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  iota_S2000x512_d1_w32 : S2000x512.Iotas .tc 32 [1]
  broadcasts_S2000x1_S2000x512 : S2000x1.Broadcasts S2000x512
  natLt_1_32 : 1 < 32
  slices_S3x2x128x128_S1x1x128x128_1_0_0_0 : S3x2x128x128.Slices ![1, 0, 0, 0] S1x1x128x128
  slices_S3x2x128x128_S1x1x128x128_1_1_0_0 : S3x2x128x128.Slices ![1, 1, 0, 0] S1x1x128x128
  slices_S3x2x128_S1x1x128_1_0_0 : S3x2x128.Slices ![1, 0, 0] S1x1x128
  slices_S3x2x128_S1x1x128_1_1_0 : S3x2x128.Slices ![1, 1, 0] S1x1x128
  slices_S3x256x128_S1x256x128_1_0_0 : S3x256x128.Slices ![1, 0, 0] S1x256x128
  slices_S3x128_S1x128_1_0 : S3x128.Slices ![1, 0] S1x128
  slices_S3x2x128x128_S1x1x128x128_2_0_0_0 : S3x2x128x128.Slices ![2, 0, 0, 0] S1x1x128x128
  slices_S3x2x128x128_S1x1x128x128_2_1_0_0 : S3x2x128x128.Slices ![2, 1, 0, 0] S1x1x128x128
  slices_S3x2x128_S1x1x128_2_0_0 : S3x2x128.Slices ![2, 0, 0] S1x1x128
  slices_S3x2x128_S1x1x128_2_1_0 : S3x2x128.Slices ![2, 1, 0] S1x1x128
  slices_S3x256x128_S1x256x128_2_0_0 : S3x256x128.Slices ![2, 0, 0] S1x256x128
  slices_S3x128_S1x128_2_0 : S3x128.Slices ![2, 0] S1x128
  concatenates_S512x128_S512x128_S512x128_S512x384_d1 : Shape.Concatenates [S512x128, S512x128, S512x128] S512x384 1
  shapeCasts_S384_S1x384 : S384.ShapeCasts S1x384
  shapeCasts_S10_S1x10 : S10.ShapeCasts S1x10
  inb_S512x384_S512x384_0_0 : ∀ a, (![0, 0] : Fin 2 → Nat) a + S512x384.size a ≤ S512x384.size a
  h_S512x384 : 0 < S512x384.numel
  shapeCasts_S512x384_S512x384 : S512x384.ShapeCasts S512x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S512x384 : S1x384.Broadcasts S512x384
  inb_S384x128_S384x128_0_0 : ∀ a, (![0, 0] : Fin 2 → Nat) a + S384x128.size a ≤ S384x128.size a
  h_S384x128 : 0 < S384x128.numel
  broadcasts_S1x128_S512x128 : S1x128.Broadcasts S512x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  reduces_S512x10_S512 : S512x10.Reduces [1] S512
  shapeCasts_S512_S512x1 : S512.ShapeCasts S512x1
  broadcasts_S512x1_S512x10 : S512x1.Broadcasts S512x10
  inb_S512x10_S512x10_0_0 : ∀ a, (![0, 0] : Fin 2 → Nat) a + S512x10.size a ≤ S512x10.size a
  h_S512x10 : 0 < S512x10.numel
  gather_S800000_S800000x1_S800000_n_0_n_n_0_1_1_wf : GatherDims.WF S800000 S800000x1 S800000 [] [0] [] [0] [] 1 ![1]
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x512_S2000x128_S512x128_0_0_1_1_n_n_wf : DotDims.WF S2000x512 S2000x128 S512x128 [0] [0] [1] [1] [] []
  dot_S512x384_S384x128_S512x128_1_0_0_1_n_n_wf : DotDims.WF S512x384 S384x128 S512x128 [1] [0] [0] [1] [] []
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .bf16 = 32 ∨ (Rect.block (s := S50000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .bf16 = 32 ∨ (Rect.block (s := S50000x128) S2000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .bf16 = 32 ∨ (Rect.block (s := S50000x128) S2000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .bf16 = 32 ∨ (Rect.block (s := S50000x128) S2000x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .bf16 = 32 ∨ (Rect.block (s := S50000x128) S2000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .bf16 = 32 ∨ (Rect.block (s := S50000x128) S2000x128.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x1.size a ≤ S50000x1.size a
  hwx3_8 : ∀ i : grid3.Coords, EltTy.bits .i32 = 32 ∨ (Rect.block (s := S50000x1) S2000x1.size (cc3_transform_8 i) (hinb3_8 i)).WholeWords (EltTy.packing .i32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x128.size a ≤ S50000x128.size a
  hwx3_9 : ∀ i : grid3.Coords, EltTy.bits .f32 = 32 ∨ (Rect.block (s := S50000x128) S2000x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S512x128.size a ≤ S512x128.size a
  hwx3_10 : ∀ i : grid3.Coords, EltTy.bits .f32 = 32 ∨ (Rect.block (s := S512x128) S512x128.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .bf16 = 32 ∨ (Rect.block (s := S50000x128) S2000x128.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .bf16 = 32 ∨ (Rect.block (s := S50000x128) S2000x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x128.size a ≤ S50000x128.size a
  hwx5_4 : ∀ i : grid5.Coords, EltTy.bits .bf16 = 32 ∨ (Rect.block (s := S50000x128) S2000x128.size (cc5_transform_4 i) (hinb5_4 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .bf16 = 32 ∨ (Rect.block (s := S50000x128) S2000x128.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S50000x128.size a
  hwx6_2 : ∀ i : grid6.Coords, EltTy.bits .bf16 = 32 ∨ (Rect.block (s := S50000x128) S2000x128.size (cc6_transform_2 i) (hinb6_2 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S50000x128.size a
  hwx7_1 : ∀ i : grid7.Coords, EltTy.bits .bf16 = 32 ∨ (Rect.block (s := S50000x128) S2000x128.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S50000x1.size a
  hwx7_2 : ∀ i : grid7.Coords, EltTy.bits .f32 = 32 ∨ (Rect.block (s := S50000x1) S2000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x128.size a ≤ S50000x128.size a
  hwx7_4 : ∀ i : grid7.Coords, EltTy.bits .bf16 = 32 ∨ (Rect.block (s := S50000x128) S2000x128.size (cc7_transform_4 i) (hinb7_4 i)).WholeWords (EltTy.packing .bf16)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x128.size a ≤ S128x128.size a
  hwx7_5 : ∀ i : grid7.Coords, EltTy.bits .f32 = 32 ∨ (Rect.block (s := S128x128) S128x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S128x128.size a ≤ S128x128.size a
  hwx7_6 : ∀ i : grid7.Coords, EltTy.bits .f32 = 32 ∨ (Rect.block (s := S128x128) S128x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x128.size a ≤ S1x128.size a
  hwx7_7 : ∀ i : grid7.Coords, EltTy.bits .f32 = 32 ∨ (Rect.block (s := S1x128) S1x128.size (cc7_transform_7 i) (hinb7_7 i)).WholeWords (EltTy.packing .f32)
  hstage7_8 : ∀ j, (stage7_8 j).IsWhole
  nbuf7_8 : grid7.bufCount reads7_8 false = 2
  hreads7_8 : ∀ i i' : grid7.Coords, (∀ a, reads7_8 a = true → i a = i' a) → cc7_transform_8 i = cc7_transform_8 i'
  hinb7_8 : ∀ (i : grid7.Coords) a, (cc7_transform_8 i a + 1) * S2000x1.size a ≤ S50000x1.size a
  hwx7_8 : ∀ i : grid7.Coords, EltTy.bits .i32 = 32 ∨ (Rect.block (s := S50000x1) S2000x1.size (cc7_transform_8 i) (hinb7_8 i)).WholeWords (EltTy.packing .i32)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S2000x128.size a ≤ S50000x128.size a
  hwx7_9 : ∀ i : grid7.Coords, EltTy.bits .f32 = 32 ∨ (Rect.block (s := S50000x128) S2000x128.size (cc7_transform_9 i) (hinb7_9 i)).WholeWords (EltTy.packing .f32)
  hstage7_10 : ∀ j, (stage7_10 j).IsWhole
  nbuf7_10 : grid7.bufCount reads7_10 true = 1
  hreads7_10 : ∀ i i' : grid7.Coords, (∀ a, reads7_10 a = true → i a = i' a) → cc7_transform_10 i = cc7_transform_10 i'
  hinb7_10 : ∀ (i : grid7.Coords) a, (cc7_transform_10 i a + 1) * S512x128.size a ≤ S512x128.size a
  hwx7_10 : ∀ i : grid7.Coords, EltTy.bits .f32 = 32 ∨ (Rect.block (s := S512x128) S512x128.size (cc7_transform_10 i) (hinb7_10 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x128.size a ≤ S50000x128.size a
  hwx8_2 : ∀ i : grid8.Coords, EltTy.bits .bf16 = 32 ∨ (Rect.block (s := S50000x128) S2000x128.size (cc8_transform_2 i) (hinb8_2 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x128.size a ≤ S50000x128.size a
  hwx9_1 : ∀ i : grid9.Coords, EltTy.bits .bf16 = 32 ∨ (Rect.block (s := S50000x128) S2000x128.size (cc9_transform_1 i) (hinb9_1 i)).WholeWords (EltTy.packing .bf16)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x1.size a ≤ S50000x1.size a
  hwx9_2 : ∀ i : grid9.Coords, EltTy.bits .f32 = 32 ∨ (Rect.block (s := S50000x1) S2000x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S2000x128.size a ≤ S50000x128.size a
  hwx9_4 : ∀ i : grid9.Coords, EltTy.bits .bf16 = 32 ∨ (Rect.block (s := S50000x128) S2000x128.size (cc9_transform_4 i) (hinb9_4 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S50000x128.size a
  hwx10_0 : ∀ i : grid10.Coords, EltTy.bits .bf16 = 32 ∨ (Rect.block (s := S50000x128) S2000x128.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x128.size a ≤ S50000x128.size a
  hwx10_2 : ∀ i : grid10.Coords, EltTy.bits .bf16 = 32 ∨ (Rect.block (s := S50000x128) S2000x128.size (cc10_transform_2 i) (hinb10_2 i)).WholeWords (EltTy.packing .bf16)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S50000x128.size a
  hwx11_0 : ∀ i : grid11.Coords, EltTy.bits .f32 = 32 ∨ (Rect.block (s := S50000x128) S2000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2000x128.size a ≤ S50000x128.size a
  hwx11_1 : ∀ i : grid11.Coords, EltTy.bits .bf16 = 32 ∨ (Rect.block (s := S50000x128) S2000x128.size (cc11_transform_1 i) (hinb11_1 i)).WholeWords (EltTy.packing .bf16)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S2000x1.size a ≤ S50000x1.size a
  hwx11_2 : ∀ i : grid11.Coords, EltTy.bits .f32 = 32 ∨ (Rect.block (s := S50000x1) S2000x1.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S2000x128.size a ≤ S50000x128.size a
  hwx11_4 : ∀ i : grid11.Coords, EltTy.bits .bf16 = 32 ∨ (Rect.block (s := S50000x128) S2000x128.size (cc11_transform_4 i) (hinb11_4 i)).WholeWords (EltTy.packing .bf16)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S128x128.size a ≤ S128x128.size a
  hwx11_5 : ∀ i : grid11.Coords, EltTy.bits .f32 = 32 ∨ (Rect.block (s := S128x128) S128x128.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S128x128.size a ≤ S128x128.size a
  hwx11_6 : ∀ i : grid11.Coords, EltTy.bits .f32 = 32 ∨ (Rect.block (s := S128x128) S128x128.size (cc11_transform_6 i) (hinb11_6 i)).WholeWords (EltTy.packing .f32)
  hstage11_7 : ∀ j, (stage11_7 j).IsWhole
  nbuf11_7 : grid11.bufCount reads11_7 true = 1
  hreads11_7 : ∀ i i' : grid11.Coords, (∀ a, reads11_7 a = true → i a = i' a) → cc11_transform_7 i = cc11_transform_7 i'
  hinb11_7 : ∀ (i : grid11.Coords) a, (cc11_transform_7 i a + 1) * S1x128.size a ≤ S1x128.size a
  hwx11_7 : ∀ i : grid11.Coords, EltTy.bits .f32 = 32 ∨ (Rect.block (s := S1x128) S1x128.size (cc11_transform_7 i) (hinb11_7 i)).WholeWords (EltTy.packing .f32)
  hstage11_8 : ∀ j, (stage11_8 j).IsWhole
  nbuf11_8 : grid11.bufCount reads11_8 false = 2
  hreads11_8 : ∀ i i' : grid11.Coords, (∀ a, reads11_8 a = true → i a = i' a) → cc11_transform_8 i = cc11_transform_8 i'
  hinb11_8 : ∀ (i : grid11.Coords) a, (cc11_transform_8 i a + 1) * S2000x1.size a ≤ S50000x1.size a
  hwx11_8 : ∀ i : grid11.Coords, EltTy.bits .i32 = 32 ∨ (Rect.block (s := S50000x1) S2000x1.size (cc11_transform_8 i) (hinb11_8 i)).WholeWords (EltTy.packing .i32)
  hstage11_9 : ∀ j, (stage11_9 j).IsWhole
  nbuf11_9 : grid11.bufCount reads11_9 false = 2
  hreads11_9 : ∀ i i' : grid11.Coords, (∀ a, reads11_9 a = true → i a = i' a) → cc11_transform_9 i = cc11_transform_9 i'
  hinb11_9 : ∀ (i : grid11.Coords) a, (cc11_transform_9 i a + 1) * S2000x128.size a ≤ S50000x128.size a
  hwx11_9 : ∀ i : grid11.Coords, EltTy.bits .f32 = 32 ∨ (Rect.block (s := S50000x128) S2000x128.size (cc11_transform_9 i) (hinb11_9 i)).WholeWords (EltTy.packing .f32)
  hstage11_10 : ∀ j, (stage11_10 j).IsWhole
  nbuf11_10 : grid11.bufCount reads11_10 true = 1
  hreads11_10 : ∀ i i' : grid11.Coords, (∀ a, reads11_10 a = true → i a = i' a) → cc11_transform_10 i = cc11_transform_10 i'
  hinb11_10 : ∀ (i : grid11.Coords) a, (cc11_transform_10 i a + 1) * S512x128.size a ≤ S512x128.size a
  hwx11_10 : ∀ i : grid11.Coords, EltTy.bits .f32 = 32 ∨ (Rect.block (s := S512x128) S512x128.size (cc11_transform_10 i) (hinb11_10 i)).WholeWords (EltTy.packing .f32)
  hrank12 : 0 < grid12.rank
  hstage12_0 : ∀ j, (stage12_0 j).IsWhole
  nbuf12_0 : grid12.bufCount reads12_0 true = 1
  hreads12_0 : ∀ i i' : grid12.Coords, (∀ a, reads12_0 a = true → i a = i' a) → cc12_transform_0 i = cc12_transform_0 i'
  hinb12_0 : ∀ (i : grid12.Coords) a, (cc12_transform_0 i a + 1) * S512x384.size a ≤ S512x384.size a
  hwx12_0 : ∀ i : grid12.Coords, EltTy.bits .f32 = 32 ∨ (Rect.block (s := S512x384) S512x384.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x384.size a ≤ S1x384.size a
  hwx12_1 : ∀ i : grid12.Coords, EltTy.bits .f32 = 32 ∨ (Rect.block (s := S1x384) S1x384.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x384.size a ≤ S1x384.size a
  hwx12_2 : ∀ i : grid12.Coords, EltTy.bits .f32 = 32 ∨ (Rect.block (s := S1x384) S1x384.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x384.size a ≤ S1x384.size a
  hwx12_3 : ∀ i : grid12.Coords, EltTy.bits .f32 = 32 ∨ (Rect.block (s := S1x384) S1x384.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x384.size a ≤ S1x384.size a
  hwx12_4 : ∀ i : grid12.Coords, EltTy.bits .f32 = 32 ∨ (Rect.block (s := S1x384) S1x384.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S384x128.size a ≤ S384x128.size a
  hwx12_5 : ∀ i : grid12.Coords, EltTy.bits .f32 = 32 ∨ (Rect.block (s := S384x128) S384x128.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x128.size a ≤ S1x128.size a
  hwx12_6 : ∀ i : grid12.Coords, EltTy.bits .f32 = 32 ∨ (Rect.block (s := S1x128) S1x128.size (cc12_transform_6 i) (hinb12_6 i)).WholeWords (EltTy.packing .f32)
  hstage12_7 : ∀ j, (stage12_7 j).IsWhole
  nbuf12_7 : grid12.bufCount reads12_7 true = 1
  hreads12_7 : ∀ i i' : grid12.Coords, (∀ a, reads12_7 a = true → i a = i' a) → cc12_transform_7 i = cc12_transform_7 i'
  hinb12_7 : ∀ (i : grid12.Coords) a, (cc12_transform_7 i a + 1) * S128x10.size a ≤ S128x10.size a
  hwx12_7 : ∀ i : grid12.Coords, EltTy.bits .f32 = 32 ∨ (Rect.block (s := S128x10) S128x10.size (cc12_transform_7 i) (hinb12_7 i)).WholeWords (EltTy.packing .f32)
  hstage12_8 : ∀ j, (stage12_8 j).IsWhole
  nbuf12_8 : grid12.bufCount reads12_8 true = 1
  hreads12_8 : ∀ i i' : grid12.Coords, (∀ a, reads12_8 a = true → i a = i' a) → cc12_transform_8 i = cc12_transform_8 i'
  hinb12_8 : ∀ (i : grid12.Coords) a, (cc12_transform_8 i a + 1) * S1x10.size a ≤ S1x10.size a
  hwx12_8 : ∀ i : grid12.Coords, EltTy.bits .f32 = 32 ∨ (Rect.block (s := S1x10) S1x10.size (cc12_transform_8 i) (hinb12_8 i)).WholeWords (EltTy.packing .f32)
  hstage12_9 : ∀ j, (stage12_9 j).IsWhole
  nbuf12_9 : grid12.bufCount reads12_9 true = 1
  hreads12_9 : ∀ i i' : grid12.Coords, (∀ a, reads12_9 a = true → i a = i' a) → cc12_transform_9 i = cc12_transform_9 i'
  hinb12_9 : ∀ (i : grid12.Coords) a, (cc12_transform_9 i a + 1) * S512x10.size a ≤ S512x10.size a
  hwx12_9 : ∀ i : grid12.Coords, EltTy.bits .f32 = 32 ∨ (Rect.block (s := S512x10) S512x10.size (cc12_transform_9 i) (hinb12_9 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S800000_S800000x1_S800000_n_0_n_n_0_1_1 : GatherDims S800000 S800000x1 S800000 where
  offsetDims := []
  collapsedSliceDims := [0]
  operandBatchingDims := []
  startIndicesBatchingDims := []
  startIndexMap := [0]
  indexVectorDim := 1
  sliceSizes := ![1]
  wf := gather_S800000_S800000x1_S800000_n_0_n_n_0_1_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf
def dot_S512x384_S384x128_S512x128_1_0_0_1_n_n : DotDims S512x384 S384x128 S512x128 where
  lhsContracting := [1]
  rhsContracting := [0]
  lhsNonContracting := [0]
  rhsNonContracting := [1]
  lhsBatch := []
  rhsBatch := []
  wf := dot_S512x384_S384x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v57) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v71) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v72) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v73) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v74) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v74) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v75) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v89) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v96) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v97) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S2000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v94) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v95) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v98) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v99) S2000x1.size cc3_transform_8 reads3_8 false false 2 stage3_8 sem3_8
    hrank3 hreads3_8 hinb3_8 nbuf3_8 (Memref.isWhole_whole _) hwx3_8 hstage3_8

abbrev win3_9 : Pipeline.Window sig grid3 :=
  Pipeline.Window.ofSpec (Memref.whole main_v100_0) S2000x128.size cc3_transform_9 reads3_9 true false 2 stage3_9 sem3_9
    hrank3 hreads3_9 hinb3_9 nbuf3_9 (Memref.isWhole_whole _) hwx3_9 hstage3_9

abbrev win3_10 : Pipeline.Window sig grid3 :=
  Pipeline.Window.ofSpec (Memref.whole main_v100_1) S512x128.size cc3_transform_10 reads3_10 true true 1 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev idle3 : Fin 11 → grid3.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k3_cond2 i == 1#1) | ⟨_ + 11, h⟩ => absurd h (Nat.not_lt.2 (Nat.le_add_left _ _))

abbrev win4_0 : Pipeline.Window sig grid4 :=
  Pipeline.Window.ofSpec (Memref.whole main_v100_0) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v102) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v109) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v123) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v109) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v124) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v125) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v126) S2000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v126) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v104) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v127) S2000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v141) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v127) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v148) S2000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v149) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v126) S2000x128.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v146) S128x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v147) S128x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v150) S1x128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v151) S2000x1.size cc7_transform_8 reads7_8 false false 2 stage7_8 sem7_8
    hrank7 hreads7_8 hinb7_8 nbuf7_8 (Memref.isWhole_whole _) hwx7_8 hstage7_8

abbrev win7_9 : Pipeline.Window sig grid7 :=
  Pipeline.Window.ofSpec (Memref.whole main_v152_0) S2000x128.size cc7_transform_9 reads7_9 true false 2 stage7_9 sem7_9
    hrank7 hreads7_9 hinb7_9 nbuf7_9 (Memref.isWhole_whole _) hwx7_9 hstage7_9

abbrev win7_10 : Pipeline.Window sig grid7 :=
  Pipeline.Window.ofSpec (Memref.whole main_v152_1) S512x128.size cc7_transform_10 reads7_10 true true 1 stage7_10 sem7_10
    hrank7 hreads7_10 hinb7_10 nbuf7_10 (Memref.isWhole_whole _) hwx7_10 hstage7_10

abbrev win7 : Fin 11 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | ⟨_ + 11, h⟩ => absurd h (Nat.not_lt.2 (Nat.le_add_left _ _))
abbrev spec7 : Fin 11 → Pipeline.WinSpec sig grid7.rank := fun w => (win7 w).toWinSpec

abbrev idle7 : Fin 11 → grid7.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k7_cond2 i == 1#1) | ⟨_ + 11, h⟩ => absurd h (Nat.not_lt.2 (Nat.le_add_left _ _))

abbrev win8_0 : Pipeline.Window sig grid8 :=
  Pipeline.Window.ofSpec (Memref.whole main_v152_0) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v154) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v161) S2000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v175) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v161) S2000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v176) S2000x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v177) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v178) S2000x128.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v178) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v156) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v179) S2000x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v193) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v179) S2000x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v200) S2000x1.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v201) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v178) S2000x128.size cc11_transform_4 reads11_4 false false 2 stage11_4 sem11_4
    hrank11 hreads11_4 hinb11_4 nbuf11_4 (Memref.isWhole_whole _) hwx11_4 hstage11_4

abbrev win11_5 : Pipeline.Window sig grid11 :=
  Pipeline.Window.ofSpec (Memref.whole main_v198) S128x128.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v199) S128x128.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v202) S1x128.size cc11_transform_7 reads11_7 false true 1 stage11_7 sem11_7
    hrank11 hreads11_7 hinb11_7 nbuf11_7 (Memref.isWhole_whole _) hwx11_7 hstage11_7

abbrev win11_8 : Pipeline.Window sig grid11 :=
  Pipeline.Window.ofSpec (Memref.whole main_v203) S2000x1.size cc11_transform_8 reads11_8 false false 2 stage11_8 sem11_8
    hrank11 hreads11_8 hinb11_8 nbuf11_8 (Memref.isWhole_whole _) hwx11_8 hstage11_8

abbrev win11_9 : Pipeline.Window sig grid11 :=
  Pipeline.Window.ofSpec (Memref.whole main_v204_0) S2000x128.size cc11_transform_9 reads11_9 true false 2 stage11_9 sem11_9
    hrank11 hreads11_9 hinb11_9 nbuf11_9 (Memref.isWhole_whole _) hwx11_9 hstage11_9

abbrev win11_10 : Pipeline.Window sig grid11 :=
  Pipeline.Window.ofSpec (Memref.whole main_v204_1) S512x128.size cc11_transform_10 reads11_10 true true 1 stage11_10 sem11_10
    hrank11 hreads11_10 hinb11_10 nbuf11_10 (Memref.isWhole_whole _) hwx11_10 hstage11_10

abbrev win11 : Fin 11 → Pipeline.Window sig grid11 := fun | 0 => win11_0 | 1 => win11_1 | 2 => win11_2 | 3 => win11_3 | 4 => win11_4 | 5 => win11_5 | 6 => win11_6 | 7 => win11_7 | 8 => win11_8 | 9 => win11_9 | 10 => win11_10 | ⟨_ + 11, h⟩ => absurd h (Nat.not_lt.2 (Nat.le_add_left _ _))
abbrev spec11 : Fin 11 → Pipeline.WinSpec sig grid11.rank := fun w => (win11 w).toWinSpec

abbrev idle11 : Fin 11 → grid11.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k11_cond2 i == 1#1) | ⟨_ + 11, h⟩ => absurd h (Nat.not_lt.2 (Nat.le_add_left _ _))

abbrev win12_0 : Pipeline.Window sig grid12 :=
  Pipeline.Window.ofSpec (Memref.whole main_v205) S512x384.size cc12_transform_0 reads12_0 false true 1 stage12_0 sem12_0
    hrank12 hreads12_0 hinb12_0 nbuf12_0 (Memref.isWhole_whole _) hwx12_0 hstage12_0

abbrev win12_1 : Pipeline.Window sig grid12 :=
  Pipeline.Window.ofSpec (Memref.whole main_v206) S1x384.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v207) S1x384.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v208) S1x384.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v209) S1x384.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_arg10) S384x128.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v210) S1x128.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_arg12) S128x10.size cc12_transform_7 reads12_7 false true 1 stage12_7 sem12_7
    hrank12 hreads12_7 hinb12_7 nbuf12_7 (Memref.isWhole_whole _) hwx12_7 hstage12_7

abbrev win12_8 : Pipeline.Window sig grid12 :=
  Pipeline.Window.ofSpec (Memref.whole main_v211) S1x10.size cc12_transform_8 reads12_8 false true 1 stage12_8 sem12_8
    hrank12 hreads12_8 hinb12_8 nbuf12_8 (Memref.isWhole_whole _) hwx12_8 hstage12_8

abbrev win12_9 : Pipeline.Window sig grid12 :=
  Pipeline.Window.ofSpec (Memref.whole main_v212) S512x10.size cc12_transform_9 reads12_9 true true 1 stage12_9 sem12_9
    hrank12 hreads12_9 hinb12_9 nbuf12_9 (Memref.isWhole_whole _) hwx12_9 hstage12_9

abbrev win12 : Fin 10 → Pipeline.Window sig grid12 := fun | 0 => win12_0 | 1 => win12_1 | 2 => win12_2 | 3 => win12_3 | 4 => win12_4 | 5 => win12_5 | 6 => win12_6 | 7 => win12_7 | 8 => win12_8 | 9 => win12_9 | ⟨_ + 10, h⟩ => absurd h (Nat.not_lt.2 (Nat.le_add_left _ _))
abbrev spec12 : Fin 10 → Pipeline.WinSpec sig grid12.rank := fun w => (win12 w).toWinSpec

class Facts : Prop extends Facts₀ where

variable [Facts]
-- ==== ReferenceIdeal.lean ====
abbrev S50000x128 : Shape := ⟨2, ![50000, 128]⟩
abbrev S800000 : Shape := ⟨1, ![800000]⟩
abbrev S3x2x128x128 : Shape := ⟨4, ![3, 2, 128, 128]⟩
abbrev S3x2x128 : Shape := ⟨3, ![3, 2, 128]⟩
abbrev S3x256x128 : Shape := ⟨3, ![3, 256, 128]⟩
abbrev S3x128 : Shape := ⟨2, ![3, 128]⟩
abbrev S384 : Shape := ⟨1, ![384]⟩
abbrev S384x128 : Shape := ⟨2, ![384, 128]⟩
abbrev S128 : Shape := ⟨1, ![128]⟩
abbrev S128x10 : Shape := ⟨2, ![128, 10]⟩
abbrev S10 : Shape := ⟨1, ![10]⟩
abbrev S2x800000 : Shape := ⟨2, ![2, 800000]⟩
abbrev S50000 : Shape := ⟨1, ![50000]⟩
abbrev S1x800000 : Shape := ⟨2, ![1, 800000]⟩
abbrev S1x1x128x128 : Shape := ⟨4, ![1, 1, 128, 128]⟩
abbrev S128x128 : Shape := ⟨2, ![128, 128]⟩
abbrev S1x1x128 : Shape := ⟨3, ![1, 1, 128]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x256 : Shape := ⟨2, ![50000, 256]⟩
abbrev S1x256x128 : Shape := ⟨3, ![1, 256, 128]⟩
abbrev S256x128 : Shape := ⟨2, ![256, 128]⟩
abbrev S512x128 : Shape := ⟨2, ![512, 128]⟩
abbrev S512x384 : Shape := ⟨2, ![512, 384]⟩
abbrev S1x384 : Shape := ⟨2, ![1, 384]⟩
abbrev S512x10 : Shape := ⟨2, ![512, 10]⟩
abbrev S1x10 : Shape := ⟨2, ![1, 10]⟩
abbrev S512 : Shape := ⟨1, ![512]⟩
abbrev S512x1 : Shape := ⟨2, ![512, 1]⟩

abbrev nBuf : Space → Nat
  | .hbm => 470
  | .vmem => 0
  | .smem => 0
  | _ => 0

abbrev hbmTy0_0 (i : Nat) : BufTy := match i % 128 with
  | 0 => ⟨S50000x128, .f32⟩
  | 1 => ⟨S800000, .f32⟩
  | 2 => ⟨S3x2x128x128, .f32⟩
  | 3 => ⟨S3x2x128, .f32⟩
  | 4 => ⟨S3x256x128, .f32⟩
  | 5 => ⟨S3x128, .f32⟩
  | 6 => ⟨S384, .f32⟩
  | 7 => ⟨S384, .f32⟩
  | 8 => ⟨S384, .f32⟩
  | 9 => ⟨S384, .f32⟩
  | 10 => ⟨S384x128, .f32⟩
  | 11 => ⟨S128, .f32⟩
  | 12 => ⟨S128x10, .f32⟩
  | 13 => ⟨S10, .f32⟩
  | 14 => ⟨S2x800000, .i32⟩
  | 15 => ⟨S50000, .i32⟩
  | 16 => ⟨S1x800000, .i32⟩
  | 17 => ⟨S800000, .i32⟩
  | 18 => ⟨S1x800000, .i32⟩
  | 19 => ⟨S800000, .i32⟩
  | 20 => ⟨S1x1x128x128, .f32⟩
  | 21 => ⟨S128x128, .f32⟩
  | 22 => ⟨S1x1x128, .f32⟩
  | 23 => ⟨S128, .f32⟩
  | 24 => ⟨S50000x128, .f32⟩
  | 25 => ⟨S_, .f32⟩
  | 26 => ⟨S50000, .f32⟩
  | 27 => ⟨S800000x1, .i32⟩
  | 28 => ⟨S50000, .f32⟩
  | 29 => ⟨S_, .f32⟩
  | 30 => ⟨S50000, .f32⟩
  | 31 => ⟨S50000, .f32⟩
  | 32 => ⟨S50000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S800000, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S800000x1, .f32⟩
  | 63 => ⟨S800000x128, .f32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S50000, .f32⟩
  | 70 => ⟨S50000x1, .f32⟩
  | 71 => ⟨S50000x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S1x1x128x128, .f32⟩
  | 81 => ⟨S128x128, .f32⟩
  | 82 => ⟨S1x1x128, .f32⟩
  | 83 => ⟨S128, .f32⟩
  | 84 => ⟨S50000x128, .f32⟩
  | 85 => ⟨S_, .f32⟩
  | 86 => ⟨S50000, .f32⟩
  | 87 => ⟨S800000x1, .i32⟩
  | 88 => ⟨S50000, .f32⟩
  | 89 => ⟨S_, .f32⟩
  | 90 => ⟨S50000, .f32⟩
  | 91 => ⟨S50000, .f32⟩
  | 92 => ⟨S50000, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000, .f32⟩
  | 102 => ⟨S800000, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000, .f32⟩
  | 112 => ⟨S800000, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x128, .f32⟩
  | 122 => ⟨S800000x1, .f32⟩
  | 123 => ⟨S800000x128, .f32⟩
  | 124 => ⟨S800000x128, .f32⟩
  | 125 => ⟨S_, .f32⟩
  | 126 => ⟨S50000x128, .f32⟩
  | 127 => ⟨S800000x1, .i32⟩
  | _ => ⟨S50000x128, .f32⟩

abbrev hbmTy0_1 (i : Nat) : BufTy := match i % 128 with
  | 0 => ⟨S50000x128, .f32⟩
  | 1 => ⟨S50000, .f32⟩
  | 2 => ⟨S50000x1, .f32⟩
  | 3 => ⟨S50000x128, .f32⟩
  | 4 => ⟨S50000x128, .f32⟩
  | 5 => ⟨S50000x128, .f32⟩
  | 6 => ⟨S1x128, .f32⟩
  | 7 => ⟨S50000x128, .f32⟩
  | 8 => ⟨S50000x128, .f32⟩
  | 9 => ⟨S_, .f32⟩
  | 10 => ⟨S50000x128, .f32⟩
  | 11 => ⟨S50000x128, .f32⟩
  | 12 => ⟨S50000x256, .f32⟩
  | 13 => ⟨S1x256x128, .f32⟩
  | 14 => ⟨S256x128, .f32⟩
  | 15 => ⟨S50000x128, .f32⟩
  | 16 => ⟨S1x128, .f32⟩
  | 17 => ⟨S128, .f32⟩
  | 18 => ⟨S1x128, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S_, .f32⟩
  | 25 => ⟨S512x128, .f32⟩
  | 26 => ⟨S50000x1, .i32⟩
  | 27 => ⟨S512x128, .f32⟩
  | 28 => ⟨S1x1x128x128, .f32⟩
  | 29 => ⟨S128x128, .f32⟩
  | 30 => ⟨S1x1x128, .f32⟩
  | 31 => ⟨S128, .f32⟩
  | 32 => ⟨S50000x128, .f32⟩
  | 33 => ⟨S_, .f32⟩
  | 34 => ⟨S50000, .f32⟩
  | 35 => ⟨S800000x1, .i32⟩
  | 36 => ⟨S50000, .f32⟩
  | 37 => ⟨S_, .f32⟩
  | 38 => ⟨S50000, .f32⟩
  | 39 => ⟨S50000, .f32⟩
  | 40 => ⟨S50000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000, .f32⟩
  | 60 => ⟨S800000, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S800000x1, .f32⟩
  | 71 => ⟨S800000x128, .f32⟩
  | 72 => ⟨S800000x128, .f32⟩
  | 73 => ⟨S_, .f32⟩
  | 74 => ⟨S50000x128, .f32⟩
  | 75 => ⟨S800000x1, .i32⟩
  | 76 => ⟨S50000x128, .f32⟩
  | 77 => ⟨S50000, .f32⟩
  | 78 => ⟨S50000x1, .f32⟩
  | 79 => ⟨S50000x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S1x1x128x128, .f32⟩
  | 89 => ⟨S128x128, .f32⟩
  | 90 => ⟨S1x1x128, .f32⟩
  | 91 => ⟨S128, .f32⟩
  | 92 => ⟨S50000x128, .f32⟩
  | 93 => ⟨S_, .f32⟩
  | 94 => ⟨S50000, .f32⟩
  | 95 => ⟨S800000x1, .i32⟩
  | 96 => ⟨S50000, .f32⟩
  | 97 => ⟨S_, .f32⟩
  | 98 => ⟨S50000, .f32⟩
  | 99 => ⟨S50000, .f32⟩
  | 100 => ⟨S50000, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000, .f32⟩
  | 110 => ⟨S800000, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000, .f32⟩
  | 120 => ⟨S800000, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x128, .f32⟩

abbrev hbmTy0_2 (i : Nat) : BufTy := match i % 128 with
  | 0 => ⟨S800000x1, .i32⟩
  | 1 => ⟨S800000x128, .f32⟩
  | 2 => ⟨S800000x1, .f32⟩
  | 3 => ⟨S800000x128, .f32⟩
  | 4 => ⟨S800000x128, .f32⟩
  | 5 => ⟨S_, .f32⟩
  | 6 => ⟨S50000x128, .f32⟩
  | 7 => ⟨S800000x1, .i32⟩
  | 8 => ⟨S50000x128, .f32⟩
  | 9 => ⟨S50000, .f32⟩
  | 10 => ⟨S50000x1, .f32⟩
  | 11 => ⟨S50000x128, .f32⟩
  | 12 => ⟨S50000x128, .f32⟩
  | 13 => ⟨S50000x128, .f32⟩
  | 14 => ⟨S1x128, .f32⟩
  | 15 => ⟨S50000x128, .f32⟩
  | 16 => ⟨S50000x128, .f32⟩
  | 17 => ⟨S_, .f32⟩
  | 18 => ⟨S50000x128, .f32⟩
  | 19 => ⟨S50000x128, .f32⟩
  | 20 => ⟨S50000x256, .f32⟩
  | 21 => ⟨S1x256x128, .f32⟩
  | 22 => ⟨S256x128, .f32⟩
  | 23 => ⟨S50000x128, .f32⟩
  | 24 => ⟨S1x128, .f32⟩
  | 25 => ⟨S128, .f32⟩
  | 26 => ⟨S1x128, .f32⟩
  | 27 => ⟨S50000x128, .f32⟩
  | 28 => ⟨S50000x128, .f32⟩
  | 29 => ⟨S_, .f32⟩
  | 30 => ⟨S50000x128, .f32⟩
  | 31 => ⟨S50000x128, .f32⟩
  | 32 => ⟨S_, .f32⟩
  | 33 => ⟨S512x128, .f32⟩
  | 34 => ⟨S50000x1, .i32⟩
  | 35 => ⟨S512x128, .f32⟩
  | 36 => ⟨S1x1x128x128, .f32⟩
  | 37 => ⟨S128x128, .f32⟩
  | 38 => ⟨S1x1x128, .f32⟩
  | 39 => ⟨S128, .f32⟩
  | 40 => ⟨S50000x128, .f32⟩
  | 41 => ⟨S_, .f32⟩
  | 42 => ⟨S50000, .f32⟩
  | 43 => ⟨S800000x1, .i32⟩
  | 44 => ⟨S50000, .f32⟩
  | 45 => ⟨S_, .f32⟩
  | 46 => ⟨S50000, .f32⟩
  | 47 => ⟨S50000, .f32⟩
  | 48 => ⟨S50000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000, .f32⟩
  | 58 => ⟨S800000, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000, .f32⟩
  | 68 => ⟨S800000, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x128, .f32⟩
  | 78 => ⟨S800000x1, .f32⟩
  | 79 => ⟨S800000x128, .f32⟩
  | 80 => ⟨S800000x128, .f32⟩
  | 81 => ⟨S_, .f32⟩
  | 82 => ⟨S50000x128, .f32⟩
  | 83 => ⟨S800000x1, .i32⟩
  | 84 => ⟨S50000x128, .f32⟩
  | 85 => ⟨S50000, .f32⟩
  | 86 => ⟨S50000x1, .f32⟩
  | 87 => ⟨S50000x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S1x1x128x128, .f32⟩
  | 97 => ⟨S128x128, .f32⟩
  | 98 => ⟨S1x1x128, .f32⟩
  | 99 => ⟨S128, .f32⟩
  | 100 => ⟨S50000x128, .f32⟩
  | 101 => ⟨S_, .f32⟩
  | 102 => ⟨S50000, .f32⟩
  | 103 => ⟨S800000x1, .i32⟩
  | 104 => ⟨S50000, .f32⟩
  | 105 => ⟨S_, .f32⟩
  | 106 => ⟨S50000, .f32⟩
  | 107 => ⟨S50000, .f32⟩
  | 108 => ⟨S50000, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000, .f32⟩
  | 118 => ⟨S800000, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000, .f32⟩
  | _ => ⟨S50000x128, .f32⟩

abbrev hbmTy0_3 (i : Nat) : BufTy := match i % 128 with
  | 0 => ⟨S800000, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x128, .f32⟩
  | 10 => ⟨S800000x1, .f32⟩
  | 11 => ⟨S800000x128, .f32⟩
  | 12 => ⟨S800000x128, .f32⟩
  | 13 => ⟨S_, .f32⟩
  | 14 => ⟨S50000x128, .f32⟩
  | 15 => ⟨S800000x1, .i32⟩
  | 16 => ⟨S50000x128, .f32⟩
  | 17 => ⟨S50000, .f32⟩
  | 18 => ⟨S50000x1, .f32⟩
  | 19 => ⟨S50000x128, .f32⟩
  | 20 => ⟨S50000x128, .f32⟩
  | 21 => ⟨S50000x128, .f32⟩
  | 22 => ⟨S1x128, .f32⟩
  | 23 => ⟨S50000x128, .f32⟩
  | 24 => ⟨S50000x128, .f32⟩
  | 25 => ⟨S_, .f32⟩
  | 26 => ⟨S50000x128, .f32⟩
  | 27 => ⟨S50000x128, .f32⟩
  | 28 => ⟨S50000x256, .f32⟩
  | 29 => ⟨S1x256x128, .f32⟩
  | 30 => ⟨S256x128, .f32⟩
  | 31 => ⟨S50000x128, .f32⟩
  | 32 => ⟨S1x128, .f32⟩
  | 33 => ⟨S128, .f32⟩
  | 34 => ⟨S1x128, .f32⟩
  | 35 => ⟨S50000x128, .f32⟩
  | 36 => ⟨S50000x128, .f32⟩
  | 37 => ⟨S_, .f32⟩
  | 38 => ⟨S50000x128, .f32⟩
  | 39 => ⟨S50000x128, .f32⟩
  | 40 => ⟨S_, .f32⟩
  | 41 => ⟨S512x128, .f32⟩
  | 42 => ⟨S50000x1, .i32⟩
  | 43 => ⟨S512x128, .f32⟩
  | 44 => ⟨S512x384, .f32⟩
  | 45 => ⟨S1x384, .f32⟩
  | 46 => ⟨S512x384, .f32⟩
  | 47 => ⟨S512x384, .f32⟩
  | 48 => ⟨S_, .f32⟩
  | 49 => ⟨S384, .f32⟩
  | 50 => ⟨S384, .f32⟩
  | 51 => ⟨S384, .f32⟩
  | 52 => ⟨S1x384, .f32⟩
  | 53 => ⟨S512x384, .f32⟩
  | 54 => ⟨S512x384, .f32⟩
  | 55 => ⟨S1x384, .f32⟩
  | 56 => ⟨S512x384, .f32⟩
  | 57 => ⟨S512x384, .f32⟩
  | 58 => ⟨S1x384, .f32⟩
  | 59 => ⟨S512x384, .f32⟩
  | 60 => ⟨S512x384, .f32⟩
  | 61 => ⟨S512x128, .f32⟩
  | 62 => ⟨S1x128, .f32⟩
  | 63 => ⟨S512x128, .f32⟩
  | 64 => ⟨S512x128, .f32⟩
  | 65 => ⟨S_, .f32⟩
  | 66 => ⟨S512x128, .f32⟩
  | 67 => ⟨S512x128, .f32⟩
  | 68 => ⟨S512x10, .f32⟩
  | 69 => ⟨S1x10, .f32⟩
  | 70 => ⟨S512x10, .f32⟩
  | 71 => ⟨S512x10, .f32⟩
  | 72 => ⟨S_, .f32⟩
  | 73 => ⟨S512, .f32⟩
  | 74 => ⟨S_, .f32⟩
  | 75 => ⟨S512, .f32⟩
  | 76 => ⟨S512, .f32⟩
  | 77 => ⟨S512x1, .f32⟩
  | 78 => ⟨S512x10, .f32⟩
  | 79 => ⟨S512x10, .f32⟩
  | 80 => ⟨S512x10, .f32⟩
  | 81 => ⟨S_, .f32⟩
  | 82 => ⟨S512, .f32⟩
  | 83 => ⟨S512x1, .f32⟩
  | 84 => ⟨S512x10, .f32⟩
  | 85 => ⟨S512x10, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_2 : Ref sig .tc := ⟨.hbm, 43, rfl⟩
abbrev main_v23 : Ref sig .tc := ⟨.hbm, 44, rfl⟩
abbrev main_v24 : Ref sig .tc := ⟨.hbm, 45, rfl⟩
abbrev main_c_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_4 : Ref sig .tc := ⟨.hbm, 53, rfl⟩
abbrev main_v31 : Ref sig .tc := ⟨.hbm, 54, rfl⟩
abbrev main_v32 : Ref sig .tc := ⟨.hbm, 55, rfl⟩
abbrev main_c_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_call0_cst : Ref sig .tc := ⟨.hbm, 77, rfl⟩
abbrev main_call0_v0 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_7 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_8 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_9 : Ref sig .tc := ⟨.hbm, 93, rfl⟩
abbrev main_v64 : Ref sig .tc := ⟨.hbm, 94, rfl⟩
abbrev main_v65 : Ref sig .tc := ⟨.hbm, 95, rfl⟩
abbrev main_c_10 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_11 : Ref sig .tc := ⟨.hbm, 103, rfl⟩
abbrev main_v72 : Ref sig .tc := ⟨.hbm, 104, rfl⟩
abbrev main_v73 : Ref sig .tc := ⟨.hbm, 105, rfl⟩
abbrev main_c_12 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_c_13 : Ref sig .tc := ⟨.hbm, 113, rfl⟩
abbrev main_v80 : Ref sig .tc := ⟨.hbm, 114, rfl⟩
abbrev main_v81 : Ref sig .tc := ⟨.hbm, 115, rfl⟩
abbrev main_c_14 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_15 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_call1_cst : Ref sig .tc := ⟨.hbm, 137, rfl⟩
abbrev main_call1_v0 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_call2_cst : Ref sig .tc := ⟨.hbm, 149, rfl⟩
abbrev main_call2_v0 : Ref sig .tc := ⟨.hbm, 150, rfl⟩
abbrev main_v111 : Ref sig .tc := ⟨.hbm, 151, rfl⟩
abbrev main_cst_16 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_17 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_cst_18 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_c_19 : Ref sig .tc := ⟨.hbm, 169, rfl⟩
abbrev main_v126 : Ref sig .tc := ⟨.hbm, 170, rfl⟩
abbrev main_v127 : Ref sig .tc := ⟨.hbm, 171, rfl⟩
abbrev main_c_20 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_c_21 : Ref sig .tc := ⟨.hbm, 179, rfl⟩
abbrev main_v134 : Ref sig .tc := ⟨.hbm, 180, rfl⟩
abbrev main_v135 : Ref sig .tc := ⟨.hbm, 181, rfl⟩
abbrev main_c_22 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_c_23 : Ref sig .tc := ⟨.hbm, 189, rfl⟩
abbrev main_v142 : Ref sig .tc := ⟨.hbm, 190, rfl⟩
abbrev main_v143 : Ref sig .tc := ⟨.hbm, 191, rfl⟩
abbrev main_c_24 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_cst_25 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_call3_cst : Ref sig .tc := ⟨.hbm, 213, rfl⟩
abbrev main_call3_v0 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_cst_26 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_cst_27 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_c_28 : Ref sig .tc := ⟨.hbm, 229, rfl⟩
abbrev main_v175 : Ref sig .tc := ⟨.hbm, 230, rfl⟩
abbrev main_v176 : Ref sig .tc := ⟨.hbm, 231, rfl⟩
abbrev main_c_29 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_c_30 : Ref sig .tc := ⟨.hbm, 239, rfl⟩
abbrev main_v183 : Ref sig .tc := ⟨.hbm, 240, rfl⟩
abbrev main_v184 : Ref sig .tc := ⟨.hbm, 241, rfl⟩
abbrev main_c_31 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_c_32 : Ref sig .tc := ⟨.hbm, 249, rfl⟩
abbrev main_v191 : Ref sig .tc := ⟨.hbm, 250, rfl⟩
abbrev main_v192 : Ref sig .tc := ⟨.hbm, 251, rfl⟩
abbrev main_c_33 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_cst_34 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_call4_cst : Ref sig .tc := ⟨.hbm, 273, rfl⟩
abbrev main_call4_v0 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_call5_cst : Ref sig .tc := ⟨.hbm, 285, rfl⟩
abbrev main_call5_v0 : Ref sig .tc := ⟨.hbm, 286, rfl⟩
abbrev main_v222 : Ref sig .tc := ⟨.hbm, 287, rfl⟩
abbrev main_cst_35 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_v228 : Ref sig .tc := ⟨.hbm, 294, rfl⟩
abbrev main_v229 : Ref sig .tc := ⟨.hbm, 295, rfl⟩
abbrev main_v230 : Ref sig .tc := ⟨.hbm, 296, rfl⟩
abbrev main_cst_36 : Ref sig .tc := ⟨.hbm, 297, rfl⟩
abbrev main_v231 : Ref sig .tc := ⟨.hbm, 298, rfl⟩
abbrev main_v232 : Ref sig .tc := ⟨.hbm, 299, rfl⟩
abbrev main_v233 : Ref sig .tc := ⟨.hbm, 300, rfl⟩
abbrev main_cst_37 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_c_38 : Ref sig .tc := ⟨.hbm, 305, rfl⟩
abbrev main_v237 : Ref sig .tc := ⟨.hbm, 306, rfl⟩
abbrev main_v238 : Ref sig .tc := ⟨.hbm, 307, rfl⟩
abbrev main_c_39 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩
abbrev main_v244 : Ref sig .tc := ⟨.hbm, 314, rfl⟩
abbrev main_c_40 : Ref sig .tc := ⟨.hbm, 315, rfl⟩
abbrev main_v245 : Ref sig .tc := ⟨.hbm, 316, rfl⟩
abbrev main_v246 : Ref sig .tc := ⟨.hbm, 317, rfl⟩
abbrev main_c_41 : Ref sig .tc := ⟨.hbm, 318, rfl⟩
abbrev main_v247 : Ref sig .tc := ⟨.hbm, 319, rfl⟩
abbrev main_v248 : Ref sig .tc := ⟨.hbm, 320, rfl⟩
abbrev main_v249 : Ref sig .tc := ⟨.hbm, 321, rfl⟩
abbrev main_v250 : Ref sig .tc := ⟨.hbm, 322, rfl⟩
abbrev main_v251 : Ref sig .tc := ⟨.hbm, 323, rfl⟩
abbrev main_v252 : Ref sig .tc := ⟨.hbm, 324, rfl⟩
abbrev main_c_42 : Ref sig .tc := ⟨.hbm, 325, rfl⟩
abbrev main_v253 : Ref sig .tc := ⟨.hbm, 326, rfl⟩
abbrev main_v254 : Ref sig .tc := ⟨.hbm, 327, rfl⟩
abbrev main_c_43 : Ref sig .tc := ⟨.hbm, 328, rfl⟩
abbrev main_v255 : Ref sig .tc := ⟨.hbm, 329, rfl⟩
abbrev main_v256 : Ref sig .tc := ⟨.hbm, 330, rfl⟩
abbrev main_v257 : Ref sig .tc := ⟨.hbm, 331, rfl⟩
abbrev main_v258 : Ref sig .tc := ⟨.hbm, 332, rfl⟩
abbrev main_v259 : Ref sig .tc := ⟨.hbm, 333, rfl⟩
abbrev main_v260 : Ref sig .tc := ⟨.hbm, 334, rfl⟩
abbrev main_v261 : Ref sig .tc := ⟨.hbm, 335, rfl⟩
abbrev main_v262 : Ref sig .tc := ⟨.hbm, 336, rfl⟩
abbrev main_cst_44 : Ref sig .tc := ⟨.hbm, 337, rfl⟩
abbrev main_v263 : Ref sig .tc := ⟨.hbm, 338, rfl⟩
abbrev main_v264 : Ref sig .tc := ⟨.hbm, 339, rfl⟩
abbrev main_v265 : Ref sig .tc := ⟨.hbm, 340, rfl⟩
abbrev main_v266 : Ref sig .tc := ⟨.hbm, 341, rfl⟩
abbrev main_v267 : Ref sig .tc := ⟨.hbm, 342, rfl⟩
abbrev main_v268 : Ref sig .tc := ⟨.hbm, 343, rfl⟩
abbrev main_v269 : Ref sig .tc := ⟨.hbm, 344, rfl⟩
abbrev main_v270 : Ref sig .tc := ⟨.hbm, 345, rfl⟩
abbrev main_v271 : Ref sig .tc := ⟨.hbm, 346, rfl⟩
abbrev main_v272 : Ref sig .tc := ⟨.hbm, 347, rfl⟩
abbrev main_v273 : Ref sig .tc := ⟨.hbm, 348, rfl⟩
abbrev main_call6_cst : Ref sig .tc := ⟨.hbm, 349, rfl⟩
abbrev main_call6_v0 : Ref sig .tc := ⟨.hbm, 350, rfl⟩
abbrev main_v274 : Ref sig .tc := ⟨.hbm, 351, rfl⟩
abbrev main_v275 : Ref sig .tc := ⟨.hbm, 352, rfl⟩
abbrev main_v276 : Ref sig .tc := ⟨.hbm, 353, rfl⟩
abbrev main_v277 : Ref sig .tc := ⟨.hbm, 354, rfl⟩
abbrev main_v278 : Ref sig .tc := ⟨.hbm, 355, rfl⟩
abbrev main_v279 : Ref sig .tc := ⟨.hbm, 356, rfl⟩
abbrev main_cst_45 : Ref sig .tc := ⟨.hbm, 357, rfl⟩
abbrev main_v280 : Ref sig .tc := ⟨.hbm, 358, rfl⟩
abbrev main_v281 : Ref sig .tc := ⟨.hbm, 359, rfl⟩
abbrev main_v282 : Ref sig .tc := ⟨.hbm, 360, rfl⟩
abbrev main_cst_46 : Ref sig .tc := ⟨.hbm, 361, rfl⟩
abbrev main_v283 : Ref sig .tc := ⟨.hbm, 362, rfl⟩
abbrev main_v284 : Ref sig .tc := ⟨.hbm, 363, rfl⟩
abbrev main_v285 : Ref sig .tc := ⟨.hbm, 364, rfl⟩
abbrev main_c_47 : Ref sig .tc := ⟨.hbm, 365, rfl⟩
abbrev main_v286 : Ref sig .tc := ⟨.hbm, 366, rfl⟩
abbrev main_v287 : Ref sig .tc := ⟨.hbm, 367, rfl⟩
abbrev main_c_48 : Ref sig .tc := ⟨.hbm, 368, rfl⟩
abbrev main_v288 : Ref sig .tc := ⟨.hbm, 369, rfl⟩
abbrev main_v289 : Ref sig .tc := ⟨.hbm, 370, rfl⟩
abbrev main_v290 : Ref sig .tc := ⟨.hbm, 371, rfl⟩
abbrev main_v291 : Ref sig .tc := ⟨.hbm, 372, rfl⟩
abbrev main_v292 : Ref sig .tc := ⟨.hbm, 373, rfl⟩
abbrev main_v293 : Ref sig .tc := ⟨.hbm, 374, rfl⟩
abbrev main_c_49 : Ref sig .tc := ⟨.hbm, 375, rfl⟩
abbrev main_v294 : Ref sig .tc := ⟨.hbm, 376, rfl⟩
abbrev main_v295 : Ref sig .tc := ⟨.hbm, 377, rfl⟩
abbrev main_c_50 : Ref sig .tc := ⟨.hbm, 378, rfl⟩
abbrev main_v296 : Ref sig .tc := ⟨.hbm, 379, rfl⟩
abbrev main_v297 : Ref sig .tc := ⟨.hbm, 380, rfl⟩
abbrev main_v298 : Ref sig .tc := ⟨.hbm, 381, rfl⟩
abbrev main_v299 : Ref sig .tc := ⟨.hbm, 382, rfl⟩
abbrev main_v300 : Ref sig .tc := ⟨.hbm, 383, rfl⟩
abbrev main_v301 : Ref sig .tc := ⟨.hbm, 384, rfl⟩
abbrev main_c_51 : Ref sig .tc := ⟨.hbm, 385, rfl⟩
abbrev main_v302 : Ref sig .tc := ⟨.hbm, 386, rfl⟩
abbrev main_v303 : Ref sig .tc := ⟨.hbm, 387, rfl⟩
abbrev main_c_52 : Ref sig .tc := ⟨.hbm, 388, rfl⟩
abbrev main_v304 : Ref sig .tc := ⟨.hbm, 389, rfl⟩
abbrev main_v305 : Ref sig .tc := ⟨.hbm, 390, rfl⟩
abbrev main_v306 : Ref sig .tc := ⟨.hbm, 391, rfl⟩
abbrev main_v307 : Ref sig .tc := ⟨.hbm, 392, rfl⟩
abbrev main_v308 : Ref sig .tc := ⟨.hbm, 393, rfl⟩
abbrev main_v309 : Ref sig .tc := ⟨.hbm, 394, rfl⟩
abbrev main_v310 : Ref sig .tc := ⟨.hbm, 395, rfl⟩
abbrev main_v311 : Ref sig .tc := ⟨.hbm, 396, rfl⟩
abbrev main_cst_53 : Ref sig .tc := ⟨.hbm, 397, rfl⟩
abbrev main_v312 : Ref sig .tc := ⟨.hbm, 398, rfl⟩
abbrev main_v313 : Ref sig .tc := ⟨.hbm, 399, rfl⟩
abbrev main_v314 : Ref sig .tc := ⟨.hbm, 400, rfl⟩
abbrev main_v315 : Ref sig .tc := ⟨.hbm, 401, rfl⟩
abbrev main_v316 : Ref sig .tc := ⟨.hbm, 402, rfl⟩
abbrev main_v317 : Ref sig .tc := ⟨.hbm, 403, rfl⟩
abbrev main_v318 : Ref sig .tc := ⟨.hbm, 404, rfl⟩
abbrev main_v319 : Ref sig .tc := ⟨.hbm, 405, rfl⟩
abbrev main_v320 : Ref sig .tc := ⟨.hbm, 406, rfl⟩
abbrev main_v321 : Ref sig .tc := ⟨.hbm, 407, rfl⟩
abbrev main_v322 : Ref sig .tc := ⟨.hbm, 408, rfl⟩
abbrev main_call7_cst : Ref sig .tc := ⟨.hbm, 409, rfl⟩
abbrev main_call7_v0 : Ref sig .tc := ⟨.hbm, 410, rfl⟩
abbrev main_v323 : Ref sig .tc := ⟨.hbm, 411, rfl⟩
abbrev main_v324 : Ref sig .tc := ⟨.hbm, 412, rfl⟩
abbrev main_v325 : Ref sig .tc := ⟨.hbm, 413, rfl⟩
abbrev main_v326 : Ref sig .tc := ⟨.hbm, 414, rfl⟩
abbrev main_v327 : Ref sig .tc := ⟨.hbm, 415, rfl⟩
abbrev main_v328 : Ref sig .tc := ⟨.hbm, 416, rfl⟩
abbrev main_v329 : Ref sig .tc := ⟨.hbm, 417, rfl⟩
abbrev main_v330 : Ref sig .tc := ⟨.hbm, 418, rfl⟩
abbrev main_v331 : Ref sig .tc := ⟨.hbm, 419, rfl⟩
abbrev main_v332 : Ref sig .tc := ⟨.hbm, 420, rfl⟩
abbrev main_call8_cst : Ref sig .tc := ⟨.hbm, 421, rfl⟩
abbrev main_call8_v0 : Ref sig .tc := ⟨.hbm, 422, rfl⟩
abbrev main_v333 : Ref sig .tc := ⟨.hbm, 423, rfl⟩
abbrev main_cst_54 : Ref sig .tc := ⟨.hbm, 424, rfl⟩
abbrev main_v334 : Ref sig .tc := ⟨.hbm, 425, rfl⟩
abbrev main_v335 : Ref sig .tc := ⟨.hbm, 426, rfl⟩
abbrev main_v336 : Ref sig .tc := ⟨.hbm, 427, rfl⟩
abbrev main_v337 : Ref sig .tc := ⟨.hbm, 428, rfl⟩
abbrev main_v338 : Ref sig .tc := ⟨.hbm, 429, rfl⟩
abbrev main_v339 : Ref sig .tc := ⟨.hbm, 430, rfl⟩
abbrev main_v340 : Ref sig .tc := ⟨.hbm, 431, rfl⟩
abbrev main_cst_55 : Ref sig .tc := ⟨.hbm, 432, rfl⟩
abbrev main_v341 : Ref sig .tc := ⟨.hbm, 433, rfl⟩
abbrev main_v342 : Ref sig .tc := ⟨.hbm, 434, rfl⟩
abbrev main_v343 : Ref sig .tc := ⟨.hbm, 435, rfl⟩
abbrev main_v344 : Ref sig .tc := ⟨.hbm, 436, rfl⟩
abbrev main_v345 : Ref sig .tc := ⟨.hbm, 437, rfl⟩
abbrev main_v346 : Ref sig .tc := ⟨.hbm, 438, rfl⟩
abbrev main_v347 : Ref sig .tc := ⟨.hbm, 439, rfl⟩
abbrev main_v348 : Ref sig .tc := ⟨.hbm, 440, rfl⟩
abbrev main_v349 : Ref sig .tc := ⟨.hbm, 441, rfl⟩
abbrev main_v350 : Ref sig .tc := ⟨.hbm, 442, rfl⟩
abbrev main_v351 : Ref sig .tc := ⟨.hbm, 443, rfl⟩
abbrev main_v352 : Ref sig .tc := ⟨.hbm, 444, rfl⟩
abbrev main_v353 : Ref sig .tc := ⟨.hbm, 445, rfl⟩
abbrev main_v354 : Ref sig .tc := ⟨.hbm, 446, rfl⟩
abbrev main_v355 : Ref sig .tc := ⟨.hbm, 447, rfl⟩
abbrev main_v356 : Ref sig .tc := ⟨.hbm, 448, rfl⟩
abbrev main_call9_cst : Ref sig .tc := ⟨.hbm, 449, rfl⟩
abbrev main_call9_v0 : Ref sig .tc := ⟨.hbm, 450, rfl⟩
abbrev main_v357 : Ref sig .tc := ⟨.hbm, 451, rfl⟩
abbrev main_v358 : Ref sig .tc := ⟨.hbm, 452, rfl⟩
abbrev main_v359 : Ref sig .tc := ⟨.hbm, 453, rfl⟩
abbrev main_v360 : Ref sig .tc := ⟨.hbm, 454, rfl⟩
abbrev main_v361 : Ref sig .tc := ⟨.hbm, 455, rfl⟩
abbrev main_cst_56 : Ref sig .tc := ⟨.hbm, 456, rfl⟩
abbrev main_v362 : Ref sig .tc := ⟨.hbm, 457, rfl⟩
abbrev main_cst_57 : Ref sig .tc := ⟨.hbm, 458, rfl⟩
abbrev main_v363 : Ref sig .tc := ⟨.hbm, 459, rfl⟩
abbrev main_v364 : Ref sig .tc := ⟨.hbm, 460, rfl⟩
abbrev main_v365 : Ref sig .tc := ⟨.hbm, 461, rfl⟩
abbrev main_v366 : Ref sig .tc := ⟨.hbm, 462, rfl⟩
abbrev main_v367 : Ref sig .tc := ⟨.hbm, 463, rfl⟩
abbrev main_v368 : Ref sig .tc := ⟨.hbm, 464, rfl⟩
abbrev main_cst_58 : Ref sig .tc := ⟨.hbm, 465, rfl⟩
abbrev main_v369 : Ref sig .tc := ⟨.hbm, 466, rfl⟩
abbrev main_v370 : Ref sig .tc := ⟨.hbm, 467, rfl⟩
abbrev main_v371 : Ref sig .tc := ⟨.hbm, 468, rfl⟩
abbrev main_v372 : Ref sig .tc := ⟨.hbm, 469, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x2x128x128_S1x1x128x128_0_0_0_0 : S3x2x128x128.Slices ![0, 0, 0, 0] S1x1x128x128
  shapeCasts_S1x1x128x128_S128x128 : S1x1x128x128.ShapeCasts S128x128
  slices_S3x2x128_S1x1x128_0_0_0 : S3x2x128.Slices ![0, 0, 0] S1x1x128
  shapeCasts_S1x1x128_S128 : S1x1x128.ShapeCasts S128
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x2x128x128_S1x1x128x128_0_1_0_0 : S3x2x128x128.Slices ![0, 1, 0, 0] S1x1x128x128
  slices_S3x2x128_S1x1x128_0_1_0 : S3x2x128.Slices ![0, 1, 0] S1x1x128
  concatenates_S50000x128_S50000x128_S50000x256_d1 : Shape.Concatenates [S50000x128, S50000x128] S50000x256 1
  slices_S3x256x128_S1x256x128_0_0_0 : S3x256x128.Slices ![0, 0, 0] S1x256x128
  shapeCasts_S1x256x128_S256x128 : S1x256x128.ShapeCasts S256x128
  slices_S3x128_S1x128_0_0 : S3x128.Slices ![0, 0] S1x128
  shapeCasts_S1x128_S128 : S1x128.ShapeCasts S128
  bcast_S_S512x128 : S_.BroadcastsInDim S512x128 (![] : Fin 0 → Fin S512x128.rank)
  slices_S3x2x128x128_S1x1x128x128_1_0_0_0 : S3x2x128x128.Slices ![1, 0, 0, 0] S1x1x128x128
  slices_S3x2x128_S1x1x128_1_0_0 : S3x2x128.Slices ![1, 0, 0] S1x1x128
  slices_S3x2x128x128_S1x1x128x128_1_1_0_0 : S3x2x128x128.Slices ![1, 1, 0, 0] S1x1x128x128
  slices_S3x2x128_S1x1x128_1_1_0 : S3x2x128.Slices ![1, 1, 0] S1x1x128
  slices_S3x256x128_S1x256x128_1_0_0 : S3x256x128.Slices ![1, 0, 0] S1x256x128
  slices_S3x128_S1x128_1_0 : S3x128.Slices ![1, 0] S1x128
  slices_S3x2x128x128_S1x1x128x128_2_0_0_0 : S3x2x128x128.Slices ![2, 0, 0, 0] S1x1x128x128
  slices_S3x2x128_S1x1x128_2_0_0 : S3x2x128.Slices ![2, 0, 0] S1x1x128
  slices_S3x2x128x128_S1x1x128x128_2_1_0_0 : S3x2x128x128.Slices ![2, 1, 0, 0] S1x1x128x128
  slices_S3x2x128_S1x1x128_2_1_0 : S3x2x128.Slices ![2, 1, 0] S1x1x128
  slices_S3x256x128_S1x256x128_2_0_0 : S3x256x128.Slices ![2, 0, 0] S1x256x128
  slices_S3x128_S1x128_2_0 : S3x128.Slices ![2, 0] S1x128
  concatenates_S512x128_S512x128_S512x128_S512x384_d1 : Shape.Concatenates [S512x128, S512x128, S512x128] S512x384 1
  bcast_S384_S1x384_1 : S384.BroadcastsInDim S1x384 (![1] : Fin 1 → Fin S1x384.rank)
  bcast_S1x384_S512x384_0_1 : S1x384.BroadcastsInDim S512x384 (![0, 1] : Fin 2 → Fin S512x384.rank)
  bcast_S_S384 : S_.BroadcastsInDim S384 (![] : Fin 0 → Fin S384.rank)
  bcast_S1x128_S512x128_0_1 : S1x128.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x10_0_1 : S512x1.BroadcastsInDim S512x10 (![0, 1] : Fin 2 → Fin S512x10.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  scatter_S512x128_S50000x1_S50000x128_1_0_0_1_wf : ScatterDims.WF S512x128 S50000x1 S50000x128 [1] [0] [0] 1
  dot_S512x384_S384x128_S512x128_1_0_0_1_n_n_wf : DotDims.WF S512x384 S384x128 S512x128 [1] [0] [0] [1] [] []
  dot_S512x128_S128x10_S512x10_1_0_0_1_n_n_wf : DotDims.WF S512x128 S128x10 S512x10 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x384_S384x128_S512x128_1_0_0_1_n_n : DotDims S512x384 S384x128 S512x128 where
  lhsContracting := [1]
  rhsContracting := [0]
  lhsNonContracting := [0]
  rhsNonContracting := [1]
  lhsBatch := []
  rhsBatch := []
  wf := dot_S512x384_S384x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.K.Reg0.lean ====
import proofs.«400674_j14499809591724_2_alg».proof.Proof.Gen.Kernel.Launch
import proofs.«400674_j14499809591724_2_alg».proof.Proof.Gen.Kernel.Skeleton
import proofs.«400674_j14499809591724_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0

-- Every row-block product body: both inputs loaded whole, then one payload of them stored over the whole output buffer.
def rowProdBody {e : EltTy} (pay : Vec F S2000x128 e → Vec F S128x128 .f32 → FVec F S2000x128 .bf16) (a0 : Memref sig .tc .vmem S2000x128 e) (a1 : Memref sig .tc .vmem S128x128 .f32) (a2 : Memref sig .tc .vmem S2000x128 .bf16) (h2 : a2.IsWhole) :
    Prog (TpuEff nD τ sig (Elt F) Λ₀ .tc) PUnit := do
  let v0 : Vec F S2000x128 e ← Prog.lift (.load a0 r0_0.toLoadRect (View.loadsAt_vmem h_S2000x128))
  let v1 : Vec F S128x128 .f32 ← Prog.lift (.load a1 r0_1.toLoadRect (View.loadsAt_vmem h_S128x128))
  let _ : Vec F S2000x128 .bf16 ← Prog.lift (.load a2 r0_0.toLoadRect (View.loadsAt_vmem h_S2000x128))
  Prog.lift (.store a2 r0_0 (pay v0 v1) Finset.univ (View.stores_vmem h_S2000x128 (h2.storeExact_slice rfl _ packedbf16_S2000x128_S2000x128_0_0) (fun _ => rfl)) (.inl rfl))
  pure ⟨⟩

set_option maxHeartbeats 1000000 in
-- The one store covers the output buffer, so it reads back as the payload of the two blocks; the inputs, P and Q are untouched.
theorem rowProdBody_sound {e : EltTy} (pay : Vec F S2000x128 e → Vec F S128x128 .f32 → FVec F S2000x128 .bf16) (c : Dev nD) (E : Set ℕ) (a0 : Memref sig .tc .vmem S2000x128 e) (a1 : Memref sig .tc .vmem S128x128 .f32) (a2 : Memref sig .tc .vmem S2000x128 .bf16) (h2 : a2.IsWhole)
    (x0 : Vec F S2000x128 e) (x1 : Vec F S128x128 .f32) (P Q : sProp 𝕄) {D0 D1 D2 : Type} (g : D2 → Vec F S2000x128 .bf16) :
    iprop(P ∗ Q ∗ (∃ _ : D0, owns (c : Thread nD τ) a0 fullShare x0) ∗ (∃ _ : D1, owns (c : Thread nD τ) a1 fullShare x1) ∗ (∃ d, owns (c : Thread nD τ) a2 fullShare (g d)))
      ⊢ wp frame (wpE (defs₀ (F := F)) Variants.none c none) E (rowProdBody pay a0 a1 a2 h2) fun _ =>
        iprop(P ∗ Q ∗ owns (c : Thread nD τ) a0 fullShare x0 ∗ owns (c : Thread nD τ) a1 fullShare x1
          ∗ owns (c : Thread nD τ) a2 fullShare (View.canon [⟨r0_0, pay (View.ld x0 r0_0) (View.ld x1 r0_1)⟩])) := by
  unfold rowProdBody owns
  iintro ⟨HP, HQ, ⟨%_, %f0, %hf0, H0⟩, ⟨%_, %f1, %hf1, H1⟩, ⟨%_, %f2, -, H2⟩⟩
  subst hf0 hf1
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S2000x128.size (by rfl))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_2 (x0 : Vec F S2000x128 .f32) (x1 : Vec F S128x128 .f32) : Vec F S2000x128 .bf16 :=
  View.canon [⟨r0_0, k0_pay1 (View.ld x0 r0_0) (View.ld x1 r0_1)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  simp only [before0_0, before0_1]
  dsimp only [dat0]
  show _ ⊢ wp _ _ _ (bodyAt0 t) _
  rw [bodyAt0, cc0__matmul_kernel_eq_skeleton]
  exact rowProdBody_sound k0_pay1 c _ _ _ _ (hstage0_2 _) (iblk0 V c 0 t) (iblk0 V c 1 t) _ _ _

end Cert.Kernel.Hand
-- ==== Proof.K.Reg1.lean ====
import proofs.«400674_j14499809591724_2_alg».proof.Proof.Gen.Kernel.Launch
import proofs.«400674_j14499809591724_2_alg».proof.Proof.Gen.Kernel.Skeleton
import proofs.«400674_j14499809591724_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev r1_0 : Rect S2000x128 := Rect.unit (s := S2000x128) ![0, 0] S2000x128.size inb_S2000x128_S2000x128_0_0
abbrev r1_1 : Rect S2000x1 := Rect.unit (s := S2000x1) ![0, 0] S2000x1.size inb_S2000x1_S2000x1_0_0
abbrev r1_2 : Rect S1x128 := Rect.unit (s := S1x128) ![0, 0] S1x128.size inb_S1x128_S1x128_0_0

-- Every combine body: the four inputs loaded whole, then one payload of them stored over the whole output buffer.
def rowCombBody (pay : Vec F S2000x128 .f32 → Vec F S2000x128 .bf16 → Vec F S2000x1 .f32 → Vec F S1x128 .f32 → FVec F S2000x128 .bf16) (a0 : Memref sig .tc .vmem S2000x128 .f32) (a1 : Memref sig .tc .vmem S2000x128 .bf16) (a2 : Memref sig .tc .vmem S2000x1 .f32) (a3 : Memref sig .tc .vmem S1x128 .f32) (a4 : Memref sig .tc .vmem S2000x128 .bf16) (h4 : a4.IsWhole) :
    Prog (TpuEff nD τ sig (Elt F) Λ₀ .tc) PUnit := do
  let v0 : Vec F S2000x128 .f32 ← Prog.lift (.load a0 r1_0.toLoadRect (View.loadsAt_vmem h_S2000x128))
  let v1 : Vec F S2000x128 .bf16 ← Prog.lift (.load a1 r1_0.toLoadRect (View.loadsAt_vmem h_S2000x128))
  let v2 : Vec F S2000x1 .f32 ← Prog.lift (.load a2 r1_1.toLoadRect (View.loadsAt_vmem h_S2000x1))
  let v3 : Vec F S1x128 .f32 ← Prog.lift (.load a3 r1_2.toLoadRect (View.loadsAt_vmem h_S1x128))
  let _ : Vec F S2000x128 .bf16 ← Prog.lift (.load a4 r1_0.toLoadRect (View.loadsAt_vmem h_S2000x128))
  Prog.lift (.store a4 r1_0 (pay v0 v1 v2 v3) Finset.univ (View.stores_vmem h_S2000x128 (h4.storeExact_slice rfl _ packedbf16_S2000x128_S2000x128_0_0) (fun _ => rfl)) (.inl rfl))
  pure ⟨⟩

set_option maxHeartbeats 1000000 in
-- The one store covers the output buffer, so it reads back as the payload of the four blocks; the inputs, P and Q are untouched.
theorem rowCombBody_sound (pay : Vec F S2000x128 .f32 → Vec F S2000x128 .bf16 → Vec F S2000x1 .f32 → Vec F S1x128 .f32 → FVec F S2000x128 .bf16) (c : Dev nD) (E : Set ℕ) (a0 : Memref sig .tc .vmem S2000x128 .f32) (a1 : Memref sig .tc .vmem S2000x128 .bf16) (a2 : Memref sig .tc .vmem S2000x1 .f32) (a3 : Memref sig .tc .vmem S1x128 .f32) (a4 : Memref sig .tc .vmem S2000x128 .bf16) (h4 : a4.IsWhole)
    (x0 : Vec F S2000x128 .f32) (x1 : Vec F S2000x128 .bf16) (x2 : Vec F S2000x1 .f32) (x3 : Vec F S1x128 .f32) (P Q : sProp 𝕄) {D0 D1 D2 D3 D4 : Type} (g : D4 → Vec F S2000x128 .bf16) :
    iprop(P ∗ Q ∗ (∃ _ : D0, owns (c : Thread nD τ) a0 fullShare x0) ∗ (∃ _ : D1, owns (c : Thread nD τ) a1 fullShare x1) ∗ (∃ _ : D2, owns (c : Thread nD τ) a2 fullShare x2) ∗ (∃ _ : D3, owns (c : Thread nD τ) a3 fullShare x3) ∗ (∃ d, owns (c : Thread nD τ) a4 fullShare (g d)))
      ⊢ wp frame (wpE (defs₀ (F := F)) Variants.none c none) E (rowCombBody pay a0 a1 a2 a3 a4 h4) fun _ =>
        iprop(P ∗ Q ∗ owns (c : Thread nD τ) a0 fullShare x0 ∗ owns (c : Thread nD τ) a1 fullShare x1 ∗ owns (c : Thread nD τ) a2 fullShare x2 ∗ owns (c : Thread nD τ) a3 fullShare x3
          ∗ owns (c : Thread nD τ) a4 fullShare (View.canon [⟨r1_0, pay (View.ld x0 r1_0) (View.ld x1 r1_0) (View.ld x2 r1_1) (View.ld x3 r1_2)⟩])) := by
  unfold rowCombBody owns
  iintro ⟨HP, HQ, ⟨%_, %f0, %hf0, H0⟩, ⟨%_, %f1, %hf1, H1⟩, ⟨%_, %f2, %hf2, H2⟩, ⟨%_, %f3, %hf3, H3⟩, ⟨%_, %f4, -, H4⟩⟩
  subst hf0 hf1 hf2 hf3
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S2000x128.size (by rfl))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_4 (x0 : Vec F S2000x128 .f32) (x1 : Vec F S2000x128 .bf16) (x2 : Vec F S2000x1 .f32) (x3 : Vec F S1x128 .f32) : Vec F S2000x128 .bf16 :=
  View.canon [⟨r1_0, k1_pay1 (View.ld x0 r1_0) (View.ld x1 r1_0) (View.ld x2 r1_1) (View.ld x3 r1_2)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := rfl

theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  simp only [before1_0, before1_1, before1_2, before1_3]
  dsimp only [dat1]
  show _ ⊢ wp _ _ _ (bodyAt1 t) _
  rw [bodyAt1, cc1__combine_kernel_eq_skeleton]
  exact rowCombBody_sound k1_pay1 c _ _ _ _ _ _ (hstage1_4 _) (iblk1 V c 0 t) (iblk1 V c 1 t) (iblk1 V c 2 t) (iblk1 V c 3 t) _ _ _

end Cert.Kernel.Hand
-- ==== Proof.K.Reg2.lean ====
import proofs.«400674_j14499809591724_2_alg».proof.Proof.K.Reg0

noncomputable section

namespace Cert.Kernel.Hand

open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_2 (x0 : Vec F S2000x128 .bf16) (x1 : Vec F S128x128 .f32) : Vec F S2000x128 .bf16 :=
  View.canon [⟨r0_0, k2_pay1 (View.ld x0 r0_0) (View.ld x1 r0_1)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := rfl

theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  simp only [before2_0, before2_1]
  dsimp only [dat2]
  show _ ⊢ wp _ _ _ (bodyAt2 t) _
  rw [bodyAt2, cc2__matmul_kernel_eq_skeleton]
  exact rowProdBody_sound k2_pay1 c _ _ _ _ (hstage2_2 _) (iblk2 V c 0 t) (iblk2 V c 1 t) _ _ _

end Cert.Kernel.Hand
-- ==== Proof.K.Reg3.lean ====
import proofs.«400674_j14499809591724_2_alg».proof.Proof.Gen.Kernel.Launch
import proofs.«400674_j14499809591724_2_alg».proof.Proof.Gen.Kernel.Skeleton
import proofs.«400674_j14499809591724_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val % 25 = 0 :=
  (by decide +kernel : ∀ t : Fin grid3.N, cond3_0 (grid3.coords t) ↔ t.val % 25 = 0)

abbrev cond3_1 (i : grid3.Coords) : Prop := k3_cond2 i = 1#1
theorem hcond3_1 : ∀ t : Fin cfg3.N, cond3_1 (grid3.coords t) ↔ t.val % 25 = 24 :=
  (by decide +kernel : ∀ t : Fin grid3.N, cond3_1 (grid3.coords t) ↔ t.val % 25 = 24)

section
variable (c : Dev nD) (i : grid3.Coords) (arg1 : Memref sig .tc .vmem S2000x128 .f32) (harg1 : arg1.IsWhole) (arg2 : Memref sig .tc .vmem S2000x128 .bf16) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .bf16) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x1 .i32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole)

section
variable (hc0 : cond3_0 i) (hc1 : ¬cond3_1 i) (x0 : Vec F S2000x128 .f32) (x1 : Vec F S2000x128 .bf16) (x2 : Vec F S2000x1 .f32) (x3 : Vec F S1x128 .f32) (x4 : Vec F S2000x128 .bf16) (x5 : Vec F S128x128 .f32) (x6 : Vec F S128x128 .f32) (x7 : Vec F S1x128 .f32) (x8 : Vec F S2000x1 .i32)

set_option maxHeartbeats 4000000 in
noncomputable def kernelRun3_A :
    Σ' (L9 : List (View.Piece (Elt F) S2000x128 .f32)), { LS : List (View.Piece (Elt F) S512x128 .f32) //
      ∀ (xi10 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS)) -∗ K ⟨⟩))
          ⊢ wp frame (wpE (defs₀ (F := F)) Variants.none c none) E (cc3__stage2_kernel i arg1 harg1 arg2 harg2 arg3 harg3 arg4 harg4 arg5 harg5 arg6 harg6 arg7 harg7 arg8 harg8 arg9 harg9 arg10 harg10 arg11 harg11 arg12 harg12) K } := by
  refine ⟨?_, ?_, fun xi10 E K => ?run⟩
  case run =>
    simp only [cc3__stage2_kernel_eq_skeleton]; unfold cc3__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    iexists _; iexact HS

theorem cover3_A_9 : ∀ y : S2000x128.Idx, ∃ pc ∈ (kernelRun3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).1, y ∈ pc.1.set :=
  View.cover_of_tiledL _ S2000x128.size (by sl_kernel_rfl)
def out3_A_9 : Vec F S2000x128 .f32 := View.canon (kernelRun3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).1
theorem scover3_A : ∀ y : S512x128.Idx, ∃ pc ∈ (kernelRun3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1, y ∈ pc.1.set :=
  View.cover_of_tiledL _ S512x128.size (by sl_kernel_rfl)
def sout3_A : Vec F S512x128 .f32 := View.canon (kernelRun3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1
def outs3_A : Vec F S2000x128 .f32 × Vec F S512x128 .f32 × Vec F S512x128 .f32 := (out3_A_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8, sout3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8, sout3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8)

end

section
variable (hc0 : ¬cond3_0 i) (hc1 : ¬cond3_1 i) (x0 : Vec F S2000x128 .f32) (x1 : Vec F S2000x128 .bf16) (x2 : Vec F S2000x1 .f32) (x3 : Vec F S1x128 .f32) (x4 : Vec F S2000x128 .bf16) (x5 : Vec F S128x128 .f32) (x6 : Vec F S128x128 .f32) (x7 : Vec F S1x128 .f32) (x8 : Vec F S2000x1 .i32) (xs : Vec F S512x128 .f32)

set_option maxHeartbeats 4000000 in
noncomputable def kernelRun3_B :
    Σ' (L9 : List (View.Piece (Elt F) S2000x128 .f32)), { LS : List (View.Piece (Elt F) S512x128 .f32) //
      ∀ (xi10 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS)) -∗ K ⟨⟩))
          ⊢ wp frame (wpE (defs₀ (F := F)) Variants.none c none) E (cc3__stage2_kernel i arg1 harg1 arg2 harg2 arg3 harg3 arg4 harg4 arg5 harg5 arg6 harg6 arg7 harg7 arg8 harg8 arg9 harg9 arg10 harg10 arg11 harg11 arg12 harg12) K } := by
  refine ⟨?_, ?_, fun xi10 E K => ?run⟩
  case run =>
    simp only [cc3__stage2_kernel_eq_skeleton]; unfold cc3__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    iexists _; iexact HS

theorem cover3_B_9 : ∀ y : S2000x128.Idx, ∃ pc ∈ (kernelRun3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).1, y ∈ pc.1.set :=
  View.cover_of_tiledL _ S2000x128.size (by sl_kernel_rfl)
def out3_B_9 : Vec F S2000x128 .f32 := View.canon (kernelRun3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).1
theorem scover3_B : ∀ y : S512x128.Idx, ∃ pc ∈ (kernelRun3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.1, y ∈ pc.1.set :=
  View.cover_of_tiledL _ S512x128.size (by sl_kernel_rfl)
def sout3_B : Vec F S512x128 .f32 := View.canon (kernelRun3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.1
def outs3_B : Vec F S2000x128 .f32 × Vec F S512x128 .f32 × Vec F S512x128 .f32 := (out3_B_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs, sout3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs, sout3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs)

end

section
variable (hc0 : ¬cond3_0 i) (hc1 : cond3_1 i) (x0 : Vec F S2000x128 .f32) (x1 : Vec F S2000x128 .bf16) (x2 : Vec F S2000x1 .f32) (x3 : Vec F S1x128 .f32) (x4 : Vec F S2000x128 .bf16) (x5 : Vec F S128x128 .f32) (x6 : Vec F S128x128 .f32) (x7 : Vec F S1x128 .f32) (x8 : Vec F S2000x1 .i32) (xs : Vec F S512x128 .f32)

set_option maxHeartbeats 4000000 in
noncomputable def kernelRun3_C :
    Σ' (L9 : List (View.Piece (Elt F) S2000x128 .f32)) (L10 : List (View.Piece (Elt F) S512x128 .f32)), { LS : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS)) -∗ K ⟨⟩))
          ⊢ wp frame (wpE (defs₀ (F := F)) Variants.none c none) E (cc3__stage2_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc3__stage2_kernel_eq_skeleton]; unfold cc3__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact HS

theorem cover3_C_9 : ∀ y : S2000x128.Idx, ∃ pc ∈ (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).1, y ∈ pc.1.set :=
  View.cover_of_tiledL _ S2000x128.size (by sl_kernel_rfl)
def out3_C_9 : Vec F S2000x128 .f32 := View.canon (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).1
theorem cover3_C_10 : ∀ y : S512x128.Idx, ∃ pc ∈ (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.1, y ∈ pc.1.set :=
  View.cover_of_tiledL _ S512x128.size (by sl_kernel_rfl)
def out3_C_10 : Vec F S512x128 .f32 := View.canon (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.1
theorem scover3_C : ∀ y : S512x128.Idx, ∃ pc ∈ (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.2.1, y ∈ pc.1.set :=
  View.cover_of_tiledL _ S512x128.size (by sl_kernel_rfl)
def sout3_C : Vec F S512x128 .f32 := View.canon (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.2.1
def outs3_C : Vec F S2000x128 .f32 × Vec F S512x128 .f32 × Vec F S512x128 .f32 := (out3_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs, out3_C_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs, sout3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs)

end

end

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem idleAt3_10 : ∀ t : Fin cfg3.N, ¬cond3_1 (grid3.coords t) → cfg3.idle 10 (grid3.coords t) = true := by decide +kernel
theorem noFlush3_10 : ∀ t : Fin cfg3.N, ¬cond3_1 (grid3.coords t) → (cfg3.win 10).flush t = false := by decide +kernel

theorem liveAt3_10 : ∀ t : Fin cfg3.N, cond3_1 (grid3.coords t) → cfg3.idle 10 (grid3.coords t) = false := by decide +kernel

abbrev ms3_0 (t : Fin cfg3.N) : Memref sig .tc .vmem S2000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2000x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S2000x128 .bf16 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S128x128 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S128x128 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1x128 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S2000x1 .i32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S2000x128 .f32 := win3_9.stage (cfg3.slots t 9)
abbrev hs3_9 (t : Fin cfg3.N) : (ms3_9 t).IsWhole := hstage3_9 ((cfg3.slots t 9).cast nbuf3_9)
abbrev ms3_10 (t : Fin cfg3.N) : Memref sig .tc .vmem S512x128 .f32 := win3_10.stage (cfg3.slots t 10)
abbrev hs3_10 (t : Fin cfg3.N) : (ms3_10 t).IsWhole := hstage3_10 ((cfg3.slots t 10).cast nbuf3_10)

abbrev scM3 : Memref sig .tc .vmem S512x128 .f32 := Memref.whole cc3_scratch0

def ptA3 (c : Dev nD) (t : Fin cfg3.N) (h0 : t.val % 25 = 0) : Vec F S2000x128 .f32 × Vec F S512x128 .f32 × Vec F S512x128 .f32 :=
  outs3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) ((hcond3_0 t).mpr h0) (fun h => absurd ((hcond3_1 t).mp h) (by omega)) (iblk3 V c 0 t) (iblk3 V c 1 t) (iblk3 V c 2 t) (iblk3 V c 3 t) (iblk3 V c 4 t) (iblk3 V c 5 t) (iblk3 V c 6 t) (iblk3 V c 7 t) (iblk3 V c 8 t)

def ptB3 (c : Dev nD) (t : Fin cfg3.N) (h0 : ¬t.val % 25 = 0) (h1 : ¬t.val % 25 = 24) (xs : Vec F S512x128 .f32) : Vec F S2000x128 .f32 × Vec F S512x128 .f32 × Vec F S512x128 .f32 :=
  outs3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) xs

def ptC3 (c : Dev nD) (t : Fin cfg3.N) (h1 : t.val % 25 = 24) (xs : Vec F S512x128 .f32) : Vec F S2000x128 .f32 × Vec F S512x128 .f32 × Vec F S512x128 .f32 :=
  outs3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) (fun h => absurd ((hcond3_0 t).mp h) (by omega)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) xs

def outsAt3 (c : Dev nD) : (n : ℕ) → n < cfg3.N → Vec F S2000x128 .f32 × Vec F S512x128 .f32 × Vec F S512x128 .f32
  | 0, hn => ptA3 V c ⟨0, hn⟩ (Nat.zero_mod _)
  | n + 1, hn =>
    if h1 : (n + 1) % 25 = 24 then ptC3 V c ⟨n + 1, hn⟩ h1 (outsAt3 c n (Nat.lt_of_succ_lt hn)).2.2
    else ptB3 V c ⟨n + 1, hn⟩ (by have := lt_of_lt_of_eq hn (show cfg3.N = 25 from N_3); show ¬(n + 1) % 25 = 0; omega) h1 (outsAt3 c n (Nat.lt_of_succ_lt hn)).2.2

theorem outsAt3_A (c : Dev nD) (t : Fin cfg3.N) (h0 : t.val % 25 = 0) :
    outsAt3 V c t.val t.isLt = (out3_A_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) ((hcond3_0 t).mpr h0) (fun h => absurd ((hcond3_1 t).mp h) (by omega)) (iblk3 V c 0 t) (iblk3 V c 1 t) (iblk3 V c 2 t) (iblk3 V c 3 t) (iblk3 V c 4 t) (iblk3 V c 5 t) (iblk3 V c 6 t) (iblk3 V c 7 t) (iblk3 V c 8 t), sout3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) ((hcond3_0 t).mpr h0) (fun h => absurd ((hcond3_1 t).mp h) (by omega)) (iblk3 V c 0 t) (iblk3 V c 1 t) (iblk3 V c 2 t) (iblk3 V c 3 t) (iblk3 V c 4 t) (iblk3 V c 5 t) (iblk3 V c 6 t) (iblk3 V c 7 t) (iblk3 V c 8 t), sout3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) ((hcond3_0 t).mpr h0) (fun h => absurd ((hcond3_1 t).mp h) (by omega)) (iblk3 V c 0 t) (iblk3 V c 1 t) (iblk3 V c 2 t) (iblk3 V c 3 t) (iblk3 V c 4 t) (iblk3 V c 5 t) (iblk3 V c 6 t) (iblk3 V c 7 t) (iblk3 V c 8 t)) := by
  obtain ⟨n, hn⟩ := t
  cases n with
  | zero => exact rfl
  | succ n => exact (by exfalso; have hN : n + 1 < 25 := lt_of_lt_of_eq hn (show cfg3.N = 25 from N_3); (try dsimp only at h0); omega)

theorem outsAt3_B (c : Dev nD) (t : Fin cfg3.N) (h0 : ¬t.val % 25 = 0) (h1 : ¬t.val % 25 = 24) :
    outsAt3 V c t.val t.isLt = (out3_B_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2, sout3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2, sout3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h1).trans rfl

theorem outsAt3_C (c : Dev nD) (t : Fin cfg3.N) (h1 : t.val % 25 = 24) :
    outsAt3 V c t.val t.isLt = (out3_C_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) (fun h => absurd ((hcond3_0 t).mp h) (by omega)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2, out3_C_10 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) (fun h => absurd ((hcond3_0 t).mp h) (by omega)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2, sout3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) (fun h => absurd ((hcond3_0 t).mp h) (by omega)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2) := by
  obtain ⟨n, hn⟩ := t
  cases n with
  | zero => exact (by exfalso; (try dsimp only at h1); omega)
  | succ n => exact (dif_pos h1).trans rfl

def out3_9 (c : Dev nD) (t : Fin cfg3.N) : Vec F S2000x128 .f32 := (outsAt3 V c t.val t.isLt).1

def out3_10 (c : Dev nD) (t : Fin cfg3.N) : Vec F S512x128 .f32 := (outsAt3 V c t.val t.isLt).2.1

def acc3 (c : Dev nD) (t : Fin cfg3.N) : Vec F S512x128 .f32 := (outsAt3 V c t.val t.isLt).2.2

def PhiS3 (c : Dev nD) : (n : ℕ) → n ≤ cfg3.N → sProp 𝕄
  | 0, _ => iprop((∃ r, prngReg c r) ∗ Pipeline.scopedRest (Ix := Unit) (Name := ℕ) (U := UR sig nD τ) (Lvl := ℕ) (Val := Elt F) spec3 c)
  | n + 1, hn => iprop(owns (c : Thread nD τ) scM3 fullShare ((outsAt3 V c n hn).2.2) ∗ Pipeline.scopedRestBut (Ix := Unit) (Name := ℕ) (U := UR sig nD τ) (Lvl := ℕ) (Val := Elt F) spec3 c [cc3_scratch0] ∗ (∃ r, prngReg c r))

theorem PhiS3_zero (c : Dev nD) (n : ℕ) (h : n ≤ cfg3.N) (hz : n = 0) :
    PhiS3 V c n h = iprop((∃ r, prngReg c r) ∗ iprop((∃ d, owns (c : Thread nD τ) scM3 fullShare d)) ∗ Pipeline.scopedRestBut (Ix := Unit) (Name := ℕ) (U := UR sig nD τ) (Lvl := ℕ) (Val := Elt F) spec3 c [cc3_scratch0]) := by
  subst hz
  show iprop((∃ r, prngReg c r) ∗ Pipeline.scopedRest (Ix := Unit) (Name := ℕ) (U := UR sig nD τ) (Lvl := ℕ) (Val := Elt F) spec3 c) = _
  rw [scopedRest3_split]; simp only [scM3, owns_whole]; try rfl

theorem PhiS3_succ (c : Dev nD) (n : ℕ) (hn : n < cfg3.N) :
    PhiS3 V c (n + 1) hn = iprop(owns (c : Thread nD τ) scM3 fullShare ((outsAt3 V c n hn).2.2) ∗ Pipeline.scopedRestBut (Ix := Unit) (Name := ℕ) (U := UR sig nD τ) (Lvl := ℕ) (Val := Elt F) spec3 c [cc3_scratch0] ∗ (∃ r, prngReg c r)) := rfl

theorem PhiS3_pos (c : Dev nD) (n : ℕ) (h : n ≤ cfg3.N) (hz : n ≠ 0) :
    PhiS3 V c n h = iprop(owns (c : Thread nD τ) scM3 fullShare ((outsAt3 V c (n - 1) (by omega)).2.2) ∗ Pipeline.scopedRestBut (Ix := Unit) (Name := ℕ) (U := UR sig nD τ) (Lvl := ℕ) (Val := Elt F) spec3 c [cc3_scratch0] ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 V c t
    | ⟨10, _⟩ => out3_10 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = out3_9 V c t := by dsimp only [dat3]
theorem after3_10 (c : Dev nD) (t : Fin cfg3.N) : (dat3 V c).after 10 t = out3_10 V c t := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl (fun _ => rfl) (fun _ _ _ => rfl) (fun t => by rw [after3_6]; unfold Dat.blockOf iblk3; rw [A_eq3]; try rfl) t d).trans
    (by unfold Dat.fetched Dat.blockOf iblk3; rw [A_eq3]; try rfl)
theorem before3_7 (c : Dev nD) (t : Fin cfg3.N) (d) : (dat3 V c).before 7 t d = iblk3 V c 7 t :=
  ((dat3 V c).before_in_eq_fetched 7 rfl (fun _ => rfl) (fun _ _ _ => rfl) (fun t => by rw [after3_7]; unfold Dat.blockOf iblk3; rw [A_eq3]; try rfl) t d).trans
    (by unfold Dat.fetched Dat.blockOf iblk3; rw [A_eq3]; try rfl)
theorem before3_8 (c : Dev nD) (t : Fin cfg3.N) (d) : (dat3 V c).before 8 t d = iblk3 V c 8 t :=
  ((dat3 V c).before_in_eq_fetched 8 rfl (fun _ => rfl) (fun _ _ _ => rfl) (fun t => by rw [after3_8]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d))
    ∗ (∃ d, owns (c : Thread nD τ) (ms3_10 t) fullShare ((dat3 V c).before 10 t d)))

def bodyPost3 (c : Dev nD) (t : Fin cfg3.N) : sProp 𝕄 :=
  iprop((dat3 V c).Φ t.succ ∗ (dat3 V c).owesAt () t.succ
    ∗ owns (c : Thread nD τ) (ms3_0 t) fullShare (iblk3 V c 0 t)
    ∗ owns (c : Thread nD τ) (ms3_1 t) fullShare (iblk3 V c 1 t)
    ∗ owns (c : Thread nD τ) (ms3_2 t) fullShare (iblk3 V c 2 t)
    ∗ owns (c : Thread nD τ) (ms3_3 t) fullShare (iblk3 V c 3 t)
    ∗ owns (c : Thread nD τ) (ms3_4 t) fullShare (iblk3 V c 4 t)
    ∗ owns (c : Thread nD τ) (ms3_5 t) fullShare (iblk3 V c 5 t)
    ∗ owns (c : Thread nD τ) (ms3_6 t) fullShare (iblk3 V c 6 t)
    ∗ owns (c : Thread nD τ) (ms3_7 t) fullShare (iblk3 V c 7 t)
    ∗ owns (c : Thread nD τ) (ms3_8 t) fullShare (iblk3 V c 8 t)
    ∗ owns (c : Thread nD τ) (ms3_9 t) fullShare (out3_9 V c t)
    ∗ (dat3 V c).leavesExact 10 t)

set_option maxHeartbeats 8000000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).owesAt () t.succ = (dat3 V c).owesAt () t.castSucc from rfl]
  rw [show (dat3 V c).Φ t.succ = PhiS3 V c (t.val + 1) t.isLt from rfl, PhiS3_succ]
  have hN : t.val < 25 := lt_of_lt_of_eq t.isLt (show cfg3.N = 25 from N_3)
  unfold out3_9
  by_cases h1 : t.val % 25 = 24
  · have hz : t.val ≠ 0 := by omega
    rw [show (dat3 V c).leavesExact 10 t = owns (c : Thread nD τ) (ms3_10 t) fullShare ((dat3 V c).after 10 t) from by
      unfold Dat.leavesExact; rw [liveAt3_10 t ((hcond3_1 t).mpr h1)], after3_10]
    unfold out3_10
    rw [outsAt3_C V c t h1]
    unfold out3_C_9 out3_C_10 sout3_C; (try dsimp only)
    rw [PhiS3_castSucc V c t, PhiS3_pos V c _ _ hz]
    iintro ⟨⟨HS, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun3_C c (grid3.coords t) _ _ _ _ _ _ _ _ _ _ _ _ _ _ _ _ _ _ _ _ _ _ _ _ (fun h => absurd ((hcond3_0 t).mp h) (by omega)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS]; · iexact HS
    iintro ⟨H0, H1, H2, H3, H4, H5, H6, H7, H8, ⟨%e9, H9⟩, ⟨%e10, H10⟩, ⟨%es, HS⟩⟩
    isplitl [HS Hrest Hg]
    · isplitl [HS]
      · unfold owns; iexists _; isplitr
        swap; · iexact HS
        ipureintro; exact View.read_writes_eq_canon _ _ _ (fun _ => scover3_C ..)
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_eq_canon _ _ _ (fun _ => cover3_C_9 ..)
    unfold owns; iexists _; isplitr
    swap; · iexact H10
    ipureintro; exact View.read_writes_eq_canon _ _ _ (fun _ => cover3_C_10 ..)

  · rw [Dat.leavesExact_idle (dat3 V c) 10 t (idleAt3_10 t (fun h => h1 ((hcond3_1 t).mp h))) (noFlush3_10 t (fun h => h1 ((hcond3_1 t).mp h)))]
    by_cases h0 : t.val % 25 = 0
    · have hz : t.val = 0 := by omega
      rw [outsAt3_A V c t h0]
      unfold out3_A_9 sout3_A; (try dsimp only)
      rw [PhiS3_castSucc V c t, PhiS3_zero V c _ _ hz]
      iintro ⟨⟨Hg, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun3_A c (grid3.coords t) _ _ _ _ _ _ _ _ _ _ _ _ _ _ _ _ _ _ _ _ _ _ _ _ ((hcond3_0 t).mpr h0) (fun h => absurd ((hcond3_1 t).mp h) (by omega)) (iblk3 V c 0 t) (iblk3 V c 1 t) (iblk3 V c 2 t) (iblk3 V c 3 t) (iblk3 V c 4 t) (iblk3 V c 5 t) (iblk3 V c 6 t) (iblk3 V c 7 t) (iblk3 V c 8 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HS]; · iexact HS
      iintro ⟨H0, H1, H2, H3, H4, H5, H6, H7, H8, ⟨%e9, H9⟩, H10, ⟨%es, HS⟩⟩
      isplitl [HS Hrest Hg]
      · isplitl [HS]
        · unfold owns; iexists _; isplitr
          swap; · iexact HS
          ipureintro; exact View.read_writes_eq_canon _ _ _ (fun _ => scover3_A ..)
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_eq_canon _ _ _ (fun _ => cover3_A_9 ..)
      iexists _; iexact H10

    · have hz : t.val ≠ 0 := by omega
      rw [outsAt3_B V c t h0 h1]
      unfold out3_B_9 sout3_B; (try dsimp only)
      rw [PhiS3_castSucc V c t, PhiS3_pos V c _ _ hz]
      iintro ⟨⟨HS, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun3_B c (grid3.coords t) _ _ _ _ _ _ _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HS]; · iexact HS
      iintro ⟨H0, H1, H2, H3, H4, H5, H6, H7, H8, ⟨%e9, H9⟩, H10, ⟨%es, HS⟩⟩
      isplitl [HS Hrest Hg]
      · isplitl [HS]
        · unfold owns; iexists _; isplitr
          swap; · iexact HS
          ipureintro; exact View.read_writes_eq_canon _ _ _ (fun _ => scover3_B ..)
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_eq_canon _ _ _ (fun _ => cover3_B_9 ..)
      iexists _; iexact H10

theorem body_obligation3 (c : Dev nD) : BodyObligation (dat3 (F := F) V c) (defs₀ (F := F)) Variants.none () Set.univ := fun t => by
  rw [bigSep_W3, bigSep_W3]
  exact sound_body3 V c t

theorem Phi_in3 (c : Dev nD) :
    (iprop((∃ r, prngReg c r) ∗ Pipeline.scopedRest (Ix := Unit) (Name := ℕ) (U := UR sig nD τ) (Lvl := ℕ) (Val := Elt F) spec3 c) : sProp 𝕄) ⊢ (dat3 V c).Φ 0 := by
  rw [show (dat3 V c).Φ 0 = PhiS3 V c 0 (Nat.zero_le _) from rfl]
  exact Idealize.SL.BI.Entails.refl _

theorem Phi_out3 (c : Dev nD) :
    (dat3 V c).Φ (Fin.last cfg3.N) ⊢ (iprop((∃ r, prngReg c r) ∗ Pipeline.scopedRest (Ix := Unit) (Name := ℕ) (U := UR sig nD τ) (Lvl := ℕ) (Val := Elt F) spec3 c) : sProp 𝕄) := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 25 := N_3; omega), scopedRest3_split]
  simp only [scM3, owns_whole]
  iintro ⟨HS, Hrest, Hg⟩
  isplitl [Hg]; · iexact Hg
  isplitl [HS]; · iexists _; iexact HS
  iexact Hrest

end Cert.Kernel.Hand

end
-- ==== Proof.K.Reg4.lean ====
import proofs.«400674_j14499809591724_2_alg».proof.Proof.K.Reg0

noncomputable section

namespace Cert.Kernel.Hand

open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_2 (x0 : Vec F S2000x128 .f32) (x1 : Vec F S128x128 .f32) : Vec F S2000x128 .bf16 :=
  View.canon [⟨r0_0, k4_pay1 (View.ld x0 r0_0) (View.ld x1 r0_1)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := rfl

theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl

theorem body_obligation4 (c : Dev nD) : BodyObligation (dat4 (F := F) V c) (defs₀ (F := F)) Variants.none () Set.univ := fun t => by
  rw [bigSep_W4, bigSep_W4]
  simp only [before4_0, before4_1]
  dsimp only [dat4]
  show _ ⊢ wp _ _ _ (bodyAt4 t) _
  rw [bodyAt4, cc4__matmul_kernel_eq_skeleton]
  exact rowProdBody_sound k4_pay1 c _ _ _ _ (hstage4_2 _) (iblk4 V c 0 t) (iblk4 V c 1 t) _ _ _

end Cert.Kernel.Hand
-- ==== Proof.K.Reg5.lean ====
import proofs.«400674_j14499809591724_2_alg».proof.Proof.K.Reg1

noncomputable section

namespace Cert.Kernel.Hand

open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5_4 (x0 : Vec F S2000x128 .f32) (x1 : Vec F S2000x128 .bf16) (x2 : Vec F S2000x1 .f32) (x3 : Vec F S1x128 .f32) : Vec F S2000x128 .bf16 :=
  View.canon [⟨r1_0, k5_pay1 (View.ld x0 r1_0) (View.ld x1 r1_0) (View.ld x2 r1_1) (View.ld x3 r1_2)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := rfl

theorem after5_4 (c : Dev nD) (t : Fin cfg5.N) :
    (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl

theorem body_obligation5 (c : Dev nD) : BodyObligation (dat5 (F := F) V c) (defs₀ (F := F)) Variants.none () Set.univ := fun t => by
  rw [bigSep_W5, bigSep_W5]
  simp only [before5_0, before5_1, before5_2, before5_3]
  dsimp only [dat5]
  show _ ⊢ wp _ _ _ (bodyAt5 t) _
  rw [bodyAt5, cc5__combine_kernel_eq_skeleton]
  exact rowCombBody_sound k5_pay1 c _ _ _ _ _ _ (hstage5_4 _) (iblk5 V c 0 t) (iblk5 V c 1 t) (iblk5 V c 2 t) (iblk5 V c 3 t) _ _ _

end Cert.Kernel.Hand
-- ==== Proof.K.Reg6.lean ====
import proofs.«400674_j14499809591724_2_alg».proof.Proof.K.Reg0

noncomputable section

namespace Cert.Kernel.Hand

open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def out6_2 (x0 : Vec F S2000x128 .bf16) (x1 : Vec F S128x128 .f32) : Vec F S2000x128 .bf16 :=
  View.canon [⟨r0_0, k6_pay1 (View.ld x0 r0_0) (View.ld x1 r0_1)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := rfl

theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl

theorem body_obligation6 (c : Dev nD) : BodyObligation (dat6 (F := F) V c) (defs₀ (F := F)) Variants.none () Set.univ := fun t => by
  rw [bigSep_W6, bigSep_W6]
  simp only [before6_0, before6_1]
  dsimp only [dat6]
  show _ ⊢ wp _ _ _ (bodyAt6 t) _
  rw [bodyAt6, cc6__matmul_kernel_eq_skeleton]
  exact rowProdBody_sound k6_pay1 c _ _ _ _ (hstage6_2 _) (iblk6 V c 0 t) (iblk6 V c 1 t) _ _ _

end Cert.Kernel.Hand
-- ==== Proof.K.Reg7.lean ====
import proofs.«400674_j14499809591724_2_alg».proof.Proof.Gen.Kernel.Launch
import proofs.«400674_j14499809591724_2_alg».proof.Proof.Gen.Kernel.Skeleton
import proofs.«400674_j14499809591724_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond7_0 (i : grid7.Coords) : Prop := (Scalar.cmpi .ne (Scalar.extui (Scalar.cmpi .eq (BitVec.ofNat 32 (i 0).val) 0#32)) 0#32) = 1#1
theorem hcond7_0 : ∀ t : Fin cfg7.N, cond7_0 (grid7.coords t) ↔ t.val % 25 = 0 :=
  (by decide +kernel : ∀ t : Fin grid7.N, cond7_0 (grid7.coords t) ↔ t.val % 25 = 0)

abbrev cond7_1 (i : grid7.Coords) : Prop := k7_cond2 i = 1#1
theorem hcond7_1 : ∀ t : Fin cfg7.N, cond7_1 (grid7.coords t) ↔ t.val % 25 = 24 :=
  (by decide +kernel : ∀ t : Fin grid7.N, cond7_1 (grid7.coords t) ↔ t.val % 25 = 24)

section
variable (c : Dev nD) (i : grid7.Coords) (arg1 : Memref sig .tc .vmem S2000x128 .f32) (harg1 : arg1.IsWhole) (arg2 : Memref sig .tc .vmem S2000x128 .bf16) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .bf16) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x1 .i32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole)

section
variable (hc0 : cond7_0 i) (hc1 : ¬cond7_1 i) (x0 : Vec F S2000x128 .f32) (x1 : Vec F S2000x128 .bf16) (x2 : Vec F S2000x1 .f32) (x3 : Vec F S1x128 .f32) (x4 : Vec F S2000x128 .bf16) (x5 : Vec F S128x128 .f32) (x6 : Vec F S128x128 .f32) (x7 : Vec F S1x128 .f32) (x8 : Vec F S2000x1 .i32)

set_option maxHeartbeats 4000000 in
noncomputable def kernelRun7_A :
    Σ' (L9 : List (View.Piece (Elt F) S2000x128 .f32)), { LS : List (View.Piece (Elt F) S512x128 .f32) //
      ∀ (xi10 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS)) -∗ K ⟨⟩))
          ⊢ wp frame (wpE (defs₀ (F := F)) Variants.none c none) E (cc7__stage2_kernel i arg1 harg1 arg2 harg2 arg3 harg3 arg4 harg4 arg5 harg5 arg6 harg6 arg7 harg7 arg8 harg8 arg9 harg9 arg10 harg10 arg11 harg11 arg12 harg12) K } := by
  refine ⟨?_, ?_, fun xi10 E K => ?run⟩
  case run =>
    simp only [cc7__stage2_kernel_eq_skeleton]; unfold cc7__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    iexists _; iexact HS

theorem cover7_A_9 : ∀ y : S2000x128.Idx, ∃ pc ∈ (kernelRun7_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).1, y ∈ pc.1.set :=
  View.cover_of_tiledL _ S2000x128.size (by sl_kernel_rfl)
def out7_A_9 : Vec F S2000x128 .f32 := View.canon (kernelRun7_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).1
theorem scover7_A : ∀ y : S512x128.Idx, ∃ pc ∈ (kernelRun7_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1, y ∈ pc.1.set :=
  View.cover_of_tiledL _ S512x128.size (by sl_kernel_rfl)
def sout7_A : Vec F S512x128 .f32 := View.canon (kernelRun7_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1
def outs7_A : Vec F S2000x128 .f32 × Vec F S512x128 .f32 × Vec F S512x128 .f32 := (out7_A_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8, sout7_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8, sout7_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8)

end

section
variable (hc0 : ¬cond7_0 i) (hc1 : ¬cond7_1 i) (x0 : Vec F S2000x128 .f32) (x1 : Vec F S2000x128 .bf16) (x2 : Vec F S2000x1 .f32) (x3 : Vec F S1x128 .f32) (x4 : Vec F S2000x128 .bf16) (x5 : Vec F S128x128 .f32) (x6 : Vec F S128x128 .f32) (x7 : Vec F S1x128 .f32) (x8 : Vec F S2000x1 .i32) (xs : Vec F S512x128 .f32)

set_option maxHeartbeats 4000000 in
noncomputable def kernelRun7_B :
    Σ' (L9 : List (View.Piece (Elt F) S2000x128 .f32)), { LS : List (View.Piece (Elt F) S512x128 .f32) //
      ∀ (xi10 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS)) -∗ K ⟨⟩))
          ⊢ wp frame (wpE (defs₀ (F := F)) Variants.none c none) E (cc7__stage2_kernel i arg1 harg1 arg2 harg2 arg3 harg3 arg4 harg4 arg5 harg5 arg6 harg6 arg7 harg7 arg8 harg8 arg9 harg9 arg10 harg10 arg11 harg11 arg12 harg12) K } := by
  refine ⟨?_, ?_, fun xi10 E K => ?run⟩
  case run =>
    simp only [cc7__stage2_kernel_eq_skeleton]; unfold cc7__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    iexists _; iexact HS

theorem cover7_B_9 : ∀ y : S2000x128.Idx, ∃ pc ∈ (kernelRun7_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).1, y ∈ pc.1.set :=
  View.cover_of_tiledL _ S2000x128.size (by sl_kernel_rfl)
def out7_B_9 : Vec F S2000x128 .f32 := View.canon (kernelRun7_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).1
theorem scover7_B : ∀ y : S512x128.Idx, ∃ pc ∈ (kernelRun7_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.1, y ∈ pc.1.set :=
  View.cover_of_tiledL _ S512x128.size (by sl_kernel_rfl)
def sout7_B : Vec F S512x128 .f32 := View.canon (kernelRun7_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.1
def outs7_B : Vec F S2000x128 .f32 × Vec F S512x128 .f32 × Vec F S512x128 .f32 := (out7_B_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs, sout7_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs, sout7_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs)

end

section
variable (hc0 : ¬cond7_0 i) (hc1 : cond7_1 i) (x0 : Vec F S2000x128 .f32) (x1 : Vec F S2000x128 .bf16) (x2 : Vec F S2000x1 .f32) (x3 : Vec F S1x128 .f32) (x4 : Vec F S2000x128 .bf16) (x5 : Vec F S128x128 .f32) (x6 : Vec F S128x128 .f32) (x7 : Vec F S1x128 .f32) (x8 : Vec F S2000x1 .i32) (xs : Vec F S512x128 .f32)

set_option maxHeartbeats 4000000 in
noncomputable def kernelRun7_C :
    Σ' (L9 : List (View.Piece (Elt F) S2000x128 .f32)) (L10 : List (View.Piece (Elt F) S512x128 .f32)), { LS : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS)) -∗ K ⟨⟩))
          ⊢ wp frame (wpE (defs₀ (F := F)) Variants.none c none) E (cc7__stage2_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc7__stage2_kernel_eq_skeleton]; unfold cc7__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact HS

theorem cover7_C_9 : ∀ y : S2000x128.Idx, ∃ pc ∈ (kernelRun7_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).1, y ∈ pc.1.set :=
  View.cover_of_tiledL _ S2000x128.size (by sl_kernel_rfl)
def out7_C_9 : Vec F S2000x128 .f32 := View.canon (kernelRun7_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).1
theorem cover7_C_10 : ∀ y : S512x128.Idx, ∃ pc ∈ (kernelRun7_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.1, y ∈ pc.1.set :=
  View.cover_of_tiledL _ S512x128.size (by sl_kernel_rfl)
def out7_C_10 : Vec F S512x128 .f32 := View.canon (kernelRun7_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.1
theorem scover7_C : ∀ y : S512x128.Idx, ∃ pc ∈ (kernelRun7_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.2.1, y ∈ pc.1.set :=
  View.cover_of_tiledL _ S512x128.size (by sl_kernel_rfl)
def sout7_C : Vec F S512x128 .f32 := View.canon (kernelRun7_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.2.1
def outs7_C : Vec F S2000x128 .f32 × Vec F S512x128 .f32 × Vec F S512x128 .f32 := (out7_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs, out7_C_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs, sout7_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs)

end

end

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem idleAt7_10 : ∀ t : Fin cfg7.N, ¬cond7_1 (grid7.coords t) → cfg7.idle 10 (grid7.coords t) = true := by decide +kernel
theorem noFlush7_10 : ∀ t : Fin cfg7.N, ¬cond7_1 (grid7.coords t) → (cfg7.win 10).flush t = false := by decide +kernel

theorem liveAt7_10 : ∀ t : Fin cfg7.N, cond7_1 (grid7.coords t) → cfg7.idle 10 (grid7.coords t) = false := by decide +kernel

abbrev ms7_0 (t : Fin cfg7.N) : Memref sig .tc .vmem S2000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S2000x128 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S2000x1 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x128 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S2000x128 .bf16 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S128x128 .f32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S128x128 .f32 := win7_6.stage (cfg7.slots t 6)
abbrev hs7_6 (t : Fin cfg7.N) : (ms7_6 t).IsWhole := hstage7_6 ((cfg7.slots t 6).cast nbuf7_6)
abbrev ms7_7 (t : Fin cfg7.N) : Memref sig .tc .vmem S1x128 .f32 := win7_7.stage (cfg7.slots t 7)
abbrev hs7_7 (t : Fin cfg7.N) : (ms7_7 t).IsWhole := hstage7_7 ((cfg7.slots t 7).cast nbuf7_7)
abbrev ms7_8 (t : Fin cfg7.N) : Memref sig .tc .vmem S2000x1 .i32 := win7_8.stage (cfg7.slots t 8)
abbrev hs7_8 (t : Fin cfg7.N) : (ms7_8 t).IsWhole := hstage7_8 ((cfg7.slots t 8).cast nbuf7_8)
abbrev ms7_9 (t : Fin cfg7.N) : Memref sig .tc .vmem S2000x128 .f32 := win7_9.stage (cfg7.slots t 9)
abbrev hs7_9 (t : Fin cfg7.N) : (ms7_9 t).IsWhole := hstage7_9 ((cfg7.slots t 9).cast nbuf7_9)
abbrev ms7_10 (t : Fin cfg7.N) : Memref sig .tc .vmem S512x128 .f32 := win7_10.stage (cfg7.slots t 10)
abbrev hs7_10 (t : Fin cfg7.N) : (ms7_10 t).IsWhole := hstage7_10 ((cfg7.slots t 10).cast nbuf7_10)

abbrev scM7 : Memref sig .tc .vmem S512x128 .f32 := Memref.whole cc7_scratch0

def ptA7 (c : Dev nD) (t : Fin cfg7.N) (h0 : t.val % 25 = 0) : Vec F S2000x128 .f32 × Vec F S512x128 .f32 × Vec F S512x128 .f32 :=
  outs7_A c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) scM7 (Memref.isWhole_whole _) ((hcond7_0 t).mpr h0) (fun h => absurd ((hcond7_1 t).mp h) (by omega)) (iblk7 V c 0 t) (iblk7 V c 1 t) (iblk7 V c 2 t) (iblk7 V c 3 t) (iblk7 V c 4 t) (iblk7 V c 5 t) (iblk7 V c 6 t) (iblk7 V c 7 t) (iblk7 V c 8 t)

def ptB7 (c : Dev nD) (t : Fin cfg7.N) (h0 : ¬t.val % 25 = 0) (h1 : ¬t.val % 25 = 24) (xs : Vec F S512x128 .f32) : Vec F S2000x128 .f32 × Vec F S512x128 .f32 × Vec F S512x128 .f32 :=
  outs7_B c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) scM7 (Memref.isWhole_whole _) (fun h => h0 ((hcond7_0 t).mp h)) (fun h => h1 ((hcond7_1 t).mp h)) (iblk7 V c 0 t) (iblk7 V c 1 t) (iblk7 V c 2 t) (iblk7 V c 3 t) (iblk7 V c 4 t) (iblk7 V c 5 t) (iblk7 V c 6 t) (iblk7 V c 7 t) (iblk7 V c 8 t) xs

def ptC7 (c : Dev nD) (t : Fin cfg7.N) (h1 : t.val % 25 = 24) (xs : Vec F S512x128 .f32) : Vec F S2000x128 .f32 × Vec F S512x128 .f32 × Vec F S512x128 .f32 :=
  outs7_C c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) scM7 (Memref.isWhole_whole _) (fun h => absurd ((hcond7_0 t).mp h) (by omega)) ((hcond7_1 t).mpr h1) (iblk7 V c 0 t) (iblk7 V c 1 t) (iblk7 V c 2 t) (iblk7 V c 3 t) (iblk7 V c 4 t) (iblk7 V c 5 t) (iblk7 V c 6 t) (iblk7 V c 7 t) (iblk7 V c 8 t) xs

def outsAt7 (c : Dev nD) : (n : ℕ) → n < cfg7.N → Vec F S2000x128 .f32 × Vec F S512x128 .f32 × Vec F S512x128 .f32
  | 0, hn => ptA7 V c ⟨0, hn⟩ (Nat.zero_mod _)
  | n + 1, hn =>
    if h1 : (n + 1) % 25 = 24 then ptC7 V c ⟨n + 1, hn⟩ h1 (outsAt7 c n (Nat.lt_of_succ_lt hn)).2.2
    else ptB7 V c ⟨n + 1, hn⟩ (by have := lt_of_lt_of_eq hn (show cfg7.N = 25 from N_7); show ¬(n + 1) % 25 = 0; omega) h1 (outsAt7 c n (Nat.lt_of_succ_lt hn)).2.2

theorem outsAt7_A (c : Dev nD) (t : Fin cfg7.N) (h0 : t.val % 25 = 0) :
    outsAt7 V c t.val t.isLt = (out7_A_9 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) scM7 (Memref.isWhole_whole _) ((hcond7_0 t).mpr h0) (fun h => absurd ((hcond7_1 t).mp h) (by omega)) (iblk7 V c 0 t) (iblk7 V c 1 t) (iblk7 V c 2 t) (iblk7 V c 3 t) (iblk7 V c 4 t) (iblk7 V c 5 t) (iblk7 V c 6 t) (iblk7 V c 7 t) (iblk7 V c 8 t), sout7_A c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) scM7 (Memref.isWhole_whole _) ((hcond7_0 t).mpr h0) (fun h => absurd ((hcond7_1 t).mp h) (by omega)) (iblk7 V c 0 t) (iblk7 V c 1 t) (iblk7 V c 2 t) (iblk7 V c 3 t) (iblk7 V c 4 t) (iblk7 V c 5 t) (iblk7 V c 6 t) (iblk7 V c 7 t) (iblk7 V c 8 t), sout7_A c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) scM7 (Memref.isWhole_whole _) ((hcond7_0 t).mpr h0) (fun h => absurd ((hcond7_1 t).mp h) (by omega)) (iblk7 V c 0 t) (iblk7 V c 1 t) (iblk7 V c 2 t) (iblk7 V c 3 t) (iblk7 V c 4 t) (iblk7 V c 5 t) (iblk7 V c 6 t) (iblk7 V c 7 t) (iblk7 V c 8 t)) := by
  obtain ⟨n, hn⟩ := t
  cases n with
  | zero => exact rfl
  | succ n => exact (by exfalso; have hN : n + 1 < 25 := lt_of_lt_of_eq hn (show cfg7.N = 25 from N_7); (try dsimp only at h0); omega)

theorem outsAt7_B (c : Dev nD) (t : Fin cfg7.N) (h0 : ¬t.val % 25 = 0) (h1 : ¬t.val % 25 = 24) :
    outsAt7 V c t.val t.isLt = (out7_B_9 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) scM7 (Memref.isWhole_whole _) (fun h => h0 ((hcond7_0 t).mp h)) (fun h => h1 ((hcond7_1 t).mp h)) (iblk7 V c 0 t) (iblk7 V c 1 t) (iblk7 V c 2 t) (iblk7 V c 3 t) (iblk7 V c 4 t) (iblk7 V c 5 t) (iblk7 V c 6 t) (iblk7 V c 7 t) (iblk7 V c 8 t) (outsAt7 V c (t.val - 1) (Nat.lt_of_le_of_lt (Nat.sub_le _ _) t.isLt)).2.2, sout7_B c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) scM7 (Memref.isWhole_whole _) (fun h => h0 ((hcond7_0 t).mp h)) (fun h => h1 ((hcond7_1 t).mp h)) (iblk7 V c 0 t) (iblk7 V c 1 t) (iblk7 V c 2 t) (iblk7 V c 3 t) (iblk7 V c 4 t) (iblk7 V c 5 t) (iblk7 V c 6 t) (iblk7 V c 7 t) (iblk7 V c 8 t) (outsAt7 V c (t.val - 1) (Nat.lt_of_le_of_lt (Nat.sub_le _ _) t.isLt)).2.2, sout7_B c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) scM7 (Memref.isWhole_whole _) (fun h => h0 ((hcond7_0 t).mp h)) (fun h => h1 ((hcond7_1 t).mp h)) (iblk7 V c 0 t) (iblk7 V c 1 t) (iblk7 V c 2 t) (iblk7 V c 3 t) (iblk7 V c 4 t) (iblk7 V c 5 t) (iblk7 V c 6 t) (iblk7 V c 7 t) (iblk7 V c 8 t) (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h1).trans rfl

theorem outsAt7_C (c : Dev nD) (t : Fin cfg7.N) (h1 : t.val % 25 = 24) :
    outsAt7 V c t.val t.isLt = (out7_C_9 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) scM7 (Memref.isWhole_whole _) (fun h => absurd ((hcond7_0 t).mp h) (by omega)) ((hcond7_1 t).mpr h1) (iblk7 V c 0 t) (iblk7 V c 1 t) (iblk7 V c 2 t) (iblk7 V c 3 t) (iblk7 V c 4 t) (iblk7 V c 5 t) (iblk7 V c 6 t) (iblk7 V c 7 t) (iblk7 V c 8 t) (outsAt7 V c (t.val - 1) (Nat.lt_of_le_of_lt (Nat.sub_le _ _) t.isLt)).2.2, out7_C_10 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) scM7 (Memref.isWhole_whole _) (fun h => absurd ((hcond7_0 t).mp h) (by omega)) ((hcond7_1 t).mpr h1) (iblk7 V c 0 t) (iblk7 V c 1 t) (iblk7 V c 2 t) (iblk7 V c 3 t) (iblk7 V c 4 t) (iblk7 V c 5 t) (iblk7 V c 6 t) (iblk7 V c 7 t) (iblk7 V c 8 t) (outsAt7 V c (t.val - 1) (Nat.lt_of_le_of_lt (Nat.sub_le _ _) t.isLt)).2.2, sout7_C c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) scM7 (Memref.isWhole_whole _) (fun h => absurd ((hcond7_0 t).mp h) (by omega)) ((hcond7_1 t).mpr h1) (iblk7 V c 0 t) (iblk7 V c 1 t) (iblk7 V c 2 t) (iblk7 V c 3 t) (iblk7 V c 4 t) (iblk7 V c 5 t) (iblk7 V c 6 t) (iblk7 V c 7 t) (iblk7 V c 8 t) (outsAt7 V c (t.val - 1) (Nat.lt_of_le_of_lt (Nat.sub_le _ _) t.isLt)).2.2) := by
  obtain ⟨n, hn⟩ := t
  cases n with
  | zero => exact (by exfalso; (try dsimp only at h1); omega)
  | succ n => exact (dif_pos h1).trans rfl

def out7_9 (c : Dev nD) (t : Fin cfg7.N) : Vec F S2000x128 .f32 := (outsAt7 V c t.val t.isLt).1

def out7_10 (c : Dev nD) (t : Fin cfg7.N) : Vec F S512x128 .f32 := (outsAt7 V c t.val t.isLt).2.1

def acc7 (c : Dev nD) (t : Fin cfg7.N) : Vec F S512x128 .f32 := (outsAt7 V c t.val t.isLt).2.2

def PhiS7 (c : Dev nD) : (n : ℕ) → n ≤ cfg7.N → sProp 𝕄
  | 0, _ => iprop((∃ r, prngReg c r) ∗ Pipeline.scopedRest (Ix := Unit) (Name := ℕ) (U := UR sig nD τ) (Lvl := ℕ) (Val := Elt F) spec7 c)
  | n + 1, hn => iprop(owns (c : Thread nD τ) scM7 fullShare ((outsAt7 V c n hn).2.2) ∗ Pipeline.scopedRestBut (Ix := Unit) (Name := ℕ) (U := UR sig nD τ) (Lvl := ℕ) (Val := Elt F) spec7 c [cc7_scratch0] ∗ (∃ r, prngReg c r))

theorem PhiS7_zero (c : Dev nD) (n : ℕ) (h : n ≤ cfg7.N) (hz : n = 0) :
    PhiS7 V c n h = iprop((∃ r, prngReg c r) ∗ iprop((∃ d, owns (c : Thread nD τ) scM7 fullShare d)) ∗ Pipeline.scopedRestBut (Ix := Unit) (Name := ℕ) (U := UR sig nD τ) (Lvl := ℕ) (Val := Elt F) spec7 c [cc7_scratch0]) := by
  subst hz
  show iprop((∃ r, prngReg c r) ∗ Pipeline.scopedRest (Ix := Unit) (Name := ℕ) (U := UR sig nD τ) (Lvl := ℕ) (Val := Elt F) spec7 c) = _
  rw [scopedRest7_split]; simp only [scM7, owns_whole]; try rfl

theorem PhiS7_succ (c : Dev nD) (n : ℕ) (hn : n < cfg7.N) :
    PhiS7 V c (n + 1) hn = iprop(owns (c : Thread nD τ) scM7 fullShare ((outsAt7 V c n hn).2.2) ∗ Pipeline.scopedRestBut (Ix := Unit) (Name := ℕ) (U := UR sig nD τ) (Lvl := ℕ) (Val := Elt F) spec7 c [cc7_scratch0] ∗ (∃ r, prngReg c r)) := rfl

theorem PhiS7_pos (c : Dev nD) (n : ℕ) (h : n ≤ cfg7.N) (hz : n ≠ 0) :
    PhiS7 V c n h = iprop(owns (c : Thread nD τ) scM7 fullShare ((outsAt7 V c (n - 1) (by omega)).2.2) ∗ Pipeline.scopedRestBut (Ix := Unit) (Name := ℕ) (U := UR sig nD τ) (Lvl := ℕ) (Val := Elt F) spec7 c [cc7_scratch0] ∗ (∃ r, prngReg c r)) := by
  cases n with
  | zero => exact absurd rfl hz
  | succ n => rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => out7_9 V c t
    | ⟨10, _⟩ => out7_10 V c t
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) : (dat7 V c).after 9 t = out7_9 V c t := by dsimp only [dat7]
theorem after7_10 (c : Dev nD) (t : Fin cfg7.N) : (dat7 V c).after 10 t = out7_10 V c t := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl) (fun t => by rw [after7_1]; unfold Dat.blockOf iblk7; rw [A_eq7]; try rfl) t d).trans
    (by unfold Dat.fetched Dat.blockOf iblk7; rw [A_eq7]; try rfl)
theorem before7_2 (c : Dev nD) (t : Fin cfg7.N) (d) : (dat7 V c).before 2 t d = iblk7 V c 2 t :=
  ((dat7 V c).before_in_eq_fetched 2 rfl (fun _ => rfl) (fun _ _ _ => rfl) (fun t => by rw [after7_2]; unfold Dat.blockOf iblk7; rw [A_eq7]; try rfl) t d).trans
    (by unfold Dat.fetched Dat.blockOf iblk7; rw [A_eq7]; try rfl)
theorem before7_3 (c : Dev nD) (t : Fin cfg7.N) (d) : (dat7 V c).before 3 t d = iblk7 V c 3 t :=
  ((dat7 V c).before_in_eq_fetched 3 rfl (fun _ => rfl) (fun _ _ _ => rfl) (fun t => by rw [after7_3]; unfold Dat.blockOf iblk7; rw [A_eq7]; try rfl) t d).trans
    (by unfold Dat.fetched Dat.blockOf iblk7; rw [A_eq7]; try rfl)
theorem before7_4 (c : Dev nD) (t : Fin cfg7.N) (d) : (dat7 V c).before 4 t d = iblk7 V c 4 t :=
  ((dat7 V c).before_in_eq_fetched 4 rfl (fun _ => rfl) (fun _ _ _ => rfl) (fun t => by rw [after7_4]; unfold Dat.blockOf iblk7; rw [A_eq7]; try rfl) t d).trans
    (by unfold Dat.fetched Dat.blockOf iblk7; rw [A_eq7]; try rfl)
theorem before7_5 (c : Dev nD) (t : Fin cfg7.N) (d) : (dat7 V c).before 5 t d = iblk7 V c 5 t :=
  ((dat7 V c).before_in_eq_fetched 5 rfl (fun _ => rfl) (fun _ _ _ => rfl) (fun t => by rw [after7_5]; unfold Dat.blockOf iblk7; rw [A_eq7]; try rfl) t d).trans
    (by unfold Dat.fetched Dat.blockOf iblk7; rw [A_eq7]; try rfl)
theorem before7_6 (c : Dev nD) (t : Fin cfg7.N) (d) : (dat7 V c).before 6 t d = iblk7 V c 6 t :=
  ((dat7 V c).before_in_eq_fetched 6 rfl (fun _ => rfl) (fun _ _ _ => rfl) (fun t => by rw [after7_6]; unfold Dat.blockOf iblk7; rw [A_eq7]; try rfl) t d).trans
    (by unfold Dat.fetched Dat.blockOf iblk7; rw [A_eq7]; try rfl)
theorem before7_7 (c : Dev nD) (t : Fin cfg7.N) (d) : (dat7 V c).before 7 t d = iblk7 V c 7 t :=
  ((dat7 V c).before_in_eq_fetched 7 rfl (fun _ => rfl) (fun _ _ _ => rfl) (fun t => by rw [after7_7]; unfold Dat.blockOf iblk7; rw [A_eq7]; try rfl) t d).trans
    (by unfold Dat.fetched Dat.blockOf iblk7; rw [A_eq7]; try rfl)
theorem before7_8 (c : Dev nD) (t : Fin cfg7.N) (d) : (dat7 V c).before 8 t d = iblk7 V c 8 t :=
  ((dat7 V c).before_in_eq_fetched 8 rfl (fun _ => rfl) (fun _ _ _ => rfl) (fun t => by rw [after7_8]; unfold Dat.blockOf iblk7; rw [A_eq7]; try rfl) t d).trans
    (by unfold Dat.fetched Dat.blockOf iblk7; rw [A_eq7]; try rfl)

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d))
    ∗ (∃ d, owns (c : Thread nD τ) (ms7_7 t) fullShare ((dat7 V c).before 7 t d))
    ∗ (∃ d, owns (c : Thread nD τ) (ms7_8 t) fullShare ((dat7 V c).before 8 t d))
    ∗ (∃ d, owns (c : Thread nD τ) (ms7_9 t) fullShare ((dat7 V c).before 9 t d))
    ∗ (∃ d, owns (c : Thread nD τ) (ms7_10 t) fullShare ((dat7 V c).before 10 t d)))

def bodyPost7 (c : Dev nD) (t : Fin cfg7.N) : sProp 𝕄 :=
  iprop((dat7 V c).Φ t.succ ∗ (dat7 V c).owesAt () t.succ
    ∗ owns (c : Thread nD τ) (ms7_0 t) fullShare (iblk7 V c 0 t)
    ∗ owns (c : Thread nD τ) (ms7_1 t) fullShare (iblk7 V c 1 t)
    ∗ owns (c : Thread nD τ) (ms7_2 t) fullShare (iblk7 V c 2 t)
    ∗ owns (c : Thread nD τ) (ms7_3 t) fullShare (iblk7 V c 3 t)
    ∗ owns (c : Thread nD τ) (ms7_4 t) fullShare (iblk7 V c 4 t)
    ∗ owns (c : Thread nD τ) (ms7_5 t) fullShare (iblk7 V c 5 t)
    ∗ owns (c : Thread nD τ) (ms7_6 t) fullShare (iblk7 V c 6 t)
    ∗ owns (c : Thread nD τ) (ms7_7 t) fullShare (iblk7 V c 7 t)
    ∗ owns (c : Thread nD τ) (ms7_8 t) fullShare (iblk7 V c 8 t)
    ∗ owns (c : Thread nD τ) (ms7_9 t) fullShare (out7_9 V c t)
    ∗ (dat7 V c).leavesExact 10 t)

set_option maxHeartbeats 8000000 in

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8]
  rw [show (dat7 V c).owesAt () t.succ = (dat7 V c).owesAt () t.castSucc from rfl]
  rw [show (dat7 V c).Φ t.succ = PhiS7 V c (t.val + 1) t.isLt from rfl, PhiS7_succ]
  have hN : t.val < 25 := lt_of_lt_of_eq t.isLt (show cfg7.N = 25 from N_7)
  unfold out7_9
  by_cases h1 : t.val % 25 = 24
  · have hz : t.val ≠ 0 := by omega
    rw [show (dat7 V c).leavesExact 10 t = owns (c : Thread nD τ) (ms7_10 t) fullShare ((dat7 V c).after 10 t) from by
      unfold Dat.leavesExact; rw [liveAt7_10 t ((hcond7_1 t).mpr h1)], after7_10]
    unfold out7_10
    rw [outsAt7_C V c t h1]
    unfold out7_C_9 out7_C_10 sout7_C; (try dsimp only)
    rw [PhiS7_castSucc V c t, PhiS7_pos V c _ _ hz]
    iintro ⟨⟨HS, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun7_C c (grid7.coords t) _ _ _ _ _ _ _ _ _ _ _ _ _ _ _ _ _ _ _ _ _ _ _ _ (fun h => absurd ((hcond7_0 t).mp h) (by omega)) ((hcond7_1 t).mpr h1) (iblk7 V c 0 t) (iblk7 V c 1 t) (iblk7 V c 2 t) (iblk7 V c 3 t) (iblk7 V c 4 t) (iblk7 V c 5 t) (iblk7 V c 6 t) (iblk7 V c 7 t) (iblk7 V c 8 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS]; · iexact HS
    iintro ⟨H0, H1, H2, H3, H4, H5, H6, H7, H8, ⟨%e9, H9⟩, ⟨%e10, H10⟩, ⟨%es, HS⟩⟩
    isplitl [HS Hrest Hg]
    · isplitl [HS]
      · unfold owns; iexists _; isplitr
        swap; · iexact HS
        ipureintro; exact View.read_writes_eq_canon _ _ _ (fun _ => scover7_C ..)
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_eq_canon _ _ _ (fun _ => cover7_C_9 ..)
    unfold owns; iexists _; isplitr
    swap; · iexact H10
    ipureintro; exact View.read_writes_eq_canon _ _ _ (fun _ => cover7_C_10 ..)

  · rw [Dat.leavesExact_idle (dat7 V c) 10 t (idleAt7_10 t (fun h => h1 ((hcond7_1 t).mp h))) (noFlush7_10 t (fun h => h1 ((hcond7_1 t).mp h)))]
    by_cases h0 : t.val % 25 = 0
    · have hz : t.val = 0 := by omega
      rw [outsAt7_A V c t h0]
      unfold out7_A_9 sout7_A; (try dsimp only)
      rw [PhiS7_castSucc V c t, PhiS7_zero V c _ _ hz]
      iintro ⟨⟨Hg, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun7_A c (grid7.coords t) _ _ _ _ _ _ _ _ _ _ _ _ _ _ _ _ _ _ _ _ _ _ _ _ ((hcond7_0 t).mpr h0) (fun h => absurd ((hcond7_1 t).mp h) (by omega)) (iblk7 V c 0 t) (iblk7 V c 1 t) (iblk7 V c 2 t) (iblk7 V c 3 t) (iblk7 V c 4 t) (iblk7 V c 5 t) (iblk7 V c 6 t) (iblk7 V c 7 t) (iblk7 V c 8 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HS]; · iexact HS
      iintro ⟨H0, H1, H2, H3, H4, H5, H6, H7, H8, ⟨%e9, H9⟩, H10, ⟨%es, HS⟩⟩
      isplitl [HS Hrest Hg]
      · isplitl [HS]
        · unfold owns; iexists _; isplitr
          swap; · iexact HS
          ipureintro; exact View.read_writes_eq_canon _ _ _ (fun _ => scover7_A ..)
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_eq_canon _ _ _ (fun _ => cover7_A_9 ..)
      iexists _; iexact H10

    · have hz : t.val ≠ 0 := by omega
      rw [outsAt7_B V c t h0 h1]
      unfold out7_B_9 sout7_B; (try dsimp only)
      rw [PhiS7_castSucc V c t, PhiS7_pos V c _ _ hz]
      iintro ⟨⟨HS, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun7_B c (grid7.coords t) _ _ _ _ _ _ _ _ _ _ _ _ _ _ _ _ _ _ _ _ _ _ _ _ (fun h => h0 ((hcond7_0 t).mp h)) (fun h => h1 ((hcond7_1 t).mp h)) (iblk7 V c 0 t) (iblk7 V c 1 t) (iblk7 V c 2 t) (iblk7 V c 3 t) (iblk7 V c 4 t) (iblk7 V c 5 t) (iblk7 V c 6 t) (iblk7 V c 7 t) (iblk7 V c 8 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HS]; · iexact HS
      iintro ⟨H0, H1, H2, H3, H4, H5, H6, H7, H8, ⟨%e9, H9⟩, H10, ⟨%es, HS⟩⟩
      isplitl [HS Hrest Hg]
      · isplitl [HS]
        · unfold owns; iexists _; isplitr
          swap; · iexact HS
          ipureintro; exact View.read_writes_eq_canon _ _ _ (fun _ => scover7_B ..)
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_eq_canon _ _ _ (fun _ => cover7_B_9 ..)
      iexists _; iexact H10

theorem body_obligation7 (c : Dev nD) : BodyObligation (dat7 (F := F) V c) (defs₀ (F := F)) Variants.none () Set.univ := fun t => by
  rw [bigSep_W7, bigSep_W7]
  exact sound_body7 V c t

theorem Phi_in7 (c : Dev nD) :
    (iprop((∃ r, prngReg c r) ∗ Pipeline.scopedRest (Ix := Unit) (Name := ℕ) (U := UR sig nD τ) (Lvl := ℕ) (Val := Elt F) spec7 c) : sProp 𝕄) ⊢ (dat7 V c).Φ 0 := by
  rw [show (dat7 V c).Φ 0 = PhiS7 V c 0 (Nat.zero_le _) from rfl]
  exact Idealize.SL.BI.Entails.refl _

theorem Phi_out7 (c : Dev nD) :
    (dat7 V c).Φ (Fin.last cfg7.N) ⊢ (iprop((∃ r, prngReg c r) ∗ Pipeline.scopedRest (Ix := Unit) (Name := ℕ) (U := UR sig nD τ) (Lvl := ℕ) (Val := Elt F) spec7 c) : sProp 𝕄) := by
  rw [show (dat7 V c).Φ (Fin.last cfg7.N) = PhiS7 V c (Fin.last cfg7.N).val (Nat.le_of_lt_succ (Fin.last cfg7.N).isLt) from rfl,
    PhiS7_pos V c _ _ (by rw [Fin.val_last]; have : cfg7.N = 25 := N_7; omega), scopedRest7_split]
  simp only [scM7, owns_whole]
  iintro ⟨HS, Hrest, Hg⟩
  isplitl [Hg]; · iexact Hg
  isplitl [HS]; · iexists _; iexact HS
  iexact Hrest

end Cert.Kernel.Hand

end
-- ==== Proof.K.Reg8.lean ====
import proofs.«400674_j14499809591724_2_alg».proof.Proof.K.Reg0

noncomputable section

namespace Cert.Kernel.Hand

open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def out8_2 (x0 : Vec F S2000x128 .f32) (x1 : Vec F S128x128 .f32) : Vec F S2000x128 .bf16 :=
  View.canon [⟨r0_0, k8_pay1 (View.ld x0 r0_0) (View.ld x1 r0_1)⟩]

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := rfl

theorem after8_2 (c : Dev nD) (t : Fin cfg8.N) : (dat8 V c).after 2 t = out8_2 (iblk8 V c 0 t) (iblk8 V c 1 t) := by dsimp only [dat8]

theorem before8_0 (c : Dev nD) (t : Fin cfg8.N) (d) : (dat8 V c).before 0 t d = iblk8 V c 0 t :=
  ((dat8 V c).before_in_eq_fetched 0 rfl (fun _ => rfl) (fun _ _ _ => rfl) (fun _ => rfl) t d).trans rfl
theorem before8_1 (c : Dev nD) (t : Fin cfg8.N) (d) : (dat8 V c).before 1 t d = iblk8 V c 1 t :=
  ((dat8 V c).before_in_eq_fetched 1 rfl (fun _ => rfl) (fun _ _ _ => rfl) (fun _ => rfl) t d).trans rfl

theorem body_obligation8 (c : Dev nD) : BodyObligation (dat8 (F := F) V c) (defs₀ (F := F)) Variants.none () Set.univ := fun t => by
  rw [bigSep_W8, bigSep_W8]
  simp only [before8_0, before8_1]
  dsimp only [dat8]
  show _ ⊢ wp _ _ _ (bodyAt8 t) _
  rw [bodyAt8, cc8__matmul_kernel_eq_skeleton]
  exact rowProdBody_sound k8_pay1 c _ _ _ _ (hstage8_2 _) (iblk8 V c 0 t) (iblk8 V c 1 t) _ _ _

end Cert.Kernel.Hand
-- ==== Proof.K.Reg9.lean ====
import proofs.«400674_j14499809591724_2_alg».proof.Proof.K.Reg1

noncomputable section

namespace Cert.Kernel.Hand

open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

def out9_4 (x0 : Vec F S2000x128 .f32) (x1 : Vec F S2000x128 .bf16) (x2 : Vec F S2000x1 .f32) (x3 : Vec F S1x128 .f32) : Vec F S2000x128 .bf16 :=
  View.canon [⟨r1_0, k9_pay1 (View.ld x0 r1_0) (View.ld x1 r1_0) (View.ld x2 r1_1) (View.ld x3 r1_2)⟩]

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

theorem A_eq9 (c : Dev nD) (w : Fin cfg9.W) : (dat9 V c).A w = V c (Pipeline.arrRef spec9 w) := rfl

theorem after9_4 (c : Dev nD) (t : Fin cfg9.N) :
    (dat9 V c).after 4 t = out9_4 (iblk9 V c 0 t) (iblk9 V c 1 t) (iblk9 V c 2 t) (iblk9 V c 3 t) := by dsimp only [dat9]

theorem before9_0 (c : Dev nD) (t : Fin cfg9.N) (d) : (dat9 V c).before 0 t d = iblk9 V c 0 t :=
  ((dat9 V c).before_in_eq_fetched 0 rfl (fun _ => rfl) (fun _ _ _ => rfl) (fun _ => rfl) t d).trans rfl
theorem before9_1 (c : Dev nD) (t : Fin cfg9.N) (d) : (dat9 V c).before 1 t d = iblk9 V c 1 t :=
  ((dat9 V c).before_in_eq_fetched 1 rfl (fun _ => rfl) (fun _ _ _ => rfl) (fun _ => rfl) t d).trans rfl
theorem before9_2 (c : Dev nD) (t : Fin cfg9.N) (d) : (dat9 V c).before 2 t d = iblk9 V c 2 t :=
  ((dat9 V c).before_in_eq_fetched 2 rfl (fun _ => rfl) (fun _ _ _ => rfl) (fun _ => rfl) t d).trans rfl
theorem before9_3 (c : Dev nD) (t : Fin cfg9.N) (d) : (dat9 V c).before 3 t d = iblk9 V c 3 t :=
  ((dat9 V c).before_in_eq_fetched 3 rfl (fun _ => rfl) (fun _ _ _ => rfl) (fun _ => rfl) t d).trans rfl

theorem body_obligation9 (c : Dev nD) : BodyObligation (dat9 (F := F) V c) (defs₀ (F := F)) Variants.none () Set.univ := fun t => by
  rw [bigSep_W9, bigSep_W9]
  simp only [before9_0, before9_1, before9_2, before9_3]
  dsimp only [dat9]
  show _ ⊢ wp _ _ _ (bodyAt9 t) _
  rw [bodyAt9, cc9__combine_kernel_eq_skeleton]
  exact rowCombBody_sound k9_pay1 c _ _ _ _ _ _ (hstage9_4 _) (iblk9 V c 0 t) (iblk9 V c 1 t) (iblk9 V c 2 t) (iblk9 V c 3 t) _ _ _

end Cert.Kernel.Hand
-- ==== Proof.K.Reg10.lean ====
import proofs.«400674_j14499809591724_2_alg».proof.Proof.K.Reg0

noncomputable section

namespace Cert.Kernel.Hand

open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

def out10_2 (x0 : Vec F S2000x128 .bf16) (x1 : Vec F S128x128 .f32) : Vec F S2000x128 .bf16 :=
  View.canon [⟨r0_0, k10_pay1 (View.ld x0 r0_0) (View.ld x1 r0_1)⟩]

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := rfl

theorem after10_2 (c : Dev nD) (t : Fin cfg10.N) : (dat10 V c).after 2 t = out10_2 (iblk10 V c 0 t) (iblk10 V c 1 t) := by dsimp only [dat10]

theorem before10_0 (c : Dev nD) (t : Fin cfg10.N) (d) : (dat10 V c).before 0 t d = iblk10 V c 0 t :=
  ((dat10 V c).before_in_eq_fetched 0 rfl (fun _ => rfl) (fun _ _ _ => rfl) (fun _ => rfl) t d).trans rfl
theorem before10_1 (c : Dev nD) (t : Fin cfg10.N) (d) : (dat10 V c).before 1 t d = iblk10 V c 1 t :=
  ((dat10 V c).before_in_eq_fetched 1 rfl (fun _ => rfl) (fun _ _ _ => rfl) (fun _ => rfl) t d).trans rfl

theorem body_obligation10 (c : Dev nD) : BodyObligation (dat10 (F := F) V c) (defs₀ (F := F)) Variants.none () Set.univ := fun t => by
  rw [bigSep_W10, bigSep_W10]
  simp only [before10_0, before10_1]
  dsimp only [dat10]
  show _ ⊢ wp _ _ _ (bodyAt10 t) _
  rw [bodyAt10, cc10__matmul_kernel_eq_skeleton]
  exact rowProdBody_sound k10_pay1 c _ _ _ _ (hstage10_2 _) (iblk10 V c 0 t) (iblk10 V c 1 t) _ _ _

end Cert.Kernel.Hand
-- ==== Proof.K.Reg11.lean ====
import proofs.«400674_j14499809591724_2_alg».proof.Proof.Gen.Kernel.Launch
import proofs.«400674_j14499809591724_2_alg».proof.Proof.Gen.Kernel.Skeleton
import proofs.«400674_j14499809591724_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond11_0 (i : grid11.Coords) : Prop := (Scalar.cmpi .ne (Scalar.extui (Scalar.cmpi .eq (BitVec.ofNat 32 (i 0).val) 0#32)) 0#32) = 1#1
theorem hcond11_0 : ∀ t : Fin cfg11.N, cond11_0 (grid11.coords t) ↔ t.val % 25 = 0 :=
  (by decide +kernel : ∀ t : Fin grid11.N, cond11_0 (grid11.coords t) ↔ t.val % 25 = 0)

abbrev cond11_1 (i : grid11.Coords) : Prop := k11_cond2 i = 1#1
theorem hcond11_1 : ∀ t : Fin cfg11.N, cond11_1 (grid11.coords t) ↔ t.val % 25 = 24 :=
  (by decide +kernel : ∀ t : Fin grid11.N, cond11_1 (grid11.coords t) ↔ t.val % 25 = 24)

section
variable (c : Dev nD) (i : grid11.Coords) (arg1 : Memref sig .tc .vmem S2000x128 .f32) (harg1 : arg1.IsWhole) (arg2 : Memref sig .tc .vmem S2000x128 .bf16) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .bf16) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x1 .i32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole)

section
variable (hc0 : cond11_0 i) (hc1 : ¬cond11_1 i) (x0 : Vec F S2000x128 .f32) (x1 : Vec F S2000x128 .bf16) (x2 : Vec F S2000x1 .f32) (x3 : Vec F S1x128 .f32) (x4 : Vec F S2000x128 .bf16) (x5 : Vec F S128x128 .f32) (x6 : Vec F S128x128 .f32) (x7 : Vec F S1x128 .f32) (x8 : Vec F S2000x1 .i32)

set_option maxHeartbeats 4000000 in
noncomputable def kernelRun11_A :
    Σ' (L9 : List (View.Piece (Elt F) S2000x128 .f32)), { LS : List (View.Piece (Elt F) S512x128 .f32) //
      ∀ (xi10 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS)) -∗ K ⟨⟩))
          ⊢ wp frame (wpE (defs₀ (F := F)) Variants.none c none) E (cc11__stage2_kernel i arg1 harg1 arg2 harg2 arg3 harg3 arg4 harg4 arg5 harg5 arg6 harg6 arg7 harg7 arg8 harg8 arg9 harg9 arg10 harg10 arg11 harg11 arg12 harg12) K } := by
  refine ⟨?_, ?_, fun xi10 E K => ?run⟩
  case run =>
    simp only [cc11__stage2_kernel_eq_skeleton]; unfold cc11__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    iexists _; iexact HS

theorem cover11_A_9 : ∀ y : S2000x128.Idx, ∃ pc ∈ (kernelRun11_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).1, y ∈ pc.1.set :=
  View.cover_of_tiledL _ S2000x128.size (by sl_kernel_rfl)
def out11_A_9 : Vec F S2000x128 .f32 := View.canon (kernelRun11_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).1
theorem scover11_A : ∀ y : S512x128.Idx, ∃ pc ∈ (kernelRun11_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1, y ∈ pc.1.set :=
  View.cover_of_tiledL _ S512x128.size (by sl_kernel_rfl)
def sout11_A : Vec F S512x128 .f32 := View.canon (kernelRun11_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1
def outs11_A : Vec F S2000x128 .f32 × Vec F S512x128 .f32 × Vec F S512x128 .f32 := (out11_A_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8, sout11_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8, sout11_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8)

end

section
variable (hc0 : ¬cond11_0 i) (hc1 : ¬cond11_1 i) (x0 : Vec F S2000x128 .f32) (x1 : Vec F S2000x128 .bf16) (x2 : Vec F S2000x1 .f32) (x3 : Vec F S1x128 .f32) (x4 : Vec F S2000x128 .bf16) (x5 : Vec F S128x128 .f32) (x6 : Vec F S128x128 .f32) (x7 : Vec F S1x128 .f32) (x8 : Vec F S2000x1 .i32) (xs : Vec F S512x128 .f32)

set_option maxHeartbeats 4000000 in
noncomputable def kernelRun11_B :
    Σ' (L9 : List (View.Piece (Elt F) S2000x128 .f32)), { LS : List (View.Piece (Elt F) S512x128 .f32) //
      ∀ (xi10 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS)) -∗ K ⟨⟩))
          ⊢ wp frame (wpE (defs₀ (F := F)) Variants.none c none) E (cc11__stage2_kernel i arg1 harg1 arg2 harg2 arg3 harg3 arg4 harg4 arg5 harg5 arg6 harg6 arg7 harg7 arg8 harg8 arg9 harg9 arg10 harg10 arg11 harg11 arg12 harg12) K } := by
  refine ⟨?_, ?_, fun xi10 E K => ?run⟩
  case run =>
    simp only [cc11__stage2_kernel_eq_skeleton]; unfold cc11__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    iexists _; iexact HS

theorem cover11_B_9 : ∀ y : S2000x128.Idx, ∃ pc ∈ (kernelRun11_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).1, y ∈ pc.1.set :=
  View.cover_of_tiledL _ S2000x128.size (by sl_kernel_rfl)
def out11_B_9 : Vec F S2000x128 .f32 := View.canon (kernelRun11_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).1
theorem scover11_B : ∀ y : S512x128.Idx, ∃ pc ∈ (kernelRun11_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.1, y ∈ pc.1.set :=
  View.cover_of_tiledL _ S512x128.size (by sl_kernel_rfl)
def sout11_B : Vec F S512x128 .f32 := View.canon (kernelRun11_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.1
def outs11_B : Vec F S2000x128 .f32 × Vec F S512x128 .f32 × Vec F S512x128 .f32 := (out11_B_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs, sout11_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs, sout11_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs)

end

section
variable (hc0 : ¬cond11_0 i) (hc1 : cond11_1 i) (x0 : Vec F S2000x128 .f32) (x1 : Vec F S2000x128 .bf16) (x2 : Vec F S2000x1 .f32) (x3 : Vec F S1x128 .f32) (x4 : Vec F S2000x128 .bf16) (x5 : Vec F S128x128 .f32) (x6 : Vec F S128x128 .f32) (x7 : Vec F S1x128 .f32) (x8 : Vec F S2000x1 .i32) (xs : Vec F S512x128 .f32)

set_option maxHeartbeats 4000000 in
noncomputable def kernelRun11_C :
    Σ' (L9 : List (View.Piece (Elt F) S2000x128 .f32)) (L10 : List (View.Piece (Elt F) S512x128 .f32)), { LS : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS)) -∗ K ⟨⟩))
          ⊢ wp frame (wpE (defs₀ (F := F)) Variants.none c none) E (cc11__stage2_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc11__stage2_kernel_eq_skeleton]; unfold cc11__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact HS

theorem cover11_C_9 : ∀ y : S2000x128.Idx, ∃ pc ∈ (kernelRun11_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).1, y ∈ pc.1.set :=
  View.cover_of_tiledL _ S2000x128.size (by sl_kernel_rfl)
def out11_C_9 : Vec F S2000x128 .f32 := View.canon (kernelRun11_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).1
theorem cover11_C_10 : ∀ y : S512x128.Idx, ∃ pc ∈ (kernelRun11_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.1, y ∈ pc.1.set :=
  View.cover_of_tiledL _ S512x128.size (by sl_kernel_rfl)
def out11_C_10 : Vec F S512x128 .f32 := View.canon (kernelRun11_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.1
theorem scover11_C : ∀ y : S512x128.Idx, ∃ pc ∈ (kernelRun11_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.2.1, y ∈ pc.1.set :=
  View.cover_of_tiledL _ S512x128.size (by sl_kernel_rfl)
def sout11_C : Vec F S512x128 .f32 := View.canon (kernelRun11_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.2.1
def outs11_C : Vec F S2000x128 .f32 × Vec F S512x128 .f32 × Vec F S512x128 .f32 := (out11_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs, out11_C_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs, sout11_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs)

end

end

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem idleAt11_10 : ∀ t : Fin cfg11.N, ¬cond11_1 (grid11.coords t) → cfg11.idle 10 (grid11.coords t) = true := by decide +kernel
theorem noFlush11_10 : ∀ t : Fin cfg11.N, ¬cond11_1 (grid11.coords t) → (cfg11.win 10).flush t = false := by decide +kernel

theorem liveAt11_10 : ∀ t : Fin cfg11.N, cond11_1 (grid11.coords t) → cfg11.idle 10 (grid11.coords t) = false := by decide +kernel

abbrev ms11_0 (t : Fin cfg11.N) : Memref sig .tc .vmem S2000x128 .f32 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S2000x128 .bf16 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S2000x1 .f32 := win11_2.stage (cfg11.slots t 2)
abbrev hs11_2 (t : Fin cfg11.N) : (ms11_2 t).IsWhole := hstage11_2 ((cfg11.slots t 2).cast nbuf11_2)
abbrev ms11_3 (t : Fin cfg11.N) : Memref sig .tc .vmem S1x128 .f32 := win11_3.stage (cfg11.slots t 3)
abbrev hs11_3 (t : Fin cfg11.N) : (ms11_3 t).IsWhole := hstage11_3 ((cfg11.slots t 3).cast nbuf11_3)
abbrev ms11_4 (t : Fin cfg11.N) : Memref sig .tc .vmem S2000x128 .bf16 := win11_4.stage (cfg11.slots t 4)
abbrev hs11_4 (t : Fin cfg11.N) : (ms11_4 t).IsWhole := hstage11_4 ((cfg11.slots t 4).cast nbuf11_4)
abbrev ms11_5 (t : Fin cfg11.N) : Memref sig .tc .vmem S128x128 .f32 := win11_5.stage (cfg11.slots t 5)
abbrev hs11_5 (t : Fin cfg11.N) : (ms11_5 t).IsWhole := hstage11_5 ((cfg11.slots t 5).cast nbuf11_5)
abbrev ms11_6 (t : Fin cfg11.N) : Memref sig .tc .vmem S128x128 .f32 := win11_6.stage (cfg11.slots t 6)
abbrev hs11_6 (t : Fin cfg11.N) : (ms11_6 t).IsWhole := hstage11_6 ((cfg11.slots t 6).cast nbuf11_6)
abbrev ms11_7 (t : Fin cfg11.N) : Memref sig .tc .vmem S1x128 .f32 := win11_7.stage (cfg11.slots t 7)
abbrev hs11_7 (t : Fin cfg11.N) : (ms11_7 t).IsWhole := hstage11_7 ((cfg11.slots t 7).cast nbuf11_7)
abbrev ms11_8 (t : Fin cfg11.N) : Memref sig .tc .vmem S2000x1 .i32 := win11_8.stage (cfg11.slots t 8)
abbrev hs11_8 (t : Fin cfg11.N) : (ms11_8 t).IsWhole := hstage11_8 ((cfg11.slots t 8).cast nbuf11_8)
abbrev ms11_9 (t : Fin cfg11.N) : Memref sig .tc .vmem S2000x128 .f32 := win11_9.stage (cfg11.slots t 9)
abbrev hs11_9 (t : Fin cfg11.N) : (ms11_9 t).IsWhole := hstage11_9 ((cfg11.slots t 9).cast nbuf11_9)
abbrev ms11_10 (t : Fin cfg11.N) : Memref sig .tc .vmem S512x128 .f32 := win11_10.stage (cfg11.slots t 10)
abbrev hs11_10 (t : Fin cfg11.N) : (ms11_10 t).IsWhole := hstage11_10 ((cfg11.slots t 10).cast nbuf11_10)

abbrev scM11 : Memref sig .tc .vmem S512x128 .f32 := Memref.whole cc11_scratch0

def ptA11 (c : Dev nD) (t : Fin cfg11.N) (h0 : t.val % 25 = 0) : Vec F S2000x128 .f32 × Vec F S512x128 .f32 × Vec F S512x128 .f32 :=
  outs11_A c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) scM11 (Memref.isWhole_whole _) ((hcond11_0 t).mpr h0) (fun h => absurd ((hcond11_1 t).mp h) (by omega)) (iblk11 V c 0 t) (iblk11 V c 1 t) (iblk11 V c 2 t) (iblk11 V c 3 t) (iblk11 V c 4 t) (iblk11 V c 5 t) (iblk11 V c 6 t) (iblk11 V c 7 t) (iblk11 V c 8 t)

def ptB11 (c : Dev nD) (t : Fin cfg11.N) (h0 : ¬t.val % 25 = 0) (h1 : ¬t.val % 25 = 24) (xs : Vec F S512x128 .f32) : Vec F S2000x128 .f32 × Vec F S512x128 .f32 × Vec F S512x128 .f32 :=
  outs11_B c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) scM11 (Memref.isWhole_whole _) (fun h => h0 ((hcond11_0 t).mp h)) (fun h => h1 ((hcond11_1 t).mp h)) (iblk11 V c 0 t) (iblk11 V c 1 t) (iblk11 V c 2 t) (iblk11 V c 3 t) (iblk11 V c 4 t) (iblk11 V c 5 t) (iblk11 V c 6 t) (iblk11 V c 7 t) (iblk11 V c 8 t) xs

def ptC11 (c : Dev nD) (t : Fin cfg11.N) (h1 : t.val % 25 = 24) (xs : Vec F S512x128 .f32) : Vec F S2000x128 .f32 × Vec F S512x128 .f32 × Vec F S512x128 .f32 :=
  outs11_C c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) scM11 (Memref.isWhole_whole _) (fun h => absurd ((hcond11_0 t).mp h) (by omega)) ((hcond11_1 t).mpr h1) (iblk11 V c 0 t) (iblk11 V c 1 t) (iblk11 V c 2 t) (iblk11 V c 3 t) (iblk11 V c 4 t) (iblk11 V c 5 t) (iblk11 V c 6 t) (iblk11 V c 7 t) (iblk11 V c 8 t) xs

def outsAt11 (c : Dev nD) : (n : ℕ) → n < cfg11.N → Vec F S2000x128 .f32 × Vec F S512x128 .f32 × Vec F S512x128 .f32
  | 0, hn => ptA11 V c ⟨0, hn⟩ (Nat.zero_mod _)
  | n + 1, hn =>
    if h1 : (n + 1) % 25 = 24 then ptC11 V c ⟨n + 1, hn⟩ h1 (outsAt11 c n (Nat.lt_of_succ_lt hn)).2.2
    else ptB11 V c ⟨n + 1, hn⟩ (by have := lt_of_lt_of_eq hn (show cfg11.N = 25 from N_11); show ¬(n + 1) % 25 = 0; omega) h1 (outsAt11 c n (Nat.lt_of_succ_lt hn)).2.2

theorem outsAt11_A (c : Dev nD) (t : Fin cfg11.N) (h0 : t.val % 25 = 0) :
    outsAt11 V c t.val t.isLt = (out11_A_9 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) scM11 (Memref.isWhole_whole _) ((hcond11_0 t).mpr h0) (fun h => absurd ((hcond11_1 t).mp h) (by omega)) (iblk11 V c 0 t) (iblk11 V c 1 t) (iblk11 V c 2 t) (iblk11 V c 3 t) (iblk11 V c 4 t) (iblk11 V c 5 t) (iblk11 V c 6 t) (iblk11 V c 7 t) (iblk11 V c 8 t), sout11_A c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) scM11 (Memref.isWhole_whole _) ((hcond11_0 t).mpr h0) (fun h => absurd ((hcond11_1 t).mp h) (by omega)) (iblk11 V c 0 t) (iblk11 V c 1 t) (iblk11 V c 2 t) (iblk11 V c 3 t) (iblk11 V c 4 t) (iblk11 V c 5 t) (iblk11 V c 6 t) (iblk11 V c 7 t) (iblk11 V c 8 t), sout11_A c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) scM11 (Memref.isWhole_whole _) ((hcond11_0 t).mpr h0) (fun h => absurd ((hcond11_1 t).mp h) (by omega)) (iblk11 V c 0 t) (iblk11 V c 1 t) (iblk11 V c 2 t) (iblk11 V c 3 t) (iblk11 V c 4 t) (iblk11 V c 5 t) (iblk11 V c 6 t) (iblk11 V c 7 t) (iblk11 V c 8 t)) := by
  obtain ⟨n, hn⟩ := t
  cases n with
  | zero => exact rfl
  | succ n => exact (by exfalso; have hN : n + 1 < 25 := lt_of_lt_of_eq hn (show cfg11.N = 25 from N_11); (try dsimp only at h0); omega)

theorem outsAt11_B (c : Dev nD) (t : Fin cfg11.N) (h0 : ¬t.val % 25 = 0) (h1 : ¬t.val % 25 = 24) :
    outsAt11 V c t.val t.isLt = (out11_B_9 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) scM11 (Memref.isWhole_whole _) (fun h => h0 ((hcond11_0 t).mp h)) (fun h => h1 ((hcond11_1 t).mp h)) (iblk11 V c 0 t) (iblk11 V c 1 t) (iblk11 V c 2 t) (iblk11 V c 3 t) (iblk11 V c 4 t) (iblk11 V c 5 t) (iblk11 V c 6 t) (iblk11 V c 7 t) (iblk11 V c 8 t) (outsAt11 V c (t.val - 1) (Nat.lt_of_le_of_lt (Nat.sub_le _ _) t.isLt)).2.2, sout11_B c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) scM11 (Memref.isWhole_whole _) (fun h => h0 ((hcond11_0 t).mp h)) (fun h => h1 ((hcond11_1 t).mp h)) (iblk11 V c 0 t) (iblk11 V c 1 t) (iblk11 V c 2 t) (iblk11 V c 3 t) (iblk11 V c 4 t) (iblk11 V c 5 t) (iblk11 V c 6 t) (iblk11 V c 7 t) (iblk11 V c 8 t) (outsAt11 V c (t.val - 1) (Nat.lt_of_le_of_lt (Nat.sub_le _ _) t.isLt)).2.2, sout11_B c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) scM11 (Memref.isWhole_whole _) (fun h => h0 ((hcond11_0 t).mp h)) (fun h => h1 ((hcond11_1 t).mp h)) (iblk11 V c 0 t) (iblk11 V c 1 t) (iblk11 V c 2 t) (iblk11 V c 3 t) (iblk11 V c 4 t) (iblk11 V c 5 t) (iblk11 V c 6 t) (iblk11 V c 7 t) (iblk11 V c 8 t) (outsAt11 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h1).trans rfl

theorem outsAt11_C (c : Dev nD) (t : Fin cfg11.N) (h1 : t.val % 25 = 24) :
    outsAt11 V c t.val t.isLt = (out11_C_9 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) scM11 (Memref.isWhole_whole _) (fun h => absurd ((hcond11_0 t).mp h) (by omega)) ((hcond11_1 t).mpr h1) (iblk11 V c 0 t) (iblk11 V c 1 t) (iblk11 V c 2 t) (iblk11 V c 3 t) (iblk11 V c 4 t) (iblk11 V c 5 t) (iblk11 V c 6 t) (iblk11 V c 7 t) (iblk11 V c 8 t) (outsAt11 V c (t.val - 1) (Nat.lt_of_le_of_lt (Nat.sub_le _ _) t.isLt)).2.2, out11_C_10 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) scM11 (Memref.isWhole_whole _) (fun h => absurd ((hcond11_0 t).mp h) (by omega)) ((hcond11_1 t).mpr h1) (iblk11 V c 0 t) (iblk11 V c 1 t) (iblk11 V c 2 t) (iblk11 V c 3 t) (iblk11 V c 4 t) (iblk11 V c 5 t) (iblk11 V c 6 t) (iblk11 V c 7 t) (iblk11 V c 8 t) (outsAt11 V c (t.val - 1) (Nat.lt_of_le_of_lt (Nat.sub_le _ _) t.isLt)).2.2, sout11_C c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) scM11 (Memref.isWhole_whole _) (fun h => absurd ((hcond11_0 t).mp h) (by omega)) ((hcond11_1 t).mpr h1) (iblk11 V c 0 t) (iblk11 V c 1 t) (iblk11 V c 2 t) (iblk11 V c 3 t) (iblk11 V c 4 t) (iblk11 V c 5 t) (iblk11 V c 6 t) (iblk11 V c 7 t) (iblk11 V c 8 t) (outsAt11 V c (t.val - 1) (Nat.lt_of_le_of_lt (Nat.sub_le _ _) t.isLt)).2.2) := by
  obtain ⟨n, hn⟩ := t
  cases n with
  | zero => exact (by exfalso; (try dsimp only at h1); omega)
  | succ n => exact (dif_pos h1).trans rfl

def out11_9 (c : Dev nD) (t : Fin cfg11.N) : Vec F S2000x128 .f32 := (outsAt11 V c t.val t.isLt).1

def out11_10 (c : Dev nD) (t : Fin cfg11.N) : Vec F S512x128 .f32 := (outsAt11 V c t.val t.isLt).2.1

def acc11 (c : Dev nD) (t : Fin cfg11.N) : Vec F S512x128 .f32 := (outsAt11 V c t.val t.isLt).2.2

def PhiS11 (c : Dev nD) : (n : ℕ) → n ≤ cfg11.N → sProp 𝕄
  | 0, _ => iprop((∃ r, prngReg c r) ∗ Pipeline.scopedRest (Ix := Unit) (Name := ℕ) (U := UR sig nD τ) (Lvl := ℕ) (Val := Elt F) spec11 c)
  | n + 1, hn => iprop(owns (c : Thread nD τ) scM11 fullShare ((outsAt11 V c n hn).2.2) ∗ Pipeline.scopedRestBut (Ix := Unit) (Name := ℕ) (U := UR sig nD τ) (Lvl := ℕ) (Val := Elt F) spec11 c [cc11_scratch0] ∗ (∃ r, prngReg c r))

theorem PhiS11_zero (c : Dev nD) (n : ℕ) (h : n ≤ cfg11.N) (hz : n = 0) :
    PhiS11 V c n h = iprop((∃ r, prngReg c r) ∗ iprop((∃ d, owns (c : Thread nD τ) scM11 fullShare d)) ∗ Pipeline.scopedRestBut (Ix := Unit) (Name := ℕ) (U := UR sig nD τ) (Lvl := ℕ) (Val := Elt F) spec11 c [cc11_scratch0]) := by
  subst hz
  show iprop((∃ r, prngReg c r) ∗ Pipeline.scopedRest (Ix := Unit) (Name := ℕ) (U := UR sig nD τ) (Lvl := ℕ) (Val := Elt F) spec11 c) = _
  rw [scopedRest11_split]; simp only [scM11, owns_whole]; try rfl

theorem PhiS11_succ (c : Dev nD) (n : ℕ) (hn : n < cfg11.N) :
    PhiS11 V c (n + 1) hn = iprop(owns (c : Thread nD τ) scM11 fullShare ((outsAt11 V c n hn).2.2) ∗ Pipeline.scopedRestBut (Ix := Unit) (Name := ℕ) (U := UR sig nD τ) (Lvl := ℕ) (Val := Elt F) spec11 c [cc11_scratch0] ∗ (∃ r, prngReg c r)) := rfl

theorem PhiS11_pos (c : Dev nD) (n : ℕ) (h : n ≤ cfg11.N) (hz : n ≠ 0) :
    PhiS11 V c n h = iprop(owns (c : Thread nD τ) scM11 fullShare ((outsAt11 V c (n - 1) (by omega)).2.2) ∗ Pipeline.scopedRestBut (Ix := Unit) (Name := ℕ) (U := UR sig nD τ) (Lvl := ℕ) (Val := Elt F) spec11 c [cc11_scratch0] ∗ (∃ r, prngReg c r)) := by
  cases n with
  | zero => exact absurd rfl hz
  | succ n => rfl

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => iblk11 V c 6 t
    | ⟨7, _⟩ => iblk11 V c 7 t
    | ⟨8, _⟩ => iblk11 V c 8 t
    | ⟨9, _⟩ => out11_9 V c t
    | ⟨10, _⟩ => out11_10 V c t
  Φ t := PhiS11 V c t.val (Nat.le_of_lt_succ t.isLt)
  q _ := fullShare
  owed _ := 0

theorem A_eq11 (c : Dev nD) (w : Fin cfg11.W) : (dat11 V c).A w = V c (Pipeline.arrRef spec11 w) := by
  dsimp only [dat11]

theorem PhiS11_castSucc (c : Dev nD) (t : Fin cfg11.N) :
    (dat11 V c).Φ t.castSucc = PhiS11 V c t.val (Nat.le_of_lt t.isLt) := by
  dsimp only [dat11]; simp only [Fin.coe_castSucc]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = iblk11 V c 6 t := by dsimp only [dat11]
theorem after11_7 (c : Dev nD) (t : Fin cfg11.N) : (dat11 V c).after 7 t = iblk11 V c 7 t := by dsimp only [dat11]
theorem after11_8 (c : Dev nD) (t : Fin cfg11.N) : (dat11 V c).after 8 t = iblk11 V c 8 t := by dsimp only [dat11]
theorem after11_9 (c : Dev nD) (t : Fin cfg11.N) : (dat11 V c).after 9 t = out11_9 V c t := by dsimp only [dat11]
theorem after11_10 (c : Dev nD) (t : Fin cfg11.N) : (dat11 V c).after 10 t = out11_10 V c t := by dsimp only [dat11]

theorem before11_0 (c : Dev nD) (t : Fin cfg11.N) (d) : (dat11 V c).before 0 t d = iblk11 V c 0 t :=
  ((dat11 V c).before_in_eq_fetched 0 rfl (fun _ => rfl) (fun _ _ _ => rfl) (fun t => by rw [after11_0]; unfold Dat.blockOf iblk11; rw [A_eq11]; try rfl) t d).trans
    (by unfold Dat.fetched Dat.blockOf iblk11; rw [A_eq11]; try rfl)
theorem before11_1 (c : Dev nD) (t : Fin cfg11.N) (d) : (dat11 V c).before 1 t d = iblk11 V c 1 t :=
  ((dat11 V c).before_in_eq_fetched 1 rfl (fun _ => rfl) (fun _ _ _ => rfl) (fun t => by rw [after11_1]; unfold Dat.blockOf iblk11; rw [A_eq11]; try rfl) t d).trans
    (by unfold Dat.fetched Dat.blockOf iblk11; rw [A_eq11]; try rfl)
theorem before11_2 (c : Dev nD) (t : Fin cfg11.N) (d) : (dat11 V c).before 2 t d = iblk11 V c 2 t :=
  ((dat11 V c).before_in_eq_fetched 2 rfl (fun _ => rfl) (fun _ _ _ => rfl) (fun t => by rw [after11_2]; unfold Dat.blockOf iblk11; rw [A_eq11]; try rfl) t d).trans
    (by unfold Dat.fetched Dat.blockOf iblk11; rw [A_eq11]; try rfl)
theorem before11_3 (c : Dev nD) (t : Fin cfg11.N) (d) : (dat11 V c).before 3 t d = iblk11 V c 3 t :=
  ((dat11 V c).before_in_eq_fetched 3 rfl (fun _ => rfl) (fun _ _ _ => rfl) (fun t => by rw [after11_3]; unfold Dat.blockOf iblk11; rw [A_eq11]; try rfl) t d).trans
    (by unfold Dat.fetched Dat.blockOf iblk11; rw [A_eq11]; try rfl)
theorem before11_4 (c : Dev nD) (t : Fin cfg11.N) (d) : (dat11 V c).before 4 t d = iblk11 V c 4 t :=
  ((dat11 V c).before_in_eq_fetched 4 rfl (fun _ => rfl) (fun _ _ _ => rfl) (fun t => by rw [after11_4]; unfold Dat.blockOf iblk11; rw [A_eq11]; try rfl) t d).trans
    (by unfold Dat.fetched Dat.blockOf iblk11; rw [A_eq11]; try rfl)
theorem before11_5 (c : Dev nD) (t : Fin cfg11.N) (d) : (dat11 V c).before 5 t d = iblk11 V c 5 t :=
  ((dat11 V c).before_in_eq_fetched 5 rfl (fun _ => rfl) (fun _ _ _ => rfl) (fun t => by rw [after11_5]; unfold Dat.blockOf iblk11; rw [A_eq11]; try rfl) t d).trans
    (by unfold Dat.fetched Dat.blockOf iblk11; rw [A_eq11]; try rfl)
theorem before11_6 (c : Dev nD) (t : Fin cfg11.N) (d) : (dat11 V c).before 6 t d = iblk11 V c 6 t :=
  ((dat11 V c).before_in_eq_fetched 6 rfl (fun _ => rfl) (fun _ _ _ => rfl) (fun t => by rw [after11_6]; unfold Dat.blockOf iblk11; rw [A_eq11]; try rfl) t d).trans
    (by unfold Dat.fetched Dat.blockOf iblk11; rw [A_eq11]; try rfl)
theorem before11_7 (c : Dev nD) (t : Fin cfg11.N) (d) : (dat11 V c).before 7 t d = iblk11 V c 7 t :=
  ((dat11 V c).before_in_eq_fetched 7 rfl (fun _ => rfl) (fun _ _ _ => rfl) (fun t => by rw [after11_7]; unfold Dat.blockOf iblk11; rw [A_eq11]; try rfl) t d).trans
    (by unfold Dat.fetched Dat.blockOf iblk11; rw [A_eq11]; try rfl)
theorem before11_8 (c : Dev nD) (t : Fin cfg11.N) (d) : (dat11 V c).before 8 t d = iblk11 V c 8 t :=
  ((dat11 V c).before_in_eq_fetched 8 rfl (fun _ => rfl) (fun _ _ _ => rfl) (fun t => by rw [after11_8]; unfold Dat.blockOf iblk11; rw [A_eq11]; try rfl) t d).trans
    (by unfold Dat.fetched Dat.blockOf iblk11; rw [A_eq11]; try rfl)

def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d))
    ∗ (∃ d, owns (c : Thread nD τ) (ms11_3 t) fullShare ((dat11 V c).before 3 t d))
    ∗ (∃ d, owns (c : Thread nD τ) (ms11_4 t) fullShare ((dat11 V c).before 4 t d))
    ∗ (∃ d, owns (c : Thread nD τ) (ms11_5 t) fullShare ((dat11 V c).before 5 t d))
    ∗ (∃ d, owns (c : Thread nD τ) (ms11_6 t) fullShare ((dat11 V c).before 6 t d))
    ∗ (∃ d, owns (c : Thread nD τ) (ms11_7 t) fullShare ((dat11 V c).before 7 t d))
    ∗ (∃ d, owns (c : Thread nD τ) (ms11_8 t) fullShare ((dat11 V c).before 8 t d))
    ∗ (∃ d, owns (c : Thread nD τ) (ms11_9 t) fullShare ((dat11 V c).before 9 t d))
    ∗ (∃ d, owns (c : Thread nD τ) (ms11_10 t) fullShare ((dat11 V c).before 10 t d)))

def bodyPost11 (c : Dev nD) (t : Fin cfg11.N) : sProp 𝕄 :=
  iprop((dat11 V c).Φ t.succ ∗ (dat11 V c).owesAt () t.succ
    ∗ owns (c : Thread nD τ) (ms11_0 t) fullShare (iblk11 V c 0 t)
    ∗ owns (c : Thread nD τ) (ms11_1 t) fullShare (iblk11 V c 1 t)
    ∗ owns (c : Thread nD τ) (ms11_2 t) fullShare (iblk11 V c 2 t)
    ∗ owns (c : Thread nD τ) (ms11_3 t) fullShare (iblk11 V c 3 t)
    ∗ owns (c : Thread nD τ) (ms11_4 t) fullShare (iblk11 V c 4 t)
    ∗ owns (c : Thread nD τ) (ms11_5 t) fullShare (iblk11 V c 5 t)
    ∗ owns (c : Thread nD τ) (ms11_6 t) fullShare (iblk11 V c 6 t)
    ∗ owns (c : Thread nD τ) (ms11_7 t) fullShare (iblk11 V c 7 t)
    ∗ owns (c : Thread nD τ) (ms11_8 t) fullShare (iblk11 V c 8 t)
    ∗ owns (c : Thread nD τ) (ms11_9 t) fullShare (out11_9 V c t)
    ∗ (dat11 V c).leavesExact 10 t)

set_option maxHeartbeats 8000000 in

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5, before11_6, before11_7, before11_8]
  rw [show (dat11 V c).owesAt () t.succ = (dat11 V c).owesAt () t.castSucc from rfl]
  rw [show (dat11 V c).Φ t.succ = PhiS11 V c (t.val + 1) t.isLt from rfl, PhiS11_succ]
  have hN : t.val < 25 := lt_of_lt_of_eq t.isLt (show cfg11.N = 25 from N_11)
  unfold out11_9
  by_cases h1 : t.val % 25 = 24
  · have hz : t.val ≠ 0 := by omega
    rw [show (dat11 V c).leavesExact 10 t = owns (c : Thread nD τ) (ms11_10 t) fullShare ((dat11 V c).after 10 t) from by
      unfold Dat.leavesExact; rw [liveAt11_10 t ((hcond11_1 t).mpr h1)], after11_10]
    unfold out11_10
    rw [outsAt11_C V c t h1]
    unfold out11_C_9 out11_C_10 sout11_C; (try dsimp only)
    rw [PhiS11_castSucc V c t, PhiS11_pos V c _ _ hz]
    iintro ⟨⟨HS, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun11_C c (grid11.coords t) _ _ _ _ _ _ _ _ _ _ _ _ _ _ _ _ _ _ _ _ _ _ _ _ (fun h => absurd ((hcond11_0 t).mp h) (by omega)) ((hcond11_1 t).mpr h1) (iblk11 V c 0 t) (iblk11 V c 1 t) (iblk11 V c 2 t) (iblk11 V c 3 t) (iblk11 V c 4 t) (iblk11 V c 5 t) (iblk11 V c 6 t) (iblk11 V c 7 t) (iblk11 V c 8 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS]; · iexact HS
    iintro ⟨H0, H1, H2, H3, H4, H5, H6, H7, H8, ⟨%e9, H9⟩, ⟨%e10, H10⟩, ⟨%es, HS⟩⟩
    isplitl [HS Hrest Hg]
    · isplitl [HS]
      · unfold owns; iexists _; isplitr
        swap; · iexact HS
        ipureintro; exact View.read_writes_eq_canon _ _ _ (fun _ => scover11_C ..)
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_eq_canon _ _ _ (fun _ => cover11_C_9 ..)
    unfold owns; iexists _; isplitr
    swap; · iexact H10
    ipureintro; exact View.read_writes_eq_canon _ _ _ (fun _ => cover11_C_10 ..)

  · rw [Dat.leavesExact_idle (dat11 V c) 10 t (idleAt11_10 t (fun h => h1 ((hcond11_1 t).mp h))) (noFlush11_10 t (fun h => h1 ((hcond11_1 t).mp h)))]
    by_cases h0 : t.val % 25 = 0
    · have hz : t.val = 0 := by omega
      rw [outsAt11_A V c t h0]
      unfold out11_A_9 sout11_A; (try dsimp only)
      rw [PhiS11_castSucc V c t, PhiS11_zero V c _ _ hz]
      iintro ⟨⟨Hg, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun11_A c (grid11.coords t) _ _ _ _ _ _ _ _ _ _ _ _ _ _ _ _ _ _ _ _ _ _ _ _ ((hcond11_0 t).mpr h0) (fun h => absurd ((hcond11_1 t).mp h) (by omega)) (iblk11 V c 0 t) (iblk11 V c 1 t) (iblk11 V c 2 t) (iblk11 V c 3 t) (iblk11 V c 4 t) (iblk11 V c 5 t) (iblk11 V c 6 t) (iblk11 V c 7 t) (iblk11 V c 8 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HS]; · iexact HS
      iintro ⟨H0, H1, H2, H3, H4, H5, H6, H7, H8, ⟨%e9, H9⟩, H10, ⟨%es, HS⟩⟩
      isplitl [HS Hrest Hg]
      · isplitl [HS]
        · unfold owns; iexists _; isplitr
          swap; · iexact HS
          ipureintro; exact View.read_writes_eq_canon _ _ _ (fun _ => scover11_A ..)
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_eq_canon _ _ _ (fun _ => cover11_A_9 ..)
      iexists _; iexact H10

    · have hz : t.val ≠ 0 := by omega
      rw [outsAt11_B V c t h0 h1]
      unfold out11_B_9 sout11_B; (try dsimp only)
      rw [PhiS11_castSucc V c t, PhiS11_pos V c _ _ hz]
      iintro ⟨⟨HS, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun11_B c (grid11.coords t) _ _ _ _ _ _ _ _ _ _ _ _ _ _ _ _ _ _ _ _ _ _ _ _ (fun h => h0 ((hcond11_0 t).mp h)) (fun h => h1 ((hcond11_1 t).mp h)) (iblk11 V c 0 t) (iblk11 V c 1 t) (iblk11 V c 2 t) (iblk11 V c 3 t) (iblk11 V c 4 t) (iblk11 V c 5 t) (iblk11 V c 6 t) (iblk11 V c 7 t) (iblk11 V c 8 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HS]; · iexact HS
      iintro ⟨H0, H1, H2, H3, H4, H5, H6, H7, H8, ⟨%e9, H9⟩, H10, ⟨%es, HS⟩⟩
      isplitl [HS Hrest Hg]
      · isplitl [HS]
        · unfold owns; iexists _; isplitr
          swap; · iexact HS
          ipureintro; exact View.read_writes_eq_canon _ _ _ (fun _ => scover11_B ..)
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_eq_canon _ _ _ (fun _ => cover11_B_9 ..)
      iexists _; iexact H10

theorem body_obligation11 (c : Dev nD) : BodyObligation (dat11 (F := F) V c) (defs₀ (F := F)) Variants.none () Set.univ := fun t => by
  rw [bigSep_W11, bigSep_W11]
  exact sound_body11 V c t

theorem Phi_in11 (c : Dev nD) :
    (iprop((∃ r, prngReg c r) ∗ Pipeline.scopedRest (Ix := Unit) (Name := ℕ) (U := UR sig nD τ) (Lvl := ℕ) (Val := Elt F) spec11 c) : sProp 𝕄) ⊢ (dat11 V c).Φ 0 := by
  rw [show (dat11 V c).Φ 0 = PhiS11 V c 0 (Nat.zero_le _) from rfl]
  exact Idealize.SL.BI.Entails.refl _

theorem Phi_out11 (c : Dev nD) :
    (dat11 V c).Φ (Fin.last cfg11.N) ⊢ (iprop((∃ r, prngReg c r) ∗ Pipeline.scopedRest (Ix := Unit) (Name := ℕ) (U := UR sig nD τ) (Lvl := ℕ) (Val := Elt F) spec11 c) : sProp 𝕄) := by
  rw [show (dat11 V c).Φ (Fin.last cfg11.N) = PhiS11 V c (Fin.last cfg11.N).val (Nat.le_of_lt_succ (Fin.last cfg11.N).isLt) from rfl,
    PhiS11_pos V c _ _ (by rw [Fin.val_last]; have : cfg11.N = 25 := N_11; omega), scopedRest11_split]
  simp only [scM11, owns_whole]
  iintro ⟨HS, Hrest, Hg⟩
  isplitl [Hg]; · iexact Hg
  isplitl [HS]; · iexists _; iexact HS
  iexact Hrest

end Cert.Kernel.Hand

end
-- ==== Proof.K.Reg12.lean ====
import proofs.«400674_j14499809591724_2_alg».proof.Proof.Gen.Kernel.Launch
import proofs.«400674_j14499809591724_2_alg».proof.Proof.Gen.Kernel.Skeleton
import proofs.«400674_j14499809591724_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)
theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)
theorem before12_6_of {c : Dev nD} (dat : Dat τ (Elt F) Unit ℕ (UR sig nD τ) ℕ cfg12 c) (hA : dat.A 6 = V c (Pipeline.arrRef spec12 6))
    (hafter : ∀ t, dat.after 6 t = iblk12 V c 6 t) (t : Fin cfg12.N) (d) : dat.before 6 t d = iblk12 V c 6 t :=
  (dat.before_in_eq_fetched 6 rfl (fun _ => rfl) (fun _ _ _ => rfl) (fun t => by rw [hafter]; unfold Dat.blockOf iblk12; rw [hA]; try rfl) t d).trans
    (by unfold Dat.fetched Dat.blockOf iblk12; rw [hA]; try rfl)
theorem before12_7_of {c : Dev nD} (dat : Dat τ (Elt F) Unit ℕ (UR sig nD τ) ℕ cfg12 c) (hA : dat.A 7 = V c (Pipeline.arrRef spec12 7))
    (hafter : ∀ t, dat.after 7 t = iblk12 V c 7 t) (t : Fin cfg12.N) (d) : dat.before 7 t d = iblk12 V c 7 t :=
  (dat.before_in_eq_fetched 7 rfl (fun _ => rfl) (fun _ _ _ => rfl) (fun t => by rw [hafter]; unfold Dat.blockOf iblk12; rw [hA]; try rfl) t d).trans
    (by unfold Dat.fetched Dat.blockOf iblk12; rw [hA]; try rfl)
theorem before12_8_of {c : Dev nD} (dat : Dat τ (Elt F) Unit ℕ (UR sig nD τ) ℕ cfg12 c) (hA : dat.A 8 = V c (Pipeline.arrRef spec12 8))
    (hafter : ∀ t, dat.after 8 t = iblk12 V c 8 t) (t : Fin cfg12.N) (d) : dat.before 8 t d = iblk12 V c 8 t :=
  (dat.before_in_eq_fetched 8 rfl (fun _ => rfl) (fun _ _ _ => rfl) (fun t => by rw [hafter]; unfold Dat.blockOf iblk12; rw [hA]; try rfl) t d).trans
    (by unfold Dat.fetched Dat.blockOf iblk12; rw [hA]; try rfl)

abbrev r12_0 : Rect S512x384 := Rect.unit (s := S512x384) ![0, 0] S512x384.size inb_S512x384_S512x384_0_0
abbrev r12_1 : Rect S1x384 := Rect.unit (s := S1x384) ![0, 0] S1x384.size inb_S1x384_S1x384_0_0
abbrev r12_5 : Rect S384x128 := Rect.unit (s := S384x128) ![0, 0] S384x128.size inb_S384x128_S384x128_0_0
abbrev r12_6 : Rect S1x128 := Rect.unit (s := S1x128) ![0, 0] S1x128.size inb_S1x128_S1x128_0_0
abbrev r12_7 : Rect S128x10 := Rect.unit (s := S128x10) ![0, 0] S128x10.size inb_S128x10_S128x10_0_0
abbrev r12_8 : Rect S1x10 := Rect.unit (s := S1x10) ![0, 0] S1x10.size inb_S1x10_S1x10_0_0
abbrev r12_9 : Rect S512x10 := Rect.unit (s := S512x10) ![0, 0] S512x10.size inb_S512x10_S512x10_0_0

def out12_9 (x0 : Vec F S512x384 .f32) (x1 x2 x3 x4 : Vec F S1x384 .f32) (x5 : Vec F S384x128 .f32) (x6 : Vec F S1x128 .f32)
    (x7 : Vec F S128x10 .f32) (x8 : Vec F S1x10 .f32) : Vec F S512x10 .f32 :=
  View.canon [⟨r12_9, k12_pay1 (k12_pay2 (View.ld x0 r12_0) (View.ld x3 r12_1) (View.ld x4 r12_1) (View.ld x1 r12_1) (View.ld x2 r12_1)
    (View.ld x5 r12_5) (View.ld x6 r12_6) (View.ld x7 r12_7)) (k12_pay3 (View.ld x8 r12_8))⟩]

theorem cover12_9 (p0 : Vec F S512x10 .f32) (y : S512x10.Idx) :
    ∃ pc ∈ ([⟨r12_9, p0⟩] : List (View.Piece (Elt F) S512x10 .f32)), y ∈ pc.1.set :=
  View.cover_of_tiled [⟨r12_9, p0⟩] S512x10.size (by rfl) y

set_option maxHeartbeats 1000000 in

theorem sound_kernel12 (c : Dev nD) (E : Set ℕ) (i : grid12.Coords)
    (arg1 : Memref sig .tc .vmem S512x384 .f32) (harg1 : arg1.IsWhole) (arg2 : Memref sig .tc .vmem S1x384 .f32) (harg2 : arg2.IsWhole)
    (arg3 : Memref sig .tc .vmem S1x384 .f32) (harg3 : arg3.IsWhole) (arg4 : Memref sig .tc .vmem S1x384 .f32) (harg4 : arg4.IsWhole)
    (arg5 : Memref sig .tc .vmem S1x384 .f32) (harg5 : arg5.IsWhole) (arg6 : Memref sig .tc .vmem S384x128 .f32) (harg6 : arg6.IsWhole)
    (arg7 : Memref sig .tc .vmem S1x128 .f32) (harg7 : arg7.IsWhole) (arg8 : Memref sig .tc .vmem S128x10 .f32) (harg8 : arg8.IsWhole)
    (arg9 : Memref sig .tc .vmem S1x10 .f32) (harg9 : arg9.IsWhole) (arg10 : Memref sig .tc .vmem S512x10 .f32) (harg10 : arg10.IsWhole)
    (x0 : Vec F S512x384 .f32) (x1 x2 x3 x4 : Vec F S1x384 .f32) (x5 : Vec F S384x128 .f32) (x6 : Vec F S1x128 .f32)
    (x7 : Vec F S128x10 .f32) (x8 : Vec F S1x10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out12_9 x0 x1 x2 x3 x4 x5 x6 x7 x8)) -∗ K ⟨⟩))
      ⊢ wp frame (wpE (defs₀ (F := F)) Variants.none c none) E
          (cc12__head_kernel i arg1 harg1 arg2 harg2 arg3 harg3 arg4 harg4 arg5 harg5 arg6 harg6 arg7 harg7 arg8 harg8 arg9 harg9 arg10 harg10) K := by
  simp only [cc12__head_kernel_eq_skeleton]; unfold cc12__head_kernel_skel
  simp only [k12_part1_eq_skeleton]; unfold k12_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover12_9 _)

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => iblk12 V c 7 t
    | ⟨8, _⟩ => iblk12 V c 8 t
    | ⟨9, _⟩ => out12_9 (iblk12 V c 0 t) (iblk12 V c 1 t) (iblk12 V c 2 t) (iblk12 V c 3 t) (iblk12 V c 4 t) (iblk12 V c 5 t)
        (iblk12 V c 6 t) (iblk12 V c 7 t) (iblk12 V c 8 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = iblk12 V c 7 t := by dsimp only [dat12]
theorem after12_8 (c : Dev nD) (t : Fin cfg12.N) : (dat12 V c).after 8 t = iblk12 V c 8 t := by dsimp only [dat12]
theorem after12_9 (c : Dev nD) (t : Fin cfg12.N) : (dat12 V c).after 9 t =
    out12_9 (iblk12 V c 0 t) (iblk12 V c 1 t) (iblk12 V c 2 t) (iblk12 V c 3 t) (iblk12 V c 4 t) (iblk12 V c 5 t)
      (iblk12 V c 6 t) (iblk12 V c 7 t) (iblk12 V c 8 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d
theorem before12_6 (c : Dev nD) (t : Fin cfg12.N) (d) : (dat12 V c).before 6 t d = iblk12 V c 6 t :=
  before12_6_of V (dat12 V c) (A_eq12 V c 6) (after12_6 V c) t d
theorem before12_7 (c : Dev nD) (t : Fin cfg12.N) (d) : (dat12 V c).before 7 t d = iblk12 V c 7 t :=
  before12_7_of V (dat12 V c) (A_eq12 V c 7) (after12_7 V c) t d
theorem before12_8 (c : Dev nD) (t : Fin cfg12.N) (d) : (dat12 V c).before 8 t d = iblk12 V c 8 t :=
  before12_8_of V (dat12 V c) (A_eq12 V c 8) (after12_8 V c) t d

def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d))
    ∗ (∃ d, owns (c : Thread nD τ) (st12_8 t) fullShare ((dat12 V c).before 8 t d))
    ∗ (∃ d, owns (c : Thread nD τ) (st12_9 t) fullShare ((dat12 V c).before 9 t d)))

def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t)
    ∗ owns (c : Thread nD τ) (st12_8 t) fullShare ((dat12 V c).after 8 t)
    ∗ owns (c : Thread nD τ) (st12_9 t) fullShare ((dat12 V c).after 9 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6, before12_7, before12_8]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7, after12_8, after12_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel12 c Set.univ _ _ _ _ _ _ _ _ _ _ _ _ _ _ _ _ _ _ _ _ _
    (iblk12 V c 0 t) (iblk12 V c 1 t) (iblk12 V c 2 t) (iblk12 V c 3 t) (iblk12 V c 4 t) (iblk12 V c 5 t)
    (iblk12 V c 6 t) (iblk12 V c 7 t) (iblk12 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation12 (c : Dev nD) : BodyObligation (dat12 (F := F) V c) (defs₀ (F := F)) Variants.none () Set.univ := fun t => by
  rw [bigSep_W12, bigSep_W12]
  exact sound_body12 V c t

end Cert.Kernel.Hand

end
-- ==== Proof.K.Run.lean ====
import proofs.«400674_j14499809591724_2_alg».proof.Proof.Gen.Kernel.Launch
import proofs.«400674_j14499809591724_2_alg».proof.Proof.Gen.Kernel.Skeleton
import proofs.«400674_j14499809591724_2_alg».proof.Proof.Gen.Kernel.Points
import proofs.«400674_j14499809591724_2_alg».proof.Proof.Gen.Kernel.Regions
import proofs.«400674_j14499809591724_2_alg».proof.Proof.K.Reg0
import proofs.«400674_j14499809591724_2_alg».proof.Proof.K.Reg1
import proofs.«400674_j14499809591724_2_alg».proof.Proof.K.Reg2
import proofs.«400674_j14499809591724_2_alg».proof.Proof.K.Reg3
import proofs.«400674_j14499809591724_2_alg».proof.Proof.K.Reg4
import proofs.«400674_j14499809591724_2_alg».proof.Proof.K.Reg5
import proofs.«400674_j14499809591724_2_alg».proof.Proof.K.Reg6
import proofs.«400674_j14499809591724_2_alg».proof.Proof.K.Reg7
import proofs.«400674_j14499809591724_2_alg».proof.Proof.K.Reg8
import proofs.«400674_j14499809591724_2_alg».proof.Proof.K.Reg9
import proofs.«400674_j14499809591724_2_alg».proof.Proof.K.Reg10
import proofs.«400674_j14499809591724_2_alg».proof.Proof.K.Reg11
import proofs.«400674_j14499809591724_2_alg».proof.Proof.K.Reg12
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev TcVal := (c : Dev nD) → (b : Ref sig .tc) → Buf (Elt F) ((c : Thread nD τ).loc b)

abbrev rd (V : Dev nD → Valuation τ sig (Elt F)) : TcVal (F := F) := fun c b => V c b

def W3 : Dev nD → Valuation τ sig (Elt F) := V3 m
def W4 (c : Dev nD) : Valuation τ sig (Elt F) := Function.update (W3 m c) main_v57 ((dat0 (rd (W3 m)) c).arrAt 2 cfg0.N)
def W5 (c : Dev nD) : Valuation τ sig (Elt F) := StableHlo.after hostOps1 (W4 m c)
def W6 (c : Dev nD) : Valuation τ sig (Elt F) := Function.update (W5 m c) main_v74 ((dat1 (rd (W5 m)) c).arrAt 4 cfg1.N)
def W7 (c : Dev nD) : Valuation τ sig (Elt F) := Function.update (W6 m c) main_v75 ((dat2 (rd (W6 m)) c).arrAt 2 cfg2.N)
def W8 (c : Dev nD) : Valuation τ sig (Elt F) := StableHlo.after hostOps3 (W7 m c)
def W9 (c : Dev nD) : Valuation τ sig (Elt F) :=
  Function.update (Function.update (W8 m c) main_v100_0 ((dat3 (rd (W8 m)) c).arrAt 9 cfg3.N)) main_v100_1 ((dat3 (rd (W8 m)) c).arrAt 10 cfg3.N)
def W10 (c : Dev nD) : Valuation τ sig (Elt F) := StableHlo.after hostOps4 (W9 m c)
def W11 (c : Dev nD) : Valuation τ sig (Elt F) := Function.update (W10 m c) main_v109 ((dat4 (rd (W10 m)) c).arrAt 2 cfg4.N)
def W12 (c : Dev nD) : Valuation τ sig (Elt F) := StableHlo.after hostOps5 (W11 m c)
def W13 (c : Dev nD) : Valuation τ sig (Elt F) := Function.update (W12 m c) main_v126 ((dat5 (rd (W12 m)) c).arrAt 4 cfg5.N)
def W14 (c : Dev nD) : Valuation τ sig (Elt F) := Function.update (W13 m c) main_v127 ((dat6 (rd (W13 m)) c).arrAt 2 cfg6.N)
def W15 (c : Dev nD) : Valuation τ sig (Elt F) := StableHlo.after hostOps7 (W14 m c)
def W16 (c : Dev nD) : Valuation τ sig (Elt F) :=
  Function.update (Function.update (W15 m c) main_v152_0 ((dat7 (rd (W15 m)) c).arrAt 9 cfg7.N)) main_v152_1 ((dat7 (rd (W15 m)) c).arrAt 10 cfg7.N)
def W17 (c : Dev nD) : Valuation τ sig (Elt F) := StableHlo.after hostOps8 (W16 m c)
def W18 (c : Dev nD) : Valuation τ sig (Elt F) := Function.update (W17 m c) main_v161 ((dat8 (rd (W17 m)) c).arrAt 2 cfg8.N)
def W19 (c : Dev nD) : Valuation τ sig (Elt F) := StableHlo.after hostOps9 (W18 m c)
def W20 (c : Dev nD) : Valuation τ sig (Elt F) := Function.update (W19 m c) main_v178 ((dat9 (rd (W19 m)) c).arrAt 4 cfg9.N)
def W21 (c : Dev nD) : Valuation τ sig (Elt F) := Function.update (W20 m c) main_v179 ((dat10 (rd (W20 m)) c).arrAt 2 cfg10.N)
def W22 (c : Dev nD) : Valuation τ sig (Elt F) := StableHlo.after hostOps11 (W21 m c)
def W23 (c : Dev nD) : Valuation τ sig (Elt F) :=
  Function.update (Function.update (W22 m c) main_v204_0 ((dat11 (rd (W22 m)) c).arrAt 9 cfg11.N)) main_v204_1 ((dat11 (rd (W22 m)) c).arrAt 10 cfg11.N)
def W24 (c : Dev nD) : Valuation τ sig (Elt F) := StableHlo.after hostOps12 (W23 m c)
def W25 (c : Dev nD) : Valuation τ sig (Elt F) := Function.update (W24 m c) main_v212 ((dat12 (rd (W24 m)) c).arrAt 9 cfg12.N)

def outsR : Outs (F := F) := fun j r c =>
  if j = 4 then W4 m c r else
  if j = 6 then W6 m c r else
  if j = 7 then W7 m c r else
  if j = 9 then W9 m c r else
  if j = 11 then W11 m c r else
  if j = 13 then W13 m c r else
  if j = 14 then W14 m c r else
  if j = 16 then W16 m c r else
  if j = 18 then W18 m c r else
  if j = 20 then W20 m c r else
  if j = 21 then W21 m c r else
  if j = 23 then W23 m c r else
  if j = 25 then W25 m c r else
  W3 m c r

theorem outsR_at4 (r : Ref sig .tc) (c : Dev nD) : outsR m 4 r c = W4 m c r := rfl
theorem outsR_at6 (r : Ref sig .tc) (c : Dev nD) : outsR m 6 r c = W6 m c r := rfl
theorem outsR_at7 (r : Ref sig .tc) (c : Dev nD) : outsR m 7 r c = W7 m c r := rfl
theorem outsR_at9 (r : Ref sig .tc) (c : Dev nD) : outsR m 9 r c = W9 m c r := rfl
theorem outsR_at11 (r : Ref sig .tc) (c : Dev nD) : outsR m 11 r c = W11 m c r := rfl
theorem outsR_at13 (r : Ref sig .tc) (c : Dev nD) : outsR m 13 r c = W13 m c r := rfl
theorem outsR_at14 (r : Ref sig .tc) (c : Dev nD) : outsR m 14 r c = W14 m c r := rfl
theorem outsR_at16 (r : Ref sig .tc) (c : Dev nD) : outsR m 16 r c = W16 m c r := rfl
theorem outsR_at18 (r : Ref sig .tc) (c : Dev nD) : outsR m 18 r c = W18 m c r := rfl
theorem outsR_at20 (r : Ref sig .tc) (c : Dev nD) : outsR m 20 r c = W20 m c r := rfl
theorem outsR_at21 (r : Ref sig .tc) (c : Dev nD) : outsR m 21 r c = W21 m c r := rfl
theorem outsR_at23 (r : Ref sig .tc) (c : Dev nD) : outsR m 23 r c = W23 m c r := rfl
theorem outsR_at25 (r : Ref sig .tc) (c : Dev nD) : outsR m 25 r c = W25 m c r := rfl

-- Overwriting a buffer with what the overwritten valuation already holds there changes nothing.
theorem upd_fix {V V' : Valuation τ sig (Elt F)} (h : V = V') (r : DevRef τ sig) (x : _) :
    Function.update V r (Function.update V' r x r) = Function.update V' r x := by
  rw [h, Function.update_self]
theorem upd_fix₂ {V V' : Valuation τ sig (Elt F)} (h : V = V') {r s : DevRef τ sig} (hne : r ≠ s) (x : _) (y : _) :
    Function.update (Function.update V r (Function.update (Function.update V' r x) s y r)) s (Function.update (Function.update V' r x) s y s)
      = Function.update (Function.update V' r x) s y := by
  rw [h, Function.update_self, Function.update_of_ne hne, Function.update_self]

theorem VW3 : V3 m = W3 m := rfl
theorem VW4 : V4 m (outsR m) = W4 m := funext fun c => by
  show Function.update (V3 m c) main_v57 (outsR m 4 main_v57 c) = _
  rw [outsR_at4]; exact upd_fix (congrFun (VW3 m) c) ..
theorem VW5 : V5 m (outsR m) = W5 m := funext fun c => congrArg (StableHlo.after hostOps1) (congrFun (VW4 m) c)
theorem VW6 : V6 m (outsR m) = W6 m := funext fun c => by
  show Function.update (V5 m (outsR m) c) main_v74 (outsR m 6 main_v74 c) = _
  rw [outsR_at6]; exact upd_fix (congrFun (VW5 m) c) ..
theorem VW7 : V7 m (outsR m) = W7 m := funext fun c => by
  show Function.update (V6 m (outsR m) c) main_v75 (outsR m 7 main_v75 c) = _
  rw [outsR_at7]; exact upd_fix (congrFun (VW6 m) c) ..
theorem VW8 : V8 m (outsR m) = W8 m := funext fun c => congrArg (StableHlo.after hostOps3) (congrFun (VW7 m) c)
theorem VW9 : V9 m (outsR m) = W9 m := funext fun c => by
  show Function.update (Function.update (V8 m (outsR m) c) main_v100_0 (outsR m 9 main_v100_0 c)) main_v100_1 (outsR m 9 main_v100_1 c) = _
  rw [outsR_at9, outsR_at9]; exact upd_fix₂ (congrFun (VW8 m) c) (StableHlo.devRef_ne_of_ne (by decide : main_v100_0 ≠ main_v100_1)) ..
theorem VW10 : V10 m (outsR m) = W10 m := funext fun c => congrArg (StableHlo.after hostOps4) (congrFun (VW9 m) c)
theorem VW11 : V11 m (outsR m) = W11 m := funext fun c => by
  show Function.update (V10 m (outsR m) c) main_v109 (outsR m 11 main_v109 c) = _
  rw [outsR_at11]; exact upd_fix (congrFun (VW10 m) c) ..
theorem VW12 : V12 m (outsR m) = W12 m := funext fun c => congrArg (StableHlo.after hostOps5) (congrFun (VW11 m) c)
theorem VW13 : V13 m (outsR m) = W13 m := funext fun c => by
  show Function.update (V12 m (outsR m) c) main_v126 (outsR m 13 main_v126 c) = _
  rw [outsR_at13]; exact upd_fix (congrFun (VW12 m) c) ..
theorem VW14 : V14 m (outsR m) = W14 m := funext fun c => by
  show Function.update (V13 m (outsR m) c) main_v127 (outsR m 14 main_v127 c) = _
  rw [outsR_at14]; exact upd_fix (congrFun (VW13 m) c) ..
theorem VW15 : V15 m (outsR m) = W15 m := funext fun c => congrArg (StableHlo.after hostOps7) (congrFun (VW14 m) c)
theorem VW16 : V16 m (outsR m) = W16 m := funext fun c => by
  show Function.update (Function.update (V15 m (outsR m) c) main_v152_0 (outsR m 16 main_v152_0 c)) main_v152_1 (outsR m 16 main_v152_1 c) = _
  rw [outsR_at16, outsR_at16]; exact upd_fix₂ (congrFun (VW15 m) c) (StableHlo.devRef_ne_of_ne (by decide : main_v152_0 ≠ main_v152_1)) ..
theorem VW17 : V17 m (outsR m) = W17 m := funext fun c => congrArg (StableHlo.after hostOps8) (congrFun (VW16 m) c)
theorem VW18 : V18 m (outsR m) = W18 m := funext fun c => by
  show Function.update (V17 m (outsR m) c) main_v161 (outsR m 18 main_v161 c) = _
  rw [outsR_at18]; exact upd_fix (congrFun (VW17 m) c) ..
theorem VW19 : V19 m (outsR m) = W19 m := funext fun c => congrArg (StableHlo.after hostOps9) (congrFun (VW18 m) c)
theorem VW20 : V20 m (outsR m) = W20 m := funext fun c => by
  show Function.update (V19 m (outsR m) c) main_v178 (outsR m 20 main_v178 c) = _
  rw [outsR_at20]; exact upd_fix (congrFun (VW19 m) c) ..
theorem VW21 : V21 m (outsR m) = W21 m := funext fun c => by
  show Function.update (V20 m (outsR m) c) main_v179 (outsR m 21 main_v179 c) = _
  rw [outsR_at21]; exact upd_fix (congrFun (VW20 m) c) ..
theorem VW22 : V22 m (outsR m) = W22 m := funext fun c => congrArg (StableHlo.after hostOps11) (congrFun (VW21 m) c)
theorem VW23 : V23 m (outsR m) = W23 m := funext fun c => by
  show Function.update (Function.update (V22 m (outsR m) c) main_v204_0 (outsR m 23 main_v204_0 c)) main_v204_1 (outsR m 23 main_v204_1 c) = _
  rw [outsR_at23, outsR_at23]; exact upd_fix₂ (congrFun (VW22 m) c) (StableHlo.devRef_ne_of_ne (by decide : main_v204_0 ≠ main_v204_1)) ..
theorem VW24 : V24 m (outsR m) = W24 m := funext fun c => congrArg (StableHlo.after hostOps12) (congrFun (VW23 m) c)
theorem VW25 : V25 m (outsR m) = W25 m := funext fun c => by
  show Function.update (V24 m (outsR m) c) main_v212 (outsR m 25 main_v212 c) = _
  rw [outsR_at25]; exact upd_fix (congrFun (VW24 m) c) ..

theorem outsR_4_main_v57 (c : Dev nD) : outsR m 4 main_v57 c = (dat0 (fun c b => V3 m c b) c).arrAt 2 cfg0.N := by
  rw [VW3, outsR_at4]; exact Function.update_self ..
theorem outsR_6_main_v74 (c : Dev nD) : outsR m 6 main_v74 c = (dat1 (fun c b => V5 m (outsR m) c b) c).arrAt 4 cfg1.N := by
  rw [VW5, outsR_at6]; exact Function.update_self ..
theorem outsR_7_main_v75 (c : Dev nD) : outsR m 7 main_v75 c = (dat2 (fun c b => V6 m (outsR m) c b) c).arrAt 2 cfg2.N := by
  rw [VW6, outsR_at7]; exact Function.update_self ..
theorem outsR_9_main_v100_0 (c : Dev nD) : outsR m 9 main_v100_0 c = (dat3 (fun c b => V8 m (outsR m) c b) c).arrAt 9 cfg3.N := by
  rw [VW8, outsR_at9]; exact (Function.update_of_ne (StableHlo.devRef_ne_of_ne (by decide)) ..).trans (Function.update_self ..)
theorem outsR_9_main_v100_1 (c : Dev nD) : outsR m 9 main_v100_1 c = (dat3 (fun c b => V8 m (outsR m) c b) c).arrAt 10 cfg3.N := by
  rw [VW8, outsR_at9]; exact Function.update_self ..
theorem outsR_11_main_v109 (c : Dev nD) : outsR m 11 main_v109 c = (dat4 (fun c b => V10 m (outsR m) c b) c).arrAt 2 cfg4.N := by
  rw [VW10, outsR_at11]; exact Function.update_self ..
theorem outsR_13_main_v126 (c : Dev nD) : outsR m 13 main_v126 c = (dat5 (fun c b => V12 m (outsR m) c b) c).arrAt 4 cfg5.N := by
  rw [VW12, outsR_at13]; exact Function.update_self ..
theorem outsR_14_main_v127 (c : Dev nD) : outsR m 14 main_v127 c = (dat6 (fun c b => V13 m (outsR m) c b) c).arrAt 2 cfg6.N := by
  rw [VW13, outsR_at14]; exact Function.update_self ..
theorem outsR_16_main_v152_0 (c : Dev nD) : outsR m 16 main_v152_0 c = (dat7 (fun c b => V15 m (outsR m) c b) c).arrAt 9 cfg7.N := by
  rw [VW15, outsR_at16]; exact (Function.update_of_ne (StableHlo.devRef_ne_of_ne (by decide)) ..).trans (Function.update_self ..)
theorem outsR_16_main_v152_1 (c : Dev nD) : outsR m 16 main_v152_1 c = (dat7 (fun c b => V15 m (outsR m) c b) c).arrAt 10 cfg7.N := by
  rw [VW15, outsR_at16]; exact Function.update_self ..
theorem outsR_18_main_v161 (c : Dev nD) : outsR m 18 main_v161 c = (dat8 (fun c b => V17 m (outsR m) c b) c).arrAt 2 cfg8.N := by
  rw [VW17, outsR_at18]; exact Function.update_self ..
theorem outsR_20_main_v178 (c : Dev nD) : outsR m 20 main_v178 c = (dat9 (fun c b => V19 m (outsR m) c b) c).arrAt 4 cfg9.N := by
  rw [VW19, outsR_at20]; exact Function.update_self ..
theorem outsR_21_main_v179 (c : Dev nD) : outsR m 21 main_v179 c = (dat10 (fun c b => V20 m (outsR m) c b) c).arrAt 2 cfg10.N := by
  rw [VW20, outsR_at21]; exact Function.update_self ..
theorem outsR_23_main_v204_0 (c : Dev nD) : outsR m 23 main_v204_0 c = (dat11 (fun c b => V22 m (outsR m) c b) c).arrAt 9 cfg11.N := by
  rw [VW22, outsR_at23]; exact (Function.update_of_ne (StableHlo.devRef_ne_of_ne (by decide)) ..).trans (Function.update_self ..)
theorem outsR_23_main_v204_1 (c : Dev nD) : outsR m 23 main_v204_1 c = (dat11 (fun c b => V22 m (outsR m) c b) c).arrAt 10 cfg11.N := by
  rw [VW22, outsR_at23]; exact Function.update_self ..
theorem outsR_25_main_v212 (c : Dev nD) : outsR m 25 main_v212 c = (dat12 (fun c b => V24 m (outsR m) c b) c).arrAt 9 cfg12.N := by
  rw [VW24, outsR_at25]; exact Function.update_self ..

def pdats : (p : Fin 13) → (c : Dev nD) → Dat τ (Elt F) Unit ℕ (UR sig nD τ) ℕ (cfgs p) c
  | ⟨0, _⟩ => dat0 (rd (V3 m))
  | ⟨1, _⟩ => dat1 (rd (V5 m (outsR m)))
  | ⟨2, _⟩ => dat2 (rd (V6 m (outsR m)))
  | ⟨3, _⟩ => dat3 (rd (V8 m (outsR m)))
  | ⟨4, _⟩ => dat4 (rd (V10 m (outsR m)))
  | ⟨5, _⟩ => dat5 (rd (V12 m (outsR m)))
  | ⟨6, _⟩ => dat6 (rd (V13 m (outsR m)))
  | ⟨7, _⟩ => dat7 (rd (V15 m (outsR m)))
  | ⟨8, _⟩ => dat8 (rd (V17 m (outsR m)))
  | ⟨9, _⟩ => dat9 (rd (V19 m (outsR m)))
  | ⟨10, _⟩ => dat10 (rd (V20 m (outsR m)))
  | ⟨11, _⟩ => dat11 (rd (V22 m (outsR m)))
  | ⟨12, _⟩ => dat12 (rd (V24 m (outsR m)))
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev E : Fin 14 → Dev nD → sProp 𝕄 := fun _ c => R (F := F) c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem ΦA_in {gr W : Nat} (win : Fin W → Pipeline.WinSpec sig gr) (c : Dev nD) :
    (iprop((∃ r, prngReg c r) ∗ Pipeline.scopedRest (Ix := Unit) (Name := ℕ) (U := UR sig nD τ) (Lvl := ℕ) (Val := Elt F) win c) : sProp 𝕄) ⊢ Pipeline.ΦA win c := by
  unfold Pipeline.ΦA; iintro ⟨Hp, Hr⟩; isplitl [Hr] <;> iassumption
theorem ΦA_out {gr W : Nat} (win : Fin W → Pipeline.WinSpec sig gr) (c : Dev nD) :
    (Pipeline.ΦA win c : sProp 𝕄) ⊢ iprop((∃ r, prngReg c r) ∗ Pipeline.scopedRest (Ix := Unit) (Name := ℕ) (U := UR sig nD τ) (Lvl := ℕ) (Val := Elt F) win c) := by
  unfold Pipeline.ΦA; iintro ⟨Hr, Hp⟩; isplitl [Hp] <;> iassumption

set_option backward.isDefEq.respectTransparency.types false in
def regOf (p : Fin 13) (lf : Pipeline.LaunchFacts (nD := nD) (τ := τ) cfgs p) (Vi Vo : Dev nD → Valuation τ sig (Elt F))
    (hbody : ∀ c, BodyObligation (pdats m p c) (defs₀ (F := F)) Variants.none () Set.univ)
    (howed : ∀ c t, (pdats m p c).owed t = 0) (hrec : ∀ c x, x ∈ (pdats m p c).recorded 0) (hq : ∀ c w, (pdats m p c).q w = fullShare)
    (hA : ∀ c w, (pdats m p c).A w = Vi c (Pipeline.arrRef (cfgs p).spec w))
    (hin : ∀ c, (iprop((∃ r, prngReg c r) ∗ Pipeline.scopedRest (Ix := Unit) (Name := ℕ) (U := UR sig nD τ) (Lvl := ℕ) (Val := Elt F) (cfgs p).spec c) : sProp 𝕄) ⊢ (pdats m p c).Φ 0)
    (hout : ∀ c, (pdats m p c).Φ (Fin.last (cfgs p).N) ⊢ (iprop((∃ r, prngReg c r) ∗ Pipeline.scopedRest (Ix := Unit) (Name := ℕ) (U := UR sig nD τ) (Lvl := ℕ) (Val := Elt F) (cfgs p).spec c) : sProp 𝕄))
    (ws : List (Fin (cfgs p).W)) (hof : ∀ c (r : Ref sig .tc), r ∉ ws.map (Pipeline.arrRef (cfgs p).spec) → Vo c r = Vi c r)
    (hio : ∀ w, w ∉ ws → ((cfgs p).win w).isOut = false)
    (hws : ∀ c, ∀ w ∈ ws, Vo c (Pipeline.arrRef (cfgs p).spec w) = (pdats m p c).arrAt w (cfgs p).N) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c (rd Vi c)
  hentry c := by
    rw [Pipeline.ownSems0_none]
    have hsplit := Pipeline.arrays_of_unscopedBufs (p := p) (pcfgs (F := F)) adm (pdats m) lf.win lf.arr_whole c
      ((pdats m p c).share_full (hq c)) (rd Vi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl (hrec c _)
      iexact HO
    isplitl [Hp]; · iexact Hp
    iexact Hrest
  hin c := by
    iintro ⟨Hp, -, Hr⟩
    iapply (hin c)
    isplitl [Hp] <;> iassumption
  hout c := by
    rw [Pipeline.ownSems0_none]
    iintro H
    ihave H' := (hout c) $$ H
    icases H' with ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c)) (rd Vi c) (rd Vo c) ((pdats m p c).arrAt · (cfgs p).N)
      (fun w => if h : w ∈ ws then (hws c w h).symm else
        ((pdats m p c).arrAt_in w (hio w h) _).trans ((hA c w).trans (hof c _ fun h' =>
          let ⟨_, hw', e⟩ := List.mem_map.mp h'; h (lf.win.arr_inj e ▸ hw')).symm))
      (fun b hb => hof c b fun h => let ⟨w, _, e⟩ := List.mem_map.mp h; hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 := regOf m 0 launch0 (V3 m) (V4 m (outsR m)) (body_obligation0 _) (fun _ _ => rfl) (fun _ _ => trivial) (fun _ _ => rfl) (fun _ _ => rfl)
    (ΦA_in spec0) (ΦA_out spec0) [2] (V4_of m (outsR m)) (by decide)
    fun c w hw => by rw [List.mem_singleton.mp hw]; exact (Function.update_self ..).trans (outsR_4_main_v57 m c)
def reg1 := regOf m 1 launch1 (V5 m (outsR m)) (V6 m (outsR m)) (body_obligation1 _) (fun _ _ => rfl) (fun _ _ => trivial) (fun _ _ => rfl) (fun _ _ => rfl)
    (ΦA_in spec1) (ΦA_out spec1) [4] (V6_of m (outsR m)) (by decide)
    fun c w hw => by rw [List.mem_singleton.mp hw]; exact (Function.update_self ..).trans (outsR_6_main_v74 m c)
def reg2 := regOf m 2 launch2 (V6 m (outsR m)) (V7 m (outsR m)) (body_obligation2 _) (fun _ _ => rfl) (fun _ _ => trivial) (fun _ _ => rfl) (fun _ _ => rfl)
    (ΦA_in spec2) (ΦA_out spec2) [2] (V7_of m (outsR m)) (by decide)
    fun c w hw => by rw [List.mem_singleton.mp hw]; exact (Function.update_self ..).trans (outsR_7_main_v75 m c)
def reg3 := regOf m 3 launch3 (V8 m (outsR m)) (V9 m (outsR m)) (body_obligation3 _) (fun _ _ => rfl) (fun _ _ => trivial) (fun _ _ => rfl) (fun _ _ => rfl)
    (Phi_in3 _) (Phi_out3 _) [9, 10] (V9_of m (outsR m)) (by decide)
    fun c w hw => by
      rcases List.mem_cons.mp hw with rfl | hw
      · exact ((Function.update_of_ne (StableHlo.devRef_ne_of_ne (by decide : main_v100_0 ≠ main_v100_1)) ..).trans (Function.update_self ..)).trans (outsR_9_main_v100_0 m c)
      · rw [List.mem_singleton.mp hw]; exact (Function.update_self ..).trans (outsR_9_main_v100_1 m c)
def reg4 := regOf m 4 launch4 (V10 m (outsR m)) (V11 m (outsR m)) (body_obligation4 _) (fun _ _ => rfl) (fun _ _ => trivial) (fun _ _ => rfl) (fun _ _ => rfl)
    (ΦA_in spec4) (ΦA_out spec4) [2] (V11_of m (outsR m)) (by decide)
    fun c w hw => by rw [List.mem_singleton.mp hw]; exact (Function.update_self ..).trans (outsR_11_main_v109 m c)
def reg5 := regOf m 5 launch5 (V12 m (outsR m)) (V13 m (outsR m)) (body_obligation5 _) (fun _ _ => rfl) (fun _ _ => trivial) (fun _ _ => rfl) (fun _ _ => rfl)
    (ΦA_in spec5) (ΦA_out spec5) [4] (V13_of m (outsR m)) (by decide)
    fun c w hw => by rw [List.mem_singleton.mp hw]; exact (Function.update_self ..).trans (outsR_13_main_v126 m c)
def reg6 := regOf m 6 launch6 (V13 m (outsR m)) (V14 m (outsR m)) (body_obligation6 _) (fun _ _ => rfl) (fun _ _ => trivial) (fun _ _ => rfl) (fun _ _ => rfl)
    (ΦA_in spec6) (ΦA_out spec6) [2] (V14_of m (outsR m)) (by decide)
    fun c w hw => by rw [List.mem_singleton.mp hw]; exact (Function.update_self ..).trans (outsR_14_main_v127 m c)
def reg7 := regOf m 7 launch7 (V15 m (outsR m)) (V16 m (outsR m)) (body_obligation7 _) (fun _ _ => rfl) (fun _ _ => trivial) (fun _ _ => rfl) (fun _ _ => rfl)
    (Phi_in7 _) (Phi_out7 _) [9, 10] (V16_of m (outsR m)) (by decide)
    fun c w hw => by
      rcases List.mem_cons.mp hw with rfl | hw
      · exact ((Function.update_of_ne (StableHlo.devRef_ne_of_ne (by decide : main_v152_0 ≠ main_v152_1)) ..).trans (Function.update_self ..)).trans (outsR_16_main_v152_0 m c)
      · rw [List.mem_singleton.mp hw]; exact (Function.update_self ..).trans (outsR_16_main_v152_1 m c)
def reg8 := regOf m 8 launch8 (V17 m (outsR m)) (V18 m (outsR m)) (body_obligation8 _) (fun _ _ => rfl) (fun _ _ => trivial) (fun _ _ => rfl) (fun _ _ => rfl)
    (ΦA_in spec8) (ΦA_out spec8) [2] (V18_of m (outsR m)) (by decide)
    fun c w hw => by rw [List.mem_singleton.mp hw]; exact (Function.update_self ..).trans (outsR_18_main_v161 m c)
def reg9 := regOf m 9 launch9 (V19 m (outsR m)) (V20 m (outsR m)) (body_obligation9 _) (fun _ _ => rfl) (fun _ _ => trivial) (fun _ _ => rfl) (fun _ _ => rfl)
    (ΦA_in spec9) (ΦA_out spec9) [4] (V20_of m (outsR m)) (by decide)
    fun c w hw => by rw [List.mem_singleton.mp hw]; exact (Function.update_self ..).trans (outsR_20_main_v178 m c)
def reg10 := regOf m 10 launch10 (V20 m (outsR m)) (V21 m (outsR m)) (body_obligation10 _) (fun _ _ => rfl) (fun _ _ => trivial) (fun _ _ => rfl) (fun _ _ => rfl)
    (ΦA_in spec10) (ΦA_out spec10) [2] (V21_of m (outsR m)) (by decide)
    fun c w hw => by rw [List.mem_singleton.mp hw]; exact (Function.update_self ..).trans (outsR_21_main_v179 m c)
def reg11 := regOf m 11 launch11 (V22 m (outsR m)) (V23 m (outsR m)) (body_obligation11 _) (fun _ _ => rfl) (fun _ _ => trivial) (fun _ _ => rfl) (fun _ _ => rfl)
    (Phi_in11 _) (Phi_out11 _) [9, 10] (V23_of m (outsR m)) (by decide)
    fun c w hw => by
      rcases List.mem_cons.mp hw with rfl | hw
      · exact ((Function.update_of_ne (StableHlo.devRef_ne_of_ne (by decide : main_v204_0 ≠ main_v204_1)) ..).trans (Function.update_self ..)).trans (outsR_23_main_v204_0 m c)
      · rw [List.mem_singleton.mp hw]; exact (Function.update_self ..).trans (outsR_23_main_v204_1 m c)
def reg12 := regOf m 12 launch12 (V24 m (outsR m)) (V25 m (outsR m)) (body_obligation12 _) (fun _ _ => rfl) (fun _ _ => trivial) (fun _ _ => rfl) (fun _ _ => rfl)
    (ΦA_in spec12) (ΦA_out spec12) [9] (V25_of m (outsR m)) (by decide)
    fun c w hw => by rw [List.mem_singleton.mp hw]; exact (Function.update_self ..).trans (outsR_25_main_v212 m c)

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
theorem run (ρ : Dev nD → PrngReg) : θ_run defs (onTc (τ := τ) (main (F := F))) ⟨m, fun _ => 0, ρ⟩ (fun r => ∀ c : Dev nD,
      ∀ b ∈ Pipeline.ucRefs τ sig, r.2.mem ((c : Thread nD τ).1, b) = V25 m (outsR m) c b) := by
  refine Pipeline.θ_run_regions_kit_dev (pcfgs (F := F)) adm (pdats m) () cellOf_inj emb₁ defs₀ 𝒱₀ L lv m ρ main
    (segs m (outsR m) 𝒱₀ L lv E () (pdats m) (reg0 m) (reg1 m) (reg2 m) (reg3 m) (reg4 m) (reg5 m) (reg6 m) (reg7 m) (reg8 m) (reg9 m) (reg10 m) (reg11 m) (reg12 m))
    (fun c Q => by
      rewrite [main_chain c, Seg.run_eq_chain,
        show (segs m (outsR m) 𝒱₀ L lv E () (pdats m) (reg0 m) (reg1 m) (reg2 m) (reg3 m) (reg4 m) (reg5 m) (reg6 m) (reg7 m) (reg8 m) (reg9 m) (reg10 m) (reg11 m) (reg12 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          Prog.lift (.customCall (Pipeline.entry 10) ()),
          StableHlo.seq hostOps11,
          Prog.lift (.customCall (Pipeline.entry 11) ()),
          StableHlo.seq hostOps12,
          Prog.lift (.customCall (Pipeline.entry 12) ()) ] from rfl]
      exact .rfl)
    (fun c => by simp only [segs, Seg.pipes_host, Seg.pipes_region, Seg.pipes_nil]; decide) 0 (fun _ _ => rfl) (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V25 m (outsR m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (by iintro ⟨-, HO⟩; iexact HO)⟩)
    (hinit := ?_) (QY := fun c s => ∀ b ∈ Pipeline.ucRefs τ sig, s.mem ((c : Thread nD τ).1, b) = V25 m (outsR m) c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep' _ (fun c : Dev nD => StableHlo.held (c : Thread nD τ) (Pipeline.ucRefs τ sig) (V0 m c))]
    isplitl [Hh]; · iexact Hh
    iexact HE
  · unfold StableHlo.held
    iintro ⟨Hh, HSI⟩
    ihave Hr := (pointsTo_read_all (Pipeline.ucRefs τ sig) (fun b => ((c : Thread nD τ).1, b)) (V25 m (outsR m) c) s') $$ [Hh HSI]
    · isplitl [Hh] <;> iassumption
    icases Hr with ⟨%h, HSI⟩
    imodintro
    isplitr
    · ipureintro; exact h
    · iexact HSI

theorem run_result (ρ : Dev nD → PrngReg) : θ_run defs (onTc (τ := τ) (main (F := F))) ⟨m, fun _ => 0, ρ⟩ (fun r => ∀ c : Dev nD,
      r.2.mem ((c.tc : Thread nD τ).loc main_v212) = V25 m (outsR m) c main_v212
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨h c _ (mem_uc main_v212 (by decide)),
     (h c _ (mem_uc main_arg0 (by decide))).trans (V25_main_arg0 m (outsR m) c),
     (h c _ (mem_uc main_arg1 (by decide))).trans (V25_main_arg1 m (outsR m) c),
     (h c _ (mem_uc main_arg2 (by decide))).trans (V25_main_arg2 m (outsR m) c),
     (h c _ (mem_uc main_arg3 (by decide))).trans (V25_main_arg3 m (outsR m) c),
     (h c _ (mem_uc main_arg4 (by decide))).trans (V25_main_arg4 m (outsR m) c),
     (h c _ (mem_uc main_arg5 (by decide))).trans (V25_main_arg5 m (outsR m) c),
     (h c _ (mem_uc main_arg6 (by decide))).trans (V25_main_arg6 m (outsR m) c),
     (h c _ (mem_uc main_arg7 (by decide))).trans (V25_main_arg7 m (outsR m) c),
     (h c _ (mem_uc main_arg8 (by decide))).trans (V25_main_arg8 m (outsR m) c),
     (h c _ (mem_uc main_arg9 (by decide))).trans (V25_main_arg9 m (outsR m) c),
     (h c _ (mem_uc main_arg10 (by decide))).trans (V25_main_arg10 m (outsR m) c),
     (h c _ (mem_uc main_arg11 (by decide))).trans (V25_main_arg11 m (outsR m) c),
     (h c _ (mem_uc main_arg12 (by decide))).trans (V25_main_arg12 m (outsR m) c),
     (h c _ (mem_uc main_arg13 (by decide))).trans (V25_main_arg13 m (outsR m) c),
     (h c _ (mem_uc main_arg14 (by decide))).trans (V25_main_arg14 m (outsR m) c),
     (h c _ (mem_uc main_arg15 (by decide))).trans (V25_main_arg15 m (outsR m) c)⟩) (run m ρ)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2) (run_result m ρ)

end Cert.Kernel.Hand

end
-- ==== Proof.KI.Reg0.lean ====
import proofs.«400674_j14499809591724_2_alg».proof.Proof.Gen.KernelIdeal.Launch
import proofs.«400674_j14499809591724_2_alg».proof.Proof.Gen.KernelIdeal.Skeleton
import proofs.«400674_j14499809591724_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0

-- Every row-block product body: both inputs loaded whole, then one payload of them stored over the whole output buffer.
def rowProdBody {e : EltTy} (pay : Vec F S2000x128 e → Vec F S128x128 .f32 → FVec F S2000x128 .bf16) (a0 : Memref sig .tc .vmem S2000x128 e) (a1 : Memref sig .tc .vmem S128x128 .f32) (a2 : Memref sig .tc .vmem S2000x128 .bf16) (h2 : a2.IsWhole) :
    Prog (TpuEff nD τ sig (Elt F) Λ₀ .tc) PUnit := do
  let v0 : Vec F S2000x128 e ← Prog.lift (.load a0 r0_0.toLoadRect (View.loadsAt_vmem h_S2000x128))
  let v1 : Vec F S128x128 .f32 ← Prog.lift (.load a1 r0_1.toLoadRect (View.loadsAt_vmem h_S128x128))
  let _ : Vec F S2000x128 .bf16 ← Prog.lift (.load a2 r0_0.toLoadRect (View.loadsAt_vmem h_S2000x128))
  Prog.lift (.store a2 r0_0 (pay v0 v1) Finset.univ (View.stores_vmem h_S2000x128 (h2.storeExact_slice rfl _ packedbf16_S2000x128_S2000x128_0_0) (fun _ => rfl)) (.inl rfl))
  pure ⟨⟩

set_option maxHeartbeats 1000000 in
-- The one store covers the output buffer, so it reads back as the payload of the two blocks; the inputs, P and Q are untouched.
theorem rowProdBody_sound {e : EltTy} (pay : Vec F S2000x128 e → Vec F S128x128 .f32 → FVec F S2000x128 .bf16) (c : Dev nD) (E : Set ℕ) (a0 : Memref sig .tc .vmem S2000x128 e) (a1 : Memref sig .tc .vmem S128x128 .f32) (a2 : Memref sig .tc .vmem S2000x128 .bf16) (h2 : a2.IsWhole)
    (x0 : Vec F S2000x128 e) (x1 : Vec F S128x128 .f32) (P Q : sProp 𝕄) {D0 D1 D2 : Type} (g : D2 → Vec F S2000x128 .bf16) :
    iprop(P ∗ Q ∗ (∃ _ : D0, owns (c : Thread nD τ) a0 fullShare x0) ∗ (∃ _ : D1, owns (c : Thread nD τ) a1 fullShare x1) ∗ (∃ d, owns (c : Thread nD τ) a2 fullShare (g d)))
      ⊢ wp frame (wpE (defs₀ (F := F)) Variants.none c none) E (rowProdBody pay a0 a1 a2 h2) fun _ =>
        iprop(P ∗ Q ∗ owns (c : Thread nD τ) a0 fullShare x0 ∗ owns (c : Thread nD τ) a1 fullShare x1
          ∗ owns (c : Thread nD τ) a2 fullShare (View.canon [⟨r0_0, pay (View.ld x0 r0_0) (View.ld x1 r0_1)⟩])) := by
  unfold rowProdBody owns
  iintro ⟨HP, HQ, ⟨%_, %f0, %hf0, H0⟩, ⟨%_, %f1, %hf1, H1⟩, ⟨%_, %f2, -, H2⟩⟩
  subst hf0 hf1
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S2000x128.size (by rfl))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_2 (x0 : Vec F S2000x128 .f32) (x1 : Vec F S128x128 .f32) : Vec F S2000x128 .bf16 :=
  View.canon [⟨r0_0, k0_pay1 (View.ld x0 r0_0) (View.ld x1 r0_1)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  simp only [before0_0, before0_1]
  dsimp only [dat0]
  show _ ⊢ wp _ _ _ (bodyAt0 t) _
  rw [bodyAt0, cc0__matmul_kernel_eq_skeleton]
  exact rowProdBody_sound k0_pay1 c _ _ _ _ (hstage0_2 _) (iblk0 V c 0 t) (iblk0 V c 1 t) _ _ _

end Cert.KernelIdeal.Hand
-- ==== Proof.KI.Reg1.lean ====
import proofs.«400674_j14499809591724_2_alg».proof.Proof.Gen.KernelIdeal.Launch
import proofs.«400674_j14499809591724_2_alg».proof.Proof.Gen.KernelIdeal.Skeleton
import proofs.«400674_j14499809591724_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev r1_0 : Rect S2000x128 := Rect.unit (s := S2000x128) ![0, 0] S2000x128.size inb_S2000x128_S2000x128_0_0
abbrev r1_1 : Rect S2000x1 := Rect.unit (s := S2000x1) ![0, 0] S2000x1.size inb_S2000x1_S2000x1_0_0
abbrev r1_2 : Rect S1x128 := Rect.unit (s := S1x128) ![0, 0] S1x128.size inb_S1x128_S1x128_0_0

-- Every combine body: the four inputs loaded whole, then one payload of them stored over the whole output buffer.
def rowCombBody (pay : Vec F S2000x128 .f32 → Vec F S2000x128 .bf16 → Vec F S2000x1 .f32 → Vec F S1x128 .f32 → FVec F S2000x128 .bf16) (a0 : Memref sig .tc .vmem S2000x128 .f32) (a1 : Memref sig .tc .vmem S2000x128 .bf16) (a2 : Memref sig .tc .vmem S2000x1 .f32) (a3 : Memref sig .tc .vmem S1x128 .f32) (a4 : Memref sig .tc .vmem S2000x128 .bf16) (h4 : a4.IsWhole) :
    Prog (TpuEff nD τ sig (Elt F) Λ₀ .tc) PUnit := do
  let v0 : Vec F S2000x128 .f32 ← Prog.lift (.load a0 r1_0.toLoadRect (View.loadsAt_vmem h_S2000x128))
  let v1 : Vec F S2000x128 .bf16 ← Prog.lift (.load a1 r1_0.toLoadRect (View.loadsAt_vmem h_S2000x128))
  let v2 : Vec F S2000x1 .f32 ← Prog.lift (.load a2 r1_1.toLoadRect (View.loadsAt_vmem h_S2000x1))
  let v3 : Vec F S1x128 .f32 ← Prog.lift (.load a3 r1_2.toLoadRect (View.loadsAt_vmem h_S1x128))
  let _ : Vec F S2000x128 .bf16 ← Prog.lift (.load a4 r1_0.toLoadRect (View.loadsAt_vmem h_S2000x128))
  Prog.lift (.store a4 r1_0 (pay v0 v1 v2 v3) Finset.univ (View.stores_vmem h_S2000x128 (h4.storeExact_slice rfl _ packedbf16_S2000x128_S2000x128_0_0) (fun _ => rfl)) (.inl rfl))
  pure ⟨⟩

set_option maxHeartbeats 1000000 in
-- The one store covers the output buffer, so it reads back as the payload of the four blocks; the inputs, P and Q are untouched.
theorem rowCombBody_sound (pay : Vec F S2000x128 .f32 → Vec F S2000x128 .bf16 → Vec F S2000x1 .f32 → Vec F S1x128 .f32 → FVec F S2000x128 .bf16) (c : Dev nD) (E : Set ℕ) (a0 : Memref sig .tc .vmem S2000x128 .f32) (a1 : Memref sig .tc .vmem S2000x128 .bf16) (a2 : Memref sig .tc .vmem S2000x1 .f32) (a3 : Memref sig .tc .vmem S1x128 .f32) (a4 : Memref sig .tc .vmem S2000x128 .bf16) (h4 : a4.IsWhole)
    (x0 : Vec F S2000x128 .f32) (x1 : Vec F S2000x128 .bf16) (x2 : Vec F S2000x1 .f32) (x3 : Vec F S1x128 .f32) (P Q : sProp 𝕄) {D0 D1 D2 D3 D4 : Type} (g : D4 → Vec F S2000x128 .bf16) :
    iprop(P ∗ Q ∗ (∃ _ : D0, owns (c : Thread nD τ) a0 fullShare x0) ∗ (∃ _ : D1, owns (c : Thread nD τ) a1 fullShare x1) ∗ (∃ _ : D2, owns (c : Thread nD τ) a2 fullShare x2) ∗ (∃ _ : D3, owns (c : Thread nD τ) a3 fullShare x3) ∗ (∃ d, owns (c : Thread nD τ) a4 fullShare (g d)))
      ⊢ wp frame (wpE (defs₀ (F := F)) Variants.none c none) E (rowCombBody pay a0 a1 a2 a3 a4 h4) fun _ =>
        iprop(P ∗ Q ∗ owns (c : Thread nD τ) a0 fullShare x0 ∗ owns (c : Thread nD τ) a1 fullShare x1 ∗ owns (c : Thread nD τ) a2 fullShare x2 ∗ owns (c : Thread nD τ) a3 fullShare x3
          ∗ owns (c : Thread nD τ) a4 fullShare (View.canon [⟨r1_0, pay (View.ld x0 r1_0) (View.ld x1 r1_0) (View.ld x2 r1_1) (View.ld x3 r1_2)⟩])) := by
  unfold rowCombBody owns
  iintro ⟨HP, HQ, ⟨%_, %f0, %hf0, H0⟩, ⟨%_, %f1, %hf1, H1⟩, ⟨%_, %f2, %hf2, H2⟩, ⟨%_, %f3, %hf3, H3⟩, ⟨%_, %f4, -, H4⟩⟩
  subst hf0 hf1 hf2 hf3
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S2000x128.size (by rfl))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_4 (x0 : Vec F S2000x128 .f32) (x1 : Vec F S2000x128 .bf16) (x2 : Vec F S2000x1 .f32) (x3 : Vec F S1x128 .f32) : Vec F S2000x128 .bf16 :=
  View.canon [⟨r1_0, k1_pay1 (View.ld x0 r1_0) (View.ld x1 r1_0) (View.ld x2 r1_1) (View.ld x3 r1_2)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := rfl

theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  simp only [before1_0, before1_1, before1_2, before1_3]
  dsimp only [dat1]
  show _ ⊢ wp _ _ _ (bodyAt1 t) _
  rw [bodyAt1, cc1__combine_kernel_eq_skeleton]
  exact rowCombBody_sound k1_pay1 c _ _ _ _ _ _ (hstage1_4 _) (iblk1 V c 0 t) (iblk1 V c 1 t) (iblk1 V c 2 t) (iblk1 V c 3 t) _ _ _

end Cert.KernelIdeal.Hand
-- ==== Proof.KI.Reg2.lean ====
import proofs.«400674_j14499809591724_2_alg».proof.Proof.KI.Reg0

noncomputable section

namespace Cert.KernelIdeal.Hand

open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_2 (x0 : Vec F S2000x128 .bf16) (x1 : Vec F S128x128 .f32) : Vec F S2000x128 .bf16 :=
  View.canon [⟨r0_0, k2_pay1 (View.ld x0 r0_0) (View.ld x1 r0_1)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := rfl

theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  simp only [before2_0, before2_1]
  dsimp only [dat2]
  show _ ⊢ wp _ _ _ (bodyAt2 t) _
  rw [bodyAt2, cc2__matmul_kernel_eq_skeleton]
  exact rowProdBody_sound k2_pay1 c _ _ _ _ (hstage2_2 _) (iblk2 V c 0 t) (iblk2 V c 1 t) _ _ _

end Cert.KernelIdeal.Hand
-- ==== Proof.KI.Reg3.lean ====
import proofs.«400674_j14499809591724_2_alg».proof.Proof.Gen.KernelIdeal.Launch
import proofs.«400674_j14499809591724_2_alg».proof.Proof.Gen.KernelIdeal.Skeleton
import proofs.«400674_j14499809591724_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val % 25 = 0 :=
  (by decide +kernel : ∀ t : Fin grid3.N, cond3_0 (grid3.coords t) ↔ t.val % 25 = 0)

abbrev cond3_1 (i : grid3.Coords) : Prop := k3_cond2 i = 1#1
theorem hcond3_1 : ∀ t : Fin cfg3.N, cond3_1 (grid3.coords t) ↔ t.val % 25 = 24 :=
  (by decide +kernel : ∀ t : Fin grid3.N, cond3_1 (grid3.coords t) ↔ t.val % 25 = 24)

section
variable (c : Dev nD) (i : grid3.Coords) (arg1 : Memref sig .tc .vmem S2000x128 .f32) (harg1 : arg1.IsWhole) (arg2 : Memref sig .tc .vmem S2000x128 .bf16) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .bf16) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x1 .i32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole)

section
variable (hc0 : cond3_0 i) (hc1 : ¬cond3_1 i) (x0 : Vec F S2000x128 .f32) (x1 : Vec F S2000x128 .bf16) (x2 : Vec F S2000x1 .f32) (x3 : Vec F S1x128 .f32) (x4 : Vec F S2000x128 .bf16) (x5 : Vec F S128x128 .f32) (x6 : Vec F S128x128 .f32) (x7 : Vec F S1x128 .f32) (x8 : Vec F S2000x1 .i32)

set_option maxHeartbeats 4000000 in
noncomputable def kernelRun3_A :
    Σ' (L9 : List (View.Piece (Elt F) S2000x128 .f32)), { LS : List (View.Piece (Elt F) S512x128 .f32) //
      ∀ (xi10 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS)) -∗ K ⟨⟩))
          ⊢ wp frame (wpE (defs₀ (F := F)) Variants.none c none) E (cc3__stage2_kernel i arg1 harg1 arg2 harg2 arg3 harg3 arg4 harg4 arg5 harg5 arg6 harg6 arg7 harg7 arg8 harg8 arg9 harg9 arg10 harg10 arg11 harg11 arg12 harg12) K } := by
  refine ⟨?_, ?_, fun xi10 E K => ?run⟩
  case run =>
    simp only [cc3__stage2_kernel_eq_skeleton]; unfold cc3__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    iexists _; iexact HS

theorem cover3_A_9 : ∀ y : S2000x128.Idx, ∃ pc ∈ (kernelRun3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).1, y ∈ pc.1.set :=
  View.cover_of_tiledL _ S2000x128.size (by sl_kernel_rfl)
def out3_A_9 : Vec F S2000x128 .f32 := View.canon (kernelRun3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).1
theorem scover3_A : ∀ y : S512x128.Idx, ∃ pc ∈ (kernelRun3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1, y ∈ pc.1.set :=
  View.cover_of_tiledL _ S512x128.size (by sl_kernel_rfl)
def sout3_A : Vec F S512x128 .f32 := View.canon (kernelRun3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1
def outs3_A : Vec F S2000x128 .f32 × Vec F S512x128 .f32 × Vec F S512x128 .f32 := (out3_A_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8, sout3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8, sout3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8)

end

section
variable (hc0 : ¬cond3_0 i) (hc1 : ¬cond3_1 i) (x0 : Vec F S2000x128 .f32) (x1 : Vec F S2000x128 .bf16) (x2 : Vec F S2000x1 .f32) (x3 : Vec F S1x128 .f32) (x4 : Vec F S2000x128 .bf16) (x5 : Vec F S128x128 .f32) (x6 : Vec F S128x128 .f32) (x7 : Vec F S1x128 .f32) (x8 : Vec F S2000x1 .i32) (xs : Vec F S512x128 .f32)

set_option maxHeartbeats 4000000 in
noncomputable def kernelRun3_B :
    Σ' (L9 : List (View.Piece (Elt F) S2000x128 .f32)), { LS : List (View.Piece (Elt F) S512x128 .f32) //
      ∀ (xi10 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS)) -∗ K ⟨⟩))
          ⊢ wp frame (wpE (defs₀ (F := F)) Variants.none c none) E (cc3__stage2_kernel i arg1 harg1 arg2 harg2 arg3 harg3 arg4 harg4 arg5 harg5 arg6 harg6 arg7 harg7 arg8 harg8 arg9 harg9 arg10 harg10 arg11 harg11 arg12 harg12) K } := by
  refine ⟨?_, ?_, fun xi10 E K => ?run⟩
  case run =>
    simp only [cc3__stage2_kernel_eq_skeleton]; unfold cc3__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    iexists _; iexact HS

theorem cover3_B_9 : ∀ y : S2000x128.Idx, ∃ pc ∈ (kernelRun3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).1, y ∈ pc.1.set :=
  View.cover_of_tiledL _ S2000x128.size (by sl_kernel_rfl)
def out3_B_9 : Vec F S2000x128 .f32 := View.canon (kernelRun3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).1
theorem scover3_B : ∀ y : S512x128.Idx, ∃ pc ∈ (kernelRun3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.1, y ∈ pc.1.set :=
  View.cover_of_tiledL _ S512x128.size (by sl_kernel_rfl)
def sout3_B : Vec F S512x128 .f32 := View.canon (kernelRun3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.1
def outs3_B : Vec F S2000x128 .f32 × Vec F S512x128 .f32 × Vec F S512x128 .f32 := (out3_B_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs, sout3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs, sout3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs)

end

section
variable (hc0 : ¬cond3_0 i) (hc1 : cond3_1 i) (x0 : Vec F S2000x128 .f32) (x1 : Vec F S2000x128 .bf16) (x2 : Vec F S2000x1 .f32) (x3 : Vec F S1x128 .f32) (x4 : Vec F S2000x128 .bf16) (x5 : Vec F S128x128 .f32) (x6 : Vec F S128x128 .f32) (x7 : Vec F S1x128 .f32) (x8 : Vec F S2000x1 .i32) (xs : Vec F S512x128 .f32)

set_option maxHeartbeats 4000000 in
noncomputable def kernelRun3_C :
    Σ' (L9 : List (View.Piece (Elt F) S2000x128 .f32)) (L10 : List (View.Piece (Elt F) S512x128 .f32)), { LS : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS)) -∗ K ⟨⟩))
          ⊢ wp frame (wpE (defs₀ (F := F)) Variants.none c none) E (cc3__stage2_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc3__stage2_kernel_eq_skeleton]; unfold cc3__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact HS

theorem cover3_C_9 : ∀ y : S2000x128.Idx, ∃ pc ∈ (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).1, y ∈ pc.1.set :=
  View.cover_of_tiledL _ S2000x128.size (by sl_kernel_rfl)
def out3_C_9 : Vec F S2000x128 .f32 := View.canon (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).1
theorem cover3_C_10 : ∀ y : S512x128.Idx, ∃ pc ∈ (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.1, y ∈ pc.1.set :=
  View.cover_of_tiledL _ S512x128.size (by sl_kernel_rfl)
def out3_C_10 : Vec F S512x128 .f32 := View.canon (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.1
theorem scover3_C : ∀ y : S512x128.Idx, ∃ pc ∈ (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.2.1, y ∈ pc.1.set :=
  View.cover_of_tiledL _ S512x128.size (by sl_kernel_rfl)
def sout3_C : Vec F S512x128 .f32 := View.canon (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.2.1
def outs3_C : Vec F S2000x128 .f32 × Vec F S512x128 .f32 × Vec F S512x128 .f32 := (out3_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs, out3_C_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs, sout3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs)

end

end

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem idleAt3_10 : ∀ t : Fin cfg3.N, ¬cond3_1 (grid3.coords t) → cfg3.idle 10 (grid3.coords t) = true := by decide +kernel
theorem noFlush3_10 : ∀ t : Fin cfg3.N, ¬cond3_1 (grid3.coords t) → (cfg3.win 10).flush t = false := by decide +kernel

theorem liveAt3_10 : ∀ t : Fin cfg3.N, cond3_1 (grid3.coords t) → cfg3.idle 10 (grid3.coords t) = false := by decide +kernel

abbrev ms3_0 (t : Fin cfg3.N) : Memref sig .tc .vmem S2000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2000x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S2000x128 .bf16 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S128x128 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S128x128 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1x128 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S2000x1 .i32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S2000x128 .f32 := win3_9.stage (cfg3.slots t 9)
abbrev hs3_9 (t : Fin cfg3.N) : (ms3_9 t).IsWhole := hstage3_9 ((cfg3.slots t 9).cast nbuf3_9)
abbrev ms3_10 (t : Fin cfg3.N) : Memref sig .tc .vmem S512x128 .f32 := win3_10.stage (cfg3.slots t 10)
abbrev hs3_10 (t : Fin cfg3.N) : (ms3_10 t).IsWhole := hstage3_10 ((cfg3.slots t 10).cast nbuf3_10)

abbrev scM3 : Memref sig .tc .vmem S512x128 .f32 := Memref.whole cc3_scratch0

def ptA3 (c : Dev nD) (t : Fin cfg3.N) (h0 : t.val % 25 = 0) : Vec F S2000x128 .f32 × Vec F S512x128 .f32 × Vec F S512x128 .f32 :=
  outs3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) ((hcond3_0 t).mpr h0) (fun h => absurd ((hcond3_1 t).mp h) (by omega)) (iblk3 V c 0 t) (iblk3 V c 1 t) (iblk3 V c 2 t) (iblk3 V c 3 t) (iblk3 V c 4 t) (iblk3 V c 5 t) (iblk3 V c 6 t) (iblk3 V c 7 t) (iblk3 V c 8 t)

def ptB3 (c : Dev nD) (t : Fin cfg3.N) (h0 : ¬t.val % 25 = 0) (h1 : ¬t.val % 25 = 24) (xs : Vec F S512x128 .f32) : Vec F S2000x128 .f32 × Vec F S512x128 .f32 × Vec F S512x128 .f32 :=
  outs3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) xs

def ptC3 (c : Dev nD) (t : Fin cfg3.N) (h1 : t.val % 25 = 24) (xs : Vec F S512x128 .f32) : Vec F S2000x128 .f32 × Vec F S512x128 .f32 × Vec F S512x128 .f32 :=
  outs3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) (fun h => absurd ((hcond3_0 t).mp h) (by omega)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) xs

def outsAt3 (c : Dev nD) : (n : ℕ) → n < cfg3.N → Vec F S2000x128 .f32 × Vec F S512x128 .f32 × Vec F S512x128 .f32
  | 0, hn => ptA3 V c ⟨0, hn⟩ (Nat.zero_mod _)
  | n + 1, hn =>
    if h1 : (n + 1) % 25 = 24 then ptC3 V c ⟨n + 1, hn⟩ h1 (outsAt3 c n (Nat.lt_of_succ_lt hn)).2.2
    else ptB3 V c ⟨n + 1, hn⟩ (by have := lt_of_lt_of_eq hn (show cfg3.N = 25 from N_3); show ¬(n + 1) % 25 = 0; omega) h1 (outsAt3 c n (Nat.lt_of_succ_lt hn)).2.2

theorem outsAt3_A (c : Dev nD) (t : Fin cfg3.N) (h0 : t.val % 25 = 0) :
    outsAt3 V c t.val t.isLt = (out3_A_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) ((hcond3_0 t).mpr h0) (fun h => absurd ((hcond3_1 t).mp h) (by omega)) (iblk3 V c 0 t) (iblk3 V c 1 t) (iblk3 V c 2 t) (iblk3 V c 3 t) (iblk3 V c 4 t) (iblk3 V c 5 t) (iblk3 V c 6 t) (iblk3 V c 7 t) (iblk3 V c 8 t), sout3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) ((hcond3_0 t).mpr h0) (fun h => absurd ((hcond3_1 t).mp h) (by omega)) (iblk3 V c 0 t) (iblk3 V c 1 t) (iblk3 V c 2 t) (iblk3 V c 3 t) (iblk3 V c 4 t) (iblk3 V c 5 t) (iblk3 V c 6 t) (iblk3 V c 7 t) (iblk3 V c 8 t), sout3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) ((hcond3_0 t).mpr h0) (fun h => absurd ((hcond3_1 t).mp h) (by omega)) (iblk3 V c 0 t) (iblk3 V c 1 t) (iblk3 V c 2 t) (iblk3 V c 3 t) (iblk3 V c 4 t) (iblk3 V c 5 t) (iblk3 V c 6 t) (iblk3 V c 7 t) (iblk3 V c 8 t)) := by
  obtain ⟨n, hn⟩ := t
  cases n with
  | zero => exact rfl
  | succ n => exact (by exfalso; have hN : n + 1 < 25 := lt_of_lt_of_eq hn (show cfg3.N = 25 from N_3); (try dsimp only at h0); omega)

theorem outsAt3_B (c : Dev nD) (t : Fin cfg3.N) (h0 : ¬t.val % 25 = 0) (h1 : ¬t.val % 25 = 24) :
    outsAt3 V c t.val t.isLt = (out3_B_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2, sout3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2, sout3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h1).trans rfl

theorem outsAt3_C (c : Dev nD) (t : Fin cfg3.N) (h1 : t.val % 25 = 24) :
    outsAt3 V c t.val t.isLt = (out3_C_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) (fun h => absurd ((hcond3_0 t).mp h) (by omega)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2, out3_C_10 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) (fun h => absurd ((hcond3_0 t).mp h) (by omega)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2, sout3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) (fun h => absurd ((hcond3_0 t).mp h) (by omega)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt)).2.2) := by
  obtain ⟨n, hn⟩ := t
  cases n with
  | zero => exact (by exfalso; (try dsimp only at h1); omega)
  | succ n => exact (dif_pos h1).trans rfl

def out3_9 (c : Dev nD) (t : Fin cfg3.N) : Vec F S2000x128 .f32 := (outsAt3 V c t.val t.isLt).1

def out3_10 (c : Dev nD) (t : Fin cfg3.N) : Vec F S512x128 .f32 := (outsAt3 V c t.val t.isLt).2.1

def acc3 (c : Dev nD) (t : Fin cfg3.N) : Vec F S512x128 .f32 := (outsAt3 V c t.val t.isLt).2.2

def PhiS3 (c : Dev nD) : (n : ℕ) → n ≤ cfg3.N → sProp 𝕄
  | 0, _ => iprop((∃ r, prngReg c r) ∗ Pipeline.scopedRest (Ix := Unit) (Name := ℕ) (U := UR sig nD τ) (Lvl := ℕ) (Val := Elt F) spec3 c)
  | n + 1, hn => iprop(owns (c : Thread nD τ) scM3 fullShare ((outsAt3 V c n hn).2.2) ∗ Pipeline.scopedRestBut (Ix := Unit) (Name := ℕ) (U := UR sig nD τ) (Lvl := ℕ) (Val := Elt F) spec3 c [cc3_scratch0] ∗ (∃ r, prngReg c r))

theorem PhiS3_zero (c : Dev nD) (n : ℕ) (h : n ≤ cfg3.N) (hz : n = 0) :
    PhiS3 V c n h = iprop((∃ r, prngReg c r) ∗ iprop((∃ d, owns (c : Thread nD τ) scM3 fullShare d)) ∗ Pipeline.scopedRestBut (Ix := Unit) (Name := ℕ) (U := UR sig nD τ) (Lvl := ℕ) (Val := Elt F) spec3 c [cc3_scratch0]) := by
  subst hz
  show iprop((∃ r, prngReg c r) ∗ Pipeline.scopedRest (Ix := Unit) (Name := ℕ) (U := UR sig nD τ) (Lvl := ℕ) (Val := Elt F) spec3 c) = _
  rw [scopedRest3_split]; simp only [scM3, owns_whole]; try rfl

theorem PhiS3_succ (c : Dev nD) (n : ℕ) (hn : n < cfg3.N) :
    PhiS3 V c (n + 1) hn = iprop(owns (c : Thread nD τ) scM3 fullShare ((outsAt3 V c n hn).2.2) ∗ Pipeline.scopedRestBut (Ix := Unit) (Name := ℕ) (U := UR sig nD τ) (Lvl := ℕ) (Val := Elt F) spec3 c [cc3_scratch0] ∗ (∃ r, prngReg c r)) := rfl

theorem PhiS3_pos (c : Dev nD) (n : ℕ) (h : n ≤ cfg3.N) (hz : n ≠ 0) :
    PhiS3 V c n h = iprop(owns (c : Thread nD τ) scM3 fullShare ((outsAt3 V c (n - 1) (by omega)).2.2) ∗ Pipeline.scopedRestBut (Ix := Unit) (Name := ℕ) (U := UR sig nD τ) (Lvl := ℕ) (Val := Elt F) spec3 c [cc3_scratch0] ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 V c t
    | ⟨10, _⟩ => out3_10 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = out3_9 V c t := by dsimp only [dat3]
theorem after3_10 (c : Dev nD) (t : Fin cfg3.N) : (dat3 V c).after 10 t = out3_10 V c t := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl (fun _ => rfl) (fun _ _ _ => rfl) (fun t => by rw [after3_6]; unfold Dat.blockOf iblk3; rw [A_eq3]; try rfl) t d).trans
    (by unfold Dat.fetched Dat.blockOf iblk3; rw [A_eq3]; try rfl)
theorem before3_7 (c : Dev nD) (t : Fin cfg3.N) (d) : (dat3 V c).before 7 t d = iblk3 V c 7 t :=
  ((dat3 V c).before_in_eq_fetched 7 rfl (fun _ => rfl) (fun _ _ _ => rfl) (fun t => by rw [after3_7]; unfold Dat.blockOf iblk3; rw [A_eq3]; try rfl) t d).trans
    (by unfold Dat.fetched Dat.blockOf iblk3; rw [A_eq3]; try rfl)
theorem before3_8 (c : Dev nD) (t : Fin cfg3.N) (d) : (dat3 V c).before 8 t d = iblk3 V c 8 t :=
  ((dat3 V c).before_in_eq_fetched 8 rfl (fun _ => rfl) (fun _ _ _ => rfl) (fun t => by rw [after3_8]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d))
    ∗ (∃ d, owns (c : Thread nD τ) (ms3_10 t) fullShare ((dat3 V c).before 10 t d)))

def bodyPost3 (c : Dev nD) (t : Fin cfg3.N) : sProp 𝕄 :=
  iprop((dat3 V c).Φ t.succ ∗ (dat3 V c).owesAt () t.succ
    ∗ owns (c : Thread nD τ) (ms3_0 t) fullShare (iblk3 V c 0 t)
    ∗ owns (c : Thread nD τ) (ms3_1 t) fullShare (iblk3 V c 1 t)
    ∗ owns (c : Thread nD τ) (ms3_2 t) fullShare (iblk3 V c 2 t)
    ∗ owns (c : Thread nD τ) (ms3_3 t) fullShare (iblk3 V c 3 t)
    ∗ owns (c : Thread nD τ) (ms3_4 t) fullShare (iblk3 V c 4 t)
    ∗ owns (c : Thread nD τ) (ms3_5 t) fullShare (iblk3 V c 5 t)
    ∗ owns (c : Thread nD τ) (ms3_6 t) fullShare (iblk3 V c 6 t)
    ∗ owns (c : Thread nD τ) (ms3_7 t) fullShare (iblk3 V c 7 t)
    ∗ owns (c : Thread nD τ) (ms3_8 t) fullShare (iblk3 V c 8 t)
    ∗ owns (c : Thread nD τ) (ms3_9 t) fullShare (out3_9 V c t)
    ∗ (dat3 V c).leavesExact 10 t)

set_option maxHeartbeats 8000000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).owesAt () t.succ = (dat3 V c).owesAt () t.castSucc from rfl]
  rw [show (dat3 V c).Φ t.succ = PhiS3 V c (t.val + 1) t.isLt from rfl, PhiS3_succ]
  have hN : t.val < 25 := lt_of_lt_of_eq t.isLt (show cfg3.N = 25 from N_3)
  unfold out3_9
  by_cases h1 : t.val % 25 = 24
  · have hz : t.val ≠ 0 := by omega
    rw [show (dat3 V c).leavesExact 10 t = owns (c : Thread nD τ) (ms3_10 t) fullShare ((dat3 V c).after 10 t) from by
      unfold Dat.leavesExact; rw [liveAt3_10 t ((hcond3_1 t).mpr h1)], after3_10]
    unfold out3_10
    rw [outsAt3_C V c t h1]
    unfold out3_C_9 out3_C_10 sout3_C; (try dsimp only)
    rw [PhiS3_castSucc V c t, PhiS3_pos V c _ _ hz]
    iintro ⟨⟨HS, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun3_C c (grid3.coords t) _ _ _ _ _ _ _ _ _ _ _ _ _ _ _ _ _ _ _ _ _ _ _ _ (fun h => absurd ((hcond3_0 t).mp h) (by omega)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS]; · iexact HS
    iintro ⟨H0, H1, H2, H3, H4, H5, H6, H7, H8, ⟨%e9, H9⟩, ⟨%e10, H10⟩, ⟨%es, HS⟩⟩
    isplitl [HS Hrest Hg]
    · isplitl [HS]
      · unfold owns; iexists _; isplitr
        swap; · iexact HS
        ipureintro; exact View.read_writes_eq_canon _ _ _ (fun _ => scover3_C ..)
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_eq_canon _ _ _ (fun _ => cover3_C_9 ..)
    unfold owns; iexists _; isplitr
    swap; · iexact H10
    ipureintro; exact View.read_writes_eq_canon _ _ _ (fun _ => cover3_C_10 ..)

  · rw [Dat.leavesExact_idle (dat3 V c) 10 t (idleAt3_10 t (fun h => h1 ((hcond3_1 t).mp h))) (noFlush3_10 t (fun h => h1 ((hcond3_1 t).mp h)))]
    by_cases h0 : t.val % 25 = 0
    · have hz : t.val = 0 := by omega
      rw [outsAt3_A V c t h0]
      unfold out3_A_9 sout3_A; (try dsimp only)
      rw [PhiS3_castSucc V c t, PhiS3_zero V c _ _ hz]
      iintro ⟨⟨Hg, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun3_A c (grid3.coords t) _ _ _ _ _ _ _ _ _ _ _ _ _ _ _ _ _ _ _ _ _ _ _ _ ((hcond3_0 t).mpr h0) (fun h => absurd ((hcond3_1 t).mp h) (by omega)) (iblk3 V c 0 t) (iblk3 V c 1 t) (iblk3 V c 2 t) (iblk3 V c 3 t) (iblk3 V c 4 t) (iblk3 V c 5 t) (iblk3 V c 6 t) (iblk3 V c 7 t) (iblk3 V c 8 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HS]; · iexact HS
      iintro ⟨H0, H1, H2, H3, H4, H5, H6, H7, H8, ⟨%e9, H9⟩, H10, ⟨%es, HS⟩⟩
      isplitl [HS Hrest Hg]
      · isplitl [HS]
        · unfold owns; iexists _; isplitr
          swap; · iexact HS
          ipureintro; exact View.read_writes_eq_canon _ _ _ (fun _ => scover3_A ..)
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_eq_canon _ _ _ (fun _ => cover3_A_9 ..)
      iexists _; iexact H10

    · have hz : t.val ≠ 0 := by omega
      rw [outsAt3_B V c t h0 h1]
      unfold out3_B_9 sout3_B; (try dsimp only)
      rw [PhiS3_castSucc V c t, PhiS3_pos V c _ _ hz]
      iintro ⟨⟨HS, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun3_B c (grid3.coords t) _ _ _ _ _ _ _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HS]; · iexact HS
      iintro ⟨H0, H1, H2, H3, H4, H5, H6, H7, H8, ⟨%e9, H9⟩, H10, ⟨%es, HS⟩⟩
      isplitl [HS Hrest Hg]
      · isplitl [HS]
        · unfold owns; iexists _; isplitr
          swap; · iexact HS
          ipureintro; exact View.read_writes_eq_canon _ _ _ (fun _ => scover3_B ..)
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_eq_canon _ _ _ (fun _ => cover3_B_9 ..)
      iexists _; iexact H10

theorem body_obligation3 (c : Dev nD) : BodyObligation (dat3 (F := F) V c) (defs₀ (F := F)) Variants.none () Set.univ := fun t => by
  rw [bigSep_W3, bigSep_W3]
  exact sound_body3 V c t

theorem Phi_in3 (c : Dev nD) :
    (iprop((∃ r, prngReg c r) ∗ Pipeline.scopedRest (Ix := Unit) (Name := ℕ) (U := UR sig nD τ) (Lvl := ℕ) (Val := Elt F) spec3 c) : sProp 𝕄) ⊢ (dat3 V c).Φ 0 := by
  rw [show (dat3 V c).Φ 0 = PhiS3 V c 0 (Nat.zero_le _) from rfl]
  exact Idealize.SL.BI.Entails.refl _

theorem Phi_out3 (c : Dev nD) :
    (dat3 V c).Φ (Fin.last cfg3.N) ⊢ (iprop((∃ r, prngReg c r) ∗ Pipeline.scopedRest (Ix := Unit) (Name := ℕ) (U := UR sig nD τ) (Lvl := ℕ) (Val := Elt F) spec3 c) : sProp 𝕄) := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 25 := N_3; omega), scopedRest3_split]
  simp only [scM3, owns_whole]
  iintro ⟨HS, Hrest, Hg⟩
  isplitl [Hg]; · iexact Hg
  isplitl [HS]; · iexists _; iexact HS
  iexact Hrest

end Cert.KernelIdeal.Hand

end
-- ==== Proof.KI.Reg4.lean ====
import proofs.«400674_j14499809591724_2_alg».proof.Proof.KI.Reg0

noncomputable section

namespace Cert.KernelIdeal.Hand

open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_2 (x0 : Vec F S2000x128 .f32) (x1 : Vec F S128x128 .f32) : Vec F S2000x128 .bf16 :=
  View.canon [⟨r0_0, k4_pay1 (View.ld x0 r0_0) (View.ld x1 r0_1)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := rfl

theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl

theorem body_obligation4 (c : Dev nD) : BodyObligation (dat4 (F := F) V c) (defs₀ (F := F)) Variants.none () Set.univ := fun t => by
  rw [bigSep_W4, bigSep_W4]
  simp only [before4_0, before4_1]
  dsimp only [dat4]
  show _ ⊢ wp _ _ _ (bodyAt4 t) _
  rw [bodyAt4, cc4__matmul_kernel_eq_skeleton]
  exact rowProdBody_sound k4_pay1 c _ _ _ _ (hstage4_2 _) (iblk4 V c 0 t) (iblk4 V c 1 t) _ _ _

end Cert.KernelIdeal.Hand
-- ==== Proof.KI.Reg5.lean ====
import proofs.«400674_j14499809591724_2_alg».proof.Proof.KI.Reg1

noncomputable section

namespace Cert.KernelIdeal.Hand

open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5_4 (x0 : Vec F S2000x128 .f32) (x1 : Vec F S2000x128 .bf16) (x2 : Vec F S2000x1 .f32) (x3 : Vec F S1x128 .f32) : Vec F S2000x128 .bf16 :=
  View.canon [⟨r1_0, k5_pay1 (View.ld x0 r1_0) (View.ld x1 r1_0) (View.ld x2 r1_1) (View.ld x3 r1_2)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := rfl

theorem after5_4 (c : Dev nD) (t : Fin cfg5.N) :
    (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl

theorem body_obligation5 (c : Dev nD) : BodyObligation (dat5 (F := F) V c) (defs₀ (F := F)) Variants.none () Set.univ := fun t => by
  rw [bigSep_W5, bigSep_W5]
  simp only [before5_0, before5_1, before5_2, before5_3]
  dsimp only [dat5]
  show _ ⊢ wp _ _ _ (bodyAt5 t) _
  rw [bodyAt5, cc5__combine_kernel_eq_skeleton]
  exact rowCombBody_sound k5_pay1 c _ _ _ _ _ _ (hstage5_4 _) (iblk5 V c 0 t) (iblk5 V c 1 t) (iblk5 V c 2 t) (iblk5 V c 3 t) _ _ _

end Cert.KernelIdeal.Hand
-- ==== Proof.KI.Reg6.lean ====
import proofs.«400674_j14499809591724_2_alg».proof.Proof.KI.Reg0

noncomputable section

namespace Cert.KernelIdeal.Hand

open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def out6_2 (x0 : Vec F S2000x128 .bf16) (x1 : Vec F S128x128 .f32) : Vec F S2000x128 .bf16 :=
  View.canon [⟨r0_0, k6_pay1 (View.ld x0 r0_0) (View.ld x1 r0_1)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := rfl

theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl

theorem body_obligation6 (c : Dev nD) : BodyObligation (dat6 (F := F) V c) (defs₀ (F := F)) Variants.none () Set.univ := fun t => by
  rw [bigSep_W6, bigSep_W6]
  simp only [before6_0, before6_1]
  dsimp only [dat6]
  show _ ⊢ wp _ _ _ (bodyAt6 t) _
  rw [bodyAt6, cc6__matmul_kernel_eq_skeleton]
  exact rowProdBody_sound k6_pay1 c _ _ _ _ (hstage6_2 _) (iblk6 V c 0 t) (iblk6 V c 1 t) _ _ _

end Cert.KernelIdeal.Hand
-- ==== Proof.KI.Reg7.lean ====
import proofs.«400674_j14499809591724_2_alg».proof.Proof.Gen.KernelIdeal.Launch
import proofs.«400674_j14499809591724_2_alg».proof.Proof.Gen.KernelIdeal.Skeleton
import proofs.«400674_j14499809591724_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond7_0 (i : grid7.Coords) : Prop := (Scalar.cmpi .ne (Scalar.extui (Scalar.cmpi .eq (BitVec.ofNat 32 (i 0).val) 0#32)) 0#32) = 1#1
theorem hcond7_0 : ∀ t : Fin cfg7.N, cond7_0 (grid7.coords t) ↔ t.val % 25 = 0 :=
  (by decide +kernel : ∀ t : Fin grid7.N, cond7_0 (grid7.coords t) ↔ t.val % 25 = 0)

abbrev cond7_1 (i : grid7.Coords) : Prop := k7_cond2 i = 1#1
theorem hcond7_1 : ∀ t : Fin cfg7.N, cond7_1 (grid7.coords t) ↔ t.val % 25 = 24 :=
  (by decide +kernel : ∀ t : Fin grid7.N, cond7_1 (grid7.coords t) ↔ t.val % 25 = 24)

section
variable (c : Dev nD) (i : grid7.Coords) (arg1 : Memref sig .tc .vmem S2000x128 .f32) (harg1 : arg1.IsWhole) (arg2 : Memref sig .tc .vmem S2000x128 .bf16) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .bf16) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x1 .i32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole)

section
variable (hc0 : cond7_0 i) (hc1 : ¬cond7_1 i) (x0 : Vec F S2000x128 .f32) (x1 : Vec F S2000x128 .bf16) (x2 : Vec F S2000x1 .f32) (x3 : Vec F S1x128 .f32) (x4 : Vec F S2000x128 .bf16) (x5 : Vec F S128x128 .f32) (x6 : Vec F S128x128 .f32) (x7 : Vec F S1x128 .f32) (x8 : Vec F S2000x1 .i32)

set_option maxHeartbeats 4000000 in
noncomputable def kernelRun7_A :
    Σ' (L9 : List (View.Piece (Elt F) S2000x128 .f32)), { LS : List (View.Piece (Elt F) S512x128 .f32) //
      ∀ (xi10 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS)) -∗ K ⟨⟩))
          ⊢ wp frame (wpE (defs₀ (F := F)) Variants.none c none) E (cc7__stage2_kernel i arg1 harg1 arg2 harg2 arg3 harg3 arg4 harg4 arg5 harg5 arg6 harg6 arg7 harg7 arg8 harg8 arg9 harg9 arg10 harg10 arg11 harg11 arg12 harg12) K } := by
  refine ⟨?_, ?_, fun xi10 E K => ?run⟩
  case run =>
    simp only [cc7__stage2_kernel_eq_skeleton]; unfold cc7__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    iexists _; iexact HS

theorem cover7_A_9 : ∀ y : S2000x128.Idx, ∃ pc ∈ (kernelRun7_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).1, y ∈ pc.1.set :=
  View.cover_of_tiledL _ S2000x128.size (by sl_kernel_rfl)
def out7_A_9 : Vec F S2000x128 .f32 := View.canon (kernelRun7_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).1
theorem scover7_A : ∀ y : S512x128.Idx, ∃ pc ∈ (kernelRun7_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1, y ∈ pc.1.set :=
  View.cover_of_tiledL _ S512x128.size (by sl_kernel_rfl)
def sout7_A : Vec F S512x128 .f32 := View.canon (kernelRun7_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1
def outs7_A : Vec F S2000x128 .f32 × Vec F S512x128 .f32 × Vec F S512x128 .f32 := (out7_A_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8, sout7_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8, sout7_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8)

end

section
variable (hc0 : ¬cond7_0 i) (hc1 : ¬cond7_1 i) (x0 : Vec F S2000x128 .f32) (x1 : Vec F S2000x128 .bf16) (x2 : Vec F S2000x1 .f32) (x3 : Vec F S1x128 .f32) (x4 : Vec F S2000x128 .bf16) (x5 : Vec F S128x128 .f32) (x6 : Vec F S128x128 .f32) (x7 : Vec F S1x128 .f32) (x8 : Vec F S2000x1 .i32) (xs : Vec F S512x128 .f32)

set_option maxHeartbeats 4000000 in
noncomputable def kernelRun7_B :
    Σ' (L9 : List (View.Piece (Elt F) S2000x128 .f32)), { LS : List (View.Piece (Elt F) S512x128 .f32) //
      ∀ (xi10 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS)) -∗ K ⟨⟩))
          ⊢ wp frame (wpE (defs₀ (F := F)) Variants.none c none) E (cc7__stage2_kernel i arg1 harg1 arg2 harg2 arg3 harg3 arg4 harg4 arg5 harg5 arg6 harg6 arg7 harg7 arg8 harg8 arg9 harg9 arg10 harg10 arg11 harg11 arg12 harg12) K } := by
  refine ⟨?_, ?_, fun xi10 E K => ?run⟩
  case run =>
    simp only [cc7__stage2_kernel_eq_skeleton]; unfold cc7__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    iexists _; iexact HS

theorem cover7_B_9 : ∀ y : S2000x128.Idx, ∃ pc ∈ (kernelRun7_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).1, y ∈ pc.1.set :=
  View.cover_of_tiledL _ S2000x128.size (by sl_kernel_rfl)
def out7_B_9 : Vec F S2000x128 .f32 := View.canon (kernelRun7_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).1
theorem scover7_B : ∀ y : S512x128.Idx, ∃ pc ∈ (kernelRun7_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.1, y ∈ pc.1.set :=
  View.cover_of_tiledL _ S512x128.size (by sl_kernel_rfl)
def sout7_B : Vec F S512x128 .f32 := View.canon (kernelRun7_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.1
def outs7_B : Vec F S2000x128 .f32 × Vec F S512x128 .f32 × Vec F S512x128 .f32 := (out7_B_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs, sout7_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs, sout7_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs)

end

section
variable (hc0 : ¬cond7_0 i) (hc1 : cond7_1 i) (x0 : Vec F S2000x128 .f32) (x1 : Vec F S2000x128 .bf16) (x2 : Vec F S2000x1 .f32) (x3 : Vec F S1x128 .f32) (x4 : Vec F S2000x128 .bf16) (x5 : Vec F S128x128 .f32) (x6 : Vec F S128x128 .f32) (x7 : Vec F S1x128 .f32) (x8 : Vec F S2000x1 .i32) (xs : Vec F S512x128 .f32)

set_option maxHeartbeats 4000000 in
noncomputable def kernelRun7_C :
    Σ' (L9 : List (View.Piece (Elt F) S2000x128 .f32)) (L10 : List (View.Piece (Elt F) S512x128 .f32)), { LS : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS)) -∗ K ⟨⟩))
          ⊢ wp frame (wpE (defs₀ (F := F)) Variants.none c none) E (cc7__stage2_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc7__stage2_kernel_eq_skeleton]; unfold cc7__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact HS

theorem cover7_C_9 : ∀ y : S2000x128.Idx, ∃ pc ∈ (kernelRun7_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).1, y ∈ pc.1.set :=
  View.cover_of_tiledL _ S2000x128.size (by sl_kernel_rfl)
def out7_C_9 : Vec F S2000x128 .f32 := View.canon (kernelRun7_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).1
theorem cover7_C_10 : ∀ y : S512x128.Idx, ∃ pc ∈ (kernelRun7_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.1, y ∈ pc.1.set :=
  View.cover_of_tiledL _ S512x128.size (by sl_kernel_rfl)
def out7_C_10 : Vec F S512x128 .f32 := View.canon (kernelRun7_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.1
theorem scover7_C : ∀ y : S512x128.Idx, ∃ pc ∈ (kernelRun7_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.2.1, y ∈ pc.1.set :=
  View.cover_of_tiledL _ S512x128.size (by sl_kernel_rfl)
def sout7_C : Vec F S512x128 .f32 := View.canon (kernelRun7_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.2.1
def outs7_C : Vec F S2000x128 .f32 × Vec F S512x128 .f32 × Vec F S512x128 .f32 := (out7_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs, out7_C_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs, sout7_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs)

end

end

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem idleAt7_10 : ∀ t : Fin cfg7.N, ¬cond7_1 (grid7.coords t) → cfg7.idle 10 (grid7.coords t) = true := by decide +kernel
theorem noFlush7_10 : ∀ t : Fin cfg7.N, ¬cond7_1 (grid7.coords t) → (cfg7.win 10).flush t = false := by decide +kernel

theorem liveAt7_10 : ∀ t : Fin cfg7.N, cond7_1 (grid7.coords t) → cfg7.idle 10 (grid7.coords t) = false := by decide +kernel

abbrev ms7_0 (t : Fin cfg7.N) : Memref sig .tc .vmem S2000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S2000x128 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S2000x1 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x128 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S2000x128 .bf16 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S128x128 .f32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S128x128 .f32 := win7_6.stage (cfg7.slots t 6)
abbrev hs7_6 (t : Fin cfg7.N) : (ms7_6 t).IsWhole := hstage7_6 ((cfg7.slots t 6).cast nbuf7_6)
abbrev ms7_7 (t : Fin cfg7.N) : Memref sig .tc .vmem S1x128 .f32 := win7_7.stage (cfg7.slots t 7)
abbrev hs7_7 (t : Fin cfg7.N) : (ms7_7 t).IsWhole := hstage7_7 ((cfg7.slots t 7).cast nbuf7_7)
abbrev ms7_8 (t : Fin cfg7.N) : Memref sig .tc .vmem S2000x1 .i32 := win7_8.stage (cfg7.slots t 8)
abbrev hs7_8 (t : Fin cfg7.N) : (ms7_8 t).IsWhole := hstage7_8 ((cfg7.slots t 8).cast nbuf7_8)
abbrev ms7_9 (t : Fin cfg7.N) : Memref sig .tc .vmem S2000x128 .f32 := win7_9.stage (cfg7.slots t 9)
abbrev hs7_9 (t : Fin cfg7.N) : (ms7_9 t).IsWhole := hstage7_9 ((cfg7.slots t 9).cast nbuf7_9)
abbrev ms7_10 (t : Fin cfg7.N) : Memref sig .tc .vmem S512x128 .f32 := win7_10.stage (cfg7.slots t 10)
abbrev hs7_10 (t : Fin cfg7.N) : (ms7_10 t).IsWhole := hstage7_10 ((cfg7.slots t 10).cast nbuf7_10)

abbrev scM7 : Memref sig .tc .vmem S512x128 .f32 := Memref.whole cc7_scratch0

def ptA7 (c : Dev nD) (t : Fin cfg7.N) (h0 : t.val % 25 = 0) : Vec F S2000x128 .f32 × Vec F S512x128 .f32 × Vec F S512x128 .f32 :=
  outs7_A c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) scM7 (Memref.isWhole_whole _) ((hcond7_0 t).mpr h0) (fun h => absurd ((hcond7_1 t).mp h) (by omega)) (iblk7 V c 0 t) (iblk7 V c 1 t) (iblk7 V c 2 t) (iblk7 V c 3 t) (iblk7 V c 4 t) (iblk7 V c 5 t) (iblk7 V c 6 t) (iblk7 V c 7 t) (iblk7 V c 8 t)

def ptB7 (c : Dev nD) (t : Fin cfg7.N) (h0 : ¬t.val % 25 = 0) (h1 : ¬t.val % 25 = 24) (xs : Vec F S512x128 .f32) : Vec F S2000x128 .f32 × Vec F S512x128 .f32 × Vec F S512x128 .f32 :=
  outs7_B c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) scM7 (Memref.isWhole_whole _) (fun h => h0 ((hcond7_0 t).mp h)) (fun h => h1 ((hcond7_1 t).mp h)) (iblk7 V c 0 t) (iblk7 V c 1 t) (iblk7 V c 2 t) (iblk7 V c 3 t) (iblk7 V c 4 t) (iblk7 V c 5 t) (iblk7 V c 6 t) (iblk7 V c 7 t) (iblk7 V c 8 t) xs

def ptC7 (c : Dev nD) (t : Fin cfg7.N) (h1 : t.val % 25 = 24) (xs : Vec F S512x128 .f32) : Vec F S2000x128 .f32 × Vec F S512x128 .f32 × Vec F S512x128 .f32 :=
  outs7_C c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) scM7 (Memref.isWhole_whole _) (fun h => absurd ((hcond7_0 t).mp h) (by omega)) ((hcond7_1 t).mpr h1) (iblk7 V c 0 t) (iblk7 V c 1 t) (iblk7 V c 2 t) (iblk7 V c 3 t) (iblk7 V c 4 t) (iblk7 V c 5 t) (iblk7 V c 6 t) (iblk7 V c 7 t) (iblk7 V c 8 t) xs

def outsAt7 (c : Dev nD) : (n : ℕ) → n < cfg7.N → Vec F S2000x128 .f32 × Vec F S512x128 .f32 × Vec F S512x128 .f32
  | 0, hn => ptA7 V c ⟨0, hn⟩ (Nat.zero_mod _)
  | n + 1, hn =>
    if h1 : (n + 1) % 25 = 24 then ptC7 V c ⟨n + 1, hn⟩ h1 (outsAt7 c n (Nat.lt_of_succ_lt hn)).2.2
    else ptB7 V c ⟨n + 1, hn⟩ (by have := lt_of_lt_of_eq hn (show cfg7.N = 25 from N_7); show ¬(n + 1) % 25 = 0; omega) h1 (outsAt7 c n (Nat.lt_of_succ_lt hn)).2.2

theorem outsAt7_A (c : Dev nD) (t : Fin cfg7.N) (h0 : t.val % 25 = 0) :
    outsAt7 V c t.val t.isLt = (out7_A_9 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) scM7 (Memref.isWhole_whole _) ((hcond7_0 t).mpr h0) (fun h => absurd ((hcond7_1 t).mp h) (by omega)) (iblk7 V c 0 t) (iblk7 V c 1 t) (iblk7 V c 2 t) (iblk7 V c 3 t) (iblk7 V c 4 t) (iblk7 V c 5 t) (iblk7 V c 6 t) (iblk7 V c 7 t) (iblk7 V c 8 t), sout7_A c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) scM7 (Memref.isWhole_whole _) ((hcond7_0 t).mpr h0) (fun h => absurd ((hcond7_1 t).mp h) (by omega)) (iblk7 V c 0 t) (iblk7 V c 1 t) (iblk7 V c 2 t) (iblk7 V c 3 t) (iblk7 V c 4 t) (iblk7 V c 5 t) (iblk7 V c 6 t) (iblk7 V c 7 t) (iblk7 V c 8 t), sout7_A c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) scM7 (Memref.isWhole_whole _) ((hcond7_0 t).mpr h0) (fun h => absurd ((hcond7_1 t).mp h) (by omega)) (iblk7 V c 0 t) (iblk7 V c 1 t) (iblk7 V c 2 t) (iblk7 V c 3 t) (iblk7 V c 4 t) (iblk7 V c 5 t) (iblk7 V c 6 t) (iblk7 V c 7 t) (iblk7 V c 8 t)) := by
  obtain ⟨n, hn⟩ := t
  cases n with
  | zero => exact rfl
  | succ n => exact (by exfalso; have hN : n + 1 < 25 := lt_of_lt_of_eq hn (show cfg7.N = 25 from N_7); (try dsimp only at h0); omega)

theorem outsAt7_B (c : Dev nD) (t : Fin cfg7.N) (h0 : ¬t.val % 25 = 0) (h1 : ¬t.val % 25 = 24) :
    outsAt7 V c t.val t.isLt = (out7_B_9 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) scM7 (Memref.isWhole_whole _) (fun h => h0 ((hcond7_0 t).mp h)) (fun h => h1 ((hcond7_1 t).mp h)) (iblk7 V c 0 t) (iblk7 V c 1 t) (iblk7 V c 2 t) (iblk7 V c 3 t) (iblk7 V c 4 t) (iblk7 V c 5 t) (iblk7 V c 6 t) (iblk7 V c 7 t) (iblk7 V c 8 t) (outsAt7 V c (t.val - 1) (Nat.lt_of_le_of_lt (Nat.sub_le _ _) t.isLt)).2.2, sout7_B c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) scM7 (Memref.isWhole_whole _) (fun h => h0 ((hcond7_0 t).mp h)) (fun h => h1 ((hcond7_1 t).mp h)) (iblk7 V c 0 t) (iblk7 V c 1 t) (iblk7 V c 2 t) (iblk7 V c 3 t) (iblk7 V c 4 t) (iblk7 V c 5 t) (iblk7 V c 6 t) (iblk7 V c 7 t) (iblk7 V c 8 t) (outsAt7 V c (t.val - 1) (Nat.lt_of_le_of_lt (Nat.sub_le _ _) t.isLt)).2.2, sout7_B c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) scM7 (Memref.isWhole_whole _) (fun h => h0 ((hcond7_0 t).mp h)) (fun h => h1 ((hcond7_1 t).mp h)) (iblk7 V c 0 t) (iblk7 V c 1 t) (iblk7 V c 2 t) (iblk7 V c 3 t) (iblk7 V c 4 t) (iblk7 V c 5 t) (iblk7 V c 6 t) (iblk7 V c 7 t) (iblk7 V c 8 t) (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h1).trans rfl

theorem outsAt7_C (c : Dev nD) (t : Fin cfg7.N) (h1 : t.val % 25 = 24) :
    outsAt7 V c t.val t.isLt = (out7_C_9 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) scM7 (Memref.isWhole_whole _) (fun h => absurd ((hcond7_0 t).mp h) (by omega)) ((hcond7_1 t).mpr h1) (iblk7 V c 0 t) (iblk7 V c 1 t) (iblk7 V c 2 t) (iblk7 V c 3 t) (iblk7 V c 4 t) (iblk7 V c 5 t) (iblk7 V c 6 t) (iblk7 V c 7 t) (iblk7 V c 8 t) (outsAt7 V c (t.val - 1) (Nat.lt_of_le_of_lt (Nat.sub_le _ _) t.isLt)).2.2, out7_C_10 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) scM7 (Memref.isWhole_whole _) (fun h => absurd ((hcond7_0 t).mp h) (by omega)) ((hcond7_1 t).mpr h1) (iblk7 V c 0 t) (iblk7 V c 1 t) (iblk7 V c 2 t) (iblk7 V c 3 t) (iblk7 V c 4 t) (iblk7 V c 5 t) (iblk7 V c 6 t) (iblk7 V c 7 t) (iblk7 V c 8 t) (outsAt7 V c (t.val - 1) (Nat.lt_of_le_of_lt (Nat.sub_le _ _) t.isLt)).2.2, sout7_C c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) scM7 (Memref.isWhole_whole _) (fun h => absurd ((hcond7_0 t).mp h) (by omega)) ((hcond7_1 t).mpr h1) (iblk7 V c 0 t) (iblk7 V c 1 t) (iblk7 V c 2 t) (iblk7 V c 3 t) (iblk7 V c 4 t) (iblk7 V c 5 t) (iblk7 V c 6 t) (iblk7 V c 7 t) (iblk7 V c 8 t) (outsAt7 V c (t.val - 1) (Nat.lt_of_le_of_lt (Nat.sub_le _ _) t.isLt)).2.2) := by
  obtain ⟨n, hn⟩ := t
  cases n with
  | zero => exact (by exfalso; (try dsimp only at h1); omega)
  | succ n => exact (dif_pos h1).trans rfl

def out7_9 (c : Dev nD) (t : Fin cfg7.N) : Vec F S2000x128 .f32 := (outsAt7 V c t.val t.isLt).1

def out7_10 (c : Dev nD) (t : Fin cfg7.N) : Vec F S512x128 .f32 := (outsAt7 V c t.val t.isLt).2.1

def acc7 (c : Dev nD) (t : Fin cfg7.N) : Vec F S512x128 .f32 := (outsAt7 V c t.val t.isLt).2.2

def PhiS7 (c : Dev nD) : (n : ℕ) → n ≤ cfg7.N → sProp 𝕄
  | 0, _ => iprop((∃ r, prngReg c r) ∗ Pipeline.scopedRest (Ix := Unit) (Name := ℕ) (U := UR sig nD τ) (Lvl := ℕ) (Val := Elt F) spec7 c)
  | n + 1, hn => iprop(owns (c : Thread nD τ) scM7 fullShare ((outsAt7 V c n hn).2.2) ∗ Pipeline.scopedRestBut (Ix := Unit) (Name := ℕ) (U := UR sig nD τ) (Lvl := ℕ) (Val := Elt F) spec7 c [cc7_scratch0] ∗ (∃ r, prngReg c r))

theorem PhiS7_zero (c : Dev nD) (n : ℕ) (h : n ≤ cfg7.N) (hz : n = 0) :
    PhiS7 V c n h = iprop((∃ r, prngReg c r) ∗ iprop((∃ d, owns (c : Thread nD τ) scM7 fullShare d)) ∗ Pipeline.scopedRestBut (Ix := Unit) (Name := ℕ) (U := UR sig nD τ) (Lvl := ℕ) (Val := Elt F) spec7 c [cc7_scratch0]) := by
  subst hz
  show iprop((∃ r, prngReg c r) ∗ Pipeline.scopedRest (Ix := Unit) (Name := ℕ) (U := UR sig nD τ) (Lvl := ℕ) (Val := Elt F) spec7 c) = _
  rw [scopedRest7_split]; simp only [scM7, owns_whole]; try rfl

theorem PhiS7_succ (c : Dev nD) (n : ℕ) (hn : n < cfg7.N) :
    PhiS7 V c (n + 1) hn = iprop(owns (c : Thread nD τ) scM7 fullShare ((outsAt7 V c n hn).2.2) ∗ Pipeline.scopedRestBut (Ix := Unit) (Name := ℕ) (U := UR sig nD τ) (Lvl := ℕ) (Val := Elt F) spec7 c [cc7_scratch0] ∗ (∃ r, prngReg c r)) := rfl

theorem PhiS7_pos (c : Dev nD) (n : ℕ) (h : n ≤ cfg7.N) (hz : n ≠ 0) :
    PhiS7 V c n h = iprop(owns (c : Thread nD τ) scM7 fullShare ((outsAt7 V c (n - 1) (by omega)).2.2) ∗ Pipeline.scopedRestBut (Ix := Unit) (Name := ℕ) (U := UR sig nD τ) (Lvl := ℕ) (Val := Elt F) spec7 c [cc7_scratch0] ∗ (∃ r, prngReg c r)) := by
  cases n with
  | zero => exact absurd rfl hz
  | succ n => rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => out7_9 V c t
    | ⟨10, _⟩ => out7_10 V c t
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) : (dat7 V c).after 9 t = out7_9 V c t := by dsimp only [dat7]
theorem after7_10 (c : Dev nD) (t : Fin cfg7.N) : (dat7 V c).after 10 t = out7_10 V c t := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl) (fun t => by rw [after7_1]; unfold Dat.blockOf iblk7; rw [A_eq7]; try rfl) t d).trans
    (by unfold Dat.fetched Dat.blockOf iblk7; rw [A_eq7]; try rfl)
theorem before7_2 (c : Dev nD) (t : Fin cfg7.N) (d) : (dat7 V c).before 2 t d = iblk7 V c 2 t :=
  ((dat7 V c).before_in_eq_fetched 2 rfl (fun _ => rfl) (fun _ _ _ => rfl) (fun t => by rw [after7_2]; unfold Dat.blockOf iblk7; rw [A_eq7]; try rfl) t d).trans
    (by unfold Dat.fetched Dat.blockOf iblk7; rw [A_eq7]; try rfl)
theorem before7_3 (c : Dev nD) (t : Fin cfg7.N) (d) : (dat7 V c).before 3 t d = iblk7 V c 3 t :=
  ((dat7 V c).before_in_eq_fetched 3 rfl (fun _ => rfl) (fun _ _ _ => rfl) (fun t => by rw [after7_3]; unfold Dat.blockOf iblk7; rw [A_eq7]; try rfl) t d).trans
    (by unfold Dat.fetched Dat.blockOf iblk7; rw [A_eq7]; try rfl)
theorem before7_4 (c : Dev nD) (t : Fin cfg7.N) (d) : (dat7 V c).before 4 t d = iblk7 V c 4 t :=
  ((dat7 V c).before_in_eq_fetched 4 rfl (fun _ => rfl) (fun _ _ _ => rfl) (fun t => by rw [after7_4]; unfold Dat.blockOf iblk7; rw [A_eq7]; try rfl) t d).trans
    (by unfold Dat.fetched Dat.blockOf iblk7; rw [A_eq7]; try rfl)
theorem before7_5 (c : Dev nD) (t : Fin cfg7.N) (d) : (dat7 V c).before 5 t d = iblk7 V c 5 t :=
  ((dat7 V c).before_in_eq_fetched 5 rfl (fun _ => rfl) (fun _ _ _ => rfl) (fun t => by rw [after7_5]; unfold Dat.blockOf iblk7; rw [A_eq7]; try rfl) t d).trans
    (by unfold Dat.fetched Dat.blockOf iblk7; rw [A_eq7]; try rfl)
theorem before7_6 (c : Dev nD) (t : Fin cfg7.N) (d) : (dat7 V c).before 6 t d = iblk7 V c 6 t :=
  ((dat7 V c).before_in_eq_fetched 6 rfl (fun _ => rfl) (fun _ _ _ => rfl) (fun t => by rw [after7_6]; unfold Dat.blockOf iblk7; rw [A_eq7]; try rfl) t d).trans
    (by unfold Dat.fetched Dat.blockOf iblk7; rw [A_eq7]; try rfl)
theorem before7_7 (c : Dev nD) (t : Fin cfg7.N) (d) : (dat7 V c).before 7 t d = iblk7 V c 7 t :=
  ((dat7 V c).before_in_eq_fetched 7 rfl (fun _ => rfl) (fun _ _ _ => rfl) (fun t => by rw [after7_7]; unfold Dat.blockOf iblk7; rw [A_eq7]; try rfl) t d).trans
    (by unfold Dat.fetched Dat.blockOf iblk7; rw [A_eq7]; try rfl)
theorem before7_8 (c : Dev nD) (t : Fin cfg7.N) (d) : (dat7 V c).before 8 t d = iblk7 V c 8 t :=
  ((dat7 V c).before_in_eq_fetched 8 rfl (fun _ => rfl) (fun _ _ _ => rfl) (fun t => by rw [after7_8]; unfold Dat.blockOf iblk7; rw [A_eq7]; try rfl) t d).trans
    (by unfold Dat.fetched Dat.blockOf iblk7; rw [A_eq7]; try rfl)

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d))
    ∗ (∃ d, owns (c : Thread nD τ) (ms7_7 t) fullShare ((dat7 V c).before 7 t d))
    ∗ (∃ d, owns (c : Thread nD τ) (ms7_8 t) fullShare ((dat7 V c).before 8 t d))
    ∗ (∃ d, owns (c : Thread nD τ) (ms7_9 t) fullShare ((dat7 V c).before 9 t d))
    ∗ (∃ d, owns (c : Thread nD τ) (ms7_10 t) fullShare ((dat7 V c).before 10 t d)))

def bodyPost7 (c : Dev nD) (t : Fin cfg7.N) : sProp 𝕄 :=
  iprop((dat7 V c).Φ t.succ ∗ (dat7 V c).owesAt () t.succ
    ∗ owns (c : Thread nD τ) (ms7_0 t) fullShare (iblk7 V c 0 t)
    ∗ owns (c : Thread nD τ) (ms7_1 t) fullShare (iblk7 V c 1 t)
    ∗ owns (c : Thread nD τ) (ms7_2 t) fullShare (iblk7 V c 2 t)
    ∗ owns (c : Thread nD τ) (ms7_3 t) fullShare (iblk7 V c 3 t)
    ∗ owns (c : Thread nD τ) (ms7_4 t) fullShare (iblk7 V c 4 t)
    ∗ owns (c : Thread nD τ) (ms7_5 t) fullShare (iblk7 V c 5 t)
    ∗ owns (c : Thread nD τ) (ms7_6 t) fullShare (iblk7 V c 6 t)
    ∗ owns (c : Thread nD τ) (ms7_7 t) fullShare (iblk7 V c 7 t)
    ∗ owns (c : Thread nD τ) (ms7_8 t) fullShare (iblk7 V c 8 t)
    ∗ owns (c : Thread nD τ) (ms7_9 t) fullShare (out7_9 V c t)
    ∗ (dat7 V c).leavesExact 10 t)

set_option maxHeartbeats 8000000 in

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8]
  rw [show (dat7 V c).owesAt () t.succ = (dat7 V c).owesAt () t.castSucc from rfl]
  rw [show (dat7 V c).Φ t.succ = PhiS7 V c (t.val + 1) t.isLt from rfl, PhiS7_succ]
  have hN : t.val < 25 := lt_of_lt_of_eq t.isLt (show cfg7.N = 25 from N_7)
  unfold out7_9
  by_cases h1 : t.val % 25 = 24
  · have hz : t.val ≠ 0 := by omega
    rw [show (dat7 V c).leavesExact 10 t = owns (c : Thread nD τ) (ms7_10 t) fullShare ((dat7 V c).after 10 t) from by
      unfold Dat.leavesExact; rw [liveAt7_10 t ((hcond7_1 t).mpr h1)], after7_10]
    unfold out7_10
    rw [outsAt7_C V c t h1]
    unfold out7_C_9 out7_C_10 sout7_C; (try dsimp only)
    rw [PhiS7_castSucc V c t, PhiS7_pos V c _ _ hz]
    iintro ⟨⟨HS, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun7_C c (grid7.coords t) _ _ _ _ _ _ _ _ _ _ _ _ _ _ _ _ _ _ _ _ _ _ _ _ (fun h => absurd ((hcond7_0 t).mp h) (by omega)) ((hcond7_1 t).mpr h1) (iblk7 V c 0 t) (iblk7 V c 1 t) (iblk7 V c 2 t) (iblk7 V c 3 t) (iblk7 V c 4 t) (iblk7 V c 5 t) (iblk7 V c 6 t) (iblk7 V c 7 t) (iblk7 V c 8 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS]; · iexact HS
    iintro ⟨H0, H1, H2, H3, H4, H5, H6, H7, H8, ⟨%e9, H9⟩, ⟨%e10, H10⟩, ⟨%es, HS⟩⟩
    isplitl [HS Hrest Hg]
    · isplitl [HS]
      · unfold owns; iexists _; isplitr
        swap; · iexact HS
        ipureintro; exact View.read_writes_eq_canon _ _ _ (fun _ => scover7_C ..)
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_eq_canon _ _ _ (fun _ => cover7_C_9 ..)
    unfold owns; iexists _; isplitr
    swap; · iexact H10
    ipureintro; exact View.read_writes_eq_canon _ _ _ (fun _ => cover7_C_10 ..)

  · rw [Dat.leavesExact_idle (dat7 V c) 10 t (idleAt7_10 t (fun h => h1 ((hcond7_1 t).mp h))) (noFlush7_10 t (fun h => h1 ((hcond7_1 t).mp h)))]
    by_cases h0 : t.val % 25 = 0
    · have hz : t.val = 0 := by omega
      rw [outsAt7_A V c t h0]
      unfold out7_A_9 sout7_A; (try dsimp only)
      rw [PhiS7_castSucc V c t, PhiS7_zero V c _ _ hz]
      iintro ⟨⟨Hg, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun7_A c (grid7.coords t) _ _ _ _ _ _ _ _ _ _ _ _ _ _ _ _ _ _ _ _ _ _ _ _ ((hcond7_0 t).mpr h0) (fun h => absurd ((hcond7_1 t).mp h) (by omega)) (iblk7 V c 0 t) (iblk7 V c 1 t) (iblk7 V c 2 t) (iblk7 V c 3 t) (iblk7 V c 4 t) (iblk7 V c 5 t) (iblk7 V c 6 t) (iblk7 V c 7 t) (iblk7 V c 8 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HS]; · iexact HS
      iintro ⟨H0, H1, H2, H3, H4, H5, H6, H7, H8, ⟨%e9, H9⟩, H10, ⟨%es, HS⟩⟩
      isplitl [HS Hrest Hg]
      · isplitl [HS]
        · unfold owns; iexists _; isplitr
          swap; · iexact HS
          ipureintro; exact View.read_writes_eq_canon _ _ _ (fun _ => scover7_A ..)
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_eq_canon _ _ _ (fun _ => cover7_A_9 ..)
      iexists _; iexact H10

    · have hz : t.val ≠ 0 := by omega
      rw [outsAt7_B V c t h0 h1]
      unfold out7_B_9 sout7_B; (try dsimp only)
      rw [PhiS7_castSucc V c t, PhiS7_pos V c _ _ hz]
      iintro ⟨⟨HS, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun7_B c (grid7.coords t) _ _ _ _ _ _ _ _ _ _ _ _ _ _ _ _ _ _ _ _ _ _ _ _ (fun h => h0 ((hcond7_0 t).mp h)) (fun h => h1 ((hcond7_1 t).mp h)) (iblk7 V c 0 t) (iblk7 V c 1 t) (iblk7 V c 2 t) (iblk7 V c 3 t) (iblk7 V c 4 t) (iblk7 V c 5 t) (iblk7 V c 6 t) (iblk7 V c 7 t) (iblk7 V c 8 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HS]; · iexact HS
      iintro ⟨H0, H1, H2, H3, H4, H5, H6, H7, H8, ⟨%e9, H9⟩, H10, ⟨%es, HS⟩⟩
      isplitl [HS Hrest Hg]
      · isplitl [HS]
        · unfold owns; iexists _; isplitr
          swap; · iexact HS
          ipureintro; exact View.read_writes_eq_canon _ _ _ (fun _ => scover7_B ..)
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_eq_canon _ _ _ (fun _ => cover7_B_9 ..)
      iexists _; iexact H10

theorem body_obligation7 (c : Dev nD) : BodyObligation (dat7 (F := F) V c) (defs₀ (F := F)) Variants.none () Set.univ := fun t => by
  rw [bigSep_W7, bigSep_W7]
  exact sound_body7 V c t

theorem Phi_in7 (c : Dev nD) :
    (iprop((∃ r, prngReg c r) ∗ Pipeline.scopedRest (Ix := Unit) (Name := ℕ) (U := UR sig nD τ) (Lvl := ℕ) (Val := Elt F) spec7 c) : sProp 𝕄) ⊢ (dat7 V c).Φ 0 := by
  rw [show (dat7 V c).Φ 0 = PhiS7 V c 0 (Nat.zero_le _) from rfl]
  exact Idealize.SL.BI.Entails.refl _

theorem Phi_out7 (c : Dev nD) :
    (dat7 V c).Φ (Fin.last cfg7.N) ⊢ (iprop((∃ r, prngReg c r) ∗ Pipeline.scopedRest (Ix := Unit) (Name := ℕ) (U := UR sig nD τ) (Lvl := ℕ) (Val := Elt F) spec7 c) : sProp 𝕄) := by
  rw [show (dat7 V c).Φ (Fin.last cfg7.N) = PhiS7 V c (Fin.last cfg7.N).val (Nat.le_of_lt_succ (Fin.last cfg7.N).isLt) from rfl,
    PhiS7_pos V c _ _ (by rw [Fin.val_last]; have : cfg7.N = 25 := N_7; omega), scopedRest7_split]
  simp only [scM7, owns_whole]
  iintro ⟨HS, Hrest, Hg⟩
  isplitl [Hg]; · iexact Hg
  isplitl [HS]; · iexists _; iexact HS
  iexact Hrest

end Cert.KernelIdeal.Hand

end
-- ==== Proof.KI.Reg8.lean ====
import proofs.«400674_j14499809591724_2_alg».proof.Proof.KI.Reg0

noncomputable section

namespace Cert.KernelIdeal.Hand

open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def out8_2 (x0 : Vec F S2000x128 .f32) (x1 : Vec F S128x128 .f32) : Vec F S2000x128 .bf16 :=
  View.canon [⟨r0_0, k8_pay1 (View.ld x0 r0_0) (View.ld x1 r0_1)⟩]

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := rfl

theorem after8_2 (c : Dev nD) (t : Fin cfg8.N) : (dat8 V c).after 2 t = out8_2 (iblk8 V c 0 t) (iblk8 V c 1 t) := by dsimp only [dat8]

theorem before8_0 (c : Dev nD) (t : Fin cfg8.N) (d) : (dat8 V c).before 0 t d = iblk8 V c 0 t :=
  ((dat8 V c).before_in_eq_fetched 0 rfl (fun _ => rfl) (fun _ _ _ => rfl) (fun _ => rfl) t d).trans rfl
theorem before8_1 (c : Dev nD) (t : Fin cfg8.N) (d) : (dat8 V c).before 1 t d = iblk8 V c 1 t :=
  ((dat8 V c).before_in_eq_fetched 1 rfl (fun _ => rfl) (fun _ _ _ => rfl) (fun _ => rfl) t d).trans rfl

theorem body_obligation8 (c : Dev nD) : BodyObligation (dat8 (F := F) V c) (defs₀ (F := F)) Variants.none () Set.univ := fun t => by
  rw [bigSep_W8, bigSep_W8]
  simp only [before8_0, before8_1]
  dsimp only [dat8]
  show _ ⊢ wp _ _ _ (bodyAt8 t) _
  rw [bodyAt8, cc8__matmul_kernel_eq_skeleton]
  exact rowProdBody_sound k8_pay1 c _ _ _ _ (hstage8_2 _) (iblk8 V c 0 t) (iblk8 V c 1 t) _ _ _

end Cert.KernelIdeal.Hand
-- ==== Proof.KI.Reg9.lean ====
import proofs.«400674_j14499809591724_2_alg».proof.Proof.KI.Reg1

noncomputable section

namespace Cert.KernelIdeal.Hand

open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

def out9_4 (x0 : Vec F S2000x128 .f32) (x1 : Vec F S2000x128 .bf16) (x2 : Vec F S2000x1 .f32) (x3 : Vec F S1x128 .f32) : Vec F S2000x128 .bf16 :=
  View.canon [⟨r1_0, k9_pay1 (View.ld x0 r1_0) (View.ld x1 r1_0) (View.ld x2 r1_1) (View.ld x3 r1_2)⟩]

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

theorem A_eq9 (c : Dev nD) (w : Fin cfg9.W) : (dat9 V c).A w = V c (Pipeline.arrRef spec9 w) := rfl

theorem after9_4 (c : Dev nD) (t : Fin cfg9.N) :
    (dat9 V c).after 4 t = out9_4 (iblk9 V c 0 t) (iblk9 V c 1 t) (iblk9 V c 2 t) (iblk9 V c 3 t) := by dsimp only [dat9]

theorem before9_0 (c : Dev nD) (t : Fin cfg9.N) (d) : (dat9 V c).before 0 t d = iblk9 V c 0 t :=
  ((dat9 V c).before_in_eq_fetched 0 rfl (fun _ => rfl) (fun _ _ _ => rfl) (fun _ => rfl) t d).trans rfl
theorem before9_1 (c : Dev nD) (t : Fin cfg9.N) (d) : (dat9 V c).before 1 t d = iblk9 V c 1 t :=
  ((dat9 V c).before_in_eq_fetched 1 rfl (fun _ => rfl) (fun _ _ _ => rfl) (fun _ => rfl) t d).trans rfl
theorem before9_2 (c : Dev nD) (t : Fin cfg9.N) (d) : (dat9 V c).before 2 t d = iblk9 V c 2 t :=
  ((dat9 V c).before_in_eq_fetched 2 rfl (fun _ => rfl) (fun _ _ _ => rfl) (fun _ => rfl) t d).trans rfl
theorem before9_3 (c : Dev nD) (t : Fin cfg9.N) (d) : (dat9 V c).before 3 t d = iblk9 V c 3 t :=
  ((dat9 V c).before_in_eq_fetched 3 rfl (fun _ => rfl) (fun _ _ _ => rfl) (fun _ => rfl) t d).trans rfl

theorem body_obligation9 (c : Dev nD) : BodyObligation (dat9 (F := F) V c) (defs₀ (F := F)) Variants.none () Set.univ := fun t => by
  rw [bigSep_W9, bigSep_W9]
  simp only [before9_0, before9_1, before9_2, before9_3]
  dsimp only [dat9]
  show _ ⊢ wp _ _ _ (bodyAt9 t) _
  rw [bodyAt9, cc9__combine_kernel_eq_skeleton]
  exact rowCombBody_sound k9_pay1 c _ _ _ _ _ _ (hstage9_4 _) (iblk9 V c 0 t) (iblk9 V c 1 t) (iblk9 V c 2 t) (iblk9 V c 3 t) _ _ _

end Cert.KernelIdeal.Hand
-- ==== Proof.KI.Reg10.lean ====
import proofs.«400674_j14499809591724_2_alg».proof.Proof.KI.Reg0

noncomputable section

namespace Cert.KernelIdeal.Hand

open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

def out10_2 (x0 : Vec F S2000x128 .bf16) (x1 : Vec F S128x128 .f32) : Vec F S2000x128 .bf16 :=
  View.canon [⟨r0_0, k10_pay1 (View.ld x0 r0_0) (View.ld x1 r0_1)⟩]

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := rfl

theorem after10_2 (c : Dev nD) (t : Fin cfg10.N) : (dat10 V c).after 2 t = out10_2 (iblk10 V c 0 t) (iblk10 V c 1 t) := by dsimp only [dat10]

theorem before10_0 (c : Dev nD) (t : Fin cfg10.N) (d) : (dat10 V c).before 0 t d = iblk10 V c 0 t :=
  ((dat10 V c).before_in_eq_fetched 0 rfl (fun _ => rfl) (fun _ _ _ => rfl) (fun _ => rfl) t d).trans rfl
theorem before10_1 (c : Dev nD) (t : Fin cfg10.N) (d) : (dat10 V c).before 1 t d = iblk10 V c 1 t :=
  ((dat10 V c).before_in_eq_fetched 1 rfl (fun _ => rfl) (fun _ _ _ => rfl) (fun _ => rfl) t d).trans rfl

theorem body_obligation10 (c : Dev nD) : BodyObligation (dat10 (F := F) V c) (defs₀ (F := F)) Variants.none () Set.univ := fun t => by
  rw [bigSep_W10, bigSep_W10]
  simp only [before10_0, before10_1]
  dsimp only [dat10]
  show _ ⊢ wp _ _ _ (bodyAt10 t) _
  rw [bodyAt10, cc10__matmul_kernel_eq_skeleton]
  exact rowProdBody_sound k10_pay1 c _ _ _ _ (hstage10_2 _) (iblk10 V c 0 t) (iblk10 V c 1 t) _ _ _

end Cert.KernelIdeal.Hand
-- ==== Proof.KI.Reg11.lean ====
import proofs.«400674_j14499809591724_2_alg».proof.Proof.Gen.KernelIdeal.Launch
import proofs.«400674_j14499809591724_2_alg».proof.Proof.Gen.KernelIdeal.Skeleton
import proofs.«400674_j14499809591724_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond11_0 (i : grid11.Coords) : Prop := (Scalar.cmpi .ne (Scalar.extui (Scalar.cmpi .eq (BitVec.ofNat 32 (i 0).val) 0#32)) 0#32) = 1#1
theorem hcond11_0 : ∀ t : Fin cfg11.N, cond11_0 (grid11.coords t) ↔ t.val % 25 = 0 :=
  (by decide +kernel : ∀ t : Fin grid11.N, cond11_0 (grid11.coords t) ↔ t.val % 25 = 0)

abbrev cond11_1 (i : grid11.Coords) : Prop := k11_cond2 i = 1#1
theorem hcond11_1 : ∀ t : Fin cfg11.N, cond11_1 (grid11.coords t) ↔ t.val % 25 = 24 :=
  (by decide +kernel : ∀ t : Fin grid11.N, cond11_1 (grid11.coords t) ↔ t.val % 25 = 24)

section
variable (c : Dev nD) (i : grid11.Coords) (arg1 : Memref sig .tc .vmem S2000x128 .f32) (harg1 : arg1.IsWhole) (arg2 : Memref sig .tc .vmem S2000x128 .bf16) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .bf16) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x1 .i32) (harg9 : arg9.IsWhole) (arg10 : Memref sig .tc .vmem S2000x128 .f32) (harg10 : arg10.IsWhole) (arg11 : Memref sig .tc .vmem S512x128 .f32) (harg11 : arg11.IsWhole) (arg12 : Memref sig .tc .vmem S512x128 .f32) (harg12 : arg12.IsWhole)

section
variable (hc0 : cond11_0 i) (hc1 : ¬cond11_1 i) (x0 : Vec F S2000x128 .f32) (x1 : Vec F S2000x128 .bf16) (x2 : Vec F S2000x1 .f32) (x3 : Vec F S1x128 .f32) (x4 : Vec F S2000x128 .bf16) (x5 : Vec F S128x128 .f32) (x6 : Vec F S128x128 .f32) (x7 : Vec F S1x128 .f32) (x8 : Vec F S2000x1 .i32)

set_option maxHeartbeats 4000000 in
noncomputable def kernelRun11_A :
    Σ' (L9 : List (View.Piece (Elt F) S2000x128 .f32)), { LS : List (View.Piece (Elt F) S512x128 .f32) //
      ∀ (xi10 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS)) -∗ K ⟨⟩))
          ⊢ wp frame (wpE (defs₀ (F := F)) Variants.none c none) E (cc11__stage2_kernel i arg1 harg1 arg2 harg2 arg3 harg3 arg4 harg4 arg5 harg5 arg6 harg6 arg7 harg7 arg8 harg8 arg9 harg9 arg10 harg10 arg11 harg11 arg12 harg12) K } := by
  refine ⟨?_, ?_, fun xi10 E K => ?run⟩
  case run =>
    simp only [cc11__stage2_kernel_eq_skeleton]; unfold cc11__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    iexists _; iexact HS

theorem cover11_A_9 : ∀ y : S2000x128.Idx, ∃ pc ∈ (kernelRun11_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).1, y ∈ pc.1.set :=
  View.cover_of_tiledL _ S2000x128.size (by sl_kernel_rfl)
def out11_A_9 : Vec F S2000x128 .f32 := View.canon (kernelRun11_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).1
theorem scover11_A : ∀ y : S512x128.Idx, ∃ pc ∈ (kernelRun11_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1, y ∈ pc.1.set :=
  View.cover_of_tiledL _ S512x128.size (by sl_kernel_rfl)
def sout11_A : Vec F S512x128 .f32 := View.canon (kernelRun11_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1
def outs11_A : Vec F S2000x128 .f32 × Vec F S512x128 .f32 × Vec F S512x128 .f32 := (out11_A_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8, sout11_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8, sout11_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8)

end

section
variable (hc0 : ¬cond11_0 i) (hc1 : ¬cond11_1 i) (x0 : Vec F S2000x128 .f32) (x1 : Vec F S2000x128 .bf16) (x2 : Vec F S2000x1 .f32) (x3 : Vec F S1x128 .f32) (x4 : Vec F S2000x128 .bf16) (x5 : Vec F S128x128 .f32) (x6 : Vec F S128x128 .f32) (x7 : Vec F S1x128 .f32) (x8 : Vec F S2000x1 .i32) (xs : Vec F S512x128 .f32)

set_option maxHeartbeats 4000000 in
noncomputable def kernelRun11_B :
    Σ' (L9 : List (View.Piece (Elt F) S2000x128 .f32)), { LS : List (View.Piece (Elt F) S512x128 .f32) //
      ∀ (xi10 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS)) -∗ K ⟨⟩))
          ⊢ wp frame (wpE (defs₀ (F := F)) Variants.none c none) E (cc11__stage2_kernel i arg1 harg1 arg2 harg2 arg3 harg3 arg4 harg4 arg5 harg5 arg6 harg6 arg7 harg7 arg8 harg8 arg9 harg9 arg10 harg10 arg11 harg11 arg12 harg12) K } := by
  refine ⟨?_, ?_, fun xi10 E K => ?run⟩
  case run =>
    simp only [cc11__stage2_kernel_eq_skeleton]; unfold cc11__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    iexists _; iexact HS

theorem cover11_B_9 : ∀ y : S2000x128.Idx, ∃ pc ∈ (kernelRun11_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).1, y ∈ pc.1.set :=
  View.cover_of_tiledL _ S2000x128.size (by sl_kernel_rfl)
def out11_B_9 : Vec F S2000x128 .f32 := View.canon (kernelRun11_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).1
theorem scover11_B : ∀ y : S512x128.Idx, ∃ pc ∈ (kernelRun11_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.1, y ∈ pc.1.set :=
  View.cover_of_tiledL _ S512x128.size (by sl_kernel_rfl)
def sout11_B : Vec F S512x128 .f32 := View.canon (kernelRun11_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.1
def outs11_B : Vec F S2000x128 .f32 × Vec F S512x128 .f32 × Vec F S512x128 .f32 := (out11_B_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs, sout11_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs, sout11_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs)

end

section
variable (hc0 : ¬cond11_0 i) (hc1 : cond11_1 i) (x0 : Vec F S2000x128 .f32) (x1 : Vec F S2000x128 .bf16) (x2 : Vec F S2000x1 .f32) (x3 : Vec F S1x128 .f32) (x4 : Vec F S2000x128 .bf16) (x5 : Vec F S128x128 .f32) (x6 : Vec F S128x128 .f32) (x7 : Vec F S1x128 .f32) (x8 : Vec F S2000x1 .i32) (xs : Vec F S512x128 .f32)

set_option maxHeartbeats 4000000 in
noncomputable def kernelRun11_C :
    Σ' (L9 : List (View.Piece (Elt F) S2000x128 .f32)) (L10 : List (View.Piece (Elt F) S512x128 .f32)), { LS : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS)) -∗ K ⟨⟩))
          ⊢ wp frame (wpE (defs₀ (F := F)) Variants.none c none) E (cc11__stage2_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc11__stage2_kernel_eq_skeleton]; unfold cc11__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact HS

theorem cover11_C_9 : ∀ y : S2000x128.Idx, ∃ pc ∈ (kernelRun11_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).1, y ∈ pc.1.set :=
  View.cover_of_tiledL _ S2000x128.size (by sl_kernel_rfl)
def out11_C_9 : Vec F S2000x128 .f32 := View.canon (kernelRun11_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).1
theorem cover11_C_10 : ∀ y : S512x128.Idx, ∃ pc ∈ (kernelRun11_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.1, y ∈ pc.1.set :=
  View.cover_of_tiledL _ S512x128.size (by sl_kernel_rfl)
def out11_C_10 : Vec F S512x128 .f32 := View.canon (kernelRun11_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.1
theorem scover11_C : ∀ y : S512x128.Idx, ∃ pc ∈ (kernelRun11_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.2.1, y ∈ pc.1.set :=
  View.cover_of_tiledL _ S512x128.size (by sl_kernel_rfl)
def sout11_C : Vec F S512x128 .f32 := View.canon (kernelRun11_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs).2.2.1
def outs11_C : Vec F S2000x128 .f32 × Vec F S512x128 .f32 × Vec F S512x128 .f32 := (out11_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs, out11_C_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs, sout11_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs)

end

end

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem idleAt11_10 : ∀ t : Fin cfg11.N, ¬cond11_1 (grid11.coords t) → cfg11.idle 10 (grid11.coords t) = true := by decide +kernel
theorem noFlush11_10 : ∀ t : Fin cfg11.N, ¬cond11_1 (grid11.coords t) → (cfg11.win 10).flush t = false := by decide +kernel

theorem liveAt11_10 : ∀ t : Fin cfg11.N, cond11_1 (grid11.coords t) → cfg11.idle 10 (grid11.coords t) = false := by decide +kernel

abbrev ms11_0 (t : Fin cfg11.N) : Memref sig .tc .vmem S2000x128 .f32 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S2000x128 .bf16 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S2000x1 .f32 := win11_2.stage (cfg11.slots t 2)
abbrev hs11_2 (t : Fin cfg11.N) : (ms11_2 t).IsWhole := hstage11_2 ((cfg11.slots t 2).cast nbuf11_2)
abbrev ms11_3 (t : Fin cfg11.N) : Memref sig .tc .vmem S1x128 .f32 := win11_3.stage (cfg11.slots t 3)
abbrev hs11_3 (t : Fin cfg11.N) : (ms11_3 t).IsWhole := hstage11_3 ((cfg11.slots t 3).cast nbuf11_3)
abbrev ms11_4 (t : Fin cfg11.N) : Memref sig .tc .vmem S2000x128 .bf16 := win11_4.stage (cfg11.slots t 4)
abbrev hs11_4 (t : Fin cfg11.N) : (ms11_4 t).IsWhole := hstage11_4 ((cfg11.slots t 4).cast nbuf11_4)
abbrev ms11_5 (t : Fin cfg11.N) : Memref sig .tc .vmem S128x128 .f32 := win11_5.stage (cfg11.slots t 5)
abbrev hs11_5 (t : Fin cfg11.N) : (ms11_5 t).IsWhole := hstage11_5 ((cfg11.slots t 5).cast nbuf11_5)
abbrev ms11_6 (t : Fin cfg11.N) : Memref sig .tc .vmem S128x128 .f32 := win11_6.stage (cfg11.slots t 6)
abbrev hs11_6 (t : Fin cfg11.N) : (ms11_6 t).IsWhole := hstage11_6 ((cfg11.slots t 6).cast nbuf11_6)
abbrev ms11_7 (t : Fin cfg11.N) : Memref sig .tc .vmem S1x128 .f32 := win11_7.stage (cfg11.slots t 7)
abbrev hs11_7 (t : Fin cfg11.N) : (ms11_7 t).IsWhole := hstage11_7 ((cfg11.slots t 7).cast nbuf11_7)
abbrev ms11_8 (t : Fin cfg11.N) : Memref sig .tc .vmem S2000x1 .i32 := win11_8.stage (cfg11.slots t 8)
abbrev hs11_8 (t : Fin cfg11.N) : (ms11_8 t).IsWhole := hstage11_8 ((cfg11.slots t 8).cast nbuf11_8)
abbrev ms11_9 (t : Fin cfg11.N) : Memref sig .tc .vmem S2000x128 .f32 := win11_9.stage (cfg11.slots t 9)
abbrev hs11_9 (t : Fin cfg11.N) : (ms11_9 t).IsWhole := hstage11_9 ((cfg11.slots t 9).cast nbuf11_9)
abbrev ms11_10 (t : Fin cfg11.N) : Memref sig .tc .vmem S512x128 .f32 := win11_10.stage (cfg11.slots t 10)
abbrev hs11_10 (t : Fin cfg11.N) : (ms11_10 t).IsWhole := hstage11_10 ((cfg11.slots t 10).cast nbuf11_10)

abbrev scM11 : Memref sig .tc .vmem S512x128 .f32 := Memref.whole cc11_scratch0

def ptA11 (c : Dev nD) (t : Fin cfg11.N) (h0 : t.val % 25 = 0) : Vec F S2000x128 .f32 × Vec F S512x128 .f32 × Vec F S512x128 .f32 :=
  outs11_A c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) scM11 (Memref.isWhole_whole _) ((hcond11_0 t).mpr h0) (fun h => absurd ((hcond11_1 t).mp h) (by omega)) (iblk11 V c 0 t) (iblk11 V c 1 t) (iblk11 V c 2 t) (iblk11 V c 3 t) (iblk11 V c 4 t) (iblk11 V c 5 t) (iblk11 V c 6 t) (iblk11 V c 7 t) (iblk11 V c 8 t)

def ptB11 (c : Dev nD) (t : Fin cfg11.N) (h0 : ¬t.val % 25 = 0) (h1 : ¬t.val % 25 = 24) (xs : Vec F S512x128 .f32) : Vec F S2000x128 .f32 × Vec F S512x128 .f32 × Vec F S512x128 .f32 :=
  outs11_B c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) scM11 (Memref.isWhole_whole _) (fun h => h0 ((hcond11_0 t).mp h)) (fun h => h1 ((hcond11_1 t).mp h)) (iblk11 V c 0 t) (iblk11 V c 1 t) (iblk11 V c 2 t) (iblk11 V c 3 t) (iblk11 V c 4 t) (iblk11 V c 5 t) (iblk11 V c 6 t) (iblk11 V c 7 t) (iblk11 V c 8 t) xs

def ptC11 (c : Dev nD) (t : Fin cfg11.N) (h1 : t.val % 25 = 24) (xs : Vec F S512x128 .f32) : Vec F S2000x128 .f32 × Vec F S512x128 .f32 × Vec F S512x128 .f32 :=
  outs11_C c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) scM11 (Memref.isWhole_whole _) (fun h => absurd ((hcond11_0 t).mp h) (by omega)) ((hcond11_1 t).mpr h1) (iblk11 V c 0 t) (iblk11 V c 1 t) (iblk11 V c 2 t) (iblk11 V c 3 t) (iblk11 V c 4 t) (iblk11 V c 5 t) (iblk11 V c 6 t) (iblk11 V c 7 t) (iblk11 V c 8 t) xs

def outsAt11 (c : Dev nD) : (n : ℕ) → n < cfg11.N → Vec F S2000x128 .f32 × Vec F S512x128 .f32 × Vec F S512x128 .f32
  | 0, hn => ptA11 V c ⟨0, hn⟩ (Nat.zero_mod _)
  | n + 1, hn =>
    if h1 : (n + 1) % 25 = 24 then ptC11 V c ⟨n + 1, hn⟩ h1 (outsAt11 c n (Nat.lt_of_succ_lt hn)).2.2
    else ptB11 V c ⟨n + 1, hn⟩ (by have := lt_of_lt_of_eq hn (show cfg11.N = 25 from N_11); show ¬(n + 1) % 25 = 0; omega) h1 (outsAt11 c n (Nat.lt_of_succ_lt hn)).2.2

theorem outsAt11_A (c : Dev nD) (t : Fin cfg11.N) (h0 : t.val % 25 = 0) :
    outsAt11 V c t.val t.isLt = (out11_A_9 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) scM11 (Memref.isWhole_whole _) ((hcond11_0 t).mpr h0) (fun h => absurd ((hcond11_1 t).mp h) (by omega)) (iblk11 V c 0 t) (iblk11 V c 1 t) (iblk11 V c 2 t) (iblk11 V c 3 t) (iblk11 V c 4 t) (iblk11 V c 5 t) (iblk11 V c 6 t) (iblk11 V c 7 t) (iblk11 V c 8 t), sout11_A c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) scM11 (Memref.isWhole_whole _) ((hcond11_0 t).mpr h0) (fun h => absurd ((hcond11_1 t).mp h) (by omega)) (iblk11 V c 0 t) (iblk11 V c 1 t) (iblk11 V c 2 t) (iblk11 V c 3 t) (iblk11 V c 4 t) (iblk11 V c 5 t) (iblk11 V c 6 t) (iblk11 V c 7 t) (iblk11 V c 8 t), sout11_A c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) scM11 (Memref.isWhole_whole _) ((hcond11_0 t).mpr h0) (fun h => absurd ((hcond11_1 t).mp h) (by omega)) (iblk11 V c 0 t) (iblk11 V c 1 t) (iblk11 V c 2 t) (iblk11 V c 3 t) (iblk11 V c 4 t) (iblk11 V c 5 t) (iblk11 V c 6 t) (iblk11 V c 7 t) (iblk11 V c 8 t)) := by
  obtain ⟨n, hn⟩ := t
  cases n with
  | zero => exact rfl
  | succ n => exact (by exfalso; have hN : n + 1 < 25 := lt_of_lt_of_eq hn (show cfg11.N = 25 from N_11); (try dsimp only at h0); omega)

theorem outsAt11_B (c : Dev nD) (t : Fin cfg11.N) (h0 : ¬t.val % 25 = 0) (h1 : ¬t.val % 25 = 24) :
    outsAt11 V c t.val t.isLt = (out11_B_9 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) scM11 (Memref.isWhole_whole _) (fun h => h0 ((hcond11_0 t).mp h)) (fun h => h1 ((hcond11_1 t).mp h)) (iblk11 V c 0 t) (iblk11 V c 1 t) (iblk11 V c 2 t) (iblk11 V c 3 t) (iblk11 V c 4 t) (iblk11 V c 5 t) (iblk11 V c 6 t) (iblk11 V c 7 t) (iblk11 V c 8 t) (outsAt11 V c (t.val - 1) (Nat.lt_of_le_of_lt (Nat.sub_le _ _) t.isLt)).2.2, sout11_B c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) scM11 (Memref.isWhole_whole _) (fun h => h0 ((hcond11_0 t).mp h)) (fun h => h1 ((hcond11_1 t).mp h)) (iblk11 V c 0 t) (iblk11 V c 1 t) (iblk11 V c 2 t) (iblk11 V c 3 t) (iblk11 V c 4 t) (iblk11 V c 5 t) (iblk11 V c 6 t) (iblk11 V c 7 t) (iblk11 V c 8 t) (outsAt11 V c (t.val - 1) (Nat.lt_of_le_of_lt (Nat.sub_le _ _) t.isLt)).2.2, sout11_B c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) scM11 (Memref.isWhole_whole _) (fun h => h0 ((hcond11_0 t).mp h)) (fun h => h1 ((hcond11_1 t).mp h)) (iblk11 V c 0 t) (iblk11 V c 1 t) (iblk11 V c 2 t) (iblk11 V c 3 t) (iblk11 V c 4 t) (iblk11 V c 5 t) (iblk11 V c 6 t) (iblk11 V c 7 t) (iblk11 V c 8 t) (outsAt11 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h1).trans rfl

theorem outsAt11_C (c : Dev nD) (t : Fin cfg11.N) (h1 : t.val % 25 = 24) :
    outsAt11 V c t.val t.isLt = (out11_C_9 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) scM11 (Memref.isWhole_whole _) (fun h => absurd ((hcond11_0 t).mp h) (by omega)) ((hcond11_1 t).mpr h1) (iblk11 V c 0 t) (iblk11 V c 1 t) (iblk11 V c 2 t) (iblk11 V c 3 t) (iblk11 V c 4 t) (iblk11 V c 5 t) (iblk11 V c 6 t) (iblk11 V c 7 t) (iblk11 V c 8 t) (outsAt11 V c (t.val - 1) (Nat.lt_of_le_of_lt (Nat.sub_le _ _) t.isLt)).2.2, out11_C_10 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) scM11 (Memref.isWhole_whole _) (fun h => absurd ((hcond11_0 t).mp h) (by omega)) ((hcond11_1 t).mpr h1) (iblk11 V c 0 t) (iblk11 V c 1 t) (iblk11 V c 2 t) (iblk11 V c 3 t) (iblk11 V c 4 t) (iblk11 V c 5 t) (iblk11 V c 6 t) (iblk11 V c 7 t) (iblk11 V c 8 t) (outsAt11 V c (t.val - 1) (Nat.lt_of_le_of_lt (Nat.sub_le _ _) t.isLt)).2.2, sout11_C c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) scM11 (Memref.isWhole_whole _) (fun h => absurd ((hcond11_0 t).mp h) (by omega)) ((hcond11_1 t).mpr h1) (iblk11 V c 0 t) (iblk11 V c 1 t) (iblk11 V c 2 t) (iblk11 V c 3 t) (iblk11 V c 4 t) (iblk11 V c 5 t) (iblk11 V c 6 t) (iblk11 V c 7 t) (iblk11 V c 8 t) (outsAt11 V c (t.val - 1) (Nat.lt_of_le_of_lt (Nat.sub_le _ _) t.isLt)).2.2) := by
  obtain ⟨n, hn⟩ := t
  cases n with
  | zero => exact (by exfalso; (try dsimp only at h1); omega)
  | succ n => exact (dif_pos h1).trans rfl

def out11_9 (c : Dev nD) (t : Fin cfg11.N) : Vec F S2000x128 .f32 := (outsAt11 V c t.val t.isLt).1

def out11_10 (c : Dev nD) (t : Fin cfg11.N) : Vec F S512x128 .f32 := (outsAt11 V c t.val t.isLt).2.1

def acc11 (c : Dev nD) (t : Fin cfg11.N) : Vec F S512x128 .f32 := (outsAt11 V c t.val t.isLt).2.2

def PhiS11 (c : Dev nD) : (n : ℕ) → n ≤ cfg11.N → sProp 𝕄
  | 0, _ => iprop((∃ r, prngReg c r) ∗ Pipeline.scopedRest (Ix := Unit) (Name := ℕ) (U := UR sig nD τ) (Lvl := ℕ) (Val := Elt F) spec11 c)
  | n + 1, hn => iprop(owns (c : Thread nD τ) scM11 fullShare ((outsAt11 V c n hn).2.2) ∗ Pipeline.scopedRestBut (Ix := Unit) (Name := ℕ) (U := UR sig nD τ) (Lvl := ℕ) (Val := Elt F) spec11 c [cc11_scratch0] ∗ (∃ r, prngReg c r))

theorem PhiS11_zero (c : Dev nD) (n : ℕ) (h : n ≤ cfg11.N) (hz : n = 0) :
    PhiS11 V c n h = iprop((∃ r, prngReg c r) ∗ iprop((∃ d, owns (c : Thread nD τ) scM11 fullShare d)) ∗ Pipeline.scopedRestBut (Ix := Unit) (Name := ℕ) (U := UR sig nD τ) (Lvl := ℕ) (Val := Elt F) spec11 c [cc11_scratch0]) := by
  subst hz
  show iprop((∃ r, prngReg c r) ∗ Pipeline.scopedRest (Ix := Unit) (Name := ℕ) (U := UR sig nD τ) (Lvl := ℕ) (Val := Elt F) spec11 c) = _
  rw [scopedRest11_split]; simp only [scM11, owns_whole]; try rfl

theorem PhiS11_succ (c : Dev nD) (n : ℕ) (hn : n < cfg11.N) :
    PhiS11 V c (n + 1) hn = iprop(owns (c : Thread nD τ) scM11 fullShare ((outsAt11 V c n hn).2.2) ∗ Pipeline.scopedRestBut (Ix := Unit) (Name := ℕ) (U := UR sig nD τ) (Lvl := ℕ) (Val := Elt F) spec11 c [cc11_scratch0] ∗ (∃ r, prngReg c r)) := rfl

theorem PhiS11_pos (c : Dev nD) (n : ℕ) (h : n ≤ cfg11.N) (hz : n ≠ 0) :
    PhiS11 V c n h = iprop(owns (c : Thread nD τ) scM11 fullShare ((outsAt11 V c (n - 1) (by omega)).2.2) ∗ Pipeline.scopedRestBut (Ix := Unit) (Name := ℕ) (U := UR sig nD τ) (Lvl := ℕ) (Val := Elt F) spec11 c [cc11_scratch0] ∗ (∃ r, prngReg c r)) := by
  cases n with
  | zero => exact absurd rfl hz
  | succ n => rfl

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => iblk11 V c 6 t
    | ⟨7, _⟩ => iblk11 V c 7 t
    | ⟨8, _⟩ => iblk11 V c 8 t
    | ⟨9, _⟩ => out11_9 V c t
    | ⟨10, _⟩ => out11_10 V c t
  Φ t := PhiS11 V c t.val (Nat.le_of_lt_succ t.isLt)
  q _ := fullShare
  owed _ := 0

theorem A_eq11 (c : Dev nD) (w : Fin cfg11.W) : (dat11 V c).A w = V c (Pipeline.arrRef spec11 w) := by
  dsimp only [dat11]

theorem PhiS11_castSucc (c : Dev nD) (t : Fin cfg11.N) :
    (dat11 V c).Φ t.castSucc = PhiS11 V c t.val (Nat.le_of_lt t.isLt) := by
  dsimp only [dat11]; simp only [Fin.coe_castSucc]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = iblk11 V c 6 t := by dsimp only [dat11]
theorem after11_7 (c : Dev nD) (t : Fin cfg11.N) : (dat11 V c).after 7 t = iblk11 V c 7 t := by dsimp only [dat11]
theorem after11_8 (c : Dev nD) (t : Fin cfg11.N) : (dat11 V c).after 8 t = iblk11 V c 8 t := by dsimp only [dat11]
theorem after11_9 (c : Dev nD) (t : Fin cfg11.N) : (dat11 V c).after 9 t = out11_9 V c t := by dsimp only [dat11]
theorem after11_10 (c : Dev nD) (t : Fin cfg11.N) : (dat11 V c).after 10 t = out11_10 V c t := by dsimp only [dat11]

theorem before11_0 (c : Dev nD) (t : Fin cfg11.N) (d) : (dat11 V c).before 0 t d = iblk11 V c 0 t :=
  ((dat11 V c).before_in_eq_fetched 0 rfl (fun _ => rfl) (fun _ _ _ => rfl) (fun t => by rw [after11_0]; unfold Dat.blockOf iblk11; rw [A_eq11]; try rfl) t d).trans
    (by unfold Dat.fetched Dat.blockOf iblk11; rw [A_eq11]; try rfl)
theorem before11_1 (c : Dev nD) (t : Fin cfg11.N) (d) : (dat11 V c).before 1 t d = iblk11 V c 1 t :=
  ((dat11 V c).before_in_eq_fetched 1 rfl (fun _ => rfl) (fun _ _ _ => rfl) (fun t => by rw [after11_1]; unfold Dat.blockOf iblk11; rw [A_eq11]; try rfl) t d).trans
    (by unfold Dat.fetched Dat.blockOf iblk11; rw [A_eq11]; try rfl)
theorem before11_2 (c : Dev nD) (t : Fin cfg11.N) (d) : (dat11 V c).before 2 t d = iblk11 V c 2 t :=
  ((dat11 V c).before_in_eq_fetched 2 rfl (fun _ => rfl) (fun _ _ _ => rfl) (fun t => by rw [after11_2]; unfold Dat.blockOf iblk11; rw [A_eq11]; try rfl) t d).trans
    (by unfold Dat.fetched Dat.blockOf iblk11; rw [A_eq11]; try rfl)
theorem before11_3 (c : Dev nD) (t : Fin cfg11.N) (d) : (dat11 V c).before 3 t d = iblk11 V c 3 t :=
  ((dat11 V c).before_in_eq_fetched 3 rfl (fun _ => rfl) (fun _ _ _ => rfl) (fun t => by rw [after11_3]; unfold Dat.blockOf iblk11; rw [A_eq11]; try rfl) t d).trans
    (by unfold Dat.fetched Dat.blockOf iblk11; rw [A_eq11]; try rfl)
theorem before11_4 (c : Dev nD) (t : Fin cfg11.N) (d) : (dat11 V c).before 4 t d = iblk11 V c 4 t :=
  ((dat11 V c).before_in_eq_fetched 4 rfl (fun _ => rfl) (fun _ _ _ => rfl) (fun t => by rw [after11_4]; unfold Dat.blockOf iblk11; rw [A_eq11]; try rfl) t d).trans
    (by unfold Dat.fetched Dat.blockOf iblk11; rw [A_eq11]; try rfl)
theorem before11_5 (c : Dev nD) (t : Fin cfg11.N) (d) : (dat11 V c).before 5 t d = iblk11 V c 5 t :=
  ((dat11 V c).before_in_eq_fetched 5 rfl (fun _ => rfl) (fun _ _ _ => rfl) (fun t => by rw [after11_5]; unfold Dat.blockOf iblk11; rw [A_eq11]; try rfl) t d).trans
    (by unfold Dat.fetched Dat.blockOf iblk11; rw [A_eq11]; try rfl)
theorem before11_6 (c : Dev nD) (t : Fin cfg11.N) (d) : (dat11 V c).before 6 t d = iblk11 V c 6 t :=
  ((dat11 V c).before_in_eq_fetched 6 rfl (fun _ => rfl) (fun _ _ _ => rfl) (fun t => by rw [after11_6]; unfold Dat.blockOf iblk11; rw [A_eq11]; try rfl) t d).trans
    (by unfold Dat.fetched Dat.blockOf iblk11; rw [A_eq11]; try rfl)
theorem before11_7 (c : Dev nD) (t : Fin cfg11.N) (d) : (dat11 V c).before 7 t d = iblk11 V c 7 t :=
  ((dat11 V c).before_in_eq_fetched 7 rfl (fun _ => rfl) (fun _ _ _ => rfl) (fun t => by rw [after11_7]; unfold Dat.blockOf iblk11; rw [A_eq11]; try rfl) t d).trans
    (by unfold Dat.fetched Dat.blockOf iblk11; rw [A_eq11]; try rfl)
theorem before11_8 (c : Dev nD) (t : Fin cfg11.N) (d) : (dat11 V c).before 8 t d = iblk11 V c 8 t :=
  ((dat11 V c).before_in_eq_fetched 8 rfl (fun _ => rfl) (fun _ _ _ => rfl) (fun t => by rw [after11_8]; unfold Dat.blockOf iblk11; rw [A_eq11]; try rfl) t d).trans
    (by unfold Dat.fetched Dat.blockOf iblk11; rw [A_eq11]; try rfl)

def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d))
    ∗ (∃ d, owns (c : Thread nD τ) (ms11_3 t) fullShare ((dat11 V c).before 3 t d))
    ∗ (∃ d, owns (c : Thread nD τ) (ms11_4 t) fullShare ((dat11 V c).before 4 t d))
    ∗ (∃ d, owns (c : Thread nD τ) (ms11_5 t) fullShare ((dat11 V c).before 5 t d))
    ∗ (∃ d, owns (c : Thread nD τ) (ms11_6 t) fullShare ((dat11 V c).before 6 t d))
    ∗ (∃ d, owns (c : Thread nD τ) (ms11_7 t) fullShare ((dat11 V c).before 7 t d))
    ∗ (∃ d, owns (c : Thread nD τ) (ms11_8 t) fullShare ((dat11 V c).before 8 t d))
    ∗ (∃ d, owns (c : Thread nD τ) (ms11_9 t) fullShare ((dat11 V c).before 9 t d))
    ∗ (∃ d, owns (c : Thread nD τ) (ms11_10 t) fullShare ((dat11 V c).before 10 t d)))

def bodyPost11 (c : Dev nD) (t : Fin cfg11.N) : sProp 𝕄 :=
  iprop((dat11 V c).Φ t.succ ∗ (dat11 V c).owesAt () t.succ
    ∗ owns (c : Thread nD τ) (ms11_0 t) fullShare (iblk11 V c 0 t)
    ∗ owns (c : Thread nD τ) (ms11_1 t) fullShare (iblk11 V c 1 t)
    ∗ owns (c : Thread nD τ) (ms11_2 t) fullShare (iblk11 V c 2 t)
    ∗ owns (c : Thread nD τ) (ms11_3 t) fullShare (iblk11 V c 3 t)
    ∗ owns (c : Thread nD τ) (ms11_4 t) fullShare (iblk11 V c 4 t)
    ∗ owns (c : Thread nD τ) (ms11_5 t) fullShare (iblk11 V c 5 t)
    ∗ owns (c : Thread nD τ) (ms11_6 t) fullShare (iblk11 V c 6 t)
    ∗ owns (c : Thread nD τ) (ms11_7 t) fullShare (iblk11 V c 7 t)
    ∗ owns (c : Thread nD τ) (ms11_8 t) fullShare (iblk11 V c 8 t)
    ∗ owns (c : Thread nD τ) (ms11_9 t) fullShare (out11_9 V c t)
    ∗ (dat11 V c).leavesExact 10 t)

set_option maxHeartbeats 8000000 in

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5, before11_6, before11_7, before11_8]
  rw [show (dat11 V c).owesAt () t.succ = (dat11 V c).owesAt () t.castSucc from rfl]
  rw [show (dat11 V c).Φ t.succ = PhiS11 V c (t.val + 1) t.isLt from rfl, PhiS11_succ]
  have hN : t.val < 25 := lt_of_lt_of_eq t.isLt (show cfg11.N = 25 from N_11)
  unfold out11_9
  by_cases h1 : t.val % 25 = 24
  · have hz : t.val ≠ 0 := by omega
    rw [show (dat11 V c).leavesExact 10 t = owns (c : Thread nD τ) (ms11_10 t) fullShare ((dat11 V c).after 10 t) from by
      unfold Dat.leavesExact; rw [liveAt11_10 t ((hcond11_1 t).mpr h1)], after11_10]
    unfold out11_10
    rw [outsAt11_C V c t h1]
    unfold out11_C_9 out11_C_10 sout11_C; (try dsimp only)
    rw [PhiS11_castSucc V c t, PhiS11_pos V c _ _ hz]
    iintro ⟨⟨HS, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun11_C c (grid11.coords t) _ _ _ _ _ _ _ _ _ _ _ _ _ _ _ _ _ _ _ _ _ _ _ _ (fun h => absurd ((hcond11_0 t).mp h) (by omega)) ((hcond11_1 t).mpr h1) (iblk11 V c 0 t) (iblk11 V c 1 t) (iblk11 V c 2 t) (iblk11 V c 3 t) (iblk11 V c 4 t) (iblk11 V c 5 t) (iblk11 V c 6 t) (iblk11 V c 7 t) (iblk11 V c 8 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS]; · iexact HS
    iintro ⟨H0, H1, H2, H3, H4, H5, H6, H7, H8, ⟨%e9, H9⟩, ⟨%e10, H10⟩, ⟨%es, HS⟩⟩
    isplitl [HS Hrest Hg]
    · isplitl [HS]
      · unfold owns; iexists _; isplitr
        swap; · iexact HS
        ipureintro; exact View.read_writes_eq_canon _ _ _ (fun _ => scover11_C ..)
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_eq_canon _ _ _ (fun _ => cover11_C_9 ..)
    unfold owns; iexists _; isplitr
    swap; · iexact H10
    ipureintro; exact View.read_writes_eq_canon _ _ _ (fun _ => cover11_C_10 ..)

  · rw [Dat.leavesExact_idle (dat11 V c) 10 t (idleAt11_10 t (fun h => h1 ((hcond11_1 t).mp h))) (noFlush11_10 t (fun h => h1 ((hcond11_1 t).mp h)))]
    by_cases h0 : t.val % 25 = 0
    · have hz : t.val = 0 := by omega
      rw [outsAt11_A V c t h0]
      unfold out11_A_9 sout11_A; (try dsimp only)
      rw [PhiS11_castSucc V c t, PhiS11_zero V c _ _ hz]
      iintro ⟨⟨Hg, HS, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun11_A c (grid11.coords t) _ _ _ _ _ _ _ _ _ _ _ _ _ _ _ _ _ _ _ _ _ _ _ _ ((hcond11_0 t).mpr h0) (fun h => absurd ((hcond11_1 t).mp h) (by omega)) (iblk11 V c 0 t) (iblk11 V c 1 t) (iblk11 V c 2 t) (iblk11 V c 3 t) (iblk11 V c 4 t) (iblk11 V c 5 t) (iblk11 V c 6 t) (iblk11 V c 7 t) (iblk11 V c 8 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HS]; · iexact HS
      iintro ⟨H0, H1, H2, H3, H4, H5, H6, H7, H8, ⟨%e9, H9⟩, H10, ⟨%es, HS⟩⟩
      isplitl [HS Hrest Hg]
      · isplitl [HS]
        · unfold owns; iexists _; isplitr
          swap; · iexact HS
          ipureintro; exact View.read_writes_eq_canon _ _ _ (fun _ => scover11_A ..)
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_eq_canon _ _ _ (fun _ => cover11_A_9 ..)
      iexists _; iexact H10

    · have hz : t.val ≠ 0 := by omega
      rw [outsAt11_B V c t h0 h1]
      unfold out11_B_9 sout11_B; (try dsimp only)
      rw [PhiS11_castSucc V c t, PhiS11_pos V c _ _ hz]
      iintro ⟨⟨HS, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun11_B c (grid11.coords t) _ _ _ _ _ _ _ _ _ _ _ _ _ _ _ _ _ _ _ _ _ _ _ _ (fun h => h0 ((hcond11_0 t).mp h)) (fun h => h1 ((hcond11_1 t).mp h)) (iblk11 V c 0 t) (iblk11 V c 1 t) (iblk11 V c 2 t) (iblk11 V c 3 t) (iblk11 V c 4 t) (iblk11 V c 5 t) (iblk11 V c 6 t) (iblk11 V c 7 t) (iblk11 V c 8 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HS]; · iexact HS
      iintro ⟨H0, H1, H2, H3, H4, H5, H6, H7, H8, ⟨%e9, H9⟩, H10, ⟨%es, HS⟩⟩
      isplitl [HS Hrest Hg]
      · isplitl [HS]
        · unfold owns; iexists _; isplitr
          swap; · iexact HS
          ipureintro; exact View.read_writes_eq_canon _ _ _ (fun _ => scover11_B ..)
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_eq_canon _ _ _ (fun _ => cover11_B_9 ..)
      iexists _; iexact H10

theorem body_obligation11 (c : Dev nD) : BodyObligation (dat11 (F := F) V c) (defs₀ (F := F)) Variants.none () Set.univ := fun t => by
  rw [bigSep_W11, bigSep_W11]
  exact sound_body11 V c t

theorem Phi_in11 (c : Dev nD) :
    (iprop((∃ r, prngReg c r) ∗ Pipeline.scopedRest (Ix := Unit) (Name := ℕ) (U := UR sig nD τ) (Lvl := ℕ) (Val := Elt F) spec11 c) : sProp 𝕄) ⊢ (dat11 V c).Φ 0 := by
  rw [show (dat11 V c).Φ 0 = PhiS11 V c 0 (Nat.zero_le _) from rfl]
  exact Idealize.SL.BI.Entails.refl _

theorem Phi_out11 (c : Dev nD) :
    (dat11 V c).Φ (Fin.last cfg11.N) ⊢ (iprop((∃ r, prngReg c r) ∗ Pipeline.scopedRest (Ix := Unit) (Name := ℕ) (U := UR sig nD τ) (Lvl := ℕ) (Val := Elt F) spec11 c) : sProp 𝕄) := by
  rw [show (dat11 V c).Φ (Fin.last cfg11.N) = PhiS11 V c (Fin.last cfg11.N).val (Nat.le_of_lt_succ (Fin.last cfg11.N).isLt) from rfl,
    PhiS11_pos V c _ _ (by rw [Fin.val_last]; have : cfg11.N = 25 := N_11; omega), scopedRest11_split]
  simp only [scM11, owns_whole]
  iintro ⟨HS, Hrest, Hg⟩
  isplitl [Hg]; · iexact Hg
  isplitl [HS]; · iexists _; iexact HS
  iexact Hrest

end Cert.KernelIdeal.Hand

end
-- ==== Proof.KI.Reg12.lean ====
import proofs.«400674_j14499809591724_2_alg».proof.Proof.Gen.KernelIdeal.Launch
import proofs.«400674_j14499809591724_2_alg».proof.Proof.Gen.KernelIdeal.Skeleton
import proofs.«400674_j14499809591724_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)
theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)
theorem before12_6_of {c : Dev nD} (dat : Dat τ (Elt F) Unit ℕ (UR sig nD τ) ℕ cfg12 c) (hA : dat.A 6 = V c (Pipeline.arrRef spec12 6))
    (hafter : ∀ t, dat.after 6 t = iblk12 V c 6 t) (t : Fin cfg12.N) (d) : dat.before 6 t d = iblk12 V c 6 t :=
  (dat.before_in_eq_fetched 6 rfl (fun _ => rfl) (fun _ _ _ => rfl) (fun t => by rw [hafter]; unfold Dat.blockOf iblk12; rw [hA]; try rfl) t d).trans
    (by unfold Dat.fetched Dat.blockOf iblk12; rw [hA]; try rfl)
theorem before12_7_of {c : Dev nD} (dat : Dat τ (Elt F) Unit ℕ (UR sig nD τ) ℕ cfg12 c) (hA : dat.A 7 = V c (Pipeline.arrRef spec12 7))
    (hafter : ∀ t, dat.after 7 t = iblk12 V c 7 t) (t : Fin cfg12.N) (d) : dat.before 7 t d = iblk12 V c 7 t :=
  (dat.before_in_eq_fetched 7 rfl (fun _ => rfl) (fun _ _ _ => rfl) (fun t => by rw [hafter]; unfold Dat.blockOf iblk12; rw [hA]; try rfl) t d).trans
    (by unfold Dat.fetched Dat.blockOf iblk12; rw [hA]; try rfl)
theorem before12_8_of {c : Dev nD} (dat : Dat τ (Elt F) Unit ℕ (UR sig nD τ) ℕ cfg12 c) (hA : dat.A 8 = V c (Pipeline.arrRef spec12 8))
    (hafter : ∀ t, dat.after 8 t = iblk12 V c 8 t) (t : Fin cfg12.N) (d) : dat.before 8 t d = iblk12 V c 8 t :=
  (dat.before_in_eq_fetched 8 rfl (fun _ => rfl) (fun _ _ _ => rfl) (fun t => by rw [hafter]; unfold Dat.blockOf iblk12; rw [hA]; try rfl) t d).trans
    (by unfold Dat.fetched Dat.blockOf iblk12; rw [hA]; try rfl)

abbrev r12_0 : Rect S512x384 := Rect.unit (s := S512x384) ![0, 0] S512x384.size inb_S512x384_S512x384_0_0
abbrev r12_1 : Rect S1x384 := Rect.unit (s := S1x384) ![0, 0] S1x384.size inb_S1x384_S1x384_0_0
abbrev r12_5 : Rect S384x128 := Rect.unit (s := S384x128) ![0, 0] S384x128.size inb_S384x128_S384x128_0_0
abbrev r12_6 : Rect S1x128 := Rect.unit (s := S1x128) ![0, 0] S1x128.size inb_S1x128_S1x128_0_0
abbrev r12_7 : Rect S128x10 := Rect.unit (s := S128x10) ![0, 0] S128x10.size inb_S128x10_S128x10_0_0
abbrev r12_8 : Rect S1x10 := Rect.unit (s := S1x10) ![0, 0] S1x10.size inb_S1x10_S1x10_0_0
abbrev r12_9 : Rect S512x10 := Rect.unit (s := S512x10) ![0, 0] S512x10.size inb_S512x10_S512x10_0_0

def out12_9 (x0 : Vec F S512x384 .f32) (x1 x2 x3 x4 : Vec F S1x384 .f32) (x5 : Vec F S384x128 .f32) (x6 : Vec F S1x128 .f32)
    (x7 : Vec F S128x10 .f32) (x8 : Vec F S1x10 .f32) : Vec F S512x10 .f32 :=
  View.canon [⟨r12_9, k12_pay1 (k12_pay2 (View.ld x0 r12_0) (View.ld x3 r12_1) (View.ld x4 r12_1) (View.ld x1 r12_1) (View.ld x2 r12_1)
    (View.ld x5 r12_5) (View.ld x6 r12_6) (View.ld x7 r12_7)) (k12_pay3 (View.ld x8 r12_8))⟩]

theorem cover12_9 (p0 : Vec F S512x10 .f32) (y : S512x10.Idx) :
    ∃ pc ∈ ([⟨r12_9, p0⟩] : List (View.Piece (Elt F) S512x10 .f32)), y ∈ pc.1.set :=
  View.cover_of_tiled [⟨r12_9, p0⟩] S512x10.size (by rfl) y

set_option maxHeartbeats 1000000 in

theorem sound_kernel12 (c : Dev nD) (E : Set ℕ) (i : grid12.Coords)
    (arg1 : Memref sig .tc .vmem S512x384 .f32) (harg1 : arg1.IsWhole) (arg2 : Memref sig .tc .vmem S1x384 .f32) (harg2 : arg2.IsWhole)
    (arg3 : Memref sig .tc .vmem S1x384 .f32) (harg3 : arg3.IsWhole) (arg4 : Memref sig .tc .vmem S1x384 .f32) (harg4 : arg4.IsWhole)
    (arg5 : Memref sig .tc .vmem S1x384 .f32) (harg5 : arg5.IsWhole) (arg6 : Memref sig .tc .vmem S384x128 .f32) (harg6 : arg6.IsWhole)
    (arg7 : Memref sig .tc .vmem S1x128 .f32) (harg7 : arg7.IsWhole) (arg8 : Memref sig .tc .vmem S128x10 .f32) (harg8 : arg8.IsWhole)
    (arg9 : Memref sig .tc .vmem S1x10 .f32) (harg9 : arg9.IsWhole) (arg10 : Memref sig .tc .vmem S512x10 .f32) (harg10 : arg10.IsWhole)
    (x0 : Vec F S512x384 .f32) (x1 x2 x3 x4 : Vec F S1x384 .f32) (x5 : Vec F S384x128 .f32) (x6 : Vec F S1x128 .f32)
    (x7 : Vec F S128x10 .f32) (x8 : Vec F S1x10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out12_9 x0 x1 x2 x3 x4 x5 x6 x7 x8)) -∗ K ⟨⟩))
      ⊢ wp frame (wpE (defs₀ (F := F)) Variants.none c none) E
          (cc12__head_kernel i arg1 harg1 arg2 harg2 arg3 harg3 arg4 harg4 arg5 harg5 arg6 harg6 arg7 harg7 arg8 harg8 arg9 harg9 arg10 harg10) K := by
  simp only [cc12__head_kernel_eq_skeleton]; unfold cc12__head_kernel_skel
  simp only [k12_part1_eq_skeleton]; unfold k12_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover12_9 _)

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => iblk12 V c 7 t
    | ⟨8, _⟩ => iblk12 V c 8 t
    | ⟨9, _⟩ => out12_9 (iblk12 V c 0 t) (iblk12 V c 1 t) (iblk12 V c 2 t) (iblk12 V c 3 t) (iblk12 V c 4 t) (iblk12 V c 5 t)
        (iblk12 V c 6 t) (iblk12 V c 7 t) (iblk12 V c 8 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = iblk12 V c 7 t := by dsimp only [dat12]
theorem after12_8 (c : Dev nD) (t : Fin cfg12.N) : (dat12 V c).after 8 t = iblk12 V c 8 t := by dsimp only [dat12]
theorem after12_9 (c : Dev nD) (t : Fin cfg12.N) : (dat12 V c).after 9 t =
    out12_9 (iblk12 V c 0 t) (iblk12 V c 1 t) (iblk12 V c 2 t) (iblk12 V c 3 t) (iblk12 V c 4 t) (iblk12 V c 5 t)
      (iblk12 V c 6 t) (iblk12 V c 7 t) (iblk12 V c 8 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d
theorem before12_6 (c : Dev nD) (t : Fin cfg12.N) (d) : (dat12 V c).before 6 t d = iblk12 V c 6 t :=
  before12_6_of V (dat12 V c) (A_eq12 V c 6) (after12_6 V c) t d
theorem before12_7 (c : Dev nD) (t : Fin cfg12.N) (d) : (dat12 V c).before 7 t d = iblk12 V c 7 t :=
  before12_7_of V (dat12 V c) (A_eq12 V c 7) (after12_7 V c) t d
theorem before12_8 (c : Dev nD) (t : Fin cfg12.N) (d) : (dat12 V c).before 8 t d = iblk12 V c 8 t :=
  before12_8_of V (dat12 V c) (A_eq12 V c 8) (after12_8 V c) t d

def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d))
    ∗ (∃ d, owns (c : Thread nD τ) (st12_8 t) fullShare ((dat12 V c).before 8 t d))
    ∗ (∃ d, owns (c : Thread nD τ) (st12_9 t) fullShare ((dat12 V c).before 9 t d)))

def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t)
    ∗ owns (c : Thread nD τ) (st12_8 t) fullShare ((dat12 V c).after 8 t)
    ∗ owns (c : Thread nD τ) (st12_9 t) fullShare ((dat12 V c).after 9 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6, before12_7, before12_8]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7, after12_8, after12_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel12 c Set.univ _ _ _ _ _ _ _ _ _ _ _ _ _ _ _ _ _ _ _ _ _
    (iblk12 V c 0 t) (iblk12 V c 1 t) (iblk12 V c 2 t) (iblk12 V c 3 t) (iblk12 V c 4 t) (iblk12 V c 5 t)
    (iblk12 V c 6 t) (iblk12 V c 7 t) (iblk12 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation12 (c : Dev nD) : BodyObligation (dat12 (F := F) V c) (defs₀ (F := F)) Variants.none () Set.univ := fun t => by
  rw [bigSep_W12, bigSep_W12]
  exact sound_body12 V c t

end Cert.KernelIdeal.Hand

end
-- ==== Proof.KI.Run.lean ====
import proofs.«400674_j14499809591724_2_alg».proof.Proof.Gen.KernelIdeal.Launch
import proofs.«400674_j14499809591724_2_alg».proof.Proof.Gen.KernelIdeal.Skeleton
import proofs.«400674_j14499809591724_2_alg».proof.Proof.Gen.KernelIdeal.Points
import proofs.«400674_j14499809591724_2_alg».proof.Proof.Gen.KernelIdeal.Regions
import proofs.«400674_j14499809591724_2_alg».proof.Proof.KI.Reg0
import proofs.«400674_j14499809591724_2_alg».proof.Proof.KI.Reg1
import proofs.«400674_j14499809591724_2_alg».proof.Proof.KI.Reg2
import proofs.«400674_j14499809591724_2_alg».proof.Proof.KI.Reg3
import proofs.«400674_j14499809591724_2_alg».proof.Proof.KI.Reg4
import proofs.«400674_j14499809591724_2_alg».proof.Proof.KI.Reg5
import proofs.«400674_j14499809591724_2_alg».proof.Proof.KI.Reg6
import proofs.«400674_j14499809591724_2_alg».proof.Proof.KI.Reg7
import proofs.«400674_j14499809591724_2_alg».proof.Proof.KI.Reg8
import proofs.«400674_j14499809591724_2_alg».proof.Proof.KI.Reg9
import proofs.«400674_j14499809591724_2_alg».proof.Proof.KI.Reg10
import proofs.«400674_j14499809591724_2_alg».proof.Proof.KI.Reg11
import proofs.«400674_j14499809591724_2_alg».proof.Proof.KI.Reg12
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev TcVal := (c : Dev nD) → (b : Ref sig .tc) → Buf (Elt F) ((c : Thread nD τ).loc b)

abbrev rd (V : Dev nD → Valuation τ sig (Elt F)) : TcVal (F := F) := fun c b => V c b

def W3 : Dev nD → Valuation τ sig (Elt F) := V3 m
def W4 (c : Dev nD) : Valuation τ sig (Elt F) := Function.update (W3 m c) main_v57 ((dat0 (rd (W3 m)) c).arrAt 2 cfg0.N)
def W5 (c : Dev nD) : Valuation τ sig (Elt F) := StableHlo.after hostOps1 (W4 m c)
def W6 (c : Dev nD) : Valuation τ sig (Elt F) := Function.update (W5 m c) main_v74 ((dat1 (rd (W5 m)) c).arrAt 4 cfg1.N)
def W7 (c : Dev nD) : Valuation τ sig (Elt F) := Function.update (W6 m c) main_v75 ((dat2 (rd (W6 m)) c).arrAt 2 cfg2.N)
def W8 (c : Dev nD) : Valuation τ sig (Elt F) := StableHlo.after hostOps3 (W7 m c)
def W9 (c : Dev nD) : Valuation τ sig (Elt F) :=
  Function.update (Function.update (W8 m c) main_v100_0 ((dat3 (rd (W8 m)) c).arrAt 9 cfg3.N)) main_v100_1 ((dat3 (rd (W8 m)) c).arrAt 10 cfg3.N)
def W10 (c : Dev nD) : Valuation τ sig (Elt F) := StableHlo.after hostOps4 (W9 m c)
def W11 (c : Dev nD) : Valuation τ sig (Elt F) := Function.update (W10 m c) main_v109 ((dat4 (rd (W10 m)) c).arrAt 2 cfg4.N)
def W12 (c : Dev nD) : Valuation τ sig (Elt F) := StableHlo.after hostOps5 (W11 m c)
def W13 (c : Dev nD) : Valuation τ sig (Elt F) := Function.update (W12 m c) main_v126 ((dat5 (rd (W12 m)) c).arrAt 4 cfg5.N)
def W14 (c : Dev nD) : Valuation τ sig (Elt F) := Function.update (W13 m c) main_v127 ((dat6 (rd (W13 m)) c).arrAt 2 cfg6.N)
def W15 (c : Dev nD) : Valuation τ sig (Elt F) := StableHlo.after hostOps7 (W14 m c)
def W16 (c : Dev nD) : Valuation τ sig (Elt F) :=
  Function.update (Function.update (W15 m c) main_v152_0 ((dat7 (rd (W15 m)) c).arrAt 9 cfg7.N)) main_v152_1 ((dat7 (rd (W15 m)) c).arrAt 10 cfg7.N)
def W17 (c : Dev nD) : Valuation τ sig (Elt F) := StableHlo.after hostOps8 (W16 m c)
def W18 (c : Dev nD) : Valuation τ sig (Elt F) := Function.update (W17 m c) main_v161 ((dat8 (rd (W17 m)) c).arrAt 2 cfg8.N)
def W19 (c : Dev nD) : Valuation τ sig (Elt F) := StableHlo.after hostOps9 (W18 m c)
def W20 (c : Dev nD) : Valuation τ sig (Elt F) := Function.update (W19 m c) main_v178 ((dat9 (rd (W19 m)) c).arrAt 4 cfg9.N)
def W21 (c : Dev nD) : Valuation τ sig (Elt F) := Function.update (W20 m c) main_v179 ((dat10 (rd (W20 m)) c).arrAt 2 cfg10.N)
def W22 (c : Dev nD) : Valuation τ sig (Elt F) := StableHlo.after hostOps11 (W21 m c)
def W23 (c : Dev nD) : Valuation τ sig (Elt F) :=
  Function.update (Function.update (W22 m c) main_v204_0 ((dat11 (rd (W22 m)) c).arrAt 9 cfg11.N)) main_v204_1 ((dat11 (rd (W22 m)) c).arrAt 10 cfg11.N)
def W24 (c : Dev nD) : Valuation τ sig (Elt F) := StableHlo.after hostOps12 (W23 m c)
def W25 (c : Dev nD) : Valuation τ sig (Elt F) := Function.update (W24 m c) main_v212 ((dat12 (rd (W24 m)) c).arrAt 9 cfg12.N)

def outsR : Outs (F := F) := fun j r c =>
  if j = 4 then W4 m c r else
  if j = 6 then W6 m c r else
  if j = 7 then W7 m c r else
  if j = 9 then W9 m c r else
  if j = 11 then W11 m c r else
  if j = 13 then W13 m c r else
  if j = 14 then W14 m c r else
  if j = 16 then W16 m c r else
  if j = 18 then W18 m c r else
  if j = 20 then W20 m c r else
  if j = 21 then W21 m c r else
  if j = 23 then W23 m c r else
  if j = 25 then W25 m c r else
  W3 m c r

theorem outsR_at4 (r : Ref sig .tc) (c : Dev nD) : outsR m 4 r c = W4 m c r := rfl
theorem outsR_at6 (r : Ref sig .tc) (c : Dev nD) : outsR m 6 r c = W6 m c r := rfl
theorem outsR_at7 (r : Ref sig .tc) (c : Dev nD) : outsR m 7 r c = W7 m c r := rfl
theorem outsR_at9 (r : Ref sig .tc) (c : Dev nD) : outsR m 9 r c = W9 m c r := rfl
theorem outsR_at11 (r : Ref sig .tc) (c : Dev nD) : outsR m 11 r c = W11 m c r := rfl
theorem outsR_at13 (r : Ref sig .tc) (c : Dev nD) : outsR m 13 r c = W13 m c r := rfl
theorem outsR_at14 (r : Ref sig .tc) (c : Dev nD) : outsR m 14 r c = W14 m c r := rfl
theorem outsR_at16 (r : Ref sig .tc) (c : Dev nD) : outsR m 16 r c = W16 m c r := rfl
theorem outsR_at18 (r : Ref sig .tc) (c : Dev nD) : outsR m 18 r c = W18 m c r := rfl
theorem outsR_at20 (r : Ref sig .tc) (c : Dev nD) : outsR m 20 r c = W20 m c r := rfl
theorem outsR_at21 (r : Ref sig .tc) (c : Dev nD) : outsR m 21 r c = W21 m c r := rfl
theorem outsR_at23 (r : Ref sig .tc) (c : Dev nD) : outsR m 23 r c = W23 m c r := rfl
theorem outsR_at25 (r : Ref sig .tc) (c : Dev nD) : outsR m 25 r c = W25 m c r := rfl

-- Overwriting a buffer with what the overwritten valuation already holds there changes nothing.
theorem upd_fix {V V' : Valuation τ sig (Elt F)} (h : V = V') (r : DevRef τ sig) (x : _) :
    Function.update V r (Function.update V' r x r) = Function.update V' r x := by
  rw [h, Function.update_self]
theorem upd_fix₂ {V V' : Valuation τ sig (Elt F)} (h : V = V') {r s : DevRef τ sig} (hne : r ≠ s) (x : _) (y : _) :
    Function.update (Function.update V r (Function.update (Function.update V' r x) s y r)) s (Function.update (Function.update V' r x) s y s)
      = Function.update (Function.update V' r x) s y := by
  rw [h, Function.update_self, Function.update_of_ne hne, Function.update_self]

theorem VW3 : V3 m = W3 m := rfl
theorem VW4 : V4 m (outsR m) = W4 m := funext fun c => by
  show Function.update (V3 m c) main_v57 (outsR m 4 main_v57 c) = _
  rw [outsR_at4]; exact upd_fix (congrFun (VW3 m) c) ..
theorem VW5 : V5 m (outsR m) = W5 m := funext fun c => congrArg (StableHlo.after hostOps1) (congrFun (VW4 m) c)
theorem VW6 : V6 m (outsR m) = W6 m := funext fun c => by
  show Function.update (V5 m (outsR m) c) main_v74 (outsR m 6 main_v74 c) = _
  rw [outsR_at6]; exact upd_fix (congrFun (VW5 m) c) ..
theorem VW7 : V7 m (outsR m) = W7 m := funext fun c => by
  show Function.update (V6 m (outsR m) c) main_v75 (outsR m 7 main_v75 c) = _
  rw [outsR_at7]; exact upd_fix (congrFun (VW6 m) c) ..
theorem VW8 : V8 m (outsR m) = W8 m := funext fun c => congrArg (StableHlo.after hostOps3) (congrFun (VW7 m) c)
theorem VW9 : V9 m (outsR m) = W9 m := funext fun c => by
  show Function.update (Function.update (V8 m (outsR m) c) main_v100_0 (outsR m 9 main_v100_0 c)) main_v100_1 (outsR m 9 main_v100_1 c) = _
  rw [outsR_at9, outsR_at9]; exact upd_fix₂ (congrFun (VW8 m) c) (StableHlo.devRef_ne_of_ne (by decide : main_v100_0 ≠ main_v100_1)) ..
theorem VW10 : V10 m (outsR m) = W10 m := funext fun c => congrArg (StableHlo.after hostOps4) (congrFun (VW9 m) c)
theorem VW11 : V11 m (outsR m) = W11 m := funext fun c => by
  show Function.update (V10 m (outsR m) c) main_v109 (outsR m 11 main_v109 c) = _
  rw [outsR_at11]; exact upd_fix (congrFun (VW10 m) c) ..
theorem VW12 : V12 m (outsR m) = W12 m := funext fun c => congrArg (StableHlo.after hostOps5) (congrFun (VW11 m) c)
theorem VW13 : V13 m (outsR m) = W13 m := funext fun c => by
  show Function.update (V12 m (outsR m) c) main_v126 (outsR m 13 main_v126 c) = _
  rw [outsR_at13]; exact upd_fix (congrFun (VW12 m) c) ..
theorem VW14 : V14 m (outsR m) = W14 m := funext fun c => by
  show Function.update (V13 m (outsR m) c) main_v127 (outsR m 14 main_v127 c) = _
  rw [outsR_at14]; exact upd_fix (congrFun (VW13 m) c) ..
theorem VW15 : V15 m (outsR m) = W15 m := funext fun c => congrArg (StableHlo.after hostOps7) (congrFun (VW14 m) c)
theorem VW16 : V16 m (outsR m) = W16 m := funext fun c => by
  show Function.update (Function.update (V15 m (outsR m) c) main_v152_0 (outsR m 16 main_v152_0 c)) main_v152_1 (outsR m 16 main_v152_1 c) = _
  rw [outsR_at16, outsR_at16]; exact upd_fix₂ (congrFun (VW15 m) c) (StableHlo.devRef_ne_of_ne (by decide : main_v152_0 ≠ main_v152_1)) ..
theorem VW17 : V17 m (outsR m) = W17 m := funext fun c => congrArg (StableHlo.after hostOps8) (congrFun (VW16 m) c)
theorem VW18 : V18 m (outsR m) = W18 m := funext fun c => by
  show Function.update (V17 m (outsR m) c) main_v161 (outsR m 18 main_v161 c) = _
  rw [outsR_at18]; exact upd_fix (congrFun (VW17 m) c) ..
theorem VW19 : V19 m (outsR m) = W19 m := funext fun c => congrArg (StableHlo.after hostOps9) (congrFun (VW18 m) c)
theorem VW20 : V20 m (outsR m) = W20 m := funext fun c => by
  show Function.update (V19 m (outsR m) c) main_v178 (outsR m 20 main_v178 c) = _
  rw [outsR_at20]; exact upd_fix (congrFun (VW19 m) c) ..
theorem VW21 : V21 m (outsR m) = W21 m := funext fun c => by
  show Function.update (V20 m (outsR m) c) main_v179 (outsR m 21 main_v179 c) = _
  rw [outsR_at21]; exact upd_fix (congrFun (VW20 m) c) ..
theorem VW22 : V22 m (outsR m) = W22 m := funext fun c => congrArg (StableHlo.after hostOps11) (congrFun (VW21 m) c)
theorem VW23 : V23 m (outsR m) = W23 m := funext fun c => by
  show Function.update (Function.update (V22 m (outsR m) c) main_v204_0 (outsR m 23 main_v204_0 c)) main_v204_1 (outsR m 23 main_v204_1 c) = _
  rw [outsR_at23, outsR_at23]; exact upd_fix₂ (congrFun (VW22 m) c) (StableHlo.devRef_ne_of_ne (by decide : main_v204_0 ≠ main_v204_1)) ..
theorem VW24 : V24 m (outsR m) = W24 m := funext fun c => congrArg (StableHlo.after hostOps12) (congrFun (VW23 m) c)
theorem VW25 : V25 m (outsR m) = W25 m := funext fun c => by
  show Function.update (V24 m (outsR m) c) main_v212 (outsR m 25 main_v212 c) = _
  rw [outsR_at25]; exact upd_fix (congrFun (VW24 m) c) ..

theorem outsR_4_main_v57 (c : Dev nD) : outsR m 4 main_v57 c = (dat0 (fun c b => V3 m c b) c).arrAt 2 cfg0.N := by
  rw [VW3, outsR_at4]; exact Function.update_self ..
theorem outsR_6_main_v74 (c : Dev nD) : outsR m 6 main_v74 c = (dat1 (fun c b => V5 m (outsR m) c b) c).arrAt 4 cfg1.N := by
  rw [VW5, outsR_at6]; exact Function.update_self ..
theorem outsR_7_main_v75 (c : Dev nD) : outsR m 7 main_v75 c = (dat2 (fun c b => V6 m (outsR m) c b) c).arrAt 2 cfg2.N := by
  rw [VW6, outsR_at7]; exact Function.update_self ..
theorem outsR_9_main_v100_0 (c : Dev nD) : outsR m 9 main_v100_0 c = (dat3 (fun c b => V8 m (outsR m) c b) c).arrAt 9 cfg3.N := by
  rw [VW8, outsR_at9]; exact (Function.update_of_ne (StableHlo.devRef_ne_of_ne (by decide)) ..).trans (Function.update_self ..)
theorem outsR_9_main_v100_1 (c : Dev nD) : outsR m 9 main_v100_1 c = (dat3 (fun c b => V8 m (outsR m) c b) c).arrAt 10 cfg3.N := by
  rw [VW8, outsR_at9]; exact Function.update_self ..
theorem outsR_11_main_v109 (c : Dev nD) : outsR m 11 main_v109 c = (dat4 (fun c b => V10 m (outsR m) c b) c).arrAt 2 cfg4.N := by
  rw [VW10, outsR_at11]; exact Function.update_self ..
theorem outsR_13_main_v126 (c : Dev nD) : outsR m 13 main_v126 c = (dat5 (fun c b => V12 m (outsR m) c b) c).arrAt 4 cfg5.N := by
  rw [VW12, outsR_at13]; exact Function.update_self ..
theorem outsR_14_main_v127 (c : Dev nD) : outsR m 14 main_v127 c = (dat6 (fun c b => V13 m (outsR m) c b) c).arrAt 2 cfg6.N := by
  rw [VW13, outsR_at14]; exact Function.update_self ..
theorem outsR_16_main_v152_0 (c : Dev nD) : outsR m 16 main_v152_0 c = (dat7 (fun c b => V15 m (outsR m) c b) c).arrAt 9 cfg7.N := by
  rw [VW15, outsR_at16]; exact (Function.update_of_ne (StableHlo.devRef_ne_of_ne (by decide)) ..).trans (Function.update_self ..)
theorem outsR_16_main_v152_1 (c : Dev nD) : outsR m 16 main_v152_1 c = (dat7 (fun c b => V15 m (outsR m) c b) c).arrAt 10 cfg7.N := by
  rw [VW15, outsR_at16]; exact Function.update_self ..
theorem outsR_18_main_v161 (c : Dev nD) : outsR m 18 main_v161 c = (dat8 (fun c b => V17 m (outsR m) c b) c).arrAt 2 cfg8.N := by
  rw [VW17, outsR_at18]; exact Function.update_self ..
theorem outsR_20_main_v178 (c : Dev nD) : outsR m 20 main_v178 c = (dat9 (fun c b => V19 m (outsR m) c b) c).arrAt 4 cfg9.N := by
  rw [VW19, outsR_at20]; exact Function.update_self ..
theorem outsR_21_main_v179 (c : Dev nD) : outsR m 21 main_v179 c = (dat10 (fun c b => V20 m (outsR m) c b) c).arrAt 2 cfg10.N := by
  rw [VW20, outsR_at21]; exact Function.update_self ..
theorem outsR_23_main_v204_0 (c : Dev nD) : outsR m 23 main_v204_0 c = (dat11 (fun c b => V22 m (outsR m) c b) c).arrAt 9 cfg11.N := by
  rw [VW22, outsR_at23]; exact (Function.update_of_ne (StableHlo.devRef_ne_of_ne (by decide)) ..).trans (Function.update_self ..)
theorem outsR_23_main_v204_1 (c : Dev nD) : outsR m 23 main_v204_1 c = (dat11 (fun c b => V22 m (outsR m) c b) c).arrAt 10 cfg11.N := by
  rw [VW22, outsR_at23]; exact Function.update_self ..
theorem outsR_25_main_v212 (c : Dev nD) : outsR m 25 main_v212 c = (dat12 (fun c b => V24 m (outsR m) c b) c).arrAt 9 cfg12.N := by
  rw [VW24, outsR_at25]; exact Function.update_self ..

def pdats : (p : Fin 13) → (c : Dev nD) → Dat τ (Elt F) Unit ℕ (UR sig nD τ) ℕ (cfgs p) c
  | ⟨0, _⟩ => dat0 (rd (V3 m))
  | ⟨1, _⟩ => dat1 (rd (V5 m (outsR m)))
  | ⟨2, _⟩ => dat2 (rd (V6 m (outsR m)))
  | ⟨3, _⟩ => dat3 (rd (V8 m (outsR m)))
  | ⟨4, _⟩ => dat4 (rd (V10 m (outsR m)))
  | ⟨5, _⟩ => dat5 (rd (V12 m (outsR m)))
  | ⟨6, _⟩ => dat6 (rd (V13 m (outsR m)))
  | ⟨7, _⟩ => dat7 (rd (V15 m (outsR m)))
  | ⟨8, _⟩ => dat8 (rd (V17 m (outsR m)))
  | ⟨9, _⟩ => dat9 (rd (V19 m (outsR m)))
  | ⟨10, _⟩ => dat10 (rd (V20 m (outsR m)))
  | ⟨11, _⟩ => dat11 (rd (V22 m (outsR m)))
  | ⟨12, _⟩ => dat12 (rd (V24 m (outsR m)))
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev E : Fin 14 → Dev nD → sProp 𝕄 := fun _ c => R (F := F) c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem ΦA_in {gr W : Nat} (win : Fin W → Pipeline.WinSpec sig gr) (c : Dev nD) :
    (iprop((∃ r, prngReg c r) ∗ Pipeline.scopedRest (Ix := Unit) (Name := ℕ) (U := UR sig nD τ) (Lvl := ℕ) (Val := Elt F) win c) : sProp 𝕄) ⊢ Pipeline.ΦA win c := by
  unfold Pipeline.ΦA; iintro ⟨Hp, Hr⟩; isplitl [Hr] <;> iassumption
theorem ΦA_out {gr W : Nat} (win : Fin W → Pipeline.WinSpec sig gr) (c : Dev nD) :
    (Pipeline.ΦA win c : sProp 𝕄) ⊢ iprop((∃ r, prngReg c r) ∗ Pipeline.scopedRest (Ix := Unit) (Name := ℕ) (U := UR sig nD τ) (Lvl := ℕ) (Val := Elt F) win c) := by
  unfold Pipeline.ΦA; iintro ⟨Hr, Hp⟩; isplitl [Hp] <;> iassumption

set_option backward.isDefEq.respectTransparency.types false in
def regOf (p : Fin 13) (lf : Pipeline.LaunchFacts (nD := nD) (τ := τ) cfgs p) (Vi Vo : Dev nD → Valuation τ sig (Elt F))
    (hbody : ∀ c, BodyObligation (pdats m p c) (defs₀ (F := F)) Variants.none () Set.univ)
    (howed : ∀ c t, (pdats m p c).owed t = 0) (hrec : ∀ c x, x ∈ (pdats m p c).recorded 0) (hq : ∀ c w, (pdats m p c).q w = fullShare)
    (hA : ∀ c w, (pdats m p c).A w = Vi c (Pipeline.arrRef (cfgs p).spec w))
    (hin : ∀ c, (iprop((∃ r, prngReg c r) ∗ Pipeline.scopedRest (Ix := Unit) (Name := ℕ) (U := UR sig nD τ) (Lvl := ℕ) (Val := Elt F) (cfgs p).spec c) : sProp 𝕄) ⊢ (pdats m p c).Φ 0)
    (hout : ∀ c, (pdats m p c).Φ (Fin.last (cfgs p).N) ⊢ (iprop((∃ r, prngReg c r) ∗ Pipeline.scopedRest (Ix := Unit) (Name := ℕ) (U := UR sig nD τ) (Lvl := ℕ) (Val := Elt F) (cfgs p).spec c) : sProp 𝕄))
    (ws : List (Fin (cfgs p).W)) (hof : ∀ c (r : Ref sig .tc), r ∉ ws.map (Pipeline.arrRef (cfgs p).spec) → Vo c r = Vi c r)
    (hio : ∀ w, w ∉ ws → ((cfgs p).win w).isOut = false)
    (hws : ∀ c, ∀ w ∈ ws, Vo c (Pipeline.arrRef (cfgs p).spec w) = (pdats m p c).arrAt w (cfgs p).N) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c (rd Vi c)
  hentry c := by
    rw [Pipeline.ownSems0_none]
    have hsplit := Pipeline.arrays_of_unscopedBufs (p := p) (pcfgs (F := F)) adm (pdats m) lf.win lf.arr_whole c
      ((pdats m p c).share_full (hq c)) (rd Vi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl (hrec c _)
      iexact HO
    isplitl [Hp]; · iexact Hp
    iexact Hrest
  hin c := by
    iintro ⟨Hp, -, Hr⟩
    iapply (hin c)
    isplitl [Hp] <;> iassumption
  hout c := by
    rw [Pipeline.ownSems0_none]
    iintro H
    ihave H' := (hout c) $$ H
    icases H' with ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c)) (rd Vi c) (rd Vo c) ((pdats m p c).arrAt · (cfgs p).N)
      (fun w => if h : w ∈ ws then (hws c w h).symm else
        ((pdats m p c).arrAt_in w (hio w h) _).trans ((hA c w).trans (hof c _ fun h' =>
          let ⟨_, hw', e⟩ := List.mem_map.mp h'; h (lf.win.arr_inj e ▸ hw')).symm))
      (fun b hb => hof c b fun h => let ⟨w, _, e⟩ := List.mem_map.mp h; hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 := regOf m 0 launch0 (V3 m) (V4 m (outsR m)) (body_obligation0 _) (fun _ _ => rfl) (fun _ _ => trivial) (fun _ _ => rfl) (fun _ _ => rfl)
    (ΦA_in spec0) (ΦA_out spec0) [2] (V4_of m (outsR m)) (by decide)
    fun c w hw => by rw [List.mem_singleton.mp hw]; exact (Function.update_self ..).trans (outsR_4_main_v57 m c)
def reg1 := regOf m 1 launch1 (V5 m (outsR m)) (V6 m (outsR m)) (body_obligation1 _) (fun _ _ => rfl) (fun _ _ => trivial) (fun _ _ => rfl) (fun _ _ => rfl)
    (ΦA_in spec1) (ΦA_out spec1) [4] (V6_of m (outsR m)) (by decide)
    fun c w hw => by rw [List.mem_singleton.mp hw]; exact (Function.update_self ..).trans (outsR_6_main_v74 m c)
def reg2 := regOf m 2 launch2 (V6 m (outsR m)) (V7 m (outsR m)) (body_obligation2 _) (fun _ _ => rfl) (fun _ _ => trivial) (fun _ _ => rfl) (fun _ _ => rfl)
    (ΦA_in spec2) (ΦA_out spec2) [2] (V7_of m (outsR m)) (by decide)
    fun c w hw => by rw [List.mem_singleton.mp hw]; exact (Function.update_self ..).trans (outsR_7_main_v75 m c)
def reg3 := regOf m 3 launch3 (V8 m (outsR m)) (V9 m (outsR m)) (body_obligation3 _) (fun _ _ => rfl) (fun _ _ => trivial) (fun _ _ => rfl) (fun _ _ => rfl)
    (Phi_in3 _) (Phi_out3 _) [9, 10] (V9_of m (outsR m)) (by decide)
    fun c w hw => by
      rcases List.mem_cons.mp hw with rfl | hw
      · exact ((Function.update_of_ne (StableHlo.devRef_ne_of_ne (by decide : main_v100_0 ≠ main_v100_1)) ..).trans (Function.update_self ..)).trans (outsR_9_main_v100_0 m c)
      · rw [List.mem_singleton.mp hw]; exact (Function.update_self ..).trans (outsR_9_main_v100_1 m c)
def reg4 := regOf m 4 launch4 (V10 m (outsR m)) (V11 m (outsR m)) (body_obligation4 _) (fun _ _ => rfl) (fun _ _ => trivial) (fun _ _ => rfl) (fun _ _ => rfl)
    (ΦA_in spec4) (ΦA_out spec4) [2] (V11_of m (outsR m)) (by decide)
    fun c w hw => by rw [List.mem_singleton.mp hw]; exact (Function.update_self ..).trans (outsR_11_main_v109 m c)
def reg5 := regOf m 5 launch5 (V12 m (outsR m)) (V13 m (outsR m)) (body_obligation5 _) (fun _ _ => rfl) (fun _ _ => trivial) (fun _ _ => rfl) (fun _ _ => rfl)
    (ΦA_in spec5) (ΦA_out spec5) [4] (V13_of m (outsR m)) (by decide)
    fun c w hw => by rw [List.mem_singleton.mp hw]; exact (Function.update_self ..).trans (outsR_13_main_v126 m c)
def reg6 := regOf m 6 launch6 (V13 m (outsR m)) (V14 m (outsR m)) (body_obligation6 _) (fun _ _ => rfl) (fun _ _ => trivial) (fun _ _ => rfl) (fun _ _ => rfl)
    (ΦA_in spec6) (ΦA_out spec6) [2] (V14_of m (outsR m)) (by decide)
    fun c w hw => by rw [List.mem_singleton.mp hw]; exact (Function.update_self ..).trans (outsR_14_main_v127 m c)
def reg7 := regOf m 7 launch7 (V15 m (outsR m)) (V16 m (outsR m)) (body_obligation7 _) (fun _ _ => rfl) (fun _ _ => trivial) (fun _ _ => rfl) (fun _ _ => rfl)
    (Phi_in7 _) (Phi_out7 _) [9, 10] (V16_of m (outsR m)) (by decide)
    fun c w hw => by
      rcases List.mem_cons.mp hw with rfl | hw
      · exact ((Function.update_of_ne (StableHlo.devRef_ne_of_ne (by decide : main_v152_0 ≠ main_v152_1)) ..).trans (Function.update_self ..)).trans (outsR_16_main_v152_0 m c)
      · rw [List.mem_singleton.mp hw]; exact (Function.update_self ..).trans (outsR_16_main_v152_1 m c)
def reg8 := regOf m 8 launch8 (V17 m (outsR m)) (V18 m (outsR m)) (body_obligation8 _) (fun _ _ => rfl) (fun _ _ => trivial) (fun _ _ => rfl) (fun _ _ => rfl)
    (ΦA_in spec8) (ΦA_out spec8) [2] (V18_of m (outsR m)) (by decide)
    fun c w hw => by rw [List.mem_singleton.mp hw]; exact (Function.update_self ..).trans (outsR_18_main_v161 m c)
def reg9 := regOf m 9 launch9 (V19 m (outsR m)) (V20 m (outsR m)) (body_obligation9 _) (fun _ _ => rfl) (fun _ _ => trivial) (fun _ _ => rfl) (fun _ _ => rfl)
    (ΦA_in spec9) (ΦA_out spec9) [4] (V20_of m (outsR m)) (by decide)
    fun c w hw => by rw [List.mem_singleton.mp hw]; exact (Function.update_self ..).trans (outsR_20_main_v178 m c)
def reg10 := regOf m 10 launch10 (V20 m (outsR m)) (V21 m (outsR m)) (body_obligation10 _) (fun _ _ => rfl) (fun _ _ => trivial) (fun _ _ => rfl) (fun _ _ => rfl)
    (ΦA_in spec10) (ΦA_out spec10) [2] (V21_of m (outsR m)) (by decide)
    fun c w hw => by rw [List.mem_singleton.mp hw]; exact (Function.update_self ..).trans (outsR_21_main_v179 m c)
def reg11 := regOf m 11 launch11 (V22 m (outsR m)) (V23 m (outsR m)) (body_obligation11 _) (fun _ _ => rfl) (fun _ _ => trivial) (fun _ _ => rfl) (fun _ _ => rfl)
    (Phi_in11 _) (Phi_out11 _) [9, 10] (V23_of m (outsR m)) (by decide)
    fun c w hw => by
      rcases List.mem_cons.mp hw with rfl | hw
      · exact ((Function.update_of_ne (StableHlo.devRef_ne_of_ne (by decide : main_v204_0 ≠ main_v204_1)) ..).trans (Function.update_self ..)).trans (outsR_23_main_v204_0 m c)
      · rw [List.mem_singleton.mp hw]; exact (Function.update_self ..).trans (outsR_23_main_v204_1 m c)
def reg12 := regOf m 12 launch12 (V24 m (outsR m)) (V25 m (outsR m)) (body_obligation12 _) (fun _ _ => rfl) (fun _ _ => trivial) (fun _ _ => rfl) (fun _ _ => rfl)
    (ΦA_in spec12) (ΦA_out spec12) [9] (V25_of m (outsR m)) (by decide)
    fun c w hw => by rw [List.mem_singleton.mp hw]; exact (Function.update_self ..).trans (outsR_25_main_v212 m c)

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
theorem run (ρ : Dev nD → PrngReg) : θ_run defs (onTc (τ := τ) (main (F := F))) ⟨m, fun _ => 0, ρ⟩ (fun r => ∀ c : Dev nD,
      ∀ b ∈ Pipeline.ucRefs τ sig, r.2.mem ((c : Thread nD τ).1, b) = V25 m (outsR m) c b) := by
  refine Pipeline.θ_run_regions_kit_dev (pcfgs (F := F)) adm (pdats m) () cellOf_inj emb₁ defs₀ 𝒱₀ L lv m ρ main
    (segs m (outsR m) 𝒱₀ L lv E () (pdats m) (reg0 m) (reg1 m) (reg2 m) (reg3 m) (reg4 m) (reg5 m) (reg6 m) (reg7 m) (reg8 m) (reg9 m) (reg10 m) (reg11 m) (reg12 m))
    (fun c Q => by
      rewrite [main_chain c, Seg.run_eq_chain,
        show (segs m (outsR m) 𝒱₀ L lv E () (pdats m) (reg0 m) (reg1 m) (reg2 m) (reg3 m) (reg4 m) (reg5 m) (reg6 m) (reg7 m) (reg8 m) (reg9 m) (reg10 m) (reg11 m) (reg12 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          Prog.lift (.customCall (Pipeline.entry 10) ()),
          StableHlo.seq hostOps11,
          Prog.lift (.customCall (Pipeline.entry 11) ()),
          StableHlo.seq hostOps12,
          Prog.lift (.customCall (Pipeline.entry 12) ()) ] from rfl]
      exact .rfl)
    (fun c => by simp only [segs, Seg.pipes_host, Seg.pipes_region, Seg.pipes_nil]; decide) 0 (fun _ _ => rfl) (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V25 m (outsR m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (by iintro ⟨-, HO⟩; iexact HO)⟩)
    (hinit := ?_) (QY := fun c s => ∀ b ∈ Pipeline.ucRefs τ sig, s.mem ((c : Thread nD τ).1, b) = V25 m (outsR m) c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep' _ (fun c : Dev nD => StableHlo.held (c : Thread nD τ) (Pipeline.ucRefs τ sig) (V0 m c))]
    isplitl [Hh]; · iexact Hh
    iexact HE
  · unfold StableHlo.held
    iintro ⟨Hh, HSI⟩
    ihave Hr := (pointsTo_read_all (Pipeline.ucRefs τ sig) (fun b => ((c : Thread nD τ).1, b)) (V25 m (outsR m) c) s') $$ [Hh HSI]
    · isplitl [Hh] <;> iassumption
    icases Hr with ⟨%h, HSI⟩
    imodintro
    isplitr
    · ipureintro; exact h
    · iexact HSI

theorem run_result (ρ : Dev nD → PrngReg) : θ_run defs (onTc (τ := τ) (main (F := F))) ⟨m, fun _ => 0, ρ⟩ (fun r => ∀ c : Dev nD,
      r.2.mem ((c.tc : Thread nD τ).loc main_v212) = V25 m (outsR m) c main_v212
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨h c _ (mem_uc main_v212 (by decide)),
     (h c _ (mem_uc main_arg0 (by decide))).trans (V25_main_arg0 m (outsR m) c),
     (h c _ (mem_uc main_arg1 (by decide))).trans (V25_main_arg1 m (outsR m) c),
     (h c _ (mem_uc main_arg2 (by decide))).trans (V25_main_arg2 m (outsR m) c),
     (h c _ (mem_uc main_arg3 (by decide))).trans (V25_main_arg3 m (outsR m) c),
     (h c _ (mem_uc main_arg4 (by decide))).trans (V25_main_arg4 m (outsR m) c),
     (h c _ (mem_uc main_arg5 (by decide))).trans (V25_main_arg5 m (outsR m) c),
     (h c _ (mem_uc main_arg6 (by decide))).trans (V25_main_arg6 m (outsR m) c),
     (h c _ (mem_uc main_arg7 (by decide))).trans (V25_main_arg7 m (outsR m) c),
     (h c _ (mem_uc main_arg8 (by decide))).trans (V25_main_arg8 m (outsR m) c),
     (h c _ (mem_uc main_arg9 (by decide))).trans (V25_main_arg9 m (outsR m) c),
     (h c _ (mem_uc main_arg10 (by decide))).trans (V25_main_arg10 m (outsR m) c),
     (h c _ (mem_uc main_arg11 (by decide))).trans (V25_main_arg11 m (outsR m) c),
     (h c _ (mem_uc main_arg12 (by decide))).trans (V25_main_arg12 m (outsR m) c),
     (h c _ (mem_uc main_arg13 (by decide))).trans (V25_main_arg13 m (outsR m) c),
     (h c _ (mem_uc main_arg14 (by decide))).trans (V25_main_arg14 m (outsR m) c),
     (h c _ (mem_uc main_arg15 (by decide))).trans (V25_main_arg15 m (outsR m) c)⟩) (run m ρ)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2) (run_result m ρ)

end Cert.KernelIdeal.Hand

end
-- ==== Proof.Spec.lean ====
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev RA (s : Shape) : Type := s.Idx → EReal
abbrev IA (s : Shape) : Type := s.Idx → BitVec 32

abbrev SNH : Shape := ⟨2, ![50000, 128]⟩
abbrev SHH : Shape := ⟨2, ![128, 128]⟩
abbrev SN1 : Shape := ⟨2, ![50000, 1]⟩
abbrev S1H : Shape := ⟨2, ![1, 128]⟩
abbrev SN : Shape := ⟨1, ![50000]⟩
abbrev SE : Shape := ⟨1, ![800000]⟩
abbrev SH : Shape := ⟨1, ![128]⟩
abbrev SGH : Shape := ⟨2, ![512, 128]⟩
abbrev SG3 : Shape := ⟨2, ![512, 384]⟩
abbrev S13 : Shape := ⟨2, ![1, 384]⟩
abbrev S3H : Shape := ⟨2, ![384, 128]⟩
abbrev SHC : Shape := ⟨2, ![128, 10]⟩
abbrev S1C : Shape := ⟨2, ![1, 10]⟩
abbrev SGC : Shape := ⟨2, ![512, 10]⟩
abbrev SW : Shape := ⟨4, ![3, 2, 128, 128]⟩
abbrev SB : Shape := ⟨3, ![3, 2, 128]⟩
abbrev SJW : Shape := ⟨3, ![3, 256, 128]⟩
abbrev SJB : Shape := ⟨2, ![3, 128]⟩
abbrev S3 : Shape := ⟨1, ![384]⟩
abbrev SC : Shape := ⟨1, ![10]⟩
abbrev S2E : Shape := ⟨2, ![2, 800000]⟩

abbrev one32 : EReal := Ideal.ofBits .f32 0x3F800000#32
abbrev eps32 : EReal := Ideal.ofBits .f32 0x3727C5AC#32

def wrapN (s : BitVec 32) : BitVec 32 := if s.slt 0#32 then s + 50000#32 else s

def gRow (s : BitVec 32) : Fin 50000 := ⟨min (wrapN s).toInt.toNat (50000 - 1), by omega⟩

def into (dstw : IA SE) (n : Nat) : Finset (Fin 800000) := Finset.univ.filter fun e => (dstw (ix1 e)).toInt = (n : Int)

def col (v : RA SN) : RA SN1 := fun i => v (ix1 (i 0 : Fin 50000))
def row (v : RA SH) : RA S1H := fun i => v (ix1 (i 1 : Fin 128))
def colI (v : IA SN) : IA SN1 := fun i => v (ix1 (i 0 : Fin 50000))
def wAt (cw : RA SW) (l : Fin 3) (q : Fin 2) : RA SHH := fun i => cw (ix4 l q (i 0 : Fin 128) (i 1 : Fin 128))
def bAt (cb : RA SB) (l : Fin 3) (q : Fin 2) : RA SH := fun i => cb (ix3 l q (i 0 : Fin 128))
def jwTop (jw : RA SJW) (l : Fin 3) : RA SHH := fun i => jw (ix3 l (⟨(i 0 : Fin 128).val, by have h : (i 0 : Fin 128).val < 128 := (i 0).isLt; omega⟩ : Fin 256) (i 1 : Fin 128))
def jwBot (jw : RA SJW) (l : Fin 3) : RA SHH := fun i => jw (ix3 l (⟨128 + (i 0 : Fin 128).val, by have h : (i 0 : Fin 128).val < 128 := (i 0).isLt; omega⟩ : Fin 256) (i 1 : Fin 128))
def jbAt (jb : RA SJB) (l : Fin 3) : RA SH := fun i => jb (ix2 l (i 0 : Fin 128))
def srcOf (ei : IA S2E) : IA SE := fun e => ei (ix2 (0 : Fin 2) (e 0 : Fin 800000))
def dstOf (ei : IA S2E) : IA SE := fun e => ei (ix2 (1 : Fin 2) (e 0 : Fin 800000))

def cat3 (p0 p1 p2 : RA SGH) : RA SG3 := fun i =>
  if h0 : (i 1 : Fin 384).val < 128 then p0 (ix2 (i 0 : Fin 512) ⟨(i 1 : Fin 384).val, h0⟩)
  else if h1 : (i 1 : Fin 384).val < 256 then p1 (ix2 (i 0 : Fin 512) ⟨(i 1 : Fin 384).val - 128, by omega⟩)
  else p2 (ix2 (i 0 : Fin 512) ⟨(i 1 : Fin 384).val - 256, by have h : (i 1 : Fin 384).val < 384 := (i 1).isLt; omega⟩)
def row3 (v : RA S3) : RA S13 := fun i => v (ix1 (i 1 : Fin 384))
def rowC (v : RA SC) : RA S1C := fun i => v (ix1 (i 1 : Fin 10))

def relist {α : Type} (σ : Equiv.Perm (Fin 800000)) (a : SE.Idx → α) : SE.Idx → α := fun e => a (ix1 (σ (e 0 : Fin 800000)))

def mm (x : RA SNH) (w : RA SHH) : RA SNH := fun i => ∑ k : Fin 128, x (ix2 (i 0 : Fin 50000) k) * w (ix2 k (i 1 : Fin 128))

def comb (agg xw : RA SNH) (d2 : RA SN1) (b : RA S1H) : RA SNH := fun i =>
  max (agg i + xw i * d2 (ix2 (i 0 : Fin 50000) (0 : Fin 1)) + b (ix2 (0 : Fin 1) (i 1 : Fin 128))) 0

def jk (x1 x0 : RA SNH) (w0 w1 : RA SHH) (jb : RA S1H) : RA SNH := fun i =>
  max ((∑ k : Fin 128, x0 (ix2 (i 0 : Fin 50000) k) * w0 (ix2 k (i 1 : Fin 128)))
    + (∑ k : Fin 128, x1 (ix2 (i 0 : Fin 50000) k) * w1 (ix2 k (i 1 : Fin 128))) + jb (ix2 (0 : Fin 1) (i 1 : Fin 128))) 0

def pool (h : RA SNH) (b : IA SN1) : RA SGH := fun i =>
  ∑ n ∈ Finset.univ.filter (fun n : Fin 50000 => b (ix2 n (0 : Fin 1)) = BitVec.ofNat 32 (i 0 : Fin 512).val), h (ix2 n (i 1 : Fin 128))

def deg (dstw : IA SE) (ea : RA SE) : RA SN := fun n => (∑ e ∈ into dstw (n 0 : Fin 50000).val, ea (ix1 e)) + one32
def dinv (dstw : IA SE) (ea : RA SE) : RA SN := fun n => Ideal.rsqrt (deg dstw ea n)
def dinv2 (dstw : IA SE) (ea : RA SE) : RA SN := fun n => dinv dstw ea n * dinv dstw ea n
def norm (srcw dstw : IA SE) (ea : RA SE) : RA SE := fun e =>
  dinv dstw ea (ix1 (gRow (srcw e))) * ea e * dinv dstw ea (ix1 (gRow (dstw e)))

def agg (xw : RA SNH) (srcw dstw : IA SE) (nm : RA SE) : RA SNH := fun i =>
  ∑ e ∈ into dstw (i 0 : Fin 50000).val, xw (ix2 (gRow (srcw (ix1 e))) (i 1 : Fin 128)) * nm (ix1 e)

def conv (h : RA SNH) (w : RA SHH) (b : RA SH) (srcw dstw : IA SE) (nm : RA SE) (d2 : RA SN) : RA SNH :=
  comb (agg (mm h w) srcw dstw nm) (mm h w) (col d2) (row b)

def blockH (h : RA SNH) (cw : RA SW) (cb : RA SB) (jw : RA SJW) (jb : RA SJB) (l : Fin 3) (srcw dstw : IA SE) (nm : RA SE) (d2 : RA SN) : RA SNH :=
  let x0 := conv h (wAt cw l 0) (bAt cb l 0) srcw dstw nm d2
  let x1 := conv x0 (wAt cw l 1) (bAt cb l 1) srcw dstw nm d2
  jk x1 x0 (jwTop jw l) (jwBot jw l) (row (jbAt jb l))

def bn (z : RA SG3) (g be mu va : RA S13) : RA SG3 := fun i =>
  (z i - mu (ix2 (0 : Fin 1) (i 1 : Fin 384))) * Ideal.rsqrt (va (ix2 (0 : Fin 1) (i 1 : Fin 384)) + eps32) * g (ix2 (0 : Fin 1) (i 1 : Fin 384))
    + be (ix2 (0 : Fin 1) (i 1 : Fin 384))
def lin1 (z : RA SG3) (w : RA S3H) (b : RA S1H) : RA SGH := fun i =>
  max ((∑ k : Fin 384, z (ix2 (i 0 : Fin 512) k) * w (ix2 k (i 1 : Fin 128))) + b (ix2 (0 : Fin 1) (i 1 : Fin 128))) 0
def lin2 (z : RA SGH) (w : RA SHC) (b : RA S1C) : RA SGC := fun i =>
  (∑ k : Fin 128, z (ix2 (i 0 : Fin 512) k) * w (ix2 k (i 1 : Fin 10))) + b (ix2 (0 : Fin 1) (i 1 : Fin 10))

def rowMax (x : RA SGC) (g : Fin 512) : EReal := Finset.univ.fold max (⊥ : EReal) fun c : Fin 10 => x (ix2 g c)
def softmax (x : RA SGC) : RA SGC := fun i =>
  Ideal.div (Ideal.exp (x i - rowMax x (i 0 : Fin 512)))
    (∑ c : Fin 10, Ideal.exp (x (ix2 (i 0 : Fin 512) c) - rowMax x (i 0 : Fin 512)))
def head (z : RA SG3) (g be mu va : RA S13) (w1 : RA S3H) (b1 : RA S1H) (w2 : RA SHC) (b2 : RA S1C) : RA SGC :=
  softmax (lin2 (lin1 (bn z g be mu va) w1 b1) w2 b2)

def net (x : RA SNH) (ea : RA SE) (cw : RA SW) (cb : RA SB) (jw : RA SJW) (jb : RA SJB) (g be mu va : RA S3)
    (w1 : RA S3H) (b1 : RA SH) (w2 : RA SHC) (b2 : RA SC) (srcw dstw : IA SE) (batch : IA SN) : RA SGC :=
  let nm := norm srcw dstw ea
  let d2 := dinv2 dstw ea
  let h1 := blockH x cw cb jw jb 0 srcw dstw nm d2
  let h2 := blockH h1 cw cb jw jb 1 srcw dstw nm d2
  let h3 := blockH h2 cw cb jw jb 2 srcw dstw nm d2
  head (cat3 (pool h1 (colI batch)) (pool h2 (colI batch)) (pool h3 (colI batch))) (row3 g) (row3 be) (row3 mu) (row3 va)
    w1 (row b1) w2 (rowC b2)

end Cert.Spec

end
-- ==== Proof.KI.ValRowsLib.lean ====
import proofs.«400674_j14499809591724_2_alg».proof.Proof.Gen.KernelIdeal.Skeleton
import proofs.«400674_j14499809591724_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx
open Cert.KernelIdeal Cert.KernelIdeal.Gen

theorem hz2 : (![0, 0] : Fin 2 → Nat) = fun _ => 0 := funext fun a => by fin_cases a <;> rfl

/-- The product of two blocks added to a zero block, at j: row (j 0) of the left block against column (j 1) of the right one. -/
theorem mm_apply (x0 : FVec Ideal S2000x128 .bf16) (x1 : FVec Ideal S128x128 .bf16) (j : S2000x128.Idx) :
    matmul dot_S2000x128_S128x128_S2000x128_1_0_0_1_n_n none x0 x1 (constant S2000x128 .f32 0x00000000#32) j
      = ∑ k : Fin 128, x0 (ix2 (j 0 : Fin 2000) k) * x1 (ix2 k (j 1 : Fin 128)) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  congr 2 <;> funext a <;> apply Fin.ext
  · match a with
    | ⟨0, _⟩ =>
      show (dot_S2000x128_S128x128_S2000x128_1_0_0_1_n_n.lhsIdx j _ (0 : Fin 2)).val = (j 0).val
      unfold DotDims.lhsIdx
      rw [dif_neg (show ¬(0 : Fin 2) ∈ dot_S2000x128_S128x128_S2000x128_1_0_0_1_n_n.lhsBatch by decide),
        dif_pos (show (0 : Fin 2) ∈ dot_S2000x128_S128x128_S2000x128_1_0_0_1_n_n.lhsNonContracting by decide)]
      rfl
    | ⟨1, _⟩ => exact (DotDims.lhsIdx_val_of_single _ rfl j _).trans hk
  · match a with
    | ⟨0, _⟩ => exact (DotDims.rhsIdx_val_of_single _ rfl j _).trans hk
    | ⟨1, _⟩ =>
      show (dot_S2000x128_S128x128_S2000x128_1_0_0_1_n_n.rhsIdx j _ (1 : Fin 2)).val = (j 1).val
      unfold DotDims.rhsIdx
      rw [dif_neg (show ¬(1 : Fin 2) ∈ dot_S2000x128_S128x128_S2000x128_1_0_0_1_n_n.rhsBatch by decide),
        dif_pos (show (1 : Fin 2) ∈ dot_S2000x128_S128x128_S2000x128_1_0_0_1_n_n.rhsNonContracting by decide)]
      rfl

/-- Block indices of a product by row blocks: the left factor's and the result's row block is t, the right factor is one block. -/
abbrev MmIdx (i0 i1 i2 : Fin 2 → ℕ) (t : ℕ) : Prop := (i2 0 = t ∧ i2 1 = 0) ∧ i0 0 = t ∧ i0 1 = 0 ∧ i1 0 = 0 ∧ i1 1 = 0

/-- Row block t of a product is row block t of the left factor against the whole right factor. -/
theorem mm_rows (A : Cert.Spec.RA Cert.Spec.SNH) (B : Cert.Spec.RA Cert.Spec.SHH)
    (e0 : S2000x128.Idx → S50000x128.Idx) (e1 : S128x128.Idx → S128x128.Idx) (e2 : S2000x128.Idx → S50000x128.Idx)
    {i0 i1 i2 : Fin 2 → ℕ} {t : ℕ}
    (h0 : ∀ y a, (e0 y a).val = i0 a * S2000x128.size a + 1 * (y a).val)
    (h1 : ∀ y a, (e1 y a).val = i1 a * S128x128.size a + 1 * (y a).val)
    (h2 : ∀ y a, (e2 y a).val = i2 a * S2000x128.size a + 1 * (y a).val)
    (hi : MmIdx i0 i1 i2 t) (j : S2000x128.Idx) :
    ∑ k : Fin 128, A (e0 (ix2 (j 0 : Fin 2000) k)) * B (e1 (ix2 k (j 1 : Fin 128))) = Cert.Spec.mm A B (e2 j) := by
  obtain ⟨⟨c0, c1⟩, a0, a1, b0, b1⟩ := hi
  refine Finset.sum_congr rfl fun k _ => ?_
  congr 2 <;> funext a <;> apply Fin.ext
  · match a with
    | ⟨0, _⟩ => show (e0 _ 0).val = (e2 j 0).val; rw [h0, h2, a0, c0]
    | ⟨1, _⟩ => show (e0 _ 1).val = k.val; rw [h0, a1, Nat.zero_mul, Nat.zero_add, Nat.one_mul]
  · match a with
    | ⟨0, _⟩ => show (e1 _ 0).val = k.val; rw [h1, b0, Nat.zero_mul, Nat.zero_add, Nat.one_mul]
    | ⟨1, _⟩ => show (e1 _ 1).val = (e2 j 1).val; rw [h1, h2, b1, c1]; rfl

/-- Row r of a [50000, 128] array lies in row block r / 2000 of its 25 blocks of 2000 rows. -/
theorem rows_cover {ix : Fin 25 → Fin 2 → ℕ} (hix : ∀ t, ix t 0 = t.val ∧ ix t 1 = 0) (i : S50000x128.Idx) :
    ∃ t : Fin 25, ∀ a : Fin 2, ix t a * S2000x128.size a ≤ (i a).val ∧ (i a).val < ix t a * S2000x128.size a + S2000x128.size a := by
  have hi0 : (i 0).val < 50000 := (i 0).isLt
  have hi1 : (i 1).val < 128 := (i 1).isLt
  obtain ⟨e0, e1⟩ := hix ⟨(i 0).val / 2000, by omega⟩
  refine ⟨⟨(i 0).val / 2000, by omega⟩, fun a => ?_⟩
  match a with
  | ⟨0, _⟩ => show ix _ 0 * 2000 ≤ (i 0).val ∧ (i 0).val < ix _ 0 * 2000 + 2000; rw [e0]; show (i 0).val / 2000 * 2000 ≤ _ ∧ _ < (i 0).val / 2000 * 2000 + 2000; omega
  | ⟨1, _⟩ => show ix _ 1 * 128 ≤ (i 1).val ∧ (i 1).val < ix _ 1 * 128 + 128; rw [e1]; omega

/-- A column broadcast along the rows reads, at (p, q), the column at p. -/
theorem col_apply (v : S2000x1.Idx → EReal) (h : S2000x1.Broadcasts S2000x128) (p : Fin 2000) (q : Fin 128) :
    broadcastTo S2000x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- At (p, q): the aggregate plus the features times the column's entry of row p plus the row's entry of column q, clipped below at zero. -/
theorem comb_apply (x0 : Vec Ideal S2000x128 .f32) (x1 : Vec Ideal S2000x128 .bf16) (x2 : Vec Ideal S2000x1 .f32) (x3 : Vec Ideal S1x128 .f32)
    (p : Fin 2000) (q : Fin 128) :
    k1_pay1 x0 x1 x2 x3 (ix2 p q) = max (x0 (ix2 p q) + x1 (ix2 p q) * x2 (ix2 p (0 : Fin 1)) + x3 (ix2 (0 : Fin 1) q)) 0 := by
  unfold k1_pay1
  simp only [shapeCast_self]
  rw [truncf_apply, maximumf_apply, addf_apply, addf_apply, mulf_apply, extf_apply, broadcast_apply,
    broadcastTo_1b_ab_apply, col_apply]
  show max _ (Ideal.ofBits .f32 0x00000000#32) = _
  rw [Ideal.ofBits_zero_f32]

/-- Block indices of a combination by row blocks: every operand's and the result's row block is t, but the bias row is one block. -/
abbrev CombIdx (i0 i1 i2 i3 i4 : Fin 2 → ℕ) (t : ℕ) : Prop :=
  (i4 0 = t ∧ i4 1 = 0) ∧ i0 0 = t ∧ i0 1 = 0 ∧ i1 0 = t ∧ i1 1 = 0 ∧ i2 0 = t ∧ i2 1 = 0 ∧ i3 0 = 0 ∧ i3 1 = 0

/-- Row block t of the combination is the combination of the three row blocks and the whole bias row. -/
theorem comb_rows (a0 a1 : Cert.Spec.RA Cert.Spec.SNH) (a2 : Cert.Spec.RA Cert.Spec.SN1) (a3 : Cert.Spec.RA Cert.Spec.S1H)
    (e0 e1 e4 : S2000x128.Idx → S50000x128.Idx) (e2 : S2000x1.Idx → S50000x1.Idx) (e3 : S1x128.Idx → S1x128.Idx)
    {i0 i1 i2 i3 i4 : Fin 2 → ℕ} {t : ℕ}
    (h0 : ∀ y a, (e0 y a).val = i0 a * S2000x128.size a + 1 * (y a).val)
    (h1 : ∀ y a, (e1 y a).val = i1 a * S2000x128.size a + 1 * (y a).val)
    (h2 : ∀ y a, (e2 y a).val = i2 a * S2000x1.size a + 1 * (y a).val)
    (h3 : ∀ y a, (e3 y a).val = i3 a * S1x128.size a + 1 * (y a).val)
    (h4 : ∀ y a, (e4 y a).val = i4 a * S2000x128.size a + 1 * (y a).val)
    (hi : CombIdx i0 i1 i2 i3 i4 t)
    (p : Fin 2000) (q : Fin 128) :
    max (a0 (e0 (ix2 p q)) + a1 (e1 (ix2 p q)) * a2 (e2 (ix2 p (0 : Fin 1))) + a3 (e3 (ix2 (0 : Fin 1) q))) 0
      = Cert.Spec.comb a0 a1 a2 a3 (e4 (ix2 p q)) := by
  obtain ⟨⟨o0, o1⟩, a00, a01, a10, a11, a20, a21, a30, a31⟩ := hi
  have g0 : e0 (ix2 p q) = e4 (ix2 p q) := funext fun a => Fin.ext (by rw [h0, h4]; match a with
    | ⟨0, _⟩ => show i0 0 * _ + _ = i4 0 * _ + _; rw [a00, o0]
    | ⟨1, _⟩ => show i0 1 * _ + _ = i4 1 * _ + _; rw [a01, o1])
  have g1 : e1 (ix2 p q) = e4 (ix2 p q) := funext fun a => Fin.ext (by rw [h1, h4]; match a with
    | ⟨0, _⟩ => show i1 0 * _ + _ = i4 0 * _ + _; rw [a10, o0]
    | ⟨1, _⟩ => show i1 1 * _ + _ = i4 1 * _ + _; rw [a11, o1])
  have g2 : e2 (ix2 p (0 : Fin 1)) = ix2 (e4 (ix2 p q) 0 : Fin 50000) (0 : Fin 1) := funext fun a => Fin.ext (by
    match a with
    | ⟨0, _⟩ => show (e2 _ 0).val = (e4 _ 0).val; rw [h2, h4, a20, o0]; rfl
    | ⟨1, _⟩ => show (e2 _ 1).val = 0; rw [h2, a21]; rfl)
  have g3 : e3 (ix2 (0 : Fin 1) q) = ix2 (0 : Fin 1) (e4 (ix2 p q) 1 : Fin 128) := funext fun a => Fin.ext (by
    match a with
    | ⟨0, _⟩ => show (e3 _ 0).val = 0; rw [h3, a30]; rfl
    | ⟨1, _⟩ => show (e3 _ 1).val = (e4 _ 1).val; rw [h3, h4, a31, o1]; rfl)
  rw [g0, g1, g2, g3]
  rfl

end Cert.KernelIdeal.Hand
-- ==== Proof.KI.ValMatmul.lean ====
import proofs.«400674_j14499809591724_2_alg».proof.Proof.KI.Reg0
import proofs.«400674_j14499809591724_2_alg».proof.Proof.KI.Reg4
import proofs.«400674_j14499809591724_2_alg».proof.Proof.KI.Reg8
import proofs.«400674_j14499809591724_2_alg».proof.Proof.KI.Reg2
import proofs.«400674_j14499809591724_2_alg».proof.Proof.KI.Reg6
import proofs.«400674_j14499809591724_2_alg».proof.Proof.KI.Reg10
import proofs.«400674_j14499809591724_2_alg».proof.Proof.KI.ValRowsLib

noncomputable section

namespace Cert.KernelIdeal.Hand

open Idealize.ShloMosaic Idealize.ShloMosaic.TcCoe Idealize.ShloMosaic.ValueIdx
open Cert.KernelIdeal Cert.KernelIdeal.Gen

variable (V : (c : Dev nD) → (b : Ref sig .tc) → Buf (Elt Ideal) ((c : Thread nD τ).loc b))

theorem idx0 : ∀ t : Fin cfg0.N, MmIdx (win0_0.index t) (win0_1.index t) (win0_2.index t) t.val :=
  (by decide +kernel : ∀ t : Fin grid0.N, _)

theorem arrAt0 (c : Dev nD) : (dat0 (F := Ideal) V c).arrAt 2 cfg0.N = Cert.Spec.mm (V c main_arg0) (V c main_v50) :=
  (dat0 (F := Ideal) V c).arrAt_eq_of_cover 2 _ (fun t _ => by
    rw [Pipeline.Dat.flushed, after0_2, out0_2, k0_pay1, View.canon_unit_zero hz2]
    simp only [View.ld_unit_zero (S := S2000x128) hz2, View.ld_unit_zero (S := S128x128) hz2, shapeCast_self]
    exact funext fun j => (mm_apply _ _ j).trans (mm_rows (V c main_arg0) (V c main_v50) ((cfg0.win 0).blk t).view.emb
      ((cfg0.win 1).blk t).view.emb ((cfg0.win 2).blk t).view.emb (fun _ _ => rfl) (fun _ _ => rfl) (fun _ _ => rfl) (idx0 t) j))
    fun i => (rows_cover (ix := win0_2.index) (fun t => (idx0 t).1) i).imp fun t h => ⟨flush0_2 t, by
      show i ∈ ((View.whole (Pipeline.arrRef spec0 2)).slice (win0_2.rect t)).set
      rw [View.set_slice_whole, Rect.mem_set_unit]
      exact h⟩

theorem idx4 : ∀ t : Fin cfg4.N, MmIdx (win4_0.index t) (win4_1.index t) (win4_2.index t) t.val :=
  (by decide +kernel : ∀ t : Fin grid4.N, _)

theorem arrAt4 (c : Dev nD) : (dat4 (F := Ideal) V c).arrAt 2 cfg4.N = Cert.Spec.mm (V c main_v100_0) (V c main_v102) :=
  (dat4 (F := Ideal) V c).arrAt_eq_of_cover 2 _ (fun t _ => by
    rw [Pipeline.Dat.flushed, after4_2, out4_2, k4_pay1, View.canon_unit_zero hz2]
    simp only [View.ld_unit_zero (S := S2000x128) hz2, View.ld_unit_zero (S := S128x128) hz2, shapeCast_self]
    exact funext fun j => (mm_apply _ _ j).trans (mm_rows (V c main_v100_0) (V c main_v102) ((cfg4.win 0).blk t).view.emb
      ((cfg4.win 1).blk t).view.emb ((cfg4.win 2).blk t).view.emb (fun _ _ => rfl) (fun _ _ => rfl) (fun _ _ => rfl) (idx4 t) j))
    fun i => (rows_cover (ix := win4_2.index) (fun t => (idx4 t).1) i).imp fun t h => ⟨flush4_2 t, by
      show i ∈ ((View.whole (Pipeline.arrRef spec4 2)).slice (win4_2.rect t)).set
      rw [View.set_slice_whole, Rect.mem_set_unit]
      exact h⟩

theorem idx8 : ∀ t : Fin cfg8.N, MmIdx (win8_0.index t) (win8_1.index t) (win8_2.index t) t.val :=
  (by decide +kernel : ∀ t : Fin grid8.N, _)

theorem arrAt8 (c : Dev nD) : (dat8 (F := Ideal) V c).arrAt 2 cfg8.N = Cert.Spec.mm (V c main_v152_0) (V c main_v154) :=
  (dat8 (F := Ideal) V c).arrAt_eq_of_cover 2 _ (fun t _ => by
    rw [Pipeline.Dat.flushed, after8_2, out8_2, k8_pay1, View.canon_unit_zero hz2]
    simp only [View.ld_unit_zero (S := S2000x128) hz2, View.ld_unit_zero (S := S128x128) hz2, shapeCast_self]
    exact funext fun j => (mm_apply _ _ j).trans (mm_rows (V c main_v152_0) (V c main_v154) ((cfg8.win 0).blk t).view.emb
      ((cfg8.win 1).blk t).view.emb ((cfg8.win 2).blk t).view.emb (fun _ _ => rfl) (fun _ _ => rfl) (fun _ _ => rfl) (idx8 t) j))
    fun i => (rows_cover (ix := win8_2.index) (fun t => (idx8 t).1) i).imp fun t h => ⟨flush8_2 t, by
      show i ∈ ((View.whole (Pipeline.arrRef spec8 2)).slice (win8_2.rect t)).set
      rw [View.set_slice_whole, Rect.mem_set_unit]
      exact h⟩

theorem idx2 : ∀ t : Fin cfg2.N, MmIdx (win2_0.index t) (win2_1.index t) (win2_2.index t) t.val :=
  (by decide +kernel : ∀ t : Fin grid2.N, _)

theorem arrAt2 (c : Dev nD) : (dat2 (F := Ideal) V c).arrAt 2 cfg2.N = Cert.Spec.mm (V c main_v74) (V c main_v52) :=
  (dat2 (F := Ideal) V c).arrAt_eq_of_cover 2 _ (fun t _ => by
    rw [Pipeline.Dat.flushed, after2_2, out2_2, k2_pay1, View.canon_unit_zero hz2]
    simp only [View.ld_unit_zero (S := S2000x128) hz2, View.ld_unit_zero (S := S128x128) hz2, shapeCast_self]
    exact funext fun j => (mm_apply _ _ j).trans (mm_rows (V c main_v74) (V c main_v52) ((cfg2.win 0).blk t).view.emb
      ((cfg2.win 1).blk t).view.emb ((cfg2.win 2).blk t).view.emb (fun _ _ => rfl) (fun _ _ => rfl) (fun _ _ => rfl) (idx2 t) j))
    fun i => (rows_cover (ix := win2_2.index) (fun t => (idx2 t).1) i).imp fun t h => ⟨flush2_2 t, by
      show i ∈ ((View.whole (Pipeline.arrRef spec2 2)).slice (win2_2.rect t)).set
      rw [View.set_slice_whole, Rect.mem_set_unit]
      exact h⟩

theorem idx6 : ∀ t : Fin cfg6.N, MmIdx (win6_0.index t) (win6_1.index t) (win6_2.index t) t.val :=
  (by decide +kernel : ∀ t : Fin grid6.N, _)

theorem arrAt6 (c : Dev nD) : (dat6 (F := Ideal) V c).arrAt 2 cfg6.N = Cert.Spec.mm (V c main_v126) (V c main_v104) :=
  (dat6 (F := Ideal) V c).arrAt_eq_of_cover 2 _ (fun t _ => by
    rw [Pipeline.Dat.flushed, after6_2, out6_2, k6_pay1, View.canon_unit_zero hz2]
    simp only [View.ld_unit_zero (S := S2000x128) hz2, View.ld_unit_zero (S := S128x128) hz2, shapeCast_self]
    exact funext fun j => (mm_apply _ _ j).trans (mm_rows (V c main_v126) (V c main_v104) ((cfg6.win 0).blk t).view.emb
      ((cfg6.win 1).blk t).view.emb ((cfg6.win 2).blk t).view.emb (fun _ _ => rfl) (fun _ _ => rfl) (fun _ _ => rfl) (idx6 t) j))
    fun i => (rows_cover (ix := win6_2.index) (fun t => (idx6 t).1) i).imp fun t h => ⟨flush6_2 t, by
      show i ∈ ((View.whole (Pipeline.arrRef spec6 2)).slice (win6_2.rect t)).set
      rw [View.set_slice_whole, Rect.mem_set_unit]
      exact h⟩

theorem idx10 : ∀ t : Fin cfg10.N, MmIdx (win10_0.index t) (win10_1.index t) (win10_2.index t) t.val :=
  (by decide +kernel : ∀ t : Fin grid10.N, _)

theorem arrAt10 (c : Dev nD) : (dat10 (F := Ideal) V c).arrAt 2 cfg10.N = Cert.Spec.mm (V c main_v178) (V c main_v156) :=
  (dat10 (F := Ideal) V c).arrAt_eq_of_cover 2 _ (fun t _ => by
    rw [Pipeline.Dat.flushed, after10_2, out10_2, k10_pay1, View.canon_unit_zero hz2]
    simp only [View.ld_unit_zero (S := S2000x128) hz2, View.ld_unit_zero (S := S128x128) hz2, shapeCast_self]
    exact funext fun j => (mm_apply _ _ j).trans (mm_rows (V c main_v178) (V c main_v156) ((cfg10.win 0).blk t).view.emb
      ((cfg10.win 1).blk t).view.emb ((cfg10.win 2).blk t).view.emb (fun _ _ => rfl) (fun _ _ => rfl) (fun _ _ => rfl) (idx10 t) j))
    fun i => (rows_cover (ix := win10_2.index) (fun t => (idx10 t).1) i).imp fun t h => ⟨flush10_2 t, by
      show i ∈ ((View.whole (Pipeline.arrRef spec10 2)).slice (win10_2.rect t)).set
      rw [View.set_slice_whole, Rect.mem_set_unit]
      exact h⟩

end Cert.KernelIdeal.Hand
-- ==== Proof.KI.ValCombine.lean ====
import proofs.«400674_j14499809591724_2_alg».proof.Proof.KI.Reg1
import proofs.«400674_j14499809591724_2_alg».proof.Proof.KI.Reg5
import proofs.«400674_j14499809591724_2_alg».proof.Proof.KI.Reg9
import proofs.«400674_j14499809591724_2_alg».proof.Proof.KI.ValRowsLib

noncomputable section

namespace Cert.KernelIdeal.Hand

open Idealize.ShloMosaic Idealize.ShloMosaic.TcCoe Idealize.ShloMosaic.ValueIdx
open Cert.KernelIdeal Cert.KernelIdeal.Gen

variable (V : (c : Dev nD) → (b : Ref sig .tc) → Buf (Elt Ideal) ((c : Thread nD τ).loc b))

theorem idx1 : ∀ t : Fin cfg1.N,
    CombIdx (win1_0.index t) (win1_1.index t) (win1_2.index t) (win1_3.index t) (win1_4.index t) t.val :=
  (by decide +kernel : ∀ t : Fin grid1.N, _)

theorem arrAt1 (c : Dev nD) :
    (dat1 (F := Ideal) V c).arrAt 4 cfg1.N = Cert.Spec.comb (V c main_v71) (V c main_v57) (V c main_v72) (V c main_v73) :=
  (dat1 (F := Ideal) V c).arrAt_eq_of_cover 4 _ (fun t _ => by
    rw [Pipeline.Dat.flushed, after1_4, out1_4, View.canon_unit_zero hz2]
    simp only [View.ld_unit_zero (S := S2000x128) hz2, View.ld_unit_zero (S := S2000x1) hz2, View.ld_unit_zero (S := S1x128) hz2]
    funext j
    rw [eq_ix2 j]
    exact (comb_apply _ _ _ _ _ _).trans (comb_rows (V c main_v71) (V c main_v57) (V c main_v72) (V c main_v73) ((cfg1.win 0).blk t).view.emb
      ((cfg1.win 1).blk t).view.emb ((cfg1.win 4).blk t).view.emb ((cfg1.win 2).blk t).view.emb ((cfg1.win 3).blk t).view.emb
      (fun _ _ => rfl) (fun _ _ => rfl) (fun _ _ => rfl) (fun _ _ => rfl) (fun _ _ => rfl) (idx1 t) _ _))
    fun i => (rows_cover (ix := win1_4.index) (fun t => (idx1 t).1) i).imp fun t h => ⟨flush1_4 t, by
      show i ∈ ((View.whole (Pipeline.arrRef spec1 4)).slice (win1_4.rect t)).set
      rw [View.set_slice_whole, Rect.mem_set_unit]
      exact h⟩

theorem idx5 : ∀ t : Fin cfg5.N,
    CombIdx (win5_0.index t) (win5_1.index t) (win5_2.index t) (win5_3.index t) (win5_4.index t) t.val :=
  (by decide +kernel : ∀ t : Fin grid5.N, _)

theorem arrAt5 (c : Dev nD) :
    (dat5 (F := Ideal) V c).arrAt 4 cfg5.N = Cert.Spec.comb (V c main_v123) (V c main_v109) (V c main_v124) (V c main_v125) :=
  (dat5 (F := Ideal) V c).arrAt_eq_of_cover 4 _ (fun t _ => by
    rw [Pipeline.Dat.flushed, after5_4, out5_4, View.canon_unit_zero hz2]
    simp only [View.ld_unit_zero (S := S2000x128) hz2, View.ld_unit_zero (S := S2000x1) hz2, View.ld_unit_zero (S := S1x128) hz2]
    funext j
    rw [eq_ix2 j]
    exact (comb_apply _ _ _ _ _ _).trans (comb_rows (V c main_v123) (V c main_v109) (V c main_v124) (V c main_v125) ((cfg5.win 0).blk t).view.emb
      ((cfg5.win 1).blk t).view.emb ((cfg5.win 4).blk t).view.emb ((cfg5.win 2).blk t).view.emb ((cfg5.win 3).blk t).view.emb
      (fun _ _ => rfl) (fun _ _ => rfl) (fun _ _ => rfl) (fun _ _ => rfl) (fun _ _ => rfl) (idx5 t) _ _))
    fun i => (rows_cover (ix := win5_4.index) (fun t => (idx5 t).1) i).imp fun t h => ⟨flush5_4 t, by
      show i ∈ ((View.whole (Pipeline.arrRef spec5 4)).slice (win5_4.rect t)).set
      rw [View.set_slice_whole, Rect.mem_set_unit]
      exact h⟩

theorem idx9 : ∀ t : Fin cfg9.N,
    CombIdx (win9_0.index t) (win9_1.index t) (win9_2.index t) (win9_3.index t) (win9_4.index t) t.val :=
  (by decide +kernel : ∀ t : Fin grid9.N, _)

theorem arrAt9 (c : Dev nD) :
    (dat9 (F := Ideal) V c).arrAt 4 cfg9.N = Cert.Spec.comb (V c main_v175) (V c main_v161) (V c main_v176) (V c main_v177) :=
  (dat9 (F := Ideal) V c).arrAt_eq_of_cover 4 _ (fun t _ => by
    rw [Pipeline.Dat.flushed, after9_4, out9_4, View.canon_unit_zero hz2]
    simp only [View.ld_unit_zero (S := S2000x128) hz2, View.ld_unit_zero (S := S2000x1) hz2, View.ld_unit_zero (S := S1x128) hz2]
    funext j
    rw [eq_ix2 j]
    exact (comb_apply _ _ _ _ _ _).trans (comb_rows (V c main_v175) (V c main_v161) (V c main_v176) (V c main_v177) ((cfg9.win 0).blk t).view.emb
      ((cfg9.win 1).blk t).view.emb ((cfg9.win 4).blk t).view.emb ((cfg9.win 2).blk t).view.emb ((cfg9.win 3).blk t).view.emb
      (fun _ _ => rfl) (fun _ _ => rfl) (fun _ _ => rfl) (fun _ _ => rfl) (fun _ _ => rfl) (idx9 t) _ _))
    fun i => (rows_cover (ix := win9_4.index) (fun t => (idx9 t).1) i).imp fun t h => ⟨flush9_4 t, by
      show i ∈ ((View.whole (Pipeline.arrRef spec9 4)).slice (win9_4.rect t)).set
      rw [View.set_slice_whole, Rect.mem_set_unit]
      exact h⟩

end Cert.KernelIdeal.Hand
-- ==== Proof.KI.Read3.lean ====
import proofs.«400674_j14499809591724_2_alg».proof.Proof.KI.Reg3
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem zeros3 : (![0, 0] : Fin 2 → Nat) = fun _ => 0 := funext fun a => by fin_cases a <;> rfl

section Cases

variable {c : Dev nD} {i : grid3.Coords} {arg1 : Memref sig .tc .vmem S2000x128 .f32} {harg1 : arg1.IsWhole} {arg2 : Memref sig .tc .vmem S2000x128 .bf16} {harg2 : arg2.IsWhole} {arg3 : Memref sig .tc .vmem S2000x1 .f32} {harg3 : arg3.IsWhole} {arg4 : Memref sig .tc .vmem S1x128 .f32} {harg4 : arg4.IsWhole} {arg5 : Memref sig .tc .vmem S2000x128 .bf16} {harg5 : arg5.IsWhole} {arg6 : Memref sig .tc .vmem S128x128 .f32} {harg6 : arg6.IsWhole} {arg7 : Memref sig .tc .vmem S128x128 .f32} {harg7 : arg7.IsWhole} {arg8 : Memref sig .tc .vmem S1x128 .f32} {harg8 : arg8.IsWhole} {arg9 : Memref sig .tc .vmem S2000x1 .i32} {harg9 : arg9.IsWhole} {arg10 : Memref sig .tc .vmem S2000x128 .f32} {harg10 : arg10.IsWhole} {arg11 : Memref sig .tc .vmem S512x128 .f32} {harg11 : arg11.IsWhole} {arg12 : Memref sig .tc .vmem S512x128 .f32} {harg12 : arg12.IsWhole}
  {x0 : Vec F S2000x128 .f32} {x1 : Vec F S2000x128 .bf16} {x2 : Vec F S2000x1 .f32} {x3 : Vec F S1x128 .f32} {x4 : Vec F S2000x128 .bf16} {x5 : Vec F S128x128 .f32} {x6 : Vec F S128x128 .f32} {x7 : Vec F S1x128 .f32} {x8 : Vec F S2000x1 .i32} {xs : Vec F S512x128 .f32}

theorem run3_A_eq {hc0 : cond3_0 i} {hc1 : ¬cond3_1 i} :
    out3_A_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 = k3_pay1 (k3_pay4 x0 x1 x2 x3 x4 x5 x6 x7) (k3_pay5 (F := F)) ∧
    sout3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 = k3_pay2 (k3_pay4 x0 x1 x2 x3 x4 x5 x6 x7) (k3_pay5 (F := F)) x8 (k3_pay3 (F := F)) := by
  unfold out3_A_9 sout3_A kernelRun3_A
  dsimp only
  sl_unfold_run_names
  refine ⟨?_, ?_⟩ <;> simp only [View.readAt_eq_ld, Memref.IsWhole.read_unread, View.canon_unit_zero (S := S2000x128) zeros3, View.canon_unit_zero (S := S512x128) zeros3,
    View.canon_cons_unit_zero (S := S512x128) zeros3, View.ld_unit_zero (S := S2000x128) zeros3, View.ld_unit_zero (S := S2000x1) zeros3,
    View.ld_unit_zero (S := S1x128) zeros3, View.ld_unit_zero (S := S128x128) zeros3, View.ld_unit_zero (S := S512x128) zeros3,
    View.readCov_unit_zero (S := S512x128) _ zeros3]

theorem run3_B_eq {hc0 : ¬cond3_0 i} {hc1 : ¬cond3_1 i} :
    out3_B_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs = k3_pay1 (k3_pay4 x0 x1 x2 x3 x4 x5 x6 x7) (k3_pay5 (F := F)) ∧
    sout3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs = k3_pay2 (k3_pay4 x0 x1 x2 x3 x4 x5 x6 x7) (k3_pay5 (F := F)) x8 xs := by
  unfold out3_B_9 sout3_B kernelRun3_B
  dsimp only
  sl_unfold_run_names
  refine ⟨?_, ?_⟩ <;> simp only [View.readAt_eq_ld, Memref.IsWhole.read_unread, View.canon_unit_zero (S := S2000x128) zeros3, View.canon_unit_zero (S := S512x128) zeros3,
    View.canon_cons_unit_zero (S := S512x128) zeros3, View.ld_unit_zero (S := S2000x128) zeros3, View.ld_unit_zero (S := S2000x1) zeros3,
    View.ld_unit_zero (S := S1x128) zeros3, View.ld_unit_zero (S := S128x128) zeros3, View.ld_unit_zero (S := S512x128) zeros3,
    View.readCov_unit_zero (S := S512x128) _ zeros3]

theorem run3_C_eq {hc0 : ¬cond3_0 i} {hc1 : cond3_1 i} :
    out3_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs = k3_pay1 (k3_pay4 x0 x1 x2 x3 x4 x5 x6 x7) (k3_pay5 (F := F)) ∧
    out3_C_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs = k3_pay2 (k3_pay4 x0 x1 x2 x3 x4 x5 x6 x7) (k3_pay5 (F := F)) x8 xs ∧
    sout3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs = k3_pay2 (k3_pay4 x0 x1 x2 x3 x4 x5 x6 x7) (k3_pay5 (F := F)) x8 xs := by
  unfold out3_C_9 out3_C_10 sout3_C kernelRun3_C
  dsimp only
  sl_unfold_run_names
  refine ⟨?_, ?_, ?_⟩ <;> simp only [View.readAt_eq_ld, Memref.IsWhole.read_unread, View.canon_unit_zero (S := S2000x128) zeros3, View.canon_unit_zero (S := S512x128) zeros3,
    View.canon_cons_unit_zero (S := S512x128) zeros3, View.ld_unit_zero (S := S2000x128) zeros3, View.ld_unit_zero (S := S2000x1) zeros3,
    View.ld_unit_zero (S := S1x128) zeros3, View.ld_unit_zero (S := S128x128) zeros3, View.ld_unit_zero (S := S512x128) zeros3,
    View.readCov_unit_zero (S := S512x128) _ zeros3]

end Cases

variable (V : (c : Dev nD) → (b : Ref sig .tc) → Buf (Elt F) ((c : Thread nD τ).loc b))

abbrev tile3 (c : Dev nD) (t : Fin cfg3.N) : FVec F S2000x128 .f32 :=
  k3_pay4 (iblk3 V c 0 t) (iblk3 V c 1 t) (iblk3 V c 2 t) (iblk3 V c 3 t) (iblk3 V c 4 t) (iblk3 V c 5 t) (iblk3 V c 6 t) (iblk3 V c 7 t)

theorem out3_9_eq (c : Dev nD) (t : Fin cfg3.N) : out3_9 V c t = k3_pay1 (tile3 V c t) (k3_pay5 (F := F)) := by
  rw [show out3_9 V c t = (outsAt3 V c t.val t.isLt).1 from rfl]
  by_cases h1 : t.val % 25 = 24
  · rw [outsAt3_C V c t h1]; dsimp only; exact run3_C_eq.1
  · by_cases h0 : t.val % 25 = 0
    · rw [outsAt3_A V c t h0]; dsimp only; exact run3_A_eq.1
    · rw [outsAt3_B V c t h0 h1]; dsimp only; exact run3_B_eq.1

theorem acc3_zero (c : Dev nD) (h : 0 < cfg3.N) :
    acc3 V c ⟨0, h⟩ = k3_pay2 (tile3 V c ⟨0, h⟩) (k3_pay5 (F := F)) (iblk3 V c 8 ⟨0, h⟩) (k3_pay3 (F := F)) := by
  rw [show acc3 V c ⟨0, h⟩ = (outsAt3 V c (⟨0, h⟩ : Fin cfg3.N).val (⟨0, h⟩ : Fin cfg3.N).isLt).2.2 from rfl,
    outsAt3_A V c ⟨0, h⟩ (Nat.zero_mod 25)]
  dsimp only; exact run3_A_eq.2

theorem acc3_succ (c : Dev nD) (n : ℕ) (h : n + 1 < cfg3.N) :
    acc3 V c ⟨n + 1, h⟩ = k3_pay2 (tile3 V c ⟨n + 1, h⟩) (k3_pay5 (F := F)) (iblk3 V c 8 ⟨n + 1, h⟩) (acc3 V c ⟨n, Nat.lt_of_succ_lt h⟩) := by
  rw [show acc3 V c ⟨n + 1, h⟩ = (outsAt3 V c (⟨n + 1, h⟩ : Fin cfg3.N).val (⟨n + 1, h⟩ : Fin cfg3.N).isLt).2.2 from rfl]
  have hN : n + 1 < 25 := lt_of_lt_of_eq h N_3
  have h0 : ¬(n + 1) % 25 = 0 := by omega
  by_cases h1 : (n + 1) % 25 = 24
  · rw [outsAt3_C V c ⟨n + 1, h⟩ h1]; dsimp only; exact run3_C_eq.2.2
  · rw [outsAt3_B V c ⟨n + 1, h⟩ h0 h1]; dsimp only; exact run3_B_eq.2

theorem out3_10_last (c : Dev nD) (t : Fin cfg3.N) (ht : t.val % 25 = 24) : out3_10 V c t = acc3 V c t := by
  rw [show out3_10 V c t = (outsAt3 V c t.val t.isLt).2.1 from rfl, show acc3 V c t = (outsAt3 V c t.val t.isLt).2.2 from rfl,
    outsAt3_C V c t ht]
  dsimp only
  exact run3_C_eq.2.1.trans run3_C_eq.2.2.symm

end Cert.KernelIdeal.Hand

end
-- ==== Proof.KI.ValStage2Lib.lean ====
import proofs.«400674_j14499809591724_2_alg».proof.Proof.Gen.KernelIdeal.Skeleton
import proofs.«400674_j14499809591724_2_alg».proof.Proof.Spec
import Idealize.ShloMosaic.Lib.ValueIdx
import Idealize.ShloMosaic.Lib.Pipeline.Value
import Idealize.ShloMosaic.Lib.KernelVsHost
import Idealize.ShloMosaic.PureOps.Ideal.Laws

set_option maxRecDepth 16384

noncomputable section

namespace Cert.KernelIdeal.Hand.Stage2

open Idealize.ShloMosaic Idealize.ShloMosaic.TcCoe Idealize.SL.Sem Idealize.ShloMosaic.ValueIdx
open Cert.KernelIdeal Cert.KernelIdeal.Gen
open scoped BigOperators

abbrev dM := dot_S2000x128_S128x128_S2000x128_1_0_0_1_n_n
theorem dM_rank : dM.contr.rank = 1 := rfl

theorem mmM_apply {φ₁ φ₂ : FTy} (x : FVec Ideal S2000x128 φ₁) (w : FVec Ideal S128x128 φ₂) (r : Fin 2000) (j : Fin 128) :
    FloatOps.matmul dM none x w (constant S2000x128 .f32 0x00000000#32) (ix2 r j) = ∑ k : Fin 128, x (ix2 r k) * w (ix2 k j) := by
  rw [Ideal.matmul_constant_zero_apply]
  rw [← Equiv.sum_comp (contrEquiv1 dM 128 dM_rank rfl).symm]
  refine Finset.sum_congr rfl fun k _ => ?_
  have hk := contrEquiv1_symm_val dM 128 dM_rank rfl k
  congr 2
  · exact Shape.idx_ext₂ rfl hk
  · exact Shape.idx_ext₂ hk rfl

theorem bcastCol_apply {α : Type} (x : S2000x1.Idx → α) (r : Fin 2000) (j : Fin 128) :
    broadcastTo S2000x128 x broadcasts_S2000x1_S2000x128 (ix2 r j) = x (ix2 r 0) :=
  broadcastTo_apply x _ _ (ix2 r 0) (by intro a; match a with | ⟨0, _⟩ => rfl | ⟨1, _⟩ => rfl)

theorem bcastRow_apply {α : Type} (x : S1x128.Idx → α) (r : Fin 2000) (j : Fin 128) :
    broadcastTo S2000x128 x broadcasts_S1x128_S2000x128 (ix2 r j) = x (ix2 0 j) :=
  broadcastTo_apply x _ _ (ix2 0 j) (by intro a; match a with | ⟨0, _⟩ => rfl | ⟨1, _⟩ => rfl)

abbrev dP := dot_S2000x512_S2000x128_S512x128_0_0_1_1_n_n
theorem dP_rank : dP.contr.rank = 1 := rfl

theorem sitofp_cmpi_eq (a b : BitVec 32) :
    (Scalar.sitofp .f32 ((IntOp.cmpi .eq a b).setWidth 32) : Ideal .f32) = if a = b then (1 : EReal) else 0 := by
  by_cases h : a = b
  · subst h
    rw [if_pos rfl]
    have e : IntOp.cmpi .eq a a = 1#1 := by simp [IntOp.cmpi]
    rw [e]
    show ((((1#1 : BitVec 1).setWidth 32).toInt : ℝ) : EReal) = 1
    have : ((1#1 : BitVec 1).setWidth 32).toInt = 1 := by decide
    rw [this]; norm_num
  · rw [if_neg h]
    have hb : (a == b) = false := beq_eq_false_iff_ne.mpr h
    have e : IntOp.cmpi .eq a b = 0#1 := by simp only [IntOp.cmpi, hb]; rfl
    rw [e]
    exact sitofp_zero

theorem onehot_apply (v38 : Vec Ideal S2000x1 .i32) (n : Fin 2000) (g : Fin 512) :
    (sitofp .f32 (extui 32 (cmpi .eq (broadcastTo S2000x512 v38 broadcasts_S2000x1_S2000x512)
        (iota .tc S2000x512 32 [1] iota_S2000x512_d1_w32)) natLt_1_32) : FVec Ideal S2000x512 .f32) (ix2 n g)
      = if v38 (ix2 n 0) = BitVec.ofNat 32 g.val then (1 : EReal) else 0 := by
  rw [sitofp_apply, extui_apply]
  unfold cmpi
  rw [broadcastTo_apply (k := ix2 n 0) (hk := by intro a; match a with | ⟨0, _⟩ => rfl | ⟨1, _⟩ => rfl), iota_single_apply]
  exact sitofp_cmpi_eq _ _

theorem mmP_apply {φ₁ φ₂ : FTy} (x : FVec Ideal S2000x512 φ₁) (y : FVec Ideal S2000x128 φ₂) (g : Fin 512) (j : Fin 128) :
    FloatOps.matmul dP none x y (constant S512x128 .f32 0x00000000#32) (ix2 g j) = ∑ n : Fin 2000, x (ix2 n g) * y (ix2 n j) := by
  rw [Ideal.matmul_constant_zero_apply, ← Equiv.sum_comp (contrEquiv1 dP 2000 dP_rank rfl).symm]
  refine Finset.sum_congr rfl fun k _ => ?_
  have hk := contrEquiv1_symm_val dP 2000 dP_rank rfl k
  congr 2
  · exact Shape.idx_ext₂ hk rfl
  · exact Shape.idx_ext₂ hk rfl

theorem sum_rows (f : Fin 50000 → EReal) :
    ∑ m : Fin 50000, f m
      = ∑ s : Fin 25, ∑ n : Fin 2000, f ⟨2000 * s.val + n.val, by have := s.isLt; have := n.isLt; omega⟩ := by
  rw [← (finProdFinEquiv (m := 25) (n := 2000)).sum_comp f, Fintype.sum_prod_type]
  refine Finset.sum_congr rfl fun s _ => Finset.sum_congr rfl fun n _ => ?_
  congr 1
  apply Fin.ext
  show n.val + 2000 * s.val = 2000 * s.val + n.val
  omega

theorem tileH_apply (v3 : Vec Ideal S2000x128 .f32) (v5 : Vec Ideal S2000x128 .bf16) (v8 : Vec Ideal S2000x1 .f32) (v13 : Vec Ideal S1x128 .f32)
    (v19 : Vec Ideal S2000x128 .bf16) (v22 v25 : Vec Ideal S128x128 .f32) (v31 : Vec Ideal S1x128 .f32) (r : Fin 2000) (j : Fin 128) :
    k3_pay1 (k3_pay4 v3 v5 v8 v13 v19 v22 v25 v31) (k3_pay5 (F := Ideal)) (ix2 r j)
      = max ((∑ k : Fin 128, v19 (ix2 r k) * v22 (ix2 k j))
          + (∑ k : Fin 128, max (v3 (ix2 r k) + v5 (ix2 r k) * v8 (ix2 r 0) + v13 (ix2 0 k)) 0 * v25 (ix2 k j)) + v31 (ix2 0 j)) 0 := by
  unfold k3_pay1 k3_pay4 k3_pay5
  simp only [shapeCast_self, maximumf_apply, addf_apply, matmul, mmM_apply, truncf_apply, extf_apply, mulf_apply, bcastCol_apply, bcastRow_apply,
    broadcast_apply]
  have hz : (FloatOps.ofBits (F := Ideal) .f32 0#32) = (0 : EReal) := Ideal.ofBits_zero_f32
  rw [hz]

-- The one-hot factor keeps exactly the rows whose batch word is g.
theorem pay2_apply (v34 v35 : FVec Ideal S2000x128 .f32) (v38 : Vec Ideal S2000x1 .i32) (v48 : Vec Ideal S512x128 .f32) (g : Fin 512) (j : Fin 128) :
    k3_pay2 v34 v35 v38 v48 (ix2 g j)
      = v48 (ix2 g j) + ∑ n ∈ Finset.univ.filter (fun n : Fin 2000 => v38 (ix2 n 0) = BitVec.ofNat 32 g.val), k3_pay1 v34 v35 (ix2 n j) := by
  unfold k3_pay2
  simp only [shapeCast_self, addf_apply, matmul, mmP_apply, truncf_apply, onehot_apply]
  rw [Finset.sum_filter]
  congr 1
  refine Finset.sum_congr rfl fun n _ => ?_
  rw [onehot_apply]
  by_cases hc : v38 (ix2 n 0) = BitVec.ofNat 32 g.val
  · rw [if_pos hc, if_pos hc, one_mul]
  · rw [if_neg hc, if_neg hc, zero_mul]

theorem pay3_apply (i : S512x128.Idx) : (k3_pay3 (F := Ideal)) i = 0 := by
  unfold k3_pay3
  simp only [shapeCast_self, broadcast_apply]
  exact Ideal.ofBits_zero_f32

-- Started from zero and stepped once a point, the carried sum is the sum over the points so far.
theorem acc_apply (N : ℕ) (H : ℕ → FVec Ideal S2000x128 .f32) (B : ℕ → Vec Ideal S2000x1 .i32) (acc : ℕ → Vec Ideal S512x128 .f32)
    (h0 : acc 0 = k3_pay2 (H 0) (k3_pay5 (F := Ideal)) (B 0) (k3_pay3 (F := Ideal)))
    (hs : ∀ t, t + 1 < N → acc (t + 1) = k3_pay2 (H (t + 1)) (k3_pay5 (F := Ideal)) (B (t + 1)) (acc t)) (g : Fin 512) (j : Fin 128) :
    ∀ t, t < N → acc t (ix2 g j)
      = ∑ s ∈ Finset.range (t + 1), ∑ n ∈ Finset.univ.filter (fun n : Fin 2000 => B s (ix2 n 0) = BitVec.ofNat 32 g.val),
          k3_pay1 (H s) (k3_pay5 (F := Ideal)) (ix2 n j)
  | 0, _ => by rw [h0, pay2_apply, pay3_apply, zero_add, Finset.sum_range_one]
  | t + 1, ht => by
    rw [hs t ht, pay2_apply, acc_apply N H B acc h0 hs g j t (by omega), Finset.sum_range_succ _ (t + 1)]

variable {N : ℕ}

def rowAt (hN : N = 25) (t : Fin N) (r : Fin 2000) : Fin 50000 := ⟨2000 * t.val + r.val, by have := t.isLt; have := r.isLt; omega⟩

def ext {α : Type} (f : Fin N → α) (d : α) (s : ℕ) : α := if h : s < N then f ⟨s, h⟩ else d
theorem ext_lt {α : Type} (f : Fin N → α) (d : α) {s : ℕ} (h : s < N) : ext f d s = f ⟨s, h⟩ := dif_pos h

-- On each axis an entry of the block sits at the block's offset plus its own coordinate.
theorem emb_eq {G : Pipeline.Grid} (w : Pipeline.Window sig G) (t : Fin G.N) (y : (w.xblock (G.coords t)).Idx) (i : w.shape.Idx)
    (o : Fin w.shape.rank → ℕ) (ho : ∀ a, w.index t a * w.size a = o a) (h : ∀ a, o a + (y a).val = (i a).val) : (w.rect t).emb y = i :=
  funext fun a => Fin.ext ((w.rect_emb_val t y a).trans ((congrArg (· + (y a).val) (ho a)).trans (h a)))

theorem row_idx (hN : N = 25) (t : Fin N) (r : Fin 2000) {n : ℕ} (j : Fin n) (a : Fin 2) :
    (if a = 0 then 2000 * t.val else 0) + (ix2 r j a).val = (ix2 (rowAt hN t r) j a).val := by
  match a with
  | ⟨0, _⟩ => rfl
  | ⟨1, _⟩ => exact Nat.zero_add _

variable {aAgg aXw : Cert.Spec.RA Cert.Spec.SNH} {aD2 : Cert.Spec.RA Cert.Spec.SN1} {aB : Cert.Spec.RA Cert.Spec.S1H} {aH0 : Cert.Spec.RA Cert.Spec.SNH}
  {aW0 aW1 : Cert.Spec.RA Cert.Spec.SHH} {aJb : Cert.Spec.RA Cert.Spec.S1H} {aBt : Cert.Spec.IA Cert.Spec.SN1}

-- Blocks that are the rows ρ r of the arrays give the layer's rows ρ r.
theorem tile_eq_spec {b0 : Vec Ideal S2000x128 .f32} {b1 : Vec Ideal S2000x128 .bf16} {b2 : Vec Ideal S2000x1 .f32} {b3 : Vec Ideal S1x128 .f32}
    {b4 : Vec Ideal S2000x128 .bf16} {b5 b6 : Vec Ideal S128x128 .f32} {b7 : Vec Ideal S1x128 .f32} (ρ : Fin 2000 → Fin 50000)
    (h0 : ∀ r j, b0 (ix2 r j) = aAgg (ix2 (ρ r) j)) (h1 : ∀ r j, b1 (ix2 r j) = aXw (ix2 (ρ r) j)) (h2 : ∀ r, b2 (ix2 r 0) = aD2 (ix2 (ρ r) 0))
    (h3 : ∀ y, b3 y = aB y) (h4 : ∀ r j, b4 (ix2 r j) = aH0 (ix2 (ρ r) j)) (h5 : ∀ y, b5 y = aW0 y) (h6 : ∀ y, b6 y = aW1 y) (h7 : ∀ y, b7 y = aJb y)
    (r : Fin 2000) (j : Fin 128) :
    k3_pay1 (k3_pay4 b0 b1 b2 b3 b4 b5 b6 b7) (k3_pay5 (F := Ideal)) (ix2 r j)
      = Cert.Spec.jk (Cert.Spec.comb aAgg aXw aD2 aB) aH0 aW0 aW1 aJb (ix2 (ρ r) j) := by
  rw [tileH_apply]
  simp only [h0, h1, h2, h3, h4, h5, h6, h7]
  rfl

-- The sum over the 25 tiles of each tile's rows with batch word g is the sum over all 50000 rows with batch word g.
theorem pooled_eq (hN : N = 25) (sH : Cert.Spec.RA Cert.Spec.SNH) (H : Fin N → FVec Ideal S2000x128 .f32) (B : Fin N → Vec Ideal S2000x1 .i32)
    (acc : Fin N → Vec Ideal S512x128 .f32)
    (hH : ∀ t r j, k3_pay1 (H t) (k3_pay5 (F := Ideal)) (ix2 r j) = sH (ix2 (rowAt hN t r) j))
    (hB : ∀ t r, B t (ix2 r 0) = aBt (ix2 (rowAt hN t r) 0))
    (h0 : ∀ h : 0 < N, acc ⟨0, h⟩ = k3_pay2 (H ⟨0, h⟩) (k3_pay5 (F := Ideal)) (B ⟨0, h⟩) (k3_pay3 (F := Ideal)))
    (hs : ∀ (n : ℕ) (h : n + 1 < N), acc ⟨n + 1, h⟩ = k3_pay2 (H ⟨n + 1, h⟩) (k3_pay5 (F := Ideal)) (B ⟨n + 1, h⟩) (acc ⟨n, Nat.lt_of_succ_lt h⟩))
    (h24 : 24 < N) (g : Fin 512) (j : Fin 128) :
    acc ⟨24, h24⟩ (ix2 g j) = Cert.Spec.pool sH aBt (ix2 g j) := by
  have h0' : ext acc (k3_pay3 (F := Ideal)) 0 = k3_pay2 (ext H (k3_pay5 (F := Ideal)) 0) (k3_pay5 (F := Ideal)) (ext B (fun _ => 0#32) 0) (k3_pay3 (F := Ideal)) := by
    have hp : 0 < N := by omega
    rw [ext_lt acc _ hp, ext_lt H _ hp, ext_lt B _ hp]
    exact h0 hp
  have hs' : ∀ t, t + 1 < N → ext acc (k3_pay3 (F := Ideal)) (t + 1)
      = k3_pay2 (ext H (k3_pay5 (F := Ideal)) (t + 1)) (k3_pay5 (F := Ideal)) (ext B (fun _ => 0#32) (t + 1)) (ext acc (k3_pay3 (F := Ideal)) t) := by
    intro t ht
    rw [ext_lt acc _ ht, ext_lt H _ ht, ext_lt B _ ht, ext_lt acc _ (Nat.lt_of_succ_lt ht)]
    exact hs t ht
  rw [← ext_lt acc (k3_pay3 (F := Ideal)) h24, acc_apply N _ _ _ h0' hs' g j 24 h24]
  show _ = ∑ n ∈ Finset.univ.filter (fun n : Fin 50000 => aBt (ix2 n 0) = BitVec.ofNat 32 g.val), sH (ix2 n j)
  rw [Finset.sum_filter, sum_rows]
  show ∑ s ∈ Finset.range 25, _ = _
  rw [← Fin.sum_univ_eq_sum_range (fun s => ∑ n ∈ Finset.univ.filter (fun n : Fin 2000 => ext B (fun _ => 0#32) s (ix2 n 0) = BitVec.ofNat 32 g.val),
    k3_pay1 (ext H (k3_pay5 (F := Ideal)) s) (k3_pay5 (F := Ideal)) (ix2 n j)) 25]
  refine Finset.sum_congr rfl fun s _ => ?_
  rw [Finset.sum_filter]
  refine Finset.sum_congr rfl fun n _ => ?_
  have hsN : s.val < N := by have := s.isLt; omega
  rw [ext_lt H _ hsN, ext_lt B _ hsN, hH, hB]
  rfl

end Cert.KernelIdeal.Hand.Stage2
-- ==== Proof.KI.ValStage2R3.lean ====
import proofs.«400674_j14499809591724_2_alg».proof.Proof.KI.Read3
import proofs.«400674_j14499809591724_2_alg».proof.Proof.KI.ValStage2Lib

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Hand.Stage2
open scoped BigOperators

variable (V : (c : Dev nD) → (b : Ref sig .tc) → Buf (Elt Ideal) ((c : Thread nD τ).loc b))

namespace Stage2.R3

theorem off_rows : ∀ t : Fin cfg3.N, ∀ a : Fin 2,
    ((cfg3.win 0).index t a * (cfg3.win 0).size a = (if a = 0 then 2000 * t.val else 0)) ∧
    ((cfg3.win 1).index t a * (cfg3.win 1).size a = (if a = 0 then 2000 * t.val else 0)) ∧
    ((cfg3.win 4).index t a * (cfg3.win 4).size a = (if a = 0 then 2000 * t.val else 0)) ∧
    ((cfg3.win 9).index t a * (cfg3.win 9).size a = (if a = 0 then 2000 * t.val else 0)) ∧
    ((cfg3.win 2).index t a * (cfg3.win 2).size a = (if a = 0 then 2000 * t.val else 0)) ∧
    ((cfg3.win 8).index t a * (cfg3.win 8).size a = (if a = 0 then 2000 * t.val else 0)) := by
  decide +kernel

theorem off_whole : ∀ t : Fin cfg3.N, ∀ a : Fin 2,
    ((cfg3.win 3).index t a * (cfg3.win 3).size a = 0) ∧
    ((cfg3.win 5).index t a * (cfg3.win 5).size a = 0) ∧
    ((cfg3.win 6).index t a * (cfg3.win 6).size a = 0) ∧
    ((cfg3.win 7).index t a * (cfg3.win 7).size a = 0) ∧
    ((cfg3.win 10).index t a * (cfg3.win 10).size a = 0) := by
  decide +kernel

section Reads

variable (c : Dev nD) (t : Fin cfg3.N) (r : Fin 2000) (j : Fin 128)

theorem read_0 (A : Buf (Elt Ideal) ((c : Thread nD τ).loc (Pipeline.arrRef spec3 0))) :
    ((cfg3.win 0).blk t).view.read (Elt Ideal) A (ix2 r j) = A (ix2 (rowAt N_3 t r) j) :=
  congrArg A (emb_eq (cfg3.win 0) t (ix2 r j) (ix2 (rowAt N_3 t r) j) (fun a : Fin 2 => if a = 0 then 2000 * t.val else 0) (fun a => (off_rows t a).1) (row_idx N_3 t r j))

theorem read_1 (A : Buf (Elt Ideal) ((c : Thread nD τ).loc (Pipeline.arrRef spec3 1))) :
    ((cfg3.win 1).blk t).view.read (Elt Ideal) A (ix2 r j) = A (ix2 (rowAt N_3 t r) j) :=
  congrArg A (emb_eq (cfg3.win 1) t (ix2 r j) (ix2 (rowAt N_3 t r) j) (fun a : Fin 2 => if a = 0 then 2000 * t.val else 0) (fun a => (off_rows t a).2.1) (row_idx N_3 t r j))

theorem read_4 (A : Buf (Elt Ideal) ((c : Thread nD τ).loc (Pipeline.arrRef spec3 4))) :
    ((cfg3.win 4).blk t).view.read (Elt Ideal) A (ix2 r j) = A (ix2 (rowAt N_3 t r) j) :=
  congrArg A (emb_eq (cfg3.win 4) t (ix2 r j) (ix2 (rowAt N_3 t r) j) (fun a : Fin 2 => if a = 0 then 2000 * t.val else 0) (fun a => (off_rows t a).2.2.1) (row_idx N_3 t r j))

theorem read_9 (A : Buf (Elt Ideal) ((c : Thread nD τ).loc (Pipeline.arrRef spec3 9))) :
    ((cfg3.win 9).blk t).view.read (Elt Ideal) A (ix2 r j) = A (ix2 (rowAt N_3 t r) j) :=
  congrArg A (emb_eq (cfg3.win 9) t (ix2 r j) (ix2 (rowAt N_3 t r) j) (fun a : Fin 2 => if a = 0 then 2000 * t.val else 0) (fun a => (off_rows t a).2.2.2.1) (row_idx N_3 t r j))

theorem read_2 (A : Buf (Elt Ideal) ((c : Thread nD τ).loc (Pipeline.arrRef spec3 2))) :
    ((cfg3.win 2).blk t).view.read (Elt Ideal) A (ix2 r 0) = A (ix2 (rowAt N_3 t r) 0) :=
  congrArg A (emb_eq (cfg3.win 2) t (ix2 r 0) (ix2 (rowAt N_3 t r) 0) (fun a : Fin 2 => if a = 0 then 2000 * t.val else 0) (fun a => (off_rows t a).2.2.2.2.1) (row_idx N_3 t r (0 : Fin 1)))

theorem read_8 (A : Buf (Elt Ideal) ((c : Thread nD τ).loc (Pipeline.arrRef spec3 8))) :
    ((cfg3.win 8).blk t).view.read (Elt Ideal) A (ix2 r 0) = A (ix2 (rowAt N_3 t r) 0) :=
  congrArg A (emb_eq (cfg3.win 8) t (ix2 r 0) (ix2 (rowAt N_3 t r) 0) (fun a : Fin 2 => if a = 0 then 2000 * t.val else 0) (fun a => (off_rows t a).2.2.2.2.2) (row_idx N_3 t r (0 : Fin 1)))

theorem read_3 (A : Buf (Elt Ideal) ((c : Thread nD τ).loc (Pipeline.arrRef spec3 3))) (y : S1x128.Idx) :
    ((cfg3.win 3).blk t).view.read (Elt Ideal) A y = A y :=
  congrArg A (emb_eq (cfg3.win 3) t y y (fun _ => 0) (fun a => (off_whole t a).1) fun _ => Nat.zero_add _)

theorem read_5 (A : Buf (Elt Ideal) ((c : Thread nD τ).loc (Pipeline.arrRef spec3 5))) (y : S128x128.Idx) :
    ((cfg3.win 5).blk t).view.read (Elt Ideal) A y = A y :=
  congrArg A (emb_eq (cfg3.win 5) t y y (fun _ => 0) (fun a => (off_whole t a).2.1) fun _ => Nat.zero_add _)

theorem read_6 (A : Buf (Elt Ideal) ((c : Thread nD τ).loc (Pipeline.arrRef spec3 6))) (y : S128x128.Idx) :
    ((cfg3.win 6).blk t).view.read (Elt Ideal) A y = A y :=
  congrArg A (emb_eq (cfg3.win 6) t y y (fun _ => 0) (fun a => (off_whole t a).2.2.1) fun _ => Nat.zero_add _)

theorem read_7 (A : Buf (Elt Ideal) ((c : Thread nD τ).loc (Pipeline.arrRef spec3 7))) (y : S1x128.Idx) :
    ((cfg3.win 7).blk t).view.read (Elt Ideal) A y = A y :=
  congrArg A (emb_eq (cfg3.win 7) t y y (fun _ => 0) (fun a => (off_whole t a).2.2.2.1) fun _ => Nat.zero_add _)

theorem read_10 (A : Buf (Elt Ideal) ((c : Thread nD τ).loc (Pipeline.arrRef spec3 10))) (y : S512x128.Idx) :
    ((cfg3.win 10).blk t).view.read (Elt Ideal) A y = A y :=
  congrArg A (emb_eq (cfg3.win 10) t y y (fun _ => 0) (fun a => (off_whole t a).2.2.2.2) fun _ => Nat.zero_add _)

end Reads

theorem cover_9 (i : S50000x128.Idx) : ∃ t : Fin cfg3.N, (cfg3.win 9).flush t = true ∧ i ∈ ((cfg3.win 9).blk t).view.set := by
  have h0 : (i 0 : ℕ) < 50000 := (i 0).isLt
  have h1 : (i 1 : ℕ) < 128 := (i 1).isLt
  have hN : cfg3.N = 25 := N_3
  let t : Fin cfg3.N := ⟨(i 0 : ℕ) / 2000, by rw [hN]; omega⟩
  refine ⟨t, flush3_9 t, ?_⟩
  show i ∈ ((View.whole (Pipeline.arrRef spec3 9)).slice ((cfg3.win 9).rect t)).set
  rw [View.set_slice_whole, Rect.mem_set_unit]
  intro a
  match a with
  | ⟨0, _⟩ =>
    show (cfg3.win 9).index t 0 * (cfg3.win 9).size 0 ≤ (i 0 : ℕ) ∧ (i 0 : ℕ) < (cfg3.win 9).index t 0 * (cfg3.win 9).size 0 + 2000
    rw [(off_rows t 0).2.2.2.1]
    show 2000 * ((i 0 : ℕ) / 2000) ≤ (i 0 : ℕ) ∧ (i 0 : ℕ) < 2000 * ((i 0 : ℕ) / 2000) + 2000
    omega
  | ⟨1, _⟩ =>
    show (cfg3.win 9).index t 1 * (cfg3.win 9).size 1 ≤ (i 1 : ℕ) ∧ (i 1 : ℕ) < (cfg3.win 9).index t 1 * (cfg3.win 9).size 1 + 128
    rw [(off_rows t 1).2.2.2.1]
    show 0 ≤ (i 1 : ℕ) ∧ (i 1 : ℕ) < 0 + 128
    omega

theorem cover_10 (i : S512x128.Idx) : ∃ t : Fin cfg3.N, (cfg3.win 10).flush t = true ∧ i ∈ ((cfg3.win 10).blk t).view.set := by
  have h0 : (i 0 : ℕ) < 512 := (i 0).isLt
  have h1 : (i 1 : ℕ) < 128 := (i 1).isLt
  have hN : cfg3.N = 25 := N_3
  let t : Fin cfg3.N := ⟨24, by rw [hN]; omega⟩
  refine ⟨t, (flush3_10 t).mpr rfl, ?_⟩
  show i ∈ ((View.whole (Pipeline.arrRef spec3 10)).slice ((cfg3.win 10).rect t)).set
  rw [View.set_slice_whole, Rect.mem_set_unit]
  intro a
  match a with
  | ⟨0, _⟩ =>
    show (cfg3.win 10).index t 0 * (cfg3.win 10).size 0 ≤ (i 0 : ℕ) ∧ (i 0 : ℕ) < (cfg3.win 10).index t 0 * (cfg3.win 10).size 0 + 512
    rw [(off_whole t 0).2.2.2.2]; omega
  | ⟨1, _⟩ =>
    show (cfg3.win 10).index t 1 * (cfg3.win 10).size 1 ≤ (i 1 : ℕ) ∧ (i 1 : ℕ) < (cfg3.win 10).index t 1 * (cfg3.win 10).size 1 + 128
    rw [(off_whole t 1).2.2.2.2]; omega

abbrev specH (c : Dev nD) : Cert.Spec.RA Cert.Spec.SNH :=
  Cert.Spec.jk (Cert.Spec.comb (V c (Pipeline.arrRef spec3 0)) (V c (Pipeline.arrRef spec3 1)) (V c (Pipeline.arrRef spec3 2)) (V c (Pipeline.arrRef spec3 3))) (V c (Pipeline.arrRef spec3 4)) (V c (Pipeline.arrRef spec3 5)) (V c (Pipeline.arrRef spec3 6)) (V c (Pipeline.arrRef spec3 7))

abbrev specP (c : Dev nD) : Cert.Spec.RA Cert.Spec.SGH := Cert.Spec.pool (specH V c) (V c (Pipeline.arrRef spec3 8))

theorem tile_spec (c : Dev nD) (t : Fin cfg3.N) (r : Fin 2000) (j : Fin 128) :
    k3_pay1 (tile3 V c t) (k3_pay5 (F := Ideal)) (ix2 r j) = specH V c (ix2 (rowAt N_3 t r) j) :=
  tile_eq_spec (rowAt N_3 t) (fun r j => read_0 c t r j _) (fun r j => read_1 c t r j _) (fun r => read_2 c t r _) (fun y => read_3 c t _ y)
    (fun r j => read_4 c t r j _) (fun y => read_5 c t _ y) (fun y => read_6 c t _ y) (fun y => read_7 c t _ y) r j

theorem arrAtH (c : Dev nD) : (dat3 (F := Ideal) V c).arrAt 9 cfg3.N = specH V c :=
  (dat3 (F := Ideal) V c).arrAt_eq_of_cover 9 (specH V c) (fun t _ => by
    show (cfg3.win 9).cut (cfg3.grid.coords t) ((dat3 (F := Ideal) V c).after 9 t) = _
    rw [after3_9, out3_9_eq]
    funext y
    obtain ⟨r, j, rfl⟩ : ∃ (r : Fin 2000) (j : Fin 128), y = ix2 r j := ⟨y 0, y 1, eq_ix2 (n0 := 2000) (n1 := 128) y⟩
    exact (tile_spec V c t r j).trans (read_9 c t r j (specH V c)).symm) cover_9

theorem arrAtP (c : Dev nD) : (dat3 (F := Ideal) V c).arrAt 10 cfg3.N = specP V c :=
  (dat3 (F := Ideal) V c).arrAt_eq_of_cover 10 (specP V c) (fun t hf => by
    have ht : t.val % 25 = 24 := (flush3_10 t).mp hf
    show (cfg3.win 10).cut (cfg3.grid.coords t) ((dat3 (F := Ideal) V c).after 10 t) = _
    rw [after3_10, out3_10_last V c t ht]
    funext y
    obtain ⟨g, j, rfl⟩ : ∃ (g : Fin 512) (j : Fin 128), y = ix2 g j := ⟨y 0, y 1, eq_ix2 (n0 := 512) (n1 := 128) y⟩
    refine Eq.trans ?_ (read_10 c t (specP V c) (ix2 g j)).symm
    obtain ⟨n, hn⟩ := t
    have hn24 : n = 24 := by
      have hlt : n < 25 := lt_of_lt_of_eq hn N_3
      have h' : n % 25 = 24 := ht
      omega
    subst hn24
    exact pooled_eq N_3 (specH V c) (tile3 V c) (iblk3 V c 8) (acc3 V c) (tile_spec V c) (fun t r => read_8 c t r _)
      (acc3_zero V c) (acc3_succ V c) hn g j) cover_10

end Stage2.R3

theorem arrAt3_h (c : Dev nD) : (dat3 V c).arrAt 9 cfg3.N
    = Cert.Spec.jk (Cert.Spec.comb (V c main_v89) (V c main_v75) (V c main_v96) (V c main_v97)) (V c main_v74) (V c main_v94) (V c main_v95) (V c main_v98) :=
  Stage2.R3.arrAtH V c

theorem arrAt3_p (c : Dev nD) : (dat3 V c).arrAt 10 cfg3.N
    = Cert.Spec.pool (Cert.Spec.jk (Cert.Spec.comb (V c main_v89) (V c main_v75) (V c main_v96) (V c main_v97)) (V c main_v74) (V c main_v94) (V c main_v95) (V c main_v98)) (V c main_v99) :=
  Stage2.R3.arrAtP V c

end Cert.KernelIdeal.Hand
-- ==== Proof.KI.Read7.lean ====
import proofs.«400674_j14499809591724_2_alg».proof.Proof.KI.Reg7
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem zeros7 : (![0, 0] : Fin 2 → Nat) = fun _ => 0 := funext fun a => by fin_cases a <;> rfl

section Cases

variable {c : Dev nD} {i : grid7.Coords} {arg1 : Memref sig .tc .vmem S2000x128 .f32} {harg1 : arg1.IsWhole} {arg2 : Memref sig .tc .vmem S2000x128 .bf16} {harg2 : arg2.IsWhole} {arg3 : Memref sig .tc .vmem S2000x1 .f32} {harg3 : arg3.IsWhole} {arg4 : Memref sig .tc .vmem S1x128 .f32} {harg4 : arg4.IsWhole} {arg5 : Memref sig .tc .vmem S2000x128 .bf16} {harg5 : arg5.IsWhole} {arg6 : Memref sig .tc .vmem S128x128 .f32} {harg6 : arg6.IsWhole} {arg7 : Memref sig .tc .vmem S128x128 .f32} {harg7 : arg7.IsWhole} {arg8 : Memref sig .tc .vmem S1x128 .f32} {harg8 : arg8.IsWhole} {arg9 : Memref sig .tc .vmem S2000x1 .i32} {harg9 : arg9.IsWhole} {arg10 : Memref sig .tc .vmem S2000x128 .f32} {harg10 : arg10.IsWhole} {arg11 : Memref sig .tc .vmem S512x128 .f32} {harg11 : arg11.IsWhole} {arg12 : Memref sig .tc .vmem S512x128 .f32} {harg12 : arg12.IsWhole}
  {x0 : Vec F S2000x128 .f32} {x1 : Vec F S2000x128 .bf16} {x2 : Vec F S2000x1 .f32} {x3 : Vec F S1x128 .f32} {x4 : Vec F S2000x128 .bf16} {x5 : Vec F S128x128 .f32} {x6 : Vec F S128x128 .f32} {x7 : Vec F S1x128 .f32} {x8 : Vec F S2000x1 .i32} {xs : Vec F S512x128 .f32}

theorem run7_A_eq {hc0 : cond7_0 i} {hc1 : ¬cond7_1 i} :
    out7_A_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 = k7_pay1 (k7_pay4 x0 x1 x2 x3 x4 x5 x6 x7) (k7_pay5 (F := F)) ∧
    sout7_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 = k7_pay2 (k7_pay4 x0 x1 x2 x3 x4 x5 x6 x7) (k7_pay5 (F := F)) x8 (k7_pay3 (F := F)) := by
  unfold out7_A_9 sout7_A kernelRun7_A
  dsimp only
  sl_unfold_run_names
  refine ⟨?_, ?_⟩ <;> simp only [View.readAt_eq_ld, Memref.IsWhole.read_unread, View.canon_unit_zero (S := S2000x128) zeros7, View.canon_unit_zero (S := S512x128) zeros7,
    View.canon_cons_unit_zero (S := S512x128) zeros7, View.ld_unit_zero (S := S2000x128) zeros7, View.ld_unit_zero (S := S2000x1) zeros7,
    View.ld_unit_zero (S := S1x128) zeros7, View.ld_unit_zero (S := S128x128) zeros7, View.ld_unit_zero (S := S512x128) zeros7,
    View.readCov_unit_zero (S := S512x128) _ zeros7]

theorem run7_B_eq {hc0 : ¬cond7_0 i} {hc1 : ¬cond7_1 i} :
    out7_B_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs = k7_pay1 (k7_pay4 x0 x1 x2 x3 x4 x5 x6 x7) (k7_pay5 (F := F)) ∧
    sout7_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs = k7_pay2 (k7_pay4 x0 x1 x2 x3 x4 x5 x6 x7) (k7_pay5 (F := F)) x8 xs := by
  unfold out7_B_9 sout7_B kernelRun7_B
  dsimp only
  sl_unfold_run_names
  refine ⟨?_, ?_⟩ <;> simp only [View.readAt_eq_ld, Memref.IsWhole.read_unread, View.canon_unit_zero (S := S2000x128) zeros7, View.canon_unit_zero (S := S512x128) zeros7,
    View.canon_cons_unit_zero (S := S512x128) zeros7, View.ld_unit_zero (S := S2000x128) zeros7, View.ld_unit_zero (S := S2000x1) zeros7,
    View.ld_unit_zero (S := S1x128) zeros7, View.ld_unit_zero (S := S128x128) zeros7, View.ld_unit_zero (S := S512x128) zeros7,
    View.readCov_unit_zero (S := S512x128) _ zeros7]

theorem run7_C_eq {hc0 : ¬cond7_0 i} {hc1 : cond7_1 i} :
    out7_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs = k7_pay1 (k7_pay4 x0 x1 x2 x3 x4 x5 x6 x7) (k7_pay5 (F := F)) ∧
    out7_C_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs = k7_pay2 (k7_pay4 x0 x1 x2 x3 x4 x5 x6 x7) (k7_pay5 (F := F)) x8 xs ∧
    sout7_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs = k7_pay2 (k7_pay4 x0 x1 x2 x3 x4 x5 x6 x7) (k7_pay5 (F := F)) x8 xs := by
  unfold out7_C_9 out7_C_10 sout7_C kernelRun7_C
  dsimp only
  sl_unfold_run_names
  refine ⟨?_, ?_, ?_⟩ <;> simp only [View.readAt_eq_ld, Memref.IsWhole.read_unread, View.canon_unit_zero (S := S2000x128) zeros7, View.canon_unit_zero (S := S512x128) zeros7,
    View.canon_cons_unit_zero (S := S512x128) zeros7, View.ld_unit_zero (S := S2000x128) zeros7, View.ld_unit_zero (S := S2000x1) zeros7,
    View.ld_unit_zero (S := S1x128) zeros7, View.ld_unit_zero (S := S128x128) zeros7, View.ld_unit_zero (S := S512x128) zeros7,
    View.readCov_unit_zero (S := S512x128) _ zeros7]

end Cases

variable (V : (c : Dev nD) → (b : Ref sig .tc) → Buf (Elt F) ((c : Thread nD τ).loc b))

abbrev tile7 (c : Dev nD) (t : Fin cfg7.N) : FVec F S2000x128 .f32 :=
  k7_pay4 (iblk7 V c 0 t) (iblk7 V c 1 t) (iblk7 V c 2 t) (iblk7 V c 3 t) (iblk7 V c 4 t) (iblk7 V c 5 t) (iblk7 V c 6 t) (iblk7 V c 7 t)

theorem out7_9_eq (c : Dev nD) (t : Fin cfg7.N) : out7_9 V c t = k7_pay1 (tile7 V c t) (k7_pay5 (F := F)) := by
  rw [show out7_9 V c t = (outsAt7 V c t.val t.isLt).1 from rfl]
  by_cases h1 : t.val % 25 = 24
  · rw [outsAt7_C V c t h1]; dsimp only; exact run7_C_eq.1
  · by_cases h0 : t.val % 25 = 0
    · rw [outsAt7_A V c t h0]; dsimp only; exact run7_A_eq.1
    · rw [outsAt7_B V c t h0 h1]; dsimp only; exact run7_B_eq.1

theorem acc7_zero (c : Dev nD) (h : 0 < cfg7.N) :
    acc7 V c ⟨0, h⟩ = k7_pay2 (tile7 V c ⟨0, h⟩) (k7_pay5 (F := F)) (iblk7 V c 8 ⟨0, h⟩) (k7_pay3 (F := F)) := by
  rw [show acc7 V c ⟨0, h⟩ = (outsAt7 V c (⟨0, h⟩ : Fin cfg7.N).val (⟨0, h⟩ : Fin cfg7.N).isLt).2.2 from rfl,
    outsAt7_A V c ⟨0, h⟩ (Nat.zero_mod 25)]
  dsimp only; exact run7_A_eq.2

theorem acc7_succ (c : Dev nD) (n : ℕ) (h : n + 1 < cfg7.N) :
    acc7 V c ⟨n + 1, h⟩ = k7_pay2 (tile7 V c ⟨n + 1, h⟩) (k7_pay5 (F := F)) (iblk7 V c 8 ⟨n + 1, h⟩) (acc7 V c ⟨n, Nat.lt_of_succ_lt h⟩) := by
  rw [show acc7 V c ⟨n + 1, h⟩ = (outsAt7 V c (⟨n + 1, h⟩ : Fin cfg7.N).val (⟨n + 1, h⟩ : Fin cfg7.N).isLt).2.2 from rfl]
  have hN : n + 1 < 25 := lt_of_lt_of_eq h N_7
  have h0 : ¬(n + 1) % 25 = 0 := by omega
  by_cases h1 : (n + 1) % 25 = 24
  · rw [outsAt7_C V c ⟨n + 1, h⟩ h1]; dsimp only; exact run7_C_eq.2.2
  · rw [outsAt7_B V c ⟨n + 1, h⟩ h0 h1]; dsimp only; exact run7_B_eq.2

theorem out7_10_last (c : Dev nD) (t : Fin cfg7.N) (ht : t.val % 25 = 24) : out7_10 V c t = acc7 V c t := by
  rw [show out7_10 V c t = (outsAt7 V c t.val t.isLt).2.1 from rfl, show acc7 V c t = (outsAt7 V c t.val t.isLt).2.2 from rfl,
    outsAt7_C V c t ht]
  dsimp only
  exact run7_C_eq.2.1.trans run7_C_eq.2.2.symm

end Cert.KernelIdeal.Hand

end
-- ==== Proof.KI.ValStage2R7.lean ====
import proofs.«400674_j14499809591724_2_alg».proof.Proof.KI.Read7
import proofs.«400674_j14499809591724_2_alg».proof.Proof.KI.ValStage2Lib

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Hand.Stage2
open scoped BigOperators

variable (V : (c : Dev nD) → (b : Ref sig .tc) → Buf (Elt Ideal) ((c : Thread nD τ).loc b))

namespace Stage2.R7

theorem off_rows : ∀ t : Fin cfg7.N, ∀ a : Fin 2,
    ((cfg7.win 0).index t a * (cfg7.win 0).size a = (if a = 0 then 2000 * t.val else 0)) ∧
    ((cfg7.win 1).index t a * (cfg7.win 1).size a = (if a = 0 then 2000 * t.val else 0)) ∧
    ((cfg7.win 4).index t a * (cfg7.win 4).size a = (if a = 0 then 2000 * t.val else 0)) ∧
    ((cfg7.win 9).index t a * (cfg7.win 9).size a = (if a = 0 then 2000 * t.val else 0)) ∧
    ((cfg7.win 2).index t a * (cfg7.win 2).size a = (if a = 0 then 2000 * t.val else 0)) ∧
    ((cfg7.win 8).index t a * (cfg7.win 8).size a = (if a = 0 then 2000 * t.val else 0)) := by
  decide +kernel

theorem off_whole : ∀ t : Fin cfg7.N, ∀ a : Fin 2,
    ((cfg7.win 3).index t a * (cfg7.win 3).size a = 0) ∧
    ((cfg7.win 5).index t a * (cfg7.win 5).size a = 0) ∧
    ((cfg7.win 6).index t a * (cfg7.win 6).size a = 0) ∧
    ((cfg7.win 7).index t a * (cfg7.win 7).size a = 0) ∧
    ((cfg7.win 10).index t a * (cfg7.win 10).size a = 0) := by
  decide +kernel

section Reads

variable (c : Dev nD) (t : Fin cfg7.N) (r : Fin 2000) (j : Fin 128)

theorem read_0 (A : Buf (Elt Ideal) ((c : Thread nD τ).loc (Pipeline.arrRef spec7 0))) :
    ((cfg7.win 0).blk t).view.read (Elt Ideal) A (ix2 r j) = A (ix2 (rowAt N_7 t r) j) :=
  congrArg A (emb_eq (cfg7.win 0) t (ix2 r j) (ix2 (rowAt N_7 t r) j) (fun a : Fin 2 => if a = 0 then 2000 * t.val else 0) (fun a => (off_rows t a).1) (row_idx N_7 t r j))

theorem read_1 (A : Buf (Elt Ideal) ((c : Thread nD τ).loc (Pipeline.arrRef spec7 1))) :
    ((cfg7.win 1).blk t).view.read (Elt Ideal) A (ix2 r j) = A (ix2 (rowAt N_7 t r) j) :=
  congrArg A (emb_eq (cfg7.win 1) t (ix2 r j) (ix2 (rowAt N_7 t r) j) (fun a : Fin 2 => if a = 0 then 2000 * t.val else 0) (fun a => (off_rows t a).2.1) (row_idx N_7 t r j))

theorem read_4 (A : Buf (Elt Ideal) ((c : Thread nD τ).loc (Pipeline.arrRef spec7 4))) :
    ((cfg7.win 4).blk t).view.read (Elt Ideal) A (ix2 r j) = A (ix2 (rowAt N_7 t r) j) :=
  congrArg A (emb_eq (cfg7.win 4) t (ix2 r j) (ix2 (rowAt N_7 t r) j) (fun a : Fin 2 => if a = 0 then 2000 * t.val else 0) (fun a => (off_rows t a).2.2.1) (row_idx N_7 t r j))

theorem read_9 (A : Buf (Elt Ideal) ((c : Thread nD τ).loc (Pipeline.arrRef spec7 9))) :
    ((cfg7.win 9).blk t).view.read (Elt Ideal) A (ix2 r j) = A (ix2 (rowAt N_7 t r) j) :=
  congrArg A (emb_eq (cfg7.win 9) t (ix2 r j) (ix2 (rowAt N_7 t r) j) (fun a : Fin 2 => if a = 0 then 2000 * t.val else 0) (fun a => (off_rows t a).2.2.2.1) (row_idx N_7 t r j))

theorem read_2 (A : Buf (Elt Ideal) ((c : Thread nD τ).loc (Pipeline.arrRef spec7 2))) :
    ((cfg7.win 2).blk t).view.read (Elt Ideal) A (ix2 r 0) = A (ix2 (rowAt N_7 t r) 0) :=
  congrArg A (emb_eq (cfg7.win 2) t (ix2 r 0) (ix2 (rowAt N_7 t r) 0) (fun a : Fin 2 => if a = 0 then 2000 * t.val else 0) (fun a => (off_rows t a).2.2.2.2.1) (row_idx N_7 t r (0 : Fin 1)))

theorem read_8 (A : Buf (Elt Ideal) ((c : Thread nD τ).loc (Pipeline.arrRef spec7 8))) :
    ((cfg7.win 8).blk t).view.read (Elt Ideal) A (ix2 r 0) = A (ix2 (rowAt N_7 t r) 0) :=
  congrArg A (emb_eq (cfg7.win 8) t (ix2 r 0) (ix2 (rowAt N_7 t r) 0) (fun a : Fin 2 => if a = 0 then 2000 * t.val else 0) (fun a => (off_rows t a).2.2.2.2.2) (row_idx N_7 t r (0 : Fin 1)))

theorem read_3 (A : Buf (Elt Ideal) ((c : Thread nD τ).loc (Pipeline.arrRef spec7 3))) (y : S1x128.Idx) :
    ((cfg7.win 3).blk t).view.read (Elt Ideal) A y = A y :=
  congrArg A (emb_eq (cfg7.win 3) t y y (fun _ => 0) (fun a => (off_whole t a).1) fun _ => Nat.zero_add _)

theorem read_5 (A : Buf (Elt Ideal) ((c : Thread nD τ).loc (Pipeline.arrRef spec7 5))) (y : S128x128.Idx) :
    ((cfg7.win 5).blk t).view.read (Elt Ideal) A y = A y :=
  congrArg A (emb_eq (cfg7.win 5) t y y (fun _ => 0) (fun a => (off_whole t a).2.1) fun _ => Nat.zero_add _)

theorem read_6 (A : Buf (Elt Ideal) ((c : Thread nD τ).loc (Pipeline.arrRef spec7 6))) (y : S128x128.Idx) :
    ((cfg7.win 6).blk t).view.read (Elt Ideal) A y = A y :=
  congrArg A (emb_eq (cfg7.win 6) t y y (fun _ => 0) (fun a => (off_whole t a).2.2.1) fun _ => Nat.zero_add _)

theorem read_7 (A : Buf (Elt Ideal) ((c : Thread nD τ).loc (Pipeline.arrRef spec7 7))) (y : S1x128.Idx) :
    ((cfg7.win 7).blk t).view.read (Elt Ideal) A y = A y :=
  congrArg A (emb_eq (cfg7.win 7) t y y (fun _ => 0) (fun a => (off_whole t a).2.2.2.1) fun _ => Nat.zero_add _)

theorem read_10 (A : Buf (Elt Ideal) ((c : Thread nD τ).loc (Pipeline.arrRef spec7 10))) (y : S512x128.Idx) :
    ((cfg7.win 10).blk t).view.read (Elt Ideal) A y = A y :=
  congrArg A (emb_eq (cfg7.win 10) t y y (fun _ => 0) (fun a => (off_whole t a).2.2.2.2) fun _ => Nat.zero_add _)

end Reads

theorem cover_9 (i : S50000x128.Idx) : ∃ t : Fin cfg7.N, (cfg7.win 9).flush t = true ∧ i ∈ ((cfg7.win 9).blk t).view.set := by
  have h0 : (i 0 : ℕ) < 50000 := (i 0).isLt
  have h1 : (i 1 : ℕ) < 128 := (i 1).isLt
  have hN : cfg7.N = 25 := N_7
  let t : Fin cfg7.N := ⟨(i 0 : ℕ) / 2000, by rw [hN]; omega⟩
  refine ⟨t, flush7_9 t, ?_⟩
  show i ∈ ((View.whole (Pipeline.arrRef spec7 9)).slice ((cfg7.win 9).rect t)).set
  rw [View.set_slice_whole, Rect.mem_set_unit]
  intro a
  match a with
  | ⟨0, _⟩ =>
    show (cfg7.win 9).index t 0 * (cfg7.win 9).size 0 ≤ (i 0 : ℕ) ∧ (i 0 : ℕ) < (cfg7.win 9).index t 0 * (cfg7.win 9).size 0 + 2000
    rw [(off_rows t 0).2.2.2.1]
    show 2000 * ((i 0 : ℕ) / 2000) ≤ (i 0 : ℕ) ∧ (i 0 : ℕ) < 2000 * ((i 0 : ℕ) / 2000) + 2000
    omega
  | ⟨1, _⟩ =>
    show (cfg7.win 9).index t 1 * (cfg7.win 9).size 1 ≤ (i 1 : ℕ) ∧ (i 1 : ℕ) < (cfg7.win 9).index t 1 * (cfg7.win 9).size 1 + 128
    rw [(off_rows t 1).2.2.2.1]
    show 0 ≤ (i 1 : ℕ) ∧ (i 1 : ℕ) < 0 + 128
    omega

theorem cover_10 (i : S512x128.Idx) : ∃ t : Fin cfg7.N, (cfg7.win 10).flush t = true ∧ i ∈ ((cfg7.win 10).blk t).view.set := by
  have h0 : (i 0 : ℕ) < 512 := (i 0).isLt
  have h1 : (i 1 : ℕ) < 128 := (i 1).isLt
  have hN : cfg7.N = 25 := N_7
  let t : Fin cfg7.N := ⟨24, by rw [hN]; omega⟩
  refine ⟨t, (flush7_10 t).mpr rfl, ?_⟩
  show i ∈ ((View.whole (Pipeline.arrRef spec7 10)).slice ((cfg7.win 10).rect t)).set
  rw [View.set_slice_whole, Rect.mem_set_unit]
  intro a
  match a with
  | ⟨0, _⟩ =>
    show (cfg7.win 10).index t 0 * (cfg7.win 10).size 0 ≤ (i 0 : ℕ) ∧ (i 0 : ℕ) < (cfg7.win 10).index t 0 * (cfg7.win 10).size 0 + 512
    rw [(off_whole t 0).2.2.2.2]; omega
  | ⟨1, _⟩ =>
    show (cfg7.win 10).index t 1 * (cfg7.win 10).size 1 ≤ (i 1 : ℕ) ∧ (i 1 : ℕ) < (cfg7.win 10).index t 1 * (cfg7.win 10).size 1 + 128
    rw [(off_whole t 1).2.2.2.2]; omega

abbrev specH (c : Dev nD) : Cert.Spec.RA Cert.Spec.SNH :=
  Cert.Spec.jk (Cert.Spec.comb (V c (Pipeline.arrRef spec7 0)) (V c (Pipeline.arrRef spec7 1)) (V c (Pipeline.arrRef spec7 2)) (V c (Pipeline.arrRef spec7 3))) (V c (Pipeline.arrRef spec7 4)) (V c (Pipeline.arrRef spec7 5)) (V c (Pipeline.arrRef spec7 6)) (V c (Pipeline.arrRef spec7 7))

abbrev specP (c : Dev nD) : Cert.Spec.RA Cert.Spec.SGH := Cert.Spec.pool (specH V c) (V c (Pipeline.arrRef spec7 8))

theorem tile_spec (c : Dev nD) (t : Fin cfg7.N) (r : Fin 2000) (j : Fin 128) :
    k3_pay1 (tile7 V c t) (k3_pay5 (F := Ideal)) (ix2 r j) = specH V c (ix2 (rowAt N_7 t r) j) :=
  tile_eq_spec (rowAt N_7 t) (fun r j => read_0 c t r j _) (fun r j => read_1 c t r j _) (fun r => read_2 c t r _) (fun y => read_3 c t _ y)
    (fun r j => read_4 c t r j _) (fun y => read_5 c t _ y) (fun y => read_6 c t _ y) (fun y => read_7 c t _ y) r j

theorem arrAtH (c : Dev nD) : (dat7 (F := Ideal) V c).arrAt 9 cfg7.N = specH V c :=
  (dat7 (F := Ideal) V c).arrAt_eq_of_cover 9 (specH V c) (fun t _ => by
    show (cfg7.win 9).cut (cfg7.grid.coords t) ((dat7 (F := Ideal) V c).after 9 t) = _
    rw [after7_9, out7_9_eq]
    funext y
    obtain ⟨r, j, rfl⟩ : ∃ (r : Fin 2000) (j : Fin 128), y = ix2 r j := ⟨y 0, y 1, eq_ix2 (n0 := 2000) (n1 := 128) y⟩
    exact (tile_spec V c t r j).trans (read_9 c t r j (specH V c)).symm) cover_9

theorem arrAtP (c : Dev nD) : (dat7 (F := Ideal) V c).arrAt 10 cfg7.N = specP V c :=
  (dat7 (F := Ideal) V c).arrAt_eq_of_cover 10 (specP V c) (fun t hf => by
    have ht : t.val % 25 = 24 := (flush7_10 t).mp hf
    show (cfg7.win 10).cut (cfg7.grid.coords t) ((dat7 (F := Ideal) V c).after 10 t) = _
    rw [after7_10, out7_10_last V c t ht]
    funext y
    obtain ⟨g, j, rfl⟩ : ∃ (g : Fin 512) (j : Fin 128), y = ix2 g j := ⟨y 0, y 1, eq_ix2 (n0 := 512) (n1 := 128) y⟩
    refine Eq.trans ?_ (read_10 c t (specP V c) (ix2 g j)).symm
    obtain ⟨n, hn⟩ := t
    have hn24 : n = 24 := by
      have hlt : n < 25 := lt_of_lt_of_eq hn N_7
      have h' : n % 25 = 24 := ht
      omega
    subst hn24
    exact pooled_eq N_7 (specH V c) (tile7 V c) (iblk7 V c 8) (acc7 V c) (tile_spec V c) (fun t r => read_8 c t r _)
      (acc7_zero V c) (acc7_succ V c) hn g j) cover_10

end Stage2.R7

theorem arrAt7_h (c : Dev nD) : (dat7 V c).arrAt 9 cfg7.N
    = Cert.Spec.jk (Cert.Spec.comb (V c main_v141) (V c main_v127) (V c main_v148) (V c main_v149)) (V c main_v126) (V c main_v146) (V c main_v147) (V c main_v150) :=
  Stage2.R7.arrAtH V c

theorem arrAt7_p (c : Dev nD) : (dat7 V c).arrAt 10 cfg7.N
    = Cert.Spec.pool (Cert.Spec.jk (Cert.Spec.comb (V c main_v141) (V c main_v127) (V c main_v148) (V c main_v149)) (V c main_v126) (V c main_v146) (V c main_v147) (V c main_v150)) (V c main_v151) :=
  Stage2.R7.arrAtP V c

end Cert.KernelIdeal.Hand
-- ==== Proof.KI.Read11.lean ====
import proofs.«400674_j14499809591724_2_alg».proof.Proof.KI.Reg11
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem zeros11 : (![0, 0] : Fin 2 → Nat) = fun _ => 0 := funext fun a => by fin_cases a <;> rfl

section Cases

variable {c : Dev nD} {i : grid11.Coords} {arg1 : Memref sig .tc .vmem S2000x128 .f32} {harg1 : arg1.IsWhole} {arg2 : Memref sig .tc .vmem S2000x128 .bf16} {harg2 : arg2.IsWhole} {arg3 : Memref sig .tc .vmem S2000x1 .f32} {harg3 : arg3.IsWhole} {arg4 : Memref sig .tc .vmem S1x128 .f32} {harg4 : arg4.IsWhole} {arg5 : Memref sig .tc .vmem S2000x128 .bf16} {harg5 : arg5.IsWhole} {arg6 : Memref sig .tc .vmem S128x128 .f32} {harg6 : arg6.IsWhole} {arg7 : Memref sig .tc .vmem S128x128 .f32} {harg7 : arg7.IsWhole} {arg8 : Memref sig .tc .vmem S1x128 .f32} {harg8 : arg8.IsWhole} {arg9 : Memref sig .tc .vmem S2000x1 .i32} {harg9 : arg9.IsWhole} {arg10 : Memref sig .tc .vmem S2000x128 .f32} {harg10 : arg10.IsWhole} {arg11 : Memref sig .tc .vmem S512x128 .f32} {harg11 : arg11.IsWhole} {arg12 : Memref sig .tc .vmem S512x128 .f32} {harg12 : arg12.IsWhole}
  {x0 : Vec F S2000x128 .f32} {x1 : Vec F S2000x128 .bf16} {x2 : Vec F S2000x1 .f32} {x3 : Vec F S1x128 .f32} {x4 : Vec F S2000x128 .bf16} {x5 : Vec F S128x128 .f32} {x6 : Vec F S128x128 .f32} {x7 : Vec F S1x128 .f32} {x8 : Vec F S2000x1 .i32} {xs : Vec F S512x128 .f32}

theorem run11_A_eq {hc0 : cond11_0 i} {hc1 : ¬cond11_1 i} :
    out11_A_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 = k11_pay1 (k11_pay4 x0 x1 x2 x3 x4 x5 x6 x7) (k11_pay5 (F := F)) ∧
    sout11_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 = k11_pay2 (k11_pay4 x0 x1 x2 x3 x4 x5 x6 x7) (k11_pay5 (F := F)) x8 (k11_pay3 (F := F)) := by
  unfold out11_A_9 sout11_A kernelRun11_A
  dsimp only
  sl_unfold_run_names
  refine ⟨?_, ?_⟩ <;> simp only [View.readAt_eq_ld, Memref.IsWhole.read_unread, View.canon_unit_zero (S := S2000x128) zeros11, View.canon_unit_zero (S := S512x128) zeros11,
    View.canon_cons_unit_zero (S := S512x128) zeros11, View.ld_unit_zero (S := S2000x128) zeros11, View.ld_unit_zero (S := S2000x1) zeros11,
    View.ld_unit_zero (S := S1x128) zeros11, View.ld_unit_zero (S := S128x128) zeros11, View.ld_unit_zero (S := S512x128) zeros11,
    View.readCov_unit_zero (S := S512x128) _ zeros11]

theorem run11_B_eq {hc0 : ¬cond11_0 i} {hc1 : ¬cond11_1 i} :
    out11_B_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs = k11_pay1 (k11_pay4 x0 x1 x2 x3 x4 x5 x6 x7) (k11_pay5 (F := F)) ∧
    sout11_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs = k11_pay2 (k11_pay4 x0 x1 x2 x3 x4 x5 x6 x7) (k11_pay5 (F := F)) x8 xs := by
  unfold out11_B_9 sout11_B kernelRun11_B
  dsimp only
  sl_unfold_run_names
  refine ⟨?_, ?_⟩ <;> simp only [View.readAt_eq_ld, Memref.IsWhole.read_unread, View.canon_unit_zero (S := S2000x128) zeros11, View.canon_unit_zero (S := S512x128) zeros11,
    View.canon_cons_unit_zero (S := S512x128) zeros11, View.ld_unit_zero (S := S2000x128) zeros11, View.ld_unit_zero (S := S2000x1) zeros11,
    View.ld_unit_zero (S := S1x128) zeros11, View.ld_unit_zero (S := S128x128) zeros11, View.ld_unit_zero (S := S512x128) zeros11,
    View.readCov_unit_zero (S := S512x128) _ zeros11]

theorem run11_C_eq {hc0 : ¬cond11_0 i} {hc1 : cond11_1 i} :
    out11_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs = k11_pay1 (k11_pay4 x0 x1 x2 x3 x4 x5 x6 x7) (k11_pay5 (F := F)) ∧
    out11_C_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs = k11_pay2 (k11_pay4 x0 x1 x2 x3 x4 x5 x6 x7) (k11_pay5 (F := F)) x8 xs ∧
    sout11_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs = k11_pay2 (k11_pay4 x0 x1 x2 x3 x4 x5 x6 x7) (k11_pay5 (F := F)) x8 xs := by
  unfold out11_C_9 out11_C_10 sout11_C kernelRun11_C
  dsimp only
  sl_unfold_run_names
  refine ⟨?_, ?_, ?_⟩ <;> simp only [View.readAt_eq_ld, Memref.IsWhole.read_unread, View.canon_unit_zero (S := S2000x128) zeros11, View.canon_unit_zero (S := S512x128) zeros11,
    View.canon_cons_unit_zero (S := S512x128) zeros11, View.ld_unit_zero (S := S2000x128) zeros11, View.ld_unit_zero (S := S2000x1) zeros11,
    View.ld_unit_zero (S := S1x128) zeros11, View.ld_unit_zero (S := S128x128) zeros11, View.ld_unit_zero (S := S512x128) zeros11,
    View.readCov_unit_zero (S := S512x128) _ zeros11]

end Cases

variable (V : (c : Dev nD) → (b : Ref sig .tc) → Buf (Elt F) ((c : Thread nD τ).loc b))

abbrev tile11 (c : Dev nD) (t : Fin cfg11.N) : FVec F S2000x128 .f32 :=
  k11_pay4 (iblk11 V c 0 t) (iblk11 V c 1 t) (iblk11 V c 2 t) (iblk11 V c 3 t) (iblk11 V c 4 t) (iblk11 V c 5 t) (iblk11 V c 6 t) (iblk11 V c 7 t)

theorem out11_9_eq (c : Dev nD) (t : Fin cfg11.N) : out11_9 V c t = k11_pay1 (tile11 V c t) (k11_pay5 (F := F)) := by
  rw [show out11_9 V c t = (outsAt11 V c t.val t.isLt).1 from rfl]
  by_cases h1 : t.val % 25 = 24
  · rw [outsAt11_C V c t h1]; dsimp only; exact run11_C_eq.1
  · by_cases h0 : t.val % 25 = 0
    · rw [outsAt11_A V c t h0]; dsimp only; exact run11_A_eq.1
    · rw [outsAt11_B V c t h0 h1]; dsimp only; exact run11_B_eq.1

theorem acc11_zero (c : Dev nD) (h : 0 < cfg11.N) :
    acc11 V c ⟨0, h⟩ = k11_pay2 (tile11 V c ⟨0, h⟩) (k11_pay5 (F := F)) (iblk11 V c 8 ⟨0, h⟩) (k11_pay3 (F := F)) := by
  rw [show acc11 V c ⟨0, h⟩ = (outsAt11 V c (⟨0, h⟩ : Fin cfg11.N).val (⟨0, h⟩ : Fin cfg11.N).isLt).2.2 from rfl,
    outsAt11_A V c ⟨0, h⟩ (Nat.zero_mod 25)]
  dsimp only; exact run11_A_eq.2

theorem acc11_succ (c : Dev nD) (n : ℕ) (h : n + 1 < cfg11.N) :
    acc11 V c ⟨n + 1, h⟩ = k11_pay2 (tile11 V c ⟨n + 1, h⟩) (k11_pay5 (F := F)) (iblk11 V c 8 ⟨n + 1, h⟩) (acc11 V c ⟨n, Nat.lt_of_succ_lt h⟩) := by
  rw [show acc11 V c ⟨n + 1, h⟩ = (outsAt11 V c (⟨n + 1, h⟩ : Fin cfg11.N).val (⟨n + 1, h⟩ : Fin cfg11.N).isLt).2.2 from rfl]
  have hN : n + 1 < 25 := lt_of_lt_of_eq h N_11
  have h0 : ¬(n + 1) % 25 = 0 := by omega
  by_cases h1 : (n + 1) % 25 = 24
  · rw [outsAt11_C V c ⟨n + 1, h⟩ h1]; dsimp only; exact run11_C_eq.2.2
  · rw [outsAt11_B V c ⟨n + 1, h⟩ h0 h1]; dsimp only; exact run11_B_eq.2

theorem out11_10_last (c : Dev nD) (t : Fin cfg11.N) (ht : t.val % 25 = 24) : out11_10 V c t = acc11 V c t := by
  rw [show out11_10 V c t = (outsAt11 V c t.val t.isLt).2.1 from rfl, show acc11 V c t = (outsAt11 V c t.val t.isLt).2.2 from rfl,
    outsAt11_C V c t ht]
  dsimp only
  exact run11_C_eq.2.1.trans run11_C_eq.2.2.symm

end Cert.KernelIdeal.Hand

end
-- ==== Proof.KI.ValStage2R11.lean ====
import proofs.«400674_j14499809591724_2_alg».proof.Proof.KI.Read11
import proofs.«400674_j14499809591724_2_alg».proof.Proof.KI.ValStage2Lib

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Hand.Stage2
open scoped BigOperators

variable (V : (c : Dev nD) → (b : Ref sig .tc) → Buf (Elt Ideal) ((c : Thread nD τ).loc b))

namespace Stage2.R11

theorem off_rows : ∀ t : Fin cfg11.N, ∀ a : Fin 2,
    ((cfg11.win 0).index t a * (cfg11.win 0).size a = (if a = 0 then 2000 * t.val else 0)) ∧
    ((cfg11.win 1).index t a * (cfg11.win 1).size a = (if a = 0 then 2000 * t.val else 0)) ∧
    ((cfg11.win 4).index t a * (cfg11.win 4).size a = (if a = 0 then 2000 * t.val else 0)) ∧
    ((cfg11.win 9).index t a * (cfg11.win 9).size a = (if a = 0 then 2000 * t.val else 0)) ∧
    ((cfg11.win 2).index t a * (cfg11.win 2).size a = (if a = 0 then 2000 * t.val else 0)) ∧
    ((cfg11.win 8).index t a * (cfg11.win 8).size a = (if a = 0 then 2000 * t.val else 0)) := by
  decide +kernel

theorem off_whole : ∀ t : Fin cfg11.N, ∀ a : Fin 2,
    ((cfg11.win 3).index t a * (cfg11.win 3).size a = 0) ∧
    ((cfg11.win 5).index t a * (cfg11.win 5).size a = 0) ∧
    ((cfg11.win 6).index t a * (cfg11.win 6).size a = 0) ∧
    ((cfg11.win 7).index t a * (cfg11.win 7).size a = 0) ∧
    ((cfg11.win 10).index t a * (cfg11.win 10).size a = 0) := by
  decide +kernel

section Reads

variable (c : Dev nD) (t : Fin cfg11.N) (r : Fin 2000) (j : Fin 128)

theorem read_0 (A : Buf (Elt Ideal) ((c : Thread nD τ).loc (Pipeline.arrRef spec11 0))) :
    ((cfg11.win 0).blk t).view.read (Elt Ideal) A (ix2 r j) = A (ix2 (rowAt N_11 t r) j) :=
  congrArg A (emb_eq (cfg11.win 0) t (ix2 r j) (ix2 (rowAt N_11 t r) j) (fun a : Fin 2 => if a = 0 then 2000 * t.val else 0) (fun a => (off_rows t a).1) (row_idx N_11 t r j))

theorem read_1 (A : Buf (Elt Ideal) ((c : Thread nD τ).loc (Pipeline.arrRef spec11 1))) :
    ((cfg11.win 1).blk t).view.read (Elt Ideal) A (ix2 r j) = A (ix2 (rowAt N_11 t r) j) :=
  congrArg A (emb_eq (cfg11.win 1) t (ix2 r j) (ix2 (rowAt N_11 t r) j) (fun a : Fin 2 => if a = 0 then 2000 * t.val else 0) (fun a => (off_rows t a).2.1) (row_idx N_11 t r j))

theorem read_4 (A : Buf (Elt Ideal) ((c : Thread nD τ).loc (Pipeline.arrRef spec11 4))) :
    ((cfg11.win 4).blk t).view.read (Elt Ideal) A (ix2 r j) = A (ix2 (rowAt N_11 t r) j) :=
  congrArg A (emb_eq (cfg11.win 4) t (ix2 r j) (ix2 (rowAt N_11 t r) j) (fun a : Fin 2 => if a = 0 then 2000 * t.val else 0) (fun a => (off_rows t a).2.2.1) (row_idx N_11 t r j))

theorem read_9 (A : Buf (Elt Ideal) ((c : Thread nD τ).loc (Pipeline.arrRef spec11 9))) :
    ((cfg11.win 9).blk t).view.read (Elt Ideal) A (ix2 r j) = A (ix2 (rowAt N_11 t r) j) :=
  congrArg A (emb_eq (cfg11.win 9) t (ix2 r j) (ix2 (rowAt N_11 t r) j) (fun a : Fin 2 => if a = 0 then 2000 * t.val else 0) (fun a => (off_rows t a).2.2.2.1) (row_idx N_11 t r j))

theorem read_2 (A : Buf (Elt Ideal) ((c : Thread nD τ).loc (Pipeline.arrRef spec11 2))) :
    ((cfg11.win 2).blk t).view.read (Elt Ideal) A (ix2 r 0) = A (ix2 (rowAt N_11 t r) 0) :=
  congrArg A (emb_eq (cfg11.win 2) t (ix2 r 0) (ix2 (rowAt N_11 t r) 0) (fun a : Fin 2 => if a = 0 then 2000 * t.val else 0) (fun a => (off_rows t a).2.2.2.2.1) (row_idx N_11 t r (0 : Fin 1)))

theorem read_8 (A : Buf (Elt Ideal) ((c : Thread nD τ).loc (Pipeline.arrRef spec11 8))) :
    ((cfg11.win 8).blk t).view.read (Elt Ideal) A (ix2 r 0) = A (ix2 (rowAt N_11 t r) 0) :=
  congrArg A (emb_eq (cfg11.win 8) t (ix2 r 0) (ix2 (rowAt N_11 t r) 0) (fun a : Fin 2 => if a = 0 then 2000 * t.val else 0) (fun a => (off_rows t a).2.2.2.2.2) (row_idx N_11 t r (0 : Fin 1)))

theorem read_3 (A : Buf (Elt Ideal) ((c : Thread nD τ).loc (Pipeline.arrRef spec11 3))) (y : S1x128.Idx) :
    ((cfg11.win 3).blk t).view.read (Elt Ideal) A y = A y :=
  congrArg A (emb_eq (cfg11.win 3) t y y (fun _ => 0) (fun a => (off_whole t a).1) fun _ => Nat.zero_add _)

theorem read_5 (A : Buf (Elt Ideal) ((c : Thread nD τ).loc (Pipeline.arrRef spec11 5))) (y : S128x128.Idx) :
    ((cfg11.win 5).blk t).view.read (Elt Ideal) A y = A y :=
  congrArg A (emb_eq (cfg11.win 5) t y y (fun _ => 0) (fun a => (off_whole t a).2.1) fun _ => Nat.zero_add _)

theorem read_6 (A : Buf (Elt Ideal) ((c : Thread nD τ).loc (Pipeline.arrRef spec11 6))) (y : S128x128.Idx) :
    ((cfg11.win 6).blk t).view.read (Elt Ideal) A y = A y :=
  congrArg A (emb_eq (cfg11.win 6) t y y (fun _ => 0) (fun a => (off_whole t a).2.2.1) fun _ => Nat.zero_add _)

theorem read_7 (A : Buf (Elt Ideal) ((c : Thread nD τ).loc (Pipeline.arrRef spec11 7))) (y : S1x128.Idx) :
    ((cfg11.win 7).blk t).view.read (Elt Ideal) A y = A y :=
  congrArg A (emb_eq (cfg11.win 7) t y y (fun _ => 0) (fun a => (off_whole t a).2.2.2.1) fun _ => Nat.zero_add _)

theorem read_10 (A : Buf (Elt Ideal) ((c : Thread nD τ).loc (Pipeline.arrRef spec11 10))) (y : S512x128.Idx) :
    ((cfg11.win 10).blk t).view.read (Elt Ideal) A y = A y :=
  congrArg A (emb_eq (cfg11.win 10) t y y (fun _ => 0) (fun a => (off_whole t a).2.2.2.2) fun _ => Nat.zero_add _)

end Reads

theorem cover_9 (i : S50000x128.Idx) : ∃ t : Fin cfg11.N, (cfg11.win 9).flush t = true ∧ i ∈ ((cfg11.win 9).blk t).view.set := by
  have h0 : (i 0 : ℕ) < 50000 := (i 0).isLt
  have h1 : (i 1 : ℕ) < 128 := (i 1).isLt
  have hN : cfg11.N = 25 := N_11
  let t : Fin cfg11.N := ⟨(i 0 : ℕ) / 2000, by rw [hN]; omega⟩
  refine ⟨t, flush11_9 t, ?_⟩
  show i ∈ ((View.whole (Pipeline.arrRef spec11 9)).slice ((cfg11.win 9).rect t)).set
  rw [View.set_slice_whole, Rect.mem_set_unit]
  intro a
  match a with
  | ⟨0, _⟩ =>
    show (cfg11.win 9).index t 0 * (cfg11.win 9).size 0 ≤ (i 0 : ℕ) ∧ (i 0 : ℕ) < (cfg11.win 9).index t 0 * (cfg11.win 9).size 0 + 2000
    rw [(off_rows t 0).2.2.2.1]
    show 2000 * ((i 0 : ℕ) / 2000) ≤ (i 0 : ℕ) ∧ (i 0 : ℕ) < 2000 * ((i 0 : ℕ) / 2000) + 2000
    omega
  | ⟨1, _⟩ =>
    show (cfg11.win 9).index t 1 * (cfg11.win 9).size 1 ≤ (i 1 : ℕ) ∧ (i 1 : ℕ) < (cfg11.win 9).index t 1 * (cfg11.win 9).size 1 + 128
    rw [(off_rows t 1).2.2.2.1]
    show 0 ≤ (i 1 : ℕ) ∧ (i 1 : ℕ) < 0 + 128
    omega

theorem cover_10 (i : S512x128.Idx) : ∃ t : Fin cfg11.N, (cfg11.win 10).flush t = true ∧ i ∈ ((cfg11.win 10).blk t).view.set := by
  have h0 : (i 0 : ℕ) < 512 := (i 0).isLt
  have h1 : (i 1 : ℕ) < 128 := (i 1).isLt
  have hN : cfg11.N = 25 := N_11
  let t : Fin cfg11.N := ⟨24, by rw [hN]; omega⟩
  refine ⟨t, (flush11_10 t).mpr rfl, ?_⟩
  show i ∈ ((View.whole (Pipeline.arrRef spec11 10)).slice ((cfg11.win 10).rect t)).set
  rw [View.set_slice_whole, Rect.mem_set_unit]
  intro a
  match a with
  | ⟨0, _⟩ =>
    show (cfg11.win 10).index t 0 * (cfg11.win 10).size 0 ≤ (i 0 : ℕ) ∧ (i 0 : ℕ) < (cfg11.win 10).index t 0 * (cfg11.win 10).size 0 + 512
    rw [(off_whole t 0).2.2.2.2]; omega
  | ⟨1, _⟩ =>
    show (cfg11.win 10).index t 1 * (cfg11.win 10).size 1 ≤ (i 1 : ℕ) ∧ (i 1 : ℕ) < (cfg11.win 10).index t 1 * (cfg11.win 10).size 1 + 128
    rw [(off_whole t 1).2.2.2.2]; omega

abbrev specH (c : Dev nD) : Cert.Spec.RA Cert.Spec.SNH :=
  Cert.Spec.jk (Cert.Spec.comb (V c (Pipeline.arrRef spec11 0)) (V c (Pipeline.arrRef spec11 1)) (V c (Pipeline.arrRef spec11 2)) (V c (Pipeline.arrRef spec11 3))) (V c (Pipeline.arrRef spec11 4)) (V c (Pipeline.arrRef spec11 5)) (V c (Pipeline.arrRef spec11 6)) (V c (Pipeline.arrRef spec11 7))

abbrev specP (c : Dev nD) : Cert.Spec.RA Cert.Spec.SGH := Cert.Spec.pool (specH V c) (V c (Pipeline.arrRef spec11 8))

theorem tile_spec (c : Dev nD) (t : Fin cfg11.N) (r : Fin 2000) (j : Fin 128) :
    k3_pay1 (tile11 V c t) (k3_pay5 (F := Ideal)) (ix2 r j) = specH V c (ix2 (rowAt N_11 t r) j) :=
  tile_eq_spec (rowAt N_11 t) (fun r j => read_0 c t r j _) (fun r j => read_1 c t r j _) (fun r => read_2 c t r _) (fun y => read_3 c t _ y)
    (fun r j => read_4 c t r j _) (fun y => read_5 c t _ y) (fun y => read_6 c t _ y) (fun y => read_7 c t _ y) r j

theorem arrAtH (c : Dev nD) : (dat11 (F := Ideal) V c).arrAt 9 cfg11.N = specH V c :=
  (dat11 (F := Ideal) V c).arrAt_eq_of_cover 9 (specH V c) (fun t _ => by
    show (cfg11.win 9).cut (cfg11.grid.coords t) ((dat11 (F := Ideal) V c).after 9 t) = _
    rw [after11_9, out11_9_eq]
    funext y
    obtain ⟨r, j, rfl⟩ : ∃ (r : Fin 2000) (j : Fin 128), y = ix2 r j := ⟨y 0, y 1, eq_ix2 (n0 := 2000) (n1 := 128) y⟩
    exact (tile_spec V c t r j).trans (read_9 c t r j (specH V c)).symm) cover_9

theorem arrAtP (c : Dev nD) : (dat11 (F := Ideal) V c).arrAt 10 cfg11.N = specP V c :=
  (dat11 (F := Ideal) V c).arrAt_eq_of_cover 10 (specP V c) (fun t hf => by
    have ht : t.val % 25 = 24 := (flush11_10 t).mp hf
    show (cfg11.win 10).cut (cfg11.grid.coords t) ((dat11 (F := Ideal) V c).after 10 t) = _
    rw [after11_10, out11_10_last V c t ht]
    funext y
    obtain ⟨g, j, rfl⟩ : ∃ (g : Fin 512) (j : Fin 128), y = ix2 g j := ⟨y 0, y 1, eq_ix2 (n0 := 512) (n1 := 128) y⟩
    refine Eq.trans ?_ (read_10 c t (specP V c) (ix2 g j)).symm
    obtain ⟨n, hn⟩ := t
    have hn24 : n = 24 := by
      have hlt : n < 25 := lt_of_lt_of_eq hn N_11
      have h' : n % 25 = 24 := ht
      omega
    subst hn24
    exact pooled_eq N_11 (specH V c) (tile11 V c) (iblk11 V c 8) (acc11 V c) (tile_spec V c) (fun t r => read_8 c t r _)
      (acc11_zero V c) (acc11_succ V c) hn g j) cover_10

end Stage2.R11

theorem arrAt11_h (c : Dev nD) : (dat11 V c).arrAt 9 cfg11.N
    = Cert.Spec.jk (Cert.Spec.comb (V c main_v193) (V c main_v179) (V c main_v200) (V c main_v201)) (V c main_v178) (V c main_v198) (V c main_v199) (V c main_v202) :=
  Stage2.R11.arrAtH V c

theorem arrAt11_p (c : Dev nD) : (dat11 V c).arrAt 10 cfg11.N
    = Cert.Spec.pool (Cert.Spec.jk (Cert.Spec.comb (V c main_v193) (V c main_v179) (V c main_v200) (V c main_v201)) (V c main_v178) (V c main_v198) (V c main_v199) (V c main_v202)) (V c main_v203) :=
  Stage2.R11.arrAtP V c

end Cert.KernelIdeal.Hand
-- ==== Proof.KI.ValStage2.lean ====
import proofs.«400674_j14499809591724_2_alg».proof.Proof.KI.ValStage2R3
import proofs.«400674_j14499809591724_2_alg».proof.Proof.KI.ValStage2R7
import proofs.«400674_j14499809591724_2_alg».proof.Proof.KI.ValStage2R11
-- ==== Proof.KI.ValHead.lean ====
import proofs.«400674_j14499809591724_2_alg».proof.Proof.KI.Reg12
import proofs.«400674_j14499809591724_2_alg».proof.Proof.Spec
import Idealize.ShloMosaic.PureOps.Ideal.Laws
import Idealize.ShloMosaic.Lib.ValueIdx
import Idealize.ShloMosaic.Lib.ValueLayout
import Idealize.ShloMosaic.Lib.StackMember
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

namespace Head12

open Idealize.ShloMosaic Idealize.ShloMosaic.ValueIdx
open Cert.KernelIdeal Cert.KernelIdeal.Gen

theorem ofBits_ninf_f32 : Ideal.ofBits .f32 0xFF800000#32 = ⊥ := by simp [Ideal.ofBits, Ideal.ieee]

theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Ideal.dotGeneral_apply (DotDims.plain m k n) prec .single A B (ix2 a b)]
  exact StackMember.dotGeneral_plain_apply prec A B a b

theorem dot1_eq : dot_S512x384_S384x128_S512x128_1_0_0_1_n_n = DotDims.plain 512 384 128 := rfl
theorem dot2_eq : dot_S512x128_S128x10_S512x10_1_0_0_1_n_n = DotDims.plain 512 128 10 := rfl

theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lift_row (p : Fin 512) (c : Fin 10) : reduces_S512x10_S512.lift (ix1 p) c = ix2 p c := by
  funext a; apply Fin.ext
  match a with
  | ⟨0, _⟩ => rfl
  | ⟨1, _⟩ => rfl

theorem kbn_apply (z : FVec Ideal S512x384 .f32) (g be mu va : FVec Ideal S1x384 .f32) (p : Fin 512) (q : Fin 384) :
    (addf (mulf (mulf (subf z (broadcastTo S512x384 mu broadcasts_S1x384_S512x384))
        (broadcastTo S512x384 (rsqrt (addf va (broadcast S1x384 (Scalar.ofBits .f32 0x3727C5AC#32)))) broadcasts_S1x384_S512x384))
        (broadcastTo S512x384 g broadcasts_S1x384_S512x384)) (broadcastTo S512x384 be broadcasts_S1x384_S512x384)) (ix2 p q)
      = Cert.Spec.bn z g be mu va (ix2 p q) := by
  simp only [addf_apply, mulf_apply, subf_apply, ValueIdx.broadcastTo_1b_ab_apply]
  rfl

def kbn (z : FVec Ideal S512x384 .f32) (g be mu va : FVec Ideal S1x384 .f32) : FVec Ideal S512x384 .f32 :=
  addf (mulf (mulf (subf z (broadcastTo S512x384 mu broadcasts_S1x384_S512x384))
      (broadcastTo S512x384 (rsqrt (addf va (broadcast S1x384 (Scalar.ofBits .f32 0x3727C5AC#32)))) broadcasts_S1x384_S512x384))
      (broadcastTo S512x384 g broadcasts_S1x384_S512x384)) (broadcastTo S512x384 be broadcasts_S1x384_S512x384)

def klin1 (z : FVec Ideal S512x384 .f32) (w : FVec Ideal S384x128 .f32) (b : FVec Ideal S1x128 .f32) : FVec Ideal S512x128 .f32 :=
  maximumf (addf (matmul dot_S512x384_S384x128_S512x128_1_0_0_1_n_n none (truncf .bf16 z bitsLt_bf16_f32) (truncf .bf16 w bitsLt_bf16_f32)
      (constant S512x128 .f32 0x00000000#32)) (broadcastTo S512x128 b broadcasts_S1x128_S512x128))
    (broadcast S512x128 (Scalar.ofBits .f32 0x00000000#32))

def klin2 (z : FVec Ideal S512x128 .f32) (w : FVec Ideal S128x10 .f32) (b : FVec Ideal S1x10 .f32) : FVec Ideal S512x10 .f32 :=
  addf (matmul dot_S512x128_S128x10_S512x10_1_0_0_1_n_n none (truncf .bf16 z bitsLt_bf16_f32) (truncf .bf16 w bitsLt_bf16_f32)
      (constant S512x10 .f32 0x00000000#32)) (broadcastTo S512x10 b broadcasts_S1x10_S512x10)

def kmax (x : FVec Ideal S512x10 .f32) : FVec Ideal S512 .f32 :=
  maximumf (broadcast S512 (Scalar.ofBits .f32 0xFF800000#32))
    (multiReduction .maximumf [1] S512 x 0xFF800000#32 reduces_S512x10_S512 (.inl rfl) rfl)

def kexp (x : FVec Ideal S512x10 .f32) : FVec Ideal S512x10 .f32 :=
  exp (subf x (broadcastTo S512x10 (shapeCast S512x1 (kmax x) shapeCasts_S512_S512x1) broadcasts_S512x1_S512x10))

def ksm (x : FVec Ideal S512x10 .f32) : FVec Ideal S512x10 .f32 :=
  divf (kexp x) (broadcastTo S512x10 (shapeCast S512x1
    (multiReduction .add [1] S512 (kexp x) 0x00000000#32 reduces_S512x10_S512 (.inl rfl) rfl) shapeCasts_S512_S512x1) broadcasts_S512x1_S512x10)

theorem pay_eq_stages (x0 : Vec Ideal S512x384 .f32) (x1 x2 x3 x4 : Vec Ideal S1x384 .f32) (x5 : Vec Ideal S384x128 .f32)
    (x6 : Vec Ideal S1x128 .f32) (x7 : Vec Ideal S128x10 .f32) (x8 : Vec Ideal S1x10 .f32) :
    k12_pay1 (F := Ideal) (k12_pay2 x0 x3 x4 x1 x2 x5 x6 x7) (k12_pay3 x8)
      = ksm (klin2 (klin1 (kbn x0 x1 x2 x3 x4) x5 x6) x7 x8) := by
  unfold k12_pay1 k12_pay2 k12_pay3
  simp only [shapeCast_self]
  rfl

theorem kbn_eq (z : FVec Ideal S512x384 .f32) (g be mu va : FVec Ideal S1x384 .f32) : kbn z g be mu va = Cert.Spec.bn z g be mu va := by
  funext i
  obtain ⟨p, q, rfl⟩ : ∃ (p : Fin 512) (q : Fin 384), i = ix2 p q := ⟨i 0, i 1, eq_ix2 i⟩
  unfold kbn
  simp only [addf_apply, mulf_apply, subf_apply, ValueIdx.broadcastTo_1b_ab_apply]
  rfl

theorem klin1_eq (z : FVec Ideal S512x384 .f32) (w : FVec Ideal S384x128 .f32) (b : FVec Ideal S1x128 .f32) :
    klin1 z w b = Cert.Spec.lin1 z w b := by
  funext i
  obtain ⟨p, q, rfl⟩ : ∃ (p : Fin 512) (q : Fin 128), i = ix2 p q := ⟨i 0, i 1, eq_ix2 i⟩
  unfold klin1
  rw [maximumf_apply, addf_apply, broadcast_apply, ValueIdx.broadcastTo_1b_ab_apply]
  show max (FloatOps.matmul (DotDims.plain 512 384 128) none (truncf .bf16 z bitsLt_bf16_f32) (truncf .bf16 w bitsLt_bf16_f32)
    (constant ⟨2, ![512, 128]⟩ .f32 0x00000000#32) (ix2 p q) + b (ix2 (0 : Fin 1) q)) (Ideal.ofBits .f32 0x00000000#32) = _
  rw [matmul_plain_apply, Ideal.ofBits_zero_f32]
  rfl

theorem klin2_eq (z : FVec Ideal S512x128 .f32) (w : FVec Ideal S128x10 .f32) (b : FVec Ideal S1x10 .f32) :
    klin2 z w b = Cert.Spec.lin2 z w b := by
  funext i
  obtain ⟨p, q, rfl⟩ : ∃ (p : Fin 512) (q : Fin 10), i = ix2 p q := ⟨i 0, i 1, eq_ix2 i⟩
  unfold klin2
  rw [addf_apply, ValueIdx.broadcastTo_1b_ab_apply]
  show FloatOps.matmul (DotDims.plain 512 128 10) none (truncf .bf16 z bitsLt_bf16_f32) (truncf .bf16 w bitsLt_bf16_f32)
    (constant ⟨2, ![512, 10]⟩ .f32 0x00000000#32) (ix2 p q) + b (ix2 (0 : Fin 1) q) = _
  rw [matmul_plain_apply]
  rfl

theorem kmax_apply (x : FVec Ideal S512x10 .f32) (p : Fin 512) : kmax x (ix1 p) = Cert.Spec.rowMax x p := by
  unfold kmax
  rw [maximumf_apply, broadcast_apply]
  refine (congrArg (max _) (Ideal.multiReduction_maximumf_single x 0xFF800000#32 reduces_S512x10_S512 (.inl rfl) rfl (ix1 p))).trans ?_
  show max (Ideal.ofBits .f32 0xFF800000#32) ((Finset.univ : Finset (Fin 10)).fold max (Ideal.ofBits .f32 0xFF800000#32)
    (x ∘ reduces_S512x10_S512.lift (ix1 p))) = _
  rw [ofBits_ninf_f32, max_bot_left]
  unfold Cert.Spec.rowMax
  congr 1
  funext c
  exact congrArg x (lift_row p c)

theorem kexp_apply (x : FVec Ideal S512x10 .f32) (p : Fin 512) (q : Fin 10) :
    kexp x (ix2 p q) = Ideal.exp (x (ix2 p q) - Cert.Spec.rowMax x p) := by
  unfold kexp
  show Ideal.exp (subf x (broadcastTo S512x10 (shapeCast S512x1 (kmax x) shapeCasts_S512_S512x1) broadcasts_S512x1_S512x10) (ix2 p q)) = _
  rw [subf_apply, broadcastTo_a1_ab_apply, shapeCast_a_a1_apply, kmax_apply]

theorem ksm_eq (x : FVec Ideal S512x10 .f32) : ksm x = Cert.Spec.softmax x := by
  funext i
  obtain ⟨p, q, rfl⟩ : ∃ (p : Fin 512) (q : Fin 10), i = ix2 p q := ⟨i 0, i 1, eq_ix2 i⟩
  unfold ksm
  rw [divf_apply, broadcastTo_a1_ab_apply, shapeCast_a_a1_apply, kexp_apply]
  refine (congrArg (Ideal.div _) (Ideal.multiReduction_add_single (kexp x) 0x00000000#32 reduces_S512x10_S512 (.inl rfl) rfl (ix1 p))).trans ?_
  show Ideal.div _ (∑ c : Fin 10, kexp x (reduces_S512x10_S512.lift (ix1 p) c)) = _
  simp only [lift_row, kexp_apply]
  rfl

theorem head_pay_eq (x0 : Vec Ideal S512x384 .f32) (x1 x2 x3 x4 : Vec Ideal S1x384 .f32) (x5 : Vec Ideal S384x128 .f32)
    (x6 : Vec Ideal S1x128 .f32) (x7 : Vec Ideal S128x10 .f32) (x8 : Vec Ideal S1x10 .f32) :
    k12_pay1 (F := Ideal) (k12_pay2 x0 x3 x4 x1 x2 x5 x6 x7) (k12_pay3 x8)
      = Cert.Spec.head x0 x1 x2 x3 x4 x5 x6 x7 x8 := by
  rw [pay_eq_stages, kbn_eq, klin1_eq, klin2_eq, ksm_eq]
  rfl

end Head12

variable (V : (c : Dev nD) → (b : Ref sig .tc) → Buf (Elt Ideal) ((c : Thread nD τ).loc b))

namespace Head12

theorem hz : (![0, 0] : Fin 2 → Nat) = fun _ => 0 := funext fun a => by fin_cases a <;> rfl

theorem idx_zero : ∀ (t : Fin cfg12.N) (a : Fin 2), win12_0.index t a = 0 ∧ win12_1.index t a = 0 ∧ win12_2.index t a = 0
    ∧ win12_3.index t a = 0 ∧ win12_4.index t a = 0 ∧ win12_5.index t a = 0 ∧ win12_6.index t a = 0 ∧ win12_7.index t a = 0
    ∧ win12_8.index t a = 0 ∧ win12_9.index t a = 0 :=
  (by decide +kernel : ∀ (t : Fin grid12.N) (a : Fin 2), win12_0.index t a = 0 ∧ win12_1.index t a = 0 ∧ win12_2.index t a = 0
    ∧ win12_3.index t a = 0 ∧ win12_4.index t a = 0 ∧ win12_5.index t a = 0 ∧ win12_6.index t a = 0 ∧ win12_7.index t a = 0
    ∧ win12_8.index t a = 0 ∧ win12_9.index t a = 0)

theorem iblk_0 (c : Dev nD) (t : Fin cfg12.N) : iblk12 V c 0 t = V c main_v205 := by
  funext j
  show V c main_v205 (((cfg12.win 0).blk t).view.emb j) = V c main_v205 j
  refine congrArg _ (funext fun a => Fin.ext ?_)
  match a with
  | ⟨0, _⟩ => show win12_0.index t (0 : Fin 2) * 512 + 1 * (j 0).val = (j 0).val; have := (idx_zero t 0).1; omega
  | ⟨1, _⟩ => show win12_0.index t (1 : Fin 2) * 384 + 1 * (j 1).val = (j 1).val; have := (idx_zero t 1).1; omega
theorem iblk_1 (c : Dev nD) (t : Fin cfg12.N) : iblk12 V c 1 t = V c main_v206 := by
  funext j
  show V c main_v206 (((cfg12.win 1).blk t).view.emb j) = V c main_v206 j
  refine congrArg _ (funext fun a => Fin.ext ?_)
  match a with
  | ⟨0, _⟩ => show win12_1.index t (0 : Fin 2) * 1 + 1 * (j 0).val = (j 0).val; have := (idx_zero t 0).2.1; omega
  | ⟨1, _⟩ => show win12_1.index t (1 : Fin 2) * 384 + 1 * (j 1).val = (j 1).val; have := (idx_zero t 1).2.1; omega
theorem iblk_2 (c : Dev nD) (t : Fin cfg12.N) : iblk12 V c 2 t = V c main_v207 := by
  funext j
  show V c main_v207 (((cfg12.win 2).blk t).view.emb j) = V c main_v207 j
  refine congrArg _ (funext fun a => Fin.ext ?_)
  match a with
  | ⟨0, _⟩ => show win12_2.index t (0 : Fin 2) * 1 + 1 * (j 0).val = (j 0).val; have := (idx_zero t 0).2.2.1; omega
  | ⟨1, _⟩ => show win12_2.index t (1 : Fin 2) * 384 + 1 * (j 1).val = (j 1).val; have := (idx_zero t 1).2.2.1; omega
theorem iblk_3 (c : Dev nD) (t : Fin cfg12.N) : iblk12 V c 3 t = V c main_v208 := by
  funext j
  show V c main_v208 (((cfg12.win 3).blk t).view.emb j) = V c main_v208 j
  refine congrArg _ (funext fun a => Fin.ext ?_)
  match a with
  | ⟨0, _⟩ => show win12_3.index t (0 : Fin 2) * 1 + 1 * (j 0).val = (j 0).val; have := (idx_zero t 0).2.2.2.1; omega
  | ⟨1, _⟩ => show win12_3.index t (1 : Fin 2) * 384 + 1 * (j 1).val = (j 1).val; have := (idx_zero t 1).2.2.2.1; omega
theorem iblk_4 (c : Dev nD) (t : Fin cfg12.N) : iblk12 V c 4 t = V c main_v209 := by
  funext j
  show V c main_v209 (((cfg12.win 4).blk t).view.emb j) = V c main_v209 j
  refine congrArg _ (funext fun a => Fin.ext ?_)
  match a with
  | ⟨0, _⟩ => show win12_4.index t (0 : Fin 2) * 1 + 1 * (j 0).val = (j 0).val; have := (idx_zero t 0).2.2.2.2.1; omega
  | ⟨1, _⟩ => show win12_4.index t (1 : Fin 2) * 384 + 1 * (j 1).val = (j 1).val; have := (idx_zero t 1).2.2.2.2.1; omega
theorem iblk_5 (c : Dev nD) (t : Fin cfg12.N) : iblk12 V c 5 t = V c main_arg10 := by
  funext j
  show V c main_arg10 (((cfg12.win 5).blk t).view.emb j) = V c main_arg10 j
  refine congrArg _ (funext fun a => Fin.ext ?_)
  match a with
  | ⟨0, _⟩ => show win12_5.index t (0 : Fin 2) * 384 + 1 * (j 0).val = (j 0).val; have := (idx_zero t 0).2.2.2.2.2.1; omega
  | ⟨1, _⟩ => show win12_5.index t (1 : Fin 2) * 128 + 1 * (j 1).val = (j 1).val; have := (idx_zero t 1).2.2.2.2.2.1; omega
theorem iblk_6 (c : Dev nD) (t : Fin cfg12.N) : iblk12 V c 6 t = V c main_v210 := by
  funext j
  show V c main_v210 (((cfg12.win 6).blk t).view.emb j) = V c main_v210 j
  refine congrArg _ (funext fun a => Fin.ext ?_)
  match a with
  | ⟨0, _⟩ => show win12_6.index t (0 : Fin 2) * 1 + 1 * (j 0).val = (j 0).val; have := (idx_zero t 0).2.2.2.2.2.2.1; omega
  | ⟨1, _⟩ => show win12_6.index t (1 : Fin 2) * 128 + 1 * (j 1).val = (j 1).val; have := (idx_zero t 1).2.2.2.2.2.2.1; omega
theorem iblk_7 (c : Dev nD) (t : Fin cfg12.N) : iblk12 V c 7 t = V c main_arg12 := by
  funext j
  show V c main_arg12 (((cfg12.win 7).blk t).view.emb j) = V c main_arg12 j
  refine congrArg _ (funext fun a => Fin.ext ?_)
  match a with
  | ⟨0, _⟩ => show win12_7.index t (0 : Fin 2) * 128 + 1 * (j 0).val = (j 0).val; have := (idx_zero t 0).2.2.2.2.2.2.2.1; omega
  | ⟨1, _⟩ => show win12_7.index t (1 : Fin 2) * 10 + 1 * (j 1).val = (j 1).val; have := (idx_zero t 1).2.2.2.2.2.2.2.1; omega
theorem iblk_8 (c : Dev nD) (t : Fin cfg12.N) : iblk12 V c 8 t = V c main_v211 := by
  funext j
  show V c main_v211 (((cfg12.win 8).blk t).view.emb j) = V c main_v211 j
  refine congrArg _ (funext fun a => Fin.ext ?_)
  match a with
  | ⟨0, _⟩ => show win12_8.index t (0 : Fin 2) * 1 + 1 * (j 0).val = (j 0).val; have := (idx_zero t 0).2.2.2.2.2.2.2.2.1; omega
  | ⟨1, _⟩ => show win12_8.index t (1 : Fin 2) * 10 + 1 * (j 1).val = (j 1).val; have := (idx_zero t 1).2.2.2.2.2.2.2.2.1; omega

abbrev G (c : Dev nD) : S512x10.Idx → EReal :=
  Cert.Spec.head (V c main_v205) (V c main_v206) (V c main_v207) (V c main_v208) (V c main_v209) (V c main_arg10) (V c main_v210)
    (V c main_arg12) (V c main_v211)

theorem flushed_eq (c : Dev nD) (t : Fin cfg12.N) :
    (dat12 V c).flushed 9 t = ((cfg12.win 9).blk t).view.read (Elt Ideal) (G V c) := by
  show (cfg12.win 9).cut (grid12.coords t) ((dat12 V c).after 9 t) = _
  rw [after12_9, iblk_0, iblk_1, iblk_2, iblk_3, iblk_4, iblk_5, iblk_6, iblk_7, iblk_8]
  unfold out12_9
  rw [View.canon_unit_zero hz]
  simp only [View.ld_unit_zero (S := S512x384) hz, View.ld_unit_zero (S := S1x384) hz, View.ld_unit_zero (S := S384x128) hz,
    View.ld_unit_zero (S := S1x128) hz, View.ld_unit_zero (S := S128x10) hz, View.ld_unit_zero (S := S1x10) hz]
  rw [head_pay_eq]
  funext j
  show G V c j = G V c (((cfg12.win 9).blk t).view.emb j)
  refine congrArg _ (funext fun a => Fin.ext ?_)
  match a with
  | ⟨0, _⟩ => show (j 0).val = win12_9.index t (0 : Fin 2) * 512 + 1 * (j 0).val; have := (idx_zero t 0).2.2.2.2.2.2.2.2.2; omega
  | ⟨1, _⟩ => show (j 1).val = win12_9.index t (1 : Fin 2) * 10 + 1 * (j 1).val; have := (idx_zero t 1).2.2.2.2.2.2.2.2.2; omega

theorem mem_blk (t : Fin cfg12.N) (i : S512x10.Idx) :
    i ∈ ((cfg12.win 9).blk t).view.set ↔ ∀ a : Fin 2, win12_9.index t a * S512x10.size a ≤ (i a).val
      ∧ (i a).val < win12_9.index t a * S512x10.size a + S512x10.size a := by
  show i ∈ ((View.whole main_v212).slice (win12_9.rect t)).set ↔ _
  rw [View.set_slice_whole, Rect.mem_set_unit]
  exact Iff.rfl

end Head12

theorem arrAt12 (c : Dev nD) : (dat12 V c).arrAt 9 cfg12.N
    = Cert.Spec.head (V c main_v205) (V c main_v206) (V c main_v207) (V c main_v208) (V c main_v209) (V c main_arg10) (V c main_v210)
        (V c main_arg12) (V c main_v211) :=
  (dat12 V c).arrAt_eq_of_cover 9 (Head12.G V c) (fun t _ => Head12.flushed_eq V c t) (fun i => ⟨t12_0, flush12_9 _, (Head12.mem_blk _ i).2 (fun a => by
    have h := (Head12.idx_zero t12_0 a).2.2.2.2.2.2.2.2.2
    have hi : (i a).val < S512x10.size a := (i a).isLt
    rw [h]
    constructor
    · omega
    · omega)⟩)

end Cert.KernelIdeal.Hand

end
-- ==== Proof.LibRowGather2.lean ====
import Idealize.ShloMosaic.Lib.ValueIdx

noncomputable section

namespace Cert.RowGather2

open Idealize.ShloMosaic Idealize.ShloMosaic.ValueIdx

variable {α : Type}

abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section
variable {N C R w : Nat}
  (wf : GatherDims.WF ⟨2, ![N, C]⟩ ⟨2, ![R, 1]⟩ ⟨2, ![R, C]⟩ [1] [0] [] [0] [] 1 ![1, C])
  (idx : IVec ⟨2, ![R, 1]⟩ w) (r : Fin R) (c : Fin C)

theorem one_not_mem_startIndexMap : ¬ (1 : Fin 2) ∈ (rowDims N C R wf).startIndexMap := fun h =>
  absurd (congrArg Fin.val (List.mem_singleton.mp h)) Nat.one_ne_zero

theorem one_mem_sKept : (1 : Fin 2) ∈ (rowDims N C R wf).sKept :=
  (GatherDims.mem_sKept _ _).mpr ⟨fun h => absurd (congrArg Fin.val (List.mem_singleton.mp h)) Nat.one_ne_zero, List.not_mem_nil⟩

theorem operandIdx_row :
    ((rowDims N C R wf).operandIdx (ix2 r c) idx (0 : Fin 2)).val = min (idx (ix2 r (0 : Fin 1))).toInt.toNat (N - 1) := by
  show (rowDims N C R wf).start (ix2 r c) idx 0 + (rowDims N C R wf).batchCoord (ix2 r c) 0
      + (rowDims N C R wf).offCoord (ix2 r c) 0 = _
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (show (0 : Fin 2) ∈ (rowDims N C R wf).startIndexMap from List.mem_singleton.mpr rfl)]
  have hsi : (rowDims N C R wf).siIdx (ix2 r c) ⟨List.idxOf (0 : Fin 2) (rowDims N C R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

theorem operandIdx_col :
    ((rowDims N C R wf).operandIdx (ix2 r c) idx (1 : Fin 2)).val = c.val := by
  show (rowDims N C R wf).start (ix2 r c) idx 1 + (rowDims N C R wf).batchCoord (ix2 r c) 1
      + (rowDims N C R wf).offCoord (ix2 r c) 1 = _
  rw [GatherDims.batchCoord_eq_zero _ _ _ List.not_mem_nil, Nat.add_zero]
  unfold GatherDims.start
  rw [dif_neg (one_not_mem_startIndexMap wf), Nat.zero_add]
  unfold GatherDims.offCoord
  rw [dif_pos (one_mem_sKept wf)]
  rfl

end

theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N C R wf) x idx (ix2 r c)
      = x (ix2 ⟨min (idx (ix2 r (0 : Fin 1))).toInt.toNat (N - 1), by omega⟩ c) := by
  unfold Host.gather
  refine congrArg x (funext fun a => Fin.ext ?_)
  match a with
  | ⟨0, _⟩ => exact operandIdx_row wf idx r c
  | ⟨1, _⟩ => exact operandIdx_col wf idx r c

end Cert.RowGather2

end
-- ==== Proof.LibRowScatter.lean ====
import Idealize.ShloMosaic.Lib.ValueIdx
import Idealize.ShloMosaic.PureOps.Ideal
import Idealize.ShloMosaic.PureOps.Contract

noncomputable section

namespace Cert.RowScatter

open Idealize.ShloMosaic Idealize.ShloMosaic.ValueIdx

abbrev rowDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section
variable {N C R w : Nat}
  (wf : ScatterDims.WF ⟨2, ![N, C]⟩ ⟨2, ![R, 1]⟩ ⟨2, ![R, C]⟩ [1] [0] [0] 1)
  (idx : IVec ⟨2, ![R, 1]⟩ w) (e : Fin R) (c : Fin C)

theorem zero_not_mem_sKept : ¬ (0 : Fin 2) ∈ (rowDims N C R wf).sKept := by
  simp [ScatterDims.sKept, Shape.kept]

theorem one_mem_sKept : (1 : Fin 2) ∈ (rowDims N C R wf).sKept := by
  simp [ScatterDims.sKept, Shape.kept]

theorem start_row : (rowDims N C R wf).start (ix2 e c) idx (0 : Fin 2) = (idx (ix2 e (0 : Fin 1))).toInt := by
  unfold ScatterDims.start
  rw [dif_pos (show (0 : Fin 2) ∈ (rowDims N C R wf).scatterDimsToOperandDims from List.mem_singleton.mpr rfl)]
  have hsi : (rowDims N C R wf).siIdx (ix2 e c) ⟨List.idxOf (0 : Fin 2) (rowDims N C R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem start_col : (rowDims N C R wf).start (ix2 e c) idx (1 : Fin 2) = 0 := by
  unfold ScatterDims.start
  rw [dif_neg (fun h => absurd (congrArg Fin.val (List.mem_singleton.mp h)) Nat.one_ne_zero)]

theorem window_row : (rowDims N C R wf).window (ix2 e c) (0 : Fin 2) = 0 := by
  unfold ScatterDims.window
  rw [dif_neg (zero_not_mem_sKept wf)]

theorem window_col : (rowDims N C R wf).window (ix2 e c) (1 : Fin 2) = c.val := by
  unfold ScatterDims.window
  rw [dif_pos (one_mem_sKept wf)]
  rfl

end

section
variable {N C R w : Nat}
  (wf : ScatterDims.WF ⟨2, ![N, C]⟩ ⟨2, ![R, 1]⟩ ⟨2, ![R, C]⟩ [1] [0] [0] 1)
  (idx : IVec ⟨2, ![R, 1]⟩ w)

theorem resultIdx?_eq_some_iff (e : Fin R) (c' : Fin C) (i : Fin N) (c : Fin C) :
    (rowDims N C R wf).resultIdx? (ix2 e c') idx = some (ix2 i c)
      ↔ (idx (ix2 e (0 : Fin 1))).toInt = (i.val : Int) ∧ c' = c := by
  unfold ScatterDims.resultIdx?
  constructor
  · intro hEq
    split at hEq
    · rename_i h
      have hf := Option.some.inj hEq
      have h0 : ((rowDims N C R wf).start (ix2 e c') idx (0 : Fin 2)
          + ((rowDims N C R wf).window (ix2 e c') (0 : Fin 2) : Nat)).toNat = i.val :=
        congrArg (fun f : (⟨2, ![N, C]⟩ : Shape).Idx => (f (0 : Fin 2)).val) hf
      have h1 : ((rowDims N C R wf).start (ix2 e c') idx (1 : Fin 2)
          + ((rowDims N C R wf).window (ix2 e c') (1 : Fin 2) : Nat)).toNat = c.val :=
        congrArg (fun f : (⟨2, ![N, C]⟩ : Shape).Idx => (f (1 : Fin 2)).val) hf
      have hb : 0 ≤ (rowDims N C R wf).start (ix2 e c') idx (0 : Fin 2)
          + ((rowDims N C R wf).window (ix2 e c') (0 : Fin 2) : Nat) := (h (0 : Fin 2)).1
      rw [start_row, window_row] at h0 hb
      rw [start_col, window_col] at h1
      exact ⟨by omega, Fin.ext (by omega)⟩
    · exact absurd hEq (by simp)
  · rintro ⟨h0, rfl⟩
    have hall : ∀ a : Fin 2, 0 ≤ (rowDims N C R wf).start (ix2 e c') idx a + ((rowDims N C R wf).window (ix2 e c') a : Nat)
        ∧ (rowDims N C R wf).start (ix2 e c') idx a + ((rowDims N C R wf).window (ix2 e c') a : Nat)
            < ((⟨2, ![N, C]⟩ : Shape).size a : Nat) := by
      intro a
      match a with
      | ⟨0, _⟩ =>
        show 0 ≤ (rowDims N C R wf).start (ix2 e c') idx (0 : Fin 2) + ((rowDims N C R wf).window (ix2 e c') (0 : Fin 2) : Nat)
          ∧ (rowDims N C R wf).start (ix2 e c') idx (0 : Fin 2) + ((rowDims N C R wf).window (ix2 e c') (0 : Fin 2) : Nat) < (N : Int)
        rw [start_row, window_row, h0]
        have := i.isLt
        omega
      | ⟨1, _⟩ =>
        show 0 ≤ (rowDims N C R wf).start (ix2 e c') idx (1 : Fin 2) + ((rowDims N C R wf).window (ix2 e c') (1 : Fin 2) : Nat)
          ∧ (rowDims N C R wf).start (ix2 e c') idx (1 : Fin 2) + ((rowDims N C R wf).window (ix2 e c') (1 : Fin 2) : Nat) < (C : Int)
        rw [start_col, window_col]
        have := c'.isLt
        omega
    rw [dif_pos hall]
    refine congrArg some (funext fun a => Fin.ext ?_)
    match a with
    | ⟨0, _⟩ =>
      show ((rowDims N C R wf).start (ix2 e c') idx (0 : Fin 2) + ((rowDims N C R wf).window (ix2 e c') (0 : Fin 2) : Nat)).toNat = i.val
      rw [start_row, window_row, h0]
      omega
    | ⟨1, _⟩ =>
      show ((rowDims N C R wf).start (ix2 e c') idx (1 : Fin 2) + ((rowDims N C R wf).window (ix2 e c') (1 : Fin 2) : Nat)).toNat = c'.val
      rw [start_col, window_col]
      omega

end

theorem scatterAdd_rows_apply {N C R w : Nat} {φ : FTy}
    (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ)
    (i : Fin N) (c : Fin C) :
    Host.scatterAdd (rowDims N C R wf) x idx upd (ix2 i c)
      = x (ix2 i c) + ∑ e ∈ Finset.univ.filter (fun e : Fin R => (idx (ix2 e (0 : Fin 1))).toInt = (i.val : Int)),
          upd (ix2 e c) := by

  unfold Host.scatterAdd
  rw [Ideal.hostScatterAdd_def]
  unfold Ideal.hostScatterAdd
  refine congrArg (x (ix2 i c) + ·) ?_
  symm
  refine Finset.sum_nbij' (fun e : Fin R => (ix2 e c : (⟨2, ![R, C]⟩ : Shape).Idx))
    (fun j : (⟨2, ![R, C]⟩ : Shape).Idx => (j (0 : Fin 2) : Fin R)) ?_ ?_ ?_ ?_ ?_
  · intro e he
    rw [Finset.mem_filter] at he ⊢
    exact ⟨Finset.mem_univ _, (resultIdx?_eq_some_iff wf idx e c i c).mpr ⟨he.2, rfl⟩⟩
  · intro j hj
    obtain ⟨a, b, rfl⟩ : ∃ a b, j = ix2 a b := ⟨j 0, j 1, eq_ix2 j⟩
    rw [Finset.mem_filter] at hj ⊢
    exact ⟨Finset.mem_univ _, ((resultIdx?_eq_some_iff wf idx a b i c).mp hj.2).1⟩
  · intro e _
    rfl
  · intro j hj
    obtain ⟨a, b, rfl⟩ : ∃ a b, j = ix2 a b := ⟨j 0, j 1, eq_ix2 j⟩
    rw [Finset.mem_filter] at hj
    rw [((resultIdx?_eq_some_iff wf idx a b i c).mp hj.2).2]
  · intro e _
    rfl

end Cert.RowScatter

end
-- ==== Proof.LibVecScatter.lean ====
import Idealize.ShloMosaic.Lib.ValueIdx
import Idealize.ShloMosaic.PureOps.Ideal
import Idealize.ShloMosaic.PureOps.Contract

noncomputable section

namespace Cert.VecScatter

open Idealize.ShloMosaic Idealize.ShloMosaic.ValueIdx

abbrev vecDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section
variable {N R w : Nat}
  (wf : ScatterDims.WF ⟨1, ![N]⟩ ⟨2, ![R, 1]⟩ ⟨1, ![R]⟩ [] [0] [0] 1)
  (idx : IVec ⟨2, ![R, 1]⟩ w) (e : Fin R)

theorem zero_not_mem_sKept : ¬ (0 : Fin 1) ∈ (vecDims N R wf).sKept := by
  simp [ScatterDims.sKept, Shape.kept]

theorem start_zero : (vecDims N R wf).start (ix1 e) idx (0 : Fin 1) = (idx (ix2 e (0 : Fin 1))).toInt := by
  unfold ScatterDims.start
  rw [dif_pos (show (0 : Fin 1) ∈ (vecDims N R wf).scatterDimsToOperandDims from List.mem_singleton.mpr rfl)]
  have hsi : (vecDims N R wf).siIdx (ix1 e) ⟨List.idxOf (0 : Fin 1) (vecDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem window_zero : (vecDims N R wf).window (ix1 e) (0 : Fin 1) = 0 := by
  unfold ScatterDims.window
  rw [dif_neg (zero_not_mem_sKept wf)]

theorem resultIdx?_eq_some_iff (i : Fin N) :
    (vecDims N R wf).resultIdx? (ix1 e) idx = some (ix1 i) ↔ (idx (ix2 e (0 : Fin 1))).toInt = (i.val : Int) := by
  unfold ScatterDims.resultIdx?
  constructor
  · intro hEq
    split at hEq
    · rename_i h
      have hf := Option.some.inj hEq
      have h0 : ((vecDims N R wf).start (ix1 e) idx (0 : Fin 1)
          + ((vecDims N R wf).window (ix1 e) (0 : Fin 1) : Nat)).toNat = i.val :=
        congrArg (fun f : (⟨1, ![N]⟩ : Shape).Idx => (f (0 : Fin 1)).val) hf
      have hb : 0 ≤ (vecDims N R wf).start (ix1 e) idx (0 : Fin 1)
          + ((vecDims N R wf).window (ix1 e) (0 : Fin 1) : Nat) := (h (0 : Fin 1)).1
      rw [start_zero, window_zero] at h0 hb
      omega
    · exact absurd hEq (by simp)
  · intro h0
    have hall : ∀ a : Fin 1, 0 ≤ (vecDims N R wf).start (ix1 e) idx a + ((vecDims N R wf).window (ix1 e) a : Nat)
        ∧ (vecDims N R wf).start (ix1 e) idx a + ((vecDims N R wf).window (ix1 e) a : Nat)
            < ((⟨1, ![N]⟩ : Shape).size a : Nat) := by
      intro a
      match a with
      | ⟨0, _⟩ =>
        show 0 ≤ (vecDims N R wf).start (ix1 e) idx (0 : Fin 1) + ((vecDims N R wf).window (ix1 e) (0 : Fin 1) : Nat)
          ∧ (vecDims N R wf).start (ix1 e) idx (0 : Fin 1) + ((vecDims N R wf).window (ix1 e) (0 : Fin 1) : Nat) < (N : Int)
        rw [start_zero, window_zero, h0]
        have := i.isLt
        omega
    rw [dif_pos hall]
    refine congrArg some (funext fun a => Fin.ext ?_)
    match a with
    | ⟨0, _⟩ =>
      show ((vecDims N R wf).start (ix1 e) idx (0 : Fin 1) + ((vecDims N R wf).window (ix1 e) (0 : Fin 1) : Nat)).toNat = i.val
      rw [start_zero, window_zero, h0]
      omega

end

theorem scatterAdd_vec_apply {N R w : Nat} {φ : FTy}
    (wf : ScatterDims.WF ⟨1, ![N]⟩ ⟨2, ![R, 1]⟩ ⟨1, ![R]⟩ [] [0] [0] 1)
    (x : FVec Ideal ⟨1, ![N]⟩ φ) (idx : IVec ⟨2, ![R, 1]⟩ w) (upd : FVec Ideal ⟨1, ![R]⟩ φ) (i : Fin N) :
    Host.scatterAdd (vecDims N R wf) x idx upd (ix1 i)
      = x (ix1 i) + ∑ e ∈ Finset.univ.filter (fun e : Fin R => (idx (ix2 e (0 : Fin 1))).toInt = (i.val : Int)),
          upd (ix1 e) := by

  unfold Host.scatterAdd
  rw [Ideal.hostScatterAdd_def]
  unfold Ideal.hostScatterAdd
  refine congrArg (x (ix1 i) + ·) ?_
  symm
  refine Finset.sum_nbij' (fun e : Fin R => (ix1 e : (⟨1, ![R]⟩ : Shape).Idx))
    (fun j : (⟨1, ![R]⟩ : Shape).Idx => (j (0 : Fin 1) : Fin R)) ?_ ?_ ?_ ?_ ?_
  · intro e he
    rw [Finset.mem_filter] at he ⊢
    exact ⟨Finset.mem_univ _, (resultIdx?_eq_some_iff wf idx e i).mpr he.2⟩
  · intro j hj
    obtain ⟨a, rfl⟩ : ∃ a, j = ix1 a := ⟨j 0, eq_ix1 j⟩
    rw [Finset.mem_filter] at hj ⊢
    exact ⟨Finset.mem_univ _, (resultIdx?_eq_some_iff wf idx a i).mp hj.2⟩
  · intro e _
    rfl
  · intro j _
    exact (eq_ix1 j).symm
  · intro e _
    rfl

end Cert.VecScatter

end
-- ==== Proof.KI.HostValFns.lean ====
import proofs.«400674_j14499809591724_2_alg».proof.Proof.Gen.KernelIdeal.Launch
import proofs.«400674_j14499809591724_2_alg».proof.Proof.Spec
import proofs.«400674_j14499809591724_2_alg».proof.Proof.LibRowGather2
import proofs.«400674_j14499809591724_2_alg».proof.Proof.LibRowScatter
import proofs.«400674_j14499809591724_2_alg».proof.Proof.LibVecScatter
import Idealize.ShloMosaic.Lib.ValueIdx
import Idealize.ShloMosaic.Lib.SortFacts
import Idealize.ShloMosaic.Lib.StableHlo.Predicate
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Cert.KernelIdeal Cert.KernelIdeal.Gen

variable {F : FTy → Type} [FloatOps F]

theorem bcastCol_apply {α : Type} {n : Nat} (hn : n ≠ 1)
    (h : (⟨1, ![n]⟩ : Shape).BroadcastsInDim ⟨2, ![n, 1]⟩ ![0]) (v : (⟨1, ![n]⟩ : Shape).Idx → α) (e : Fin n) (z : Fin 1) :
    broadcastInDim ⟨2, ![n, 1]⟩ ![0] h v (ix2 e z) = v (ix1 e) := by
  simp only [broadcastInDim]
  congr 1
  funext a
  match a with
  | ⟨0, _⟩ =>
    apply Fin.ext
    split
    · next h1 => exact absurd (show n = 1 from h1) hn
    · rfl

theorem bcastRows_apply {α : Type} {n k : Nat} (hn : n ≠ 1)
    (h : (⟨2, ![n, 1]⟩ : Shape).BroadcastsInDim ⟨2, ![n, k]⟩ ![0, 1]) (v : (⟨2, ![n, 1]⟩ : Shape).Idx → α) (e : Fin n) (j : Fin k) :
    broadcastInDim ⟨2, ![n, k]⟩ ![0, 1] h v (ix2 e j) = v (ix2 e (0 : Fin 1)) := by
  simp only [broadcastInDim]
  congr 1
  funext a
  match a with
  | ⟨0, _⟩ =>
    apply Fin.ext
    split
    · next h1 => exact absurd (show n = 1 from h1) hn
    · rfl
  | ⟨1, _⟩ =>
    apply Fin.ext
    split
    · rfl
    · next h1 => exact absurd rfl h1

theorem wrap_word (s : BitVec 32) :
    Scalar.select (IntOp.cmpi .slt s 0#32) (IntOp.addi s 50000#32) s = Cert.Spec.wrapN s := by
  unfold Cert.Spec.wrapN
  by_cases h : s.slt 0#32 = true
  · rw [if_pos h]; simp [Scalar.select, IntOp.cmpi, IntOp.addi, h]
  · rw [if_neg h]; simp [Scalar.select, IntOp.cmpi, IntOp.addi, h]

def aggOps (xw : (⟨S50000x128, .bf16⟩ : BufTy).Contents (Elt F)) (srcw dstw : (⟨S800000, .i32⟩ : BufTy).Contents (Elt F))
    (nm : (⟨S800000, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ FTy.f32 0#32))
    (broadcastInDim S800000x1 ![0] bcast_S800000_S800000x1_0 dstw)
    (mulf
      (extf FTy.f32
        (Host.gather gather_S50000x128_S800000x1_S800000x128_1_0_n_n_0_1_1128 xw
          (broadcastInDim S800000x1 ![0] bcast_S800000_S800000x1_0
            (select
              (cmpi CmpIPredicate.slt srcw (broadcastInDim S800000 ![] bcast_S_S800000 (constantI S_ 32 0#32)))
              (addi srcw (broadcastInDim S800000 ![] bcast_S_S800000 (constantI S_ 32 50000#32)))
              srcw)))
        bitsLt_bf16_f32)
      (broadcastInDim S800000x128 ![0, 1] bcast_S800000x1_S800000x128_0_1
        (broadcastInDim S800000x1 ![0] bcast_S800000_S800000x1_0 nm)))

theorem aggOps_ideal (xw : (⟨S50000x128, .bf16⟩ : BufTy).Contents (Elt Ideal))
    (srcw dstw : (⟨S800000, .i32⟩ : BufTy).Contents (Elt Ideal)) (nm : (⟨S800000, .f32⟩ : BufTy).Contents (Elt Ideal)) :
    aggOps (F := Ideal) xw srcw dstw nm = Cert.Spec.agg xw srcw dstw nm := by
  funext i
  obtain ⟨n, k, rfl⟩ : ∃ (n : Fin 50000) (k : Fin 128), i = ix2 n k := ⟨i 0, i 1, eq_ix2 i⟩
  unfold aggOps

  refine (Cert.RowScatter.scatterAdd_rows_apply (N := 50000) (C := 128) (R := 800000)
    scatter_S50000x128_S800000x1_S800000x128_1_0_0_1_wf _ _ _ n k).trans ?_
  have hzero : (broadcastInDim S50000x128 ![] bcast_S_S50000x128 (constant (F := Ideal) S_ FTy.f32 0#32)) (ix2 n k) = 0 :=
    Ideal.ofBits_zero_f32
  rw [hzero, zero_add]
  show _ = ∑ e ∈ Finset.univ.filter (fun e : Fin 800000 => (dstw (ix1 e)).toInt = (n.val : Int)),
      xw (ix2 (Cert.Spec.gRow (srcw (ix1 e))) k) * nm (ix1 e)
  refine Finset.sum_congr (Finset.filter_congr fun e _ => ?_) fun e _ => ?_
  · rw [bcastCol_apply (by decide)]
  ·
    show (Host.gather gather_S50000x128_S800000x1_S800000x128_1_0_n_n_0_1_1128 xw _ (ix2 e k) : EReal)
        * (broadcastInDim S800000x128 ![0, 1] bcast_S800000x1_S800000x128_0_1
            (broadcastInDim S800000x1 ![0] bcast_S800000_S800000x1_0 nm) (ix2 e k)) = _
    rw [bcastRows_apply (by decide), bcastCol_apply (by decide)]
    refine congrArg (· * nm (ix1 e)) ?_
    refine (Cert.RowGather2.gather_rows_apply (N := 50000) (C := 128) (R := 800000) (by decide)
      gather_S50000x128_S800000x1_S800000x128_1_0_n_n_0_1_1128_wf xw _ e k).trans ?_
    refine congrArg (fun r : Fin 50000 => xw (ix2 r k)) (Fin.ext ?_)
    show min _ (50000 - 1) = min (Cert.Spec.wrapN (srcw (ix1 e))).toInt.toNat (50000 - 1)
    rw [bcastCol_apply (by decide)]
    show min (Scalar.select (IntOp.cmpi .slt (srcw (ix1 e)) 0#32) (IntOp.addi (srcw (ix1 e)) 50000#32)
      (srcw (ix1 e))).toInt.toNat (50000 - 1) = _
    rw [wrap_word]

theorem ofFin_eq_ix1 {n : Nat} (k : Fin n) : Shape.Idx.ofFin k = ix1 k := by
  funext a
  match a with
  | ⟨0, _⟩ => exact Fin.ext rfl

theorem ixP_eq_ix2 {n : Nat} (p : Fin n) : StableHlo.Predicate.ixP p = ix2 p (0 : Fin 1) := by
  funext a
  match a with
  | ⟨0, _⟩ => rfl
  | ⟨1, _⟩ => rfl

theorem take_apply {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1) (x : (⟨1, ![N]⟩ : Shape).Idx → α) (idx : IVec ⟨2, ![n, 1]⟩ w) (p : Fin n) (r : Fin N)
    (hr : r.val = min (idx (ix2 p (0 : Fin 1))).toInt.toNat (N - 1)) :
    Host.gather d x idx (ix1 p) = x (ix1 r) := by
  have hN : 0 < N := Nat.lt_of_le_of_lt (Nat.zero_le _) r.isLt
  rw [← ofFin_eq_ix1 p, ← ofFin_eq_ix1 r, StableHlo.Predicate.gather_take d hcoll hob hsim hivd x idx p hN]
  refine congrArg x (congrArg Shape.Idx.ofFin (Fin.ext ?_))
  show min (idx (StableHlo.Predicate.ixP p)).toInt.toNat (N - 1) = r.val
  rw [hr, ixP_eq_ix2]

def wrapBy (L : BitVec 32) (p : IVec S800000 32) : IVec S800000 32 :=
  select (cmpi CmpIPredicate.slt p (broadcastInDim S800000 ![] bcast_S_S800000 (constantI S_ 32 0#32)))
    (addi p (broadcastInDim S800000 ![] bcast_S_S800000 (constantI S_ 32 L))) p

theorem wrapBy_apply (L : BitVec 32) (p : IVec S800000 32) (j : S800000.Idx) :
    wrapBy L p j = Scalar.select (IntOp.cmpi .slt (p j) 0#32) (IntOp.addi (p j) L) (p j) := rfl

theorem wrap_nonneg (L : BitVec 32) (k : Nat) (hk : k < 2 ^ 31) :
    Scalar.select (IntOp.cmpi .slt (BitVec.ofNat 32 k) 0#32) (IntOp.addi (BitVec.ofNat 32 k) L) (BitVec.ofNat 32 k)
      = BitVec.ofNat 32 k := by
  have h : (BitVec.ofNat 32 k).slt 0#32 = false := by
    show decide ((BitVec.ofNat 32 k).toInt < (0#32 : BitVec 32).toInt) = false
    rw [StableHlo.Predicate.toInt_ofNat_small k hk]
    simp
  simp [Scalar.select, IntOp.cmpi, h]

theorem sort2_rank1_snd {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
            (x (Shape.Idx.ofFin k'), y (Shape.Idx.ofFin k')) == 1#1) (j 0))) := by
  unfold Host.sort2
  simp

abbrev edgeBefore (d : IVec S800000 32) : Fin 800000 → Fin 800000 → Bool := fun k k' =>
  comparator_i32_i32_d0 (d (Shape.Idx.ofFin k), iotaInDim S800000 32 0 (Shape.Idx.ofFin k))
    (d (Shape.Idx.ofFin k'), iotaInDim S800000 32 0 (Shape.Idx.ofFin k')) == 1#1

def edgePerm (d : IVec S800000 32) : Equiv.Perm (Fin 800000) :=
  Equiv.ofBijective (sortedFrom (edgeBefore d)) ⟨sortedFrom_injective _, sortedFrom_surjective _⟩

theorem edgePerm_apply (d : IVec S800000 32) (e : Fin 800000) : edgePerm d e = sortedFrom (edgeBefore d) e :=
  Equiv.ofBijective_apply _ _ _

theorem argsort_apply (d : IVec S800000 32) (e : Fin 800000) :
    (Host.sort2 S800000 0 comparator_i32_i32_d0 d (iotaInDim S800000 32 0)).2 (ix1 e)
      = BitVec.ofNat 32 (edgePerm d e).val := by
  rw [← ofFin_eq_ix1]
  refine (sort2_rank1_snd comparator_i32_i32_d0 d (iotaInDim S800000 32 0) (Shape.Idx.ofFin e)).trans ?_
  rw [Shape.Idx.ofFin_zero, edgePerm_apply]
  exact StableHlo.Predicate.iota_apply _

attribute [irreducible] edgePerm

def takeE {α : Type} (x : S800000.Idx → α) (p : IVec S800000 32) : S800000.Idx → α :=
  Host.gather gather_S800000_S800000x1_S800000_n_0_n_n_0_1_1 x
    (broadcastInDim S800000x1 ![0] bcast_S800000_S800000x1_0 (wrapBy 800000#32 p))

theorem takeE_argsort {α : Type} (x : S800000.Idx → α) (d : IVec S800000 32) :
    takeE x (Host.sort2 S800000 0 comparator_i32_i32_d0 d (iotaInDim S800000 32 0)).2
      = Cert.Spec.relist (edgePerm d) x := by
  funext j
  obtain ⟨e, rfl⟩ : ∃ e : Fin 800000, j = ix1 e := ⟨j 0, eq_ix1 j⟩
  unfold takeE
  have hlt : (edgePerm d e).val < 800000 := (edgePerm d e).isLt
  refine (take_apply gather_S800000_S800000x1_S800000_n_0_n_n_0_1_1 rfl rfl rfl rfl x _ e (edgePerm d e) ?_).trans ?_
  swap
  · show x (ix1 (edgePerm d e)) = x (ix1 (edgePerm d ((ix1 e : S800000.Idx) 0)))
    rfl
  rw [bcastCol_apply (by decide), wrapBy_apply, argsort_apply, wrap_nonneg _ _ (by omega),
    StableHlo.Predicate.toInt_ofNat_small _ (by omega)]
  omega

def srcOps (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000
def dstOps (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

theorem srcOps_eq (ei : (⟨S2x800000, .i32⟩ : BufTy).Contents (Elt F)) : srcOps ei = Cert.Spec.srcOf ei := by
  funext j
  obtain ⟨e, rfl⟩ : ∃ e : Fin 800000, j = ix1 e := ⟨j 0, eq_ix1 j⟩
  unfold srcOps
  refine (shapeCast_apply _ _ (ix1 e) (ix2 (0 : Fin 1) e) ?_).trans ?_
  · rw [Shape.rowMajor_val_two, Shape.rowMajor_val_one]
    show 0 * 800000 + e.val = e.val
    omega
  refine (extractStridedSlice_apply _ _ _ (ix2 (0 : Fin 1) e) (ix2 (0 : Fin 2) e) ?_).trans rfl
  intro a
  match a with
  | ⟨0, _⟩ => rfl
  | ⟨1, _⟩ => show e.val = 0 + e.val; omega

theorem dstOps_eq (ei : (⟨S2x800000, .i32⟩ : BufTy).Contents (Elt F)) : dstOps ei = Cert.Spec.dstOf ei := by
  funext j
  obtain ⟨e, rfl⟩ : ∃ e : Fin 800000, j = ix1 e := ⟨j 0, eq_ix1 j⟩
  unfold dstOps
  refine (shapeCast_apply _ _ (ix1 e) (ix2 (0 : Fin 1) e) ?_).trans ?_
  · rw [Shape.rowMajor_val_two, Shape.rowMajor_val_one]
    show 0 * 800000 + e.val = e.val
    omega
  refine (extractStridedSlice_apply _ _ _ (ix2 (0 : Fin 1) e) (ix2 (1 : Fin 2) e) ?_).trans rfl
  intro a
  match a with
  | ⟨0, _⟩ => rfl
  | ⟨1, _⟩ => show e.val = 0 + e.val; omega

def degOps (d : (⟨S800000, .i32⟩ : BufTy).Contents (Elt F)) (ea : (⟨S800000, .f32⟩ : BufTy).Contents (Elt F)) :
    (⟨S50000, .f32⟩ : BufTy).Contents (Elt F) :=
  addf
    (Host.scatterAdd scatter_S50000_S800000x1_S800000_n_0_0_1
      (broadcastInDim S50000 ![] bcast_S_S50000 (constant S_ FTy.f32 0#32))
      (broadcastInDim S800000x1 ![0] bcast_S800000_S800000x1_0 d) ea)
    (broadcastInDim S50000 ![] bcast_S_S50000 (constant S_ FTy.f32 0x3F800000#32))

def dinvOps (d : (⟨S800000, .i32⟩ : BufTy).Contents (Elt F)) (ea : (⟨S800000, .f32⟩ : BufTy).Contents (Elt F)) :
    (⟨S50000, .f32⟩ : BufTy).Contents (Elt F) :=
  Host.rsqrt (degOps d ea)

def takeN {α : Type} (x : S50000.Idx → α) (p : IVec S800000 32) : S800000.Idx → α :=
  Host.gather gather_S50000_S800000x1_S800000_n_0_n_n_0_1_1 x
    (broadcastInDim S800000x1 ![0] bcast_S800000_S800000x1_0 (wrapBy 50000#32 p))

def normOps (s d : (⟨S800000, .i32⟩ : BufTy).Contents (Elt F)) (ea : (⟨S800000, .f32⟩ : BufTy).Contents (Elt F)) :
    (⟨S800000, .f32⟩ : BufTy).Contents (Elt F) :=
  mulf (mulf (takeN (dinvOps d ea) s) ea) (takeN (dinvOps d ea) d)

def dinv2Ops (d : (⟨S800000, .i32⟩ : BufTy).Contents (Elt F)) (ea : (⟨S800000, .f32⟩ : BufTy).Contents (Elt F)) :
    (⟨S50000, .f32⟩ : BufTy).Contents (Elt F) :=
  mulf (dinvOps d ea) (dinvOps d ea)

theorem takeN_apply {α : Type} (x : S50000.Idx → α) (p : IVec S800000 32) (e : Fin 800000) :
    takeN x p (ix1 e) = x (ix1 (Cert.Spec.gRow (p (ix1 e)))) := by
  unfold takeN
  refine take_apply _ rfl rfl rfl rfl x _ e _ ?_
  rw [bcastCol_apply (by decide), wrapBy_apply, wrap_word]
  rfl

section AtIdeal
variable (s d : (⟨S800000, .i32⟩ : BufTy).Contents (Elt Ideal)) (ea : (⟨S800000, .f32⟩ : BufTy).Contents (Elt Ideal))

theorem bcastConst_apply {t : Shape} (h : S_.BroadcastsInDim t ![]) (b : BitVec 32) (j : t.Idx) :
    broadcastInDim t ![] h (constant (F := Ideal) S_ FTy.f32 b) j = Ideal.ofBits .f32 b := rfl

theorem degOps_ideal : degOps (F := Ideal) d ea = Cert.Spec.deg d ea := by
  funext j
  obtain ⟨n, rfl⟩ : ∃ n : Fin 50000, j = ix1 n := ⟨j 0, eq_ix1 j⟩

  have h1 : Host.scatterAdd scatter_S50000_S800000x1_S800000_n_0_0_1
      (broadcastInDim S50000 ![] bcast_S_S50000 (constant (F := Ideal) S_ FTy.f32 0#32))
      (broadcastInDim S800000x1 ![0] bcast_S800000_S800000x1_0 d) ea (ix1 n)
      = ∑ e ∈ Cert.Spec.into d n.val, ea (ix1 e) := by
    refine (Cert.VecScatter.scatterAdd_vec_apply (N := 50000) (R := 800000)
      scatter_S50000_S800000x1_S800000_n_0_0_1_wf _ _ _ n).trans ?_
    rw [(bcastConst_apply bcast_S_S50000 0#32 (ix1 n)).trans Ideal.ofBits_zero_f32, zero_add]
    unfold Cert.Spec.into
    refine Finset.sum_congr (Finset.filter_congr fun e _ => ?_) fun _ _ => rfl
    rw [bcastCol_apply (by decide)]
  unfold degOps
  rw [addf_apply, bcastConst_apply, h1]
  rfl

theorem hostRsqrt_apply {s' : Shape} {φ : FTy} (a : FVec Ideal s' φ) (i : s'.Idx) : Host.rsqrt a i = Ideal.rsqrt (a i) := rfl

theorem dinvOps_ideal : dinvOps (F := Ideal) d ea = Cert.Spec.dinv d ea := by
  funext j
  exact (hostRsqrt_apply (degOps (F := Ideal) d ea) j).trans (congrArg Ideal.rsqrt (congrFun (degOps_ideal d ea) j))

theorem normOps_ideal : normOps (F := Ideal) s d ea = Cert.Spec.norm s d ea := by
  funext j
  obtain ⟨e, rfl⟩ : ∃ e : Fin 800000, j = ix1 e := ⟨j 0, eq_ix1 j⟩
  unfold normOps Cert.Spec.norm
  rw [mulf_apply, mulf_apply, takeN_apply, takeN_apply, dinvOps_ideal]

theorem dinv2Ops_ideal : dinv2Ops (F := Ideal) d ea = Cert.Spec.dinv2 d ea := by
  funext j
  unfold dinv2Ops Cert.Spec.dinv2
  rw [mulf_apply, dinvOps_ideal]

end AtIdeal

end Cert.KernelIdeal.Hand

end
-- ==== Proof.KI.HostValAgg.lean ====
import proofs.«400674_j14499809591724_2_alg».proof.Proof.Gen.KernelIdeal.Regions
import proofs.«400674_j14499809591724_2_alg».proof.Proof.KI.HostValFns
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.ShloMosaic.StableHlo
open Cert.KernelIdeal Cert.KernelIdeal.Gen

variable {F : FTy → Type} [FloatOps F]

set_option maxHeartbeats 2000000 in
theorem aggStretch1 (W : Valuation τ sig (Elt F)) :
    (StableHlo.after hostOps1 W (Proc.devRef .tc main_v71) : (⟨S50000x128, .f32⟩ : BufTy).Contents (Elt F))
      = aggOps (W (Proc.devRef .tc main_v57)) (W (Proc.devRef .tc main_v11)) (W (Proc.devRef .tc main_v18))
          (W (Proc.devRef .tc main_v47)) := by
  after_results_simp
  rfl

set_option maxHeartbeats 2000000 in
theorem aggStretch3 (W : Valuation τ sig (Elt F)) :
    (StableHlo.after hostOps3 W (Proc.devRef .tc main_v89) : (⟨S50000x128, .f32⟩ : BufTy).Contents (Elt F))
      = aggOps (W (Proc.devRef .tc main_v75)) (W (Proc.devRef .tc main_v11)) (W (Proc.devRef .tc main_v18))
          (W (Proc.devRef .tc main_v47)) := by
  after_results_simp
  rfl

set_option maxHeartbeats 2000000 in
theorem aggStretch5 (W : Valuation τ sig (Elt F)) :
    (StableHlo.after hostOps5 W (Proc.devRef .tc main_v123) : (⟨S50000x128, .f32⟩ : BufTy).Contents (Elt F))
      = aggOps (W (Proc.devRef .tc main_v109)) (W (Proc.devRef .tc main_v11)) (W (Proc.devRef .tc main_v18))
          (W (Proc.devRef .tc main_v47)) := by
  after_results_simp
  rfl

set_option maxHeartbeats 2000000 in
theorem aggStretch7 (W : Valuation τ sig (Elt F)) :
    (StableHlo.after hostOps7 W (Proc.devRef .tc main_v141) : (⟨S50000x128, .f32⟩ : BufTy).Contents (Elt F))
      = aggOps (W (Proc.devRef .tc main_v127)) (W (Proc.devRef .tc main_v11)) (W (Proc.devRef .tc main_v18))
          (W (Proc.devRef .tc main_v47)) := by
  after_results_simp
  rfl

set_option maxHeartbeats 2000000 in
theorem aggStretch9 (W : Valuation τ sig (Elt F)) :
    (StableHlo.after hostOps9 W (Proc.devRef .tc main_v175) : (⟨S50000x128, .f32⟩ : BufTy).Contents (Elt F))
      = aggOps (W (Proc.devRef .tc main_v161)) (W (Proc.devRef .tc main_v11)) (W (Proc.devRef .tc main_v18))
          (W (Proc.devRef .tc main_v47)) := by
  after_results_simp
  rfl

set_option maxHeartbeats 2000000 in
theorem aggStretch11 (W : Valuation τ sig (Elt F)) :
    (StableHlo.after hostOps11 W (Proc.devRef .tc main_v193) : (⟨S50000x128, .f32⟩ : BufTy).Contents (Elt F))
      = aggOps (W (Proc.devRef .tc main_v179)) (W (Proc.devRef .tc main_v11)) (W (Proc.devRef .tc main_v18))
          (W (Proc.devRef .tc main_v47)) := by
  after_results_simp
  rfl

section Stretches
variable (m : (ℓ : Loc nD τ sig) → Buf (Elt F) ℓ) (outs : Outs (F := F))
theorem V4_main_v11 (c : Dev nD) : V4 m outs c main_v11 = V3 m c main_v11 :=
  (V4_of m outs c main_v11 (by decide))
theorem V7_main_v11 (c : Dev nD) : V7 m outs c main_v11 = V3 m c main_v11 :=
  (V7_of m outs c main_v11 (by decide)).trans <| (V6_of m outs c main_v11 (by decide)).trans <| (V5_of m outs c main_v11 (by decide)).trans <| V4_main_v11 m outs c
theorem V11_main_v11 (c : Dev nD) : V11 m outs c main_v11 = V3 m c main_v11 :=
  (V11_of m outs c main_v11 (by decide)).trans <| (V10_of m outs c main_v11 (by decide)).trans <| (V9_of m outs c main_v11 (by decide)).trans <| (V8_of m outs c main_v11 (by decide)).trans <| V7_main_v11 m outs c
theorem V14_main_v11 (c : Dev nD) : V14 m outs c main_v11 = V3 m c main_v11 :=
  (V14_of m outs c main_v11 (by decide)).trans <| (V13_of m outs c main_v11 (by decide)).trans <| (V12_of m outs c main_v11 (by decide)).trans <| V11_main_v11 m outs c
theorem V18_main_v11 (c : Dev nD) : V18 m outs c main_v11 = V3 m c main_v11 :=
  (V18_of m outs c main_v11 (by decide)).trans <| (V17_of m outs c main_v11 (by decide)).trans <| (V16_of m outs c main_v11 (by decide)).trans <| (V15_of m outs c main_v11 (by decide)).trans <| V14_main_v11 m outs c
theorem V21_main_v11 (c : Dev nD) : V21 m outs c main_v11 = V3 m c main_v11 :=
  (V21_of m outs c main_v11 (by decide)).trans <| (V20_of m outs c main_v11 (by decide)).trans <| (V19_of m outs c main_v11 (by decide)).trans <| V18_main_v11 m outs c
theorem V4_main_v18 (c : Dev nD) : V4 m outs c main_v18 = V3 m c main_v18 :=
  (V4_of m outs c main_v18 (by decide))
theorem V7_main_v18 (c : Dev nD) : V7 m outs c main_v18 = V3 m c main_v18 :=
  (V7_of m outs c main_v18 (by decide)).trans <| (V6_of m outs c main_v18 (by decide)).trans <| (V5_of m outs c main_v18 (by decide)).trans <| V4_main_v18 m outs c
theorem V11_main_v18 (c : Dev nD) : V11 m outs c main_v18 = V3 m c main_v18 :=
  (V11_of m outs c main_v18 (by decide)).trans <| (V10_of m outs c main_v18 (by decide)).trans <| (V9_of m outs c main_v18 (by decide)).trans <| (V8_of m outs c main_v18 (by decide)).trans <| V7_main_v18 m outs c
theorem V14_main_v18 (c : Dev nD) : V14 m outs c main_v18 = V3 m c main_v18 :=
  (V14_of m outs c main_v18 (by decide)).trans <| (V13_of m outs c main_v18 (by decide)).trans <| (V12_of m outs c main_v18 (by decide)).trans <| V11_main_v18 m outs c
theorem V18_main_v18 (c : Dev nD) : V18 m outs c main_v18 = V3 m c main_v18 :=
  (V18_of m outs c main_v18 (by decide)).trans <| (V17_of m outs c main_v18 (by decide)).trans <| (V16_of m outs c main_v18 (by decide)).trans <| (V15_of m outs c main_v18 (by decide)).trans <| V14_main_v18 m outs c
theorem V21_main_v18 (c : Dev nD) : V21 m outs c main_v18 = V3 m c main_v18 :=
  (V21_of m outs c main_v18 (by decide)).trans <| (V20_of m outs c main_v18 (by decide)).trans <| (V19_of m outs c main_v18 (by decide)).trans <| V18_main_v18 m outs c
theorem V4_main_v47 (c : Dev nD) : V4 m outs c main_v47 = V3 m c main_v47 :=
  (V4_of m outs c main_v47 (by decide))
theorem V7_main_v47 (c : Dev nD) : V7 m outs c main_v47 = V3 m c main_v47 :=
  (V7_of m outs c main_v47 (by decide)).trans <| (V6_of m outs c main_v47 (by decide)).trans <| (V5_of m outs c main_v47 (by decide)).trans <| V4_main_v47 m outs c
theorem V11_main_v47 (c : Dev nD) : V11 m outs c main_v47 = V3 m c main_v47 :=
  (V11_of m outs c main_v47 (by decide)).trans <| (V10_of m outs c main_v47 (by decide)).trans <| (V9_of m outs c main_v47 (by decide)).trans <| (V8_of m outs c main_v47 (by decide)).trans <| V7_main_v47 m outs c
theorem V14_main_v47 (c : Dev nD) : V14 m outs c main_v47 = V3 m c main_v47 :=
  (V14_of m outs c main_v47 (by decide)).trans <| (V13_of m outs c main_v47 (by decide)).trans <| (V12_of m outs c main_v47 (by decide)).trans <| V11_main_v47 m outs c
theorem V18_main_v47 (c : Dev nD) : V18 m outs c main_v47 = V3 m c main_v47 :=
  (V18_of m outs c main_v47 (by decide)).trans <| (V17_of m outs c main_v47 (by decide)).trans <| (V16_of m outs c main_v47 (by decide)).trans <| (V15_of m outs c main_v47 (by decide)).trans <| V14_main_v47 m outs c
theorem V21_main_v47 (c : Dev nD) : V21 m outs c main_v47 = V3 m c main_v47 :=
  (V21_of m outs c main_v47 (by decide)).trans <| (V20_of m outs c main_v47 (by decide)).trans <| (V19_of m outs c main_v47 (by decide)).trans <| V18_main_v47 m outs c

theorem V5_main_v71_ops (c : Dev nD) :
    (V5 m outs c main_v71 : (⟨S50000x128, .f32⟩ : BufTy).Contents (Elt F))
      = aggOps (outs 4 main_v57 c) (V3 m c main_v11) (V3 m c main_v18) (V3 m c main_v47) := by
  refine (aggStretch1 (V4 m outs c)).trans ?_
  rw [show V4 m outs c (Proc.devRef .tc main_v57) = outs 4 main_v57 c from Function.update_self ..,
    V4_main_v11, V4_main_v18, V4_main_v47]

theorem V8_main_v89_ops (c : Dev nD) :
    (V8 m outs c main_v89 : (⟨S50000x128, .f32⟩ : BufTy).Contents (Elt F))
      = aggOps (outs 7 main_v75 c) (V3 m c main_v11) (V3 m c main_v18) (V3 m c main_v47) := by
  refine (aggStretch3 (V7 m outs c)).trans ?_
  rw [show V7 m outs c (Proc.devRef .tc main_v75) = outs 7 main_v75 c from Function.update_self ..,
    V7_main_v11, V7_main_v18, V7_main_v47]

theorem V12_main_v123_ops (c : Dev nD) :
    (V12 m outs c main_v123 : (⟨S50000x128, .f32⟩ : BufTy).Contents (Elt F))
      = aggOps (outs 11 main_v109 c) (V3 m c main_v11) (V3 m c main_v18) (V3 m c main_v47) := by
  refine (aggStretch5 (V11 m outs c)).trans ?_
  rw [show V11 m outs c (Proc.devRef .tc main_v109) = outs 11 main_v109 c from Function.update_self ..,
    V11_main_v11, V11_main_v18, V11_main_v47]

theorem V15_main_v141_ops (c : Dev nD) :
    (V15 m outs c main_v141 : (⟨S50000x128, .f32⟩ : BufTy).Contents (Elt F))
      = aggOps (outs 14 main_v127 c) (V3 m c main_v11) (V3 m c main_v18) (V3 m c main_v47) := by
  refine (aggStretch7 (V14 m outs c)).trans ?_
  rw [show V14 m outs c (Proc.devRef .tc main_v127) = outs 14 main_v127 c from Function.update_self ..,
    V14_main_v11, V14_main_v18, V14_main_v47]

theorem V19_main_v175_ops (c : Dev nD) :
    (V19 m outs c main_v175 : (⟨S50000x128, .f32⟩ : BufTy).Contents (Elt F))
      = aggOps (outs 18 main_v161 c) (V3 m c main_v11) (V3 m c main_v18) (V3 m c main_v47) := by
  refine (aggStretch9 (V18 m outs c)).trans ?_
  rw [show V18 m outs c (Proc.devRef .tc main_v161) = outs 18 main_v161 c from Function.update_self ..,
    V18_main_v11, V18_main_v18, V18_main_v47]

theorem V22_main_v193_ops (c : Dev nD) :
    (V22 m outs c main_v193 : (⟨S50000x128, .f32⟩ : BufTy).Contents (Elt F))
      = aggOps (outs 21 main_v179 c) (V3 m c main_v11) (V3 m c main_v18) (V3 m c main_v47) := by
  refine (aggStretch11 (V21 m outs c)).trans ?_
  rw [show V21 m outs c (Proc.devRef .tc main_v179) = outs 21 main_v179 c from Function.update_self ..,
    V21_main_v11, V21_main_v18, V21_main_v47]

end Stretches

section AtIdeal

theorem val5_main_v71 (m : (ℓ : Loc nD τ sig) → Buf (Elt Ideal) ℓ) (outs : Outs (F := Ideal)) (c : Dev nD) :
    V5 m outs c main_v71
      = Cert.Spec.agg (outs 4 main_v57 c) (V3 m c main_v11) (V3 m c main_v18) (V3 m c main_v47) :=
  (V5_main_v71_ops m outs c).trans (aggOps_ideal _ _ _ _)

theorem val8_main_v89 (m : (ℓ : Loc nD τ sig) → Buf (Elt Ideal) ℓ) (outs : Outs (F := Ideal)) (c : Dev nD) :
    V8 m outs c main_v89
      = Cert.Spec.agg (outs 7 main_v75 c) (V3 m c main_v11) (V3 m c main_v18) (V3 m c main_v47) :=
  (V8_main_v89_ops m outs c).trans (aggOps_ideal _ _ _ _)

theorem val12_main_v123 (m : (ℓ : Loc nD τ sig) → Buf (Elt Ideal) ℓ) (outs : Outs (F := Ideal)) (c : Dev nD) :
    V12 m outs c main_v123
      = Cert.Spec.agg (outs 11 main_v109 c) (V3 m c main_v11) (V3 m c main_v18) (V3 m c main_v47) :=
  (V12_main_v123_ops m outs c).trans (aggOps_ideal _ _ _ _)

theorem val15_main_v141 (m : (ℓ : Loc nD τ sig) → Buf (Elt Ideal) ℓ) (outs : Outs (F := Ideal)) (c : Dev nD) :
    V15 m outs c main_v141
      = Cert.Spec.agg (outs 14 main_v127 c) (V3 m c main_v11) (V3 m c main_v18) (V3 m c main_v47) :=
  (V15_main_v141_ops m outs c).trans (aggOps_ideal _ _ _ _)

theorem val19_main_v175 (m : (ℓ : Loc nD τ sig) → Buf (Elt Ideal) ℓ) (outs : Outs (F := Ideal)) (c : Dev nD) :
    V19 m outs c main_v175
      = Cert.Spec.agg (outs 18 main_v161 c) (V3 m c main_v11) (V3 m c main_v18) (V3 m c main_v47) :=
  (V19_main_v175_ops m outs c).trans (aggOps_ideal _ _ _ _)

theorem val22_main_v193 (m : (ℓ : Loc nD τ sig) → Buf (Elt Ideal) ℓ) (outs : Outs (F := Ideal)) (c : Dev nD) :
    V22 m outs c main_v193
      = Cert.Spec.agg (outs 21 main_v179 c) (V3 m c main_v11) (V3 m c main_v18) (V3 m c main_v47) :=
  (V22_main_v193_ops m outs c).trans (aggOps_ideal _ _ _ _)

end AtIdeal

end Cert.KernelIdeal.Hand

end
-- ==== Proof.KI.HostLay0.lean ====
import proofs.«400674_j14499809591724_2_alg».proof.Proof.Gen.KernelIdeal.Regions
import proofs.«400674_j14499809591724_2_alg».proof.Proof.Spec
import Idealize.ShloMosaic.Lib.ValueLayout
import Idealize.ShloMosaic.Lib.StableHlo.Run
import Idealize.ShloMosaic.Lib.Pipeline.Frame

set_option maxRecDepth 16384

noncomputable section

namespace Cert.KernelIdeal.Hand

open Idealize.ShloMosaic Idealize.ShloMosaic.TcCoe Idealize.ShloMosaic.ValueIdx
open Idealize.ShloMosaic.StableHlo
open Cert.KernelIdeal Cert.KernelIdeal.Gen

section Split
variable {Val : EltTy → Type}

theorem after_split (ops : List (HloOp τ sig Val)) (n : ℕ) (V : Valuation τ sig Val) (b : DevRef τ sig) :
    StableHlo.after ops V b = StableHlo.after (ops.drop n) (StableHlo.after (ops.take n) V) b := by
  conv_lhs => rw [← List.take_append_drop n ops]
  rw [StableHlo.after_append]

theorem after_take_of_writes_sub {W : List (Ref sig .tc)} {r : Ref sig .tc} (ops : List (HloOp τ sig Val)) (n : ℕ)
    (V : Valuation τ sig Val)
    (hW : ops.Forall fun op => op.writes ⊆ (W.map (Proc.devRef (τ := τ) .tc)).toFinset) (hr : r ∉ W) :
    StableHlo.after (ops.take n) V (Proc.devRef .tc r) = V (Proc.devRef .tc r) :=
  StableHlo.after_of_writes_sub _ _
    (List.forall_iff_forall_mem.mpr fun op hop => (List.forall_iff_forall_mem.mp hW) op (List.mem_of_mem_take hop)) hr

end Split

section Kinds
variable {α : Type}

theorem stackW_apply (X : (⟨4, ![3, 2, 128, 128]⟩ : Shape).Idx → α) (l : Fin 3) (q : Fin 2)
    (hs : (⟨4, ![3, 2, 128, 128]⟩ : Shape).Slices ![l.val, q.val, 0, 0] ⟨4, ![1, 1, 128, 128]⟩)
    (hc : (⟨4, ![1, 1, 128, 128]⟩ : Shape).ShapeCasts ⟨2, ![128, 128]⟩) (i : (⟨2, ![128, 128]⟩ : Shape).Idx) :
    shapeCast ⟨2, ![128, 128]⟩ (extractStridedSlice ⟨4, ![1, 1, 128, 128]⟩ ![l.val, q.val, 0, 0] X hs) hc i
      = X (ix4 l q (i 0 : Fin 128) (i 1 : Fin 128)) := by
  refine (shapeCast_apply _ hc i (ix4 (0 : Fin 1) (0 : Fin 1) (i 0 : Fin 128) (i 1 : Fin 128)) ?_).trans ?_
  · rw [Shape.rowMajor_val_four, Shape.rowMajor_val_two]
    show ((0 * 1 + 0) * 128 + (i 0).val) * 128 + (i 1).val = (i 0).val * 128 + (i 1).val
    omega
  · exact extractStridedSlice_apply _ X hs _ _ (fun a => by
      match a with
      | ⟨0, _⟩ => show l.val = l.val + 0; omega
      | ⟨1, _⟩ => show q.val = q.val + 0; omega
      | ⟨2, _⟩ => show (i 0).val = 0 + (i 0).val; omega
      | ⟨3, _⟩ => show (i 1).val = 0 + (i 1).val; omega)

theorem stackB_apply (X : (⟨3, ![3, 2, 128]⟩ : Shape).Idx → α) (l : Fin 3) (q : Fin 2)
    (hs : (⟨3, ![3, 2, 128]⟩ : Shape).Slices ![l.val, q.val, 0] ⟨3, ![1, 1, 128]⟩)
    (hc : (⟨3, ![1, 1, 128]⟩ : Shape).ShapeCasts ⟨1, ![128]⟩) (i : (⟨1, ![128]⟩ : Shape).Idx) :
    shapeCast ⟨1, ![128]⟩ (extractStridedSlice ⟨3, ![1, 1, 128]⟩ ![l.val, q.val, 0] X hs) hc i
      = X (ix3 l q (i 0 : Fin 128)) := by
  refine (shapeCast_apply _ hc i (ix3 (0 : Fin 1) (0 : Fin 1) (i 0 : Fin 128)) ?_).trans ?_
  · rw [Shape.rowMajor_val_three, Shape.rowMajor_val_one]
    show (0 * 1 + 0) * 128 + (i 0).val = (i 0).val
    omega
  · exact extractStridedSlice_apply _ X hs _ _ (fun a => by
      match a with
      | ⟨0, _⟩ => show l.val = l.val + 0; omega
      | ⟨1, _⟩ => show q.val = q.val + 0; omega
      | ⟨2, _⟩ => show (i 0).val = 0 + (i 0).val; omega)

theorem stackJW_apply (X : (⟨3, ![3, 256, 128]⟩ : Shape).Idx → α) (l : Fin 3) (o : ℕ)
    (hs : (⟨3, ![3, 256, 128]⟩ : Shape).Slices ![l.val, 0, 0] ⟨3, ![1, 256, 128]⟩)
    (hc : (⟨3, ![1, 256, 128]⟩ : Shape).ShapeCasts ⟨2, ![256, 128]⟩)
    (hs2 : (⟨2, ![256, 128]⟩ : Shape).Slices ![o, 0] ⟨2, ![128, 128]⟩) (i : (⟨2, ![128, 128]⟩ : Shape).Idx)
    (k : Fin 256) (hk : k.val = o + (i 0 : Fin 128).val) :
    extractStridedSlice ⟨2, ![128, 128]⟩ ![o, 0]
        (shapeCast ⟨2, ![256, 128]⟩ (extractStridedSlice ⟨3, ![1, 256, 128]⟩ ![l.val, 0, 0] X hs) hc) hs2 i
      = X (ix3 l k (i 1 : Fin 128)) := by
  refine (extractStridedSlice_apply _ _ hs2 i (ix2 k (i 1 : Fin 128)) (fun a => by
      match a with
      | ⟨0, _⟩ => exact hk
      | ⟨1, _⟩ => show (i 1).val = 0 + (i 1).val; omega)).trans ?_
  refine (shapeCast_apply _ hc _ (ix3 (0 : Fin 1) k (i 1 : Fin 128)) ?_).trans ?_
  · rw [Shape.rowMajor_val_three, Shape.rowMajor_val_two]
    show (0 * 256 + k.val) * 128 + (i 1).val = k.val * 128 + (i 1).val
    omega
  · exact extractStridedSlice_apply _ X hs _ _ (fun a => by
      match a with
      | ⟨0, _⟩ => show l.val = l.val + 0; omega
      | ⟨1, _⟩ => show k.val = 0 + k.val; omega
      | ⟨2, _⟩ => show (i 1).val = 0 + (i 1).val; omega)

theorem stackJB_apply (X : (⟨2, ![3, 128]⟩ : Shape).Idx → α) (l : Fin 3)
    (hs : (⟨2, ![3, 128]⟩ : Shape).Slices ![l.val, 0] ⟨2, ![1, 128]⟩)
    (hc : (⟨2, ![1, 128]⟩ : Shape).ShapeCasts ⟨1, ![128]⟩) (i : (⟨1, ![128]⟩ : Shape).Idx) :
    shapeCast ⟨1, ![128]⟩ (extractStridedSlice ⟨2, ![1, 128]⟩ ![l.val, 0] X hs) hc i = X (ix2 l (i 0 : Fin 128)) := by
  refine (shapeCast_apply _ hc i (ix2 (0 : Fin 1) (i 0 : Fin 128)) ?_).trans ?_
  · rw [Shape.rowMajor_val_two, Shape.rowMajor_val_one]
    show 0 * 128 + (i 0).val = (i 0).val
    omega
  · exact extractStridedSlice_apply _ X hs _ _ (fun a => by
      match a with
      | ⟨0, _⟩ => show l.val = l.val + 0; omega
      | ⟨1, _⟩ => show (i 0).val = 0 + (i 0).val; omega)

theorem castRow_apply {a : ℕ} (x : (⟨1, ![a]⟩ : Shape).Idx → α) (h : (⟨1, ![a]⟩ : Shape).ShapeCasts ⟨2, ![1, a]⟩)
    (i : (⟨2, ![1, a]⟩ : Shape).Idx) : shapeCast ⟨2, ![1, a]⟩ x h i = x (ix1 (i 1 : Fin a)) :=
  shapeCast_apply x h i _ (by
    have h0 : (i 0).val = 0 := by have h1 : (i 0).val < 1 := (i 0).isLt; omega
    rw [Shape.rowMajor_val_two, Shape.rowMajor_val_one]
    show (i 1).val = (i 0).val * a + (i 1).val
    rw [h0, Nat.zero_mul, Nat.zero_add])

theorem castCol_apply {a : ℕ} (x : (⟨1, ![a]⟩ : Shape).Idx → α) (h : (⟨1, ![a]⟩ : Shape).ShapeCasts ⟨2, ![a, 1]⟩)
    (i : (⟨2, ![a, 1]⟩ : Shape).Idx) : shapeCast ⟨2, ![a, 1]⟩ x h i = x (ix1 (i 0 : Fin a)) :=
  shapeCast_apply x h i _ (by
    have h1 : (i 1).val = 0 := by have h2 : (i 1).val < 1 := (i 1).isLt; omega
    rw [Shape.rowMajor_val_two, Shape.rowMajor_val_one]
    show (i 0).val = (i 0).val * 1 + (i 1).val
    rw [h1, Nat.mul_one, Nat.add_zero])

end Kinds

section Stretches
variable (W : Valuation τ sig (Elt Ideal))

theorem pre_main_v50 : StableHlo.after hostOps0_2 W (Proc.devRef .tc main_v50) = Cert.Spec.wAt (W main_arg2) 0 0 := by
  refine (after_split _ 56 _ _).trans ?_
  simp only [List.drop_succ_cons, List.drop_zero]
  after_results
  rw [after_take_of_writes_sub _ 56 _ hostOps0_2_writes (by decide)]
  funext i
  exact stackW_apply _ 0 0 _ _ i

theorem pre_main_v52 : StableHlo.after hostOps0_2 W (Proc.devRef .tc main_v52) = Cert.Spec.wAt (W main_arg2) 0 1 := by
  refine (after_split _ 56 _ _).trans ?_
  simp only [List.drop_succ_cons, List.drop_zero]
  after_results
  rw [after_take_of_writes_sub _ 56 _ hostOps0_2_writes (by decide)]
  funext i
  exact stackW_apply _ 0 1 _ _ i

theorem pre_main_v54 : StableHlo.after hostOps0_2 W (Proc.devRef .tc main_v54) = Cert.Spec.bAt (W main_arg3) 0 0 := by
  refine (after_split _ 56 _ _).trans ?_
  simp only [List.drop_succ_cons, List.drop_zero]
  after_results
  rw [after_take_of_writes_sub _ 56 _ hostOps0_2_writes (by decide)]
  funext i
  exact stackB_apply _ 0 0 _ _ i

theorem pre_main_v56 : StableHlo.after hostOps0_2 W (Proc.devRef .tc main_v56) = Cert.Spec.bAt (W main_arg3) 0 1 := by
  refine (after_split _ 56 _ _).trans ?_
  simp only [List.drop_succ_cons, List.drop_zero]
  after_results
  rw [after_take_of_writes_sub _ 56 _ hostOps0_2_writes (by decide)]
  funext i
  exact stackB_apply _ 0 1 _ _ i

theorem h1_main_v72 : StableHlo.after hostOps1 W (Proc.devRef .tc main_v72) = Cert.Spec.col (W main_v48) := by
  refine (after_split _ 17 _ _).trans ?_
  simp only [List.drop_succ_cons, List.drop_zero]
  after_results
  rw [after_take_of_writes_sub _ 17 _ hostOps1_writes (by decide)]
  funext i
  exact castCol_apply _ _ i

theorem h1_main_v73 : StableHlo.after hostOps1 W (Proc.devRef .tc main_v73) = Cert.Spec.row (W main_v54) := by
  refine (after_split _ 17 _ _).trans ?_
  simp only [List.drop_succ_cons, List.drop_zero]
  after_results
  rw [after_take_of_writes_sub _ 17 _ hostOps1_writes (by decide)]
  funext i
  exact castRow_apply _ _ i

theorem h3_main_v94 : StableHlo.after hostOps3 W (Proc.devRef .tc main_v94) = Cert.Spec.jwTop (W main_arg4) 0 := by
  refine (after_split _ 17 _ _).trans ?_
  simp only [List.drop_succ_cons, List.drop_zero]
  after_results
  rw [after_take_of_writes_sub _ 17 _ hostOps3_writes (by decide)]
  funext i
  exact stackJW_apply _ 0 0 _ _ _ i ⟨(i 0 : Fin 128).val, by have h : (i 0 : Fin 128).val < 128 := (i 0 : Fin 128).isLt; omega⟩
    (by show (i 0 : Fin 128).val = 0 + (i 0 : Fin 128).val; omega)

theorem h3_main_v95 : StableHlo.after hostOps3 W (Proc.devRef .tc main_v95) = Cert.Spec.jwBot (W main_arg4) 0 := by
  refine (after_split _ 17 _ _).trans ?_
  simp only [List.drop_succ_cons, List.drop_zero]
  after_results
  rw [after_take_of_writes_sub _ 17 _ hostOps3_writes (by decide)]
  funext i
  exact stackJW_apply _ 0 128 _ _ _ i ⟨128 + (i 0 : Fin 128).val, by have h : (i 0 : Fin 128).val < 128 := (i 0 : Fin 128).isLt; omega⟩ rfl

theorem h3_main_v98 : StableHlo.after hostOps3 W (Proc.devRef .tc main_v98) = Cert.Spec.row (Cert.Spec.jbAt (W main_arg5) 0) := by
  refine (after_split _ 17 _ _).trans ?_
  simp only [List.drop_succ_cons, List.drop_zero]
  after_results
  rw [after_take_of_writes_sub _ 17 _ hostOps3_writes (by decide)]
  funext i
  exact (castRow_apply _ _ i).trans (stackJB_apply _ 0 _ _ _)

theorem h3_main_v96 : StableHlo.after hostOps3 W (Proc.devRef .tc main_v96) = Cert.Spec.col (W main_v48) := by
  refine (after_split _ 17 _ _).trans ?_
  simp only [List.drop_succ_cons, List.drop_zero]
  after_results
  rw [after_take_of_writes_sub _ 17 _ hostOps3_writes (by decide)]
  funext i
  exact castCol_apply _ _ i

theorem h3_main_v97 : StableHlo.after hostOps3 W (Proc.devRef .tc main_v97) = Cert.Spec.row (W main_v56) := by
  refine (after_split _ 17 _ _).trans ?_
  simp only [List.drop_succ_cons, List.drop_zero]
  after_results
  rw [after_take_of_writes_sub _ 17 _ hostOps3_writes (by decide)]
  funext i
  exact castRow_apply _ _ i

theorem h3_main_v99 : StableHlo.after hostOps3 W (Proc.devRef .tc main_v99) = Cert.Spec.colI (W main_arg15) := by
  refine (after_split _ 17 _ _).trans ?_
  simp only [List.drop_succ_cons, List.drop_zero]
  after_results
  rw [after_take_of_writes_sub _ 17 _ hostOps3_writes (by decide)]
  funext i
  exact castCol_apply _ _ i

end Stretches

variable (m : (ℓ : Loc nD τ sig) → Buf (Elt Ideal) ℓ) (outs : Outs (F := Ideal))

theorem val3_main_arg0 (c : Dev nD) : V3 m c main_arg0 = m ((c : Thread nD τ).loc main_arg0) :=
  (V3_of m c main_arg0 (by decide)).trans <| (V2_of m c main_arg0 (by decide)).trans <| (V1_of m c main_arg0 (by decide)).trans rfl

theorem val3_main_v50 (c : Dev nD) : V3 m c main_v50 = Cert.Spec.wAt (m ((c : Thread nD τ).loc main_arg2)) 0 0 :=
  (pre_main_v50 (V2 m c)).trans (congrArg (fun x => Cert.Spec.wAt x 0 0) ((V2_of m c main_arg2 (by decide)).trans <| (V1_of m c main_arg2 (by decide)).trans rfl))
theorem val3_main_v52 (c : Dev nD) : V3 m c main_v52 = Cert.Spec.wAt (m ((c : Thread nD τ).loc main_arg2)) 0 1 :=
  (pre_main_v52 (V2 m c)).trans (congrArg (fun x => Cert.Spec.wAt x 0 1) ((V2_of m c main_arg2 (by decide)).trans <| (V1_of m c main_arg2 (by decide)).trans rfl))
theorem val3_main_v54 (c : Dev nD) : V3 m c main_v54 = Cert.Spec.bAt (m ((c : Thread nD τ).loc main_arg3)) 0 0 :=
  (pre_main_v54 (V2 m c)).trans (congrArg (fun x => Cert.Spec.bAt x 0 0) ((V2_of m c main_arg3 (by decide)).trans <| (V1_of m c main_arg3 (by decide)).trans rfl))
theorem val3_main_v56 (c : Dev nD) : V3 m c main_v56 = Cert.Spec.bAt (m ((c : Thread nD τ).loc main_arg3)) 0 1 :=
  (pre_main_v56 (V2 m c)).trans (congrArg (fun x => Cert.Spec.bAt x 0 1) ((V2_of m c main_arg3 (by decide)).trans <| (V1_of m c main_arg3 (by decide)).trans rfl))

theorem val5_main_v57 (c : Dev nD) : V5 m outs c main_v57 = outs 4 main_v57 c :=
  (V5_of m outs c main_v57 (by decide)).trans (Function.update_self _ _ _)
theorem val5_main_v72 (c : Dev nD) : V5 m outs c main_v72 = Cert.Spec.col (V3 m c main_v48) :=
  (h1_main_v72 (V4 m outs c)).trans (congrArg Cert.Spec.col (V4_of m outs c main_v48 (by decide)))
theorem val5_main_v73 (c : Dev nD) : V5 m outs c main_v73 = Cert.Spec.row (Cert.Spec.bAt (m ((c : Thread nD τ).loc main_arg3)) 0 0) :=
  (h1_main_v73 (V4 m outs c)).trans (congrArg Cert.Spec.row ((V4_of m outs c main_v54 (by decide)).trans (val3_main_v54 m c)))

theorem val6_main_v74 (c : Dev nD) : V6 m outs c main_v74 = outs 6 main_v74 c := Function.update_self _ _ _
theorem val6_main_v52 (c : Dev nD) : V6 m outs c main_v52 = Cert.Spec.wAt (m ((c : Thread nD τ).loc main_arg2)) 0 1 :=
  (V6_of m outs c main_v52 (by decide)).trans <| (V5_of m outs c main_v52 (by decide)).trans <| (V4_of m outs c main_v52 (by decide)).trans (val3_main_v52 m c)

theorem val8_main_v94 (c : Dev nD) : V8 m outs c main_v94 = Cert.Spec.jwTop (m ((c : Thread nD τ).loc main_arg4)) 0 :=
  (h3_main_v94 (V7 m outs c)).trans (congrArg (fun x => Cert.Spec.jwTop x 0) ((V7_of m outs c main_arg4 (by decide)).trans <| (V6_of m outs c main_arg4 (by decide)).trans <| (V5_of m outs c main_arg4 (by decide)).trans <| (V4_of m outs c main_arg4 (by decide)).trans <| (V3_of m c main_arg4 (by decide)).trans <| (V2_of m c main_arg4 (by decide)).trans <| (V1_of m c main_arg4 (by decide)).trans rfl))
theorem val8_main_v95 (c : Dev nD) : V8 m outs c main_v95 = Cert.Spec.jwBot (m ((c : Thread nD τ).loc main_arg4)) 0 :=
  (h3_main_v95 (V7 m outs c)).trans (congrArg (fun x => Cert.Spec.jwBot x 0) ((V7_of m outs c main_arg4 (by decide)).trans <| (V6_of m outs c main_arg4 (by decide)).trans <| (V5_of m outs c main_arg4 (by decide)).trans <| (V4_of m outs c main_arg4 (by decide)).trans <| (V3_of m c main_arg4 (by decide)).trans <| (V2_of m c main_arg4 (by decide)).trans <| (V1_of m c main_arg4 (by decide)).trans rfl))
theorem val8_main_v98 (c : Dev nD) : V8 m outs c main_v98 = Cert.Spec.row (Cert.Spec.jbAt (m ((c : Thread nD τ).loc main_arg5)) 0) :=
  (h3_main_v98 (V7 m outs c)).trans (congrArg (fun x => Cert.Spec.row (Cert.Spec.jbAt x 0)) ((V7_of m outs c main_arg5 (by decide)).trans <| (V6_of m outs c main_arg5 (by decide)).trans <| (V5_of m outs c main_arg5 (by decide)).trans <| (V4_of m outs c main_arg5 (by decide)).trans <| (V3_of m c main_arg5 (by decide)).trans <| (V2_of m c main_arg5 (by decide)).trans <| (V1_of m c main_arg5 (by decide)).trans rfl))
theorem val8_main_v96 (c : Dev nD) : V8 m outs c main_v96 = Cert.Spec.col (V3 m c main_v48) :=
  (h3_main_v96 (V7 m outs c)).trans (congrArg Cert.Spec.col ((V7_of m outs c main_v48 (by decide)).trans <| (V6_of m outs c main_v48 (by decide)).trans <| (V5_of m outs c main_v48 (by decide)).trans <| (V4_of m outs c main_v48 (by decide))))
theorem val8_main_v97 (c : Dev nD) : V8 m outs c main_v97 = Cert.Spec.row (Cert.Spec.bAt (m ((c : Thread nD τ).loc main_arg3)) 0 1) :=
  (h3_main_v97 (V7 m outs c)).trans (congrArg Cert.Spec.row ((V7_of m outs c main_v56 (by decide)).trans <| (V6_of m outs c main_v56 (by decide)).trans <| (V5_of m outs c main_v56 (by decide)).trans <| (V4_of m outs c main_v56 (by decide)).trans (val3_main_v56 m c)))
theorem val8_main_v99 (c : Dev nD) : V8 m outs c main_v99 = Cert.Spec.colI (m ((c : Thread nD τ).loc main_arg15)) :=
  (h3_main_v99 (V7 m outs c)).trans (congrArg Cert.Spec.colI ((V7_of m outs c main_arg15 (by decide)).trans <| (V6_of m outs c main_arg15 (by decide)).trans <| (V5_of m outs c main_arg15 (by decide)).trans <| (V4_of m outs c main_arg15 (by decide)).trans <| (V3_of m c main_arg15 (by decide)).trans <| (V2_of m c main_arg15 (by decide)).trans <| (V1_of m c main_arg15 (by decide)).trans rfl))

theorem val8_main_v75 (c : Dev nD) : V8 m outs c main_v75 = outs 7 main_v75 c :=
  (V8_of m outs c main_v75 (by decide)).trans (Function.update_self _ _ _)
theorem val8_main_v74 (c : Dev nD) : V8 m outs c main_v74 = outs 6 main_v74 c :=
  (V8_of m outs c main_v74 (by decide)).trans <| (V7_of m outs c main_v74 (by decide)).trans (Function.update_self _ _ _)

end Cert.KernelIdeal.Hand
end
-- ==== Proof.KI.HostValNorm.lean ====
import proofs.«400674_j14499809591724_2_alg».proof.Proof.KI.HostLay0
import proofs.«400674_j14499809591724_2_alg».proof.Proof.KI.HostValFns

set_option maxRecDepth 16384

noncomputable section

namespace Cert.KernelIdeal.Hand

open Idealize.ShloMosaic Idealize.ShloMosaic.TcCoe Idealize.ShloMosaic.ValueIdx
open Idealize.ShloMosaic.StableHlo
open Cert.KernelIdeal Cert.KernelIdeal.Gen

variable {F : FTy → Type} [FloatOps F]

section Tail
variable (W : Valuation τ sig (Elt F))

set_option maxHeartbeats 1000000 in

theorem tail_main_v47 : (StableHlo.after (hostOps0_2.drop 27) W (Proc.devRef .tc main_v47) : (⟨S800000, .f32⟩ : BufTy).Contents (Elt F))
    = normOps (W main_v11) (W main_v18) (W main_v25) := by
  simp only [List.drop_succ_cons, List.drop_zero]
  after_results_simp
  rfl

theorem tail_main_v48 : (StableHlo.after (hostOps0_2.drop 27) W (Proc.devRef .tc main_v48) : (⟨S50000, .f32⟩ : BufTy).Contents (Elt F))
    = dinv2Ops (W main_v18) (W main_v25) := by
  simp only [List.drop_succ_cons, List.drop_zero]
  after_results
  rfl

theorem tail_main_v11 : StableHlo.after (hostOps0_2.drop 27) W (Proc.devRef .tc main_v11) = W main_v11 := by
  simp only [List.drop_succ_cons, List.drop_zero]
  after_results

theorem tail_main_v18 : StableHlo.after (hostOps0_2.drop 27) W (Proc.devRef .tc main_v18) = W main_v18 := by
  simp only [List.drop_succ_cons, List.drop_zero]
  after_results

theorem tail_main_v25 : StableHlo.after (hostOps0_2.drop 27) W (Proc.devRef .tc main_v25) = W main_v25 := by
  simp only [List.drop_succ_cons, List.drop_zero]
  after_results

end Tail

variable (m : (ℓ : Loc nD τ sig) → Buf (Elt Ideal) ℓ)

theorem val3_main_v47 (c : Dev nD) :
    V3 m c main_v47 = Cert.Spec.norm (V3 m c main_v11) (V3 m c main_v18) (V3 m c main_v25) := by
  have e11 : V3 m c main_v11 = StableHlo.after (hostOps0_2.take 27) (V2 m c) main_v11 :=
    (after_split _ 27 _ _).trans (tail_main_v11 _)
  have e18 : V3 m c main_v18 = StableHlo.after (hostOps0_2.take 27) (V2 m c) main_v18 :=
    (after_split _ 27 _ _).trans (tail_main_v18 _)
  have e25 : V3 m c main_v25 = StableHlo.after (hostOps0_2.take 27) (V2 m c) main_v25 :=
    (after_split _ 27 _ _).trans (tail_main_v25 _)
  rw [e11, e18, e25]
  exact ((after_split _ 27 _ _).trans (tail_main_v47 _)).trans (normOps_ideal _ _ _)

theorem val3_main_v48 (c : Dev nD) : V3 m c main_v48 = Cert.Spec.dinv2 (V3 m c main_v18) (V3 m c main_v25) := by
  have e18 : V3 m c main_v18 = StableHlo.after (hostOps0_2.take 27) (V2 m c) main_v18 :=
    (after_split _ 27 _ _).trans (tail_main_v18 _)
  have e25 : V3 m c main_v25 = StableHlo.after (hostOps0_2.take 27) (V2 m c) main_v25 :=
    (after_split _ 27 _ _).trans (tail_main_v25 _)
  rw [e18, e25]
  exact ((after_split _ 27 _ _).trans (tail_main_v48 _)).trans (dinv2Ops_ideal _ _)

end Cert.KernelIdeal.Hand
end
-- ==== Proof.KI.HostValEdges.lean ====
import proofs.«400674_j14499809591724_2_alg».proof.Proof.Gen.KernelIdeal.Regions
import proofs.«400674_j14499809591724_2_alg».proof.Proof.KI.HostValFns
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.ShloMosaic.StableHlo
open Cert.KernelIdeal Cert.KernelIdeal.Gen

variable {F : FTy → Type} [FloatOps F]

theorem srcStretch (W : Valuation τ sig (Elt F)) :
    (StableHlo.after hostOps0 W (Proc.devRef .tc main_v1) : (⟨S800000, .i32⟩ : BufTy).Contents (Elt F))
      = srcOps (W (Proc.devRef .tc main_arg14)) := by
  after_results_simp
  rfl
theorem dstStretch (W : Valuation τ sig (Elt F)) :
    (StableHlo.after hostOps0 W (Proc.devRef .tc main_v3) : (⟨S800000, .i32⟩ : BufTy).Contents (Elt F))
      = dstOps (W (Proc.devRef .tc main_arg14)) := by
  after_results_simp
  rfl

theorem argsortStretch (W : Valuation τ sig (Elt F)) :
    (StableHlo.after hostOps0_1 W (Proc.devRef .tc main_v4) : (⟨S800000, .i32⟩ : BufTy).Contents (Elt F))
      = (Host.sort2 S800000 0 comparator_i32_i32_d0 (W (Proc.devRef .tc main_v3)) (iotaInDim S800000 32 0)).2 := by
  after_results_simp
  rfl

set_option maxHeartbeats 4000000 in

theorem takeStretch_src (W : Valuation τ sig (Elt F)) :
    (StableHlo.after hostOps0_2 W (Proc.devRef .tc main_v11) : (⟨S800000, .i32⟩ : BufTy).Contents (Elt F))
      = takeE (W (Proc.devRef .tc main_v1)) (W (Proc.devRef .tc main_v4)) := by
  after_results_simp
  rfl
set_option maxHeartbeats 4000000 in
theorem takeStretch_dst (W : Valuation τ sig (Elt F)) :
    (StableHlo.after hostOps0_2 W (Proc.devRef .tc main_v18) : (⟨S800000, .i32⟩ : BufTy).Contents (Elt F))
      = takeE (W (Proc.devRef .tc main_v3)) (W (Proc.devRef .tc main_v4)) := by
  after_results_simp
  rfl
set_option maxHeartbeats 4000000 in
theorem takeStretch_ea (W : Valuation τ sig (Elt F)) :
    (StableHlo.after hostOps0_2 W (Proc.devRef .tc main_v25) : (⟨S800000, .f32⟩ : BufTy).Contents (Elt F))
      = takeE (W (Proc.devRef .tc main_arg1)) (W (Proc.devRef .tc main_v4)) := by
  after_results_simp
  rfl

section Edges
variable (m : (ℓ : Loc nD τ sig) → Buf (Elt F) ℓ)

theorem V1_main_v3 (c : Dev nD) :
    (V1 m c main_v3 : (⟨S800000, .i32⟩ : BufTy).Contents (Elt F))
      = Cert.Spec.dstOf (m ((c.tc : Thread nD τ).loc main_arg14)) :=
  (dstStretch (V0 m c)).trans (dstOps_eq _)
theorem V1_main_v1 (c : Dev nD) :
    (V1 m c main_v1 : (⟨S800000, .i32⟩ : BufTy).Contents (Elt F))
      = Cert.Spec.srcOf (m ((c.tc : Thread nD τ).loc main_arg14)) :=
  (srcStretch (V0 m c)).trans (srcOps_eq _)

theorem V2_main_v4 (c : Dev nD) :
    (V2 m c main_v4 : (⟨S800000, .i32⟩ : BufTy).Contents (Elt F))
      = (Host.sort2 S800000 0 comparator_i32_i32_d0 (V1 m c main_v3) (iotaInDim S800000 32 0)).2 :=
  argsortStretch (V1 m c)

theorem edges_relisted (c : Dev nD) : ∃ σ : Equiv.Perm (Fin 800000),
    V3 m c main_v11 = Cert.Spec.relist σ (Cert.Spec.srcOf (m ((c.tc : Thread nD τ).loc main_arg14)))
    ∧ V3 m c main_v18 = Cert.Spec.relist σ (Cert.Spec.dstOf (m ((c.tc : Thread nD τ).loc main_arg14)))
    ∧ V3 m c main_v25 = Cert.Spec.relist σ (m ((c.tc : Thread nD τ).loc main_arg1)) := by
  refine ⟨edgePerm (V1 m c main_v3), ?_, ?_, ?_⟩
  · refine (takeStretch_src (V2 m c)).trans ?_
    rw [V2_main_v4 m c, V2_of m c main_v1 (by decide), V1_main_v1 m c]
    exact takeE_argsort _ _
  · refine (takeStretch_dst (V2 m c)).trans ?_
    rw [V2_main_v4 m c, V2_of m c main_v3 (by decide)]
    refine (takeE_argsort _ _).trans ?_
    rw [V1_main_v3 m c]
  · refine (takeStretch_ea (V2 m c)).trans ?_
    rw [V2_main_v4 m c, V2_of m c main_arg1 (by decide), V1_of m c main_arg1 (by decide)]
    exact takeE_argsort _ _

end Edges

end Cert.KernelIdeal.Hand

end
-- ==== Proof.KI.HostVal.lean ====
import proofs.«400674_j14499809591724_2_alg».proof.Proof.KI.HostValAgg
import proofs.«400674_j14499809591724_2_alg».proof.Proof.KI.HostValNorm
import proofs.«400674_j14499809591724_2_alg».proof.Proof.KI.HostValEdges
-- ==== Proof.KI.HostLay1.lean ====
import proofs.«400674_j14499809591724_2_alg».proof.Proof.KI.HostLay0

set_option maxRecDepth 16384

noncomputable section

namespace Cert.KernelIdeal.Hand

open Idealize.ShloMosaic Idealize.ShloMosaic.TcCoe Idealize.ShloMosaic.ValueIdx
open Idealize.ShloMosaic.StableHlo
open Cert.KernelIdeal Cert.KernelIdeal.Gen

section Stretches
variable (W : Valuation τ sig (Elt Ideal))

theorem h4_main_v102 : StableHlo.after hostOps4 W (Proc.devRef .tc main_v102) = Cert.Spec.wAt (W main_arg2) 1 0 := by
  after_results
  funext i
  exact stackW_apply _ 1 0 _ _ i

theorem h4_main_v104 : StableHlo.after hostOps4 W (Proc.devRef .tc main_v104) = Cert.Spec.wAt (W main_arg2) 1 1 := by
  after_results
  funext i
  exact stackW_apply _ 1 1 _ _ i

theorem h4_main_v106 : StableHlo.after hostOps4 W (Proc.devRef .tc main_v106) = Cert.Spec.bAt (W main_arg3) 1 0 := by
  after_results
  funext i
  exact stackB_apply _ 1 0 _ _ i

theorem h4_main_v108 : StableHlo.after hostOps4 W (Proc.devRef .tc main_v108) = Cert.Spec.bAt (W main_arg3) 1 1 := by
  after_results
  funext i
  exact stackB_apply _ 1 1 _ _ i

theorem h5_main_v124 : StableHlo.after hostOps5 W (Proc.devRef .tc main_v124) = Cert.Spec.col (W main_v48) := by
  refine (after_split _ 17 _ _).trans ?_
  simp only [List.drop_succ_cons, List.drop_zero]
  after_results
  rw [after_take_of_writes_sub _ 17 _ hostOps5_writes (by decide)]
  funext i
  exact castCol_apply _ _ i

theorem h5_main_v125 : StableHlo.after hostOps5 W (Proc.devRef .tc main_v125) = Cert.Spec.row (W main_v106) := by
  refine (after_split _ 17 _ _).trans ?_
  simp only [List.drop_succ_cons, List.drop_zero]
  after_results
  rw [after_take_of_writes_sub _ 17 _ hostOps5_writes (by decide)]
  funext i
  exact castRow_apply _ _ i

theorem h7_main_v146 : StableHlo.after hostOps7 W (Proc.devRef .tc main_v146) = Cert.Spec.jwTop (W main_arg4) 1 := by
  refine (after_split _ 17 _ _).trans ?_
  simp only [List.drop_succ_cons, List.drop_zero]
  after_results
  rw [after_take_of_writes_sub _ 17 _ hostOps7_writes (by decide)]
  funext i
  exact stackJW_apply _ 1 0 _ _ _ i ⟨(i 0 : Fin 128).val, by have h : (i 0 : Fin 128).val < 128 := (i 0 : Fin 128).isLt; omega⟩
    (by show (i 0 : Fin 128).val = 0 + (i 0 : Fin 128).val; omega)

theorem h7_main_v147 : StableHlo.after hostOps7 W (Proc.devRef .tc main_v147) = Cert.Spec.jwBot (W main_arg4) 1 := by
  refine (after_split _ 17 _ _).trans ?_
  simp only [List.drop_succ_cons, List.drop_zero]
  after_results
  rw [after_take_of_writes_sub _ 17 _ hostOps7_writes (by decide)]
  funext i
  exact stackJW_apply _ 1 128 _ _ _ i ⟨128 + (i 0 : Fin 128).val, by have h : (i 0 : Fin 128).val < 128 := (i 0 : Fin 128).isLt; omega⟩ rfl

theorem h7_main_v150 : StableHlo.after hostOps7 W (Proc.devRef .tc main_v150) = Cert.Spec.row (Cert.Spec.jbAt (W main_arg5) 1) := by
  refine (after_split _ 17 _ _).trans ?_
  simp only [List.drop_succ_cons, List.drop_zero]
  after_results
  rw [after_take_of_writes_sub _ 17 _ hostOps7_writes (by decide)]
  funext i
  exact (castRow_apply _ _ i).trans (stackJB_apply _ 1 _ _ _)

theorem h7_main_v148 : StableHlo.after hostOps7 W (Proc.devRef .tc main_v148) = Cert.Spec.col (W main_v48) := by
  refine (after_split _ 17 _ _).trans ?_
  simp only [List.drop_succ_cons, List.drop_zero]
  after_results
  rw [after_take_of_writes_sub _ 17 _ hostOps7_writes (by decide)]
  funext i
  exact castCol_apply _ _ i

theorem h7_main_v149 : StableHlo.after hostOps7 W (Proc.devRef .tc main_v149) = Cert.Spec.row (W main_v108) := by
  refine (after_split _ 17 _ _).trans ?_
  simp only [List.drop_succ_cons, List.drop_zero]
  after_results
  rw [after_take_of_writes_sub _ 17 _ hostOps7_writes (by decide)]
  funext i
  exact castRow_apply _ _ i

theorem h7_main_v151 : StableHlo.after hostOps7 W (Proc.devRef .tc main_v151) = Cert.Spec.colI (W main_arg15) := by
  refine (after_split _ 17 _ _).trans ?_
  simp only [List.drop_succ_cons, List.drop_zero]
  after_results
  rw [after_take_of_writes_sub _ 17 _ hostOps7_writes (by decide)]
  funext i
  exact castCol_apply _ _ i

end Stretches

variable (m : (ℓ : Loc nD τ sig) → Buf (Elt Ideal) ℓ) (outs : Outs (F := Ideal))

theorem val10_main_v100_0 (c : Dev nD) : V10 m outs c main_v100_0 = outs 9 main_v100_0 c :=
  (V10_of m outs c main_v100_0 (by decide)).trans
    ((Function.update_of_ne (StableHlo.devRef_ne_of_ne (by decide)) _ _).trans (Function.update_self _ _ _))
theorem val10_main_v102 (c : Dev nD) : V10 m outs c main_v102 = Cert.Spec.wAt (m ((c : Thread nD τ).loc main_arg2)) 1 0 :=
  (h4_main_v102 (V9 m outs c)).trans (congrArg (fun x => Cert.Spec.wAt x 1 0) ((V9_of m outs c main_arg2 (by decide)).trans <| (V8_of m outs c main_arg2 (by decide)).trans <| (V7_of m outs c main_arg2 (by decide)).trans <| (V6_of m outs c main_arg2 (by decide)).trans <| (V5_of m outs c main_arg2 (by decide)).trans <| (V4_of m outs c main_arg2 (by decide)).trans <| (V3_of m c main_arg2 (by decide)).trans <| (V2_of m c main_arg2 (by decide)).trans <| (V1_of m c main_arg2 (by decide)).trans rfl))
theorem val10_main_v104 (c : Dev nD) : V10 m outs c main_v104 = Cert.Spec.wAt (m ((c : Thread nD τ).loc main_arg2)) 1 1 :=
  (h4_main_v104 (V9 m outs c)).trans (congrArg (fun x => Cert.Spec.wAt x 1 1) ((V9_of m outs c main_arg2 (by decide)).trans <| (V8_of m outs c main_arg2 (by decide)).trans <| (V7_of m outs c main_arg2 (by decide)).trans <| (V6_of m outs c main_arg2 (by decide)).trans <| (V5_of m outs c main_arg2 (by decide)).trans <| (V4_of m outs c main_arg2 (by decide)).trans <| (V3_of m c main_arg2 (by decide)).trans <| (V2_of m c main_arg2 (by decide)).trans <| (V1_of m c main_arg2 (by decide)).trans rfl))
theorem val10_main_v106 (c : Dev nD) : V10 m outs c main_v106 = Cert.Spec.bAt (m ((c : Thread nD τ).loc main_arg3)) 1 0 :=
  (h4_main_v106 (V9 m outs c)).trans (congrArg (fun x => Cert.Spec.bAt x 1 0) ((V9_of m outs c main_arg3 (by decide)).trans <| (V8_of m outs c main_arg3 (by decide)).trans <| (V7_of m outs c main_arg3 (by decide)).trans <| (V6_of m outs c main_arg3 (by decide)).trans <| (V5_of m outs c main_arg3 (by decide)).trans <| (V4_of m outs c main_arg3 (by decide)).trans <| (V3_of m c main_arg3 (by decide)).trans <| (V2_of m c main_arg3 (by decide)).trans <| (V1_of m c main_arg3 (by decide)).trans rfl))
theorem val10_main_v108 (c : Dev nD) : V10 m outs c main_v108 = Cert.Spec.bAt (m ((c : Thread nD τ).loc main_arg3)) 1 1 :=
  (h4_main_v108 (V9 m outs c)).trans (congrArg (fun x => Cert.Spec.bAt x 1 1) ((V9_of m outs c main_arg3 (by decide)).trans <| (V8_of m outs c main_arg3 (by decide)).trans <| (V7_of m outs c main_arg3 (by decide)).trans <| (V6_of m outs c main_arg3 (by decide)).trans <| (V5_of m outs c main_arg3 (by decide)).trans <| (V4_of m outs c main_arg3 (by decide)).trans <| (V3_of m c main_arg3 (by decide)).trans <| (V2_of m c main_arg3 (by decide)).trans <| (V1_of m c main_arg3 (by decide)).trans rfl))

theorem val12_main_v109 (c : Dev nD) : V12 m outs c main_v109 = outs 11 main_v109 c :=
  (V12_of m outs c main_v109 (by decide)).trans (Function.update_self _ _ _)
theorem val12_main_v124 (c : Dev nD) : V12 m outs c main_v124 = Cert.Spec.col (V3 m c main_v48) :=
  (h5_main_v124 (V11 m outs c)).trans (congrArg Cert.Spec.col ((V11_of m outs c main_v48 (by decide)).trans <| (V10_of m outs c main_v48 (by decide)).trans <| (V9_of m outs c main_v48 (by decide)).trans <| (V8_of m outs c main_v48 (by decide)).trans <| (V7_of m outs c main_v48 (by decide)).trans <| (V6_of m outs c main_v48 (by decide)).trans <| (V5_of m outs c main_v48 (by decide)).trans <| (V4_of m outs c main_v48 (by decide))))
theorem val12_main_v125 (c : Dev nD) : V12 m outs c main_v125 = Cert.Spec.row (Cert.Spec.bAt (m ((c : Thread nD τ).loc main_arg3)) 1 0) :=
  (h5_main_v125 (V11 m outs c)).trans (congrArg Cert.Spec.row ((V11_of m outs c main_v106 (by decide)).trans (val10_main_v106 m outs c)))

theorem val13_main_v126 (c : Dev nD) : V13 m outs c main_v126 = outs 13 main_v126 c := Function.update_self _ _ _
theorem val13_main_v104 (c : Dev nD) : V13 m outs c main_v104 = Cert.Spec.wAt (m ((c : Thread nD τ).loc main_arg2)) 1 1 :=
  (V13_of m outs c main_v104 (by decide)).trans <| (V12_of m outs c main_v104 (by decide)).trans <| (V11_of m outs c main_v104 (by decide)).trans (val10_main_v104 m outs c)

theorem val15_main_v146 (c : Dev nD) : V15 m outs c main_v146 = Cert.Spec.jwTop (m ((c : Thread nD τ).loc main_arg4)) 1 :=
  (h7_main_v146 (V14 m outs c)).trans (congrArg (fun x => Cert.Spec.jwTop x 1) ((V14_of m outs c main_arg4 (by decide)).trans <| (V13_of m outs c main_arg4 (by decide)).trans <| (V12_of m outs c main_arg4 (by decide)).trans <| (V11_of m outs c main_arg4 (by decide)).trans <| (V10_of m outs c main_arg4 (by decide)).trans <| (V9_of m outs c main_arg4 (by decide)).trans <| (V8_of m outs c main_arg4 (by decide)).trans <| (V7_of m outs c main_arg4 (by decide)).trans <| (V6_of m outs c main_arg4 (by decide)).trans <| (V5_of m outs c main_arg4 (by decide)).trans <| (V4_of m outs c main_arg4 (by decide)).trans <| (V3_of m c main_arg4 (by decide)).trans <| (V2_of m c main_arg4 (by decide)).trans <| (V1_of m c main_arg4 (by decide)).trans rfl))
theorem val15_main_v147 (c : Dev nD) : V15 m outs c main_v147 = Cert.Spec.jwBot (m ((c : Thread nD τ).loc main_arg4)) 1 :=
  (h7_main_v147 (V14 m outs c)).trans (congrArg (fun x => Cert.Spec.jwBot x 1) ((V14_of m outs c main_arg4 (by decide)).trans <| (V13_of m outs c main_arg4 (by decide)).trans <| (V12_of m outs c main_arg4 (by decide)).trans <| (V11_of m outs c main_arg4 (by decide)).trans <| (V10_of m outs c main_arg4 (by decide)).trans <| (V9_of m outs c main_arg4 (by decide)).trans <| (V8_of m outs c main_arg4 (by decide)).trans <| (V7_of m outs c main_arg4 (by decide)).trans <| (V6_of m outs c main_arg4 (by decide)).trans <| (V5_of m outs c main_arg4 (by decide)).trans <| (V4_of m outs c main_arg4 (by decide)).trans <| (V3_of m c main_arg4 (by decide)).trans <| (V2_of m c main_arg4 (by decide)).trans <| (V1_of m c main_arg4 (by decide)).trans rfl))
theorem val15_main_v150 (c : Dev nD) : V15 m outs c main_v150 = Cert.Spec.row (Cert.Spec.jbAt (m ((c : Thread nD τ).loc main_arg5)) 1) :=
  (h7_main_v150 (V14 m outs c)).trans (congrArg (fun x => Cert.Spec.row (Cert.Spec.jbAt x 1)) ((V14_of m outs c main_arg5 (by decide)).trans <| (V13_of m outs c main_arg5 (by decide)).trans <| (V12_of m outs c main_arg5 (by decide)).trans <| (V11_of m outs c main_arg5 (by decide)).trans <| (V10_of m outs c main_arg5 (by decide)).trans <| (V9_of m outs c main_arg5 (by decide)).trans <| (V8_of m outs c main_arg5 (by decide)).trans <| (V7_of m outs c main_arg5 (by decide)).trans <| (V6_of m outs c main_arg5 (by decide)).trans <| (V5_of m outs c main_arg5 (by decide)).trans <| (V4_of m outs c main_arg5 (by decide)).trans <| (V3_of m c main_arg5 (by decide)).trans <| (V2_of m c main_arg5 (by decide)).trans <| (V1_of m c main_arg5 (by decide)).trans rfl))
theorem val15_main_v148 (c : Dev nD) : V15 m outs c main_v148 = Cert.Spec.col (V3 m c main_v48) :=
  (h7_main_v148 (V14 m outs c)).trans (congrArg Cert.Spec.col ((V14_of m outs c main_v48 (by decide)).trans <| (V13_of m outs c main_v48 (by decide)).trans <| (V12_of m outs c main_v48 (by decide)).trans <| (V11_of m outs c main_v48 (by decide)).trans <| (V10_of m outs c main_v48 (by decide)).trans <| (V9_of m outs c main_v48 (by decide)).trans <| (V8_of m outs c main_v48 (by decide)).trans <| (V7_of m outs c main_v48 (by decide)).trans <| (V6_of m outs c main_v48 (by decide)).trans <| (V5_of m outs c main_v48 (by decide)).trans <| (V4_of m outs c main_v48 (by decide))))
theorem val15_main_v149 (c : Dev nD) : V15 m outs c main_v149 = Cert.Spec.row (Cert.Spec.bAt (m ((c : Thread nD τ).loc main_arg3)) 1 1) :=
  (h7_main_v149 (V14 m outs c)).trans (congrArg Cert.Spec.row ((V14_of m outs c main_v108 (by decide)).trans <| (V13_of m outs c main_v108 (by decide)).trans <| (V12_of m outs c main_v108 (by decide)).trans <| (V11_of m outs c main_v108 (by decide)).trans (val10_main_v108 m outs c)))
theorem val15_main_v151 (c : Dev nD) : V15 m outs c main_v151 = Cert.Spec.colI (m ((c : Thread nD τ).loc main_arg15)) :=
  (h7_main_v151 (V14 m outs c)).trans (congrArg Cert.Spec.colI ((V14_of m outs c main_arg15 (by decide)).trans <| (V13_of m outs c main_arg15 (by decide)).trans <| (V12_of m outs c main_arg15 (by decide)).trans <| (V11_of m outs c main_arg15 (by decide)).trans <| (V10_of m outs c main_arg15 (by decide)).trans <| (V9_of m outs c main_arg15 (by decide)).trans <| (V8_of m outs c main_arg15 (by decide)).trans <| (V7_of m outs c main_arg15 (by decide)).trans <| (V6_of m outs c main_arg15 (by decide)).trans <| (V5_of m outs c main_arg15 (by decide)).trans <| (V4_of m outs c main_arg15 (by decide)).trans <| (V3_of m c main_arg15 (by decide)).trans <| (V2_of m c main_arg15 (by decide)).trans <| (V1_of m c main_arg15 (by decide)).trans rfl))

theorem val15_main_v127 (c : Dev nD) : V15 m outs c main_v127 = outs 14 main_v127 c :=
  (V15_of m outs c main_v127 (by decide)).trans (Function.update_self _ _ _)
theorem val15_main_v126 (c : Dev nD) : V15 m outs c main_v126 = outs 13 main_v126 c :=
  (V15_of m outs c main_v126 (by decide)).trans <| (V14_of m outs c main_v126 (by decide)).trans (Function.update_self _ _ _)

end Cert.KernelIdeal.Hand
end
-- ==== Proof.KI.HostLay2.lean ====
import proofs.«400674_j14499809591724_2_alg».proof.Proof.KI.HostLay0

set_option maxRecDepth 16384

noncomputable section

namespace Cert.KernelIdeal.Hand

open Idealize.ShloMosaic Idealize.ShloMosaic.TcCoe Idealize.ShloMosaic.ValueIdx
open Idealize.ShloMosaic.StableHlo
open Cert.KernelIdeal Cert.KernelIdeal.Gen

section Stretches
variable (W : Valuation τ sig (Elt Ideal))

theorem h8_main_v154 : StableHlo.after hostOps8 W (Proc.devRef .tc main_v154) = Cert.Spec.wAt (W main_arg2) 2 0 := by
  after_results
  funext i
  exact stackW_apply _ 2 0 _ _ i

theorem h8_main_v156 : StableHlo.after hostOps8 W (Proc.devRef .tc main_v156) = Cert.Spec.wAt (W main_arg2) 2 1 := by
  after_results
  funext i
  exact stackW_apply _ 2 1 _ _ i

theorem h8_main_v158 : StableHlo.after hostOps8 W (Proc.devRef .tc main_v158) = Cert.Spec.bAt (W main_arg3) 2 0 := by
  after_results
  funext i
  exact stackB_apply _ 2 0 _ _ i

theorem h8_main_v160 : StableHlo.after hostOps8 W (Proc.devRef .tc main_v160) = Cert.Spec.bAt (W main_arg3) 2 1 := by
  after_results
  funext i
  exact stackB_apply _ 2 1 _ _ i

theorem h9_main_v176 : StableHlo.after hostOps9 W (Proc.devRef .tc main_v176) = Cert.Spec.col (W main_v48) := by
  refine (after_split _ 17 _ _).trans ?_
  simp only [List.drop_succ_cons, List.drop_zero]
  after_results
  rw [after_take_of_writes_sub _ 17 _ hostOps9_writes (by decide)]
  funext i
  exact castCol_apply _ _ i

theorem h9_main_v177 : StableHlo.after hostOps9 W (Proc.devRef .tc main_v177) = Cert.Spec.row (W main_v158) := by
  refine (after_split _ 17 _ _).trans ?_
  simp only [List.drop_succ_cons, List.drop_zero]
  after_results
  rw [after_take_of_writes_sub _ 17 _ hostOps9_writes (by decide)]
  funext i
  exact castRow_apply _ _ i

theorem h11_main_v198 : StableHlo.after hostOps11 W (Proc.devRef .tc main_v198) = Cert.Spec.jwTop (W main_arg4) 2 := by
  refine (after_split _ 17 _ _).trans ?_
  simp only [List.drop_succ_cons, List.drop_zero]
  after_results
  rw [after_take_of_writes_sub _ 17 _ hostOps11_writes (by decide)]
  funext i
  exact stackJW_apply _ 2 0 _ _ _ i ⟨(i 0 : Fin 128).val, by have h : (i 0 : Fin 128).val < 128 := (i 0 : Fin 128).isLt; omega⟩
    (by show (i 0 : Fin 128).val = 0 + (i 0 : Fin 128).val; omega)

theorem h11_main_v199 : StableHlo.after hostOps11 W (Proc.devRef .tc main_v199) = Cert.Spec.jwBot (W main_arg4) 2 := by
  refine (after_split _ 17 _ _).trans ?_
  simp only [List.drop_succ_cons, List.drop_zero]
  after_results
  rw [after_take_of_writes_sub _ 17 _ hostOps11_writes (by decide)]
  funext i
  exact stackJW_apply _ 2 128 _ _ _ i ⟨128 + (i 0 : Fin 128).val, by have h : (i 0 : Fin 128).val < 128 := (i 0 : Fin 128).isLt; omega⟩ rfl

theorem h11_main_v202 : StableHlo.after hostOps11 W (Proc.devRef .tc main_v202) = Cert.Spec.row (Cert.Spec.jbAt (W main_arg5) 2) := by
  refine (after_split _ 17 _ _).trans ?_
  simp only [List.drop_succ_cons, List.drop_zero]
  after_results
  rw [after_take_of_writes_sub _ 17 _ hostOps11_writes (by decide)]
  funext i
  exact (castRow_apply _ _ i).trans (stackJB_apply _ 2 _ _ _)

theorem h11_main_v200 : StableHlo.after hostOps11 W (Proc.devRef .tc main_v200) = Cert.Spec.col (W main_v48) := by
  refine (after_split _ 17 _ _).trans ?_
  simp only [List.drop_succ_cons, List.drop_zero]
  after_results
  rw [after_take_of_writes_sub _ 17 _ hostOps11_writes (by decide)]
  funext i
  exact castCol_apply _ _ i

theorem h11_main_v201 : StableHlo.after hostOps11 W (Proc.devRef .tc main_v201) = Cert.Spec.row (W main_v160) := by
  refine (after_split _ 17 _ _).trans ?_
  simp only [List.drop_succ_cons, List.drop_zero]
  after_results
  rw [after_take_of_writes_sub _ 17 _ hostOps11_writes (by decide)]
  funext i
  exact castRow_apply _ _ i

theorem h11_main_v203 : StableHlo.after hostOps11 W (Proc.devRef .tc main_v203) = Cert.Spec.colI (W main_arg15) := by
  refine (after_split _ 17 _ _).trans ?_
  simp only [List.drop_succ_cons, List.drop_zero]
  after_results
  rw [after_take_of_writes_sub _ 17 _ hostOps11_writes (by decide)]
  funext i
  exact castCol_apply _ _ i

end Stretches

variable (m : (ℓ : Loc nD τ sig) → Buf (Elt Ideal) ℓ) (outs : Outs (F := Ideal))

theorem val17_main_v152_0 (c : Dev nD) : V17 m outs c main_v152_0 = outs 16 main_v152_0 c :=
  (V17_of m outs c main_v152_0 (by decide)).trans
    ((Function.update_of_ne (StableHlo.devRef_ne_of_ne (by decide)) _ _).trans (Function.update_self _ _ _))
theorem val17_main_v154 (c : Dev nD) : V17 m outs c main_v154 = Cert.Spec.wAt (m ((c : Thread nD τ).loc main_arg2)) 2 0 :=
  (h8_main_v154 (V16 m outs c)).trans (congrArg (fun x => Cert.Spec.wAt x 2 0) ((V16_of m outs c main_arg2 (by decide)).trans <| (V15_of m outs c main_arg2 (by decide)).trans <| (V14_of m outs c main_arg2 (by decide)).trans <| (V13_of m outs c main_arg2 (by decide)).trans <| (V12_of m outs c main_arg2 (by decide)).trans <| (V11_of m outs c main_arg2 (by decide)).trans <| (V10_of m outs c main_arg2 (by decide)).trans <| (V9_of m outs c main_arg2 (by decide)).trans <| (V8_of m outs c main_arg2 (by decide)).trans <| (V7_of m outs c main_arg2 (by decide)).trans <| (V6_of m outs c main_arg2 (by decide)).trans <| (V5_of m outs c main_arg2 (by decide)).trans <| (V4_of m outs c main_arg2 (by decide)).trans <| (V3_of m c main_arg2 (by decide)).trans <| (V2_of m c main_arg2 (by decide)).trans <| (V1_of m c main_arg2 (by decide)).trans rfl))
theorem val17_main_v156 (c : Dev nD) : V17 m outs c main_v156 = Cert.Spec.wAt (m ((c : Thread nD τ).loc main_arg2)) 2 1 :=
  (h8_main_v156 (V16 m outs c)).trans (congrArg (fun x => Cert.Spec.wAt x 2 1) ((V16_of m outs c main_arg2 (by decide)).trans <| (V15_of m outs c main_arg2 (by decide)).trans <| (V14_of m outs c main_arg2 (by decide)).trans <| (V13_of m outs c main_arg2 (by decide)).trans <| (V12_of m outs c main_arg2 (by decide)).trans <| (V11_of m outs c main_arg2 (by decide)).trans <| (V10_of m outs c main_arg2 (by decide)).trans <| (V9_of m outs c main_arg2 (by decide)).trans <| (V8_of m outs c main_arg2 (by decide)).trans <| (V7_of m outs c main_arg2 (by decide)).trans <| (V6_of m outs c main_arg2 (by decide)).trans <| (V5_of m outs c main_arg2 (by decide)).trans <| (V4_of m outs c main_arg2 (by decide)).trans <| (V3_of m c main_arg2 (by decide)).trans <| (V2_of m c main_arg2 (by decide)).trans <| (V1_of m c main_arg2 (by decide)).trans rfl))
theorem val17_main_v158 (c : Dev nD) : V17 m outs c main_v158 = Cert.Spec.bAt (m ((c : Thread nD τ).loc main_arg3)) 2 0 :=
  (h8_main_v158 (V16 m outs c)).trans (congrArg (fun x => Cert.Spec.bAt x 2 0) ((V16_of m outs c main_arg3 (by decide)).trans <| (V15_of m outs c main_arg3 (by decide)).trans <| (V14_of m outs c main_arg3 (by decide)).trans <| (V13_of m outs c main_arg3 (by decide)).trans <| (V12_of m outs c main_arg3 (by decide)).trans <| (V11_of m outs c main_arg3 (by decide)).trans <| (V10_of m outs c main_arg3 (by decide)).trans <| (V9_of m outs c main_arg3 (by decide)).trans <| (V8_of m outs c main_arg3 (by decide)).trans <| (V7_of m outs c main_arg3 (by decide)).trans <| (V6_of m outs c main_arg3 (by decide)).trans <| (V5_of m outs c main_arg3 (by decide)).trans <| (V4_of m outs c main_arg3 (by decide)).trans <| (V3_of m c main_arg3 (by decide)).trans <| (V2_of m c main_arg3 (by decide)).trans <| (V1_of m c main_arg3 (by decide)).trans rfl))
theorem val17_main_v160 (c : Dev nD) : V17 m outs c main_v160 = Cert.Spec.bAt (m ((c : Thread nD τ).loc main_arg3)) 2 1 :=
  (h8_main_v160 (V16 m outs c)).trans (congrArg (fun x => Cert.Spec.bAt x 2 1) ((V16_of m outs c main_arg3 (by decide)).trans <| (V15_of m outs c main_arg3 (by decide)).trans <| (V14_of m outs c main_arg3 (by decide)).trans <| (V13_of m outs c main_arg3 (by decide)).trans <| (V12_of m outs c main_arg3 (by decide)).trans <| (V11_of m outs c main_arg3 (by decide)).trans <| (V10_of m outs c main_arg3 (by decide)).trans <| (V9_of m outs c main_arg3 (by decide)).trans <| (V8_of m outs c main_arg3 (by decide)).trans <| (V7_of m outs c main_arg3 (by decide)).trans <| (V6_of m outs c main_arg3 (by decide)).trans <| (V5_of m outs c main_arg3 (by decide)).trans <| (V4_of m outs c main_arg3 (by decide)).trans <| (V3_of m c main_arg3 (by decide)).trans <| (V2_of m c main_arg3 (by decide)).trans <| (V1_of m c main_arg3 (by decide)).trans rfl))

theorem val19_main_v161 (c : Dev nD) : V19 m outs c main_v161 = outs 18 main_v161 c :=
  (V19_of m outs c main_v161 (by decide)).trans (Function.update_self _ _ _)
theorem val19_main_v176 (c : Dev nD) : V19 m outs c main_v176 = Cert.Spec.col (V3 m c main_v48) :=
  (h9_main_v176 (V18 m outs c)).trans (congrArg Cert.Spec.col ((V18_of m outs c main_v48 (by decide)).trans <| (V17_of m outs c main_v48 (by decide)).trans <| (V16_of m outs c main_v48 (by decide)).trans <| (V15_of m outs c main_v48 (by decide)).trans <| (V14_of m outs c main_v48 (by decide)).trans <| (V13_of m outs c main_v48 (by decide)).trans <| (V12_of m outs c main_v48 (by decide)).trans <| (V11_of m outs c main_v48 (by decide)).trans <| (V10_of m outs c main_v48 (by decide)).trans <| (V9_of m outs c main_v48 (by decide)).trans <| (V8_of m outs c main_v48 (by decide)).trans <| (V7_of m outs c main_v48 (by decide)).trans <| (V6_of m outs c main_v48 (by decide)).trans <| (V5_of m outs c main_v48 (by decide)).trans <| (V4_of m outs c main_v48 (by decide))))
theorem val19_main_v177 (c : Dev nD) : V19 m outs c main_v177 = Cert.Spec.row (Cert.Spec.bAt (m ((c : Thread nD τ).loc main_arg3)) 2 0) :=
  (h9_main_v177 (V18 m outs c)).trans (congrArg Cert.Spec.row ((V18_of m outs c main_v158 (by decide)).trans (val17_main_v158 m outs c)))

theorem val20_main_v178 (c : Dev nD) : V20 m outs c main_v178 = outs 20 main_v178 c := Function.update_self _ _ _
theorem val20_main_v156 (c : Dev nD) : V20 m outs c main_v156 = Cert.Spec.wAt (m ((c : Thread nD τ).loc main_arg2)) 2 1 :=
  (V20_of m outs c main_v156 (by decide)).trans <| (V19_of m outs c main_v156 (by decide)).trans <| (V18_of m outs c main_v156 (by decide)).trans (val17_main_v156 m outs c)

theorem val22_main_v198 (c : Dev nD) : V22 m outs c main_v198 = Cert.Spec.jwTop (m ((c : Thread nD τ).loc main_arg4)) 2 :=
  (h11_main_v198 (V21 m outs c)).trans (congrArg (fun x => Cert.Spec.jwTop x 2) ((V21_of m outs c main_arg4 (by decide)).trans <| (V20_of m outs c main_arg4 (by decide)).trans <| (V19_of m outs c main_arg4 (by decide)).trans <| (V18_of m outs c main_arg4 (by decide)).trans <| (V17_of m outs c main_arg4 (by decide)).trans <| (V16_of m outs c main_arg4 (by decide)).trans <| (V15_of m outs c main_arg4 (by decide)).trans <| (V14_of m outs c main_arg4 (by decide)).trans <| (V13_of m outs c main_arg4 (by decide)).trans <| (V12_of m outs c main_arg4 (by decide)).trans <| (V11_of m outs c main_arg4 (by decide)).trans <| (V10_of m outs c main_arg4 (by decide)).trans <| (V9_of m outs c main_arg4 (by decide)).trans <| (V8_of m outs c main_arg4 (by decide)).trans <| (V7_of m outs c main_arg4 (by decide)).trans <| (V6_of m outs c main_arg4 (by decide)).trans <| (V5_of m outs c main_arg4 (by decide)).trans <| (V4_of m outs c main_arg4 (by decide)).trans <| (V3_of m c main_arg4 (by decide)).trans <| (V2_of m c main_arg4 (by decide)).trans <| (V1_of m c main_arg4 (by decide)).trans rfl))
theorem val22_main_v199 (c : Dev nD) : V22 m outs c main_v199 = Cert.Spec.jwBot (m ((c : Thread nD τ).loc main_arg4)) 2 :=
  (h11_main_v199 (V21 m outs c)).trans (congrArg (fun x => Cert.Spec.jwBot x 2) ((V21_of m outs c main_arg4 (by decide)).trans <| (V20_of m outs c main_arg4 (by decide)).trans <| (V19_of m outs c main_arg4 (by decide)).trans <| (V18_of m outs c main_arg4 (by decide)).trans <| (V17_of m outs c main_arg4 (by decide)).trans <| (V16_of m outs c main_arg4 (by decide)).trans <| (V15_of m outs c main_arg4 (by decide)).trans <| (V14_of m outs c main_arg4 (by decide)).trans <| (V13_of m outs c main_arg4 (by decide)).trans <| (V12_of m outs c main_arg4 (by decide)).trans <| (V11_of m outs c main_arg4 (by decide)).trans <| (V10_of m outs c main_arg4 (by decide)).trans <| (V9_of m outs c main_arg4 (by decide)).trans <| (V8_of m outs c main_arg4 (by decide)).trans <| (V7_of m outs c main_arg4 (by decide)).trans <| (V6_of m outs c main_arg4 (by decide)).trans <| (V5_of m outs c main_arg4 (by decide)).trans <| (V4_of m outs c main_arg4 (by decide)).trans <| (V3_of m c main_arg4 (by decide)).trans <| (V2_of m c main_arg4 (by decide)).trans <| (V1_of m c main_arg4 (by decide)).trans rfl))
theorem val22_main_v202 (c : Dev nD) : V22 m outs c main_v202 = Cert.Spec.row (Cert.Spec.jbAt (m ((c : Thread nD τ).loc main_arg5)) 2) :=
  (h11_main_v202 (V21 m outs c)).trans (congrArg (fun x => Cert.Spec.row (Cert.Spec.jbAt x 2)) ((V21_of m outs c main_arg5 (by decide)).trans <| (V20_of m outs c main_arg5 (by decide)).trans <| (V19_of m outs c main_arg5 (by decide)).trans <| (V18_of m outs c main_arg5 (by decide)).trans <| (V17_of m outs c main_arg5 (by decide)).trans <| (V16_of m outs c main_arg5 (by decide)).trans <| (V15_of m outs c main_arg5 (by decide)).trans <| (V14_of m outs c main_arg5 (by decide)).trans <| (V13_of m outs c main_arg5 (by decide)).trans <| (V12_of m outs c main_arg5 (by decide)).trans <| (V11_of m outs c main_arg5 (by decide)).trans <| (V10_of m outs c main_arg5 (by decide)).trans <| (V9_of m outs c main_arg5 (by decide)).trans <| (V8_of m outs c main_arg5 (by decide)).trans <| (V7_of m outs c main_arg5 (by decide)).trans <| (V6_of m outs c main_arg5 (by decide)).trans <| (V5_of m outs c main_arg5 (by decide)).trans <| (V4_of m outs c main_arg5 (by decide)).trans <| (V3_of m c main_arg5 (by decide)).trans <| (V2_of m c main_arg5 (by decide)).trans <| (V1_of m c main_arg5 (by decide)).trans rfl))
theorem val22_main_v200 (c : Dev nD) : V22 m outs c main_v200 = Cert.Spec.col (V3 m c main_v48) :=
  (h11_main_v200 (V21 m outs c)).trans (congrArg Cert.Spec.col ((V21_of m outs c main_v48 (by decide)).trans <| (V20_of m outs c main_v48 (by decide)).trans <| (V19_of m outs c main_v48 (by decide)).trans <| (V18_of m outs c main_v48 (by decide)).trans <| (V17_of m outs c main_v48 (by decide)).trans <| (V16_of m outs c main_v48 (by decide)).trans <| (V15_of m outs c main_v48 (by decide)).trans <| (V14_of m outs c main_v48 (by decide)).trans <| (V13_of m outs c main_v48 (by decide)).trans <| (V12_of m outs c main_v48 (by decide)).trans <| (V11_of m outs c main_v48 (by decide)).trans <| (V10_of m outs c main_v48 (by decide)).trans <| (V9_of m outs c main_v48 (by decide)).trans <| (V8_of m outs c main_v48 (by decide)).trans <| (V7_of m outs c main_v48 (by decide)).trans <| (V6_of m outs c main_v48 (by decide)).trans <| (V5_of m outs c main_v48 (by decide)).trans <| (V4_of m outs c main_v48 (by decide))))
theorem val22_main_v201 (c : Dev nD) : V22 m outs c main_v201 = Cert.Spec.row (Cert.Spec.bAt (m ((c : Thread nD τ).loc main_arg3)) 2 1) :=
  (h11_main_v201 (V21 m outs c)).trans (congrArg Cert.Spec.row ((V21_of m outs c main_v160 (by decide)).trans <| (V20_of m outs c main_v160 (by decide)).trans <| (V19_of m outs c main_v160 (by decide)).trans <| (V18_of m outs c main_v160 (by decide)).trans (val17_main_v160 m outs c)))
theorem val22_main_v203 (c : Dev nD) : V22 m outs c main_v203 = Cert.Spec.colI (m ((c : Thread nD τ).loc main_arg15)) :=
  (h11_main_v203 (V21 m outs c)).trans (congrArg Cert.Spec.colI ((V21_of m outs c main_arg15 (by decide)).trans <| (V20_of m outs c main_arg15 (by decide)).trans <| (V19_of m outs c main_arg15 (by decide)).trans <| (V18_of m outs c main_arg15 (by decide)).trans <| (V17_of m outs c main_arg15 (by decide)).trans <| (V16_of m outs c main_arg15 (by decide)).trans <| (V15_of m outs c main_arg15 (by decide)).trans <| (V14_of m outs c main_arg15 (by decide)).trans <| (V13_of m outs c main_arg15 (by decide)).trans <| (V12_of m outs c main_arg15 (by decide)).trans <| (V11_of m outs c main_arg15 (by decide)).trans <| (V10_of m outs c main_arg15 (by decide)).trans <| (V9_of m outs c main_arg15 (by decide)).trans <| (V8_of m outs c main_arg15 (by decide)).trans <| (V7_of m outs c main_arg15 (by decide)).trans <| (V6_of m outs c main_arg15 (by decide)).trans <| (V5_of m outs c main_arg15 (by decide)).trans <| (V4_of m outs c main_arg15 (by decide)).trans <| (V3_of m c main_arg15 (by decide)).trans <| (V2_of m c main_arg15 (by decide)).trans <| (V1_of m c main_arg15 (by decide)).trans rfl))

theorem val22_main_v179 (c : Dev nD) : V22 m outs c main_v179 = outs 21 main_v179 c :=
  (V22_of m outs c main_v179 (by decide)).trans (Function.update_self _ _ _)
theorem val22_main_v178 (c : Dev nD) : V22 m outs c main_v178 = outs 20 main_v178 c :=
  (V22_of m outs c main_v178 (by decide)).trans <| (V21_of m outs c main_v178 (by decide)).trans (Function.update_self _ _ _)

end Cert.KernelIdeal.Hand
end
-- ==== Proof.KI.HostLayHead.lean ====
import proofs.«400674_j14499809591724_2_alg».proof.Proof.KI.HostLay0

set_option maxRecDepth 16384

noncomputable section

namespace Cert.KernelIdeal.Hand

open Idealize.ShloMosaic Idealize.ShloMosaic.TcCoe Idealize.ShloMosaic.ValueIdx
open Idealize.ShloMosaic.StableHlo
open Cert.KernelIdeal Cert.KernelIdeal.Gen

theorem cat3_apply (p0 p1 p2 : Cert.Spec.RA Cert.Spec.SGH)
    (h : Shape.Concatenates (([⟨Cert.Spec.SGH, p0⟩, ⟨Cert.Spec.SGH, p1⟩, ⟨Cert.Spec.SGH, p2⟩] :
      List ((s : Shape) × (s.Idx → EReal))).map (·.1)) Cert.Spec.SG3 1)
    (i : Cert.Spec.SG3.Idx) :
    concatenate Cert.Spec.SG3 1 [⟨Cert.Spec.SGH, p0⟩, ⟨Cert.Spec.SGH, p1⟩, ⟨Cert.Spec.SGH, p2⟩] h i
      = Cert.Spec.cat3 p0 p1 p2 i := by
  have hlt : (i 1 : Fin 384).val < 384 := (i 1 : Fin 384).isLt
  unfold Cert.Spec.cat3
  by_cases h0 : (i 1 : Fin 384).val < 128
  · rw [dif_pos h0]
    exact concatenate_apply_piece 1 _ h i 0 (by show (0 : ℕ) < 3; omega) _ p0 rfl rfl 0 rfl
      (ix2 (i 0 : Fin 512) (⟨(i 1 : Fin 384).val, h0⟩ : Fin 128))
      (fun b hb => by
        match b with
        | ⟨0, _⟩ => rfl
        | ⟨1, _⟩ => exact absurd rfl hb)
      (by show 0 + (i 1 : Fin 384).val = (i 1 : Fin 384).val; omega)
  · rw [dif_neg h0]
    by_cases h1 : (i 1 : Fin 384).val < 256
    · rw [dif_pos h1]
      exact concatenate_apply_piece 1 _ h i 1 (by show (1 : ℕ) < 3; omega) _ p1 rfl rfl 128 rfl
        (ix2 (i 0 : Fin 512) (⟨(i 1 : Fin 384).val - 128, by omega⟩ : Fin 128))
        (fun b hb => by
          match b with
          | ⟨0, _⟩ => rfl
          | ⟨1, _⟩ => exact absurd rfl hb)
        (by show 128 + ((i 1 : Fin 384).val - 128) = (i 1 : Fin 384).val; omega)
    · rw [dif_neg h1]
      exact concatenate_apply_piece 1 _ h i 2 (by show (2 : ℕ) < 3; omega) _ p2 rfl rfl 256 rfl
        (ix2 (i 0 : Fin 512) (⟨(i 1 : Fin 384).val - 256, by omega⟩ : Fin 128))
        (fun b hb => by
          match b with
          | ⟨0, _⟩ => rfl
          | ⟨1, _⟩ => exact absurd rfl hb)
        (by show 256 + ((i 1 : Fin 384).val - 256) = (i 1 : Fin 384).val; omega)

section Stretches
variable (W : Valuation τ sig (Elt Ideal))

theorem h12_main_v205 : StableHlo.after hostOps12 W (Proc.devRef .tc main_v205)
    = Cert.Spec.cat3 (W main_v100_1) (W main_v152_1) (W main_v204_1) := by
  after_results
  funext i
  exact cat3_apply _ _ _ _ i

theorem h12_main_v206 : StableHlo.after hostOps12 W (Proc.devRef .tc main_v206) = Cert.Spec.row3 (W main_arg6) := by
  after_results
  funext i
  exact castRow_apply _ _ i

theorem h12_main_v207 : StableHlo.after hostOps12 W (Proc.devRef .tc main_v207) = Cert.Spec.row3 (W main_arg7) := by
  after_results
  funext i
  exact castRow_apply _ _ i

theorem h12_main_v208 : StableHlo.after hostOps12 W (Proc.devRef .tc main_v208) = Cert.Spec.row3 (W main_arg8) := by
  after_results
  funext i
  exact castRow_apply _ _ i

theorem h12_main_v209 : StableHlo.after hostOps12 W (Proc.devRef .tc main_v209) = Cert.Spec.row3 (W main_arg9) := by
  after_results
  funext i
  exact castRow_apply _ _ i

theorem h12_main_v210 : StableHlo.after hostOps12 W (Proc.devRef .tc main_v210) = Cert.Spec.row (W main_arg11) := by
  after_results
  funext i
  exact castRow_apply _ _ i

theorem h12_main_v211 : StableHlo.after hostOps12 W (Proc.devRef .tc main_v211) = Cert.Spec.rowC (W main_arg13) := by
  after_results
  funext i
  exact castRow_apply _ _ i

end Stretches

variable (m : (ℓ : Loc nD τ sig) → Buf (Elt Ideal) ℓ) (outs : Outs (F := Ideal))

theorem val24_main_v205 (c : Dev nD) : V24 m outs c main_v205
    = Cert.Spec.cat3 (outs 9 main_v100_1 c) (outs 16 main_v152_1 c) (outs 23 main_v204_1 c) := by
  refine (h12_main_v205 (V23 m outs c)).trans ?_
  have e0 : V23 m outs c main_v100_1 = outs 9 main_v100_1 c :=
    (V23_of m outs c main_v100_1 (by decide)).trans <| (V22_of m outs c main_v100_1 (by decide)).trans <| (V21_of m outs c main_v100_1 (by decide)).trans <| (V20_of m outs c main_v100_1 (by decide)).trans <| (V19_of m outs c main_v100_1 (by decide)).trans <| (V18_of m outs c main_v100_1 (by decide)).trans <| (V17_of m outs c main_v100_1 (by decide)).trans <| (V16_of m outs c main_v100_1 (by decide)).trans <| (V15_of m outs c main_v100_1 (by decide)).trans <| (V14_of m outs c main_v100_1 (by decide)).trans <| (V13_of m outs c main_v100_1 (by decide)).trans <| (V12_of m outs c main_v100_1 (by decide)).trans <| (V11_of m outs c main_v100_1 (by decide)).trans <| (V10_of m outs c main_v100_1 (by decide)).trans (Function.update_self _ _ _)
  have e1 : V23 m outs c main_v152_1 = outs 16 main_v152_1 c :=
    (V23_of m outs c main_v152_1 (by decide)).trans <| (V22_of m outs c main_v152_1 (by decide)).trans <| (V21_of m outs c main_v152_1 (by decide)).trans <| (V20_of m outs c main_v152_1 (by decide)).trans <| (V19_of m outs c main_v152_1 (by decide)).trans <| (V18_of m outs c main_v152_1 (by decide)).trans <| (V17_of m outs c main_v152_1 (by decide)).trans (Function.update_self _ _ _)
  have e2 : V23 m outs c main_v204_1 = outs 23 main_v204_1 c := Function.update_self _ _ _
  rw [e0, e1, e2]

theorem val24_main_v206 (c : Dev nD) : V24 m outs c main_v206 = Cert.Spec.row3 (m ((c : Thread nD τ).loc main_arg6)) :=
  (h12_main_v206 (V23 m outs c)).trans (congrArg Cert.Spec.row3 ((V23_of m outs c main_arg6 (by decide)).trans <| (V22_of m outs c main_arg6 (by decide)).trans <| (V21_of m outs c main_arg6 (by decide)).trans <| (V20_of m outs c main_arg6 (by decide)).trans <| (V19_of m outs c main_arg6 (by decide)).trans <| (V18_of m outs c main_arg6 (by decide)).trans <| (V17_of m outs c main_arg6 (by decide)).trans <| (V16_of m outs c main_arg6 (by decide)).trans <| (V15_of m outs c main_arg6 (by decide)).trans <| (V14_of m outs c main_arg6 (by decide)).trans <| (V13_of m outs c main_arg6 (by decide)).trans <| (V12_of m outs c main_arg6 (by decide)).trans <| (V11_of m outs c main_arg6 (by decide)).trans <| (V10_of m outs c main_arg6 (by decide)).trans <| (V9_of m outs c main_arg6 (by decide)).trans <| (V8_of m outs c main_arg6 (by decide)).trans <| (V7_of m outs c main_arg6 (by decide)).trans <| (V6_of m outs c main_arg6 (by decide)).trans <| (V5_of m outs c main_arg6 (by decide)).trans <| (V4_of m outs c main_arg6 (by decide)).trans <| (V3_of m c main_arg6 (by decide)).trans <| (V2_of m c main_arg6 (by decide)).trans <| (V1_of m c main_arg6 (by decide)).trans rfl))
theorem val24_main_v207 (c : Dev nD) : V24 m outs c main_v207 = Cert.Spec.row3 (m ((c : Thread nD τ).loc main_arg7)) :=
  (h12_main_v207 (V23 m outs c)).trans (congrArg Cert.Spec.row3 ((V23_of m outs c main_arg7 (by decide)).trans <| (V22_of m outs c main_arg7 (by decide)).trans <| (V21_of m outs c main_arg7 (by decide)).trans <| (V20_of m outs c main_arg7 (by decide)).trans <| (V19_of m outs c main_arg7 (by decide)).trans <| (V18_of m outs c main_arg7 (by decide)).trans <| (V17_of m outs c main_arg7 (by decide)).trans <| (V16_of m outs c main_arg7 (by decide)).trans <| (V15_of m outs c main_arg7 (by decide)).trans <| (V14_of m outs c main_arg7 (by decide)).trans <| (V13_of m outs c main_arg7 (by decide)).trans <| (V12_of m outs c main_arg7 (by decide)).trans <| (V11_of m outs c main_arg7 (by decide)).trans <| (V10_of m outs c main_arg7 (by decide)).trans <| (V9_of m outs c main_arg7 (by decide)).trans <| (V8_of m outs c main_arg7 (by decide)).trans <| (V7_of m outs c main_arg7 (by decide)).trans <| (V6_of m outs c main_arg7 (by decide)).trans <| (V5_of m outs c main_arg7 (by decide)).trans <| (V4_of m outs c main_arg7 (by decide)).trans <| (V3_of m c main_arg7 (by decide)).trans <| (V2_of m c main_arg7 (by decide)).trans <| (V1_of m c main_arg7 (by decide)).trans rfl))
theorem val24_main_v208 (c : Dev nD) : V24 m outs c main_v208 = Cert.Spec.row3 (m ((c : Thread nD τ).loc main_arg8)) :=
  (h12_main_v208 (V23 m outs c)).trans (congrArg Cert.Spec.row3 ((V23_of m outs c main_arg8 (by decide)).trans <| (V22_of m outs c main_arg8 (by decide)).trans <| (V21_of m outs c main_arg8 (by decide)).trans <| (V20_of m outs c main_arg8 (by decide)).trans <| (V19_of m outs c main_arg8 (by decide)).trans <| (V18_of m outs c main_arg8 (by decide)).trans <| (V17_of m outs c main_arg8 (by decide)).trans <| (V16_of m outs c main_arg8 (by decide)).trans <| (V15_of m outs c main_arg8 (by decide)).trans <| (V14_of m outs c main_arg8 (by decide)).trans <| (V13_of m outs c main_arg8 (by decide)).trans <| (V12_of m outs c main_arg8 (by decide)).trans <| (V11_of m outs c main_arg8 (by decide)).trans <| (V10_of m outs c main_arg8 (by decide)).trans <| (V9_of m outs c main_arg8 (by decide)).trans <| (V8_of m outs c main_arg8 (by decide)).trans <| (V7_of m outs c main_arg8 (by decide)).trans <| (V6_of m outs c main_arg8 (by decide)).trans <| (V5_of m outs c main_arg8 (by decide)).trans <| (V4_of m outs c main_arg8 (by decide)).trans <| (V3_of m c main_arg8 (by decide)).trans <| (V2_of m c main_arg8 (by decide)).trans <| (V1_of m c main_arg8 (by decide)).trans rfl))
theorem val24_main_v209 (c : Dev nD) : V24 m outs c main_v209 = Cert.Spec.row3 (m ((c : Thread nD τ).loc main_arg9)) :=
  (h12_main_v209 (V23 m outs c)).trans (congrArg Cert.Spec.row3 ((V23_of m outs c main_arg9 (by decide)).trans <| (V22_of m outs c main_arg9 (by decide)).trans <| (V21_of m outs c main_arg9 (by decide)).trans <| (V20_of m outs c main_arg9 (by decide)).trans <| (V19_of m outs c main_arg9 (by decide)).trans <| (V18_of m outs c main_arg9 (by decide)).trans <| (V17_of m outs c main_arg9 (by decide)).trans <| (V16_of m outs c main_arg9 (by decide)).trans <| (V15_of m outs c main_arg9 (by decide)).trans <| (V14_of m outs c main_arg9 (by decide)).trans <| (V13_of m outs c main_arg9 (by decide)).trans <| (V12_of m outs c main_arg9 (by decide)).trans <| (V11_of m outs c main_arg9 (by decide)).trans <| (V10_of m outs c main_arg9 (by decide)).trans <| (V9_of m outs c main_arg9 (by decide)).trans <| (V8_of m outs c main_arg9 (by decide)).trans <| (V7_of m outs c main_arg9 (by decide)).trans <| (V6_of m outs c main_arg9 (by decide)).trans <| (V5_of m outs c main_arg9 (by decide)).trans <| (V4_of m outs c main_arg9 (by decide)).trans <| (V3_of m c main_arg9 (by decide)).trans <| (V2_of m c main_arg9 (by decide)).trans <| (V1_of m c main_arg9 (by decide)).trans rfl))
theorem val24_main_v210 (c : Dev nD) : V24 m outs c main_v210 = Cert.Spec.row (m ((c : Thread nD τ).loc main_arg11)) :=
  (h12_main_v210 (V23 m outs c)).trans (congrArg Cert.Spec.row ((V23_of m outs c main_arg11 (by decide)).trans <| (V22_of m outs c main_arg11 (by decide)).trans <| (V21_of m outs c main_arg11 (by decide)).trans <| (V20_of m outs c main_arg11 (by decide)).trans <| (V19_of m outs c main_arg11 (by decide)).trans <| (V18_of m outs c main_arg11 (by decide)).trans <| (V17_of m outs c main_arg11 (by decide)).trans <| (V16_of m outs c main_arg11 (by decide)).trans <| (V15_of m outs c main_arg11 (by decide)).trans <| (V14_of m outs c main_arg11 (by decide)).trans <| (V13_of m outs c main_arg11 (by decide)).trans <| (V12_of m outs c main_arg11 (by decide)).trans <| (V11_of m outs c main_arg11 (by decide)).trans <| (V10_of m outs c main_arg11 (by decide)).trans <| (V9_of m outs c main_arg11 (by decide)).trans <| (V8_of m outs c main_arg11 (by decide)).trans <| (V7_of m outs c main_arg11 (by decide)).trans <| (V6_of m outs c main_arg11 (by decide)).trans <| (V5_of m outs c main_arg11 (by decide)).trans <| (V4_of m outs c main_arg11 (by decide)).trans <| (V3_of m c main_arg11 (by decide)).trans <| (V2_of m c main_arg11 (by decide)).trans <| (V1_of m c main_arg11 (by decide)).trans rfl))
theorem val24_main_v211 (c : Dev nD) : V24 m outs c main_v211 = Cert.Spec.rowC (m ((c : Thread nD τ).loc main_arg13)) :=
  (h12_main_v211 (V23 m outs c)).trans (congrArg Cert.Spec.rowC ((V23_of m outs c main_arg13 (by decide)).trans <| (V22_of m outs c main_arg13 (by decide)).trans <| (V21_of m outs c main_arg13 (by decide)).trans <| (V20_of m outs c main_arg13 (by decide)).trans <| (V19_of m outs c main_arg13 (by decide)).trans <| (V18_of m outs c main_arg13 (by decide)).trans <| (V17_of m outs c main_arg13 (by decide)).trans <| (V16_of m outs c main_arg13 (by decide)).trans <| (V15_of m outs c main_arg13 (by decide)).trans <| (V14_of m outs c main_arg13 (by decide)).trans <| (V13_of m outs c main_arg13 (by decide)).trans <| (V12_of m outs c main_arg13 (by decide)).trans <| (V11_of m outs c main_arg13 (by decide)).trans <| (V10_of m outs c main_arg13 (by decide)).trans <| (V9_of m outs c main_arg13 (by decide)).trans <| (V8_of m outs c main_arg13 (by decide)).trans <| (V7_of m outs c main_arg13 (by decide)).trans <| (V6_of m outs c main_arg13 (by decide)).trans <| (V5_of m outs c main_arg13 (by decide)).trans <| (V4_of m outs c main_arg13 (by decide)).trans <| (V3_of m c main_arg13 (by decide)).trans <| (V2_of m c main_arg13 (by decide)).trans <| (V1_of m c main_arg13 (by decide)).trans rfl))

theorem val24_main_arg10 (c : Dev nD) : V24 m outs c main_arg10 = m ((c : Thread nD τ).loc main_arg10) :=
  (V24_of m outs c main_arg10 (by decide)).trans <| (V23_of m outs c main_arg10 (by decide)).trans <| (V22_of m outs c main_arg10 (by decide)).trans <| (V21_of m outs c main_arg10 (by decide)).trans <| (V20_of m outs c main_arg10 (by decide)).trans <| (V19_of m outs c main_arg10 (by decide)).trans <| (V18_of m outs c main_arg10 (by decide)).trans <| (V17_of m outs c main_arg10 (by decide)).trans <| (V16_of m outs c main_arg10 (by decide)).trans <| (V15_of m outs c main_arg10 (by decide)).trans <| (V14_of m outs c main_arg10 (by decide)).trans <| (V13_of m outs c main_arg10 (by decide)).trans <| (V12_of m outs c main_arg10 (by decide)).trans <| (V11_of m outs c main_arg10 (by decide)).trans <| (V10_of m outs c main_arg10 (by decide)).trans <| (V9_of m outs c main_arg10 (by decide)).trans <| (V8_of m outs c main_arg10 (by decide)).trans <| (V7_of m outs c main_arg10 (by decide)).trans <| (V6_of m outs c main_arg10 (by decide)).trans <| (V5_of m outs c main_arg10 (by decide)).trans <| (V4_of m outs c main_arg10 (by decide)).trans <| (V3_of m c main_arg10 (by decide)).trans <| (V2_of m c main_arg10 (by decide)).trans <| (V1_of m c main_arg10 (by decide)).trans rfl
theorem val24_main_arg12 (c : Dev nD) : V24 m outs c main_arg12 = m ((c : Thread nD τ).loc main_arg12) :=
  (V24_of m outs c main_arg12 (by decide)).trans <| (V23_of m outs c main_arg12 (by decide)).trans <| (V22_of m outs c main_arg12 (by decide)).trans <| (V21_of m outs c main_arg12 (by decide)).trans <| (V20_of m outs c main_arg12 (by decide)).trans <| (V19_of m outs c main_arg12 (by decide)).trans <| (V18_of m outs c main_arg12 (by decide)).trans <| (V17_of m outs c main_arg12 (by decide)).trans <| (V16_of m outs c main_arg12 (by decide)).trans <| (V15_of m outs c main_arg12 (by decide)).trans <| (V14_of m outs c main_arg12 (by decide)).trans <| (V13_of m outs c main_arg12 (by decide)).trans <| (V12_of m outs c main_arg12 (by decide)).trans <| (V11_of m outs c main_arg12 (by decide)).trans <| (V10_of m outs c main_arg12 (by decide)).trans <| (V9_of m outs c main_arg12 (by decide)).trans <| (V8_of m outs c main_arg12 (by decide)).trans <| (V7_of m outs c main_arg12 (by decide)).trans <| (V6_of m outs c main_arg12 (by decide)).trans <| (V5_of m outs c main_arg12 (by decide)).trans <| (V4_of m outs c main_arg12 (by decide)).trans <| (V3_of m c main_arg12 (by decide)).trans <| (V2_of m c main_arg12 (by decide)).trans <| (V1_of m c main_arg12 (by decide)).trans rfl

end Cert.KernelIdeal.Hand
end
-- ==== Proof.KI.HostLay.lean ====
import proofs.«400674_j14499809591724_2_alg».proof.Proof.KI.HostLay0
import proofs.«400674_j14499809591724_2_alg».proof.Proof.KI.HostLay1
import proofs.«400674_j14499809591724_2_alg».proof.Proof.KI.HostLay2
import proofs.«400674_j14499809591724_2_alg».proof.Proof.KI.HostLayHead
-- ==== Proof.Alg.Sums.lean ====
import Mathlib.Data.EReal.Basic
import Mathlib.Algebra.BigOperators.Fin
import Mathlib.Algebra.BigOperators.Group.Finset.Basic
import Mathlib.Algebra.BigOperators.Group.Finset.Sigma
import Mathlib.Logic.Equiv.Fin.Basic

open scoped BigOperators

namespace Cert.Alg

theorem sum_filter_perm {ι κ M : Type*} [Fintype ι] [DecidableEq κ] [AddCommMonoid M]
    (σ : Equiv.Perm ι) (idx : ι → κ) (u : ι → M) (w : κ) :
    ∑ e ∈ Finset.univ.filter (fun e => idx (σ e) = w), u (σ e)
      = ∑ e ∈ Finset.univ.filter (fun e => idx e = w), u e := by
  rw [Finset.sum_filter, Finset.sum_filter]
  exact Equiv.sum_comp σ fun e => if idx e = w then u e else 0

theorem sum_filter_perm_row {ι κ γ M : Type*} [Fintype ι] [DecidableEq κ] [AddCommMonoid M]
    (σ : Equiv.Perm ι) (idx : ι → κ) (u : ι → γ → M) (w : κ) (c : γ) :
    ∑ e ∈ Finset.univ.filter (fun e => idx (σ e) = w), u (σ e) c
      = ∑ e ∈ Finset.univ.filter (fun e => idx e = w), u e c :=
  sum_filter_perm σ idx (fun e => u e c) w

theorem sum_filter_of_perm {ι κ M : Type*} [Fintype ι] [DecidableEq κ] [AddCommMonoid M]
    (σ : Equiv.Perm ι) (idx idx' : ι → κ) (u u' : ι → M) (hidx : ∀ e, idx' e = idx (σ e)) (hu : ∀ e, u' e = u (σ e))
    (w : κ) :
    ∑ e ∈ Finset.univ.filter (fun e => idx' e = w), u' e = ∑ e ∈ Finset.univ.filter (fun e => idx e = w), u e := by
  rw [← sum_filter_perm σ idx u w]
  have hf : (Finset.univ.filter fun e => idx' e = w) = Finset.univ.filter fun e => idx (σ e) = w := by
    ext e; simp [hidx e]
  rw [hf]
  exact Finset.sum_congr rfl fun e _ => hu e

theorem sum_fin256_split {M : Type*} [AddCommMonoid M] (f : Fin 256 → M) (lo hi : Fin 128 → Fin 256)
    (hlo : ∀ k, (lo k).val = k.val) (hhi : ∀ k, (hi k).val = 128 + k.val) :
    ∑ k : Fin 256, f k = ∑ k : Fin 128, f (lo k) + ∑ k : Fin 128, f (hi k) := by
  have h := Fin.sum_univ_add (a := 128) (b := 128) f
  rw [h]
  congr 1
  · exact Finset.sum_congr rfl fun k _ => congrArg f (Fin.ext (by rw [hlo]; rfl))
  · exact Finset.sum_congr rfl fun k _ => congrArg f (Fin.ext (by rw [hhi]; rfl))

theorem sum_mul_concat_split (a b : Fin 256 → EReal) (a₀ a₁ : Fin 128 → EReal) (lo hi : Fin 128 → Fin 256)
    (hlo : ∀ k, (lo k).val = k.val) (hhi : ∀ k, (hi k).val = 128 + k.val)
    (h₀ : ∀ k, a (lo k) = a₀ k) (h₁ : ∀ k, a (hi k) = a₁ k) :
    ∑ k : Fin 256, a k * b k = ∑ k : Fin 128, a₀ k * b (lo k) + ∑ k : Fin 128, a₁ k * b (hi k) := by
  rw [sum_fin256_split (fun k => a k * b k) lo hi hlo hhi]
  simp only [h₀, h₁]

theorem sum_onehot_mul {ι κ : Type*} [Fintype ι] [DecidableEq κ] (b : ι → κ) (g : κ) (h : ι → EReal) :
    ∑ n, (if b n = g then (1 : EReal) else 0) * h n = ∑ n ∈ Finset.univ.filter (fun n => b n = g), h n := by
  rw [Finset.sum_filter]
  refine Finset.sum_congr rfl fun n _ => ?_
  split_ifs
  · exact one_mul _
  · exact zero_mul _

theorem sum_mul_onehot {ι κ : Type*} [Fintype ι] [DecidableEq κ] (b : ι → κ) (g : κ) (h : ι → EReal) :
    ∑ n, h n * (if b n = g then (1 : EReal) else 0) = ∑ n ∈ Finset.univ.filter (fun n => b n = g), h n := by
  rw [Finset.sum_filter]
  refine Finset.sum_congr rfl fun n _ => ?_
  split_ifs
  · exact mul_one _
  · exact mul_zero _

def tileRow (t : Fin 25) (r : Fin 2000) : Fin 50000 := ⟨2000 * t.val + r.val, by have := t.isLt; have := r.isLt; omega⟩

@[simp] theorem tileRow_val (t : Fin 25) (r : Fin 2000) : (tileRow t r).val = 2000 * t.val + r.val := rfl

def tileEquiv : Fin 25 × Fin 2000 ≃ Fin 50000 where
  toFun p := tileRow p.1 p.2
  invFun n := (⟨n.val / 2000, by have := n.isLt; omega⟩, ⟨n.val % 2000, Nat.mod_lt _ (by norm_num)⟩)
  left_inv p := by
    obtain ⟨t, r⟩ := p
    have := r.isLt
    refine Prod.ext (Fin.ext ?_) (Fin.ext ?_)
    · show (2000 * t.val + r.val) / 2000 = t.val
      omega
    · show (2000 * t.val + r.val) % 2000 = r.val
      omega
  right_inv n := Fin.ext (by show 2000 * (n.val / 2000) + n.val % 2000 = n.val; omega)

theorem sum_tiles {M : Type*} [AddCommMonoid M] (f : Fin 50000 → M) :
    ∑ t : Fin 25, ∑ r : Fin 2000, f (tileRow t r) = ∑ n : Fin 50000, f n := by
  rw [← Fintype.sum_prod_type (f := fun p : Fin 25 × Fin 2000 => f (tileRow p.1 p.2))]
  exact Equiv.sum_comp tileEquiv f

theorem sum_tiles_of {M : Type*} [AddCommMonoid M] (f : Fin 50000 → M) (mk : Fin 25 → Fin 2000 → Fin 50000)
    (hmk : ∀ t r, (mk t r).val = 2000 * t.val + r.val) :
    ∑ t : Fin 25, ∑ r : Fin 2000, f (mk t r) = ∑ n : Fin 50000, f n := by
  rw [← sum_tiles f]
  exact Finset.sum_congr rfl fun t _ => Finset.sum_congr rfl fun r _ => congrArg f (Fin.ext (hmk t r))

theorem sum_tiles_onehot {κ : Type*} [DecidableEq κ] (b : Fin 50000 → κ) (g : κ) (h : Fin 50000 → EReal) :
    ∑ t : Fin 25, ∑ r : Fin 2000, (if b (tileRow t r) = g then (1 : EReal) else 0) * h (tileRow t r)
      = ∑ n ∈ Finset.univ.filter (fun n => b n = g), h n := by
  rw [sum_tiles fun n => (if b n = g then (1 : EReal) else 0) * h n]
  exact sum_onehot_mul b g h

end Cert.Alg
-- ==== Proof.Alg.NetPerm.lean ====
import proofs.«400674_j14499809591724_2_alg».proof.Proof.Spec
import proofs.«400674_j14499809591724_2_alg».proof.Proof.Alg.Sums

noncomputable section

open scoped BigOperators

namespace Cert.Alg

open Idealize.ShloMosaic Idealize.ShloMosaic.ValueIdx Cert.Spec

variable (σ : Equiv.Perm (Fin 800000))

theorem relist_apply {α : Type} (a : SE.Idx → α) (e : Fin 800000) : relist σ a (ix1 e) = a (ix1 (σ e)) := rfl

theorem relist_relist {α : Type} (τ : Equiv.Perm (Fin 800000)) (a : SE.Idx → α) :
    relist σ (relist τ a) = relist (σ.trans τ) a := rfl

theorem relist_refl {α : Type} (a : SE.Idx → α) : relist (Equiv.refl _) a = a :=
  funext fun e => congrArg a (eq_ix1 e).symm

theorem sum_into_relist {M : Type*} [AddCommMonoid M] (dstw : IA SE) (n : Nat) (u : Fin 800000 → M) :
    ∑ e ∈ into (relist σ dstw) n, u (σ e) = ∑ e ∈ into dstw n, u e :=
  sum_filter_perm σ (fun e => (dstw (ix1 e)).toInt) u (n : Int)

theorem deg_relist (dstw : IA SE) (ea : RA SE) : deg (relist σ dstw) (relist σ ea) = deg dstw ea := by
  funext n
  unfold deg
  exact congrArg (· + one32) (sum_into_relist σ dstw _ fun e => ea (ix1 e))

theorem dinv_relist (dstw : IA SE) (ea : RA SE) : dinv (relist σ dstw) (relist σ ea) = dinv dstw ea := by
  funext n
  unfold dinv
  rw [deg_relist]

theorem dinv2_relist (dstw : IA SE) (ea : RA SE) : dinv2 (relist σ dstw) (relist σ ea) = dinv2 dstw ea := by
  funext n
  unfold dinv2
  rw [dinv_relist]

theorem norm_relist (srcw dstw : IA SE) (ea : RA SE) :
    norm (relist σ srcw) (relist σ dstw) (relist σ ea) = relist σ (norm srcw dstw ea) := by
  funext e
  unfold Spec.norm
  rw [dinv_relist]
  rfl

theorem agg_relist (xw : RA SNH) (srcw dstw : IA SE) (nm : RA SE) :
    agg xw (relist σ srcw) (relist σ dstw) (relist σ nm) = agg xw srcw dstw nm := by
  funext i
  unfold agg
  exact sum_into_relist σ dstw _ fun e => xw (ix2 (gRow (srcw (ix1 e))) (i 1 : Fin 128)) * nm (ix1 e)

theorem conv_relist (h : RA SNH) (w : RA SHH) (b : RA SH) (srcw dstw : IA SE) (nm : RA SE) (d2 : RA SN) :
    conv h w b (relist σ srcw) (relist σ dstw) (relist σ nm) d2 = conv h w b srcw dstw nm d2 := by
  unfold conv
  rw [agg_relist]

theorem blockH_relist (h : RA SNH) (cw : RA SW) (cb : RA SB) (jw : RA SJW) (jb : RA SJB) (l : Fin 3)
    (srcw dstw : IA SE) (nm : RA SE) (d2 : RA SN) :
    blockH h cw cb jw jb l (relist σ srcw) (relist σ dstw) (relist σ nm) d2 = blockH h cw cb jw jb l srcw dstw nm d2 := by
  unfold blockH
  simp only [conv_relist]

theorem net_perm (x : RA SNH) (ea : RA SE) (cw : RA SW) (cb : RA SB) (jw : RA SJW) (jb : RA SJB) (g be mu va : RA S3)
    (w1 : RA S3H) (b1 : RA SH) (w2 : RA SHC) (b2 : RA SC) (srcw dstw : IA SE) (batch : IA SN) :
    net x (relist σ ea) cw cb jw jb g be mu va w1 b1 w2 b2 (relist σ srcw) (relist σ dstw) batch
      = net x ea cw cb jw jb g be mu va w1 b1 w2 b2 srcw dstw batch := by
  unfold net
  simp only [norm_relist, dinv2_relist, blockH_relist]

theorem net_perm_of (x : RA SNH) (ea ea' : RA SE) (cw : RA SW) (cb : RA SB) (jw : RA SJW) (jb : RA SJB) (g be mu va : RA S3)
    (w1 : RA S3H) (b1 : RA SH) (w2 : RA SHC) (b2 : RA SC) (srcw dstw srcw' dstw' : IA SE) (batch : IA SN)
    (hs : ∀ e : Fin 800000, srcw' (ix1 e) = srcw (ix1 (σ e))) (hd : ∀ e : Fin 800000, dstw' (ix1 e) = dstw (ix1 (σ e)))
    (he : ∀ e : Fin 800000, ea' (ix1 e) = ea (ix1 (σ e))) :
    net x ea' cw cb jw jb g be mu va w1 b1 w2 b2 srcw' dstw' batch
      = net x ea cw cb jw jb g be mu va w1 b1 w2 b2 srcw dstw batch := by
  have e1 : srcw' = relist σ srcw := funext fun e => by rw [eq_ix1 e]; exact hs _
  have e2 : dstw' = relist σ dstw := funext fun e => by rw [eq_ix1 e]; exact hd _
  have e3 : ea' = relist σ ea := funext fun e => by rw [eq_ix1 e]; exact he _
  rw [e1, e2, e3]
  exact net_perm σ x ea cw cb jw jb g be mu va w1 b1 w2 b2 srcw dstw batch

end Cert.Alg

end
-- ==== Proof.KI.Chain.lean ====
import proofs.«400674_j14499809591724_2_alg».proof.Proof.KI.Run
import proofs.«400674_j14499809591724_2_alg».proof.Proof.KI.ValMatmul
import proofs.«400674_j14499809591724_2_alg».proof.Proof.KI.ValCombine
import proofs.«400674_j14499809591724_2_alg».proof.Proof.KI.ValStage2
import proofs.«400674_j14499809591724_2_alg».proof.Proof.KI.ValHead
import proofs.«400674_j14499809591724_2_alg».proof.Proof.KI.HostVal
import proofs.«400674_j14499809591724_2_alg».proof.Proof.KI.HostLay
import proofs.«400674_j14499809591724_2_alg».proof.Proof.Alg.NetPerm
import proofs.«400674_j14499809591724_2_alg».proof.Proof.Spec

set_option maxRecDepth 16384

noncomputable section

namespace Cert.KernelIdeal.Hand

open Idealize.ShloMosaic Idealize.ShloMosaic.TcCoe Idealize.SL.Sem
open Cert.KernelIdeal Cert.KernelIdeal.Gen
open Cert

variable (m : (ℓ : Loc nD τ sig) → Buf (Elt Ideal) ℓ) (c : Dev nD)

abbrev aX := m ((c.tc : Thread nD τ).loc main_arg0)
abbrev aEA := m ((c.tc : Thread nD τ).loc main_arg1)
abbrev aCW := m ((c.tc : Thread nD τ).loc main_arg2)
abbrev aCB := m ((c.tc : Thread nD τ).loc main_arg3)
abbrev aJW := m ((c.tc : Thread nD τ).loc main_arg4)
abbrev aJB := m ((c.tc : Thread nD τ).loc main_arg5)
abbrev aG := m ((c.tc : Thread nD τ).loc main_arg6)
abbrev aBe := m ((c.tc : Thread nD τ).loc main_arg7)
abbrev aMu := m ((c.tc : Thread nD τ).loc main_arg8)
abbrev aVa := m ((c.tc : Thread nD τ).loc main_arg9)
abbrev aW1 := m ((c.tc : Thread nD τ).loc main_arg10)
abbrev aB1 := m ((c.tc : Thread nD τ).loc main_arg11)
abbrev aW2 := m ((c.tc : Thread nD τ).loc main_arg12)
abbrev aB2 := m ((c.tc : Thread nD τ).loc main_arg13)
abbrev aEI := m ((c.tc : Thread nD τ).loc main_arg14)
abbrev aBatch := m ((c.tc : Thread nD τ).loc main_arg15)

abbrev srcP : Spec.IA Spec.SE := V3 m c main_v11
abbrev dstP : Spec.IA Spec.SE := V3 m c main_v18
abbrev eaP : Spec.RA Spec.SE := V3 m c main_v25
abbrev nmP : Spec.RA Spec.SE := Spec.norm (srcP m c) (dstP m c) (eaP m c)
abbrev d2P : Spec.RA Spec.SN := Spec.dinv2 (dstP m c) (eaP m c)

theorem xw00 : outsR m 4 main_v57 c = Spec.mm (aX m c) (Spec.wAt (aCW m c) 0 0) :=
  (outsR_4_main_v57 m c).trans ((arrAt0 (fun c b => V3 m c b) c).trans (by
    show Spec.mm (V3 m c main_arg0) (V3 m c main_v50) = _
    rw [val3_main_arg0, val3_main_v50]))

theorem x00 : outsR m 6 main_v74 c = Spec.conv (aX m c) (Spec.wAt (aCW m c) 0 0) (Spec.bAt (aCB m c) 0 0) (srcP m c) (dstP m c) (nmP m c) (d2P m c) :=
  (outsR_6_main_v74 m c).trans ((arrAt1 (fun c b => V5 m (outsR m) c b) c).trans (by
    show Spec.comb (V5 m (outsR m) c main_v71) (V5 m (outsR m) c main_v57) (V5 m (outsR m) c main_v72) (V5 m (outsR m) c main_v73) = _
    rw [val5_main_v71, val5_main_v57, val5_main_v72, val5_main_v73, xw00 m c, val3_main_v47, val3_main_v48]
    unfold Cert.Spec.conv
    rfl))

theorem xw01 : outsR m 7 main_v75 c = Spec.mm (outsR m 6 main_v74 c) (Spec.wAt (aCW m c) 0 1) :=
  (outsR_7_main_v75 m c).trans ((arrAt2 (fun c b => V6 m (outsR m) c b) c).trans (by
    show Spec.mm (V6 m (outsR m) c main_v74) (V6 m (outsR m) c main_v52) = _
    rw [val6_main_v74, val6_main_v52]))

theorem h0 : outsR m 9 main_v100_0 c = Spec.blockH (aX m c) (aCW m c) (aCB m c) (aJW m c) (aJB m c) 0 (srcP m c) (dstP m c) (nmP m c) (d2P m c) :=
  (outsR_9_main_v100_0 m c).trans ((arrAt3_h (fun c b => V8 m (outsR m) c b) c).trans (by
    show Spec.jk (Spec.comb (V8 m (outsR m) c main_v89) (V8 m (outsR m) c main_v75) (V8 m (outsR m) c main_v96) (V8 m (outsR m) c main_v97))
      (V8 m (outsR m) c main_v74) (V8 m (outsR m) c main_v94) (V8 m (outsR m) c main_v95) (V8 m (outsR m) c main_v98) = _
    rw [val8_main_v89, val8_main_v75, val8_main_v96, val8_main_v97, val8_main_v74, val8_main_v94, val8_main_v95, val8_main_v98,
      xw01 m c, x00 m c, val3_main_v47, val3_main_v48]
    unfold Cert.Spec.blockH Cert.Spec.conv
    rfl))

theorem p0 : outsR m 9 main_v100_1 c = Spec.pool (Spec.blockH (aX m c) (aCW m c) (aCB m c) (aJW m c) (aJB m c) 0 (srcP m c) (dstP m c) (nmP m c) (d2P m c)) (Spec.colI (aBatch m c)) :=
  (outsR_9_main_v100_1 m c).trans ((arrAt3_p (fun c b => V8 m (outsR m) c b) c).trans (by
    show Spec.pool (Spec.jk (Spec.comb (V8 m (outsR m) c main_v89) (V8 m (outsR m) c main_v75) (V8 m (outsR m) c main_v96) (V8 m (outsR m) c main_v97))
      (V8 m (outsR m) c main_v74) (V8 m (outsR m) c main_v94) (V8 m (outsR m) c main_v95) (V8 m (outsR m) c main_v98)) (V8 m (outsR m) c main_v99) = _
    rw [val8_main_v89, val8_main_v75, val8_main_v96, val8_main_v97, val8_main_v74, val8_main_v94, val8_main_v95, val8_main_v98, val8_main_v99,
      xw01 m c, x00 m c, val3_main_v47, val3_main_v48]
    unfold Cert.Spec.blockH Cert.Spec.conv
    rfl))

theorem xw10 : outsR m 11 main_v109 c = Spec.mm (Spec.blockH (aX m c) (aCW m c) (aCB m c) (aJW m c) (aJB m c) 0 (srcP m c) (dstP m c) (nmP m c) (d2P m c)) (Spec.wAt (aCW m c) 1 0) :=
  (outsR_11_main_v109 m c).trans ((arrAt4 (fun c b => V10 m (outsR m) c b) c).trans (by
    show Spec.mm (V10 m (outsR m) c main_v100_0) (V10 m (outsR m) c main_v102) = _
    rw [val10_main_v100_0, val10_main_v102, h0 m c]))

theorem x10 : outsR m 13 main_v126 c = Spec.conv (Spec.blockH (aX m c) (aCW m c) (aCB m c) (aJW m c) (aJB m c) 0 (srcP m c) (dstP m c) (nmP m c) (d2P m c)) (Spec.wAt (aCW m c) 1 0) (Spec.bAt (aCB m c) 1 0) (srcP m c) (dstP m c) (nmP m c) (d2P m c) :=
  (outsR_13_main_v126 m c).trans ((arrAt5 (fun c b => V12 m (outsR m) c b) c).trans (by
    show Spec.comb (V12 m (outsR m) c main_v123) (V12 m (outsR m) c main_v109) (V12 m (outsR m) c main_v124) (V12 m (outsR m) c main_v125) = _
    rw [val12_main_v123, val12_main_v109, val12_main_v124, val12_main_v125, xw10 m c, val3_main_v47, val3_main_v48]
    unfold Cert.Spec.conv
    rfl))

theorem xw11 : outsR m 14 main_v127 c = Spec.mm (outsR m 13 main_v126 c) (Spec.wAt (aCW m c) 1 1) :=
  (outsR_14_main_v127 m c).trans ((arrAt6 (fun c b => V13 m (outsR m) c b) c).trans (by
    show Spec.mm (V13 m (outsR m) c main_v126) (V13 m (outsR m) c main_v104) = _
    rw [val13_main_v126, val13_main_v104]))

theorem h1 : outsR m 16 main_v152_0 c = Spec.blockH (Spec.blockH (aX m c) (aCW m c) (aCB m c) (aJW m c) (aJB m c) 0 (srcP m c) (dstP m c) (nmP m c) (d2P m c)) (aCW m c) (aCB m c) (aJW m c) (aJB m c) 1 (srcP m c) (dstP m c) (nmP m c) (d2P m c) :=
  (outsR_16_main_v152_0 m c).trans ((arrAt7_h (fun c b => V15 m (outsR m) c b) c).trans (by
    show Spec.jk (Spec.comb (V15 m (outsR m) c main_v141) (V15 m (outsR m) c main_v127) (V15 m (outsR m) c main_v148) (V15 m (outsR m) c main_v149))
      (V15 m (outsR m) c main_v126) (V15 m (outsR m) c main_v146) (V15 m (outsR m) c main_v147) (V15 m (outsR m) c main_v150) = _
    rw [val15_main_v141, val15_main_v127, val15_main_v148, val15_main_v149, val15_main_v126, val15_main_v146, val15_main_v147, val15_main_v150,
      xw11 m c, x10 m c, val3_main_v47, val3_main_v48]
    unfold Cert.Spec.blockH Cert.Spec.conv
    rfl))

theorem p1 : outsR m 16 main_v152_1 c = Spec.pool (Spec.blockH (Spec.blockH (aX m c) (aCW m c) (aCB m c) (aJW m c) (aJB m c) 0 (srcP m c) (dstP m c) (nmP m c) (d2P m c)) (aCW m c) (aCB m c) (aJW m c) (aJB m c) 1 (srcP m c) (dstP m c) (nmP m c) (d2P m c)) (Spec.colI (aBatch m c)) :=
  (outsR_16_main_v152_1 m c).trans ((arrAt7_p (fun c b => V15 m (outsR m) c b) c).trans (by
    show Spec.pool (Spec.jk (Spec.comb (V15 m (outsR m) c main_v141) (V15 m (outsR m) c main_v127) (V15 m (outsR m) c main_v148) (V15 m (outsR m) c main_v149))
      (V15 m (outsR m) c main_v126) (V15 m (outsR m) c main_v146) (V15 m (outsR m) c main_v147) (V15 m (outsR m) c main_v150)) (V15 m (outsR m) c main_v151) = _
    rw [val15_main_v141, val15_main_v127, val15_main_v148, val15_main_v149, val15_main_v126, val15_main_v146, val15_main_v147, val15_main_v150, val15_main_v151,
      xw11 m c, x10 m c, val3_main_v47, val3_main_v48]
    unfold Cert.Spec.blockH Cert.Spec.conv
    rfl))

theorem xw20 : outsR m 18 main_v161 c = Spec.mm (Spec.blockH (Spec.blockH (aX m c) (aCW m c) (aCB m c) (aJW m c) (aJB m c) 0 (srcP m c) (dstP m c) (nmP m c) (d2P m c)) (aCW m c) (aCB m c) (aJW m c) (aJB m c) 1 (srcP m c) (dstP m c) (nmP m c) (d2P m c)) (Spec.wAt (aCW m c) 2 0) :=
  (outsR_18_main_v161 m c).trans ((arrAt8 (fun c b => V17 m (outsR m) c b) c).trans (by
    show Spec.mm (V17 m (outsR m) c main_v152_0) (V17 m (outsR m) c main_v154) = _
    rw [val17_main_v152_0, val17_main_v154, h1 m c]))

theorem x20 : outsR m 20 main_v178 c = Spec.conv (Spec.blockH (Spec.blockH (aX m c) (aCW m c) (aCB m c) (aJW m c) (aJB m c) 0 (srcP m c) (dstP m c) (nmP m c) (d2P m c)) (aCW m c) (aCB m c) (aJW m c) (aJB m c) 1 (srcP m c) (dstP m c) (nmP m c) (d2P m c)) (Spec.wAt (aCW m c) 2 0) (Spec.bAt (aCB m c) 2 0) (srcP m c) (dstP m c) (nmP m c) (d2P m c) :=
  (outsR_20_main_v178 m c).trans ((arrAt9 (fun c b => V19 m (outsR m) c b) c).trans (by
    show Spec.comb (V19 m (outsR m) c main_v175) (V19 m (outsR m) c main_v161) (V19 m (outsR m) c main_v176) (V19 m (outsR m) c main_v177) = _
    rw [val19_main_v175, val19_main_v161, val19_main_v176, val19_main_v177, xw20 m c, val3_main_v47, val3_main_v48]
    unfold Cert.Spec.conv
    rfl))

theorem xw21 : outsR m 21 main_v179 c = Spec.mm (outsR m 20 main_v178 c) (Spec.wAt (aCW m c) 2 1) :=
  (outsR_21_main_v179 m c).trans ((arrAt10 (fun c b => V20 m (outsR m) c b) c).trans (by
    show Spec.mm (V20 m (outsR m) c main_v178) (V20 m (outsR m) c main_v156) = _
    rw [val20_main_v178, val20_main_v156]))

theorem h2 : outsR m 23 main_v204_0 c = Spec.blockH (Spec.blockH (Spec.blockH (aX m c) (aCW m c) (aCB m c) (aJW m c) (aJB m c) 0 (srcP m c) (dstP m c) (nmP m c) (d2P m c)) (aCW m c) (aCB m c) (aJW m c) (aJB m c) 1 (srcP m c) (dstP m c) (nmP m c) (d2P m c)) (aCW m c) (aCB m c) (aJW m c) (aJB m c) 2 (srcP m c) (dstP m c) (nmP m c) (d2P m c) :=
  (outsR_23_main_v204_0 m c).trans ((arrAt11_h (fun c b => V22 m (outsR m) c b) c).trans (by
    show Spec.jk (Spec.comb (V22 m (outsR m) c main_v193) (V22 m (outsR m) c main_v179) (V22 m (outsR m) c main_v200) (V22 m (outsR m) c main_v201))
      (V22 m (outsR m) c main_v178) (V22 m (outsR m) c main_v198) (V22 m (outsR m) c main_v199) (V22 m (outsR m) c main_v202) = _
    rw [val22_main_v193, val22_main_v179, val22_main_v200, val22_main_v201, val22_main_v178, val22_main_v198, val22_main_v199, val22_main_v202,
      xw21 m c, x20 m c, val3_main_v47, val3_main_v48]
    unfold Cert.Spec.blockH Cert.Spec.conv
    rfl))

theorem p2 : outsR m 23 main_v204_1 c = Spec.pool (Spec.blockH (Spec.blockH (Spec.blockH (aX m c) (aCW m c) (aCB m c) (aJW m c) (aJB m c) 0 (srcP m c) (dstP m c) (nmP m c) (d2P m c)) (aCW m c) (aCB m c) (aJW m c) (aJB m c) 1 (srcP m c) (dstP m c) (nmP m c) (d2P m c)) (aCW m c) (aCB m c) (aJW m c) (aJB m c) 2 (srcP m c) (dstP m c) (nmP m c) (d2P m c)) (Spec.colI (aBatch m c)) :=
  (outsR_23_main_v204_1 m c).trans ((arrAt11_p (fun c b => V22 m (outsR m) c b) c).trans (by
    show Spec.pool (Spec.jk (Spec.comb (V22 m (outsR m) c main_v193) (V22 m (outsR m) c main_v179) (V22 m (outsR m) c main_v200) (V22 m (outsR m) c main_v201))
      (V22 m (outsR m) c main_v178) (V22 m (outsR m) c main_v198) (V22 m (outsR m) c main_v199) (V22 m (outsR m) c main_v202)) (V22 m (outsR m) c main_v203) = _
    rw [val22_main_v193, val22_main_v179, val22_main_v200, val22_main_v201, val22_main_v178, val22_main_v198, val22_main_v199, val22_main_v202, val22_main_v203,
      xw21 m c, x20 m c, val3_main_v47, val3_main_v48]
    unfold Cert.Spec.blockH Cert.Spec.conv
    rfl))

theorem val25_main_v212 (m : (ℓ : Loc nD τ sig) → Buf (Elt Ideal) ℓ) (outs : Outs (F := Ideal)) (c : Dev nD) :
    V25 m outs c main_v212 = outs 25 main_v212 c := Function.update_self _ _ _

theorem result_eq : V25 m (outsR m) c main_v212
    = Spec.net (aX m c) (eaP m c) (aCW m c) (aCB m c) (aJW m c) (aJB m c) (aG m c) (aBe m c) (aMu m c) (aVa m c) (aW1 m c) (aB1 m c) (aW2 m c) (aB2 m c)
        (srcP m c) (dstP m c) (aBatch m c) :=
  (val25_main_v212 m (outsR m) c).trans ((outsR_25_main_v212 m c).trans ((arrAt12 (fun c b => V24 m (outsR m) c b) c).trans (by
    show Spec.head (V24 m (outsR m) c main_v205) (V24 m (outsR m) c main_v206) (V24 m (outsR m) c main_v207) (V24 m (outsR m) c main_v208) (V24 m (outsR m) c main_v209)
      (V24 m (outsR m) c main_arg10) (V24 m (outsR m) c main_v210) (V24 m (outsR m) c main_arg12) (V24 m (outsR m) c main_v211) = _
    rw [val24_main_v205, val24_main_v206, val24_main_v207, val24_main_v208, val24_main_v209, val24_main_arg10, val24_main_v210, val24_main_arg12, val24_main_v211,
      p0 m c, p1 m c, p2 m c]
    unfold Cert.Spec.net
    rfl)))

theorem result_net : V25 m (outsR m) c main_v212
    = Spec.net (aX m c) (aEA m c) (aCW m c) (aCB m c) (aJW m c) (aJB m c) (aG m c) (aBe m c) (aMu m c) (aVa m c) (aW1 m c) (aB1 m c) (aW2 m c) (aB2 m c)
        (Spec.srcOf (aEI m c)) (Spec.dstOf (aEI m c)) (aBatch m c) := by
  obtain ⟨σ, hs, hd, he⟩ := edges_relisted m c
  rw [result_eq m c]
  show Spec.net _ (V3 m c main_v25) _ _ _ _ _ _ _ _ _ _ _ _ (V3 m c main_v11) (V3 m c main_v18) _ = _
  rw [hs, hd, he]
  exact Cert.Alg.net_perm σ _ _ _ _ _ _ _ _ _ _ _ _ _ _ _ _ _

end Cert.KernelIdeal.Hand

end
-- ==== Proof.Ref.ReadP.lean ====
import proofs.«400674_j14499809591724_2_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S50000x128, .f32⟩ : BufTy).Contents (Elt F)) (x1 : (⟨S800000, .f32⟩ : BufTy).Contents (Elt F)) (x2 : (⟨S3x2x128x128, .f32⟩ : BufTy).Contents (Elt F)) (x3 : (⟨S3x2x128, .f32⟩ : BufTy).Contents (Elt F)) (x4 : (⟨S3x256x128, .f32⟩ : BufTy).Contents (Elt F)) (x5 : (⟨S3x128, .f32⟩ : BufTy).Contents (Elt F)) (x6 : (⟨S384, .f32⟩ : BufTy).Contents (Elt F)) (x7 : (⟨S384, .f32⟩ : BufTy).Contents (Elt F)) (x8 : (⟨S384, .f32⟩ : BufTy).Contents (Elt F)) (x9 : (⟨S384, .f32⟩ : BufTy).Contents (Elt F)) (x10 : (⟨S384x128, .f32⟩ : BufTy).Contents (Elt F)) (x11 : (⟨S128, .f32⟩ : BufTy).Contents (Elt F)) (x12 : (⟨S128x10, .f32⟩ : BufTy).Contents (Elt F)) (x13 : (⟨S10, .f32⟩ : BufTy).Contents (Elt F)) (x14 : (⟨S2x800000, .i32⟩ : BufTy).Contents (Elt F)) (x15 : (⟨S50000, .i32⟩ : BufTy).Contents (Elt F))

def val_main_v0 : (⟨S1x800000, .i32⟩ : BufTy).Contents (Elt F) :=
  extractStridedSlice S1x800000 ![0, 0] (x14) slices_S2x800000_S1x800000_0_0
def val_main_v1 : (⟨S800000, .i32⟩ : BufTy).Contents (Elt F) :=
  shapeCast _ (val_main_v0 (F := F) x14) shapeCasts_S1x800000_S800000
def val_main_v2 : (⟨S1x800000, .i32⟩ : BufTy).Contents (Elt F) :=
  extractStridedSlice S1x800000 ![1, 0] (x14) slices_S2x800000_S1x800000_1_0
def val_main_v3 : (⟨S800000, .i32⟩ : BufTy).Contents (Elt F) :=
  shapeCast _ (val_main_v2 (F := F) x14) shapeCasts_S1x800000_S800000
def val_main_v4 : (⟨S1x1x128x128, .f32⟩ : BufTy).Contents (Elt F) :=
  extractStridedSlice S1x1x128x128 ![0, 0, 0, 0] (x2) slices_S3x2x128x128_S1x1x128x128_0_0_0_0
def val_main_v5 : (⟨S128x128, .f32⟩ : BufTy).Contents (Elt F) :=
  shapeCast _ (val_main_v4 (F := F) x2) shapeCasts_S1x1x128x128_S128x128
def val_main_v6 : (⟨S1x1x128, .f32⟩ : BufTy).Contents (Elt F) :=
  extractStridedSlice S1x1x128 ![0, 0, 0] (x3) slices_S3x2x128_S1x1x128_0_0_0
def val_main_v7 : (⟨S128, .f32⟩ : BufTy).Contents (Elt F) :=
  shapeCast _ (val_main_v6 (F := F) x3) shapeCasts_S1x1x128_S128
def val_main_v8 : (⟨S50000x128, .f32⟩ : BufTy).Contents (Elt F) :=
  Host.dotGeneral dot_S50000x128_S128x128_S50000x128_1_0_0_1_n_n none (x0) (val_main_v5 (F := F) x2)
def val_main_cst : (⟨S_, .f32⟩ : BufTy).Contents (Elt F) :=
  constant S_ .f32 0x00000000#32
def val_main_v9 : (⟨S50000, .f32⟩ : BufTy).Contents (Elt F) :=
  broadcastInDim S50000 ![] bcast_S_S50000 (val_main_cst (F := F))
def val_main_v10 : (⟨S800000x1, .i32⟩ : BufTy).Contents (Elt F) :=
  broadcastInDim S800000x1 ![0] bcast_S800000_S800000x1_0 (val_main_v3 (F := F) x14)
def val_main_v11 : (⟨S50000, .f32⟩ : BufTy).Contents (Elt F) :=
  Host.scatterAdd scatter_S50000_S800000x1_S800000_n_0_0_1 (val_main_v9 (F := F)) (val_main_v10 (F := F) x14) (x1)
def val_main_cst_0 : (⟨S_, .f32⟩ : BufTy).Contents (Elt F) :=
  constant S_ .f32 0x3F800000#32
def val_main_v12 : (⟨S50000, .f32⟩ : BufTy).Contents (Elt F) :=
  broadcastInDim S50000 ![] bcast_S_S50000 (val_main_cst_0 (F := F))
def val_main_v13 : (⟨S50000, .f32⟩ : BufTy).Contents (Elt F) :=
  addf (val_main_v11 (F := F) x1 x14) (val_main_v12 (F := F))
def val_main_v14 : (⟨S50000, .f32⟩ : BufTy).Contents (Elt F) :=
  Host.rsqrt (val_main_v13 (F := F) x1 x14)
def val_main_c : (⟨S_, .i32⟩ : BufTy).Contents (Elt F) :=
  constantI S_ 32 0#32
def val_main_v15 : (⟨S800000, .i32⟩ : BufTy).Contents (Elt F) :=
  broadcastInDim S800000 ![] bcast_S_S800000 (val_main_c (F := F))
def val_main_v16 : (⟨S800000, .i1⟩ : BufTy).Contents (Elt F) :=
  cmpi .slt (val_main_v1 (F := F) x14) (val_main_v15 (F := F))
def val_main_c_1 : (⟨S_, .i32⟩ : BufTy).Contents (Elt F) :=
  constantI S_ 32 50000#32
def val_main_v17 : (⟨S800000, .i32⟩ : BufTy).Contents (Elt F) :=
  broadcastInDim S800000 ![] bcast_S_S800000 (val_main_c_1 (F := F))
def val_main_v18 : (⟨S800000, .i32⟩ : BufTy).Contents (Elt F) :=
  addi (val_main_v1 (F := F) x14) (val_main_v17 (F := F))
def val_main_v19 : (⟨S800000, .i32⟩ : BufTy).Contents (Elt F) :=
  select (val_main_v16 (F := F) x14) (val_main_v18 (F := F) x14) (val_main_v1 (F := F) x14)
def val_main_v20 : (⟨S800000x1, .i32⟩ : BufTy).Contents (Elt F) :=
  broadcastInDim S800000x1 ![0] bcast_S800000_S800000x1_0 (val_main_v19 (F := F) x14)
def val_main_v21 : (⟨S800000, .f32⟩ : BufTy).Contents (Elt F) :=
  Host.gather gather_S50000_S800000x1_S800000_n_0_n_n_0_1_1 (val_main_v14 (F := F) x1 x14) (val_main_v20 (F := F) x14)
def val_main_v22 : (⟨S800000, .f32⟩ : BufTy).Contents (Elt F) :=
  mulf (val_main_v21 (F := F) x1 x14) (x1)
def val_main_c_2 : (⟨S_, .i32⟩ : BufTy).Contents (Elt F) :=
  constantI S_ 32 0#32
def val_main_v23 : (⟨S800000, .i32⟩ : BufTy).Contents (Elt F) :=
  broadcastInDim S800000 ![] bcast_S_S800000 (val_main_c_2 (F := F))
def val_main_v24 : (⟨S800000, .i1⟩ : BufTy).Contents (Elt F) :=
  cmpi .slt (val_main_v3 (F := F) x14) (val_main_v23 (F := F))
def val_main_c_3 : (⟨S_, .i32⟩ : BufTy).Contents (Elt F) :=
  constantI S_ 32 50000#32
def val_main_v25 : (⟨S800000, .i32⟩ : BufTy).Contents (Elt F) :=
  broadcastInDim S800000 ![] bcast_S_S800000 (val_main_c_3 (F := F))
def val_main_v26 : (⟨S800000, .i32⟩ : BufTy).Contents (Elt F) :=
  addi (val_main_v3 (F := F) x14) (val_main_v25 (F := F))
def val_main_v27 : (⟨S800000, .i32⟩ : BufTy).Contents (Elt F) :=
  select (val_main_v24 (F := F) x14) (val_main_v26 (F := F) x14) (val_main_v3 (F := F) x14)
def val_main_v28 : (⟨S800000x1, .i32⟩ : BufTy).Contents (Elt F) :=
  broadcastInDim S800000x1 ![0] bcast_S800000_S800000x1_0 (val_main_v27 (F := F) x14)
def val_main_v29 : (⟨S800000, .f32⟩ : BufTy).Contents (Elt F) :=
  Host.gather gather_S50000_S800000x1_S800000_n_0_n_n_0_1_1 (val_main_v14 (F := F) x1 x14) (val_main_v28 (F := F) x14)
def val_main_v30 : (⟨S800000, .f32⟩ : BufTy).Contents (Elt F) :=
  mulf (val_main_v22 (F := F) x1 x14) (val_main_v29 (F := F) x1 x14)
def val_main_c_4 : (⟨S_, .i32⟩ : BufTy).Contents (Elt F) :=
  constantI S_ 32 0#32
def val_main_v31 : (⟨S800000, .i32⟩ : BufTy).Contents (Elt F) :=
  broadcastInDim S800000 ![] bcast_S_S800000 (val_main_c_4 (F := F))
def val_main_v32 : (⟨S800000, .i1⟩ : BufTy).Contents (Elt F) :=
  cmpi .slt (val_main_v1 (F := F) x14) (val_main_v31 (F := F))
def val_main_c_5 : (⟨S_, .i32⟩ : BufTy).Contents (Elt F) :=
  constantI S_ 32 50000#32
def val_main_v33 : (⟨S800000, .i32⟩ : BufTy).Contents (Elt F) :=
  broadcastInDim S800000 ![] bcast_S_S800000 (val_main_c_5 (F := F))
def val_main_v34 : (⟨S800000, .i32⟩ : BufTy).Contents (Elt F) :=
  addi (val_main_v1 (F := F) x14) (val_main_v33 (F := F))
def val_main_v35 : (⟨S800000, .i32⟩ : BufTy).Contents (Elt F) :=
  select (val_main_v32 (F := F) x14) (val_main_v34 (F := F) x14) (val_main_v1 (F := F) x14)
def val_main_v36 : (⟨S800000x1, .i32⟩ : BufTy).Contents (Elt F) :=
  broadcastInDim S800000x1 ![0] bcast_S800000_S800000x1_0 (val_main_v35 (F := F) x14)
def val_main_v37 : (⟨S800000x128, .f32⟩ : BufTy).Contents (Elt F) :=
  Host.gather gather_S50000x128_S800000x1_S800000x128_1_0_n_n_0_1_1128 (val_main_v8 (F := F) x0 x2) (val_main_v36 (F := F) x14)
def val_main_v38 : (⟨S800000x1, .f32⟩ : BufTy).Contents (Elt F) :=
  broadcastInDim S800000x1 ![0] bcast_S800000_S800000x1_0 (val_main_v30 (F := F) x1 x14)
def val_main_v39 : (⟨S800000x128, .f32⟩ : BufTy).Contents (Elt F) :=
  broadcastInDim S800000x128 ![0, 1] bcast_S800000x1_S800000x128_0_1 (val_main_v38 (F := F) x1 x14)
def val_main_v40 : (⟨S800000x128, .f32⟩ : BufTy).Contents (Elt F) :=
  mulf (val_main_v37 (F := F) x0 x2 x14) (val_main_v39 (F := F) x1 x14)
def val_main_cst_6 : (⟨S_, .f32⟩ : BufTy).Contents (Elt F) :=
  constant S_ .f32 0x00000000#32
def val_main_v41 : (⟨S50000x128, .f32⟩ : BufTy).Contents (Elt F) :=
  broadcastInDim S50000x128 ![] bcast_S_S50000x128 (val_main_cst_6 (F := F))
def val_main_v42 : (⟨S800000x1, .i32⟩ : BufTy).Contents (Elt F) :=
  broadcastInDim S800000x1 ![0] bcast_S800000_S800000x1_0 (val_main_v3 (F := F) x14)
def val_main_v43 : (⟨S50000x128, .f32⟩ : BufTy).Contents (Elt F) :=
  Host.scatterAdd scatter_S50000x128_S800000x1_S800000x128_1_0_0_1 (val_main_v41 (F := F)) (val_main_v42 (F := F) x14) (val_main_v40 (F := F) x0 x1 x2 x14)
def val_main_v44 : (⟨S50000, .f32⟩ : BufTy).Contents (Elt F) :=
  mulf (val_main_v14 (F := F) x1 x14) (val_main_v14 (F := F) x1 x14)
def val_main_v45 : (⟨S50000x1, .f32⟩ : BufTy).Contents (Elt F) :=
  broadcastInDim S50000x1 ![0] bcast_S50000_S50000x1_0 (val_main_v44 (F := F) x1 x14)
def val_main_v46 : (⟨S50000x128, .f32⟩ : BufTy).Contents (Elt F) :=
  broadcastInDim S50000x128 ![0, 1] bcast_S50000x1_S50000x128_0_1 (val_main_v45 (F := F) x1 x14)
def val_main_v47 : (⟨S50000x128, .f32⟩ : BufTy).Contents (Elt F) :=
  mulf (val_main_v8 (F := F) x0 x2) (val_main_v46 (F := F) x1 x14)
def val_main_v48 : (⟨S50000x128, .f32⟩ : BufTy).Contents (Elt F) :=
  addf (val_main_v43 (F := F) x0 x1 x2 x14) (val_main_v47 (F := F) x0 x1 x2 x14)
def val_main_v49 : (⟨S1x128, .f32⟩ : BufTy).Contents (Elt F) :=
  broadcastInDim S1x128 ![1] bcast_S128_S1x128_1 (val_main_v7 (F := F) x3)
def val_main_v50 : (⟨S50000x128, .f32⟩ : BufTy).Contents (Elt F) :=
  broadcastInDim S50000x128 ![0, 1] bcast_S1x128_S50000x128_0_1 (val_main_v49 (F := F) x3)
def val_main_v51 : (⟨S50000x128, .f32⟩ : BufTy).Contents (Elt F) :=
  addf (val_main_v48 (F := F) x0 x1 x2 x14) (val_main_v50 (F := F) x3)
def val_main_call0_cst : (⟨S_, .f32⟩ : BufTy).Contents (Elt F) :=
  constant S_ .f32 0x00000000#32
def val_main_call0_v0 : (⟨S50000x128, .f32⟩ : BufTy).Contents (Elt F) :=
  broadcastInDim S50000x128 ![] bcast_S_S50000x128 (val_main_call0_cst (F := F))
def val_main_v52 : (⟨S50000x128, .f32⟩ : BufTy).Contents (Elt F) :=
  maximumf (val_main_v51 (F := F) x0 x1 x2 x3 x14) (val_main_call0_v0 (F := F))
def val_main_v53 : (⟨S1x1x128x128, .f32⟩ : BufTy).Contents (Elt F) :=
  extractStridedSlice S1x1x128x128 ![0, 1, 0, 0] (x2) slices_S3x2x128x128_S1x1x128x128_0_1_0_0
def val_main_v54 : (⟨S128x128, .f32⟩ : BufTy).Contents (Elt F) :=
  shapeCast _ (val_main_v53 (F := F) x2) shapeCasts_S1x1x128x128_S128x128
def val_main_v55 : (⟨S1x1x128, .f32⟩ : BufTy).Contents (Elt F) :=
  extractStridedSlice S1x1x128 ![0, 1, 0] (x3) slices_S3x2x128_S1x1x128_0_1_0
def val_main_v56 : (⟨S128, .f32⟩ : BufTy).Contents (Elt F) :=
  shapeCast _ (val_main_v55 (F := F) x3) shapeCasts_S1x1x128_S128
def val_main_v57 : (⟨S50000x128, .f32⟩ : BufTy).Contents (Elt F) :=
  Host.dotGeneral dot_S50000x128_S128x128_S50000x128_1_0_0_1_n_n none (val_main_v52 (F := F) x0 x1 x2 x3 x14) (val_main_v54 (F := F) x2)
def val_main_cst_7 : (⟨S_, .f32⟩ : BufTy).Contents (Elt F) :=
  constant S_ .f32 0x00000000#32
def val_main_v58 : (⟨S50000, .f32⟩ : BufTy).Contents (Elt F) :=
  broadcastInDim S50000 ![] bcast_S_S50000 (val_main_cst_7 (F := F))
def val_main_v59 : (⟨S800000x1, .i32⟩ : BufTy).Contents (Elt F) :=
  broadcastInDim S800000x1 ![0] bcast_S800000_S800000x1_0 (val_main_v3 (F := F) x14)
def val_main_v60 : (⟨S50000, .f32⟩ : BufTy).Contents (Elt F) :=
  Host.scatterAdd scatter_S50000_S800000x1_S800000_n_0_0_1 (val_main_v58 (F := F)) (val_main_v59 (F := F) x14) (x1)
def val_main_cst_8 : (⟨S_, .f32⟩ : BufTy).Contents (Elt F) :=
  constant S_ .f32 0x3F800000#32
def val_main_v61 : (⟨S50000, .f32⟩ : BufTy).Contents (Elt F) :=
  broadcastInDim S50000 ![] bcast_S_S50000 (val_main_cst_8 (F := F))
def val_main_v62 : (⟨S50000, .f32⟩ : BufTy).Contents (Elt F) :=
  addf (val_main_v60 (F := F) x1 x14) (val_main_v61 (F := F))
def val_main_v63 : (⟨S50000, .f32⟩ : BufTy).Contents (Elt F) :=
  Host.rsqrt (val_main_v62 (F := F) x1 x14)
def val_main_c_9 : (⟨S_, .i32⟩ : BufTy).Contents (Elt F) :=
  constantI S_ 32 0#32
def val_main_v64 : (⟨S800000, .i32⟩ : BufTy).Contents (Elt F) :=
  broadcastInDim S800000 ![] bcast_S_S800000 (val_main_c_9 (F := F))
def val_main_v65 : (⟨S800000, .i1⟩ : BufTy).Contents (Elt F) :=
  cmpi .slt (val_main_v1 (F := F) x14) (val_main_v64 (F := F))
def val_main_c_10 : (⟨S_, .i32⟩ : BufTy).Contents (Elt F) :=
  constantI S_ 32 50000#32
def val_main_v66 : (⟨S800000, .i32⟩ : BufTy).Contents (Elt F) :=
  broadcastInDim S800000 ![] bcast_S_S800000 (val_main_c_10 (F := F))
def val_main_v67 : (⟨S800000, .i32⟩ : BufTy).Contents (Elt F) :=
  addi (val_main_v1 (F := F) x14) (val_main_v66 (F := F))
def val_main_v68 : (⟨S800000, .i32⟩ : BufTy).Contents (Elt F) :=
  select (val_main_v65 (F := F) x14) (val_main_v67 (F := F) x14) (val_main_v1 (F := F) x14)
def val_main_v69 : (⟨S800000x1, .i32⟩ : BufTy).Contents (Elt F) :=
  broadcastInDim S800000x1 ![0] bcast_S800000_S800000x1_0 (val_main_v68 (F := F) x14)
def val_main_v70 : (⟨S800000, .f32⟩ : BufTy).Contents (Elt F) :=
  Host.gather gather_S50000_S800000x1_S800000_n_0_n_n_0_1_1 (val_main_v63 (F := F) x1 x14) (val_main_v69 (F := F) x14)
def val_main_v71 : (⟨S800000, .f32⟩ : BufTy).Contents (Elt F) :=
  mulf (val_main_v70 (F := F) x1 x14) (x1)
def val_main_c_11 : (⟨S_, .i32⟩ : BufTy).Contents (Elt F) :=
  constantI S_ 32 0#32
def val_main_v72 : (⟨S800000, .i32⟩ : BufTy).Contents (Elt F) :=
  broadcastInDim S800000 ![] bcast_S_S800000 (val_main_c_11 (F := F))
def val_main_v73 : (⟨S800000, .i1⟩ : BufTy).Contents (Elt F) :=
  cmpi .slt (val_main_v3 (F := F) x14) (val_main_v72 (F := F))
def val_main_c_12 : (⟨S_, .i32⟩ : BufTy).Contents (Elt F) :=
  constantI S_ 32 50000#32
def val_main_v74 : (⟨S800000, .i32⟩ : BufTy).Contents (Elt F) :=
  broadcastInDim S800000 ![] bcast_S_S800000 (val_main_c_12 (F := F))
def val_main_v75 : (⟨S800000, .i32⟩ : BufTy).Contents (Elt F) :=
  addi (val_main_v3 (F := F) x14) (val_main_v74 (F := F))
def val_main_v76 : (⟨S800000, .i32⟩ : BufTy).Contents (Elt F) :=
  select (val_main_v73 (F := F) x14) (val_main_v75 (F := F) x14) (val_main_v3 (F := F) x14)
def val_main_v77 : (⟨S800000x1, .i32⟩ : BufTy).Contents (Elt F) :=
  broadcastInDim S800000x1 ![0] bcast_S800000_S800000x1_0 (val_main_v76 (F := F) x14)
def val_main_v78 : (⟨S800000, .f32⟩ : BufTy).Contents (Elt F) :=
  Host.gather gather_S50000_S800000x1_S800000_n_0_n_n_0_1_1 (val_main_v63 (F := F) x1 x14) (val_main_v77 (F := F) x14)
def val_main_v79 : (⟨S800000, .f32⟩ : BufTy).Contents (Elt F) :=
  mulf (val_main_v71 (F := F) x1 x14) (val_main_v78 (F := F) x1 x14)
def val_main_c_13 : (⟨S_, .i32⟩ : BufTy).Contents (Elt F) :=
  constantI S_ 32 0#32
def val_main_v80 : (⟨S800000, .i32⟩ : BufTy).Contents (Elt F) :=
  broadcastInDim S800000 ![] bcast_S_S800000 (val_main_c_13 (F := F))
def val_main_v81 : (⟨S800000, .i1⟩ : BufTy).Contents (Elt F) :=
  cmpi .slt (val_main_v1 (F := F) x14) (val_main_v80 (F := F))
def val_main_c_14 : (⟨S_, .i32⟩ : BufTy).Contents (Elt F) :=
  constantI S_ 32 50000#32
def val_main_v82 : (⟨S800000, .i32⟩ : BufTy).Contents (Elt F) :=
  broadcastInDim S800000 ![] bcast_S_S800000 (val_main_c_14 (F := F))
def val_main_v83 : (⟨S800000, .i32⟩ : BufTy).Contents (Elt F) :=
  addi (val_main_v1 (F := F) x14) (val_main_v82 (F := F))
def val_main_v84 : (⟨S800000, .i32⟩ : BufTy).Contents (Elt F) :=
  select (val_main_v81 (F := F) x14) (val_main_v83 (F := F) x14) (val_main_v1 (F := F) x14)
def val_main_v85 : (⟨S800000x1, .i32⟩ : BufTy).Contents (Elt F) :=
  broadcastInDim S800000x1 ![0] bcast_S800000_S800000x1_0 (val_main_v84 (F := F) x14)
def val_main_v86 : (⟨S800000x128, .f32⟩ : BufTy).Contents (Elt F) :=
  Host.gather gather_S50000x128_S800000x1_S800000x128_1_0_n_n_0_1_1128 (val_main_v57 (F := F) x0 x1 x2 x3 x14) (val_main_v85 (F := F) x14)
def val_main_v87 : (⟨S800000x1, .f32⟩ : BufTy).Contents (Elt F) :=
  broadcastInDim S800000x1 ![0] bcast_S800000_S800000x1_0 (val_main_v79 (F := F) x1 x14)
def val_main_v88 : (⟨S800000x128, .f32⟩ : BufTy).Contents (Elt F) :=
  broadcastInDim S800000x128 ![0, 1] bcast_S800000x1_S800000x128_0_1 (val_main_v87 (F := F) x1 x14)
def val_main_v89 : (⟨S800000x128, .f32⟩ : BufTy).Contents (Elt F) :=
  mulf (val_main_v86 (F := F) x0 x1 x2 x3 x14) (val_main_v88 (F := F) x1 x14)
def val_main_cst_15 : (⟨S_, .f32⟩ : BufTy).Contents (Elt F) :=
  constant S_ .f32 0x00000000#32
def val_main_v90 : (⟨S50000x128, .f32⟩ : BufTy).Contents (Elt F) :=
  broadcastInDim S50000x128 ![] bcast_S_S50000x128 (val_main_cst_15 (F := F))
def val_main_v91 : (⟨S800000x1, .i32⟩ : BufTy).Contents (Elt F) :=
  broadcastInDim S800000x1 ![0] bcast_S800000_S800000x1_0 (val_main_v3 (F := F) x14)
def val_main_v92 : (⟨S50000x128, .f32⟩ : BufTy).Contents (Elt F) :=
  Host.scatterAdd scatter_S50000x128_S800000x1_S800000x128_1_0_0_1 (val_main_v90 (F := F)) (val_main_v91 (F := F) x14) (val_main_v89 (F := F) x0 x1 x2 x3 x14)
def val_main_v93 : (⟨S50000, .f32⟩ : BufTy).Contents (Elt F) :=
  mulf (val_main_v63 (F := F) x1 x14) (val_main_v63 (F := F) x1 x14)
def val_main_v94 : (⟨S50000x1, .f32⟩ : BufTy).Contents (Elt F) :=
  broadcastInDim S50000x1 ![0] bcast_S50000_S50000x1_0 (val_main_v93 (F := F) x1 x14)
def val_main_v95 : (⟨S50000x128, .f32⟩ : BufTy).Contents (Elt F) :=
  broadcastInDim S50000x128 ![0, 1] bcast_S50000x1_S50000x128_0_1 (val_main_v94 (F := F) x1 x14)
def val_main_v96 : (⟨S50000x128, .f32⟩ : BufTy).Contents (Elt F) :=
  mulf (val_main_v57 (F := F) x0 x1 x2 x3 x14) (val_main_v95 (F := F) x1 x14)
def val_main_v97 : (⟨S50000x128, .f32⟩ : BufTy).Contents (Elt F) :=
  addf (val_main_v92 (F := F) x0 x1 x2 x3 x14) (val_main_v96 (F := F) x0 x1 x2 x3 x14)
def val_main_v98 : (⟨S1x128, .f32⟩ : BufTy).Contents (Elt F) :=
  broadcastInDim S1x128 ![1] bcast_S128_S1x128_1 (val_main_v56 (F := F) x3)
def val_main_v99 : (⟨S50000x128, .f32⟩ : BufTy).Contents (Elt F) :=
  broadcastInDim S50000x128 ![0, 1] bcast_S1x128_S50000x128_0_1 (val_main_v98 (F := F) x3)
def val_main_v100 : (⟨S50000x128, .f32⟩ : BufTy).Contents (Elt F) :=
  addf (val_main_v97 (F := F) x0 x1 x2 x3 x14) (val_main_v99 (F := F) x3)
def val_main_call1_cst : (⟨S_, .f32⟩ : BufTy).Contents (Elt F) :=
  constant S_ .f32 0x00000000#32
def val_main_call1_v0 : (⟨S50000x128, .f32⟩ : BufTy).Contents (Elt F) :=
  broadcastInDim S50000x128 ![] bcast_S_S50000x128 (val_main_call1_cst (F := F))
def val_main_v101 : (⟨S50000x128, .f32⟩ : BufTy).Contents (Elt F) :=
  maximumf (val_main_v100 (F := F) x0 x1 x2 x3 x14) (val_main_call1_v0 (F := F))
def val_main_v102 : (⟨S50000x256, .f32⟩ : BufTy).Contents (Elt F) :=
  concatenate S50000x256 1 [⟨S50000x128, (val_main_v52 (F := F) x0 x1 x2 x3 x14)⟩, ⟨S50000x128, (val_main_v101 (F := F) x0 x1 x2 x3 x14)⟩] concatenates_S50000x128_S50000x128_S50000x256_d1
def val_main_v103 : (⟨S1x256x128, .f32⟩ : BufTy).Contents (Elt F) :=
  extractStridedSlice S1x256x128 ![0, 0, 0] (x4) slices_S3x256x128_S1x256x128_0_0_0
def val_main_v104 : (⟨S256x128, .f32⟩ : BufTy).Contents (Elt F) :=
  shapeCast _ (val_main_v103 (F := F) x4) shapeCasts_S1x256x128_S256x128
def val_main_v105 : (⟨S50000x128, .f32⟩ : BufTy).Contents (Elt F) :=
  Host.dotGeneral dot_S50000x256_S256x128_S50000x128_1_0_0_1_n_n none (val_main_v102 (F := F) x0 x1 x2 x3 x14) (val_main_v104 (F := F) x4)
def val_main_v106 : (⟨S1x128, .f32⟩ : BufTy).Contents (Elt F) :=
  extractStridedSlice S1x128 ![0, 0] (x5) slices_S3x128_S1x128_0_0
def val_main_v107 : (⟨S128, .f32⟩ : BufTy).Contents (Elt F) :=
  shapeCast _ (val_main_v106 (F := F) x5) shapeCasts_S1x128_S128
def val_main_v108 : (⟨S1x128, .f32⟩ : BufTy).Contents (Elt F) :=
  broadcastInDim S1x128 ![1] bcast_S128_S1x128_1 (val_main_v107 (F := F) x5)
def val_main_v109 : (⟨S50000x128, .f32⟩ : BufTy).Contents (Elt F) :=
  broadcastInDim S50000x128 ![0, 1] bcast_S1x128_S50000x128_0_1 (val_main_v108 (F := F) x5)
def val_main_v110 : (⟨S50000x128, .f32⟩ : BufTy).Contents (Elt F) :=
  addf (val_main_v105 (F := F) x0 x1 x2 x3 x4 x14) (val_main_v109 (F := F) x5)
def val_main_call2_cst : (⟨S_, .f32⟩ : BufTy).Contents (Elt F) :=
  constant S_ .f32 0x00000000#32
def val_main_call2_v0 : (⟨S50000x128, .f32⟩ : BufTy).Contents (Elt F) :=
  broadcastInDim S50000x128 ![] bcast_S_S50000x128 (val_main_call2_cst (F := F))
def val_main_v111 : (⟨S50000x128, .f32⟩ : BufTy).Contents (Elt F) :=
  maximumf (val_main_v110 (F := F) x0 x1 x2 x3 x4 x5 x14) (val_main_call2_v0 (F := F))
def val_main_cst_16 : (⟨S_, .f32⟩ : BufTy).Contents (Elt F) :=
  constant S_ .f32 0x00000000#32
def val_main_v112 : (⟨S512x128, .f32⟩ : BufTy).Contents (Elt F) :=
  broadcastInDim S512x128 ![] bcast_S_S512x128 (val_main_cst_16 (F := F))
def val_main_v113 : (⟨S50000x1, .i32⟩ : BufTy).Contents (Elt F) :=
  broadcastInDim S50000x1 ![0] bcast_S50000_S50000x1_0 (x15)
def val_main_v114 : (⟨S512x128, .f32⟩ : BufTy).Contents (Elt F) :=
  Host.scatterAdd scatter_S512x128_S50000x1_S50000x128_1_0_0_1 (val_main_v112 (F := F)) (val_main_v113 (F := F) x15) (val_main_v111 (F := F) x0 x1 x2 x3 x4 x5 x14)
def val_main_v115 : (⟨S1x1x128x128, .f32⟩ : BufTy).Contents (Elt F) :=
  extractStridedSlice S1x1x128x128 ![1, 0, 0, 0] (x2) slices_S3x2x128x128_S1x1x128x128_1_0_0_0
def val_main_v116 : (⟨S128x128, .f32⟩ : BufTy).Contents (Elt F) :=
  shapeCast _ (val_main_v115 (F := F) x2) shapeCasts_S1x1x128x128_S128x128
def val_main_v117 : (⟨S1x1x128, .f32⟩ : BufTy).Contents (Elt F) :=
  extractStridedSlice S1x1x128 ![1, 0, 0] (x3) slices_S3x2x128_S1x1x128_1_0_0
def val_main_v118 : (⟨S128, .f32⟩ : BufTy).Contents (Elt F) :=
  shapeCast _ (val_main_v117 (F := F) x3) shapeCasts_S1x1x128_S128
def val_main_v119 : (⟨S50000x128, .f32⟩ : BufTy).Contents (Elt F) :=
  Host.dotGeneral dot_S50000x128_S128x128_S50000x128_1_0_0_1_n_n none (val_main_v111 (F := F) x0 x1 x2 x3 x4 x5 x14) (val_main_v116 (F := F) x2)
def val_main_cst_17 : (⟨S_, .f32⟩ : BufTy).Contents (Elt F) :=
  constant S_ .f32 0x00000000#32
def val_main_v120 : (⟨S50000, .f32⟩ : BufTy).Contents (Elt F) :=
  broadcastInDim S50000 ![] bcast_S_S50000 (val_main_cst_17 (F := F))
def val_main_v121 : (⟨S800000x1, .i32⟩ : BufTy).Contents (Elt F) :=
  broadcastInDim S800000x1 ![0] bcast_S800000_S800000x1_0 (val_main_v3 (F := F) x14)
def val_main_v122 : (⟨S50000, .f32⟩ : BufTy).Contents (Elt F) :=
  Host.scatterAdd scatter_S50000_S800000x1_S800000_n_0_0_1 (val_main_v120 (F := F)) (val_main_v121 (F := F) x14) (x1)
def val_main_cst_18 : (⟨S_, .f32⟩ : BufTy).Contents (Elt F) :=
  constant S_ .f32 0x3F800000#32
def val_main_v123 : (⟨S50000, .f32⟩ : BufTy).Contents (Elt F) :=
  broadcastInDim S50000 ![] bcast_S_S50000 (val_main_cst_18 (F := F))
def val_main_v124 : (⟨S50000, .f32⟩ : BufTy).Contents (Elt F) :=
  addf (val_main_v122 (F := F) x1 x14) (val_main_v123 (F := F))
def val_main_v125 : (⟨S50000, .f32⟩ : BufTy).Contents (Elt F) :=
  Host.rsqrt (val_main_v124 (F := F) x1 x14)
def val_main_c_19 : (⟨S_, .i32⟩ : BufTy).Contents (Elt F) :=
  constantI S_ 32 0#32
def val_main_v126 : (⟨S800000, .i32⟩ : BufTy).Contents (Elt F) :=
  broadcastInDim S800000 ![] bcast_S_S800000 (val_main_c_19 (F := F))
def val_main_v127 : (⟨S800000, .i1⟩ : BufTy).Contents (Elt F) :=
  cmpi .slt (val_main_v1 (F := F) x14) (val_main_v126 (F := F))
def val_main_c_20 : (⟨S_, .i32⟩ : BufTy).Contents (Elt F) :=
  constantI S_ 32 50000#32
def val_main_v128 : (⟨S800000, .i32⟩ : BufTy).Contents (Elt F) :=
  broadcastInDim S800000 ![] bcast_S_S800000 (val_main_c_20 (F := F))
def val_main_v129 : (⟨S800000, .i32⟩ : BufTy).Contents (Elt F) :=
  addi (val_main_v1 (F := F) x14) (val_main_v128 (F := F))
def val_main_v130 : (⟨S800000, .i32⟩ : BufTy).Contents (Elt F) :=
  select (val_main_v127 (F := F) x14) (val_main_v129 (F := F) x14) (val_main_v1 (F := F) x14)
def val_main_v131 : (⟨S800000x1, .i32⟩ : BufTy).Contents (Elt F) :=
  broadcastInDim S800000x1 ![0] bcast_S800000_S800000x1_0 (val_main_v130 (F := F) x14)
def val_main_v132 : (⟨S800000, .f32⟩ : BufTy).Contents (Elt F) :=
  Host.gather gather_S50000_S800000x1_S800000_n_0_n_n_0_1_1 (val_main_v125 (F := F) x1 x14) (val_main_v131 (F := F) x14)
def val_main_v133 : (⟨S800000, .f32⟩ : BufTy).Contents (Elt F) :=
  mulf (val_main_v132 (F := F) x1 x14) (x1)
def val_main_c_21 : (⟨S_, .i32⟩ : BufTy).Contents (Elt F) :=
  constantI S_ 32 0#32
def val_main_v134 : (⟨S800000, .i32⟩ : BufTy).Contents (Elt F) :=
  broadcastInDim S800000 ![] bcast_S_S800000 (val_main_c_21 (F := F))
def val_main_v135 : (⟨S800000, .i1⟩ : BufTy).Contents (Elt F) :=
  cmpi .slt (val_main_v3 (F := F) x14) (val_main_v134 (F := F))
def val_main_c_22 : (⟨S_, .i32⟩ : BufTy).Contents (Elt F) :=
  constantI S_ 32 50000#32
def val_main_v136 : (⟨S800000, .i32⟩ : BufTy).Contents (Elt F) :=
  broadcastInDim S800000 ![] bcast_S_S800000 (val_main_c_22 (F := F))
def val_main_v137 : (⟨S800000, .i32⟩ : BufTy).Contents (Elt F) :=
  addi (val_main_v3 (F := F) x14) (val_main_v136 (F := F))
def val_main_v138 : (⟨S800000, .i32⟩ : BufTy).Contents (Elt F) :=
  select (val_main_v135 (F := F) x14) (val_main_v137 (F := F) x14) (val_main_v3 (F := F) x14)
def val_main_v139 : (⟨S800000x1, .i32⟩ : BufTy).Contents (Elt F) :=
  broadcastInDim S800000x1 ![0] bcast_S800000_S800000x1_0 (val_main_v138 (F := F) x14)
def val_main_v140 : (⟨S800000, .f32⟩ : BufTy).Contents (Elt F) :=
  Host.gather gather_S50000_S800000x1_S800000_n_0_n_n_0_1_1 (val_main_v125 (F := F) x1 x14) (val_main_v139 (F := F) x14)
def val_main_v141 : (⟨S800000, .f32⟩ : BufTy).Contents (Elt F) :=
  mulf (val_main_v133 (F := F) x1 x14) (val_main_v140 (F := F) x1 x14)
def val_main_c_23 : (⟨S_, .i32⟩ : BufTy).Contents (Elt F) :=
  constantI S_ 32 0#32
def val_main_v142 : (⟨S800000, .i32⟩ : BufTy).Contents (Elt F) :=
  broadcastInDim S800000 ![] bcast_S_S800000 (val_main_c_23 (F := F))
def val_main_v143 : (⟨S800000, .i1⟩ : BufTy).Contents (Elt F) :=
  cmpi .slt (val_main_v1 (F := F) x14) (val_main_v142 (F := F))
def val_main_c_24 : (⟨S_, .i32⟩ : BufTy).Contents (Elt F) :=
  constantI S_ 32 50000#32
def val_main_v144 : (⟨S800000, .i32⟩ : BufTy).Contents (Elt F) :=
  broadcastInDim S800000 ![] bcast_S_S800000 (val_main_c_24 (F := F))
def val_main_v145 : (⟨S800000, .i32⟩ : BufTy).Contents (Elt F) :=
  addi (val_main_v1 (F := F) x14) (val_main_v144 (F := F))
def val_main_v146 : (⟨S800000, .i32⟩ : BufTy).Contents (Elt F) :=
  select (val_main_v143 (F := F) x14) (val_main_v145 (F := F) x14) (val_main_v1 (F := F) x14)
def val_main_v147 : (⟨S800000x1, .i32⟩ : BufTy).Contents (Elt F) :=
  broadcastInDim S800000x1 ![0] bcast_S800000_S800000x1_0 (val_main_v146 (F := F) x14)
def val_main_v148 : (⟨S800000x128, .f32⟩ : BufTy).Contents (Elt F) :=
  Host.gather gather_S50000x128_S800000x1_S800000x128_1_0_n_n_0_1_1128 (val_main_v119 (F := F) x0 x1 x2 x3 x4 x5 x14) (val_main_v147 (F := F) x14)
def val_main_v149 : (⟨S800000x1, .f32⟩ : BufTy).Contents (Elt F) :=
  broadcastInDim S800000x1 ![0] bcast_S800000_S800000x1_0 (val_main_v141 (F := F) x1 x14)
def val_main_v150 : (⟨S800000x128, .f32⟩ : BufTy).Contents (Elt F) :=
  broadcastInDim S800000x128 ![0, 1] bcast_S800000x1_S800000x128_0_1 (val_main_v149 (F := F) x1 x14)
def val_main_v151 : (⟨S800000x128, .f32⟩ : BufTy).Contents (Elt F) :=
  mulf (val_main_v148 (F := F) x0 x1 x2 x3 x4 x5 x14) (val_main_v150 (F := F) x1 x14)
def val_main_cst_25 : (⟨S_, .f32⟩ : BufTy).Contents (Elt F) :=
  constant S_ .f32 0x00000000#32
def val_main_v152 : (⟨S50000x128, .f32⟩ : BufTy).Contents (Elt F) :=
  broadcastInDim S50000x128 ![] bcast_S_S50000x128 (val_main_cst_25 (F := F))
def val_main_v153 : (⟨S800000x1, .i32⟩ : BufTy).Contents (Elt F) :=
  broadcastInDim S800000x1 ![0] bcast_S800000_S800000x1_0 (val_main_v3 (F := F) x14)
def val_main_v154 : (⟨S50000x128, .f32⟩ : BufTy).Contents (Elt F) :=
  Host.scatterAdd scatter_S50000x128_S800000x1_S800000x128_1_0_0_1 (val_main_v152 (F := F)) (val_main_v153 (F := F) x14) (val_main_v151 (F := F) x0 x1 x2 x3 x4 x5 x14)
def val_main_v155 : (⟨S50000, .f32⟩ : BufTy).Contents (Elt F) :=
  mulf (val_main_v125 (F := F) x1 x14) (val_main_v125 (F := F) x1 x14)
def val_main_v156 : (⟨S50000x1, .f32⟩ : BufTy).Contents (Elt F) :=
  broadcastInDim S50000x1 ![0] bcast_S50000_S50000x1_0 (val_main_v155 (F := F) x1 x14)
def val_main_v157 : (⟨S50000x128, .f32⟩ : BufTy).Contents (Elt F) :=
  broadcastInDim S50000x128 ![0, 1] bcast_S50000x1_S50000x128_0_1 (val_main_v156 (F := F) x1 x14)
def val_main_v158 : (⟨S50000x128, .f32⟩ : BufTy).Contents (Elt F) :=
  mulf (val_main_v119 (F := F) x0 x1 x2 x3 x4 x5 x14) (val_main_v157 (F := F) x1 x14)
def val_main_v159 : (⟨S50000x128, .f32⟩ : BufTy).Contents (Elt F) :=
  addf (val_main_v154 (F := F) x0 x1 x2 x3 x4 x5 x14) (val_main_v158 (F := F) x0 x1 x2 x3 x4 x5 x14)
def val_main_v160 : (⟨S1x128, .f32⟩ : BufTy).Contents (Elt F) :=
  broadcastInDim S1x128 ![1] bcast_S128_S1x128_1 (val_main_v118 (F := F) x3)
def val_main_v161 : (⟨S50000x128, .f32⟩ : BufTy).Contents (Elt F) :=
  broadcastInDim S50000x128 ![0, 1] bcast_S1x128_S50000x128_0_1 (val_main_v160 (F := F) x3)
def val_main_v162 : (⟨S50000x128, .f32⟩ : BufTy).Contents (Elt F) :=
  addf (val_main_v159 (F := F) x0 x1 x2 x3 x4 x5 x14) (val_main_v161 (F := F) x3)
def val_main_call3_cst : (⟨S_, .f32⟩ : BufTy).Contents (Elt F) :=
  constant S_ .f32 0x00000000#32
def val_main_call3_v0 : (⟨S50000x128, .f32⟩ : BufTy).Contents (Elt F) :=
  broadcastInDim S50000x128 ![] bcast_S_S50000x128 (val_main_call3_cst (F := F))
def val_main_v163 : (⟨S50000x128, .f32⟩ : BufTy).Contents (Elt F) :=
  maximumf (val_main_v162 (F := F) x0 x1 x2 x3 x4 x5 x14) (val_main_call3_v0 (F := F))
def val_main_v164 : (⟨S1x1x128x128, .f32⟩ : BufTy).Contents (Elt F) :=
  extractStridedSlice S1x1x128x128 ![1, 1, 0, 0] (x2) slices_S3x2x128x128_S1x1x128x128_1_1_0_0
def val_main_v165 : (⟨S128x128, .f32⟩ : BufTy).Contents (Elt F) :=
  shapeCast _ (val_main_v164 (F := F) x2) shapeCasts_S1x1x128x128_S128x128
def val_main_v166 : (⟨S1x1x128, .f32⟩ : BufTy).Contents (Elt F) :=
  extractStridedSlice S1x1x128 ![1, 1, 0] (x3) slices_S3x2x128_S1x1x128_1_1_0
def val_main_v167 : (⟨S128, .f32⟩ : BufTy).Contents (Elt F) :=
  shapeCast _ (val_main_v166 (F := F) x3) shapeCasts_S1x1x128_S128
def val_main_v168 : (⟨S50000x128, .f32⟩ : BufTy).Contents (Elt F) :=
  Host.dotGeneral dot_S50000x128_S128x128_S50000x128_1_0_0_1_n_n none (val_main_v163 (F := F) x0 x1 x2 x3 x4 x5 x14) (val_main_v165 (F := F) x2)
def val_main_cst_26 : (⟨S_, .f32⟩ : BufTy).Contents (Elt F) :=
  constant S_ .f32 0x00000000#32
def val_main_v169 : (⟨S50000, .f32⟩ : BufTy).Contents (Elt F) :=
  broadcastInDim S50000 ![] bcast_S_S50000 (val_main_cst_26 (F := F))
def val_main_v170 : (⟨S800000x1, .i32⟩ : BufTy).Contents (Elt F) :=
  broadcastInDim S800000x1 ![0] bcast_S800000_S800000x1_0 (val_main_v3 (F := F) x14)
def val_main_v171 : (⟨S50000, .f32⟩ : BufTy).Contents (Elt F) :=
  Host.scatterAdd scatter_S50000_S800000x1_S800000_n_0_0_1 (val_main_v169 (F := F)) (val_main_v170 (F := F) x14) (x1)
def val_main_cst_27 : (⟨S_, .f32⟩ : BufTy).Contents (Elt F) :=
  constant S_ .f32 0x3F800000#32
def val_main_v172 : (⟨S50000, .f32⟩ : BufTy).Contents (Elt F) :=
  broadcastInDim S50000 ![] bcast_S_S50000 (val_main_cst_27 (F := F))
def val_main_v173 : (⟨S50000, .f32⟩ : BufTy).Contents (Elt F) :=
  addf (val_main_v171 (F := F) x1 x14) (val_main_v172 (F := F))
def val_main_v174 : (⟨S50000, .f32⟩ : BufTy).Contents (Elt F) :=
  Host.rsqrt (val_main_v173 (F := F) x1 x14)
def val_main_c_28 : (⟨S_, .i32⟩ : BufTy).Contents (Elt F) :=
  constantI S_ 32 0#32
def val_main_v175 : (⟨S800000, .i32⟩ : BufTy).Contents (Elt F) :=
  broadcastInDim S800000 ![] bcast_S_S800000 (val_main_c_28 (F := F))
def val_main_v176 : (⟨S800000, .i1⟩ : BufTy).Contents (Elt F) :=
  cmpi .slt (val_main_v1 (F := F) x14) (val_main_v175 (F := F))
def val_main_c_29 : (⟨S_, .i32⟩ : BufTy).Contents (Elt F) :=
  constantI S_ 32 50000#32
def val_main_v177 : (⟨S800000, .i32⟩ : BufTy).Contents (Elt F) :=
  broadcastInDim S800000 ![] bcast_S_S800000 (val_main_c_29 (F := F))
def val_main_v178 : (⟨S800000, .i32⟩ : BufTy).Contents (Elt F) :=
  addi (val_main_v1 (F := F) x14) (val_main_v177 (F := F))
def val_main_v179 : (⟨S800000, .i32⟩ : BufTy).Contents (Elt F) :=
  select (val_main_v176 (F := F) x14) (val_main_v178 (F := F) x14) (val_main_v1 (F := F) x14)
def val_main_v180 : (⟨S800000x1, .i32⟩ : BufTy).Contents (Elt F) :=
  broadcastInDim S800000x1 ![0] bcast_S800000_S800000x1_0 (val_main_v179 (F := F) x14)
def val_main_v181 : (⟨S800000, .f32⟩ : BufTy).Contents (Elt F) :=
  Host.gather gather_S50000_S800000x1_S800000_n_0_n_n_0_1_1 (val_main_v174 (F := F) x1 x14) (val_main_v180 (F := F) x14)
def val_main_v182 : (⟨S800000, .f32⟩ : BufTy).Contents (Elt F) :=
  mulf (val_main_v181 (F := F) x1 x14) (x1)
def val_main_c_30 : (⟨S_, .i32⟩ : BufTy).Contents (Elt F) :=
  constantI S_ 32 0#32
def val_main_v183 : (⟨S800000, .i32⟩ : BufTy).Contents (Elt F) :=
  broadcastInDim S800000 ![] bcast_S_S800000 (val_main_c_30 (F := F))
def val_main_v184 : (⟨S800000, .i1⟩ : BufTy).Contents (Elt F) :=
  cmpi .slt (val_main_v3 (F := F) x14) (val_main_v183 (F := F))
def val_main_c_31 : (⟨S_, .i32⟩ : BufTy).Contents (Elt F) :=
  constantI S_ 32 50000#32
def val_main_v185 : (⟨S800000, .i32⟩ : BufTy).Contents (Elt F) :=
  broadcastInDim S800000 ![] bcast_S_S800000 (val_main_c_31 (F := F))
def val_main_v186 : (⟨S800000, .i32⟩ : BufTy).Contents (Elt F) :=
  addi (val_main_v3 (F := F) x14) (val_main_v185 (F := F))
def val_main_v187 : (⟨S800000, .i32⟩ : BufTy).Contents (Elt F) :=
  select (val_main_v184 (F := F) x14) (val_main_v186 (F := F) x14) (val_main_v3 (F := F) x14)
def val_main_v188 : (⟨S800000x1, .i32⟩ : BufTy).Contents (Elt F) :=
  broadcastInDim S800000x1 ![0] bcast_S800000_S800000x1_0 (val_main_v187 (F := F) x14)
def val_main_v189 : (⟨S800000, .f32⟩ : BufTy).Contents (Elt F) :=
  Host.gather gather_S50000_S800000x1_S800000_n_0_n_n_0_1_1 (val_main_v174 (F := F) x1 x14) (val_main_v188 (F := F) x14)
def val_main_v190 : (⟨S800000, .f32⟩ : BufTy).Contents (Elt F) :=
  mulf (val_main_v182 (F := F) x1 x14) (val_main_v189 (F := F) x1 x14)
def val_main_c_32 : (⟨S_, .i32⟩ : BufTy).Contents (Elt F) :=
  constantI S_ 32 0#32
def val_main_v191 : (⟨S800000, .i32⟩ : BufTy).Contents (Elt F) :=
  broadcastInDim S800000 ![] bcast_S_S800000 (val_main_c_32 (F := F))
def val_main_v192 : (⟨S800000, .i1⟩ : BufTy).Contents (Elt F) :=
  cmpi .slt (val_main_v1 (F := F) x14) (val_main_v191 (F := F))
def val_main_c_33 : (⟨S_, .i32⟩ : BufTy).Contents (Elt F) :=
  constantI S_ 32 50000#32
def val_main_v193 : (⟨S800000, .i32⟩ : BufTy).Contents (Elt F) :=
  broadcastInDim S800000 ![] bcast_S_S800000 (val_main_c_33 (F := F))
def val_main_v194 : (⟨S800000, .i32⟩ : BufTy).Contents (Elt F) :=
  addi (val_main_v1 (F := F) x14) (val_main_v193 (F := F))
def val_main_v195 : (⟨S800000, .i32⟩ : BufTy).Contents (Elt F) :=
  select (val_main_v192 (F := F) x14) (val_main_v194 (F := F) x14) (val_main_v1 (F := F) x14)
def val_main_v196 : (⟨S800000x1, .i32⟩ : BufTy).Contents (Elt F) :=
  broadcastInDim S800000x1 ![0] bcast_S800000_S800000x1_0 (val_main_v195 (F := F) x14)
def val_main_v197 : (⟨S800000x128, .f32⟩ : BufTy).Contents (Elt F) :=
  Host.gather gather_S50000x128_S800000x1_S800000x128_1_0_n_n_0_1_1128 (val_main_v168 (F := F) x0 x1 x2 x3 x4 x5 x14) (val_main_v196 (F := F) x14)
def val_main_v198 : (⟨S800000x1, .f32⟩ : BufTy).Contents (Elt F) :=
  broadcastInDim S800000x1 ![0] bcast_S800000_S800000x1_0 (val_main_v190 (F := F) x1 x14)
def val_main_v199 : (⟨S800000x128, .f32⟩ : BufTy).Contents (Elt F) :=
  broadcastInDim S800000x128 ![0, 1] bcast_S800000x1_S800000x128_0_1 (val_main_v198 (F := F) x1 x14)
def val_main_v200 : (⟨S800000x128, .f32⟩ : BufTy).Contents (Elt F) :=
  mulf (val_main_v197 (F := F) x0 x1 x2 x3 x4 x5 x14) (val_main_v199 (F := F) x1 x14)
def val_main_cst_34 : (⟨S_, .f32⟩ : BufTy).Contents (Elt F) :=
  constant S_ .f32 0x00000000#32
def val_main_v201 : (⟨S50000x128, .f32⟩ : BufTy).Contents (Elt F) :=
  broadcastInDim S50000x128 ![] bcast_S_S50000x128 (val_main_cst_34 (F := F))
def val_main_v202 : (⟨S800000x1, .i32⟩ : BufTy).Contents (Elt F) :=
  broadcastInDim S800000x1 ![0] bcast_S800000_S800000x1_0 (val_main_v3 (F := F) x14)
def val_main_v203 : (⟨S50000x128, .f32⟩ : BufTy).Contents (Elt F) :=
  Host.scatterAdd scatter_S50000x128_S800000x1_S800000x128_1_0_0_1 (val_main_v201 (F := F)) (val_main_v202 (F := F) x14) (val_main_v200 (F := F) x0 x1 x2 x3 x4 x5 x14)
def val_main_v204 : (⟨S50000, .f32⟩ : BufTy).Contents (Elt F) :=
  mulf (val_main_v174 (F := F) x1 x14) (val_main_v174 (F := F) x1 x14)
def val_main_v205 : (⟨S50000x1, .f32⟩ : BufTy).Contents (Elt F) :=
  broadcastInDim S50000x1 ![0] bcast_S50000_S50000x1_0 (val_main_v204 (F := F) x1 x14)
def val_main_v206 : (⟨S50000x128, .f32⟩ : BufTy).Contents (Elt F) :=
  broadcastInDim S50000x128 ![0, 1] bcast_S50000x1_S50000x128_0_1 (val_main_v205 (F := F) x1 x14)
def val_main_v207 : (⟨S50000x128, .f32⟩ : BufTy).Contents (Elt F) :=
  mulf (val_main_v168 (F := F) x0 x1 x2 x3 x4 x5 x14) (val_main_v206 (F := F) x1 x14)
def val_main_v208 : (⟨S50000x128, .f32⟩ : BufTy).Contents (Elt F) :=
  addf (val_main_v203 (F := F) x0 x1 x2 x3 x4 x5 x14) (val_main_v207 (F := F) x0 x1 x2 x3 x4 x5 x14)
def val_main_v209 : (⟨S1x128, .f32⟩ : BufTy).Contents (Elt F) :=
  broadcastInDim S1x128 ![1] bcast_S128_S1x128_1 (val_main_v167 (F := F) x3)
def val_main_v210 : (⟨S50000x128, .f32⟩ : BufTy).Contents (Elt F) :=
  broadcastInDim S50000x128 ![0, 1] bcast_S1x128_S50000x128_0_1 (val_main_v209 (F := F) x3)
def val_main_v211 : (⟨S50000x128, .f32⟩ : BufTy).Contents (Elt F) :=
  addf (val_main_v208 (F := F) x0 x1 x2 x3 x4 x5 x14) (val_main_v210 (F := F) x3)
def val_main_call4_cst : (⟨S_, .f32⟩ : BufTy).Contents (Elt F) :=
  constant S_ .f32 0x00000000#32
def val_main_call4_v0 : (⟨S50000x128, .f32⟩ : BufTy).Contents (Elt F) :=
  broadcastInDim S50000x128 ![] bcast_S_S50000x128 (val_main_call4_cst (F := F))
def val_main_v212 : (⟨S50000x128, .f32⟩ : BufTy).Contents (Elt F) :=
  maximumf (val_main_v211 (F := F) x0 x1 x2 x3 x4 x5 x14) (val_main_call4_v0 (F := F))
def val_main_v213 : (⟨S50000x256, .f32⟩ : BufTy).Contents (Elt F) :=
  concatenate S50000x256 1 [⟨S50000x128, (val_main_v163 (F := F) x0 x1 x2 x3 x4 x5 x14)⟩, ⟨S50000x128, (val_main_v212 (F := F) x0 x1 x2 x3 x4 x5 x14)⟩] concatenates_S50000x128_S50000x128_S50000x256_d1
def val_main_v214 : (⟨S1x256x128, .f32⟩ : BufTy).Contents (Elt F) :=
  extractStridedSlice S1x256x128 ![1, 0, 0] (x4) slices_S3x256x128_S1x256x128_1_0_0
def val_main_v215 : (⟨S256x128, .f32⟩ : BufTy).Contents (Elt F) :=
  shapeCast _ (val_main_v214 (F := F) x4) shapeCasts_S1x256x128_S256x128
def val_main_v216 : (⟨S50000x128, .f32⟩ : BufTy).Contents (Elt F) :=
  Host.dotGeneral dot_S50000x256_S256x128_S50000x128_1_0_0_1_n_n none (val_main_v213 (F := F) x0 x1 x2 x3 x4 x5 x14) (val_main_v215 (F := F) x4)
def val_main_v217 : (⟨S1x128, .f32⟩ : BufTy).Contents (Elt F) :=
  extractStridedSlice S1x128 ![1, 0] (x5) slices_S3x128_S1x128_1_0
def val_main_v218 : (⟨S128, .f32⟩ : BufTy).Contents (Elt F) :=
  shapeCast _ (val_main_v217 (F := F) x5) shapeCasts_S1x128_S128
def val_main_v219 : (⟨S1x128, .f32⟩ : BufTy).Contents (Elt F) :=
  broadcastInDim S1x128 ![1] bcast_S128_S1x128_1 (val_main_v218 (F := F) x5)
def val_main_v220 : (⟨S50000x128, .f32⟩ : BufTy).Contents (Elt F) :=
  broadcastInDim S50000x128 ![0, 1] bcast_S1x128_S50000x128_0_1 (val_main_v219 (F := F) x5)
def val_main_v221 : (⟨S50000x128, .f32⟩ : BufTy).Contents (Elt F) :=
  addf (val_main_v216 (F := F) x0 x1 x2 x3 x4 x5 x14) (val_main_v220 (F := F) x5)
def val_main_call5_cst : (⟨S_, .f32⟩ : BufTy).Contents (Elt F) :=
  constant S_ .f32 0x00000000#32
def val_main_call5_v0 : (⟨S50000x128, .f32⟩ : BufTy).Contents (Elt F) :=
  broadcastInDim S50000x128 ![] bcast_S_S50000x128 (val_main_call5_cst (F := F))
def val_main_v222 : (⟨S50000x128, .f32⟩ : BufTy).Contents (Elt F) :=
  maximumf (val_main_v221 (F := F) x0 x1 x2 x3 x4 x5 x14) (val_main_call5_v0 (F := F))
def val_main_cst_35 : (⟨S_, .f32⟩ : BufTy).Contents (Elt F) :=
  constant S_ .f32 0x00000000#32
def val_main_v223 : (⟨S512x128, .f32⟩ : BufTy).Contents (Elt F) :=
  broadcastInDim S512x128 ![] bcast_S_S512x128 (val_main_cst_35 (F := F))
def val_main_v224 : (⟨S50000x1, .i32⟩ : BufTy).Contents (Elt F) :=
  broadcastInDim S50000x1 ![0] bcast_S50000_S50000x1_0 (x15)
def val_main_v225 : (⟨S512x128, .f32⟩ : BufTy).Contents (Elt F) :=
  Host.scatterAdd scatter_S512x128_S50000x1_S50000x128_1_0_0_1 (val_main_v223 (F := F)) (val_main_v224 (F := F) x15) (val_main_v222 (F := F) x0 x1 x2 x3 x4 x5 x14)
def val_main_v226 : (⟨S1x1x128x128, .f32⟩ : BufTy).Contents (Elt F) :=
  extractStridedSlice S1x1x128x128 ![2, 0, 0, 0] (x2) slices_S3x2x128x128_S1x1x128x128_2_0_0_0
def val_main_v227 : (⟨S128x128, .f32⟩ : BufTy).Contents (Elt F) :=
  shapeCast _ (val_main_v226 (F := F) x2) shapeCasts_S1x1x128x128_S128x128
def val_main_v228 : (⟨S1x1x128, .f32⟩ : BufTy).Contents (Elt F) :=
  extractStridedSlice S1x1x128 ![2, 0, 0] (x3) slices_S3x2x128_S1x1x128_2_0_0
def val_main_v229 : (⟨S128, .f32⟩ : BufTy).Contents (Elt F) :=
  shapeCast _ (val_main_v228 (F := F) x3) shapeCasts_S1x1x128_S128
def val_main_v230 : (⟨S50000x128, .f32⟩ : BufTy).Contents (Elt F) :=
  Host.dotGeneral dot_S50000x128_S128x128_S50000x128_1_0_0_1_n_n none (val_main_v222 (F := F) x0 x1 x2 x3 x4 x5 x14) (val_main_v227 (F := F) x2)
def val_main_cst_36 : (⟨S_, .f32⟩ : BufTy).Contents (Elt F) :=
  constant S_ .f32 0x00000000#32
def val_main_v231 : (⟨S50000, .f32⟩ : BufTy).Contents (Elt F) :=
  broadcastInDim S50000 ![] bcast_S_S50000 (val_main_cst_36 (F := F))
def val_main_v232 : (⟨S800000x1, .i32⟩ : BufTy).Contents (Elt F) :=
  broadcastInDim S800000x1 ![0] bcast_S800000_S800000x1_0 (val_main_v3 (F := F) x14)
def val_main_v233 : (⟨S50000, .f32⟩ : BufTy).Contents (Elt F) :=
  Host.scatterAdd scatter_S50000_S800000x1_S800000_n_0_0_1 (val_main_v231 (F := F)) (val_main_v232 (F := F) x14) (x1)
def val_main_cst_37 : (⟨S_, .f32⟩ : BufTy).Contents (Elt F) :=
  constant S_ .f32 0x3F800000#32
def val_main_v234 : (⟨S50000, .f32⟩ : BufTy).Contents (Elt F) :=
  broadcastInDim S50000 ![] bcast_S_S50000 (val_main_cst_37 (F := F))
def val_main_v235 : (⟨S50000, .f32⟩ : BufTy).Contents (Elt F) :=
  addf (val_main_v233 (F := F) x1 x14) (val_main_v234 (F := F))
def val_main_v236 : (⟨S50000, .f32⟩ : BufTy).Contents (Elt F) :=
  Host.rsqrt (val_main_v235 (F := F) x1 x14)
def val_main_c_38 : (⟨S_, .i32⟩ : BufTy).Contents (Elt F) :=
  constantI S_ 32 0#32
def val_main_v237 : (⟨S800000, .i32⟩ : BufTy).Contents (Elt F) :=
  broadcastInDim S800000 ![] bcast_S_S800000 (val_main_c_38 (F := F))
def val_main_v238 : (⟨S800000, .i1⟩ : BufTy).Contents (Elt F) :=
  cmpi .slt (val_main_v1 (F := F) x14) (val_main_v237 (F := F))
def val_main_c_39 : (⟨S_, .i32⟩ : BufTy).Contents (Elt F) :=
  constantI S_ 32 50000#32
def val_main_v239 : (⟨S800000, .i32⟩ : BufTy).Contents (Elt F) :=
  broadcastInDim S800000 ![] bcast_S_S800000 (val_main_c_39 (F := F))
def val_main_v240 : (⟨S800000, .i32⟩ : BufTy).Contents (Elt F) :=
  addi (val_main_v1 (F := F) x14) (val_main_v239 (F := F))
def val_main_v241 : (⟨S800000, .i32⟩ : BufTy).Contents (Elt F) :=
  select (val_main_v238 (F := F) x14) (val_main_v240 (F := F) x14) (val_main_v1 (F := F) x14)
def val_main_v242 : (⟨S800000x1, .i32⟩ : BufTy).Contents (Elt F) :=
  broadcastInDim S800000x1 ![0] bcast_S800000_S800000x1_0 (val_main_v241 (F := F) x14)
def val_main_v243 : (⟨S800000, .f32⟩ : BufTy).Contents (Elt F) :=
  Host.gather gather_S50000_S800000x1_S800000_n_0_n_n_0_1_1 (val_main_v236 (F := F) x1 x14) (val_main_v242 (F := F) x14)
def val_main_v244 : (⟨S800000, .f32⟩ : BufTy).Contents (Elt F) :=
  mulf (val_main_v243 (F := F) x1 x14) (x1)
def val_main_c_40 : (⟨S_, .i32⟩ : BufTy).Contents (Elt F) :=
  constantI S_ 32 0#32
def val_main_v245 : (⟨S800000, .i32⟩ : BufTy).Contents (Elt F) :=
  broadcastInDim S800000 ![] bcast_S_S800000 (val_main_c_40 (F := F))
def val_main_v246 : (⟨S800000, .i1⟩ : BufTy).Contents (Elt F) :=
  cmpi .slt (val_main_v3 (F := F) x14) (val_main_v245 (F := F))
def val_main_c_41 : (⟨S_, .i32⟩ : BufTy).Contents (Elt F) :=
  constantI S_ 32 50000#32
def val_main_v247 : (⟨S800000, .i32⟩ : BufTy).Contents (Elt F) :=
  broadcastInDim S800000 ![] bcast_S_S800000 (val_main_c_41 (F := F))
def val_main_v248 : (⟨S800000, .i32⟩ : BufTy).Contents (Elt F) :=
  addi (val_main_v3 (F := F) x14) (val_main_v247 (F := F))
def val_main_v249 : (⟨S800000, .i32⟩ : BufTy).Contents (Elt F) :=
  select (val_main_v246 (F := F) x14) (val_main_v248 (F := F) x14) (val_main_v3 (F := F) x14)
def val_main_v250 : (⟨S800000x1, .i32⟩ : BufTy).Contents (Elt F) :=
  broadcastInDim S800000x1 ![0] bcast_S800000_S800000x1_0 (val_main_v249 (F := F) x14)
def val_main_v251 : (⟨S800000, .f32⟩ : BufTy).Contents (Elt F) :=
  Host.gather gather_S50000_S800000x1_S800000_n_0_n_n_0_1_1 (val_main_v236 (F := F) x1 x14) (val_main_v250 (F := F) x14)
def val_main_v252 : (⟨S800000, .f32⟩ : BufTy).Contents (Elt F) :=
  mulf (val_main_v244 (F := F) x1 x14) (val_main_v251 (F := F) x1 x14)
def val_main_c_42 : (⟨S_, .i32⟩ : BufTy).Contents (Elt F) :=
  constantI S_ 32 0#32
def val_main_v253 : (⟨S800000, .i32⟩ : BufTy).Contents (Elt F) :=
  broadcastInDim S800000 ![] bcast_S_S800000 (val_main_c_42 (F := F))
def val_main_v254 : (⟨S800000, .i1⟩ : BufTy).Contents (Elt F) :=
  cmpi .slt (val_main_v1 (F := F) x14) (val_main_v253 (F := F))
def val_main_c_43 : (⟨S_, .i32⟩ : BufTy).Contents (Elt F) :=
  constantI S_ 32 50000#32
def val_main_v255 : (⟨S800000, .i32⟩ : BufTy).Contents (Elt F) :=
  broadcastInDim S800000 ![] bcast_S_S800000 (val_main_c_43 (F := F))
def val_main_v256 : (⟨S800000, .i32⟩ : BufTy).Contents (Elt F) :=
  addi (val_main_v1 (F := F) x14) (val_main_v255 (F := F))
def val_main_v257 : (⟨S800000, .i32⟩ : BufTy).Contents (Elt F) :=
  select (val_main_v254 (F := F) x14) (val_main_v256 (F := F) x14) (val_main_v1 (F := F) x14)
def val_main_v258 : (⟨S800000x1, .i32⟩ : BufTy).Contents (Elt F) :=
  broadcastInDim S800000x1 ![0] bcast_S800000_S800000x1_0 (val_main_v257 (F := F) x14)
def val_main_v259 : (⟨S800000x128, .f32⟩ : BufTy).Contents (Elt F) :=
  Host.gather gather_S50000x128_S800000x1_S800000x128_1_0_n_n_0_1_1128 (val_main_v230 (F := F) x0 x1 x2 x3 x4 x5 x14) (val_main_v258 (F := F) x14)
def val_main_v260 : (⟨S800000x1, .f32⟩ : BufTy).Contents (Elt F) :=
  broadcastInDim S800000x1 ![0] bcast_S800000_S800000x1_0 (val_main_v252 (F := F) x1 x14)
def val_main_v261 : (⟨S800000x128, .f32⟩ : BufTy).Contents (Elt F) :=
  broadcastInDim S800000x128 ![0, 1] bcast_S800000x1_S800000x128_0_1 (val_main_v260 (F := F) x1 x14)
def val_main_v262 : (⟨S800000x128, .f32⟩ : BufTy).Contents (Elt F) :=
  mulf (val_main_v259 (F := F) x0 x1 x2 x3 x4 x5 x14) (val_main_v261 (F := F) x1 x14)
def val_main_cst_44 : (⟨S_, .f32⟩ : BufTy).Contents (Elt F) :=
  constant S_ .f32 0x00000000#32
def val_main_v263 : (⟨S50000x128, .f32⟩ : BufTy).Contents (Elt F) :=
  broadcastInDim S50000x128 ![] bcast_S_S50000x128 (val_main_cst_44 (F := F))
def val_main_v264 : (⟨S800000x1, .i32⟩ : BufTy).Contents (Elt F) :=
  broadcastInDim S800000x1 ![0] bcast_S800000_S800000x1_0 (val_main_v3 (F := F) x14)
def val_main_v265 : (⟨S50000x128, .f32⟩ : BufTy).Contents (Elt F) :=
  Host.scatterAdd scatter_S50000x128_S800000x1_S800000x128_1_0_0_1 (val_main_v263 (F := F)) (val_main_v264 (F := F) x14) (val_main_v262 (F := F) x0 x1 x2 x3 x4 x5 x14)
def val_main_v266 : (⟨S50000, .f32⟩ : BufTy).Contents (Elt F) :=
  mulf (val_main_v236 (F := F) x1 x14) (val_main_v236 (F := F) x1 x14)
def val_main_v267 : (⟨S50000x1, .f32⟩ : BufTy).Contents (Elt F) :=
  broadcastInDim S50000x1 ![0] bcast_S50000_S50000x1_0 (val_main_v266 (F := F) x1 x14)
def val_main_v268 : (⟨S50000x128, .f32⟩ : BufTy).Contents (Elt F) :=
  broadcastInDim S50000x128 ![0, 1] bcast_S50000x1_S50000x128_0_1 (val_main_v267 (F := F) x1 x14)
def val_main_v269 : (⟨S50000x128, .f32⟩ : BufTy).Contents (Elt F) :=
  mulf (val_main_v230 (F := F) x0 x1 x2 x3 x4 x5 x14) (val_main_v268 (F := F) x1 x14)
def val_main_v270 : (⟨S50000x128, .f32⟩ : BufTy).Contents (Elt F) :=
  addf (val_main_v265 (F := F) x0 x1 x2 x3 x4 x5 x14) (val_main_v269 (F := F) x0 x1 x2 x3 x4 x5 x14)
def val_main_v271 : (⟨S1x128, .f32⟩ : BufTy).Contents (Elt F) :=
  broadcastInDim S1x128 ![1] bcast_S128_S1x128_1 (val_main_v229 (F := F) x3)
def val_main_v272 : (⟨S50000x128, .f32⟩ : BufTy).Contents (Elt F) :=
  broadcastInDim S50000x128 ![0, 1] bcast_S1x128_S50000x128_0_1 (val_main_v271 (F := F) x3)
def val_main_v273 : (⟨S50000x128, .f32⟩ : BufTy).Contents (Elt F) :=
  addf (val_main_v270 (F := F) x0 x1 x2 x3 x4 x5 x14) (val_main_v272 (F := F) x3)
def val_main_call6_cst : (⟨S_, .f32⟩ : BufTy).Contents (Elt F) :=
  constant S_ .f32 0x00000000#32
def val_main_call6_v0 : (⟨S50000x128, .f32⟩ : BufTy).Contents (Elt F) :=
  broadcastInDim S50000x128 ![] bcast_S_S50000x128 (val_main_call6_cst (F := F))
def val_main_v274 : (⟨S50000x128, .f32⟩ : BufTy).Contents (Elt F) :=
  maximumf (val_main_v273 (F := F) x0 x1 x2 x3 x4 x5 x14) (val_main_call6_v0 (F := F))
def val_main_v275 : (⟨S1x1x128x128, .f32⟩ : BufTy).Contents (Elt F) :=
  extractStridedSlice S1x1x128x128 ![2, 1, 0, 0] (x2) slices_S3x2x128x128_S1x1x128x128_2_1_0_0
def val_main_v276 : (⟨S128x128, .f32⟩ : BufTy).Contents (Elt F) :=
  shapeCast _ (val_main_v275 (F := F) x2) shapeCasts_S1x1x128x128_S128x128
def val_main_v277 : (⟨S1x1x128, .f32⟩ : BufTy).Contents (Elt F) :=
  extractStridedSlice S1x1x128 ![2, 1, 0] (x3) slices_S3x2x128_S1x1x128_2_1_0
def val_main_v278 : (⟨S128, .f32⟩ : BufTy).Contents (Elt F) :=
  shapeCast _ (val_main_v277 (F := F) x3) shapeCasts_S1x1x128_S128
def val_main_v279 : (⟨S50000x128, .f32⟩ : BufTy).Contents (Elt F) :=
  Host.dotGeneral dot_S50000x128_S128x128_S50000x128_1_0_0_1_n_n none (val_main_v274 (F := F) x0 x1 x2 x3 x4 x5 x14) (val_main_v276 (F := F) x2)
def val_main_cst_45 : (⟨S_, .f32⟩ : BufTy).Contents (Elt F) :=
  constant S_ .f32 0x00000000#32
def val_main_v280 : (⟨S50000, .f32⟩ : BufTy).Contents (Elt F) :=
  broadcastInDim S50000 ![] bcast_S_S50000 (val_main_cst_45 (F := F))
def val_main_v281 : (⟨S800000x1, .i32⟩ : BufTy).Contents (Elt F) :=
  broadcastInDim S800000x1 ![0] bcast_S800000_S800000x1_0 (val_main_v3 (F := F) x14)
def val_main_v282 : (⟨S50000, .f32⟩ : BufTy).Contents (Elt F) :=
  Host.scatterAdd scatter_S50000_S800000x1_S800000_n_0_0_1 (val_main_v280 (F := F)) (val_main_v281 (F := F) x14) (x1)
def val_main_cst_46 : (⟨S_, .f32⟩ : BufTy).Contents (Elt F) :=
  constant S_ .f32 0x3F800000#32
def val_main_v283 : (⟨S50000, .f32⟩ : BufTy).Contents (Elt F) :=
  broadcastInDim S50000 ![] bcast_S_S50000 (val_main_cst_46 (F := F))
def val_main_v284 : (⟨S50000, .f32⟩ : BufTy).Contents (Elt F) :=
  addf (val_main_v282 (F := F) x1 x14) (val_main_v283 (F := F))
def val_main_v285 : (⟨S50000, .f32⟩ : BufTy).Contents (Elt F) :=
  Host.rsqrt (val_main_v284 (F := F) x1 x14)
def val_main_c_47 : (⟨S_, .i32⟩ : BufTy).Contents (Elt F) :=
  constantI S_ 32 0#32
def val_main_v286 : (⟨S800000, .i32⟩ : BufTy).Contents (Elt F) :=
  broadcastInDim S800000 ![] bcast_S_S800000 (val_main_c_47 (F := F))
def val_main_v287 : (⟨S800000, .i1⟩ : BufTy).Contents (Elt F) :=
  cmpi .slt (val_main_v1 (F := F) x14) (val_main_v286 (F := F))
def val_main_c_48 : (⟨S_, .i32⟩ : BufTy).Contents (Elt F) :=
  constantI S_ 32 50000#32
def val_main_v288 : (⟨S800000, .i32⟩ : BufTy).Contents (Elt F) :=
  broadcastInDim S800000 ![] bcast_S_S800000 (val_main_c_48 (F := F))
def val_main_v289 : (⟨S800000, .i32⟩ : BufTy).Contents (Elt F) :=
  addi (val_main_v1 (F := F) x14) (val_main_v288 (F := F))
def val_main_v290 : (⟨S800000, .i32⟩ : BufTy).Contents (Elt F) :=
  select (val_main_v287 (F := F) x14) (val_main_v289 (F := F) x14) (val_main_v1 (F := F) x14)
def val_main_v291 : (⟨S800000x1, .i32⟩ : BufTy).Contents (Elt F) :=
  broadcastInDim S800000x1 ![0] bcast_S800000_S800000x1_0 (val_main_v290 (F := F) x14)
def val_main_v292 : (⟨S800000, .f32⟩ : BufTy).Contents (Elt F) :=
  Host.gather gather_S50000_S800000x1_S800000_n_0_n_n_0_1_1 (val_main_v285 (F := F) x1 x14) (val_main_v291 (F := F) x14)
def val_main_v293 : (⟨S800000, .f32⟩ : BufTy).Contents (Elt F) :=
  mulf (val_main_v292 (F := F) x1 x14) (x1)
def val_main_c_49 : (⟨S_, .i32⟩ : BufTy).Contents (Elt F) :=
  constantI S_ 32 0#32
def val_main_v294 : (⟨S800000, .i32⟩ : BufTy).Contents (Elt F) :=
  broadcastInDim S800000 ![] bcast_S_S800000 (val_main_c_49 (F := F))
def val_main_v295 : (⟨S800000, .i1⟩ : BufTy).Contents (Elt F) :=
  cmpi .slt (val_main_v3 (F := F) x14) (val_main_v294 (F := F))
def val_main_c_50 : (⟨S_, .i32⟩ : BufTy).Contents (Elt F) :=
  constantI S_ 32 50000#32
def val_main_v296 : (⟨S800000, .i32⟩ : BufTy).Contents (Elt F) :=
  broadcastInDim S800000 ![] bcast_S_S800000 (val_main_c_50 (F := F))
def val_main_v297 : (⟨S800000, .i32⟩ : BufTy).Contents (Elt F) :=
  addi (val_main_v3 (F := F) x14) (val_main_v296 (F := F))
def val_main_v298 : (⟨S800000, .i32⟩ : BufTy).Contents (Elt F) :=
  select (val_main_v295 (F := F) x14) (val_main_v297 (F := F) x14) (val_main_v3 (F := F) x14)
def val_main_v299 : (⟨S800000x1, .i32⟩ : BufTy).Contents (Elt F) :=
  broadcastInDim S800000x1 ![0] bcast_S800000_S800000x1_0 (val_main_v298 (F := F) x14)
def val_main_v300 : (⟨S800000, .f32⟩ : BufTy).Contents (Elt F) :=
  Host.gather gather_S50000_S800000x1_S800000_n_0_n_n_0_1_1 (val_main_v285 (F := F) x1 x14) (val_main_v299 (F := F) x14)
def val_main_v301 : (⟨S800000, .f32⟩ : BufTy).Contents (Elt F) :=
  mulf (val_main_v293 (F := F) x1 x14) (val_main_v300 (F := F) x1 x14)
def val_main_c_51 : (⟨S_, .i32⟩ : BufTy).Contents (Elt F) :=
  constantI S_ 32 0#32
def val_main_v302 : (⟨S800000, .i32⟩ : BufTy).Contents (Elt F) :=
  broadcastInDim S800000 ![] bcast_S_S800000 (val_main_c_51 (F := F))
def val_main_v303 : (⟨S800000, .i1⟩ : BufTy).Contents (Elt F) :=
  cmpi .slt (val_main_v1 (F := F) x14) (val_main_v302 (F := F))
def val_main_c_52 : (⟨S_, .i32⟩ : BufTy).Contents (Elt F) :=
  constantI S_ 32 50000#32
def val_main_v304 : (⟨S800000, .i32⟩ : BufTy).Contents (Elt F) :=
  broadcastInDim S800000 ![] bcast_S_S800000 (val_main_c_52 (F := F))
def val_main_v305 : (⟨S800000, .i32⟩ : BufTy).Contents (Elt F) :=
  addi (val_main_v1 (F := F) x14) (val_main_v304 (F := F))
def val_main_v306 : (⟨S800000, .i32⟩ : BufTy).Contents (Elt F) :=
  select (val_main_v303 (F := F) x14) (val_main_v305 (F := F) x14) (val_main_v1 (F := F) x14)
def val_main_v307 : (⟨S800000x1, .i32⟩ : BufTy).Contents (Elt F) :=
  broadcastInDim S800000x1 ![0] bcast_S800000_S800000x1_0 (val_main_v306 (F := F) x14)
def val_main_v308 : (⟨S800000x128, .f32⟩ : BufTy).Contents (Elt F) :=
  Host.gather gather_S50000x128_S800000x1_S800000x128_1_0_n_n_0_1_1128 (val_main_v279 (F := F) x0 x1 x2 x3 x4 x5 x14) (val_main_v307 (F := F) x14)
def val_main_v309 : (⟨S800000x1, .f32⟩ : BufTy).Contents (Elt F) :=
  broadcastInDim S800000x1 ![0] bcast_S800000_S800000x1_0 (val_main_v301 (F := F) x1 x14)
def val_main_v310 : (⟨S800000x128, .f32⟩ : BufTy).Contents (Elt F) :=
  broadcastInDim S800000x128 ![0, 1] bcast_S800000x1_S800000x128_0_1 (val_main_v309 (F := F) x1 x14)
def val_main_v311 : (⟨S800000x128, .f32⟩ : BufTy).Contents (Elt F) :=
  mulf (val_main_v308 (F := F) x0 x1 x2 x3 x4 x5 x14) (val_main_v310 (F := F) x1 x14)
def val_main_cst_53 : (⟨S_, .f32⟩ : BufTy).Contents (Elt F) :=
  constant S_ .f32 0x00000000#32
def val_main_v312 : (⟨S50000x128, .f32⟩ : BufTy).Contents (Elt F) :=
  broadcastInDim S50000x128 ![] bcast_S_S50000x128 (val_main_cst_53 (F := F))
def val_main_v313 : (⟨S800000x1, .i32⟩ : BufTy).Contents (Elt F) :=
  broadcastInDim S800000x1 ![0] bcast_S800000_S800000x1_0 (val_main_v3 (F := F) x14)
def val_main_v314 : (⟨S50000x128, .f32⟩ : BufTy).Contents (Elt F) :=
  Host.scatterAdd scatter_S50000x128_S800000x1_S800000x128_1_0_0_1 (val_main_v312 (F := F)) (val_main_v313 (F := F) x14) (val_main_v311 (F := F) x0 x1 x2 x3 x4 x5 x14)
def val_main_v315 : (⟨S50000, .f32⟩ : BufTy).Contents (Elt F) :=
  mulf (val_main_v285 (F := F) x1 x14) (val_main_v285 (F := F) x1 x14)
def val_main_v316 : (⟨S50000x1, .f32⟩ : BufTy).Contents (Elt F) :=
  broadcastInDim S50000x1 ![0] bcast_S50000_S50000x1_0 (val_main_v315 (F := F) x1 x14)
def val_main_v317 : (⟨S50000x128, .f32⟩ : BufTy).Contents (Elt F) :=
  broadcastInDim S50000x128 ![0, 1] bcast_S50000x1_S50000x128_0_1 (val_main_v316 (F := F) x1 x14)
def val_main_v318 : (⟨S50000x128, .f32⟩ : BufTy).Contents (Elt F) :=
  mulf (val_main_v279 (F := F) x0 x1 x2 x3 x4 x5 x14) (val_main_v317 (F := F) x1 x14)
def val_main_v319 : (⟨S50000x128, .f32⟩ : BufTy).Contents (Elt F) :=
  addf (val_main_v314 (F := F) x0 x1 x2 x3 x4 x5 x14) (val_main_v318 (F := F) x0 x1 x2 x3 x4 x5 x14)
def val_main_v320 : (⟨S1x128, .f32⟩ : BufTy).Contents (Elt F) :=
  broadcastInDim S1x128 ![1] bcast_S128_S1x128_1 (val_main_v278 (F := F) x3)
def val_main_v321 : (⟨S50000x128, .f32⟩ : BufTy).Contents (Elt F) :=
  broadcastInDim S50000x128 ![0, 1] bcast_S1x128_S50000x128_0_1 (val_main_v320 (F := F) x3)
def val_main_v322 : (⟨S50000x128, .f32⟩ : BufTy).Contents (Elt F) :=
  addf (val_main_v319 (F := F) x0 x1 x2 x3 x4 x5 x14) (val_main_v321 (F := F) x3)
def val_main_call7_cst : (⟨S_, .f32⟩ : BufTy).Contents (Elt F) :=
  constant S_ .f32 0x00000000#32
def val_main_call7_v0 : (⟨S50000x128, .f32⟩ : BufTy).Contents (Elt F) :=
  broadcastInDim S50000x128 ![] bcast_S_S50000x128 (val_main_call7_cst (F := F))
def val_main_v323 : (⟨S50000x128, .f32⟩ : BufTy).Contents (Elt F) :=
  maximumf (val_main_v322 (F := F) x0 x1 x2 x3 x4 x5 x14) (val_main_call7_v0 (F := F))
def val_main_v324 : (⟨S50000x256, .f32⟩ : BufTy).Contents (Elt F) :=
  concatenate S50000x256 1 [⟨S50000x128, (val_main_v274 (F := F) x0 x1 x2 x3 x4 x5 x14)⟩, ⟨S50000x128, (val_main_v323 (F := F) x0 x1 x2 x3 x4 x5 x14)⟩] concatenates_S50000x128_S50000x128_S50000x256_d1
def val_main_v325 : (⟨S1x256x128, .f32⟩ : BufTy).Contents (Elt F) :=
  extractStridedSlice S1x256x128 ![2, 0, 0] (x4) slices_S3x256x128_S1x256x128_2_0_0
def val_main_v326 : (⟨S256x128, .f32⟩ : BufTy).Contents (Elt F) :=
  shapeCast _ (val_main_v325 (F := F) x4) shapeCasts_S1x256x128_S256x128
def val_main_v327 : (⟨S50000x128, .f32⟩ : BufTy).Contents (Elt F) :=
  Host.dotGeneral dot_S50000x256_S256x128_S50000x128_1_0_0_1_n_n none (val_main_v324 (F := F) x0 x1 x2 x3 x4 x5 x14) (val_main_v326 (F := F) x4)
def val_main_v328 : (⟨S1x128, .f32⟩ : BufTy).Contents (Elt F) :=
  extractStridedSlice S1x128 ![2, 0] (x5) slices_S3x128_S1x128_2_0
def val_main_v329 : (⟨S128, .f32⟩ : BufTy).Contents (Elt F) :=
  shapeCast _ (val_main_v328 (F := F) x5) shapeCasts_S1x128_S128
def val_main_v330 : (⟨S1x128, .f32⟩ : BufTy).Contents (Elt F) :=
  broadcastInDim S1x128 ![1] bcast_S128_S1x128_1 (val_main_v329 (F := F) x5)
def val_main_v331 : (⟨S50000x128, .f32⟩ : BufTy).Contents (Elt F) :=
  broadcastInDim S50000x128 ![0, 1] bcast_S1x128_S50000x128_0_1 (val_main_v330 (F := F) x5)
def val_main_v332 : (⟨S50000x128, .f32⟩ : BufTy).Contents (Elt F) :=
  addf (val_main_v327 (F := F) x0 x1 x2 x3 x4 x5 x14) (val_main_v331 (F := F) x5)
def val_main_call8_cst : (⟨S_, .f32⟩ : BufTy).Contents (Elt F) :=
  constant S_ .f32 0x00000000#32
def val_main_call8_v0 : (⟨S50000x128, .f32⟩ : BufTy).Contents (Elt F) :=
  broadcastInDim S50000x128 ![] bcast_S_S50000x128 (val_main_call8_cst (F := F))
def val_main_v333 : (⟨S50000x128, .f32⟩ : BufTy).Contents (Elt F) :=
  maximumf (val_main_v332 (F := F) x0 x1 x2 x3 x4 x5 x14) (val_main_call8_v0 (F := F))
def val_main_cst_54 : (⟨S_, .f32⟩ : BufTy).Contents (Elt F) :=
  constant S_ .f32 0x00000000#32
def val_main_v334 : (⟨S512x128, .f32⟩ : BufTy).Contents (Elt F) :=
  broadcastInDim S512x128 ![] bcast_S_S512x128 (val_main_cst_54 (F := F))
def val_main_v335 : (⟨S50000x1, .i32⟩ : BufTy).Contents (Elt F) :=
  broadcastInDim S50000x1 ![0] bcast_S50000_S50000x1_0 (x15)
def val_main_v336 : (⟨S512x128, .f32⟩ : BufTy).Contents (Elt F) :=
  Host.scatterAdd scatter_S512x128_S50000x1_S50000x128_1_0_0_1 (val_main_v334 (F := F)) (val_main_v335 (F := F) x15) (val_main_v333 (F := F) x0 x1 x2 x3 x4 x5 x14)
def val_main_v337 : (⟨S512x384, .f32⟩ : BufTy).Contents (Elt F) :=
  concatenate S512x384 1 [⟨S512x128, (val_main_v114 (F := F) x0 x1 x2 x3 x4 x5 x14 x15)⟩, ⟨S512x128, (val_main_v225 (F := F) x0 x1 x2 x3 x4 x5 x14 x15)⟩, ⟨S512x128, (val_main_v336 (F := F) x0 x1 x2 x3 x4 x5 x14 x15)⟩] concatenates_S512x128_S512x128_S512x128_S512x384_d1
def val_main_v338 : (⟨S1x384, .f32⟩ : BufTy).Contents (Elt F) :=
  broadcastInDim S1x384 ![1] bcast_S384_S1x384_1 (x8)
abbrev idx_main_v338 (i : S1x384.Idx) : S384.Idx := fun a => match a with
  | ⟨0, _⟩ => ⟨(i 1).val, (i 1).isLt⟩
theorem val_main_v338_apply (i : S1x384.Idx) :
    val_main_v338 (F := F) x8 i = x8 (idx_main_v338 i) := by
  unfold val_main_v338
  exact broadcastInDim_apply _ bcast_S384_S1x384_1 x8 i (idx_main_v338 i) (fun a => match a with
    | ⟨0, _⟩ => by show (i 1).val = if (384 : Nat) = 1 then 0 else (i 1).val; rw [if_neg (by decide)])
def val_main_v339 : (⟨S512x384, .f32⟩ : BufTy).Contents (Elt F) :=
  broadcastInDim S512x384 ![0, 1] bcast_S1x384_S512x384_0_1 (val_main_v338 (F := F) x8)
abbrev idx_main_v339 (i : S512x384.Idx) : S1x384.Idx := fun a => match a with
  | ⟨0, _⟩ => ⟨0, Nat.one_pos⟩
  | ⟨1, _⟩ => ⟨(i 1).val, (i 1).isLt⟩
theorem val_main_v339_apply (i : S512x384.Idx) :
    val_main_v339 (F := F) x8 i = val_main_v338 (F := F) x8 (idx_main_v339 i) := by
  unfold val_main_v339
  generalize val_main_v338 (F := F) x8 = y
  exact broadcastInDim_apply _ bcast_S1x384_S512x384_0_1 y i (idx_main_v339 i) (fun a => match a with
    | ⟨0, _⟩ => by show 0 = if (1 : Nat) = 1 then 0 else (i 0).val; rw [if_pos rfl]
    | ⟨1, _⟩ => by show (i 1).val = if (384 : Nat) = 1 then 0 else (i 1).val; rw [if_neg (by decide)])
def val_main_v340 : (⟨S512x384, .f32⟩ : BufTy).Contents (Elt F) :=
  subf (val_main_v337 (F := F) x0 x1 x2 x3 x4 x5 x14 x15) (val_main_v339 (F := F) x8)
theorem val_main_v340_apply (i : S512x384.Idx) :
    val_main_v340 (F := F) x0 x1 x2 x3 x4 x5 x8 x14 x15 i = FloatOps.subf (val_main_v337 (F := F) x0 x1 x2 x3 x4 x5 x14 x15 i) (val_main_v339 (F := F) x8 i) := rfl
def val_main_cst_55 : (⟨S_, .f32⟩ : BufTy).Contents (Elt F) :=
  constant S_ .f32 0x3727C5AC#32
theorem val_main_cst_55_apply (i : S_.Idx) :
    val_main_cst_55 (F := F) i = FloatOps.ofBits .f32 0x3727C5AC#32 := rfl
def val_main_v341 : (⟨S384, .f32⟩ : BufTy).Contents (Elt F) :=
  broadcastInDim S384 ![] bcast_S_S384 (val_main_cst_55 (F := F))
abbrev idx_main_v341 (i : S384.Idx) : S_.Idx := fun a => a.elim0
theorem val_main_v341_apply (i : S384.Idx) :
    val_main_v341 (F := F) i = val_main_cst_55 (F := F) (idx_main_v341 i) := by
  unfold val_main_v341
  generalize val_main_cst_55 (F := F) = y
  exact broadcastInDim_apply _ bcast_S_S384 y i (idx_main_v341 i) (fun a => a.elim0)
def val_main_v342 : (⟨S384, .f32⟩ : BufTy).Contents (Elt F) :=
  addf (x9) (val_main_v341 (F := F))
theorem val_main_v342_apply (i : S384.Idx) :
    val_main_v342 (F := F) x9 i = FloatOps.addf (x9 i) (val_main_v341 (F := F) i) := rfl
def val_main_v343 : (⟨S384, .f32⟩ : BufTy).Contents (Elt F) :=
  Host.rsqrt (val_main_v342 (F := F) x9)
theorem val_main_v343_apply (i : S384.Idx) :
    val_main_v343 (F := F) x9 i = FloatOps.hostUnary .rsqrt (val_main_v342 (F := F) x9 i) := rfl
def val_main_v344 : (⟨S1x384, .f32⟩ : BufTy).Contents (Elt F) :=
  broadcastInDim S1x384 ![1] bcast_S384_S1x384_1 (val_main_v343 (F := F) x9)
abbrev idx_main_v344 (i : S1x384.Idx) : S384.Idx := fun a => match a with
  | ⟨0, _⟩ => ⟨(i 1).val, (i 1).isLt⟩
theorem val_main_v344_apply (i : S1x384.Idx) :
    val_main_v344 (F := F) x9 i = val_main_v343 (F := F) x9 (idx_main_v344 i) := by
  unfold val_main_v344
  generalize val_main_v343 (F := F) x9 = y
  exact broadcastInDim_apply _ bcast_S384_S1x384_1 y i (idx_main_v344 i) (fun a => match a with
    | ⟨0, _⟩ => by show (i 1).val = if (384 : Nat) = 1 then 0 else (i 1).val; rw [if_neg (by decide)])
def val_main_v345 : (⟨S512x384, .f32⟩ : BufTy).Contents (Elt F) :=
  broadcastInDim S512x384 ![0, 1] bcast_S1x384_S512x384_0_1 (val_main_v344 (F := F) x9)
abbrev idx_main_v345 (i : S512x384.Idx) : S1x384.Idx := fun a => match a with
  | ⟨0, _⟩ => ⟨0, Nat.one_pos⟩
  | ⟨1, _⟩ => ⟨(i 1).val, (i 1).isLt⟩
theorem val_main_v345_apply (i : S512x384.Idx) :
    val_main_v345 (F := F) x9 i = val_main_v344 (F := F) x9 (idx_main_v345 i) := by
  unfold val_main_v345
  generalize val_main_v344 (F := F) x9 = y
  exact broadcastInDim_apply _ bcast_S1x384_S512x384_0_1 y i (idx_main_v345 i) (fun a => match a with
    | ⟨0, _⟩ => by show 0 = if (1 : Nat) = 1 then 0 else (i 0).val; rw [if_pos rfl]
    | ⟨1, _⟩ => by show (i 1).val = if (384 : Nat) = 1 then 0 else (i 1).val; rw [if_neg (by decide)])
def val_main_v346 : (⟨S512x384, .f32⟩ : BufTy).Contents (Elt F) :=
  mulf (val_main_v340 (F := F) x0 x1 x2 x3 x4 x5 x8 x14 x15) (val_main_v345 (F := F) x9)
theorem val_main_v346_apply (i : S512x384.Idx) :
    val_main_v346 (F := F) x0 x1 x2 x3 x4 x5 x8 x9 x14 x15 i = FloatOps.mulf (val_main_v340 (F := F) x0 x1 x2 x3 x4 x5 x8 x14 x15 i) (val_main_v345 (F := F) x9 i) := rfl
def val_main_v347 : (⟨S1x384, .f32⟩ : BufTy).Contents (Elt F) :=
  broadcastInDim S1x384 ![1] bcast_S384_S1x384_1 (x6)
abbrev idx_main_v347 (i : S1x384.Idx) : S384.Idx := fun a => match a with
  | ⟨0, _⟩ => ⟨(i 1).val, (i 1).isLt⟩
theorem val_main_v347_apply (i : S1x384.Idx) :
    val_main_v347 (F := F) x6 i = x6 (idx_main_v347 i) := by
  unfold val_main_v347
  exact broadcastInDim_apply _ bcast_S384_S1x384_1 x6 i (idx_main_v347 i) (fun a => match a with
    | ⟨0, _⟩ => by show (i 1).val = if (384 : Nat) = 1 then 0 else (i 1).val; rw [if_neg (by decide)])
def val_main_v348 : (⟨S512x384, .f32⟩ : BufTy).Contents (Elt F) :=
  broadcastInDim S512x384 ![0, 1] bcast_S1x384_S512x384_0_1 (val_main_v347 (F := F) x6)
abbrev idx_main_v348 (i : S512x384.Idx) : S1x384.Idx := fun a => match a with
  | ⟨0, _⟩ => ⟨0, Nat.one_pos⟩
  | ⟨1, _⟩ => ⟨(i 1).val, (i 1).isLt⟩
theorem val_main_v348_apply (i : S512x384.Idx) :
    val_main_v348 (F := F) x6 i = val_main_v347 (F := F) x6 (idx_main_v348 i) := by
  unfold val_main_v348
  generalize val_main_v347 (F := F) x6 = y
  exact broadcastInDim_apply _ bcast_S1x384_S512x384_0_1 y i (idx_main_v348 i) (fun a => match a with
    | ⟨0, _⟩ => by show 0 = if (1 : Nat) = 1 then 0 else (i 0).val; rw [if_pos rfl]
    | ⟨1, _⟩ => by show (i 1).val = if (384 : Nat) = 1 then 0 else (i 1).val; rw [if_neg (by decide)])
def val_main_v349 : (⟨S512x384, .f32⟩ : BufTy).Contents (Elt F) :=
  mulf (val_main_v346 (F := F) x0 x1 x2 x3 x4 x5 x8 x9 x14 x15) (val_main_v348 (F := F) x6)
theorem val_main_v349_apply (i : S512x384.Idx) :
    val_main_v349 (F := F) x0 x1 x2 x3 x4 x5 x6 x8 x9 x14 x15 i = FloatOps.mulf (val_main_v346 (F := F) x0 x1 x2 x3 x4 x5 x8 x9 x14 x15 i) (val_main_v348 (F := F) x6 i) := rfl
def val_main_v350 : (⟨S1x384, .f32⟩ : BufTy).Contents (Elt F) :=
  broadcastInDim S1x384 ![1] bcast_S384_S1x384_1 (x7)
abbrev idx_main_v350 (i : S1x384.Idx) : S384.Idx := fun a => match a with
  | ⟨0, _⟩ => ⟨(i 1).val, (i 1).isLt⟩
theorem val_main_v350_apply (i : S1x384.Idx) :
    val_main_v350 (F := F) x7 i = x7 (idx_main_v350 i) := by
  unfold val_main_v350
  exact broadcastInDim_apply _ bcast_S384_S1x384_1 x7 i (idx_main_v350 i) (fun a => match a with
    | ⟨0, _⟩ => by show (i 1).val = if (384 : Nat) = 1 then 0 else (i 1).val; rw [if_neg (by decide)])
def val_main_v351 : (⟨S512x384, .f32⟩ : BufTy).Contents (Elt F) :=
  broadcastInDim S512x384 ![0, 1] bcast_S1x384_S512x384_0_1 (val_main_v350 (F := F) x7)
abbrev idx_main_v351 (i : S512x384.Idx) : S1x384.Idx := fun a => match a with
  | ⟨0, _⟩ => ⟨0, Nat.one_pos⟩
  | ⟨1, _⟩ => ⟨(i 1).val, (i 1).isLt⟩
theorem val_main_v351_apply (i : S512x384.Idx) :
    val_main_v351 (F := F) x7 i = val_main_v350 (F := F) x7 (idx_main_v351 i) := by
  unfold val_main_v351
  generalize val_main_v350 (F := F) x7 = y
  exact broadcastInDim_apply _ bcast_S1x384_S512x384_0_1 y i (idx_main_v351 i) (fun a => match a with
    | ⟨0, _⟩ => by show 0 = if (1 : Nat) = 1 then 0 else (i 0).val; rw [if_pos rfl]
    | ⟨1, _⟩ => by show (i 1).val = if (384 : Nat) = 1 then 0 else (i 1).val; rw [if_neg (by decide)])
def val_main_v352 : (⟨S512x384, .f32⟩ : BufTy).Contents (Elt F) :=
  addf (val_main_v349 (F := F) x0 x1 x2 x3 x4 x5 x6 x8 x9 x14 x15) (val_main_v351 (F := F) x7)
theorem val_main_v352_apply (i : S512x384.Idx) :
    val_main_v352 (F := F) x0 x1 x2 x3 x4 x5 x6 x7 x8 x9 x14 x15 i = FloatOps.addf (val_main_v349 (F := F) x0 x1 x2 x3 x4 x5 x6 x8 x9 x14 x15 i) (val_main_v351 (F := F) x7 i) := rfl
def val_main_v353 : (⟨S512x128, .f32⟩ : BufTy).Contents (Elt F) :=
  Host.dotGeneral dot_S512x384_S384x128_S512x128_1_0_0_1_n_n none (val_main_v352 (F := F) x0 x1 x2 x3 x4 x5 x6 x7 x8 x9 x14 x15) (x10)
theorem lhs_main_v353_0 (i : S512x128.Idx) (q : dot_S512x384_S384x128_S512x128_1_0_0_1_n_n.contr.Idx) :
    (dot_S512x384_S384x128_S512x128_1_0_0_1_n_n.lhsIdx i q 0).val = (i 0).val := by
  unfold DotDims.lhsIdx
  rw [dif_neg (show ¬(0 : Fin S512x384.rank) ∈ dot_S512x384_S384x128_S512x128_1_0_0_1_n_n.lhsBatch by decide), dif_pos (show (0 : Fin S512x384.rank) ∈ dot_S512x384_S384x128_S512x128_1_0_0_1_n_n.lhsNonContracting by decide)]
  rfl
theorem lhs_main_v353_1 (i : S512x128.Idx) (q : dot_S512x384_S384x128_S512x128_1_0_0_1_n_n.contr.Idx) :
    (dot_S512x384_S384x128_S512x128_1_0_0_1_n_n.lhsIdx i q 1).val = (q ⟨0, by decide⟩).val :=
  dot_S512x384_S384x128_S512x128_1_0_0_1_n_n.lhsIdx_val_of_single rfl i q
theorem rhs_main_v353_0 (i : S512x128.Idx) (q : dot_S512x384_S384x128_S512x128_1_0_0_1_n_n.contr.Idx) :
    (dot_S512x384_S384x128_S512x128_1_0_0_1_n_n.rhsIdx i q 0).val = (q ⟨0, by decide⟩).val :=
  dot_S512x384_S384x128_S512x128_1_0_0_1_n_n.rhsIdx_val_of_single rfl i q
theorem rhs_main_v353_1 (i : S512x128.Idx) (q : dot_S512x384_S384x128_S512x128_1_0_0_1_n_n.contr.Idx) :
    (dot_S512x384_S384x128_S512x128_1_0_0_1_n_n.rhsIdx i q 1).val = (i 1).val := by
  unfold DotDims.rhsIdx
  rw [dif_neg (show ¬(1 : Fin S384x128.rank) ∈ dot_S512x384_S384x128_S512x128_1_0_0_1_n_n.rhsBatch by decide), dif_pos (show (1 : Fin S384x128.rank) ∈ dot_S512x384_S384x128_S512x128_1_0_0_1_n_n.rhsNonContracting by decide)]
  rfl
abbrev lidx_main_v353 (i : S512x128.Idx) (k : Fin 384) : S512x384.Idx := fun a => match a with
  | ⟨0, _⟩ => ⟨(i 0).val, (i 0).isLt⟩
  | ⟨1, _⟩ => ⟨k.val, k.isLt⟩
abbrev ridx_main_v353 (i : S512x128.Idx) (k : Fin 384) : S384x128.Idx := fun a => match a with
  | ⟨0, _⟩ => ⟨k.val, k.isLt⟩
  | ⟨1, _⟩ => ⟨(i 1).val, (i 1).isLt⟩
theorem val_main_v353_apply (x0 : (⟨S50000x128, .f32⟩ : BufTy).Contents (Elt Ideal)) (x1 : (⟨S800000, .f32⟩ : BufTy).Contents (Elt Ideal)) (x2 : (⟨S3x2x128x128, .f32⟩ : BufTy).Contents (Elt Ideal)) (x3 : (⟨S3x2x128, .f32⟩ : BufTy).Contents (Elt Ideal)) (x4 : (⟨S3x256x128, .f32⟩ : BufTy).Contents (Elt Ideal)) (x5 : (⟨S3x128, .f32⟩ : BufTy).Contents (Elt Ideal)) (x6 x7 x8 x9 : (⟨S384, .f32⟩ : BufTy).Contents (Elt Ideal)) (x10 : (⟨S384x128, .f32⟩ : BufTy).Contents (Elt Ideal)) (x14 : (⟨S2x800000, .i32⟩ : BufTy).Contents (Elt Ideal)) (x15 : (⟨S50000, .i32⟩ : BufTy).Contents (Elt Ideal)) (i : S512x128.Idx) :
    val_main_v353 (F := Ideal) x0 x1 x2 x3 x4 x5 x6 x7 x8 x9 x10 x14 x15 i = ∑ k : Fin 384, (val_main_v352 (F := Ideal) x0 x1 x2 x3 x4 x5 x6 x7 x8 x9 x14 x15) (lidx_main_v353 i k) * x10 (ridx_main_v353 i k) := by
  unfold val_main_v353
  generalize val_main_v352 (F := Ideal) x0 x1 x2 x3 x4 x5 x6 x7 x8 x9 x14 x15 = y0
  simp only [Host.dotGeneral]
  rw [Ideal.dotGeneral_apply, ← Equiv.sum_comp (ValueIdx.contrEquiv1 dot_S512x384_S384x128_S512x128_1_0_0_1_n_n 384 rfl rfl).symm]
  refine Finset.sum_congr rfl fun k _ => ?_
  have hk := ValueIdx.contrEquiv1_symm_val dot_S512x384_S384x128_S512x128_1_0_0_1_n_n 384 rfl rfl k
  have el : dot_S512x384_S384x128_S512x128_1_0_0_1_n_n.lhsIdx i ((ValueIdx.contrEquiv1 dot_S512x384_S384x128_S512x128_1_0_0_1_n_n 384 rfl rfl).symm k) = lidx_main_v353 i k := funext fun a => Fin.ext (by
    match a with
    | ⟨0, _⟩ => exact lhs_main_v353_0 _ _
    | ⟨1, _⟩ => exact (lhs_main_v353_1 _ _).trans hk)
  have er : dot_S512x384_S384x128_S512x128_1_0_0_1_n_n.rhsIdx i ((ValueIdx.contrEquiv1 dot_S512x384_S384x128_S512x128_1_0_0_1_n_n 384 rfl rfl).symm k) = ridx_main_v353 i k := funext fun a => Fin.ext (by
    match a with
    | ⟨0, _⟩ => exact (rhs_main_v353_0 _ _).trans hk
    | ⟨1, _⟩ => exact rhs_main_v353_1 _ _)
  rw [el, er]
def val_main_v354 : (⟨S1x128, .f32⟩ : BufTy).Contents (Elt F) :=
  broadcastInDim S1x128 ![1] bcast_S128_S1x128_1 (x11)
abbrev idx_main_v354 (i : S1x128.Idx) : S128.Idx := fun a => match a with
  | ⟨0, _⟩ => ⟨(i 1).val, (i 1).isLt⟩
theorem val_main_v354_apply (i : S1x128.Idx) :
    val_main_v354 (F := F) x11 i = x11 (idx_main_v354 i) := by
  unfold val_main_v354
  exact broadcastInDim_apply _ bcast_S128_S1x128_1 x11 i (idx_main_v354 i) (fun a => match a with
    | ⟨0, _⟩ => by show (i 1).val = if (128 : Nat) = 1 then 0 else (i 1).val; rw [if_neg (by decide)])
def val_main_v355 : (⟨S512x128, .f32⟩ : BufTy).Contents (Elt F) :=
  broadcastInDim S512x128 ![0, 1] bcast_S1x128_S512x128_0_1 (val_main_v354 (F := F) x11)
abbrev idx_main_v355 (i : S512x128.Idx) : S1x128.Idx := fun a => match a with
  | ⟨0, _⟩ => ⟨0, Nat.one_pos⟩
  | ⟨1, _⟩ => ⟨(i 1).val, (i 1).isLt⟩
theorem val_main_v355_apply (i : S512x128.Idx) :
    val_main_v355 (F := F) x11 i = val_main_v354 (F := F) x11 (idx_main_v355 i) := by
  unfold val_main_v355
  generalize val_main_v354 (F := F) x11 = y
  exact broadcastInDim_apply _ bcast_S1x128_S512x128_0_1 y i (idx_main_v355 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v356 : (⟨S512x128, .f32⟩ : BufTy).Contents (Elt F) :=
  addf (val_main_v353 (F := F) x0 x1 x2 x3 x4 x5 x6 x7 x8 x9 x10 x14 x15) (val_main_v355 (F := F) x11)
theorem val_main_v356_apply (i : S512x128.Idx) :
    val_main_v356 (F := F) x0 x1 x2 x3 x4 x5 x6 x7 x8 x9 x10 x11 x14 x15 i = FloatOps.addf (val_main_v353 (F := F) x0 x1 x2 x3 x4 x5 x6 x7 x8 x9 x10 x14 x15 i) (val_main_v355 (F := F) x11 i) := rfl
def val_main_call9_cst : (⟨S_, .f32⟩ : BufTy).Contents (Elt F) :=
  constant S_ .f32 0x00000000#32
theorem val_main_call9_cst_apply (i : S_.Idx) :
    val_main_call9_cst (F := F) i = FloatOps.ofBits .f32 0x00000000#32 := rfl
def val_main_call9_v0 : (⟨S512x128, .f32⟩ : BufTy).Contents (Elt F) :=
  broadcastInDim S512x128 ![] bcast_S_S512x128 (val_main_call9_cst (F := F))
abbrev idx_main_call9_v0 (i : S512x128.Idx) : S_.Idx := fun a => a.elim0
theorem val_main_call9_v0_apply (i : S512x128.Idx) :
    val_main_call9_v0 (F := F) i = val_main_call9_cst (F := F) (idx_main_call9_v0 i) := by
  unfold val_main_call9_v0
  generalize val_main_call9_cst (F := F) = y
  exact broadcastInDim_apply _ bcast_S_S512x128 y i (idx_main_call9_v0 i) (fun a => a.elim0)
def val_main_v357 : (⟨S512x128, .f32⟩ : BufTy).Contents (Elt F) :=
  maximumf (val_main_v356 (F := F) x0 x1 x2 x3 x4 x5 x6 x7 x8 x9 x10 x11 x14 x15) (val_main_call9_v0 (F := F))
theorem val_main_v357_apply (i : S512x128.Idx) :
    val_main_v357 (F := F) x0 x1 x2 x3 x4 x5 x6 x7 x8 x9 x10 x11 x14 x15 i = FloatOps.maximumf (val_main_v356 (F := F) x0 x1 x2 x3 x4 x5 x6 x7 x8 x9 x10 x11 x14 x15 i) (val_main_call9_v0 (F := F) i) := rfl
def val_main_v358 : (⟨S512x10, .f32⟩ : BufTy).Contents (Elt F) :=
  Host.dotGeneral dot_S512x128_S128x10_S512x10_1_0_0_1_n_n none (val_main_v357 (F := F) x0 x1 x2 x3 x4 x5 x6 x7 x8 x9 x10 x11 x14 x15) (x12)
theorem lhs_main_v358_0 (i : S512x10.Idx) (q : dot_S512x128_S128x10_S512x10_1_0_0_1_n_n.contr.Idx) :
    (dot_S512x128_S128x10_S512x10_1_0_0_1_n_n.lhsIdx i q 0).val = (i 0).val := by
  unfold DotDims.lhsIdx
  rw [dif_neg (show ¬(0 : Fin S512x128.rank) ∈ dot_S512x128_S128x10_S512x10_1_0_0_1_n_n.lhsBatch by decide), dif_pos (show (0 : Fin S512x128.rank) ∈ dot_S512x128_S128x10_S512x10_1_0_0_1_n_n.lhsNonContracting by decide)]
  rfl
theorem lhs_main_v358_1 (i : S512x10.Idx) (q : dot_S512x128_S128x10_S512x10_1_0_0_1_n_n.contr.Idx) :
    (dot_S512x128_S128x10_S512x10_1_0_0_1_n_n.lhsIdx i q 1).val = (q ⟨0, by decide⟩).val :=
  dot_S512x128_S128x10_S512x10_1_0_0_1_n_n.lhsIdx_val_of_single rfl i q
theorem rhs_main_v358_0 (i : S512x10.Idx) (q : dot_S512x128_S128x10_S512x10_1_0_0_1_n_n.contr.Idx) :
    (dot_S512x128_S128x10_S512x10_1_0_0_1_n_n.rhsIdx i q 0).val = (q ⟨0, by decide⟩).val :=
  dot_S512x128_S128x10_S512x10_1_0_0_1_n_n.rhsIdx_val_of_single rfl i q
theorem rhs_main_v358_1 (i : S512x10.Idx) (q : dot_S512x128_S128x10_S512x10_1_0_0_1_n_n.contr.Idx) :
    (dot_S512x128_S128x10_S512x10_1_0_0_1_n_n.rhsIdx i q 1).val = (i 1).val := by
  unfold DotDims.rhsIdx
  rw [dif_neg (show ¬(1 : Fin S128x10.rank) ∈ dot_S512x128_S128x10_S512x10_1_0_0_1_n_n.rhsBatch by decide), dif_pos (show (1 : Fin S128x10.rank) ∈ dot_S512x128_S128x10_S512x10_1_0_0_1_n_n.rhsNonContracting by decide)]
  rfl
abbrev lidx_main_v358 (i : S512x10.Idx) (k : Fin 128) : S512x128.Idx := fun a => match a with
  | ⟨0, _⟩ => ⟨(i 0).val, (i 0).isLt⟩
  | ⟨1, _⟩ => ⟨k.val, k.isLt⟩
abbrev ridx_main_v358 (i : S512x10.Idx) (k : Fin 128) : S128x10.Idx := fun a => match a with
  | ⟨0, _⟩ => ⟨k.val, k.isLt⟩
  | ⟨1, _⟩ => ⟨(i 1).val, (i 1).isLt⟩
theorem val_main_v358_apply (x0 : (⟨S50000x128, .f32⟩ : BufTy).Contents (Elt Ideal)) (x1 : (⟨S800000, .f32⟩ : BufTy).Contents (Elt Ideal)) (x2 : (⟨S3x2x128x128, .f32⟩ : BufTy).Contents (Elt Ideal)) (x3 : (⟨S3x2x128, .f32⟩ : BufTy).Contents (Elt Ideal)) (x4 : (⟨S3x256x128, .f32⟩ : BufTy).Contents (Elt Ideal)) (x5 : (⟨S3x128, .f32⟩ : BufTy).Contents (Elt Ideal)) (x6 x7 x8 x9 : (⟨S384, .f32⟩ : BufTy).Contents (Elt Ideal)) (x10 : (⟨S384x128, .f32⟩ : BufTy).Contents (Elt Ideal)) (x11 : (⟨S128, .f32⟩ : BufTy).Contents (Elt Ideal)) (x12 : (⟨S128x10, .f32⟩ : BufTy).Contents (Elt Ideal)) (x14 : (⟨S2x800000, .i32⟩ : BufTy).Contents (Elt Ideal)) (x15 : (⟨S50000, .i32⟩ : BufTy).Contents (Elt Ideal)) (i : S512x10.Idx) :
    val_main_v358 (F := Ideal) x0 x1 x2 x3 x4 x5 x6 x7 x8 x9 x10 x11 x12 x14 x15 i = ∑ k : Fin 128, (val_main_v357 (F := Ideal) x0 x1 x2 x3 x4 x5 x6 x7 x8 x9 x10 x11 x14 x15) (lidx_main_v358 i k) * x12 (ridx_main_v358 i k) := by
  unfold val_main_v358
  generalize val_main_v357 (F := Ideal) x0 x1 x2 x3 x4 x5 x6 x7 x8 x9 x10 x11 x14 x15 = y0
  simp only [Host.dotGeneral]
  rw [Ideal.dotGeneral_apply, ← Equiv.sum_comp (ValueIdx.contrEquiv1 dot_S512x128_S128x10_S512x10_1_0_0_1_n_n 128 rfl rfl).symm]
  refine Finset.sum_congr rfl fun k _ => ?_
  have hk := ValueIdx.contrEquiv1_symm_val dot_S512x128_S128x10_S512x10_1_0_0_1_n_n 128 rfl rfl k
  have el : dot_S512x128_S128x10_S512x10_1_0_0_1_n_n.lhsIdx i ((ValueIdx.contrEquiv1 dot_S512x128_S128x10_S512x10_1_0_0_1_n_n 128 rfl rfl).symm k) = lidx_main_v358 i k := funext fun a => Fin.ext (by
    match a with
    | ⟨0, _⟩ => exact lhs_main_v358_0 _ _
    | ⟨1, _⟩ => exact (lhs_main_v358_1 _ _).trans hk)
  have er : dot_S512x128_S128x10_S512x10_1_0_0_1_n_n.rhsIdx i ((ValueIdx.contrEquiv1 dot_S512x128_S128x10_S512x10_1_0_0_1_n_n 128 rfl rfl).symm k) = ridx_main_v358 i k := funext fun a => Fin.ext (by
    match a with
    | ⟨0, _⟩ => exact (rhs_main_v358_0 _ _).trans hk
    | ⟨1, _⟩ => exact rhs_main_v358_1 _ _)
  rw [el, er]
def val_main_v359 : (⟨S1x10, .f32⟩ : BufTy).Contents (Elt F) :=
  broadcastInDim S1x10 ![1] bcast_S10_S1x10_1 (x13)
abbrev idx_main_v359 (i : S1x10.Idx) : S10.Idx := fun a => match a with
  | ⟨0, _⟩ => ⟨(i 1).val, (i 1).isLt⟩
theorem val_main_v359_apply (i : S1x10.Idx) :
    val_main_v359 (F := F) x13 i = x13 (idx_main_v359 i) := by
  unfold val_main_v359
  exact broadcastInDim_apply _ bcast_S10_S1x10_1 x13 i (idx_main_v359 i) (fun a => match a with
    | ⟨0, _⟩ => by show (i 1).val = if (10 : Nat) = 1 then 0 else (i 1).val; rw [if_neg (by decide)])
def val_main_v360 : (⟨S512x10, .f32⟩ : BufTy).Contents (Elt F) :=
  broadcastInDim S512x10 ![0, 1] bcast_S1x10_S512x10_0_1 (val_main_v359 (F := F) x13)
abbrev idx_main_v360 (i : S512x10.Idx) : S1x10.Idx := fun a => match a with
  | ⟨0, _⟩ => ⟨0, Nat.one_pos⟩
  | ⟨1, _⟩ => ⟨(i 1).val, (i 1).isLt⟩
theorem val_main_v360_apply (i : S512x10.Idx) :
    val_main_v360 (F := F) x13 i = val_main_v359 (F := F) x13 (idx_main_v360 i) := by
  unfold val_main_v360
  generalize val_main_v359 (F := F) x13 = y
  exact broadcastInDim_apply _ bcast_S1x10_S512x10_0_1 y i (idx_main_v360 i) (fun a => match a with
    | ⟨0, _⟩ => by show 0 = if (1 : Nat) = 1 then 0 else (i 0).val; rw [if_pos rfl]
    | ⟨1, _⟩ => by show (i 1).val = if (10 : Nat) = 1 then 0 else (i 1).val; rw [if_neg (by decide)])
def val_main_v361 : (⟨S512x10, .f32⟩ : BufTy).Contents (Elt F) :=
  addf (val_main_v358 (F := F) x0 x1 x2 x3 x4 x5 x6 x7 x8 x9 x10 x11 x12 x14 x15) (val_main_v360 (F := F) x13)
theorem val_main_v361_apply (i : S512x10.Idx) :
    val_main_v361 (F := F) x0 x1 x2 x3 x4 x5 x6 x7 x8 x9 x10 x11 x12 x13 x14 x15 i = FloatOps.addf (val_main_v358 (F := F) x0 x1 x2 x3 x4 x5 x6 x7 x8 x9 x10 x11 x12 x14 x15 i) (val_main_v360 (F := F) x13 i) := rfl
def val_main_cst_56 : (⟨S_, .f32⟩ : BufTy).Contents (Elt F) :=
  constant S_ .f32 0xFF800000#32
def val_main_v362 : (⟨S512, .f32⟩ : BufTy).Contents (Elt F) :=
  Host.reduce FloatOps.maximumf (val_main_v361 (F := F) x0 x1 x2 x3 x4 x5 x6 x7 x8 x9 x10 x11 x12 x13 x14 x15) (val_main_cst_56 (F := F)) reducesTo_S512x10_S512_d1 h_S_
def val_main_cst_57 : (⟨S_, .f32⟩ : BufTy).Contents (Elt F) :=
  constant S_ .f32 0xFF800000#32
theorem val_main_cst_57_apply (i : S_.Idx) :
    val_main_cst_57 (F := F) i = FloatOps.ofBits .f32 0xFF800000#32 := rfl
def val_main_v363 : (⟨S512, .f32⟩ : BufTy).Contents (Elt F) :=
  broadcastInDim S512 ![] bcast_S_S512 (val_main_cst_57 (F := F))
abbrev idx_main_v363 (i : S512.Idx) : S_.Idx := fun a => a.elim0
theorem val_main_v363_apply (i : S512.Idx) :
    val_main_v363 (F := F) i = val_main_cst_57 (F := F) (idx_main_v363 i) := by
  unfold val_main_v363
  generalize val_main_cst_57 (F := F) = y
  exact broadcastInDim_apply _ bcast_S_S512 y i (idx_main_v363 i) (fun a => a.elim0)
def val_main_v364 : (⟨S512, .f32⟩ : BufTy).Contents (Elt F) :=
  maximumf (val_main_v363 (F := F)) (val_main_v362 (F := F) x0 x1 x2 x3 x4 x5 x6 x7 x8 x9 x10 x11 x12 x13 x14 x15)
theorem val_main_v364_apply (i : S512.Idx) :
    val_main_v364 (F := F) x0 x1 x2 x3 x4 x5 x6 x7 x8 x9 x10 x11 x12 x13 x14 x15 i = FloatOps.maximumf (val_main_v363 (F := F) i) (val_main_v362 (F := F) x0 x1 x2 x3 x4 x5 x6 x7 x8 x9 x10 x11 x12 x13 x14 x15 i) := rfl
def val_main_v365 : (⟨S512x1, .f32⟩ : BufTy).Contents (Elt F) :=
  broadcastInDim S512x1 ![0] bcast_S512_S512x1_0 (val_main_v364 (F := F) x0 x1 x2 x3 x4 x5 x6 x7 x8 x9 x10 x11 x12 x13 x14 x15)
abbrev idx_main_v365 (i : S512x1.Idx) : S512.Idx := fun a => match a with
  | ⟨0, _⟩ => ⟨(i 0).val, (i 0).isLt⟩
theorem val_main_v365_apply (i : S512x1.Idx) :
    val_main_v365 (F := F) x0 x1 x2 x3 x4 x5 x6 x7 x8 x9 x10 x11 x12 x13 x14 x15 i = val_main_v364 (F := F) x0 x1 x2 x3 x4 x5 x6 x7 x8 x9 x10 x11 x12 x13 x14 x15 (idx_main_v365 i) := by
  unfold val_main_v365
  generalize val_main_v364 (F := F) x0 x1 x2 x3 x4 x5 x6 x7 x8 x9 x10 x11 x12 x13 x14 x15 = y
  exact broadcastInDim_apply _ bcast_S512_S512x1_0 y i (idx_main_v365 i) (fun a => match a with
    | ⟨0, _⟩ => by show (i 0).val = if (512 : Nat) = 1 then 0 else (i 0).val; rw [if_neg (by decide)])
def val_main_v366 : (⟨S512x10, .f32⟩ : BufTy).Contents (Elt F) :=
  broadcastInDim S512x10 ![0, 1] bcast_S512x1_S512x10_0_1 (val_main_v365 (F := F) x0 x1 x2 x3 x4 x5 x6 x7 x8 x9 x10 x11 x12 x13 x14 x15)
abbrev idx_main_v366 (i : S512x10.Idx) : S512x1.Idx := fun a => match a with
  | ⟨0, _⟩ => ⟨(i 0).val, (i 0).isLt⟩
  | ⟨1, _⟩ => ⟨0, Nat.one_pos⟩
theorem val_main_v366_apply (i : S512x10.Idx) :
    val_main_v366 (F := F) x0 x1 x2 x3 x4 x5 x6 x7 x8 x9 x10 x11 x12 x13 x14 x15 i = val_main_v365 (F := F) x0 x1 x2 x3 x4 x5 x6 x7 x8 x9 x10 x11 x12 x13 x14 x15 (idx_main_v366 i) := by
  unfold val_main_v366
  generalize val_main_v365 (F := F) x0 x1 x2 x3 x4 x5 x6 x7 x8 x9 x10 x11 x12 x13 x14 x15 = y
  exact broadcastInDim_apply _ bcast_S512x1_S512x10_0_1 y i (idx_main_v366 i) (fun a => match a with
    | ⟨0, _⟩ => by show (i 0).val = if (512 : Nat) = 1 then 0 else (i 0).val; rw [if_neg (by decide)]
    | ⟨1, _⟩ => by show 0 = if (1 : Nat) = 1 then 0 else (i 1).val; rw [if_pos rfl])
def val_main_v367 : (⟨S512x10, .f32⟩ : BufTy).Contents (Elt F) :=
  subf (val_main_v361 (F := F) x0 x1 x2 x3 x4 x5 x6 x7 x8 x9 x10 x11 x12 x13 x14 x15) (val_main_v366 (F := F) x0 x1 x2 x3 x4 x5 x6 x7 x8 x9 x10 x11 x12 x13 x14 x15)
theorem val_main_v367_apply (i : S512x10.Idx) :
    val_main_v367 (F := F) x0 x1 x2 x3 x4 x5 x6 x7 x8 x9 x10 x11 x12 x13 x14 x15 i = FloatOps.subf (val_main_v361 (F := F) x0 x1 x2 x3 x4 x5 x6 x7 x8 x9 x10 x11 x12 x13 x14 x15 i) (val_main_v366 (F := F) x0 x1 x2 x3 x4 x5 x6 x7 x8 x9 x10 x11 x12 x13 x14 x15 i) := rfl
def val_main_v368 : (⟨S512x10, .f32⟩ : BufTy).Contents (Elt F) :=
  Host.exp (val_main_v367 (F := F) x0 x1 x2 x3 x4 x5 x6 x7 x8 x9 x10 x11 x12 x13 x14 x15)
theorem val_main_v368_apply (i : S512x10.Idx) :
    val_main_v368 (F := F) x0 x1 x2 x3 x4 x5 x6 x7 x8 x9 x10 x11 x12 x13 x14 x15 i = FloatOps.hostUnary .exp (val_main_v367 (F := F) x0 x1 x2 x3 x4 x5 x6 x7 x8 x9 x10 x11 x12 x13 x14 x15 i) := rfl
def val_main_cst_58 : (⟨S_, .f32⟩ : BufTy).Contents (Elt F) :=
  constant S_ .f32 0x00000000#32
theorem val_main_cst_58_apply (i : S_.Idx) :
    val_main_cst_58 (F := F) i = FloatOps.ofBits .f32 0x00000000#32 := rfl
def val_main_v369 : (⟨S512, .f32⟩ : BufTy).Contents (Elt F) :=
  Host.reduceAdd (val_main_v368 (F := F) x0 x1 x2 x3 x4 x5 x6 x7 x8 x9 x10 x11 x12 x13 x14 x15) (val_main_cst_58 (F := F)) reducesTo_S512x10_S512_d1 h_S_
abbrev idx_main_v369 (i : S512.Idx) (k : Fin 10) : S512x10.Idx := fun a => match a with
  | ⟨0, _⟩ => ⟨(i 0).val, (i 0).isLt⟩
  | ⟨1, _⟩ => ⟨k.val, k.isLt⟩
theorem val_main_v369_apply (x0 : (⟨S50000x128, .f32⟩ : BufTy).Contents (Elt Ideal)) (x1 : (⟨S800000, .f32⟩ : BufTy).Contents (Elt Ideal)) (x2 : (⟨S3x2x128x128, .f32⟩ : BufTy).Contents (Elt Ideal)) (x3 : (⟨S3x2x128, .f32⟩ : BufTy).Contents (Elt Ideal)) (x4 : (⟨S3x256x128, .f32⟩ : BufTy).Contents (Elt Ideal)) (x5 : (⟨S3x128, .f32⟩ : BufTy).Contents (Elt Ideal)) (x6 x7 x8 x9 : (⟨S384, .f32⟩ : BufTy).Contents (Elt Ideal)) (x10 : (⟨S384x128, .f32⟩ : BufTy).Contents (Elt Ideal)) (x11 : (⟨S128, .f32⟩ : BufTy).Contents (Elt Ideal)) (x12 : (⟨S128x10, .f32⟩ : BufTy).Contents (Elt Ideal)) (x13 : (⟨S10, .f32⟩ : BufTy).Contents (Elt Ideal)) (x14 : (⟨S2x800000, .i32⟩ : BufTy).Contents (Elt Ideal)) (x15 : (⟨S50000, .i32⟩ : BufTy).Contents (Elt Ideal)) (i : S512.Idx) :
    val_main_v369 (F := Ideal) x0 x1 x2 x3 x4 x5 x6 x7 x8 x9 x10 x11 x12 x13 x14 x15 i = (val_main_cst_58 (F := Ideal)) (Shape.Idx.first h_S_) + ∑ k : Fin 10, (val_main_v368 (F := Ideal) x0 x1 x2 x3 x4 x5 x6 x7 x8 x9 x10 x11 x12 x13 x14 x15) (idx_main_v369 i k) := by
  unfold val_main_v369
  generalize val_main_v368 (F := Ideal) x0 x1 x2 x3 x4 x5 x6 x7 x8 x9 x10 x11 x12 x13 x14 x15 = y0
  simp only [Host.reduceAdd, Ideal.hostReduceAdd_def]
  rw [Ideal.hostReduceAdd_single reducesTo_S512x10_S512_d1 (by decide)]
  refine congrArg (_ + ·) (Finset.sum_congr rfl fun k _ => ?_)
  exact congrArg y0 (funext fun a => Fin.ext (by match a with | ⟨0, _⟩ => rfl | ⟨1, _⟩ => rfl))
def val_main_v370 : (⟨S512x1, .f32⟩ : BufTy).Contents (Elt F) :=
  broadcastInDim S512x1 ![0] bcast_S512_S512x1_0 (val_main_v369 (F := F) x0 x1 x2 x3 x4 x5 x6 x7 x8 x9 x10 x11 x12 x13 x14 x15)
abbrev idx_main_v370 (i : S512x1.Idx) : S512.Idx := fun a => match a with
  | ⟨0, _⟩ => ⟨(i 0).val, (i 0).isLt⟩
theorem val_main_v370_apply (i : S512x1.Idx) :
    val_main_v370 (F := F) x0 x1 x2 x3 x4 x5 x6 x7 x8 x9 x10 x11 x12 x13 x14 x15 i = val_main_v369 (F := F) x0 x1 x2 x3 x4 x5 x6 x7 x8 x9 x10 x11 x12 x13 x14 x15 (idx_main_v370 i) := by
  unfold val_main_v370
  generalize val_main_v369 (F := F) x0 x1 x2 x3 x4 x5 x6 x7 x8 x9 x10 x11 x12 x13 x14 x15 = y
  exact broadcastInDim_apply _ bcast_S512_S512x1_0 y i (idx_main_v370 i) (fun a => match a with
    | ⟨0, _⟩ => by show (i 0).val = if (512 : Nat) = 1 then 0 else (i 0).val; rw [if_neg (by decide)])
def val_main_v371 : (⟨S512x10, .f32⟩ : BufTy).Contents (Elt F) :=
  broadcastInDim S512x10 ![0, 1] bcast_S512x1_S512x10_0_1 (val_main_v370 (F := F) x0 x1 x2 x3 x4 x5 x6 x7 x8 x9 x10 x11 x12 x13 x14 x15)
abbrev idx_main_v371 (i : S512x10.Idx) : S512x1.Idx := fun a => match a with
  | ⟨0, _⟩ => ⟨(i 0).val, (i 0).isLt⟩
  | ⟨1, _⟩ => ⟨0, Nat.one_pos⟩
theorem val_main_v371_apply (i : S512x10.Idx) :
    val_main_v371 (F := F) x0 x1 x2 x3 x4 x5 x6 x7 x8 x9 x10 x11 x12 x13 x14 x15 i = val_main_v370 (F := F) x0 x1 x2 x3 x4 x5 x6 x7 x8 x9 x10 x11 x12 x13 x14 x15 (idx_main_v371 i) := by
  unfold val_main_v371
  generalize val_main_v370 (F := F) x0 x1 x2 x3 x4 x5 x6 x7 x8 x9 x10 x11 x12 x13 x14 x15 = y
  exact broadcastInDim_apply _ bcast_S512x1_S512x10_0_1 y i (idx_main_v371 i) (fun a => match a with
    | ⟨0, _⟩ => by show (i 0).val = if (512 : Nat) = 1 then 0 else (i 0).val; rw [if_neg (by decide)]
    | ⟨1, _⟩ => by show 0 = if (1 : Nat) = 1 then 0 else (i 1).val; rw [if_pos rfl])
def val_main_v372 : (⟨S512x10, .f32⟩ : BufTy).Contents (Elt F) :=
  Host.divf (val_main_v368 (F := F) x0 x1 x2 x3 x4 x5 x6 x7 x8 x9 x10 x11 x12 x13 x14 x15) (val_main_v371 (F := F) x0 x1 x2 x3 x4 x5 x6 x7 x8 x9 x10 x11 x12 x13 x14 x15)
theorem val_main_v372_apply (i : S512x10.Idx) :
    val_main_v372 (F := F) x0 x1 x2 x3 x4 x5 x6 x7 x8 x9 x10 x11 x12 x13 x14 x15 i = FloatOps.hostDivf (val_main_v368 (F := F) x0 x1 x2 x3 x4 x5 x6 x7 x8 x9 x10 x11 x12 x13 x14 x15 i) (val_main_v371 (F := F) x0 x1 x2 x3 x4 x5 x6 x7 x8 x9 x10 x11 x12 x13 x14 x15 i) := rfl

end Cert.ReferenceIdeal.ReadP
end
-- ==== Proof.Ref.RunPre.lean ====
import proofs.«400674_j14499809591724_2_alg».proof.Proof.Ref.ReadP
import Idealize.ShloMosaic.Lib.Pipeline.Frame

noncomputable section

namespace Idealize.ShloMosaic.StableHlo

variable {τ : Topo} {sig : RefSig} {Val : EltTy → Type}

theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

macro "after_results_simp3" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne']))

end Idealize.ShloMosaic.StableHlo

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

structure Args (V0 W : Valuation τ sig (Elt F)) : Prop where
  a0 : W (Proc.devRef .tc main_arg0) = V0 (Proc.devRef .tc main_arg0)
  a1 : W (Proc.devRef .tc main_arg1) = V0 (Proc.devRef .tc main_arg1)
  a2 : W (Proc.devRef .tc main_arg2) = V0 (Proc.devRef .tc main_arg2)
  a3 : W (Proc.devRef .tc main_arg3) = V0 (Proc.devRef .tc main_arg3)
  a4 : W (Proc.devRef .tc main_arg4) = V0 (Proc.devRef .tc main_arg4)
  a5 : W (Proc.devRef .tc main_arg5) = V0 (Proc.devRef .tc main_arg5)
  a6 : W (Proc.devRef .tc main_arg6) = V0 (Proc.devRef .tc main_arg6)
  a7 : W (Proc.devRef .tc main_arg7) = V0 (Proc.devRef .tc main_arg7)
  a8 : W (Proc.devRef .tc main_arg8) = V0 (Proc.devRef .tc main_arg8)
  a9 : W (Proc.devRef .tc main_arg9) = V0 (Proc.devRef .tc main_arg9)
  a10 : W (Proc.devRef .tc main_arg10) = V0 (Proc.devRef .tc main_arg10)
  a11 : W (Proc.devRef .tc main_arg11) = V0 (Proc.devRef .tc main_arg11)
  a12 : W (Proc.devRef .tc main_arg12) = V0 (Proc.devRef .tc main_arg12)
  a13 : W (Proc.devRef .tc main_arg13) = V0 (Proc.devRef .tc main_arg13)
  a14 : W (Proc.devRef .tc main_arg14) = V0 (Proc.devRef .tc main_arg14)
  a15 : W (Proc.devRef .tc main_arg15) = V0 (Proc.devRef .tc main_arg15)

theorem Args.refl (V0 : Valuation τ sig (Elt F)) : Args V0 V0 :=
  ⟨rfl, rfl, rfl, rfl, rfl, rfl, rfl, rfl, rfl, rfl, rfl, rfl, rfl, rfl, rfl, rfl⟩

/-- Unchanged from U to V and from V to W is unchanged from U to W. -/
theorem Args.trans {U V W : Valuation τ sig (Elt F)} (h : Args U V) (k : Args V W) : Args U W :=
  ⟨k.a0.trans h.a0, k.a1.trans h.a1, k.a2.trans h.a2, k.a3.trans h.a3, k.a4.trans h.a4, k.a5.trans h.a5, k.a6.trans h.a6, k.a7.trans h.a7,
    k.a8.trans h.a8, k.a9.trans h.a9, k.a10.trans h.a10, k.a11.trans h.a11, k.a12.trans h.a12, k.a13.trans h.a13, k.a14.trans h.a14, k.a15.trans h.a15⟩

end Cert.ReferenceIdeal.RunH

end
-- ==== Proof.Ref.Live.lean ====
import proofs.«400674_j14499809591724_2_alg».proof.Proof.Ref.RunPre

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- What a buffer read by several later chunks holds, as a function of the launch contents. -/
def r_v1 (V0 : Valuation τ sig (Elt F)) := val_main_v1 (F := F) (V0 (Proc.devRef .tc main_arg14))
def r_v3 (V0 : Valuation τ sig (Elt F)) := val_main_v3 (F := F) (V0 (Proc.devRef .tc main_arg14))
def r_v114 (V0 : Valuation τ sig (Elt F)) := val_main_v114 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg14)) (V0 (Proc.devRef .tc main_arg15))
def r_v225 (V0 : Valuation τ sig (Elt F)) := val_main_v225 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg14)) (V0 (Proc.devRef .tc main_arg15))
def r_v163 (V0 : Valuation τ sig (Elt F)) := val_main_v163 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg14))
def r_v274 (V0 : Valuation τ sig (Elt F)) := val_main_v274 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg14))

structure Live1 (V0 W : Valuation τ sig (Elt F)) : Prop where
  v1 : W (Proc.devRef .tc main_v1) = r_v1 V0
  v3 : W (Proc.devRef .tc main_v3) = r_v3 V0
  v48 : W (Proc.devRef .tc main_v48) = val_main_v48 (F := F) (V0 (Proc.devRef .tc main_arg0)) (V0 (Proc.devRef .tc main_arg1)) (V0 (Proc.devRef .tc main_arg2)) (V0 (Proc.devRef .tc main_arg14))
  v50 : W (Proc.devRef .tc main_v50) = val_main_v50 (F := F) (V0 (Proc.devRef .tc main_arg3))

structure Live2 (V0 W : Valuation τ sig (Elt F)) : Prop where
  v1 : W (Proc.devRef .tc main_v1) = r_v1 V0
  v3 : W (Proc.devRef .tc main_v3) = r_v3 V0
  v52 : W (Proc.devRef .tc main_v52) = val_main_v52 (F := F) (V0 (Proc.devRef .tc main_arg0)) (V0 (Proc.devRef .tc main_arg1)) (V0 (Proc.devRef .tc main_arg2)) (V0 (Proc.devRef .tc main_arg3)) (V0 (Proc.devRef .tc main_arg14))
  v101 : W (Proc.devRef .tc main_v101) = val_main_v101 (F := F) (V0 (Proc.devRef .tc main_arg0)) (V0 (Proc.devRef .tc main_arg1)) (V0 (Proc.devRef .tc main_arg2)) (V0 (Proc.devRef .tc main_arg3)) (V0 (Proc.devRef .tc main_arg14))

structure Live3 (V0 W : Valuation τ sig (Elt F)) : Prop where
  v1 : W (Proc.devRef .tc main_v1) = r_v1 V0
  v3 : W (Proc.devRef .tc main_v3) = r_v3 V0
  v114 : W (Proc.devRef .tc main_v114) = r_v114 V0
  v118 : W (Proc.devRef .tc main_v118) = val_main_v118 (F := F) (V0 (Proc.devRef .tc main_arg3))
  v119 : W (Proc.devRef .tc main_v119) = val_main_v119 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg14))
  v125 : W (Proc.devRef .tc main_v125) = val_main_v125 (F := F) (V0 (Proc.devRef .tc main_arg1)) (V0 (Proc.devRef .tc main_arg14))
  v151 : W (Proc.devRef .tc main_v151) = val_main_v151 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg14))
  cst_25 : W (Proc.devRef .tc main_cst_25) = val_main_cst_25 (F := F)

structure Live4 (V0 W : Valuation τ sig (Elt F)) : Prop where
  v1 : W (Proc.devRef .tc main_v1) = r_v1 V0
  v3 : W (Proc.devRef .tc main_v3) = r_v3 V0
  v114 : W (Proc.devRef .tc main_v114) = r_v114 V0
  v163 : W (Proc.devRef .tc main_v163) = r_v163 V0
  v167 : W (Proc.devRef .tc main_v167) = val_main_v167 (F := F) (V0 (Proc.devRef .tc main_arg3))
  v168 : W (Proc.devRef .tc main_v168) = val_main_v168 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg14))
  v174 : W (Proc.devRef .tc main_v174) = val_main_v174 (F := F) (V0 (Proc.devRef .tc main_arg1)) (V0 (Proc.devRef .tc main_arg14))
  v200 : W (Proc.devRef .tc main_v200) = val_main_v200 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg14))
  v201 : W (Proc.devRef .tc main_v201) = val_main_v201 (F := F)
  v202 : W (Proc.devRef .tc main_v202) = val_main_v202 (F := F) (V0 (Proc.devRef .tc main_arg14))

structure Live5 (V0 W : Valuation τ sig (Elt F)) : Prop where
  v1 : W (Proc.devRef .tc main_v1) = r_v1 V0
  v3 : W (Proc.devRef .tc main_v3) = r_v3 V0
  v114 : W (Proc.devRef .tc main_v114) = r_v114 V0
  v163 : W (Proc.devRef .tc main_v163) = r_v163 V0
  v212 : W (Proc.devRef .tc main_v212) = val_main_v212 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg14))

structure Live6 (V0 W : Valuation τ sig (Elt F)) : Prop where
  v1 : W (Proc.devRef .tc main_v1) = r_v1 V0
  v3 : W (Proc.devRef .tc main_v3) = r_v3 V0
  v114 : W (Proc.devRef .tc main_v114) = r_v114 V0
  v225 : W (Proc.devRef .tc main_v225) = r_v225 V0
  v229 : W (Proc.devRef .tc main_v229) = val_main_v229 (F := F) (V0 (Proc.devRef .tc main_arg3))
  v230 : W (Proc.devRef .tc main_v230) = val_main_v230 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg14))
  v236 : W (Proc.devRef .tc main_v236) = val_main_v236 (F := F) (V0 (Proc.devRef .tc main_arg1)) (V0 (Proc.devRef .tc main_arg14))
  v252 : W (Proc.devRef .tc main_v252) = val_main_v252 (F := F) (V0 (Proc.devRef .tc main_arg1)) (V0 (Proc.devRef .tc main_arg14))
  v254 : W (Proc.devRef .tc main_v254) = val_main_v254 (F := F) (V0 (Proc.devRef .tc main_arg14))

structure Live7 (V0 W : Valuation τ sig (Elt F)) : Prop where
  v1 : W (Proc.devRef .tc main_v1) = r_v1 V0
  v3 : W (Proc.devRef .tc main_v3) = r_v3 V0
  v114 : W (Proc.devRef .tc main_v114) = r_v114 V0
  v225 : W (Proc.devRef .tc main_v225) = r_v225 V0
  v274 : W (Proc.devRef .tc main_v274) = r_v274 V0
  v278 : W (Proc.devRef .tc main_v278) = val_main_v278 (F := F) (V0 (Proc.devRef .tc main_arg3))
  v279 : W (Proc.devRef .tc main_v279) = val_main_v279 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg14))
  v285 : W (Proc.devRef .tc main_v285) = val_main_v285 (F := F) (V0 (Proc.devRef .tc main_arg1)) (V0 (Proc.devRef .tc main_arg14))
  v301 : W (Proc.devRef .tc main_v301) = val_main_v301 (F := F) (V0 (Proc.devRef .tc main_arg1)) (V0 (Proc.devRef .tc main_arg14))
  v303 : W (Proc.devRef .tc main_v303) = val_main_v303 (F := F) (V0 (Proc.devRef .tc main_arg14))
  v304 : W (Proc.devRef .tc main_v304) = val_main_v304 (F := F)

structure Live8 (V0 W : Valuation τ sig (Elt F)) : Prop where
  v114 : W (Proc.devRef .tc main_v114) = r_v114 V0
  v225 : W (Proc.devRef .tc main_v225) = r_v225 V0
  v274 : W (Proc.devRef .tc main_v274) = r_v274 V0
  v323 : W (Proc.devRef .tc main_v323) = val_main_v323 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg14))

structure Live9 (V0 W : Valuation τ sig (Elt F)) : Prop where
  v114 : W (Proc.devRef .tc main_v114) = r_v114 V0
  v225 : W (Proc.devRef .tc main_v225) = r_v225 V0
  v336 : W (Proc.devRef .tc main_v336) = val_main_v336 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg14)) (V0 (Proc.devRef .tc main_arg15))

structure Live10 (V0 W : Valuation τ sig (Elt F)) : Prop where
  v361 : W (Proc.devRef .tc main_v361) = val_main_v361 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15))

structure Live11 (V0 W : Valuation τ sig (Elt F)) : Prop where
  v372 : W (Proc.devRef .tc main_v372) = val_main_v372 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15))

end Cert.ReferenceIdeal.RunH

end
-- ==== Proof.Ref.Chunk1.lean ====
import proofs.«400674_j14499809591724_2_alg».proof.Proof.Ref.Live

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops1 : List (HloOp τ sig (Elt F)) :=
  [ unary main_arg14 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg14 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    unary main_arg2 main_v4 ((extractStridedSlice S1x1x128x128 ![0, 0, 0, 0] · slices_S3x2x128x128_S1x1x128x128_0_0_0_0) : (⟨S3x2x128x128, .f32⟩ : BufTy).Contents (Elt F) → (⟨S1x1x128x128, .f32⟩ : BufTy).Contents (Elt F)),
    reshape main_v4 main_v5 rfl shapeCasts_S1x1x128x128_S128x128,
    unary main_arg3 main_v6 ((extractStridedSlice S1x1x128 ![0, 0, 0] · slices_S3x2x128_S1x1x128_0_0_0) : (⟨S3x2x128, .f32⟩ : BufTy).Contents (Elt F) → (⟨S1x1x128, .f32⟩ : BufTy).Contents (Elt F)),
    reshape main_v6 main_v7 rfl shapeCasts_S1x1x128_S128,
    binary main_arg0 main_v5 main_v8 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst (constant S_ .f32 0x00000000#32),
    unary main_cst main_v9 (broadcastInDim S50000 ![] bcast_S_S50000 : (⟨S_, .f32⟩ : BufTy).Contents (Elt F) → (⟨S50000, .f32⟩ : BufTy).Contents (Elt F)),
    unary main_v3 main_v10 (broadcastInDim S800000x1 ![0] bcast_S800000_S800000x1_0 : (⟨S800000, .i32⟩ : BufTy).Contents (Elt F) → (⟨S800000x1, .i32⟩ : BufTy).Contents (Elt F)),
    ternary main_v9 main_v10 main_arg1 main_v11 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_0 (constant S_ .f32 0x3F800000#32),
    unary main_cst_0 main_v12 (broadcastInDim S50000 ![] bcast_S_S50000 : (⟨S_, .f32⟩ : BufTy).Contents (Elt F) → (⟨S50000, .f32⟩ : BufTy).Contents (Elt F)),
    binary main_v11 main_v12 main_v13 (addf : (⟨S50000, .f32⟩ : BufTy).Contents (Elt F) → (⟨S50000, .f32⟩ : BufTy).Contents (Elt F) → (⟨S50000, .f32⟩ : BufTy).Contents (Elt F)),
    unary main_v13 main_v14 (Host.rsqrt : (⟨S50000, .f32⟩ : BufTy).Contents (Elt F) → (⟨S50000, .f32⟩ : BufTy).Contents (Elt F)),
    nullary main_c (constantI S_ 32 0#32),
    unary main_c main_v15 (broadcastInDim S800000 ![] bcast_S_S800000 : (⟨S_, .i32⟩ : BufTy).Contents (Elt F) → (⟨S800000, .i32⟩ : BufTy).Contents (Elt F)),
    binary main_v1 main_v15 main_v16 (cmpi .slt : (⟨S800000, .i32⟩ : BufTy).Contents (Elt F) → (⟨S800000, .i32⟩ : BufTy).Contents (Elt F) → (⟨S800000, .i1⟩ : BufTy).Contents (Elt F)),
    nullary main_c_1 (constantI S_ 32 50000#32),
    unary main_c_1 main_v17 (broadcastInDim S800000 ![] bcast_S_S800000 : (⟨S_, .i32⟩ : BufTy).Contents (Elt F) → (⟨S800000, .i32⟩ : BufTy).Contents (Elt F)),
    binary main_v1 main_v17 main_v18 (addi : (⟨S800000, .i32⟩ : BufTy).Contents (Elt F) → (⟨S800000, .i32⟩ : BufTy).Contents (Elt F) → (⟨S800000, .i32⟩ : BufTy).Contents (Elt F)),
    ternary main_v16 main_v18 main_v1 main_v19 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v19 main_v20 (broadcastInDim S800000x1 ![0] bcast_S800000_S800000x1_0 : (⟨S800000, .i32⟩ : BufTy).Contents (Elt F) → (⟨S800000x1, .i32⟩ : BufTy).Contents (Elt F)),
    binary main_v14 main_v20 main_v21 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v21 main_arg1 main_v22 (mulf : (⟨S800000, .f32⟩ : BufTy).Contents (Elt F) → (⟨S800000, .f32⟩ : BufTy).Contents (Elt F) → (⟨S800000, .f32⟩ : BufTy).Contents (Elt F)),
    nullary main_c_2 (constantI S_ 32 0#32),
    unary main_c_2 main_v23 (broadcastInDim S800000 ![] bcast_S_S800000 : (⟨S_, .i32⟩ : BufTy).Contents (Elt F) → (⟨S800000, .i32⟩ : BufTy).Contents (Elt F)),
    binary main_v3 main_v23 main_v24 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v25 (broadcastInDim S800000 ![] bcast_S_S800000 : (⟨S_, .i32⟩ : BufTy).Contents (Elt F) → (⟨S800000, .i32⟩ : BufTy).Contents (Elt F)),
    binary main_v3 main_v25 main_v26 (addi : (⟨S800000, .i32⟩ : BufTy).Contents (Elt F) → (⟨S800000, .i32⟩ : BufTy).Contents (Elt F) → (⟨S800000, .i32⟩ : BufTy).Contents (Elt F)),
    ternary main_v24 main_v26 main_v3 main_v27 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v27 main_v28 (broadcastInDim S800000x1 ![0] bcast_S800000_S800000x1_0 : (⟨S800000, .i32⟩ : BufTy).Contents (Elt F) → (⟨S800000x1, .i32⟩ : BufTy).Contents (Elt F)),
    binary main_v14 main_v28 main_v29 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v22 main_v29 main_v30 (mulf : (⟨S800000, .f32⟩ : BufTy).Contents (Elt F) → (⟨S800000, .f32⟩ : BufTy).Contents (Elt F) → (⟨S800000, .f32⟩ : BufTy).Contents (Elt F)),
    nullary main_c_4 (constantI S_ 32 0#32),
    unary main_c_4 main_v31 (broadcastInDim S800000 ![] bcast_S_S800000 : (⟨S_, .i32⟩ : BufTy).Contents (Elt F) → (⟨S800000, .i32⟩ : BufTy).Contents (Elt F)),
    binary main_v1 main_v31 main_v32 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v33 (broadcastInDim S800000 ![] bcast_S_S800000 : (⟨S_, .i32⟩ : BufTy).Contents (Elt F) → (⟨S800000, .i32⟩ : BufTy).Contents (Elt F)),
    binary main_v1 main_v33 main_v34 (addi : (⟨S800000, .i32⟩ : BufTy).Contents (Elt F) → (⟨S800000, .i32⟩ : BufTy).Contents (Elt F) → (⟨S800000, .i32⟩ : BufTy).Contents (Elt F)),
    ternary main_v32 main_v34 main_v1 main_v35 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v35 main_v36 (broadcastInDim S800000x1 ![0] bcast_S800000_S800000x1_0 : (⟨S800000, .i32⟩ : BufTy).Contents (Elt F) → (⟨S800000x1, .i32⟩ : BufTy).Contents (Elt F)),
    binary main_v8 main_v36 main_v37 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v30 main_v38 (broadcastInDim S800000x1 ![0] bcast_S800000_S800000x1_0 : (⟨S800000, .f32⟩ : BufTy).Contents (Elt F) → (⟨S800000x1, .f32⟩ : BufTy).Contents (Elt F)),
    unary main_v38 main_v39 (broadcastInDim S800000x128 ![0, 1] bcast_S800000x1_S800000x128_0_1 : (⟨S800000x1, .f32⟩ : BufTy).Contents (Elt F) → (⟨S800000x128, .f32⟩ : BufTy).Contents (Elt F)),
    binary main_v37 main_v39 main_v40 (mulf : (⟨S800000x128, .f32⟩ : BufTy).Contents (Elt F) → (⟨S800000x128, .f32⟩ : BufTy).Contents (Elt F) → (⟨S800000x128, .f32⟩ : BufTy).Contents (Elt F)),
    nullary main_cst_6 (constant S_ .f32 0x00000000#32),
    unary main_cst_6 main_v41 (broadcastInDim S50000x128 ![] bcast_S_S50000x128 : (⟨S_, .f32⟩ : BufTy).Contents (Elt F) → (⟨S50000x128, .f32⟩ : BufTy).Contents (Elt F)),
    unary main_v3 main_v42 (broadcastInDim S800000x1 ![0] bcast_S800000_S800000x1_0 : (⟨S800000, .i32⟩ : BufTy).Contents (Elt F) → (⟨S800000x1, .i32⟩ : BufTy).Contents (Elt F)),
    ternary main_v41 main_v42 main_v40 main_v43 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v14 main_v14 main_v44 (mulf : (⟨S50000, .f32⟩ : BufTy).Contents (Elt F) → (⟨S50000, .f32⟩ : BufTy).Contents (Elt F) → (⟨S50000, .f32⟩ : BufTy).Contents (Elt F)),
    unary main_v44 main_v45 (broadcastInDim S50000x1 ![0] bcast_S50000_S50000x1_0 : (⟨S50000, .f32⟩ : BufTy).Contents (Elt F) → (⟨S50000x1, .f32⟩ : BufTy).Contents (Elt F)),
    unary main_v45 main_v46 (broadcastInDim S50000x128 ![0, 1] bcast_S50000x1_S50000x128_0_1 : (⟨S50000x1, .f32⟩ : BufTy).Contents (Elt F) → (⟨S50000x128, .f32⟩ : BufTy).Contents (Elt F)),
    binary main_v8 main_v46 main_v47 (mulf : (⟨S50000x128, .f32⟩ : BufTy).Contents (Elt F) → (⟨S50000x128, .f32⟩ : BufTy).Contents (Elt F) → (⟨S50000x128, .f32⟩ : BufTy).Contents (Elt F)),
    binary main_v43 main_v47 main_v48 (addf : (⟨S50000x128, .f32⟩ : BufTy).Contents (Elt F) → (⟨S50000x128, .f32⟩ : BufTy).Contents (Elt F) → (⟨S50000x128, .f32⟩ : BufTy).Contents (Elt F)),
    unary main_v7 main_v49 (broadcastInDim S1x128 ![1] bcast_S128_S1x128_1 : (⟨S128, .f32⟩ : BufTy).Contents (Elt F) → (⟨S1x128, .f32⟩ : BufTy).Contents (Elt F)),
    unary main_v49 main_v50 (broadcastInDim S50000x128 ![0, 1] bcast_S1x128_S50000x128_0_1 : (⟨S1x128, .f32⟩ : BufTy).Contents (Elt F) → (⟨S50000x128, .f32⟩ : BufTy).Contents (Elt F)) ]

theorem ops1_sub : (ops1 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

theorem ops1_fresh : ∀ op ∈ (ops1 : List (HloOp τ sig (Elt F))), op.fresh = ∅ := by
  intro _ h; (repeat (cases h with | head => rfl | tail _ h => ?_)); exact nomatch h

set_option maxRecDepth 8192 in
set_option maxHeartbeats 40000000 in
theorem args1 {V0 W : Valuation τ sig (Elt F)} (hA : Args V0 W) : Args V0 (after ops1 W) :=
  hA.trans (by constructor <;> after_results_simp)

set_option maxRecDepth 8192 in
set_option maxHeartbeats 40000000 in
theorem live1 {V0 W : Valuation τ sig (Elt F)} (hA : Args V0 W) : Live1 V0 (after ops1 W) where
  v1 := by (after_results_simp; rw [hA.a14]) <;> rfl
  v3 := by (after_results_simp; rw [hA.a14]) <;> rfl
  v48 := by (after_results_simp; rw [hA.a14, hA.a0, hA.a2, hA.a1]) <;> rfl
  v50 := by (after_results_simp; rw [hA.a3]) <;> rfl

end Cert.ReferenceIdeal.RunH

end
-- ==== Proof.Ref.Chunk2.lean ====
import proofs.«400674_j14499809591724_2_alg».proof.Proof.Ref.Live

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops2 : List (HloOp τ sig (Elt F)) :=
  [ binary main_v48 main_v50 main_v51 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v51) (TRef.of (T := ⟨S50000x128, .f32⟩) main_call0_v0) (TRef.of (T := ⟨S50000x128, .f32⟩) main_v52) maximumf,
    unary main_arg2 main_v53 ((extractStridedSlice S1x1x128x128 ![0, 1, 0, 0] · slices_S3x2x128x128_S1x1x128x128_0_1_0_0) : (⟨S3x2x128x128, .f32⟩ : BufTy).Contents (Elt F) → (⟨S1x1x128x128, .f32⟩ : BufTy).Contents (Elt F)),
    reshape main_v53 main_v54 rfl shapeCasts_S1x1x128x128_S128x128,
    unary main_arg3 main_v55 ((extractStridedSlice S1x1x128 ![0, 1, 0] · slices_S3x2x128_S1x1x128_0_1_0) : (⟨S3x2x128, .f32⟩ : BufTy).Contents (Elt F) → (⟨S1x1x128, .f32⟩ : BufTy).Contents (Elt F)),
    reshape main_v55 main_v56 rfl shapeCasts_S1x1x128_S128,
    binary main_v52 main_v54 main_v57 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_7 (constant S_ .f32 0x00000000#32),
    unary main_cst_7 main_v58 (broadcastInDim S50000 ![] bcast_S_S50000 : (⟨S_, .f32⟩ : BufTy).Contents (Elt F) → (⟨S50000, .f32⟩ : BufTy).Contents (Elt F)),
    unary main_v3 main_v59 (broadcastInDim S800000x1 ![0] bcast_S800000_S800000x1_0 : (⟨S800000, .i32⟩ : BufTy).Contents (Elt F) → (⟨S800000x1, .i32⟩ : BufTy).Contents (Elt F)),
    ternary main_v58 main_v59 main_arg1 main_v60 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_8 (constant S_ .f32 0x3F800000#32),
    unary main_cst_8 main_v61 (broadcastInDim S50000 ![] bcast_S_S50000 : (⟨S_, .f32⟩ : BufTy).Contents (Elt F) → (⟨S50000, .f32⟩ : BufTy).Contents (Elt F)),
    binary main_v60 main_v61 main_v62 (addf : (⟨S50000, .f32⟩ : BufTy).Contents (Elt F) → (⟨S50000, .f32⟩ : BufTy).Contents (Elt F) → (⟨S50000, .f32⟩ : BufTy).Contents (Elt F)),
    unary main_v62 main_v63 (Host.rsqrt : (⟨S50000, .f32⟩ : BufTy).Contents (Elt F) → (⟨S50000, .f32⟩ : BufTy).Contents (Elt F)),
    nullary main_c_9 (constantI S_ 32 0#32),
    unary main_c_9 main_v64 (broadcastInDim S800000 ![] bcast_S_S800000 : (⟨S_, .i32⟩ : BufTy).Contents (Elt F) → (⟨S800000, .i32⟩ : BufTy).Contents (Elt F)),
    binary main_v1 main_v64 main_v65 (cmpi .slt : (⟨S800000, .i32⟩ : BufTy).Contents (Elt F) → (⟨S800000, .i32⟩ : BufTy).Contents (Elt F) → (⟨S800000, .i1⟩ : BufTy).Contents (Elt F)),
    nullary main_c_10 (constantI S_ 32 50000#32),
    unary main_c_10 main_v66 (broadcastInDim S800000 ![] bcast_S_S800000 : (⟨S_, .i32⟩ : BufTy).Contents (Elt F) → (⟨S800000, .i32⟩ : BufTy).Contents (Elt F)),
    binary main_v1 main_v66 main_v67 (addi : (⟨S800000, .i32⟩ : BufTy).Contents (Elt F) → (⟨S800000, .i32⟩ : BufTy).Contents (Elt F) → (⟨S800000, .i32⟩ : BufTy).Contents (Elt F)),
    ternary main_v65 main_v67 main_v1 main_v68 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v68 main_v69 (broadcastInDim S800000x1 ![0] bcast_S800000_S800000x1_0 : (⟨S800000, .i32⟩ : BufTy).Contents (Elt F) → (⟨S800000x1, .i32⟩ : BufTy).Contents (Elt F)),
    binary main_v63 main_v69 main_v70 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v70 main_arg1 main_v71 (mulf : (⟨S800000, .f32⟩ : BufTy).Contents (Elt F) → (⟨S800000, .f32⟩ : BufTy).Contents (Elt F) → (⟨S800000, .f32⟩ : BufTy).Contents (Elt F)),
    nullary main_c_11 (constantI S_ 32 0#32),
    unary main_c_11 main_v72 (broadcastInDim S800000 ![] bcast_S_S800000 : (⟨S_, .i32⟩ : BufTy).Contents (Elt F) → (⟨S800000, .i32⟩ : BufTy).Contents (Elt F)),
    binary main_v3 main_v72 main_v73 (cmpi .slt : (⟨S800000, .i32⟩ : BufTy).Contents (Elt F) → (⟨S800000, .i32⟩ : BufTy).Contents (Elt F) → (⟨S800000, .i1⟩ : BufTy).Contents (Elt F)),
    nullary main_c_12 (constantI S_ 32 50000#32),
    unary main_c_12 main_v74 (broadcastInDim S800000 ![] bcast_S_S800000 : (⟨S_, .i32⟩ : BufTy).Contents (Elt F) → (⟨S800000, .i32⟩ : BufTy).Contents (Elt F)),
    binary main_v3 main_v74 main_v75 (addi : (⟨S800000, .i32⟩ : BufTy).Contents (Elt F) → (⟨S800000, .i32⟩ : BufTy).Contents (Elt F) → (⟨S800000, .i32⟩ : BufTy).Contents (Elt F)),
    ternary main_v73 main_v75 main_v3 main_v76 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v76 main_v77 (broadcastInDim S800000x1 ![0] bcast_S800000_S800000x1_0 : (⟨S800000, .i32⟩ : BufTy).Contents (Elt F) → (⟨S800000x1, .i32⟩ : BufTy).Contents (Elt F)),
    binary main_v63 main_v77 main_v78 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v71 main_v78 main_v79 (mulf : (⟨S800000, .f32⟩ : BufTy).Contents (Elt F) → (⟨S800000, .f32⟩ : BufTy).Contents (Elt F) → (⟨S800000, .f32⟩ : BufTy).Contents (Elt F)),
    nullary main_c_13 (constantI S_ 32 0#32),
    unary main_c_13 main_v80 (broadcastInDim S800000 ![] bcast_S_S800000 : (⟨S_, .i32⟩ : BufTy).Contents (Elt F) → (⟨S800000, .i32⟩ : BufTy).Contents (Elt F)),
    binary main_v1 main_v80 main_v81 (cmpi .slt : (⟨S800000, .i32⟩ : BufTy).Contents (Elt F) → (⟨S800000, .i32⟩ : BufTy).Contents (Elt F) → (⟨S800000, .i1⟩ : BufTy).Contents (Elt F)),
    nullary main_c_14 (constantI S_ 32 50000#32),
    unary main_c_14 main_v82 (broadcastInDim S800000 ![] bcast_S_S800000 : (⟨S_, .i32⟩ : BufTy).Contents (Elt F) → (⟨S800000, .i32⟩ : BufTy).Contents (Elt F)),
    binary main_v1 main_v82 main_v83 (addi : (⟨S800000, .i32⟩ : BufTy).Contents (Elt F) → (⟨S800000, .i32⟩ : BufTy).Contents (Elt F) → (⟨S800000, .i32⟩ : BufTy).Contents (Elt F)),
    ternary main_v81 main_v83 main_v1 main_v84 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v84 main_v85 (broadcastInDim S800000x1 ![0] bcast_S800000_S800000x1_0 : (⟨S800000, .i32⟩ : BufTy).Contents (Elt F) → (⟨S800000x1, .i32⟩ : BufTy).Contents (Elt F)),
    binary main_v57 main_v85 main_v86 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v79 main_v87 (broadcastInDim S800000x1 ![0] bcast_S800000_S800000x1_0 : (⟨S800000, .f32⟩ : BufTy).Contents (Elt F) → (⟨S800000x1, .f32⟩ : BufTy).Contents (Elt F)),
    unary main_v87 main_v88 (broadcastInDim S800000x128 ![0, 1] bcast_S800000x1_S800000x128_0_1 : (⟨S800000x1, .f32⟩ : BufTy).Contents (Elt F) → (⟨S800000x128, .f32⟩ : BufTy).Contents (Elt F)),
    binary main_v86 main_v88 main_v89 (mulf : (⟨S800000x128, .f32⟩ : BufTy).Contents (Elt F) → (⟨S800000x128, .f32⟩ : BufTy).Contents (Elt F) → (⟨S800000x128, .f32⟩ : BufTy).Contents (Elt F)),
    nullary main_cst_15 (constant S_ .f32 0x00000000#32),
    unary main_cst_15 main_v90 (broadcastInDim S50000x128 ![] bcast_S_S50000x128 : (⟨S_, .f32⟩ : BufTy).Contents (Elt F) → (⟨S50000x128, .f32⟩ : BufTy).Contents (Elt F)),
    unary main_v3 main_v91 (broadcastInDim S800000x1 ![0] bcast_S800000_S800000x1_0 : (⟨S800000, .i32⟩ : BufTy).Contents (Elt F) → (⟨S800000x1, .i32⟩ : BufTy).Contents (Elt F)),
    ternary main_v90 main_v91 main_v89 main_v92 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v63 main_v63 main_v93 (mulf : (⟨S50000, .f32⟩ : BufTy).Contents (Elt F) → (⟨S50000, .f32⟩ : BufTy).Contents (Elt F) → (⟨S50000, .f32⟩ : BufTy).Contents (Elt F)),
    unary main_v93 main_v94 (broadcastInDim S50000x1 ![0] bcast_S50000_S50000x1_0 : (⟨S50000, .f32⟩ : BufTy).Contents (Elt F) → (⟨S50000x1, .f32⟩ : BufTy).Contents (Elt F)),
    unary main_v94 main_v95 (broadcastInDim S50000x128 ![0, 1] bcast_S50000x1_S50000x128_0_1 : (⟨S50000x1, .f32⟩ : BufTy).Contents (Elt F) → (⟨S50000x128, .f32⟩ : BufTy).Contents (Elt F)),
    binary main_v57 main_v95 main_v96 (mulf : (⟨S50000x128, .f32⟩ : BufTy).Contents (Elt F) → (⟨S50000x128, .f32⟩ : BufTy).Contents (Elt F) → (⟨S50000x128, .f32⟩ : BufTy).Contents (Elt F)),
    binary main_v92 main_v96 main_v97 (addf : (⟨S50000x128, .f32⟩ : BufTy).Contents (Elt F) → (⟨S50000x128, .f32⟩ : BufTy).Contents (Elt F) → (⟨S50000x128, .f32⟩ : BufTy).Contents (Elt F)),
    unary main_v56 main_v98 (broadcastInDim S1x128 ![1] bcast_S128_S1x128_1 : (⟨S128, .f32⟩ : BufTy).Contents (Elt F) → (⟨S1x128, .f32⟩ : BufTy).Contents (Elt F)),
    unary main_v98 main_v99 (broadcastInDim S50000x128 ![0, 1] bcast_S1x128_S50000x128_0_1 : (⟨S1x128, .f32⟩ : BufTy).Contents (Elt F) → (⟨S50000x128, .f32⟩ : BufTy).Contents (Elt F)),
    binary main_v97 main_v99 main_v100 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v100) (TRef.of (T := ⟨S50000x128, .f32⟩) main_call1_v0) (TRef.of (T := ⟨S50000x128, .f32⟩) main_v101) maximumf ]

theorem ops2_sub : (ops2 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

theorem ops2_fresh : ∀ op ∈ (ops2 : List (HloOp τ sig (Elt F))), op.fresh = ∅ := by
  intro _ h; (repeat (cases h with | head => rfl | tail _ h => ?_)); exact nomatch h

set_option maxRecDepth 8192 in
set_option maxHeartbeats 40000000 in
theorem args2 {V0 W : Valuation τ sig (Elt F)} (hA : Args V0 W) : Args V0 (after ops2 W) :=
  hA.trans (by constructor <;> after_results_simp)

set_option maxRecDepth 8192 in
set_option maxHeartbeats 40000000 in
theorem live2 {V0 W : Valuation τ sig (Elt F)} (hA : Args V0 W) (hL : Live1 V0 W) : Live2 V0 (after ops2 W) where
  v1 := by after_results_simp; exact hL.v1
  v3 := by after_results_simp; exact hL.v3
  v52 := by (after_results_simp; rw [hL.v48, hL.v50]) <;> rfl
  v101 := by (after_results_simp; rw [hL.v3, hL.v48, hL.v50, hA.a2, hL.v1, hA.a1, hA.a3]) <;> rfl

end Cert.ReferenceIdeal.RunH

end
-- ==== Proof.Ref.Chunk3.lean ====
import proofs.«400674_j14499809591724_2_alg».proof.Proof.Ref.Live

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops3 : List (HloOp τ sig (Elt F)) :=
  [ binary main_v52 main_v101 main_v102 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg4 main_v103 ((extractStridedSlice S1x256x128 ![0, 0, 0] · slices_S3x256x128_S1x256x128_0_0_0) : (⟨S3x256x128, .f32⟩ : BufTy).Contents (Elt F) → (⟨S1x256x128, .f32⟩ : BufTy).Contents (Elt F)),
    reshape main_v103 main_v104 rfl shapeCasts_S1x256x128_S256x128,
    binary main_v102 main_v104 main_v105 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg5 main_v106 ((extractStridedSlice S1x128 ![0, 0] · slices_S3x128_S1x128_0_0) : (⟨S3x128, .f32⟩ : BufTy).Contents (Elt F) → (⟨S1x128, .f32⟩ : BufTy).Contents (Elt F)),
    reshape main_v106 main_v107 rfl shapeCasts_S1x128_S128,
    unary main_v107 main_v108 (broadcastInDim S1x128 ![1] bcast_S128_S1x128_1 : (⟨S128, .f32⟩ : BufTy).Contents (Elt F) → (⟨S1x128, .f32⟩ : BufTy).Contents (Elt F)),
    unary main_v108 main_v109 (broadcastInDim S50000x128 ![0, 1] bcast_S1x128_S50000x128_0_1 : (⟨S1x128, .f32⟩ : BufTy).Contents (Elt F) → (⟨S50000x128, .f32⟩ : BufTy).Contents (Elt F)),
    binary main_v105 main_v109 main_v110 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v110) (TRef.of (T := ⟨S50000x128, .f32⟩) main_call2_v0) (TRef.of (T := ⟨S50000x128, .f32⟩) main_v111) maximumf,
    nullary main_cst_16 (constant S_ .f32 0x00000000#32),
    unary main_cst_16 main_v112 (broadcastInDim S512x128 ![] bcast_S_S512x128 : (⟨S_, .f32⟩ : BufTy).Contents (Elt F) → (⟨S512x128, .f32⟩ : BufTy).Contents (Elt F)),
    unary main_arg15 main_v113 (broadcastInDim S50000x1 ![0] bcast_S50000_S50000x1_0 : (⟨S50000, .i32⟩ : BufTy).Contents (Elt F) → (⟨S50000x1, .i32⟩ : BufTy).Contents (Elt F)),
    ternary main_v112 main_v113 main_v111 main_v114 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    unary main_arg2 main_v115 ((extractStridedSlice S1x1x128x128 ![1, 0, 0, 0] · slices_S3x2x128x128_S1x1x128x128_1_0_0_0) : (⟨S3x2x128x128, .f32⟩ : BufTy).Contents (Elt F) → (⟨S1x1x128x128, .f32⟩ : BufTy).Contents (Elt F)),
    reshape main_v115 main_v116 rfl shapeCasts_S1x1x128x128_S128x128,
    unary main_arg3 main_v117 ((extractStridedSlice S1x1x128 ![1, 0, 0] · slices_S3x2x128_S1x1x128_1_0_0) : (⟨S3x2x128, .f32⟩ : BufTy).Contents (Elt F) → (⟨S1x1x128, .f32⟩ : BufTy).Contents (Elt F)),
    reshape main_v117 main_v118 rfl shapeCasts_S1x1x128_S128,
    binary main_v111 main_v116 main_v119 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_17 (constant S_ .f32 0x00000000#32),
    unary main_cst_17 main_v120 (broadcastInDim S50000 ![] bcast_S_S50000 : (⟨S_, .f32⟩ : BufTy).Contents (Elt F) → (⟨S50000, .f32⟩ : BufTy).Contents (Elt F)),
    unary main_v3 main_v121 (broadcastInDim S800000x1 ![0] bcast_S800000_S800000x1_0 : (⟨S800000, .i32⟩ : BufTy).Contents (Elt F) → (⟨S800000x1, .i32⟩ : BufTy).Contents (Elt F)),
    ternary main_v120 main_v121 main_arg1 main_v122 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_18 (constant S_ .f32 0x3F800000#32),
    unary main_cst_18 main_v123 (broadcastInDim S50000 ![] bcast_S_S50000 : (⟨S_, .f32⟩ : BufTy).Contents (Elt F) → (⟨S50000, .f32⟩ : BufTy).Contents (Elt F)),
    binary main_v122 main_v123 main_v124 (addf : (⟨S50000, .f32⟩ : BufTy).Contents (Elt F) → (⟨S50000, .f32⟩ : BufTy).Contents (Elt F) → (⟨S50000, .f32⟩ : BufTy).Contents (Elt F)),
    unary main_v124 main_v125 (Host.rsqrt : (⟨S50000, .f32⟩ : BufTy).Contents (Elt F) → (⟨S50000, .f32⟩ : BufTy).Contents (Elt F)),
    nullary main_c_19 (constantI S_ 32 0#32),
    unary main_c_19 main_v126 (broadcastInDim S800000 ![] bcast_S_S800000 : (⟨S_, .i32⟩ : BufTy).Contents (Elt F) → (⟨S800000, .i32⟩ : BufTy).Contents (Elt F)),
    binary main_v1 main_v126 main_v127 (cmpi .slt : (⟨S800000, .i32⟩ : BufTy).Contents (Elt F) → (⟨S800000, .i32⟩ : BufTy).Contents (Elt F) → (⟨S800000, .i1⟩ : BufTy).Contents (Elt F)),
    nullary main_c_20 (constantI S_ 32 50000#32),
    unary main_c_20 main_v128 (broadcastInDim S800000 ![] bcast_S_S800000 : (⟨S_, .i32⟩ : BufTy).Contents (Elt F) → (⟨S800000, .i32⟩ : BufTy).Contents (Elt F)),
    binary main_v1 main_v128 main_v129 (addi : (⟨S800000, .i32⟩ : BufTy).Contents (Elt F) → (⟨S800000, .i32⟩ : BufTy).Contents (Elt F) → (⟨S800000, .i32⟩ : BufTy).Contents (Elt F)),
    ternary main_v127 main_v129 main_v1 main_v130 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v130 main_v131 (broadcastInDim S800000x1 ![0] bcast_S800000_S800000x1_0 : (⟨S800000, .i32⟩ : BufTy).Contents (Elt F) → (⟨S800000x1, .i32⟩ : BufTy).Contents (Elt F)),
    binary main_v125 main_v131 main_v132 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v132 main_arg1 main_v133 (mulf : (⟨S800000, .f32⟩ : BufTy).Contents (Elt F) → (⟨S800000, .f32⟩ : BufTy).Contents (Elt F) → (⟨S800000, .f32⟩ : BufTy).Contents (Elt F)),
    nullary main_c_21 (constantI S_ 32 0#32),
    unary main_c_21 main_v134 (broadcastInDim S800000 ![] bcast_S_S800000 : (⟨S_, .i32⟩ : BufTy).Contents (Elt F) → (⟨S800000, .i32⟩ : BufTy).Contents (Elt F)),
    binary main_v3 main_v134 main_v135 (cmpi .slt : (⟨S800000, .i32⟩ : BufTy).Contents (Elt F) → (⟨S800000, .i32⟩ : BufTy).Contents (Elt F) → (⟨S800000, .i1⟩ : BufTy).Contents (Elt F)),
    nullary main_c_22 (constantI S_ 32 50000#32),
    unary main_c_22 main_v136 (broadcastInDim S800000 ![] bcast_S_S800000 : (⟨S_, .i32⟩ : BufTy).Contents (Elt F) → (⟨S800000, .i32⟩ : BufTy).Contents (Elt F)),
    binary main_v3 main_v136 main_v137 (addi : (⟨S800000, .i32⟩ : BufTy).Contents (Elt F) → (⟨S800000, .i32⟩ : BufTy).Contents (Elt F) → (⟨S800000, .i32⟩ : BufTy).Contents (Elt F)),
    ternary main_v135 main_v137 main_v3 main_v138 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v138 main_v139 (broadcastInDim S800000x1 ![0] bcast_S800000_S800000x1_0 : (⟨S800000, .i32⟩ : BufTy).Contents (Elt F) → (⟨S800000x1, .i32⟩ : BufTy).Contents (Elt F)),
    binary main_v125 main_v139 main_v140 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v133 main_v140 main_v141 (mulf : (⟨S800000, .f32⟩ : BufTy).Contents (Elt F) → (⟨S800000, .f32⟩ : BufTy).Contents (Elt F) → (⟨S800000, .f32⟩ : BufTy).Contents (Elt F)),
    nullary main_c_23 (constantI S_ 32 0#32),
    unary main_c_23 main_v142 (broadcastInDim S800000 ![] bcast_S_S800000 : (⟨S_, .i32⟩ : BufTy).Contents (Elt F) → (⟨S800000, .i32⟩ : BufTy).Contents (Elt F)),
    binary main_v1 main_v142 main_v143 (cmpi .slt : (⟨S800000, .i32⟩ : BufTy).Contents (Elt F) → (⟨S800000, .i32⟩ : BufTy).Contents (Elt F) → (⟨S800000, .i1⟩ : BufTy).Contents (Elt F)),
    nullary main_c_24 (constantI S_ 32 50000#32),
    unary main_c_24 main_v144 (broadcastInDim S800000 ![] bcast_S_S800000 : (⟨S_, .i32⟩ : BufTy).Contents (Elt F) → (⟨S800000, .i32⟩ : BufTy).Contents (Elt F)),
    binary main_v1 main_v144 main_v145 (addi : (⟨S800000, .i32⟩ : BufTy).Contents (Elt F) → (⟨S800000, .i32⟩ : BufTy).Contents (Elt F) → (⟨S800000, .i32⟩ : BufTy).Contents (Elt F)),
    ternary main_v143 main_v145 main_v1 main_v146 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v146 main_v147 (broadcastInDim S800000x1 ![0] bcast_S800000_S800000x1_0 : (⟨S800000, .i32⟩ : BufTy).Contents (Elt F) → (⟨S800000x1, .i32⟩ : BufTy).Contents (Elt F)),
    binary main_v119 main_v147 main_v148 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v141 main_v149 (broadcastInDim S800000x1 ![0] bcast_S800000_S800000x1_0 : (⟨S800000, .f32⟩ : BufTy).Contents (Elt F) → (⟨S800000x1, .f32⟩ : BufTy).Contents (Elt F)),
    unary main_v149 main_v150 (broadcastInDim S800000x128 ![0, 1] bcast_S800000x1_S800000x128_0_1 : (⟨S800000x1, .f32⟩ : BufTy).Contents (Elt F) → (⟨S800000x128, .f32⟩ : BufTy).Contents (Elt F)),
    binary main_v148 main_v150 main_v151 (mulf : (⟨S800000x128, .f32⟩ : BufTy).Contents (Elt F) → (⟨S800000x128, .f32⟩ : BufTy).Contents (Elt F) → (⟨S800000x128, .f32⟩ : BufTy).Contents (Elt F)),
    nullary main_cst_25 (constant S_ .f32 0x00000000#32) ]

theorem ops3_sub : (ops3 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

theorem ops3_fresh : ∀ op ∈ (ops3 : List (HloOp τ sig (Elt F))), op.fresh = ∅ := by
  intro _ h; (repeat (cases h with | head => rfl | tail _ h => ?_)); exact nomatch h

set_option maxRecDepth 8192 in
set_option maxHeartbeats 40000000 in
theorem args3 {V0 W : Valuation τ sig (Elt F)} (hA : Args V0 W) : Args V0 (after ops3 W) :=
  hA.trans (by constructor <;> after_results_simp)

set_option maxRecDepth 8192 in
set_option maxHeartbeats 40000000 in
theorem live3 {V0 W : Valuation τ sig (Elt F)} (hA : Args V0 W) (hL : Live2 V0 W) : Live3 V0 (after ops3 W) where
  v1 := by after_results_simp; exact hL.v1
  v3 := by after_results_simp; exact hL.v3
  v114 := by (after_results_simp; rw [hA.a15, hL.v52, hL.v101, hA.a4, hA.a5]) <;> rfl
  v118 := by (after_results_simp; rw [hA.a3]) <;> rfl
  v119 := by (after_results_simp; rw [hL.v52, hL.v101, hA.a4, hA.a5, hA.a2]) <;> rfl
  v125 := by (after_results_simp; rw [hL.v3, hA.a1]) <;> rfl
  v151 := by (after_results_simp; rw [hL.v52, hL.v101, hA.a4, hA.a5, hA.a2, hL.v1, hL.v3, hA.a1]) <;> rfl
  cst_25 := by (after_results_simp) <;> rfl

end Cert.ReferenceIdeal.RunH

end
-- ==== Proof.Ref.Chunk4.lean ====
import proofs.«400674_j14499809591724_2_alg».proof.Proof.Ref.Live

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops4 : List (HloOp τ sig (Elt F)) :=
  [ unary main_cst_25 main_v152 (broadcastInDim S50000x128 ![] bcast_S_S50000x128 : (⟨S_, .f32⟩ : BufTy).Contents (Elt F) → (⟨S50000x128, .f32⟩ : BufTy).Contents (Elt F)),
    unary main_v3 main_v153 (broadcastInDim S800000x1 ![0] bcast_S800000_S800000x1_0 : (⟨S800000, .i32⟩ : BufTy).Contents (Elt F) → (⟨S800000x1, .i32⟩ : BufTy).Contents (Elt F)),
    ternary main_v152 main_v153 main_v151 main_v154 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v125 main_v125 main_v155 (mulf : (⟨S50000, .f32⟩ : BufTy).Contents (Elt F) → (⟨S50000, .f32⟩ : BufTy).Contents (Elt F) → (⟨S50000, .f32⟩ : BufTy).Contents (Elt F)),
    unary main_v155 main_v156 (broadcastInDim S50000x1 ![0] bcast_S50000_S50000x1_0 : (⟨S50000, .f32⟩ : BufTy).Contents (Elt F) → (⟨S50000x1, .f32⟩ : BufTy).Contents (Elt F)),
    unary main_v156 main_v157 (broadcastInDim S50000x128 ![0, 1] bcast_S50000x1_S50000x128_0_1 : (⟨S50000x1, .f32⟩ : BufTy).Contents (Elt F) → (⟨S50000x128, .f32⟩ : BufTy).Contents (Elt F)),
    binary main_v119 main_v157 main_v158 (mulf : (⟨S50000x128, .f32⟩ : BufTy).Contents (Elt F) → (⟨S50000x128, .f32⟩ : BufTy).Contents (Elt F) → (⟨S50000x128, .f32⟩ : BufTy).Contents (Elt F)),
    binary main_v154 main_v158 main_v159 (addf : (⟨S50000x128, .f32⟩ : BufTy).Contents (Elt F) → (⟨S50000x128, .f32⟩ : BufTy).Contents (Elt F) → (⟨S50000x128, .f32⟩ : BufTy).Contents (Elt F)),
    unary main_v118 main_v160 (broadcastInDim S1x128 ![1] bcast_S128_S1x128_1 : (⟨S128, .f32⟩ : BufTy).Contents (Elt F) → (⟨S1x128, .f32⟩ : BufTy).Contents (Elt F)),
    unary main_v160 main_v161 (broadcastInDim S50000x128 ![0, 1] bcast_S1x128_S50000x128_0_1 : (⟨S1x128, .f32⟩ : BufTy).Contents (Elt F) → (⟨S50000x128, .f32⟩ : BufTy).Contents (Elt F)),
    binary main_v159 main_v161 main_v162 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v162) (TRef.of (T := ⟨S50000x128, .f32⟩) main_call3_v0) (TRef.of (T := ⟨S50000x128, .f32⟩) main_v163) maximumf,
    unary main_arg2 main_v164 ((extractStridedSlice S1x1x128x128 ![1, 1, 0, 0] · slices_S3x2x128x128_S1x1x128x128_1_1_0_0) : (⟨S3x2x128x128, .f32⟩ : BufTy).Contents (Elt F) → (⟨S1x1x128x128, .f32⟩ : BufTy).Contents (Elt F)),
    reshape main_v164 main_v165 rfl shapeCasts_S1x1x128x128_S128x128,
    unary main_arg3 main_v166 ((extractStridedSlice S1x1x128 ![1, 1, 0] · slices_S3x2x128_S1x1x128_1_1_0) : (⟨S3x2x128, .f32⟩ : BufTy).Contents (Elt F) → (⟨S1x1x128, .f32⟩ : BufTy).Contents (Elt F)),
    reshape main_v166 main_v167 rfl shapeCasts_S1x1x128_S128,
    binary main_v163 main_v165 main_v168 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_26 (constant S_ .f32 0x00000000#32),
    unary main_cst_26 main_v169 (broadcastInDim S50000 ![] bcast_S_S50000 : (⟨S_, .f32⟩ : BufTy).Contents (Elt F) → (⟨S50000, .f32⟩ : BufTy).Contents (Elt F)),
    unary main_v3 main_v170 (broadcastInDim S800000x1 ![0] bcast_S800000_S800000x1_0 : (⟨S800000, .i32⟩ : BufTy).Contents (Elt F) → (⟨S800000x1, .i32⟩ : BufTy).Contents (Elt F)),
    ternary main_v169 main_v170 main_arg1 main_v171 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_27 (constant S_ .f32 0x3F800000#32),
    unary main_cst_27 main_v172 (broadcastInDim S50000 ![] bcast_S_S50000 : (⟨S_, .f32⟩ : BufTy).Contents (Elt F) → (⟨S50000, .f32⟩ : BufTy).Contents (Elt F)),
    binary main_v171 main_v172 main_v173 (addf : (⟨S50000, .f32⟩ : BufTy).Contents (Elt F) → (⟨S50000, .f32⟩ : BufTy).Contents (Elt F) → (⟨S50000, .f32⟩ : BufTy).Contents (Elt F)),
    unary main_v173 main_v174 (Host.rsqrt : (⟨S50000, .f32⟩ : BufTy).Contents (Elt F) → (⟨S50000, .f32⟩ : BufTy).Contents (Elt F)),
    nullary main_c_28 (constantI S_ 32 0#32),
    unary main_c_28 main_v175 (broadcastInDim S800000 ![] bcast_S_S800000 : (⟨S_, .i32⟩ : BufTy).Contents (Elt F) → (⟨S800000, .i32⟩ : BufTy).Contents (Elt F)),
    binary main_v1 main_v175 main_v176 (cmpi .slt : (⟨S800000, .i32⟩ : BufTy).Contents (Elt F) → (⟨S800000, .i32⟩ : BufTy).Contents (Elt F) → (⟨S800000, .i1⟩ : BufTy).Contents (Elt F)),
    nullary main_c_29 (constantI S_ 32 50000#32),
    unary main_c_29 main_v177 (broadcastInDim S800000 ![] bcast_S_S800000 : (⟨S_, .i32⟩ : BufTy).Contents (Elt F) → (⟨S800000, .i32⟩ : BufTy).Contents (Elt F)),
    binary main_v1 main_v177 main_v178 (addi : (⟨S800000, .i32⟩ : BufTy).Contents (Elt F) → (⟨S800000, .i32⟩ : BufTy).Contents (Elt F) → (⟨S800000, .i32⟩ : BufTy).Contents (Elt F)),
    ternary main_v176 main_v178 main_v1 main_v179 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v179 main_v180 (broadcastInDim S800000x1 ![0] bcast_S800000_S800000x1_0 : (⟨S800000, .i32⟩ : BufTy).Contents (Elt F) → (⟨S800000x1, .i32⟩ : BufTy).Contents (Elt F)),
    binary main_v174 main_v180 main_v181 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v181 main_arg1 main_v182 (mulf : (⟨S800000, .f32⟩ : BufTy).Contents (Elt F) → (⟨S800000, .f32⟩ : BufTy).Contents (Elt F) → (⟨S800000, .f32⟩ : BufTy).Contents (Elt F)),
    nullary main_c_30 (constantI S_ 32 0#32),
    unary main_c_30 main_v183 (broadcastInDim S800000 ![] bcast_S_S800000 : (⟨S_, .i32⟩ : BufTy).Contents (Elt F) → (⟨S800000, .i32⟩ : BufTy).Contents (Elt F)),
    binary main_v3 main_v183 main_v184 (cmpi .slt : (⟨S800000, .i32⟩ : BufTy).Contents (Elt F) → (⟨S800000, .i32⟩ : BufTy).Contents (Elt F) → (⟨S800000, .i1⟩ : BufTy).Contents (Elt F)),
    nullary main_c_31 (constantI S_ 32 50000#32),
    unary main_c_31 main_v185 (broadcastInDim S800000 ![] bcast_S_S800000 : (⟨S_, .i32⟩ : BufTy).Contents (Elt F) → (⟨S800000, .i32⟩ : BufTy).Contents (Elt F)),
    binary main_v3 main_v185 main_v186 (addi : (⟨S800000, .i32⟩ : BufTy).Contents (Elt F) → (⟨S800000, .i32⟩ : BufTy).Contents (Elt F) → (⟨S800000, .i32⟩ : BufTy).Contents (Elt F)),
    ternary main_v184 main_v186 main_v3 main_v187 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v187 main_v188 (broadcastInDim S800000x1 ![0] bcast_S800000_S800000x1_0 : (⟨S800000, .i32⟩ : BufTy).Contents (Elt F) → (⟨S800000x1, .i32⟩ : BufTy).Contents (Elt F)),
    binary main_v174 main_v188 main_v189 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v182 main_v189 main_v190 (mulf : (⟨S800000, .f32⟩ : BufTy).Contents (Elt F) → (⟨S800000, .f32⟩ : BufTy).Contents (Elt F) → (⟨S800000, .f32⟩ : BufTy).Contents (Elt F)),
    nullary main_c_32 (constantI S_ 32 0#32),
    unary main_c_32 main_v191 (broadcastInDim S800000 ![] bcast_S_S800000 : (⟨S_, .i32⟩ : BufTy).Contents (Elt F) → (⟨S800000, .i32⟩ : BufTy).Contents (Elt F)),
    binary main_v1 main_v191 main_v192 (cmpi .slt : (⟨S800000, .i32⟩ : BufTy).Contents (Elt F) → (⟨S800000, .i32⟩ : BufTy).Contents (Elt F) → (⟨S800000, .i1⟩ : BufTy).Contents (Elt F)),
    nullary main_c_33 (constantI S_ 32 50000#32),
    unary main_c_33 main_v193 (broadcastInDim S800000 ![] bcast_S_S800000 : (⟨S_, .i32⟩ : BufTy).Contents (Elt F) → (⟨S800000, .i32⟩ : BufTy).Contents (Elt F)),
    binary main_v1 main_v193 main_v194 (addi : (⟨S800000, .i32⟩ : BufTy).Contents (Elt F) → (⟨S800000, .i32⟩ : BufTy).Contents (Elt F) → (⟨S800000, .i32⟩ : BufTy).Contents (Elt F)),
    ternary main_v192 main_v194 main_v1 main_v195 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v195 main_v196 (broadcastInDim S800000x1 ![0] bcast_S800000_S800000x1_0 : (⟨S800000, .i32⟩ : BufTy).Contents (Elt F) → (⟨S800000x1, .i32⟩ : BufTy).Contents (Elt F)),
    binary main_v168 main_v196 main_v197 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v190 main_v198 (broadcastInDim S800000x1 ![0] bcast_S800000_S800000x1_0 : (⟨S800000, .f32⟩ : BufTy).Contents (Elt F) → (⟨S800000x1, .f32⟩ : BufTy).Contents (Elt F)),
    unary main_v198 main_v199 (broadcastInDim S800000x128 ![0, 1] bcast_S800000x1_S800000x128_0_1 : (⟨S800000x1, .f32⟩ : BufTy).Contents (Elt F) → (⟨S800000x128, .f32⟩ : BufTy).Contents (Elt F)),
    binary main_v197 main_v199 main_v200 (mulf : (⟨S800000x128, .f32⟩ : BufTy).Contents (Elt F) → (⟨S800000x128, .f32⟩ : BufTy).Contents (Elt F) → (⟨S800000x128, .f32⟩ : BufTy).Contents (Elt F)),
    nullary main_cst_34 (constant S_ .f32 0x00000000#32),
    unary main_cst_34 main_v201 (broadcastInDim S50000x128 ![] bcast_S_S50000x128 : (⟨S_, .f32⟩ : BufTy).Contents (Elt F) → (⟨S50000x128, .f32⟩ : BufTy).Contents (Elt F)),
    unary main_v3 main_v202 (broadcastInDim S800000x1 ![0] bcast_S800000_S800000x1_0 : (⟨S800000, .i32⟩ : BufTy).Contents (Elt F) → (⟨S800000x1, .i32⟩ : BufTy).Contents (Elt F)) ]

theorem ops4_sub : (ops4 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

theorem ops4_fresh : ∀ op ∈ (ops4 : List (HloOp τ sig (Elt F))), op.fresh = ∅ := by
  intro _ h; (repeat (cases h with | head => rfl | tail _ h => ?_)); exact nomatch h

set_option maxRecDepth 8192 in
set_option maxHeartbeats 40000000 in
theorem args4 {V0 W : Valuation τ sig (Elt F)} (hA : Args V0 W) : Args V0 (after ops4 W) :=
  hA.trans (by constructor <;> after_results_simp)

set_option maxRecDepth 8192 in
set_option maxHeartbeats 40000000 in
theorem live4 {V0 W : Valuation τ sig (Elt F)} (hA : Args V0 W) (hL : Live3 V0 W) : Live4 V0 (after ops4 W) where
  v1 := by after_results_simp; exact hL.v1
  v3 := by after_results_simp; exact hL.v3
  v114 := by after_results_simp; exact hL.v114
  v163 := by (after_results_simp; rw [hL.cst_25, hL.v3, hL.v151, hL.v119, hL.v125, hL.v118]) <;> rfl
  v167 := by (after_results_simp; rw [hA.a3]) <;> rfl
  v168 := by (after_results_simp; rw [hL.cst_25, hL.v3, hL.v151, hL.v119, hL.v125, hL.v118, hA.a2]) <;> rfl
  v174 := by (after_results_simp; rw [hL.v3, hA.a1]) <;> rfl
  v200 := by (after_results_simp; rw [hL.cst_25, hL.v3, hL.v151, hL.v119, hL.v125, hL.v118, hA.a2, hL.v1, hA.a1]) <;> rfl
  v201 := by (after_results_simp) <;> rfl
  v202 := by (after_results_simp; rw [hL.v3]) <;> rfl

end Cert.ReferenceIdeal.RunH

end
-- ==== Proof.Ref.Chunk5.lean ====
import proofs.«400674_j14499809591724_2_alg».proof.Proof.Ref.Live

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops5 : List (HloOp τ sig (Elt F)) :=
  [ ternary main_v201 main_v202 main_v200 main_v203 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v174 main_v174 main_v204 (mulf : (⟨S50000, .f32⟩ : BufTy).Contents (Elt F) → (⟨S50000, .f32⟩ : BufTy).Contents (Elt F) → (⟨S50000, .f32⟩ : BufTy).Contents (Elt F)),
    unary main_v204 main_v205 (broadcastInDim S50000x1 ![0] bcast_S50000_S50000x1_0 : (⟨S50000, .f32⟩ : BufTy).Contents (Elt F) → (⟨S50000x1, .f32⟩ : BufTy).Contents (Elt F)),
    unary main_v205 main_v206 (broadcastInDim S50000x128 ![0, 1] bcast_S50000x1_S50000x128_0_1 : (⟨S50000x1, .f32⟩ : BufTy).Contents (Elt F) → (⟨S50000x128, .f32⟩ : BufTy).Contents (Elt F)),
    binary main_v168 main_v206 main_v207 (mulf : (⟨S50000x128, .f32⟩ : BufTy).Contents (Elt F) → (⟨S50000x128, .f32⟩ : BufTy).Contents (Elt F) → (⟨S50000x128, .f32⟩ : BufTy).Contents (Elt F)),
    binary main_v203 main_v207 main_v208 (addf : (⟨S50000x128, .f32⟩ : BufTy).Contents (Elt F) → (⟨S50000x128, .f32⟩ : BufTy).Contents (Elt F) → (⟨S50000x128, .f32⟩ : BufTy).Contents (Elt F)),
    unary main_v167 main_v209 (broadcastInDim S1x128 ![1] bcast_S128_S1x128_1 : (⟨S128, .f32⟩ : BufTy).Contents (Elt F) → (⟨S1x128, .f32⟩ : BufTy).Contents (Elt F)),
    unary main_v209 main_v210 (broadcastInDim S50000x128 ![0, 1] bcast_S1x128_S50000x128_0_1 : (⟨S1x128, .f32⟩ : BufTy).Contents (Elt F) → (⟨S50000x128, .f32⟩ : BufTy).Contents (Elt F)),
    binary main_v208 main_v210 main_v211 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v211) (TRef.of (T := ⟨S50000x128, .f32⟩) main_call4_v0) (TRef.of (T := ⟨S50000x128, .f32⟩) main_v212) maximumf ]

theorem ops5_sub : (ops5 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

theorem ops5_fresh : ∀ op ∈ (ops5 : List (HloOp τ sig (Elt F))), op.fresh = ∅ := by
  intro _ h; (repeat (cases h with | head => rfl | tail _ h => ?_)); exact nomatch h

set_option maxRecDepth 8192 in
set_option maxHeartbeats 40000000 in
theorem args5 {V0 W : Valuation τ sig (Elt F)} (hA : Args V0 W) : Args V0 (after ops5 W) :=
  hA.trans (by constructor <;> after_results_simp)

set_option maxRecDepth 8192 in
set_option maxHeartbeats 40000000 in
theorem live5 {V0 W : Valuation τ sig (Elt F)} (hA : Args V0 W) (hL : Live4 V0 W) : Live5 V0 (after ops5 W) where
  v1 := by after_results_simp; exact hL.v1
  v3 := by after_results_simp; exact hL.v3
  v114 := by after_results_simp; exact hL.v114
  v163 := by after_results_simp; exact hL.v163
  v212 := by (after_results_simp; rw [hL.v201, hL.v202, hL.v200, hL.v168, hL.v174, hL.v167]) <;> rfl

end Cert.ReferenceIdeal.RunH

end
-- ==== Proof.Ref.Chunk6.lean ====
import proofs.«400674_j14499809591724_2_alg».proof.Proof.Ref.Live

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops6 : List (HloOp τ sig (Elt F)) :=
  [ binary main_v163 main_v212 main_v213 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg4 main_v214 ((extractStridedSlice S1x256x128 ![1, 0, 0] · slices_S3x256x128_S1x256x128_1_0_0) : (⟨S3x256x128, .f32⟩ : BufTy).Contents (Elt F) → (⟨S1x256x128, .f32⟩ : BufTy).Contents (Elt F)),
    reshape main_v214 main_v215 rfl shapeCasts_S1x256x128_S256x128,
    binary main_v213 main_v215 main_v216 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg5 main_v217 ((extractStridedSlice S1x128 ![1, 0] · slices_S3x128_S1x128_1_0) : (⟨S3x128, .f32⟩ : BufTy).Contents (Elt F) → (⟨S1x128, .f32⟩ : BufTy).Contents (Elt F)),
    reshape main_v217 main_v218 rfl shapeCasts_S1x128_S128,
    unary main_v218 main_v219 (broadcastInDim S1x128 ![1] bcast_S128_S1x128_1 : (⟨S128, .f32⟩ : BufTy).Contents (Elt F) → (⟨S1x128, .f32⟩ : BufTy).Contents (Elt F)),
    unary main_v219 main_v220 (broadcastInDim S50000x128 ![0, 1] bcast_S1x128_S50000x128_0_1 : (⟨S1x128, .f32⟩ : BufTy).Contents (Elt F) → (⟨S50000x128, .f32⟩ : BufTy).Contents (Elt F)),
    binary main_v216 main_v220 main_v221 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v221) (TRef.of (T := ⟨S50000x128, .f32⟩) main_call5_v0) (TRef.of (T := ⟨S50000x128, .f32⟩) main_v222) maximumf,
    nullary main_cst_35 (constant S_ .f32 0x00000000#32),
    unary main_cst_35 main_v223 (broadcastInDim S512x128 ![] bcast_S_S512x128 : (⟨S_, .f32⟩ : BufTy).Contents (Elt F) → (⟨S512x128, .f32⟩ : BufTy).Contents (Elt F)),
    unary main_arg15 main_v224 (broadcastInDim S50000x1 ![0] bcast_S50000_S50000x1_0 : (⟨S50000, .i32⟩ : BufTy).Contents (Elt F) → (⟨S50000x1, .i32⟩ : BufTy).Contents (Elt F)),
    ternary main_v223 main_v224 main_v222 main_v225 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    unary main_arg2 main_v226 ((extractStridedSlice S1x1x128x128 ![2, 0, 0, 0] · slices_S3x2x128x128_S1x1x128x128_2_0_0_0) : (⟨S3x2x128x128, .f32⟩ : BufTy).Contents (Elt F) → (⟨S1x1x128x128, .f32⟩ : BufTy).Contents (Elt F)),
    reshape main_v226 main_v227 rfl shapeCasts_S1x1x128x128_S128x128,
    unary main_arg3 main_v228 ((extractStridedSlice S1x1x128 ![2, 0, 0] · slices_S3x2x128_S1x1x128_2_0_0) : (⟨S3x2x128, .f32⟩ : BufTy).Contents (Elt F) → (⟨S1x1x128, .f32⟩ : BufTy).Contents (Elt F)),
    reshape main_v228 main_v229 rfl shapeCasts_S1x1x128_S128,
    binary main_v222 main_v227 main_v230 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_36 (constant S_ .f32 0x00000000#32),
    unary main_cst_36 main_v231 (broadcastInDim S50000 ![] bcast_S_S50000 : (⟨S_, .f32⟩ : BufTy).Contents (Elt F) → (⟨S50000, .f32⟩ : BufTy).Contents (Elt F)),
    unary main_v3 main_v232 (broadcastInDim S800000x1 ![0] bcast_S800000_S800000x1_0 : (⟨S800000, .i32⟩ : BufTy).Contents (Elt F) → (⟨S800000x1, .i32⟩ : BufTy).Contents (Elt F)),
    ternary main_v231 main_v232 main_arg1 main_v233 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_37 (constant S_ .f32 0x3F800000#32),
    unary main_cst_37 main_v234 (broadcastInDim S50000 ![] bcast_S_S50000 : (⟨S_, .f32⟩ : BufTy).Contents (Elt F) → (⟨S50000, .f32⟩ : BufTy).Contents (Elt F)),
    binary main_v233 main_v234 main_v235 (addf : (⟨S50000, .f32⟩ : BufTy).Contents (Elt F) → (⟨S50000, .f32⟩ : BufTy).Contents (Elt F) → (⟨S50000, .f32⟩ : BufTy).Contents (Elt F)),
    unary main_v235 main_v236 (Host.rsqrt : (⟨S50000, .f32⟩ : BufTy).Contents (Elt F) → (⟨S50000, .f32⟩ : BufTy).Contents (Elt F)),
    nullary main_c_38 (constantI S_ 32 0#32),
    unary main_c_38 main_v237 (broadcastInDim S800000 ![] bcast_S_S800000 : (⟨S_, .i32⟩ : BufTy).Contents (Elt F) → (⟨S800000, .i32⟩ : BufTy).Contents (Elt F)),
    binary main_v1 main_v237 main_v238 (cmpi .slt : (⟨S800000, .i32⟩ : BufTy).Contents (Elt F) → (⟨S800000, .i32⟩ : BufTy).Contents (Elt F) → (⟨S800000, .i1⟩ : BufTy).Contents (Elt F)),
    nullary main_c_39 (constantI S_ 32 50000#32),
    unary main_c_39 main_v239 (broadcastInDim S800000 ![] bcast_S_S800000 : (⟨S_, .i32⟩ : BufTy).Contents (Elt F) → (⟨S800000, .i32⟩ : BufTy).Contents (Elt F)),
    binary main_v1 main_v239 main_v240 (addi : (⟨S800000, .i32⟩ : BufTy).Contents (Elt F) → (⟨S800000, .i32⟩ : BufTy).Contents (Elt F) → (⟨S800000, .i32⟩ : BufTy).Contents (Elt F)),
    ternary main_v238 main_v240 main_v1 main_v241 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v241 main_v242 (broadcastInDim S800000x1 ![0] bcast_S800000_S800000x1_0 : (⟨S800000, .i32⟩ : BufTy).Contents (Elt F) → (⟨S800000x1, .i32⟩ : BufTy).Contents (Elt F)),
    binary main_v236 main_v242 main_v243 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v243 main_arg1 main_v244 (mulf : (⟨S800000, .f32⟩ : BufTy).Contents (Elt F) → (⟨S800000, .f32⟩ : BufTy).Contents (Elt F) → (⟨S800000, .f32⟩ : BufTy).Contents (Elt F)),
    nullary main_c_40 (constantI S_ 32 0#32),
    unary main_c_40 main_v245 (broadcastInDim S800000 ![] bcast_S_S800000 : (⟨S_, .i32⟩ : BufTy).Contents (Elt F) → (⟨S800000, .i32⟩ : BufTy).Contents (Elt F)),
    binary main_v3 main_v245 main_v246 (cmpi .slt : (⟨S800000, .i32⟩ : BufTy).Contents (Elt F) → (⟨S800000, .i32⟩ : BufTy).Contents (Elt F) → (⟨S800000, .i1⟩ : BufTy).Contents (Elt F)),
    nullary main_c_41 (constantI S_ 32 50000#32),
    unary main_c_41 main_v247 (broadcastInDim S800000 ![] bcast_S_S800000 : (⟨S_, .i32⟩ : BufTy).Contents (Elt F) → (⟨S800000, .i32⟩ : BufTy).Contents (Elt F)),
    binary main_v3 main_v247 main_v248 (addi : (⟨S800000, .i32⟩ : BufTy).Contents (Elt F) → (⟨S800000, .i32⟩ : BufTy).Contents (Elt F) → (⟨S800000, .i32⟩ : BufTy).Contents (Elt F)),
    ternary main_v246 main_v248 main_v3 main_v249 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v249 main_v250 (broadcastInDim S800000x1 ![0] bcast_S800000_S800000x1_0 : (⟨S800000, .i32⟩ : BufTy).Contents (Elt F) → (⟨S800000x1, .i32⟩ : BufTy).Contents (Elt F)),
    binary main_v236 main_v250 main_v251 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v244 main_v251 main_v252 (mulf : (⟨S800000, .f32⟩ : BufTy).Contents (Elt F) → (⟨S800000, .f32⟩ : BufTy).Contents (Elt F) → (⟨S800000, .f32⟩ : BufTy).Contents (Elt F)),
    nullary main_c_42 (constantI S_ 32 0#32),
    unary main_c_42 main_v253 (broadcastInDim S800000 ![] bcast_S_S800000 : (⟨S_, .i32⟩ : BufTy).Contents (Elt F) → (⟨S800000, .i32⟩ : BufTy).Contents (Elt F)),
    binary main_v1 main_v253 main_v254 (cmpi .slt : (⟨S800000, .i32⟩ : BufTy).Contents (Elt F) → (⟨S800000, .i32⟩ : BufTy).Contents (Elt F) → (⟨S800000, .i1⟩ : BufTy).Contents (Elt F)) ]

theorem ops6_sub : (ops6 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

theorem ops6_fresh : ∀ op ∈ (ops6 : List (HloOp τ sig (Elt F))), op.fresh = ∅ := by
  intro _ h; (repeat (cases h with | head => rfl | tail _ h => ?_)); exact nomatch h

set_option maxRecDepth 8192 in
set_option maxHeartbeats 40000000 in
theorem args6 {V0 W : Valuation τ sig (Elt F)} (hA : Args V0 W) : Args V0 (after ops6 W) :=
  hA.trans (by constructor <;> after_results_simp)

set_option maxRecDepth 8192 in
set_option maxHeartbeats 40000000 in
theorem live6 {V0 W : Valuation τ sig (Elt F)} (hA : Args V0 W) (hL : Live5 V0 W) : Live6 V0 (after ops6 W) where
  v1 := by after_results_simp; exact hL.v1
  v3 := by after_results_simp; exact hL.v3
  v114 := by after_results_simp; exact hL.v114
  v225 := by (after_results_simp; rw [hA.a15, hL.v163, hL.v212, hA.a4, hA.a5]) <;> rfl
  v229 := by (after_results_simp; rw [hA.a3]) <;> rfl
  v230 := by (after_results_simp; rw [hL.v163, hL.v212, hA.a4, hA.a5, hA.a2]) <;> rfl
  v236 := by (after_results_simp; rw [hL.v3, hA.a1]) <;> rfl
  v252 := by (after_results_simp; rw [hL.v3, hA.a1, hL.v1]) <;> rfl
  v254 := by (after_results_simp; rw [hL.v1]) <;> rfl

end Cert.ReferenceIdeal.RunH

end
-- ==== Proof.Ref.Chunk7.lean ====
import proofs.«400674_j14499809591724_2_alg».proof.Proof.Ref.Live

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops7 : List (HloOp τ sig (Elt F)) :=
  [ nullary main_c_43 (constantI S_ 32 50000#32),
    unary main_c_43 main_v255 (broadcastInDim S800000 ![] bcast_S_S800000 : (⟨S_, .i32⟩ : BufTy).Contents (Elt F) → (⟨S800000, .i32⟩ : BufTy).Contents (Elt F)),
    binary main_v1 main_v255 main_v256 (addi : (⟨S800000, .i32⟩ : BufTy).Contents (Elt F) → (⟨S800000, .i32⟩ : BufTy).Contents (Elt F) → (⟨S800000, .i32⟩ : BufTy).Contents (Elt F)),
    ternary main_v254 main_v256 main_v1 main_v257 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v257 main_v258 (broadcastInDim S800000x1 ![0] bcast_S800000_S800000x1_0 : (⟨S800000, .i32⟩ : BufTy).Contents (Elt F) → (⟨S800000x1, .i32⟩ : BufTy).Contents (Elt F)),
    binary main_v230 main_v258 main_v259 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v252 main_v260 (broadcastInDim S800000x1 ![0] bcast_S800000_S800000x1_0 : (⟨S800000, .f32⟩ : BufTy).Contents (Elt F) → (⟨S800000x1, .f32⟩ : BufTy).Contents (Elt F)),
    unary main_v260 main_v261 (broadcastInDim S800000x128 ![0, 1] bcast_S800000x1_S800000x128_0_1 : (⟨S800000x1, .f32⟩ : BufTy).Contents (Elt F) → (⟨S800000x128, .f32⟩ : BufTy).Contents (Elt F)),
    binary main_v259 main_v261 main_v262 (mulf : (⟨S800000x128, .f32⟩ : BufTy).Contents (Elt F) → (⟨S800000x128, .f32⟩ : BufTy).Contents (Elt F) → (⟨S800000x128, .f32⟩ : BufTy).Contents (Elt F)),
    nullary main_cst_44 (constant S_ .f32 0x00000000#32),
    unary main_cst_44 main_v263 (broadcastInDim S50000x128 ![] bcast_S_S50000x128 : (⟨S_, .f32⟩ : BufTy).Contents (Elt F) → (⟨S50000x128, .f32⟩ : BufTy).Contents (Elt F)),
    unary main_v3 main_v264 (broadcastInDim S800000x1 ![0] bcast_S800000_S800000x1_0 : (⟨S800000, .i32⟩ : BufTy).Contents (Elt F) → (⟨S800000x1, .i32⟩ : BufTy).Contents (Elt F)),
    ternary main_v263 main_v264 main_v262 main_v265 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v236 main_v236 main_v266 (mulf : (⟨S50000, .f32⟩ : BufTy).Contents (Elt F) → (⟨S50000, .f32⟩ : BufTy).Contents (Elt F) → (⟨S50000, .f32⟩ : BufTy).Contents (Elt F)),
    unary main_v266 main_v267 (broadcastInDim S50000x1 ![0] bcast_S50000_S50000x1_0 : (⟨S50000, .f32⟩ : BufTy).Contents (Elt F) → (⟨S50000x1, .f32⟩ : BufTy).Contents (Elt F)),
    unary main_v267 main_v268 (broadcastInDim S50000x128 ![0, 1] bcast_S50000x1_S50000x128_0_1 : (⟨S50000x1, .f32⟩ : BufTy).Contents (Elt F) → (⟨S50000x128, .f32⟩ : BufTy).Contents (Elt F)),
    binary main_v230 main_v268 main_v269 (mulf : (⟨S50000x128, .f32⟩ : BufTy).Contents (Elt F) → (⟨S50000x128, .f32⟩ : BufTy).Contents (Elt F) → (⟨S50000x128, .f32⟩ : BufTy).Contents (Elt F)),
    binary main_v265 main_v269 main_v270 (addf : (⟨S50000x128, .f32⟩ : BufTy).Contents (Elt F) → (⟨S50000x128, .f32⟩ : BufTy).Contents (Elt F) → (⟨S50000x128, .f32⟩ : BufTy).Contents (Elt F)),
    unary main_v229 main_v271 (broadcastInDim S1x128 ![1] bcast_S128_S1x128_1 : (⟨S128, .f32⟩ : BufTy).Contents (Elt F) → (⟨S1x128, .f32⟩ : BufTy).Contents (Elt F)),
    unary main_v271 main_v272 (broadcastInDim S50000x128 ![0, 1] bcast_S1x128_S50000x128_0_1 : (⟨S1x128, .f32⟩ : BufTy).Contents (Elt F) → (⟨S50000x128, .f32⟩ : BufTy).Contents (Elt F)),
    binary main_v270 main_v272 main_v273 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S50000x128, .f32⟩) main_call6_v0) (broadcastInDim S50000x128 ![] bcast_S_S50000x128),
    TRef.binary (TRef.of (T := ⟨S50000x128, .f32⟩) main_v273) (TRef.of (T := ⟨S50000x128, .f32⟩) main_call6_v0) (TRef.of (T := ⟨S50000x128, .f32⟩) main_v274) maximumf,
    unary main_arg2 main_v275 ((extractStridedSlice S1x1x128x128 ![2, 1, 0, 0] · slices_S3x2x128x128_S1x1x128x128_2_1_0_0) : (⟨S3x2x128x128, .f32⟩ : BufTy).Contents (Elt F) → (⟨S1x1x128x128, .f32⟩ : BufTy).Contents (Elt F)),
    reshape main_v275 main_v276 rfl shapeCasts_S1x1x128x128_S128x128,
    unary main_arg3 main_v277 ((extractStridedSlice S1x1x128 ![2, 1, 0] · slices_S3x2x128_S1x1x128_2_1_0) : (⟨S3x2x128, .f32⟩ : BufTy).Contents (Elt F) → (⟨S1x1x128, .f32⟩ : BufTy).Contents (Elt F)),
    reshape main_v277 main_v278 rfl shapeCasts_S1x1x128_S128,
    binary main_v274 main_v276 main_v279 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_45 (constant S_ .f32 0x00000000#32),
    unary main_cst_45 main_v280 (broadcastInDim S50000 ![] bcast_S_S50000 : (⟨S_, .f32⟩ : BufTy).Contents (Elt F) → (⟨S50000, .f32⟩ : BufTy).Contents (Elt F)),
    unary main_v3 main_v281 (broadcastInDim S800000x1 ![0] bcast_S800000_S800000x1_0 : (⟨S800000, .i32⟩ : BufTy).Contents (Elt F) → (⟨S800000x1, .i32⟩ : BufTy).Contents (Elt F)),
    ternary main_v280 main_v281 main_arg1 main_v282 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_46 (constant S_ .f32 0x3F800000#32),
    unary main_cst_46 main_v283 (broadcastInDim S50000 ![] bcast_S_S50000 : (⟨S_, .f32⟩ : BufTy).Contents (Elt F) → (⟨S50000, .f32⟩ : BufTy).Contents (Elt F)),
    binary main_v282 main_v283 main_v284 (addf : (⟨S50000, .f32⟩ : BufTy).Contents (Elt F) → (⟨S50000, .f32⟩ : BufTy).Contents (Elt F) → (⟨S50000, .f32⟩ : BufTy).Contents (Elt F)),
    unary main_v284 main_v285 (Host.rsqrt : (⟨S50000, .f32⟩ : BufTy).Contents (Elt F) → (⟨S50000, .f32⟩ : BufTy).Contents (Elt F)),
    nullary main_c_47 (constantI S_ 32 0#32),
    unary main_c_47 main_v286 (broadcastInDim S800000 ![] bcast_S_S800000 : (⟨S_, .i32⟩ : BufTy).Contents (Elt F) → (⟨S800000, .i32⟩ : BufTy).Contents (Elt F)),
    binary main_v1 main_v286 main_v287 (cmpi .slt : (⟨S800000, .i32⟩ : BufTy).Contents (Elt F) → (⟨S800000, .i32⟩ : BufTy).Contents (Elt F) → (⟨S800000, .i1⟩ : BufTy).Contents (Elt F)),
    nullary main_c_48 (constantI S_ 32 50000#32),
    unary main_c_48 main_v288 (broadcastInDim S800000 ![] bcast_S_S800000 : (⟨S_, .i32⟩ : BufTy).Contents (Elt F) → (⟨S800000, .i32⟩ : BufTy).Contents (Elt F)),
    binary main_v1 main_v288 main_v289 (addi : (⟨S800000, .i32⟩ : BufTy).Contents (Elt F) → (⟨S800000, .i32⟩ : BufTy).Contents (Elt F) → (⟨S800000, .i32⟩ : BufTy).Contents (Elt F)),
    ternary main_v287 main_v289 main_v1 main_v290 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v290 main_v291 (broadcastInDim S800000x1 ![0] bcast_S800000_S800000x1_0 : (⟨S800000, .i32⟩ : BufTy).Contents (Elt F) → (⟨S800000x1, .i32⟩ : BufTy).Contents (Elt F)),
    binary main_v285 main_v291 main_v292 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v292 main_arg1 main_v293 (mulf : (⟨S800000, .f32⟩ : BufTy).Contents (Elt F) → (⟨S800000, .f32⟩ : BufTy).Contents (Elt F) → (⟨S800000, .f32⟩ : BufTy).Contents (Elt F)),
    nullary main_c_49 (constantI S_ 32 0#32),
    unary main_c_49 main_v294 (broadcastInDim S800000 ![] bcast_S_S800000 : (⟨S_, .i32⟩ : BufTy).Contents (Elt F) → (⟨S800000, .i32⟩ : BufTy).Contents (Elt F)),
    binary main_v3 main_v294 main_v295 (cmpi .slt : (⟨S800000, .i32⟩ : BufTy).Contents (Elt F) → (⟨S800000, .i32⟩ : BufTy).Contents (Elt F) → (⟨S800000, .i1⟩ : BufTy).Contents (Elt F)),
    nullary main_c_50 (constantI S_ 32 50000#32),
    unary main_c_50 main_v296 (broadcastInDim S800000 ![] bcast_S_S800000 : (⟨S_, .i32⟩ : BufTy).Contents (Elt F) → (⟨S800000, .i32⟩ : BufTy).Contents (Elt F)),
    binary main_v3 main_v296 main_v297 (addi : (⟨S800000, .i32⟩ : BufTy).Contents (Elt F) → (⟨S800000, .i32⟩ : BufTy).Contents (Elt F) → (⟨S800000, .i32⟩ : BufTy).Contents (Elt F)),
    ternary main_v295 main_v297 main_v3 main_v298 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v298 main_v299 (broadcastInDim S800000x1 ![0] bcast_S800000_S800000x1_0 : (⟨S800000, .i32⟩ : BufTy).Contents (Elt F) → (⟨S800000x1, .i32⟩ : BufTy).Contents (Elt F)),
    binary main_v285 main_v299 main_v300 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v293 main_v300 main_v301 (mulf : (⟨S800000, .f32⟩ : BufTy).Contents (Elt F) → (⟨S800000, .f32⟩ : BufTy).Contents (Elt F) → (⟨S800000, .f32⟩ : BufTy).Contents (Elt F)),
    nullary main_c_51 (constantI S_ 32 0#32),
    unary main_c_51 main_v302 (broadcastInDim S800000 ![] bcast_S_S800000 : (⟨S_, .i32⟩ : BufTy).Contents (Elt F) → (⟨S800000, .i32⟩ : BufTy).Contents (Elt F)),
    binary main_v1 main_v302 main_v303 (cmpi .slt : (⟨S800000, .i32⟩ : BufTy).Contents (Elt F) → (⟨S800000, .i32⟩ : BufTy).Contents (Elt F) → (⟨S800000, .i1⟩ : BufTy).Contents (Elt F)),
    nullary main_c_52 (constantI S_ 32 50000#32),
    unary main_c_52 main_v304 (broadcastInDim S800000 ![] bcast_S_S800000 : (⟨S_, .i32⟩ : BufTy).Contents (Elt F) → (⟨S800000, .i32⟩ : BufTy).Contents (Elt F)) ]

theorem ops7_sub : (ops7 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

theorem ops7_fresh : ∀ op ∈ (ops7 : List (HloOp τ sig (Elt F))), op.fresh = ∅ := by
  intro _ h; (repeat (cases h with | head => rfl | tail _ h => ?_)); exact nomatch h

set_option maxRecDepth 8192 in
set_option maxHeartbeats 40000000 in
theorem args7 {V0 W : Valuation τ sig (Elt F)} (hA : Args V0 W) : Args V0 (after ops7 W) :=
  hA.trans (by constructor <;> after_results_simp)

set_option maxRecDepth 8192 in
set_option maxHeartbeats 40000000 in
theorem live7 {V0 W : Valuation τ sig (Elt F)} (hA : Args V0 W) (hL : Live6 V0 W) : Live7 V0 (after ops7 W) where
  v1 := by after_results_simp; exact hL.v1
  v3 := by after_results_simp; exact hL.v3
  v114 := by after_results_simp; exact hL.v114
  v225 := by after_results_simp; exact hL.v225
  v274 := by (after_results_simp; rw [hL.v3, hL.v230, hL.v254, hL.v1, hL.v252, hL.v236, hL.v229]) <;> rfl
  v278 := by (after_results_simp; rw [hA.a3]) <;> rfl
  v279 := by (after_results_simp; rw [hL.v3, hL.v230, hL.v254, hL.v1, hL.v252, hL.v236, hL.v229, hA.a2]) <;> rfl
  v285 := by (after_results_simp; rw [hL.v3, hA.a1]) <;> rfl
  v301 := by (after_results_simp; rw [hL.v3, hA.a1, hL.v1]) <;> rfl
  v303 := by (after_results_simp; rw [hL.v1]) <;> rfl
  v304 := by (after_results_simp) <;> rfl

end Cert.ReferenceIdeal.RunH

end
-- ==== Proof.Ref.Chunk8.lean ====
import proofs.«400674_j14499809591724_2_alg».proof.Proof.Ref.Live

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops8 : List (HloOp τ sig (Elt F)) :=
  [ binary main_v1 main_v304 main_v305 (addi : (⟨S800000, .i32⟩ : BufTy).Contents (Elt F) → (⟨S800000, .i32⟩ : BufTy).Contents (Elt F) → (⟨S800000, .i32⟩ : BufTy).Contents (Elt F)),
    ternary main_v303 main_v305 main_v1 main_v306 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v306 main_v307 (broadcastInDim S800000x1 ![0] bcast_S800000_S800000x1_0 : (⟨S800000, .i32⟩ : BufTy).Contents (Elt F) → (⟨S800000x1, .i32⟩ : BufTy).Contents (Elt F)),
    binary main_v279 main_v307 main_v308 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v301 main_v309 (broadcastInDim S800000x1 ![0] bcast_S800000_S800000x1_0 : (⟨S800000, .f32⟩ : BufTy).Contents (Elt F) → (⟨S800000x1, .f32⟩ : BufTy).Contents (Elt F)),
    unary main_v309 main_v310 (broadcastInDim S800000x128 ![0, 1] bcast_S800000x1_S800000x128_0_1 : (⟨S800000x1, .f32⟩ : BufTy).Contents (Elt F) → (⟨S800000x128, .f32⟩ : BufTy).Contents (Elt F)),
    binary main_v308 main_v310 main_v311 (mulf : (⟨S800000x128, .f32⟩ : BufTy).Contents (Elt F) → (⟨S800000x128, .f32⟩ : BufTy).Contents (Elt F) → (⟨S800000x128, .f32⟩ : BufTy).Contents (Elt F)),
    nullary main_cst_53 (constant S_ .f32 0x00000000#32),
    unary main_cst_53 main_v312 (broadcastInDim S50000x128 ![] bcast_S_S50000x128 : (⟨S_, .f32⟩ : BufTy).Contents (Elt F) → (⟨S50000x128, .f32⟩ : BufTy).Contents (Elt F)),
    unary main_v3 main_v313 (broadcastInDim S800000x1 ![0] bcast_S800000_S800000x1_0 : (⟨S800000, .i32⟩ : BufTy).Contents (Elt F) → (⟨S800000x1, .i32⟩ : BufTy).Contents (Elt F)),
    ternary main_v312 main_v313 main_v311 main_v314 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v285 main_v285 main_v315 (mulf : (⟨S50000, .f32⟩ : BufTy).Contents (Elt F) → (⟨S50000, .f32⟩ : BufTy).Contents (Elt F) → (⟨S50000, .f32⟩ : BufTy).Contents (Elt F)),
    unary main_v315 main_v316 (broadcastInDim S50000x1 ![0] bcast_S50000_S50000x1_0 : (⟨S50000, .f32⟩ : BufTy).Contents (Elt F) → (⟨S50000x1, .f32⟩ : BufTy).Contents (Elt F)),
    unary main_v316 main_v317 (broadcastInDim S50000x128 ![0, 1] bcast_S50000x1_S50000x128_0_1 : (⟨S50000x1, .f32⟩ : BufTy).Contents (Elt F) → (⟨S50000x128, .f32⟩ : BufTy).Contents (Elt F)),
    binary main_v279 main_v317 main_v318 (mulf : (⟨S50000x128, .f32⟩ : BufTy).Contents (Elt F) → (⟨S50000x128, .f32⟩ : BufTy).Contents (Elt F) → (⟨S50000x128, .f32⟩ : BufTy).Contents (Elt F)),
    binary main_v314 main_v318 main_v319 (addf : (⟨S50000x128, .f32⟩ : BufTy).Contents (Elt F) → (⟨S50000x128, .f32⟩ : BufTy).Contents (Elt F) → (⟨S50000x128, .f32⟩ : BufTy).Contents (Elt F)),
    unary main_v278 main_v320 (broadcastInDim S1x128 ![1] bcast_S128_S1x128_1 : (⟨S128, .f32⟩ : BufTy).Contents (Elt F) → (⟨S1x128, .f32⟩ : BufTy).Contents (Elt F)),
    unary main_v320 main_v321 (broadcastInDim S50000x128 ![0, 1] bcast_S1x128_S50000x128_0_1 : (⟨S1x128, .f32⟩ : BufTy).Contents (Elt F) → (⟨S50000x128, .f32⟩ : BufTy).Contents (Elt F)),
    binary main_v319 main_v321 main_v322 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x128, .f32⟩) main_call7_v0) (broadcastInDim S50000x128 ![] bcast_S_S50000x128),
    TRef.binary (TRef.of (T := ⟨S50000x128, .f32⟩) main_v322) (TRef.of (T := ⟨S50000x128, .f32⟩) main_call7_v0) (TRef.of (T := ⟨S50000x128, .f32⟩) main_v323) maximumf ]

theorem ops8_sub : (ops8 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

theorem ops8_fresh : ∀ op ∈ (ops8 : List (HloOp τ sig (Elt F))), op.fresh = ∅ := by
  intro _ h; (repeat (cases h with | head => rfl | tail _ h => ?_)); exact nomatch h

set_option maxRecDepth 8192 in
set_option maxHeartbeats 40000000 in
theorem args8 {V0 W : Valuation τ sig (Elt F)} (hA : Args V0 W) : Args V0 (after ops8 W) :=
  hA.trans (by constructor <;> after_results_simp)

set_option maxRecDepth 8192 in
set_option maxHeartbeats 40000000 in
theorem live8 {V0 W : Valuation τ sig (Elt F)} (hA : Args V0 W) (hL : Live7 V0 W) : Live8 V0 (after ops8 W) where
  v114 := by after_results_simp; exact hL.v114
  v225 := by after_results_simp; exact hL.v225
  v274 := by after_results_simp; exact hL.v274
  v323 := by (after_results_simp; rw [hL.v3, hL.v279, hL.v303, hL.v1, hL.v304, hL.v301, hL.v285, hL.v278]) <;> rfl

end Cert.ReferenceIdeal.RunH

end
-- ==== Proof.Ref.Chunk9.lean ====
import proofs.«400674_j14499809591724_2_alg».proof.Proof.Ref.Live

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops9 : List (HloOp τ sig (Elt F)) :=
  [ binary main_v274 main_v323 main_v324 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg4 main_v325 ((extractStridedSlice S1x256x128 ![2, 0, 0] · slices_S3x256x128_S1x256x128_2_0_0) : (⟨S3x256x128, .f32⟩ : BufTy).Contents (Elt F) → (⟨S1x256x128, .f32⟩ : BufTy).Contents (Elt F)),
    reshape main_v325 main_v326 rfl shapeCasts_S1x256x128_S256x128,
    binary main_v324 main_v326 main_v327 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg5 main_v328 ((extractStridedSlice S1x128 ![2, 0] · slices_S3x128_S1x128_2_0) : (⟨S3x128, .f32⟩ : BufTy).Contents (Elt F) → (⟨S1x128, .f32⟩ : BufTy).Contents (Elt F)),
    reshape main_v328 main_v329 rfl shapeCasts_S1x128_S128,
    unary main_v329 main_v330 (broadcastInDim S1x128 ![1] bcast_S128_S1x128_1 : (⟨S128, .f32⟩ : BufTy).Contents (Elt F) → (⟨S1x128, .f32⟩ : BufTy).Contents (Elt F)),
    unary main_v330 main_v331 (broadcastInDim S50000x128 ![0, 1] bcast_S1x128_S50000x128_0_1 : (⟨S1x128, .f32⟩ : BufTy).Contents (Elt F) → (⟨S50000x128, .f32⟩ : BufTy).Contents (Elt F)),
    binary main_v327 main_v331 main_v332 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S50000x128, .f32⟩) main_call8_v0) (broadcastInDim S50000x128 ![] bcast_S_S50000x128),
    TRef.binary (TRef.of (T := ⟨S50000x128, .f32⟩) main_v332) (TRef.of (T := ⟨S50000x128, .f32⟩) main_call8_v0) (TRef.of (T := ⟨S50000x128, .f32⟩) main_v333) maximumf,
    nullary main_cst_54 (constant S_ .f32 0x00000000#32),
    unary main_cst_54 main_v334 (broadcastInDim S512x128 ![] bcast_S_S512x128 : (⟨S_, .f32⟩ : BufTy).Contents (Elt F) → (⟨S512x128, .f32⟩ : BufTy).Contents (Elt F)),
    unary main_arg15 main_v335 (broadcastInDim S50000x1 ![0] bcast_S50000_S50000x1_0 : (⟨S50000, .i32⟩ : BufTy).Contents (Elt F) → (⟨S50000x1, .i32⟩ : BufTy).Contents (Elt F)),
    ternary main_v334 main_v335 main_v333 main_v336 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)) ]

theorem ops9_sub : (ops9 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

theorem ops9_fresh : ∀ op ∈ (ops9 : List (HloOp τ sig (Elt F))), op.fresh = ∅ := by
  intro _ h; (repeat (cases h with | head => rfl | tail _ h => ?_)); exact nomatch h

set_option maxRecDepth 8192 in
set_option maxHeartbeats 40000000 in
theorem args9 {V0 W : Valuation τ sig (Elt F)} (hA : Args V0 W) : Args V0 (after ops9 W) :=
  hA.trans (by constructor <;> after_results_simp)

set_option maxRecDepth 8192 in
set_option maxHeartbeats 40000000 in
theorem live9 {V0 W : Valuation τ sig (Elt F)} (hA : Args V0 W) (hL : Live8 V0 W) : Live9 V0 (after ops9 W) where
  v114 := by after_results_simp; exact hL.v114
  v225 := by after_results_simp; exact hL.v225
  v336 := by (after_results_simp; rw [hA.a15, hL.v274, hL.v323, hA.a4, hA.a5]) <;> rfl

end Cert.ReferenceIdeal.RunH

end
-- ==== Proof.Ref.Chunk10.lean ====
import proofs.«400674_j14499809591724_2_alg».proof.Proof.Ref.Live

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops10 : List (HloOp τ sig (Elt F)) :=
  [ nary ![main_v114, main_v225, main_v336] main_v337 (fun u => concatenate S512x384 1 [⟨S512x128, u 0⟩, ⟨S512x128, u 1⟩, ⟨S512x128, u 2⟩] concatenates_S512x128_S512x128_S512x128_S512x384_d1),
    unary main_arg8 main_v338 (broadcastInDim S1x384 ![1] bcast_S384_S1x384_1 : (⟨S384, .f32⟩ : BufTy).Contents (Elt F) → (⟨S1x384, .f32⟩ : BufTy).Contents (Elt F)),
    unary main_v338 main_v339 (broadcastInDim S512x384 ![0, 1] bcast_S1x384_S512x384_0_1 : (⟨S1x384, .f32⟩ : BufTy).Contents (Elt F) → (⟨S512x384, .f32⟩ : BufTy).Contents (Elt F)),
    binary main_v337 main_v339 main_v340 (subf : (⟨S512x384, .f32⟩ : BufTy).Contents (Elt F) → (⟨S512x384, .f32⟩ : BufTy).Contents (Elt F) → (⟨S512x384, .f32⟩ : BufTy).Contents (Elt F)),
    nullary main_cst_55 (constant S_ .f32 0x3727C5AC#32),
    unary main_cst_55 main_v341 (broadcastInDim S384 ![] bcast_S_S384 : (⟨S_, .f32⟩ : BufTy).Contents (Elt F) → (⟨S384, .f32⟩ : BufTy).Contents (Elt F)),
    binary main_arg9 main_v341 main_v342 (addf : (⟨S384, .f32⟩ : BufTy).Contents (Elt F) → (⟨S384, .f32⟩ : BufTy).Contents (Elt F) → (⟨S384, .f32⟩ : BufTy).Contents (Elt F)),
    unary main_v342 main_v343 (Host.rsqrt : (⟨S384, .f32⟩ : BufTy).Contents (Elt F) → (⟨S384, .f32⟩ : BufTy).Contents (Elt F)),
    unary main_v343 main_v344 (broadcastInDim S1x384 ![1] bcast_S384_S1x384_1 : (⟨S384, .f32⟩ : BufTy).Contents (Elt F) → (⟨S1x384, .f32⟩ : BufTy).Contents (Elt F)),
    unary main_v344 main_v345 (broadcastInDim S512x384 ![0, 1] bcast_S1x384_S512x384_0_1 : (⟨S1x384, .f32⟩ : BufTy).Contents (Elt F) → (⟨S512x384, .f32⟩ : BufTy).Contents (Elt F)),
    binary main_v340 main_v345 main_v346 (mulf : (⟨S512x384, .f32⟩ : BufTy).Contents (Elt F) → (⟨S512x384, .f32⟩ : BufTy).Contents (Elt F) → (⟨S512x384, .f32⟩ : BufTy).Contents (Elt F)),
    unary main_arg6 main_v347 (broadcastInDim S1x384 ![1] bcast_S384_S1x384_1 : (⟨S384, .f32⟩ : BufTy).Contents (Elt F) → (⟨S1x384, .f32⟩ : BufTy).Contents (Elt F)),
    unary main_v347 main_v348 (broadcastInDim S512x384 ![0, 1] bcast_S1x384_S512x384_0_1 : (⟨S1x384, .f32⟩ : BufTy).Contents (Elt F) → (⟨S512x384, .f32⟩ : BufTy).Contents (Elt F)),
    binary main_v346 main_v348 main_v349 (mulf : (⟨S512x384, .f32⟩ : BufTy).Contents (Elt F) → (⟨S512x384, .f32⟩ : BufTy).Contents (Elt F) → (⟨S512x384, .f32⟩ : BufTy).Contents (Elt F)),
    unary main_arg7 main_v350 (broadcastInDim S1x384 ![1] bcast_S384_S1x384_1 : (⟨S384, .f32⟩ : BufTy).Contents (Elt F) → (⟨S1x384, .f32⟩ : BufTy).Contents (Elt F)),
    unary main_v350 main_v351 (broadcastInDim S512x384 ![0, 1] bcast_S1x384_S512x384_0_1 : (⟨S1x384, .f32⟩ : BufTy).Contents (Elt F) → (⟨S512x384, .f32⟩ : BufTy).Contents (Elt F)),
    binary main_v349 main_v351 main_v352 (addf : (⟨S512x384, .f32⟩ : BufTy).Contents (Elt F) → (⟨S512x384, .f32⟩ : BufTy).Contents (Elt F) → (⟨S512x384, .f32⟩ : BufTy).Contents (Elt F)),
    binary main_v352 main_arg10 main_v353 ((fun l r => Host.dotGeneral dot_S512x384_S384x128_S512x128_1_0_0_1_n_n none l r) : (⟨S512x384, .f32⟩ : BufTy).Contents (Elt F) → (⟨S384x128, .f32⟩ : BufTy).Contents (Elt F) → (⟨S512x128, .f32⟩ : BufTy).Contents (Elt F)),
    unary main_arg11 main_v354 (broadcastInDim S1x128 ![1] bcast_S128_S1x128_1 : (⟨S128, .f32⟩ : BufTy).Contents (Elt F) → (⟨S1x128, .f32⟩ : BufTy).Contents (Elt F)),
    unary main_v354 main_v355 (broadcastInDim S512x128 ![0, 1] bcast_S1x128_S512x128_0_1 : (⟨S1x128, .f32⟩ : BufTy).Contents (Elt F) → (⟨S512x128, .f32⟩ : BufTy).Contents (Elt F)),
    binary main_v353 main_v355 main_v356 (addf : (⟨S512x128, .f32⟩ : BufTy).Contents (Elt F) → (⟨S512x128, .f32⟩ : BufTy).Contents (Elt F) → (⟨S512x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S512x128, .f32⟩) main_call9_v0) (broadcastInDim S512x128 ![] bcast_S_S512x128),
    TRef.binary (TRef.of (T := ⟨S512x128, .f32⟩) main_v356) (TRef.of (T := ⟨S512x128, .f32⟩) main_call9_v0) (TRef.of (T := ⟨S512x128, .f32⟩) main_v357) maximumf,
    binary main_v357 main_arg12 main_v358 ((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F)),
    unary main_arg13 main_v359 (broadcastInDim S1x10 ![1] bcast_S10_S1x10_1 : (⟨S10, .f32⟩ : BufTy).Contents (Elt F) → (⟨S1x10, .f32⟩ : BufTy).Contents (Elt F)),
    unary main_v359 main_v360 (broadcastInDim S512x10 ![0, 1] bcast_S1x10_S512x10_0_1 : (⟨S1x10, .f32⟩ : BufTy).Contents (Elt F) → (⟨S512x10, .f32⟩ : BufTy).Contents (Elt F)),
    binary main_v358 main_v360 main_v361 (addf : (⟨S512x10, .f32⟩ : BufTy).Contents (Elt F) → (⟨S512x10, .f32⟩ : BufTy).Contents (Elt F) → (⟨S512x10, .f32⟩ : BufTy).Contents (Elt F)) ]

theorem ops10_sub : (ops10 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

theorem ops10_fresh : ∀ op ∈ (ops10 : List (HloOp τ sig (Elt F))), op.fresh = ∅ := by
  intro _ h; (repeat (cases h with | head => rfl | tail _ h => ?_)); exact nomatch h

set_option maxRecDepth 8192 in
set_option maxHeartbeats 40000000 in
theorem args10 {V0 W : Valuation τ sig (Elt F)} (hA : Args V0 W) : Args V0 (after ops10 W) :=
  hA.trans (by constructor <;> after_results_simp3)

set_option maxRecDepth 8192 in
set_option maxHeartbeats 40000000 in
theorem live10 {V0 W : Valuation τ sig (Elt F)} (hA : Args V0 W) (hL : Live9 V0 W) : Live10 V0 (after ops10 W) where
  v361 := by (after_results_simp3; rw [hL.v114, hL.v225, hL.v336, hA.a8, hA.a9, hA.a6, hA.a7, hA.a10, hA.a11, hA.a12, hA.a13]) <;> rfl

end Cert.ReferenceIdeal.RunH

end
-- ==== Proof.Ref.Chunk11.lean ====
import proofs.«400674_j14499809591724_2_alg».proof.Proof.Ref.Live

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops11 : List (HloOp τ sig (Elt F)) :=
  [ nullary main_cst_56 (constant S_ .f32 0xFF800000#32),
    binary main_v361 main_cst_56 main_v362 ((fun x v => Host.reduce FloatOps.maximumf x v reducesTo_S512x10_S512_d1 h_S_) : (⟨S512x10, .f32⟩ : BufTy).Contents (Elt F) → (⟨S_, .f32⟩ : BufTy).Contents (Elt F) → (⟨S512, .f32⟩ : BufTy).Contents (Elt F)),
    nullary main_cst_57 (constant S_ .f32 0xFF800000#32),
    unary main_cst_57 main_v363 (broadcastInDim S512 ![] bcast_S_S512 : (⟨S_, .f32⟩ : BufTy).Contents (Elt F) → (⟨S512, .f32⟩ : BufTy).Contents (Elt F)),
    binary main_v363 main_v362 main_v364 (maximumf : (⟨S512, .f32⟩ : BufTy).Contents (Elt F) → (⟨S512, .f32⟩ : BufTy).Contents (Elt F) → (⟨S512, .f32⟩ : BufTy).Contents (Elt F)),
    unary main_v364 main_v365 (broadcastInDim S512x1 ![0] bcast_S512_S512x1_0 : (⟨S512, .f32⟩ : BufTy).Contents (Elt F) → (⟨S512x1, .f32⟩ : BufTy).Contents (Elt F)),
    unary main_v365 main_v366 (broadcastInDim S512x10 ![0, 1] bcast_S512x1_S512x10_0_1 : (⟨S512x1, .f32⟩ : BufTy).Contents (Elt F) → (⟨S512x10, .f32⟩ : BufTy).Contents (Elt F)),
    binary main_v361 main_v366 main_v367 (subf : (⟨S512x10, .f32⟩ : BufTy).Contents (Elt F) → (⟨S512x10, .f32⟩ : BufTy).Contents (Elt F) → (⟨S512x10, .f32⟩ : BufTy).Contents (Elt F)),
    unary main_v367 main_v368 (Host.exp : (⟨S512x10, .f32⟩ : BufTy).Contents (Elt F) → (⟨S512x10, .f32⟩ : BufTy).Contents (Elt F)),
    nullary main_cst_58 (constant S_ .f32 0x00000000#32),
    binary main_v368 main_cst_58 main_v369 ((fun x v => Host.reduceAdd x v reducesTo_S512x10_S512_d1 h_S_) : (⟨S512x10, .f32⟩ : BufTy).Contents (Elt F) → (⟨S_, .f32⟩ : BufTy).Contents (Elt F) → (⟨S512, .f32⟩ : BufTy).Contents (Elt F)),
    unary main_v369 main_v370 (broadcastInDim S512x1 ![0] bcast_S512_S512x1_0 : (⟨S512, .f32⟩ : BufTy).Contents (Elt F) → (⟨S512x1, .f32⟩ : BufTy).Contents (Elt F)),
    unary main_v370 main_v371 (broadcastInDim S512x10 ![0, 1] bcast_S512x1_S512x10_0_1 : (⟨S512x1, .f32⟩ : BufTy).Contents (Elt F) → (⟨S512x10, .f32⟩ : BufTy).Contents (Elt F)),
    binary main_v368 main_v371 main_v372 (Host.divf : (⟨S512x10, .f32⟩ : BufTy).Contents (Elt F) → (⟨S512x10, .f32⟩ : BufTy).Contents (Elt F) → (⟨S512x10, .f32⟩ : BufTy).Contents (Elt F)) ]

theorem ops11_sub : (ops11 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

theorem ops11_fresh : ∀ op ∈ (ops11 : List (HloOp τ sig (Elt F))), op.fresh = ∅ := by
  intro _ h; (repeat (cases h with | head => rfl | tail _ h => ?_)); exact nomatch h

set_option maxRecDepth 8192 in
set_option maxHeartbeats 40000000 in
theorem args11 {V0 W : Valuation τ sig (Elt F)} (hA : Args V0 W) : Args V0 (after ops11 W) :=
  hA.trans (by constructor <;> after_results_simp)

set_option maxRecDepth 8192 in
set_option maxHeartbeats 40000000 in
theorem live11 {V0 W : Valuation τ sig (Elt F)} (hA : Args V0 W) (hL : Live10 V0 W) : Live11 V0 (after ops11 W) where
  v372 := by (after_results_simp; rw [hL.v361]) <;> rfl

end Cert.ReferenceIdeal.RunH

end
-- ==== Proof.Ref.Run.lean ====
import proofs.«400674_j14499809591724_2_alg».proof.Proof.Ref.Chunk1
import proofs.«400674_j14499809591724_2_alg».proof.Proof.Ref.Chunk2
import proofs.«400674_j14499809591724_2_alg».proof.Proof.Ref.Chunk3
import proofs.«400674_j14499809591724_2_alg».proof.Proof.Ref.Chunk4
import proofs.«400674_j14499809591724_2_alg».proof.Proof.Ref.Chunk5
import proofs.«400674_j14499809591724_2_alg».proof.Proof.Ref.Chunk6
import proofs.«400674_j14499809591724_2_alg».proof.Proof.Ref.Chunk7
import proofs.«400674_j14499809591724_2_alg».proof.Proof.Ref.Chunk8
import proofs.«400674_j14499809591724_2_alg».proof.Proof.Ref.Chunk9
import proofs.«400674_j14499809591724_2_alg».proof.Proof.Ref.Chunk10
import proofs.«400674_j14499809591724_2_alg».proof.Proof.Ref.Chunk11

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

def win4 : List (HloOp τ sig (Elt F)) := ops5 ++ ops6

def win6 : List (HloOp τ sig (Elt F)) := ops8 ++ (ops9 ++ ops10)

def ops : List (HloOp τ sig (Elt F)) := ops1 ++ (ops2 ++ (ops3 ++ (ops4 ++ (win4 ++ (ops7 ++ (win6 ++ ops11))))))

theorem main_part0_eq (c : Dev nD) : main_part0 (F := F) c = seq ops1 := by chain_rfl
theorem main_part1_eq (c : Dev nD) : main_part1 (F := F) c = seq ops2 := by chain_rfl
theorem main_part2_eq (c : Dev nD) : main_part2 (F := F) c = seq ops3 := by chain_rfl
theorem main_part3_eq (c : Dev nD) : main_part3 (F := F) c = seq ops4 := by chain_rfl
theorem main_part4_eq (c : Dev nD) : main_part4 (F := F) c = seq win4 := by chain_rfl
theorem main_part5_eq (c : Dev nD) : main_part5 (F := F) c = seq ops7 := by chain_rfl
theorem main_part6_eq (c : Dev nD) : main_part6 (F := F) c = seq win6 := by chain_rfl
theorem main_part7_eq (c : Dev nD) : main_part7 (F := F) c = seq ops11 := by chain_rfl

theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, win4, win6, List.forall_append]
  exact ⟨ops1_sub, ops2_sub, ops3_sub, ops4_sub, ⟨ops5_sub, ops6_sub⟩, ops7_sub, ⟨ops8_sub, ops9_sub, ops10_sub⟩, ops11_sub⟩

theorem ops_fresh : ∀ op ∈ (ops : List (HloOp τ sig (Elt F))), op.fresh = ∅ := by
  simp only [ops, win4, win6, List.forall_mem_append]
  exact ⟨ops1_fresh, ops2_fresh, ops3_fresh, ops4_fresh, ⟨ops5_fresh, ops6_fresh⟩, ops7_fresh, ⟨ops8_fresh, ops9_fresh, ops10_fresh⟩, ops11_fresh⟩

theorem after_ops (V : Valuation τ sig (Elt F)) :
    after ops V = after ops11 (after ops10 (after ops9 (after ops8 (after ops7 (after ops6 (after ops5 (after ops4 (after ops3 (after ops2 (after ops1 V)))))))))) := by
  simp only [ops, win4, win6, List.append_assoc, StableHlo.after_append]

theorem final (V0 : Valuation τ sig (Elt F)) : Args V0 (after ops V0) ∧ Live11 V0 (after ops V0) := by
  rw [after_ops]
  have A0 := Args.refl V0
  have L1 := live1 A0
  have A1 := args1 A0
  have L2 := live2 A1 L1
  have A2 := args2 A1
  have L3 := live3 A2 L2
  have A3 := args3 A2
  have L4 := live4 A3 L3
  have A4 := args4 A3
  have L5 := live5 A4 L4
  have A5 := args5 A4
  have L6 := live6 A5 L5
  have A6 := args6 A5
  have L7 := live7 A6 L6
  have A7 := args7 A6
  have L8 := live8 A7 L7
  have A8 := args8 A7
  have L9 := live9 A8 L8
  have A9 := args9 A8
  have L10 := live10 A9 L9
  have A10 := args10 A9
  have L11 := live11 A10 L10
  have A11 := args11 A10
  exact ⟨A11, L11⟩

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v372) = val_main_v372 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => by
      obtain ⟨A, L⟩ := final (F := F) (launchContents m c)
      exact ⟨(h c main_v372).trans L.v372, (h c main_arg0).trans A.a0, (h c main_arg1).trans A.a1, (h c main_arg2).trans A.a2, (h c main_arg3).trans A.a3, (h c main_arg4).trans A.a4, (h c main_arg5).trans A.a5, (h c main_arg6).trans A.a6, (h c main_arg7).trans A.a7, (h c main_arg8).trans A.a8, (h c main_arg9).trans A.a9, (h c main_arg10).trans A.a10, (h c main_arg11).trans A.a11, (h c main_arg12).trans A.a12, (h c main_arg13).trans A.a13, (h c main_arg14).trans A.a14, (h c main_arg15).trans A.a15⟩)
    (run_seq scopedRefs_eq scopedSems_eq defs main (fun _ => ops) main_eq (fun _ => ops_sub) m ρ (fun _ => ops_fresh))

end Cert.ReferenceIdeal.RunH

end
-- ==== Proof.Ref.Ops.lean ====
import proofs.«400674_j14499809591724_2_alg».proof.Proof.Gen.ReferenceIdeal

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

def wrapOps (v : (⟨S800000, .i32⟩ : BufTy).Contents (Elt F)) : (⟨S800000, .i32⟩ : BufTy).Contents (Elt F) :=
  select (cmpi .slt v (broadcastInDim S800000 ![] bcast_S_S800000 (constantI S_ 32 0#32)))
    (addi v (broadcastInDim S800000 ![] bcast_S_S800000 (constantI S_ 32 50000#32))) v

def colOps (v : (⟨S800000, .i32⟩ : BufTy).Contents (Elt F)) : (⟨S800000x1, .i32⟩ : BufTy).Contents (Elt F) :=
  broadcastInDim S800000x1 ![0] bcast_S800000_S800000x1_0 v

def degOps (ew : (⟨S800000, .f32⟩ : BufTy).Contents (Elt F)) (dstv : (⟨S800000, .i32⟩ : BufTy).Contents (Elt F)) :
    (⟨S50000, .f32⟩ : BufTy).Contents (Elt F) :=
  addf (Host.scatterAdd scatter_S50000_S800000x1_S800000_n_0_0_1
      (broadcastInDim S50000 ![] bcast_S_S50000 (constant S_ .f32 0x00000000#32)) (colOps dstv) ew)
    (broadcastInDim S50000 ![] bcast_S_S50000 (constant S_ .f32 0x3F800000#32))

def dinvOps (ew : (⟨S800000, .f32⟩ : BufTy).Contents (Elt F)) (dstv : (⟨S800000, .i32⟩ : BufTy).Contents (Elt F)) :
    (⟨S50000, .f32⟩ : BufTy).Contents (Elt F) :=
  Host.rsqrt (degOps ew dstv)

def normOps (ew : (⟨S800000, .f32⟩ : BufTy).Contents (Elt F)) (srcv dstv : (⟨S800000, .i32⟩ : BufTy).Contents (Elt F)) :
    (⟨S800000, .f32⟩ : BufTy).Contents (Elt F) :=
  mulf (mulf (Host.gather gather_S50000_S800000x1_S800000_n_0_n_n_0_1_1 (dinvOps ew dstv) (colOps (wrapOps srcv))) ew)
    (Host.gather gather_S50000_S800000x1_S800000_n_0_n_n_0_1_1 (dinvOps ew dstv) (colOps (wrapOps dstv)))

def convOps (h : (⟨S50000x128, .f32⟩ : BufTy).Contents (Elt F)) (w : (⟨S128x128, .f32⟩ : BufTy).Contents (Elt F))
    (b : (⟨S128, .f32⟩ : BufTy).Contents (Elt F)) (ew : (⟨S800000, .f32⟩ : BufTy).Contents (Elt F))
    (srcv dstv : (⟨S800000, .i32⟩ : BufTy).Contents (Elt F)) : (⟨S50000x128, .f32⟩ : BufTy).Contents (Elt F) :=
  maximumf
    (addf
      (addf
        (Host.scatterAdd scatter_S50000x128_S800000x1_S800000x128_1_0_0_1
          (broadcastInDim S50000x128 ![] bcast_S_S50000x128 (constant S_ .f32 0x00000000#32))
          (colOps dstv)
          (mulf
            (Host.gather gather_S50000x128_S800000x1_S800000x128_1_0_n_n_0_1_1128
              (Host.dotGeneral dot_S50000x128_S128x128_S50000x128_1_0_0_1_n_n none h w) (colOps (wrapOps srcv)))
            (broadcastInDim S800000x128 ![0, 1] bcast_S800000x1_S800000x128_0_1
              (broadcastInDim S800000x1 ![0] bcast_S800000_S800000x1_0 (normOps ew srcv dstv)))))
        (mulf (Host.dotGeneral dot_S50000x128_S128x128_S50000x128_1_0_0_1_n_n none h w)
          (broadcastInDim S50000x128 ![0, 1] bcast_S50000x1_S50000x128_0_1
            (broadcastInDim S50000x1 ![0] bcast_S50000_S50000x1_0 (mulf (dinvOps ew dstv) (dinvOps ew dstv))))))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

end Cert.Ref
end
-- ==== Proof.Ref.Tools.lean ====
import proofs.«400674_j14499809591724_2_alg».proof.Proof.Gen.ReferenceIdeal
import proofs.«400674_j14499809591724_2_alg».proof.Proof.Spec
import proofs.«400674_j14499809591724_2_alg».proof.Proof.LibRowGather2
import proofs.«400674_j14499809591724_2_alg».proof.Proof.LibRowScatter
import proofs.«400674_j14499809591724_2_alg».proof.Proof.LibVecScatter
import Idealize.ShloMosaic.Lib.Pipeline.Value
import Idealize.ShloMosaic.Lib.ValueIdx
import Idealize.ShloMosaic.Lib.StableHlo.Predicate
import Idealize.ShloMosaic.PureOps.Ideal.Laws

noncomputable section

namespace Cert.Ref

open Cert.ReferenceIdeal Cert.ReferenceIdeal.Gen Idealize.ShloMosaic Idealize.ShloMosaic.TcCoe Idealize.SL.Sem Idealize.ShloMosaic.StableHlo Idealize.ShloMosaic.ValueIdx

theorem ofFin_eq_ix1 {n : Nat} (k : Fin n) : (Shape.Idx.ofFin k : (⟨1, ![n]⟩ : Shape).Idx) = ix1 k := by
  funext a; match a with | ⟨0, _⟩ => exact Fin.ext rfl

theorem ixP_eq_ix2 {n : Nat} (p : Fin n) : (Predicate.ixP p : (⟨2, ![n, 1]⟩ : Shape).Idx) = ix2 p (0 : Fin 1) := by
  funext a; match a with | ⟨0, _⟩ => rfl | ⟨1, _⟩ => rfl

theorem gatherVec_apply {α : Type} (x : S50000.Idx → α) (idx : IVec S800000x1 32) (e : Fin 800000) :
    Host.gather gather_S50000_S800000x1_S800000_n_0_n_n_0_1_1 x idx (ix1 e)
      = x (ix1 ⟨min (idx (ix2 e (0 : Fin 1))).toInt.toNat (50000 - 1), by omega⟩) := by
  have h := Predicate.gather_take gather_S50000_S800000x1_S800000_n_0_n_n_0_1_1 rfl rfl rfl rfl x idx e (by decide)
  simp only [ofFin_eq_ix1, ixP_eq_ix2] at h
  exact h

set_option maxRecDepth 8192 in
theorem scatterVec_apply (x : FVec Ideal S50000 .f32) (idx : IVec S800000x1 32) (upd : FVec Ideal S800000 .f32) (n : Fin 50000) :
    Host.scatterAdd scatter_S50000_S800000x1_S800000_n_0_0_1 x idx upd (ix1 n)
      = x (ix1 n) + ∑ e ∈ Finset.univ.filter (fun e : Fin 800000 => (idx (ix2 e (0 : Fin 1))).toInt = (n.val : Int)), upd (ix1 e) :=
  Cert.VecScatter.scatterAdd_vec_apply scatter_S50000_S800000x1_S800000_n_0_0_1_wf x idx upd n

set_option maxRecDepth 8192 in
theorem scatterRows_apply (x : FVec Ideal S50000x128 .f32) (idx : IVec S800000x1 32) (upd : FVec Ideal S800000x128 .f32)
    (n : Fin 50000) (c : Fin 128) :
    Host.scatterAdd scatter_S50000x128_S800000x1_S800000x128_1_0_0_1 x idx upd (ix2 n c)
      = x (ix2 n c) + ∑ e ∈ Finset.univ.filter (fun e : Fin 800000 => (idx (ix2 e (0 : Fin 1))).toInt = (n.val : Int)), upd (ix2 e c) :=
  Cert.RowScatter.scatterAdd_rows_apply scatter_S50000x128_S800000x1_S800000x128_1_0_0_1_wf x idx upd n c

set_option maxRecDepth 8192 in
theorem gatherRows_apply {α : Type} (x : S50000x128.Idx → α) (idx : IVec S800000x1 32) (e : Fin 800000) (c : Fin 128) :
    Host.gather gather_S50000x128_S800000x1_S800000x128_1_0_n_n_0_1_1128 x idx (ix2 e c)
      = x (ix2 ⟨min (idx (ix2 e (0 : Fin 1))).toInt.toNat (50000 - 1), by omega⟩ c) :=
  Cert.RowGather2.gather_rows_apply (by decide) gather_S50000x128_S800000x1_S800000x128_1_0_n_n_0_1_1128_wf x idx e c

section Bcast
variable {α : Type}

theorem bcE1_apply (y : S800000.Idx → α) (e : Fin 800000) :
    broadcastInDim S800000x1 ![0] bcast_S800000_S800000x1_0 y (ix2 e (0 : Fin 1)) = y (ix1 e) :=
  broadcastInDim_apply _ bcast_S800000_S800000x1_0 y _ (ix1 e) (fun a => match a with
    | ⟨0, _⟩ => by show e.val = if (800000 : Nat) = 1 then 0 else e.val; rw [if_neg (by decide)])

theorem bcE2_apply (y : S800000x1.Idx → α) (e : Fin 800000) (c : Fin 128) :
    broadcastInDim S800000x128 ![0, 1] bcast_S800000x1_S800000x128_0_1 y (ix2 e c) = y (ix2 e (0 : Fin 1)) :=
  broadcastInDim_apply _ bcast_S800000x1_S800000x128_0_1 y _ (ix2 e (0 : Fin 1)) (fun a => match a with
    | ⟨0, _⟩ => by show e.val = if (800000 : Nat) = 1 then 0 else e.val; rw [if_neg (by decide)]
    | ⟨1, _⟩ => by show 0 = if (1 : Nat) = 1 then 0 else c.val; rw [if_pos rfl])

theorem bcN1_apply (y : S50000.Idx → α) (n : Fin 50000) :
    broadcastInDim S50000x1 ![0] bcast_S50000_S50000x1_0 y (ix2 n (0 : Fin 1)) = y (ix1 n) :=
  broadcastInDim_apply _ bcast_S50000_S50000x1_0 y _ (ix1 n) (fun a => match a with
    | ⟨0, _⟩ => by show n.val = if (50000 : Nat) = 1 then 0 else n.val; rw [if_neg (by decide)])

theorem bcN2_apply (y : S50000x1.Idx → α) (n : Fin 50000) (c : Fin 128) :
    broadcastInDim S50000x128 ![0, 1] bcast_S50000x1_S50000x128_0_1 y (ix2 n c) = y (ix2 n (0 : Fin 1)) :=
  broadcastInDim_apply _ bcast_S50000x1_S50000x128_0_1 y _ (ix2 n (0 : Fin 1)) (fun a => match a with
    | ⟨0, _⟩ => by show n.val = if (50000 : Nat) = 1 then 0 else n.val; rw [if_neg (by decide)]
    | ⟨1, _⟩ => by show 0 = if (1 : Nat) = 1 then 0 else c.val; rw [if_pos rfl])

theorem bcB1_apply (y : S128.Idx → α) (c : Fin 128) :
    broadcastInDim S1x128 ![1] bcast_S128_S1x128_1 y (ix2 (0 : Fin 1) c) = y (ix1 c) :=
  broadcastInDim_apply _ bcast_S128_S1x128_1 y _ (ix1 c) (fun a => match a with
    | ⟨0, _⟩ => by show c.val = if (128 : Nat) = 1 then 0 else c.val; rw [if_neg (by decide)])

theorem bcB2_apply (y : S1x128.Idx → α) (n : Fin 50000) (c : Fin 128) :
    broadcastInDim S50000x128 ![0, 1] bcast_S1x128_S50000x128_0_1 y (ix2 n c) = y (ix2 (0 : Fin 1) c) :=
  broadcastInDim_apply _ bcast_S1x128_S50000x128_0_1 y _ (ix2 (0 : Fin 1) c) (fun a => match a with
    | ⟨0, _⟩ => by show 0 = if (1 : Nat) = 1 then 0 else n.val; rw [if_pos rfl]
    | ⟨1, _⟩ => by show c.val = if (128 : Nat) = 1 then 0 else c.val; rw [if_neg (by decide)])

end Bcast

end Cert.Ref
end
-- ==== Proof.Ref.Conv.lean ====
import proofs.«400674_j14499809591724_2_alg».proof.Proof.Ref.Tools
import proofs.«400674_j14499809591724_2_alg».proof.Proof.Ref.Ops
import Idealize.ShloMosaic.Lib.StackMember

noncomputable section

namespace Cert.Ref

open Cert.ReferenceIdeal Cert.ReferenceIdeal.Gen Idealize.ShloMosaic Idealize.ShloMosaic.TcCoe Idealize.SL.Sem Idealize.ShloMosaic.StableHlo Idealize.ShloMosaic.ValueIdx

variable {F : FTy → Type} [FloatOps F]

theorem colOps_apply (v : (⟨S800000, .i32⟩ : BufTy).Contents (Elt F)) (e : Fin 800000) :
    colOps (F := F) v (ix2 e (0 : Fin 1)) = v (ix1 e) := by
  unfold colOps
  exact bcE1_apply v e

theorem wrapOps_apply (v : (⟨S800000, .i32⟩ : BufTy).Contents (Elt F)) (e : Fin 800000) :
    wrapOps (F := F) v (ix1 e) = Cert.Spec.wrapN (v (ix1 e)) := by
  show Scalar.select (IntOp.cmpi .slt (v (ix1 e)) 0#32) (IntOp.addi (v (ix1 e)) 50000#32) (v (ix1 e)) = _
  unfold Cert.Spec.wrapN Scalar.select IntOp.cmpi IntOp.addi
  cases h : (v (ix1 e)).slt 0#32 <;> simp

theorem gRow_eq (v : (⟨S800000, .i32⟩ : BufTy).Contents (Elt F)) (e : Fin 800000) :
    (⟨min (colOps (F := F) (wrapOps (F := F) v) (ix2 e (0 : Fin 1))).toInt.toNat (50000 - 1), by omega⟩ : Fin 50000)
      = Cert.Spec.gRow (v (ix1 e)) := by
  unfold Cert.Spec.gRow
  refine Fin.ext ?_
  show min (colOps (F := F) (wrapOps (F := F) v) (ix2 e (0 : Fin 1))).toInt.toNat (50000 - 1)
    = min (Cert.Spec.wrapN (v (ix1 e))).toInt.toNat (50000 - 1)
  rw [colOps_apply, wrapOps_apply]

theorem degOps_eq (ew : (⟨S800000, .f32⟩ : BufTy).Contents (Elt Ideal)) (dstv : (⟨S800000, .i32⟩ : BufTy).Contents (Elt Ideal)) :
    degOps (F := Ideal) ew dstv = Cert.Spec.deg dstv ew := by
  funext n
  obtain ⟨n, rfl⟩ : ∃ k, n = ix1 k := ⟨n 0, eq_ix1 n⟩
  unfold degOps
  rw [addf_apply]
  rw [scatterVec_apply]
  simp only [colOps_apply]
  show (Ideal.ofBits .f32 0x00000000#32 + _) + Ideal.ofBits .f32 0x3F800000#32 = _
  rw [Ideal.ofBits_zero_f32, zero_add]
  rfl

theorem hostRsqrt_apply {s : Shape} (g : FVec Ideal s .f32) (i : s.Idx) : Host.rsqrt g i = Ideal.rsqrt (g i) := rfl

theorem dinvOps_eq (ew : (⟨S800000, .f32⟩ : BufTy).Contents (Elt Ideal)) (dstv : (⟨S800000, .i32⟩ : BufTy).Contents (Elt Ideal)) :
    dinvOps (F := Ideal) ew dstv = Cert.Spec.dinv dstv ew := by
  funext n
  unfold dinvOps Cert.Spec.dinv
  rw [hostRsqrt_apply, degOps_eq]

theorem normOps_eq (ew : (⟨S800000, .f32⟩ : BufTy).Contents (Elt Ideal)) (srcv dstv : (⟨S800000, .i32⟩ : BufTy).Contents (Elt Ideal)) :
    normOps (F := Ideal) ew srcv dstv = Cert.Spec.norm srcv dstv ew := by
  funext e
  obtain ⟨e, rfl⟩ : ∃ k, e = ix1 k := ⟨e 0, eq_ix1 e⟩
  unfold normOps Cert.Spec.norm
  rw [mulf_apply, mulf_apply, gatherVec_apply, gatherVec_apply, gRow_eq, gRow_eq, dinvOps_eq]

theorem mmOps_eq (h : (⟨S50000x128, .f32⟩ : BufTy).Contents (Elt Ideal)) (w : (⟨S128x128, .f32⟩ : BufTy).Contents (Elt Ideal)) :
    Host.dotGeneral (F := Ideal) (φ₁ := .f32) (φ₂ := .f32) dot_S50000x128_S128x128_S50000x128_1_0_0_1_n_n none h w = Cert.Spec.mm h w := by
  funext i
  obtain ⟨n, c, rfl⟩ : ∃ a b, i = ix2 a b := ⟨i 0, i 1, eq_ix2 i⟩
  exact StackMember.dotGeneral_plain_apply none h w n c

theorem updOps_apply (xw : (⟨S50000x128, .f32⟩ : BufTy).Contents (Elt Ideal)) (nm : (⟨S800000, .f32⟩ : BufTy).Contents (Elt Ideal))
    (srcv : (⟨S800000, .i32⟩ : BufTy).Contents (Elt Ideal)) (e : Fin 800000) (c : Fin 128) :
    mulf (F := Ideal) (φ := .f32) (Host.gather gather_S50000x128_S800000x1_S800000x128_1_0_n_n_0_1_1128 xw (colOps (F := Ideal) (wrapOps (F := Ideal) srcv)))
        (broadcastInDim S800000x128 ![0, 1] bcast_S800000x1_S800000x128_0_1
          (broadcastInDim S800000x1 ![0] bcast_S800000_S800000x1_0 nm)) (ix2 e c)
      = xw (ix2 (Cert.Spec.gRow (srcv (ix1 e))) c) * nm (ix1 e) := by
  rw [mulf_apply, gatherRows_apply, gRow_eq, bcE2_apply, bcE1_apply]

theorem aggSum_eq (xw : Cert.Spec.RA Cert.Spec.SNH) (nm : Cert.Spec.RA Cert.Spec.SE) (srcv dstv : Cert.Spec.IA Cert.Spec.SE)
    (n : Fin 50000) (c : Fin 128) :
    (∑ e ∈ Finset.univ.filter (fun e : Fin 800000 => (dstv (ix1 e)).toInt = (n.val : Int)),
        xw (ix2 (Cert.Spec.gRow (srcv (ix1 e))) c) * nm (ix1 e))
      = Cert.Spec.agg xw srcv dstv nm (ix2 n c) := by
  unfold Cert.Spec.agg Cert.Spec.into
  exact Finset.sum_congr (Finset.filter_congr fun e _ => Iff.rfl) fun e _ => rfl

theorem conv_apply (h : Cert.Spec.RA Cert.Spec.SNH) (w : Cert.Spec.RA Cert.Spec.SHH) (b : Cert.Spec.RA Cert.Spec.SH)
    (srcw dstw : Cert.Spec.IA Cert.Spec.SE) (nm : Cert.Spec.RA Cert.Spec.SE) (d2 : Cert.Spec.RA Cert.Spec.SN)
    (n : Fin 50000) (c : Fin 128) :
    Cert.Spec.conv h w b srcw dstw nm d2 (ix2 n c)
      = max (Cert.Spec.agg (Cert.Spec.mm h w) srcw dstw nm (ix2 n c) + Cert.Spec.mm h w (ix2 n c) * d2 (ix1 n) + b (ix1 c)) 0 := rfl

theorem zerosNH_apply (i : S50000x128.Idx) :
    (broadcastInDim S50000x128 ![] bcast_S_S50000x128 (constant (F := Ideal) S_ .f32 0x00000000#32)) i = (0 : EReal) :=
  Ideal.ofBits_zero_f32

theorem convOps_eq (h : (⟨S50000x128, .f32⟩ : BufTy).Contents (Elt Ideal)) (w : (⟨S128x128, .f32⟩ : BufTy).Contents (Elt Ideal))
    (b : (⟨S128, .f32⟩ : BufTy).Contents (Elt Ideal)) (ew : (⟨S800000, .f32⟩ : BufTy).Contents (Elt Ideal))
    (srcv dstv : (⟨S800000, .i32⟩ : BufTy).Contents (Elt Ideal)) :
    convOps (F := Ideal) h w b ew srcv dstv
      = Cert.Spec.conv h w b srcv dstv (Cert.Spec.norm srcv dstv ew) (Cert.Spec.dinv2 dstv ew) := by
  funext i
  obtain ⟨n, c, rfl⟩ : ∃ a b, i = ix2 a b := ⟨i 0, i 1, eq_ix2 i⟩
  rw [conv_apply, ← aggSum_eq]
  unfold convOps
  rw [mmOps_eq, normOps_eq, dinvOps_eq, maximumf_apply, addf_apply, addf_apply, mulf_apply, scatterRows_apply,
    bcN2_apply, bcN1_apply, bcB2_apply, bcB1_apply, mulf_apply, zerosNH_apply, zero_add]
  simp only [colOps_apply]
  unfold Cert.Spec.dinv2
  rw [Finset.sum_congr rfl (fun e _ => updOps_apply (Cert.Spec.mm h w) (Cert.Spec.norm srcv dstv ew) srcv e c)]

end Cert.Ref
end
-- ==== Proof.Ref.ConvInst.lean ====
import proofs.«400674_j14499809591724_2_alg».proof.Proof.Ref.ReadP
import proofs.«400674_j14499809591724_2_alg».proof.Proof.Ref.Ops
import proofs.«400674_j14499809591724_2_alg».proof.Proof.Ref.Conv
import proofs.«400674_j14499809591724_2_alg».proof.Proof.Spec
import Idealize.ShloMosaic.Lib.Pipeline.Value
import Idealize.ShloMosaic.Lib.ValueIdx

noncomputable section

namespace Cert.Ref

open Cert.ReferenceIdeal Cert.ReferenceIdeal.Gen Idealize.ShloMosaic Idealize.ShloMosaic.TcCoe Idealize.SL.Sem Idealize.ShloMosaic.StableHlo
open Idealize.ShloMosaic.ValueIdx

variable (x1 : (⟨S800000, .f32⟩ : BufTy).Contents (Elt Ideal))
  (x2 : (⟨S3x2x128x128, .f32⟩ : BufTy).Contents (Elt Ideal)) (x3 : (⟨S3x2x128, .f32⟩ : BufTy).Contents (Elt Ideal))
  (x14 : (⟨S2x800000, .i32⟩ : BufTy).Contents (Elt Ideal))

/-- Row r of the edge array, cut out and laid flat: a unit-stride slice reads at offset plus index, the reshape keeps the flat position. -/
theorem slRow (r : Fin 2) (h : S2x800000.Slices ![r.val, 0] S1x800000) :
    shapeCast S800000 (extractStridedSlice S1x800000 ![r.val, 0] x14 h) shapeCasts_S1x800000_S800000
      = fun e => x14 (ix2 r (e 0 : Fin 800000)) := by
  funext e
  exact (shapeCast_apply _ shapeCasts_S1x800000_S800000 e (ix2 (0 : Fin 1) (e 0 : Fin 800000))
      (by rw [Shape.rowMajor_val_two, Shape.rowMajor_val_one]; show 0 * 800000 + (e 0).val = (e 0).val; omega)).trans
    (extractStridedSlice_apply _ x14 h _ (ix2 r (e 0 : Fin 800000)) (fun a => match a with
      | ⟨0, _⟩ => by show r.val = r.val + 0; rfl
      | ⟨1, _⟩ => by show (e 0).val = 0 + (e 0).val; omega))

/-- Entry (l, q) of the stacked weights, cut out and laid flat. -/
theorem slW (l : Fin 3) (q : Fin 2) (h : S3x2x128x128.Slices ![l.val, q.val, 0, 0] S1x1x128x128) :
    shapeCast S128x128 (extractStridedSlice S1x1x128x128 ![l.val, q.val, 0, 0] x2 h) shapeCasts_S1x1x128x128_S128x128
      = Cert.Spec.wAt x2 l q := by
  funext i
  exact (shapeCast_apply _ shapeCasts_S1x1x128x128_S128x128 i (ix4 (0 : Fin 1) (0 : Fin 1) (i 0 : Fin 128) (i 1 : Fin 128))
      (by rw [Shape.rowMajor_val_four, Shape.rowMajor_val_two]; show ((0 * 1 + 0) * 128 + (i 0).val) * 128 + (i 1).val = (i 0).val * 128 + (i 1).val; omega)).trans
    (extractStridedSlice_apply _ x2 h _ (ix4 l q (i 0 : Fin 128) (i 1 : Fin 128)) (fun a => match a with
      | ⟨0, _⟩ => by show l.val = l.val + 0; rfl
      | ⟨1, _⟩ => by show q.val = q.val + 0; rfl
      | ⟨2, _⟩ => by show (i 0).val = 0 + (i 0).val; omega
      | ⟨3, _⟩ => by show (i 1).val = 0 + (i 1).val; omega))

/-- Entry (l, q) of the stacked biases, cut out and laid flat. -/
theorem slB (l : Fin 3) (q : Fin 2) (h : S3x2x128.Slices ![l.val, q.val, 0] S1x1x128) :
    shapeCast S128 (extractStridedSlice S1x1x128 ![l.val, q.val, 0] x3 h) shapeCasts_S1x1x128_S128
      = Cert.Spec.bAt x3 l q := by
  funext i
  exact (shapeCast_apply _ shapeCasts_S1x1x128_S128 i (ix3 (0 : Fin 1) (0 : Fin 1) (i 0 : Fin 128))
      (by rw [Shape.rowMajor_val_three, Shape.rowMajor_val_one]; show (0 * 1 + 0) * 128 + (i 0).val = (i 0).val; omega)).trans
    (extractStridedSlice_apply _ x3 h _ (ix3 l q (i 0 : Fin 128)) (fun a => match a with
      | ⟨0, _⟩ => by show l.val = l.val + 0; rfl
      | ⟨1, _⟩ => by show q.val = q.val + 0; rfl
      | ⟨2, _⟩ => by show (i 0).val = 0 + (i 0).val; omega))

/-- The program's convolution on the (l, q) weight and bias and the edge array's two rows is the specification's. -/
theorem conv_of (h : (⟨S50000x128, .f32⟩ : BufTy).Contents (Elt Ideal)) (l : Fin 3) (q : Fin 2) (hw hb) :
    convOps h (shapeCast S128x128 (extractStridedSlice S1x1x128x128 ![l.val, q.val, 0, 0] x2 hw) shapeCasts_S1x1x128x128_S128x128)
        (shapeCast S128 (extractStridedSlice S1x1x128 ![l.val, q.val, 0] x3 hb) shapeCasts_S1x1x128_S128) x1
        (ReadP.val_main_v1 (F := Ideal) x14) (ReadP.val_main_v3 (F := Ideal) x14)
      = Cert.Spec.conv h (Cert.Spec.wAt x2 l q) (Cert.Spec.bAt x3 l q) (Cert.Spec.srcOf x14) (Cert.Spec.dstOf x14)
          (Cert.Spec.norm (Cert.Spec.srcOf x14) (Cert.Spec.dstOf x14) x1) (Cert.Spec.dinv2 (Cert.Spec.dstOf x14) x1) := by
  rw [convOps_eq, slW, slB, show ReadP.val_main_v1 (F := Ideal) x14 = Cert.Spec.srcOf x14 from slRow x14 0 _,
    show ReadP.val_main_v3 (F := Ideal) x14 = Cert.Spec.dstOf x14 from slRow x14 1 _]

end Cert.Ref
end
-- ==== Proof.Alg.Layers.lean ====
import proofs.«400674_j14499809591724_2_alg».proof.Proof.Spec
import proofs.«400674_j14499809591724_2_alg».proof.Proof.Alg.Sums

noncomputable section

open scoped BigOperators

namespace Cert.Alg

open Idealize.ShloMosaic Idealize.ShloMosaic.ValueIdx Cert.Spec

def cat2 (x0 x1 : RA SNH) : RA ⟨2, ![50000, 256]⟩ := fun i =>
  if h0 : (i 1 : Fin 256).val < 128 then x0 (ix2 (i 0 : Fin 50000) ⟨(i 1 : Fin 256).val, h0⟩)
  else x1 (ix2 (i 0 : Fin 50000) ⟨(i 1 : Fin 256).val - 128, by have h : (i 1 : Fin 256).val < 256 := (i 1).isLt; omega⟩)

theorem cat2_lo (x0 x1 : RA SNH) (n : Fin 50000) (k : Fin 128) :
    cat2 x0 x1 (ix2 n (⟨k.val, by omega⟩ : Fin 256)) = x0 (ix2 n k) := by
  have hk : k.val < 128 := k.isLt
  show (if h0 : k.val < 128 then x0 (ix2 n ⟨k.val, h0⟩) else _) = _
  rw [dif_pos hk]

theorem cat2_hi (x0 x1 : RA SNH) (n : Fin 50000) (k : Fin 128) :
    cat2 x0 x1 (ix2 n (⟨128 + k.val, by omega⟩ : Fin 256)) = x1 (ix2 n k) := by
  have hk : ¬ 128 + k.val < 128 := by omega
  show (if h0 : 128 + k.val < 128 then _ else x1 (ix2 n ⟨128 + k.val - 128, _⟩)) = _
  rw [dif_neg hk]
  exact congrArg (fun q => x1 (ix2 n q)) (Fin.ext (by show 128 + k.val - 128 = k.val; omega))

theorem jk_split_of (x0 x1 : RA SNH) (jw : RA SJW) (l : Fin 3) (n : Fin 50000) (c : Fin 128) (xc : Fin 256 → EReal)
    (h0 : ∀ k : Fin 128, xc ⟨k.val, by omega⟩ = x0 (ix2 n k)) (h1 : ∀ k : Fin 128, xc ⟨128 + k.val, by omega⟩ = x1 (ix2 n k)) :
    ∑ k : Fin 256, xc k * jw (ix3 l k c)
      = (∑ k : Fin 128, x0 (ix2 n k) * jwTop jw l (ix2 k c)) + ∑ k : Fin 128, x1 (ix2 n k) * jwBot jw l (ix2 k c) :=
  sum_mul_concat_split xc (fun k => jw (ix3 l k c)) (fun k => x0 (ix2 n k)) (fun k => x1 (ix2 n k))
    (fun k => ⟨k.val, by omega⟩) (fun k => ⟨128 + k.val, by omega⟩) (fun _ => rfl) (fun _ => rfl) h0 h1

theorem jk_split (x0 x1 : RA SNH) (jw : RA SJW) (l : Fin 3) (n : Fin 50000) (c : Fin 128) :
    ∑ k : Fin 256, cat2 x0 x1 (ix2 n k) * jw (ix3 l k c)
      = (∑ k : Fin 128, x0 (ix2 n k) * jwTop jw l (ix2 k c)) + ∑ k : Fin 128, x1 (ix2 n k) * jwBot jw l (ix2 k c) :=
  jk_split_of x0 x1 jw l n c (fun k => cat2 x0 x1 (ix2 n k)) (cat2_lo x0 x1 n) (cat2_hi x0 x1 n)

theorem jk_concat_of (x0 x1 : RA SNH) (jw : RA SJW) (l : Fin 3) (jb : RA S1H)
    (xc : RA ⟨2, ![50000, 256]⟩) (W : RA ⟨2, ![256, 128]⟩)
    (h0 : ∀ (n : Fin 50000) (k : Fin 128), xc (ix2 n (⟨k.val, by omega⟩ : Fin 256)) = x0 (ix2 n k))
    (h1 : ∀ (n : Fin 50000) (k : Fin 128), xc (ix2 n (⟨128 + k.val, by omega⟩ : Fin 256)) = x1 (ix2 n k))
    (hW : ∀ (k : Fin 256) (c : Fin 128), W (ix2 k c) = jw (ix3 l k c)) :
    (fun i : SNH.Idx => max ((∑ k : Fin 256, xc (ix2 (i 0 : Fin 50000) k) * W (ix2 k (i 1 : Fin 128)))
        + jb (ix2 (0 : Fin 1) (i 1 : Fin 128))) 0)
      = jk x1 x0 (jwTop jw l) (jwBot jw l) jb := by
  funext i
  have hsum : ∑ k : Fin 256, xc (ix2 (i 0 : Fin 50000) k) * W (ix2 k (i 1 : Fin 128))
      = ∑ k : Fin 256, xc (ix2 (i 0 : Fin 50000) k) * jw (ix3 l k (i 1 : Fin 128)) :=
    Finset.sum_congr rfl fun k _ => congrArg (xc (ix2 (i 0 : Fin 50000) k) * ·) (hW k _)
  exact congrArg (fun s => max (s + jb (ix2 (0 : Fin 1) (i 1 : Fin 128))) 0)
    (hsum.trans (jk_split_of x0 x1 jw l (i 0 : Fin 50000) (i 1 : Fin 128) (fun k => xc (ix2 (i 0 : Fin 50000) k)) (h0 _) (h1 _)))

theorem jk_concat (x0 x1 : RA SNH) (jw : RA SJW) (l : Fin 3) (jb : RA S1H) :
    (fun i : SNH.Idx => max ((∑ k : Fin 256, cat2 x0 x1 (ix2 (i 0 : Fin 50000) k) * jw (ix3 l k (i 1 : Fin 128)))
        + jb (ix2 (0 : Fin 1) (i 1 : Fin 128))) 0)
      = jk x1 x0 (jwTop jw l) (jwBot jw l) jb := by
  funext i
  exact congrArg (fun s => max (s + jb (ix2 (0 : Fin 1) (i 1 : Fin 128))) 0)
    (jk_split x0 x1 jw l (i 0 : Fin 50000) (i 1 : Fin 128))

theorem toInt_ofNat_of_lt (g : Nat) (hg : g < 512) : (BitVec.ofNat 32 g).toInt = (g : Int) := by
  have hn : (BitVec.ofNat 32 g).toNat = g := by rw [BitVec.toNat_ofNat]; omega
  rw [BitVec.toInt_eq_toNat_of_lt (by rw [hn]; omega), hn]

theorem toInt_eq_iff_eq_ofNat (w : BitVec 32) (g : Nat) (hg : g < 512) : w.toInt = (g : Int) ↔ w = BitVec.ofNat 32 g := by
  constructor
  · intro h
    exact BitVec.eq_of_toInt_eq (h.trans (toInt_ofNat_of_lt g hg).symm)
  · rintro rfl
    exact toInt_ofNat_of_lt g hg

theorem pool_eq_toInt (h : RA SNH) (b : IA SN1) (g : Fin 512) (c : Fin 128) :
    pool h b (ix2 g c)
      = ∑ n ∈ Finset.univ.filter (fun n : Fin 50000 => (b (ix2 n (0 : Fin 1))).toInt = (g.val : Int)), h (ix2 n c) := by
  unfold pool
  refine Finset.sum_congr ?_ fun _ _ => rfl
  ext n
  simp only [Finset.mem_filter, Finset.mem_univ, true_and]
  exact (toInt_eq_iff_eq_ofNat _ g.val g.isLt).symm

theorem pool_eq_onehot (h : RA SNH) (b : IA SN1) (g : Fin 512) (c : Fin 128) :
    pool h b (ix2 g c)
      = ∑ n : Fin 50000, (if b (ix2 n (0 : Fin 1)) = BitVec.ofNat 32 g.val then (1 : EReal) else 0) * h (ix2 n c) :=
  (sum_onehot_mul (fun n : Fin 50000 => b (ix2 n (0 : Fin 1))) (BitVec.ofNat 32 g.val) fun n => h (ix2 n c)).symm

theorem pool_eq_tiles (h : RA SNH) (b : IA SN1) (g : Fin 512) (c : Fin 128) :
    pool h b (ix2 g c)
      = ∑ t : Fin 25, ∑ r : Fin 2000,
          (if b (ix2 (tileRow t r) (0 : Fin 1)) = BitVec.ofNat 32 g.val then (1 : EReal) else 0) * h (ix2 (tileRow t r) c) :=
  (sum_tiles_onehot (fun n : Fin 50000 => b (ix2 n (0 : Fin 1))) (BitVec.ofNat 32 g.val) fun n => h (ix2 n c)).symm

end Cert.Alg

end
-- ==== Proof.Ref.JK.lean ====
import proofs.«400674_j14499809591724_2_alg».proof.Proof.Ref.ReadP
import proofs.«400674_j14499809591724_2_alg».proof.Proof.Ref.Tools
import proofs.«400674_j14499809591724_2_alg».proof.Proof.Alg.Layers
import Idealize.ShloMosaic.Lib.StackMember

noncomputable section

open scoped BigOperators

namespace Cert.Ref

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.ReadP

variable (x4 : (⟨S3x256x128, .f32⟩ : BufTy).Contents (Elt Ideal)) (x5 : (⟨S3x128, .f32⟩ : BufTy).Contents (Elt Ideal))

/-- The product over 256 columns is a plain contraction: the row against the column. -/
theorem jkDot256_apply (X : (⟨S50000x256, .f32⟩ : BufTy).Contents (Elt Ideal)) (W : (⟨S256x128, .f32⟩ : BufTy).Contents (Elt Ideal)) (i : S50000x128.Idx) :
    Host.dotGeneral (F := Ideal) (φ₁ := .f32) (φ₂ := .f32) dot_S50000x256_S256x128_S50000x128_1_0_0_1_n_n none X W i
      = ∑ k : Fin 256, X (ix2 (i 0 : Fin 50000) k) * W (ix2 k (i 1 : Fin 128)) := by
  obtain ⟨n, c, rfl⟩ : ∃ a b, i = ix2 a b := ⟨i 0, i 1, eq_ix2 i⟩
  exact StackMember.dotGeneral_plain_apply none X W n c

theorem jkCat_lo (a b : (⟨S50000x128, .f32⟩ : BufTy).Contents (Elt Ideal)) (n : Fin 50000) (k : Fin 128) :
    concatenate S50000x256 1 [⟨S50000x128, a⟩, ⟨S50000x128, b⟩] concatenates_S50000x128_S50000x128_S50000x256_d1 (ix2 n (⟨k.val, by omega⟩ : Fin 256))
      = a (ix2 n k) :=
  concatenate_pair_apply_left 1 a b concatenates_S50000x128_S50000x128_S50000x256_d1 (ix2 n (⟨k.val, by omega⟩ : Fin 256)) rfl (ix2 n k)
    (fun b => match b with | ⟨0, _⟩ => rfl | ⟨1, _⟩ => rfl)

theorem jkCat_hi (a b : (⟨S50000x128, .f32⟩ : BufTy).Contents (Elt Ideal)) (n : Fin 50000) (k : Fin 128) :
    concatenate S50000x256 1 [⟨S50000x128, a⟩, ⟨S50000x128, b⟩] concatenates_S50000x128_S50000x128_S50000x256_d1 (ix2 n (⟨128 + k.val, by omega⟩ : Fin 256))
      = b (ix2 n k) :=
  concatenate_pair_apply_right 1 a b concatenates_S50000x128_S50000x128_S50000x256_d1 (ix2 n (⟨128 + k.val, by omega⟩ : Fin 256)) rfl rfl (ix2 n k)
    (fun b hb => match b, hb with | ⟨0, _⟩, _ => rfl | ⟨1, _⟩, hb => absurd rfl hb)
    (by show k.val + 128 = 128 + k.val; omega)

/-- Block l's [256, 128] matrix, cut out of the stacked weights and laid flat. -/
theorem jkW (l : Fin 3) (h : S3x256x128.Slices ![l.val, 0, 0] S1x256x128) (k : Fin 256) (c : Fin 128) :
    shapeCast S256x128 (extractStridedSlice S1x256x128 ![l.val, 0, 0] x4 h) shapeCasts_S1x256x128_S256x128 (ix2 k c) = x4 (ix3 l k c) := by
  exact (shapeCast_apply _ shapeCasts_S1x256x128_S256x128 (ix2 k c) (ix3 (0 : Fin 1) k c)
      (by rw [Shape.rowMajor_val_three, Shape.rowMajor_val_two]; show (0 * 256 + k.val) * 128 + c.val = k.val * 128 + c.val; omega)).trans
    (extractStridedSlice_apply _ x4 h _ (ix3 l k c) (fun a => match a with
      | ⟨0, _⟩ => by show l.val = l.val + 0; rfl
      | ⟨1, _⟩ => by show k.val = 0 + k.val; omega
      | ⟨2, _⟩ => by show c.val = 0 + c.val; omega))

/-- Block l's bias row, cut out of the stacked biases and repeated down the rows. -/
theorem jkB (l : Fin 3) (h : S3x128.Slices ![l.val, 0] S1x128) (i : S50000x128.Idx) :
    broadcastInDim S50000x128 ![0, 1] bcast_S1x128_S50000x128_0_1 (broadcastInDim S1x128 ![1] bcast_S128_S1x128_1
        (shapeCast S128 (extractStridedSlice S1x128 ![l.val, 0] x5 h) shapeCasts_S1x128_S128)) i
      = x5 (ix2 l (i 1 : Fin 128)) := by
  obtain ⟨n, c, rfl⟩ : ∃ a b, i = ix2 a b := ⟨i 0, i 1, eq_ix2 i⟩
  rw [bcB2_apply, bcB1_apply]
  exact (shapeCast_apply _ shapeCasts_S1x128_S128 (ix1 c) (ix2 (0 : Fin 1) c)
      (by rw [Shape.rowMajor_val_two, Shape.rowMajor_val_one]; show 0 * 128 + c.val = c.val; omega)).trans
    (extractStridedSlice_apply _ x5 h _ (ix2 l c) (fun a => match a with
      | ⟨0, _⟩ => by show l.val = l.val + 0; rfl
      | ⟨1, _⟩ => by show c.val = 0 + c.val; omega))

/-- With W block l's matrix, B its bias row down the rows and Z zero, relu ((a ‖ b) · W + B) is the layer over b and a: the 256 columns split into a's half and b's. -/
theorem jk_ops (a b : (⟨S50000x128, .f32⟩ : BufTy).Contents (Elt Ideal)) (l : Fin 3)
    (W : (⟨S256x128, .f32⟩ : BufTy).Contents (Elt Ideal)) (B Z : (⟨S50000x128, .f32⟩ : BufTy).Contents (Elt Ideal))
    (hW : ∀ (k : Fin 256) (c : Fin 128), W (ix2 k c) = x4 (ix3 l k c))
    (hB : ∀ i : S50000x128.Idx, B i = x5 (ix2 l (i 1 : Fin 128)))
    (hZ : ∀ i : S50000x128.Idx, Z i = 0) :
    maximumf (addf (Host.dotGeneral (F := Ideal) (φ₁ := .f32) (φ₂ := .f32) dot_S50000x256_S256x128_S50000x128_1_0_0_1_n_n none
        (concatenate S50000x256 1 [⟨S50000x128, a⟩, ⟨S50000x128, b⟩] concatenates_S50000x128_S50000x128_S50000x256_d1) W) B) Z
      = Cert.Spec.jk b a (Cert.Spec.jwTop x4 l) (Cert.Spec.jwBot x4 l) (Cert.Spec.row (Cert.Spec.jbAt x5 l)) := by
  rw [← Cert.Alg.jk_concat_of a b x4 l (Cert.Spec.row (Cert.Spec.jbAt x5 l))
    (concatenate S50000x256 1 [⟨S50000x128, a⟩, ⟨S50000x128, b⟩] concatenates_S50000x128_S50000x128_S50000x256_d1) W
    (jkCat_lo a b) (jkCat_hi a b) hW]
  funext i
  show max (Host.dotGeneral (F := Ideal) (φ₁ := .f32) (φ₂ := .f32) dot_S50000x256_S256x128_S50000x128_1_0_0_1_n_n none _ W i + B i) (Z i) = max (_ + x5 (ix2 l (i 1 : Fin 128))) 0
  rw [jkDot256_apply, hB, hZ]

/-- The program's stage on block l's slices of the stacked matrices and biases. -/
theorem jk_of (a b : (⟨S50000x128, .f32⟩ : BufTy).Contents (Elt Ideal)) (l : Fin 3) (hw hb) :
    maximumf (addf (Host.dotGeneral (F := Ideal) (φ₁ := .f32) (φ₂ := .f32) dot_S50000x256_S256x128_S50000x128_1_0_0_1_n_n none
        (concatenate S50000x256 1 [⟨S50000x128, a⟩, ⟨S50000x128, b⟩] concatenates_S50000x128_S50000x128_S50000x256_d1)
        (shapeCast S256x128 (extractStridedSlice S1x256x128 ![l.val, 0, 0] x4 hw) shapeCasts_S1x256x128_S256x128))
      (broadcastInDim S50000x128 ![0, 1] bcast_S1x128_S50000x128_0_1 (broadcastInDim S1x128 ![1] bcast_S128_S1x128_1
        (shapeCast S128 (extractStridedSlice S1x128 ![l.val, 0] x5 hb) shapeCasts_S1x128_S128))))
      (broadcastInDim S50000x128 ![] bcast_S_S50000x128 (constant (F := Ideal) S_ .f32 0x00000000#32))
      = Cert.Spec.jk b a (Cert.Spec.jwTop x4 l) (Cert.Spec.jwBot x4 l) (Cert.Spec.row (Cert.Spec.jbAt x5 l)) :=
  jk_ops x4 x5 a b l _ _ _ (jkW x4 l hw) (jkB x5 l hb) (fun _ => Ideal.ofBits_zero_f32)

end Cert.Ref
end
-- ==== Proof.Ref.Head.lean ====
import proofs.«400674_j14499809591724_2_alg».proof.Proof.Ref.ReadP
import proofs.«400674_j14499809591724_2_alg».proof.Proof.Ref.Tools
import proofs.«400674_j14499809591724_2_alg».proof.Proof.Spec
import Idealize.ShloMosaic.PureOps.Ideal.Laws
import Idealize.ShloMosaic.Lib.ValueIdx
import Idealize.ShloMosaic.Lib.Pipeline.Value
import proofs.«400674_j14499809591724_2_alg».proof.Proof.LibRowScatter
import proofs.«400674_j14499809591724_2_alg».proof.Proof.Alg.Layers

set_option maxRecDepth 16384

noncomputable section

namespace Cert.Ref

open Cert.ReferenceIdeal Cert.ReferenceIdeal.Gen Idealize.ShloMosaic Idealize.ShloMosaic.ValueIdx
open Cert.ReferenceIdeal.ReadP

namespace Head

theorem ofBits_ninf_f32 : Ideal.ofBits .f32 0xFF800000#32 = ⊥ := by simp [Ideal.ofBits, Ideal.ieee]

end Head

variable (x0 : (⟨S50000x128, .f32⟩ : BufTy).Contents (Elt Ideal)) (x1 : (⟨S800000, .f32⟩ : BufTy).Contents (Elt Ideal))
  (x2 : (⟨S3x2x128x128, .f32⟩ : BufTy).Contents (Elt Ideal)) (x3 : (⟨S3x2x128, .f32⟩ : BufTy).Contents (Elt Ideal))
  (x4 : (⟨S3x256x128, .f32⟩ : BufTy).Contents (Elt Ideal)) (x5 : (⟨S3x128, .f32⟩ : BufTy).Contents (Elt Ideal))
  (x6 x7 x8 x9 : (⟨S384, .f32⟩ : BufTy).Contents (Elt Ideal)) (x10 : (⟨S384x128, .f32⟩ : BufTy).Contents (Elt Ideal))
  (x11 : (⟨S128, .f32⟩ : BufTy).Contents (Elt Ideal)) (x12 : (⟨S128x10, .f32⟩ : BufTy).Contents (Elt Ideal))
  (x13 : (⟨S10, .f32⟩ : BufTy).Contents (Elt Ideal)) (x14 : (⟨S2x800000, .i32⟩ : BufTy).Contents (Elt Ideal))
  (x15 : (⟨S50000, .i32⟩ : BufTy).Contents (Elt Ideal))

namespace Head

theorem v339_at (p : Fin 512) (q : Fin 384) : val_main_v339 (F := Ideal) x8 (ix2 p q) = x8 (ix1 q) := by
  rw [val_main_v339_apply, val_main_v338_apply]
  exact congrArg x8 (funext fun a => Fin.ext (by match a with | ⟨0, _⟩ => rfl))

theorem v348_at (p : Fin 512) (q : Fin 384) : val_main_v348 (F := Ideal) x6 (ix2 p q) = x6 (ix1 q) := by
  rw [val_main_v348_apply, val_main_v347_apply]
  exact congrArg x6 (funext fun a => Fin.ext (by match a with | ⟨0, _⟩ => rfl))

theorem v351_at (p : Fin 512) (q : Fin 384) : val_main_v351 (F := Ideal) x7 (ix2 p q) = x7 (ix1 q) := by
  rw [val_main_v351_apply, val_main_v350_apply]
  exact congrArg x7 (funext fun a => Fin.ext (by match a with | ⟨0, _⟩ => rfl))

theorem v345_at (p : Fin 512) (q : Fin 384) :
    val_main_v345 (F := Ideal) x9 (ix2 p q) = Ideal.rsqrt (x9 (ix1 q) + Cert.Spec.eps32) := by
  rw [val_main_v345_apply, val_main_v344_apply, val_main_v343_apply, val_main_v342_apply, val_main_v341_apply, val_main_cst_55_apply]
  exact congrArg (fun j => Ideal.rsqrt (x9 j + Cert.Spec.eps32)) (funext fun a => Fin.ext (by match a with | ⟨0, _⟩ => rfl))

theorem v355_at (p : Fin 512) (q : Fin 128) : val_main_v355 (F := Ideal) x11 (ix2 p q) = x11 (ix1 q) := by
  rw [val_main_v355_apply, val_main_v354_apply]
  exact congrArg x11 (funext fun a => Fin.ext (by match a with | ⟨0, _⟩ => rfl))

theorem v360_at (p : Fin 512) (q : Fin 10) : val_main_v360 (F := Ideal) x13 (ix2 p q) = x13 (ix1 q) := by
  rw [val_main_v360_apply, val_main_v359_apply]
  exact congrArg x13 (funext fun a => Fin.ext (by match a with | ⟨0, _⟩ => rfl))

theorem v352_eq : val_main_v352 (F := Ideal) x0 x1 x2 x3 x4 x5 x6 x7 x8 x9 x14 x15
    = Cert.Spec.bn (val_main_v337 (F := Ideal) x0 x1 x2 x3 x4 x5 x14 x15) (Cert.Spec.row3 x6) (Cert.Spec.row3 x7)
        (Cert.Spec.row3 x8) (Cert.Spec.row3 x9) := by
  funext i
  obtain ⟨p, q, rfl⟩ : ∃ (p : Fin 512) (q : Fin 384), i = ix2 p q := ⟨i 0, i 1, eq_ix2 i⟩
  rw [val_main_v352_apply, val_main_v349_apply, val_main_v346_apply, val_main_v340_apply, v339_at, v345_at, v348_at, v351_at]
  rfl

theorem v357_eq : val_main_v357 (F := Ideal) x0 x1 x2 x3 x4 x5 x6 x7 x8 x9 x10 x11 x14 x15
    = Cert.Spec.lin1 (val_main_v352 (F := Ideal) x0 x1 x2 x3 x4 x5 x6 x7 x8 x9 x14 x15) x10 (Cert.Spec.row x11) := by
  funext i
  obtain ⟨p, q, rfl⟩ : ∃ (p : Fin 512) (q : Fin 128), i = ix2 p q := ⟨i 0, i 1, eq_ix2 i⟩
  rw [val_main_v357_apply, val_main_v356_apply, val_main_v353_apply, v355_at, val_main_call9_v0_apply, val_main_call9_cst_apply]
  have hl : ∀ k : Fin 384, lidx_main_v353 (ix2 p q) k = ix2 p k := fun k =>
    funext fun a => Fin.ext (by match a with | ⟨0, _⟩ => rfl | ⟨1, _⟩ => rfl)
  have hr : ∀ k : Fin 384, ridx_main_v353 (ix2 p q) k = ix2 k q := fun k =>
    funext fun a => Fin.ext (by match a with | ⟨0, _⟩ => rfl | ⟨1, _⟩ => rfl)
  simp only [hl, hr]
  show max (_ + _) (Ideal.ofBits .f32 0x00000000#32) = _
  rw [Ideal.ofBits_zero_f32]
  rfl

theorem v361_eq : val_main_v361 (F := Ideal) x0 x1 x2 x3 x4 x5 x6 x7 x8 x9 x10 x11 x12 x13 x14 x15
    = Cert.Spec.lin2 (val_main_v357 (F := Ideal) x0 x1 x2 x3 x4 x5 x6 x7 x8 x9 x10 x11 x14 x15) x12 (Cert.Spec.rowC x13) := by
  funext i
  obtain ⟨p, q, rfl⟩ : ∃ (p : Fin 512) (q : Fin 10), i = ix2 p q := ⟨i 0, i 1, eq_ix2 i⟩
  rw [val_main_v361_apply, val_main_v358_apply, v360_at]
  have hl : ∀ k : Fin 128, lidx_main_v358 (ix2 p q) k = ix2 p k := fun k =>
    funext fun a => Fin.ext (by match a with | ⟨0, _⟩ => rfl | ⟨1, _⟩ => rfl)
  have hr : ∀ k : Fin 128, ridx_main_v358 (ix2 p q) k = ix2 k q := fun k =>
    funext fun a => Fin.ext (by match a with | ⟨0, _⟩ => rfl | ⟨1, _⟩ => rfl)
  simp only [hl, hr]
  rfl

theorem v364_at (p : Fin 512) : val_main_v364 (F := Ideal) x0 x1 x2 x3 x4 x5 x6 x7 x8 x9 x10 x11 x12 x13 x14 x15 (ix1 p)
    = Cert.Spec.rowMax (val_main_v361 (F := Ideal) x0 x1 x2 x3 x4 x5 x6 x7 x8 x9 x10 x11 x12 x13 x14 x15) p := by
  rw [val_main_v364_apply, val_main_v363_apply, val_main_cst_57_apply]
  unfold val_main_v362
  refine (congrArg (max _) (Host.reduce_eq_fold_single (α := EReal) (u := S_) (FloatOps.maximumf (F := Ideal) (φ := .f32))
    (fun i : S512x10.Idx => val_main_v361 (F := Ideal) x0 x1 x2 x3 x4 x5 x6 x7 x8 x9 x10 x11 x12 x13 x14 x15 i)
    (fun i : S_.Idx => val_main_cst_56 (F := Ideal) i) reducesTo_S512x10_S512_d1 (by decide) h_S_ (ix1 p))).trans ?_
  show max (Ideal.ofBits .f32 0xFF800000#32) ((Finset.univ : Finset (Fin 10)).fold max (Ideal.ofBits .f32 0xFF800000#32) _) = _
  rw [ofBits_ninf_f32, max_bot_left]
  unfold Cert.Spec.rowMax
  refine congrArg (fun f : Fin 10 → EReal => (Finset.univ : Finset (Fin 10)).fold max ⊥ f) (funext fun c => ?_)
  exact congrArg (val_main_v361 (F := Ideal) x0 x1 x2 x3 x4 x5 x6 x7 x8 x9 x10 x11 x12 x13 x14 x15)
    (funext fun a => Fin.ext (by match a with | ⟨0, _⟩ => rfl | ⟨1, _⟩ => rfl))

theorem v366_at (p : Fin 512) (q : Fin 10) : val_main_v366 (F := Ideal) x0 x1 x2 x3 x4 x5 x6 x7 x8 x9 x10 x11 x12 x13 x14 x15 (ix2 p q)
    = Cert.Spec.rowMax (val_main_v361 (F := Ideal) x0 x1 x2 x3 x4 x5 x6 x7 x8 x9 x10 x11 x12 x13 x14 x15) p := by
  rw [val_main_v366_apply, val_main_v365_apply,
    show idx_main_v365 (idx_main_v366 (ix2 p q)) = ix1 p from funext fun a => Fin.ext (by match a with | ⟨0, _⟩ => rfl), v364_at]

theorem v368_at (p : Fin 512) (q : Fin 10) : val_main_v368 (F := Ideal) x0 x1 x2 x3 x4 x5 x6 x7 x8 x9 x10 x11 x12 x13 x14 x15 (ix2 p q)
    = Ideal.exp (val_main_v361 (F := Ideal) x0 x1 x2 x3 x4 x5 x6 x7 x8 x9 x10 x11 x12 x13 x14 x15 (ix2 p q) - Cert.Spec.rowMax (val_main_v361 (F := Ideal) x0 x1 x2 x3 x4 x5 x6 x7 x8 x9 x10 x11 x12 x13 x14 x15) p) := by
  rw [val_main_v368_apply, val_main_v367_apply, v366_at, Ideal.hostUnary_exp_def, Ideal.subf_def]

theorem v371_at (p : Fin 512) (q : Fin 10) : val_main_v371 (F := Ideal) x0 x1 x2 x3 x4 x5 x6 x7 x8 x9 x10 x11 x12 x13 x14 x15 (ix2 p q)
    = ∑ c : Fin 10, Ideal.exp (val_main_v361 (F := Ideal) x0 x1 x2 x3 x4 x5 x6 x7 x8 x9 x10 x11 x12 x13 x14 x15 (ix2 p c)
        - Cert.Spec.rowMax (val_main_v361 (F := Ideal) x0 x1 x2 x3 x4 x5 x6 x7 x8 x9 x10 x11 x12 x13 x14 x15) p) := by
  rw [val_main_v371_apply, val_main_v370_apply,
    show idx_main_v370 (idx_main_v371 (ix2 p q)) = ix1 p from funext fun a => Fin.ext (by match a with | ⟨0, _⟩ => rfl),
    val_main_v369_apply, val_main_cst_58_apply]
  show Ideal.ofBits .f32 0x00000000#32 + _ = _
  rw [Ideal.ofBits_zero_f32, zero_add]
  refine Finset.sum_congr rfl fun c _ => ?_
  rw [show idx_main_v369 (ix1 p) c = ix2 p c from funext fun a => Fin.ext (by match a with | ⟨0, _⟩ => rfl | ⟨1, _⟩ => rfl), v368_at]

theorem v372_eq : val_main_v372 (F := Ideal) x0 x1 x2 x3 x4 x5 x6 x7 x8 x9 x10 x11 x12 x13 x14 x15 = Cert.Spec.softmax (val_main_v361 (F := Ideal) x0 x1 x2 x3 x4 x5 x6 x7 x8 x9 x10 x11 x12 x13 x14 x15) := by
  funext i
  obtain ⟨p, q, rfl⟩ : ∃ (p : Fin 512) (q : Fin 10), i = ix2 p q := ⟨i 0, i 1, eq_ix2 i⟩
  rw [val_main_v372_apply, v368_at, v371_at, Ideal.hostDivf_def]
  rfl

theorem head_of_joined : val_main_v372 (F := Ideal) x0 x1 x2 x3 x4 x5 x6 x7 x8 x9 x10 x11 x12 x13 x14 x15
    = Cert.Spec.head (val_main_v337 (F := Ideal) x0 x1 x2 x3 x4 x5 x14 x15) (Cert.Spec.row3 x6) (Cert.Spec.row3 x7)
        (Cert.Spec.row3 x8) (Cert.Spec.row3 x9) x10 (Cert.Spec.row x11) x12 (Cert.Spec.rowC x13) := by
  rw [v372_eq, v361_eq, v357_eq, v352_eq]
  rfl

theorem cat3_eq (A B C : (⟨S512x128, .f32⟩ : BufTy).Contents (Elt Ideal)) :
    concatenate S512x384 1 [⟨S512x128, A⟩, ⟨S512x128, B⟩, ⟨S512x128, C⟩] concatenates_S512x128_S512x128_S512x128_S512x384_d1
      = Cert.Spec.cat3 A B C := by
  funext i
  obtain ⟨p, q, rfl⟩ : ∃ (p : Fin 512) (q : Fin 384), i = ix2 p q := ⟨i 0, i 1, eq_ix2 i⟩
  have hq : q.val < 384 := q.isLt
  unfold Cert.Spec.cat3
  have hi : ∀ (r : Fin 128) (b : Fin S512x128.rank), b.cast (rfl : S512x128.rank = S512x384.rank) ≠ (1 : Fin S512x384.rank) →
      ((ix2 p r : S512x128.Idx) b).val = ((ix2 p q : S512x384.Idx) (b.cast rfl)).val := fun r b => by
    match b with
    | ⟨0, _⟩ => exact fun _ => rfl
    | ⟨1, _⟩ => exact fun hb => absurd rfl hb
  by_cases h0 : q.val < 128
  · rw [dif_pos (show ((ix2 p q : Cert.Spec.SG3.Idx) 1).val < 128 from h0)]
    exact concatenate_apply_piece (1 : Fin S512x384.rank) _ _ (ix2 p q) 0 (by simp) S512x128 A rfl rfl 0 rfl
      (ix2 p (⟨q.val, h0⟩ : Fin 128)) (hi _) (by show 0 + q.val = q.val; omega)
  · rw [dif_neg (show ¬((ix2 p q : Cert.Spec.SG3.Idx) 1).val < 128 from h0)]
    by_cases h1 : q.val < 256
    · rw [dif_pos (show ((ix2 p q : Cert.Spec.SG3.Idx) 1).val < 256 from h1)]
      exact concatenate_apply_piece (1 : Fin S512x384.rank) _ _ (ix2 p q) 1 (by simp) S512x128 B rfl rfl 128 rfl
        (ix2 p (⟨q.val - 128, by omega⟩ : Fin 128)) (hi _) (by show 128 + (q.val - 128) = q.val; omega)
    · rw [dif_neg (show ¬((ix2 p q : Cert.Spec.SG3.Idx) 1).val < 256 from h1)]
      exact concatenate_apply_piece (1 : Fin S512x384.rank) _ _ (ix2 p q) 2 (by simp) S512x128 C rfl rfl 256 rfl
        (ix2 p (⟨q.val - 256, by omega⟩ : Fin 128)) (hi _) (by show 256 + (q.val - 256) = q.val; omega)

theorem v337_eq : val_main_v337 (F := Ideal) x0 x1 x2 x3 x4 x5 x14 x15
    = Cert.Spec.cat3 (val_main_v114 (F := Ideal) x0 x1 x2 x3 x4 x5 x14 x15) (val_main_v225 (F := Ideal) x0 x1 x2 x3 x4 x5 x14 x15)
        (val_main_v336 (F := Ideal) x0 x1 x2 x3 x4 x5 x14 x15) := by
  unfold val_main_v337
  exact cat3_eq _ _ _

theorem pool_of_scatter (Z : (⟨S512x128, .f32⟩ : BufTy).Contents (Elt Ideal)) (idx : (⟨S50000x1, .i32⟩ : BufTy).Contents (Elt Ideal))
    (h : (⟨S50000x128, .f32⟩ : BufTy).Contents (Elt Ideal)) (hZ : ∀ i, Z i = 0)
    (hidx : ∀ n : Fin 50000, idx (ix2 n (0 : Fin 1)) = x15 (ix1 n)) :
    Host.scatterAdd (F := Ideal) (φ := .f32) (w := 32) scatter_S512x128_S50000x1_S50000x128_1_0_0_1 Z idx h
      = Cert.Spec.pool h (Cert.Spec.colI x15) := by
  funext i
  obtain ⟨g, c, rfl⟩ : ∃ (g : Fin 512) (c : Fin 128), i = ix2 g c := ⟨i 0, i 1, eq_ix2 i⟩
  rw [Cert.Alg.pool_eq_toInt]
  refine (Cert.RowScatter.scatterAdd_rows_apply scatter_S512x128_S50000x1_S50000x128_1_0_0_1_wf Z idx h g c).trans ?_
  rw [hZ, zero_add]
  refine Finset.sum_congr (Finset.filter_congr fun n _ => ?_) fun _ _ => rfl
  rw [hidx n]
  rfl

/-- The program's pooling: the rows of h scatter-added into zeros at the column of graph words. -/
theorem pool_of (h : (⟨S50000x128, .f32⟩ : BufTy).Contents (Elt Ideal)) :
    Host.scatterAdd (F := Ideal) (φ := .f32) (w := 32) scatter_S512x128_S50000x1_S50000x128_1_0_0_1
        (broadcastInDim S512x128 ![] bcast_S_S512x128 (constant (F := Ideal) S_ .f32 0x00000000#32))
        (broadcastInDim S50000x1 ![0] bcast_S50000_S50000x1_0 x15) h
      = Cert.Spec.pool h (Cert.Spec.colI x15) :=
  pool_of_scatter x15 _ _ h (fun _ => Ideal.ofBits_zero_f32) (bcN1_apply x15)

theorem v114_eq : val_main_v114 (F := Ideal) x0 x1 x2 x3 x4 x5 x14 x15
    = Cert.Spec.pool (val_main_v111 (F := Ideal) x0 x1 x2 x3 x4 x5 x14) (Cert.Spec.colI x15) := pool_of x15 _

theorem v225_eq : val_main_v225 (F := Ideal) x0 x1 x2 x3 x4 x5 x14 x15
    = Cert.Spec.pool (val_main_v222 (F := Ideal) x0 x1 x2 x3 x4 x5 x14) (Cert.Spec.colI x15) := pool_of x15 _

theorem v336_eq : val_main_v336 (F := Ideal) x0 x1 x2 x3 x4 x5 x14 x15
    = Cert.Spec.pool (val_main_v333 (F := Ideal) x0 x1 x2 x3 x4 x5 x14) (Cert.Spec.colI x15) := pool_of x15 _

end Head

theorem ref_head : val_main_v372 (F := Ideal) x0 x1 x2 x3 x4 x5 x6 x7 x8 x9 x10 x11 x12 x13 x14 x15
    = Cert.Spec.head (Cert.Spec.cat3 (Cert.Spec.pool (val_main_v111 (F := Ideal) x0 x1 x2 x3 x4 x5 x14) (Cert.Spec.colI x15))
        (Cert.Spec.pool (val_main_v222 (F := Ideal) x0 x1 x2 x3 x4 x5 x14) (Cert.Spec.colI x15))
        (Cert.Spec.pool (val_main_v333 (F := Ideal) x0 x1 x2 x3 x4 x5 x14) (Cert.Spec.colI x15)))
        (Cert.Spec.row3 x6) (Cert.Spec.row3 x7) (Cert.Spec.row3 x8) (Cert.Spec.row3 x9) x10 (Cert.Spec.row x11) x12 (Cert.Spec.rowC x13) := by
  rw [Head.head_of_joined, Head.v337_eq, Head.v114_eq, Head.v225_eq, Head.v336_eq]

end Cert.Ref

end
-- ==== Proof.Ref.Value.lean ====
import proofs.«400674_j14499809591724_2_alg».proof.Proof.Ref.ConvInst
import proofs.«400674_j14499809591724_2_alg».proof.Proof.Ref.JK
import proofs.«400674_j14499809591724_2_alg».proof.Proof.Ref.Head

noncomputable section

namespace Cert.Ref

open Cert.ReferenceIdeal Cert.ReferenceIdeal.Gen Idealize.ShloMosaic Idealize.ShloMosaic.TcCoe Idealize.SL.Sem Idealize.ShloMosaic.StableHlo

section Blocks
variable (x0 : (⟨S50000x128, .f32⟩ : BufTy).Contents (Elt Ideal)) (x1 : (⟨S800000, .f32⟩ : BufTy).Contents (Elt Ideal))
  (x2 : (⟨S3x2x128x128, .f32⟩ : BufTy).Contents (Elt Ideal)) (x3 : (⟨S3x2x128, .f32⟩ : BufTy).Contents (Elt Ideal))
  (x4 : (⟨S3x256x128, .f32⟩ : BufTy).Contents (Elt Ideal)) (x5 : (⟨S3x128, .f32⟩ : BufTy).Contents (Elt Ideal))
  (x14 : (⟨S2x800000, .i32⟩ : BufTy).Contents (Elt Ideal))

/-- A block is two convolutions and the jumping-knowledge layer over both outputs. -/
theorem block_of (h c0 c1 r : (⟨S50000x128, .f32⟩ : BufTy).Contents (Elt Ideal)) (l : Fin 3)
    (e0 : c0 = Cert.Spec.conv h (Cert.Spec.wAt x2 l 0) (Cert.Spec.bAt x3 l 0) (Cert.Spec.srcOf x14) (Cert.Spec.dstOf x14)
      (Cert.Spec.norm (Cert.Spec.srcOf x14) (Cert.Spec.dstOf x14) x1) (Cert.Spec.dinv2 (Cert.Spec.dstOf x14) x1))
    (e1 : c1 = Cert.Spec.conv c0 (Cert.Spec.wAt x2 l 1) (Cert.Spec.bAt x3 l 1) (Cert.Spec.srcOf x14) (Cert.Spec.dstOf x14)
      (Cert.Spec.norm (Cert.Spec.srcOf x14) (Cert.Spec.dstOf x14) x1) (Cert.Spec.dinv2 (Cert.Spec.dstOf x14) x1))
    (er : r = Cert.Spec.jk c1 c0 (Cert.Spec.jwTop x4 l) (Cert.Spec.jwBot x4 l) (Cert.Spec.row (Cert.Spec.jbAt x5 l))) :
    r = Cert.Spec.blockH h x2 x3 x4 x5 l (Cert.Spec.srcOf x14) (Cert.Spec.dstOf x14)
      (Cert.Spec.norm (Cert.Spec.srcOf x14) (Cert.Spec.dstOf x14) x1) (Cert.Spec.dinv2 (Cert.Spec.dstOf x14) x1) := by
  subst e0 e1 er; rfl

theorem block1 :
    ReadP.val_main_v111 (F := Ideal) x0 x1 x2 x3 x4 x5 x14
      = Cert.Spec.blockH x0 x2 x3 x4 x5 0 (Cert.Spec.srcOf x14) (Cert.Spec.dstOf x14)
        (Cert.Spec.norm (Cert.Spec.srcOf x14) (Cert.Spec.dstOf x14) x1) (Cert.Spec.dinv2 (Cert.Spec.dstOf x14) x1) :=
  block_of x1 x2 x3 x4 x5 x14 x0 _ _ _ 0 (conv_of x1 x2 x3 x14 _ 0 0 _ _) (conv_of x1 x2 x3 x14 _ 0 1 _ _) (jk_of x4 x5 _ _ 0 _ _)

theorem block2 :
    ReadP.val_main_v222 (F := Ideal) x0 x1 x2 x3 x4 x5 x14
      = Cert.Spec.blockH (ReadP.val_main_v111 (F := Ideal) x0 x1 x2 x3 x4 x5 x14) x2 x3 x4 x5 1 (Cert.Spec.srcOf x14) (Cert.Spec.dstOf x14)
        (Cert.Spec.norm (Cert.Spec.srcOf x14) (Cert.Spec.dstOf x14) x1) (Cert.Spec.dinv2 (Cert.Spec.dstOf x14) x1) :=
  block_of x1 x2 x3 x4 x5 x14 _ _ _ _ 1 (conv_of x1 x2 x3 x14 _ 1 0 _ _) (conv_of x1 x2 x3 x14 _ 1 1 _ _) (jk_of x4 x5 _ _ 1 _ _)

theorem block3 :
    ReadP.val_main_v333 (F := Ideal) x0 x1 x2 x3 x4 x5 x14
      = Cert.Spec.blockH (ReadP.val_main_v222 (F := Ideal) x0 x1 x2 x3 x4 x5 x14) x2 x3 x4 x5 2 (Cert.Spec.srcOf x14) (Cert.Spec.dstOf x14)
        (Cert.Spec.norm (Cert.Spec.srcOf x14) (Cert.Spec.dstOf x14) x1) (Cert.Spec.dinv2 (Cert.Spec.dstOf x14) x1) :=
  block_of x1 x2 x3 x4 x5 x14 _ _ _ _ 2 (conv_of x1 x2 x3 x14 _ 2 0 _ _) (conv_of x1 x2 x3 x14 _ 2 1 _ _) (jk_of x4 x5 _ _ 2 _ _)

end Blocks

theorem ref_value (x0 : (⟨S50000x128, .f32⟩ : BufTy).Contents (Elt Ideal)) (x1 : (⟨S800000, .f32⟩ : BufTy).Contents (Elt Ideal))
    (x2 : (⟨S3x2x128x128, .f32⟩ : BufTy).Contents (Elt Ideal)) (x3 : (⟨S3x2x128, .f32⟩ : BufTy).Contents (Elt Ideal))
    (x4 : (⟨S3x256x128, .f32⟩ : BufTy).Contents (Elt Ideal)) (x5 : (⟨S3x128, .f32⟩ : BufTy).Contents (Elt Ideal))
    (x6 x7 x8 x9 : (⟨S384, .f32⟩ : BufTy).Contents (Elt Ideal)) (x10 : (⟨S384x128, .f32⟩ : BufTy).Contents (Elt Ideal))
    (x11 : (⟨S128, .f32⟩ : BufTy).Contents (Elt Ideal)) (x12 : (⟨S128x10, .f32⟩ : BufTy).Contents (Elt Ideal))
    (x13 : (⟨S10, .f32⟩ : BufTy).Contents (Elt Ideal)) (x14 : (⟨S2x800000, .i32⟩ : BufTy).Contents (Elt Ideal))
    (x15 : (⟨S50000, .i32⟩ : BufTy).Contents (Elt Ideal)) :
    ReadP.val_main_v372 (F := Ideal) x0 x1 x2 x3 x4 x5 x6 x7 x8 x9 x10 x11 x12 x13 x14 x15
      = Cert.Spec.net x0 x1 x2 x3 x4 x5 x6 x7 x8 x9 x10 x11 x12 x13 (Cert.Spec.srcOf x14) (Cert.Spec.dstOf x14) x15 := by
  rw [ref_head, block3, block2, block1]
  rfl

end Cert.Ref

end
-- ==== Proof.lean ====
import proofs.«400674_j14499809591724_2_alg».proof.Defs
import proofs.«400674_j14499809591724_2_alg».proof.Proof.Gen.Kernel
import proofs.«400674_j14499809591724_2_alg».proof.Proof.Gen.KernelIdeal
import proofs.«400674_j14499809591724_2_alg».proof.Proof.Gen.ReferenceIdeal
import proofs.«400674_j14499809591724_2_alg».proof.Proof.Gen.Pre_finite_inputs
import proofs.«400674_j14499809591724_2_alg».proof.Proof.K.Run
import proofs.«400674_j14499809591724_2_alg».proof.Proof.KI.Chain
import proofs.«400674_j14499809591724_2_alg».proof.Proof.Ref.Run
import proofs.«400674_j14499809591724_2_alg».proof.Proof.Ref.Value
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.RunH.run (F := Ideal) m ρ)

theorem algebraic : Cert.algebraic_KernelIdeal_ReferenceIdeal := by
  intro m ρ m' ρ' _ hagree
  refine ⟨fun c => Cert.KernelIdeal.Gen.V25 m (Cert.KernelIdeal.Hand.outsR m) c Cert.KernelIdeal.main_v212,
    Cert.KernelIdeal.Hand.run_result (F := Ideal) m ρ, ?_⟩
  refine (θ_run Cert.ReferenceIdeal.defs _ _).mono (fun _ h c => ⟨(h c).1.trans ?_, (h c).2⟩)
    (Cert.ReferenceIdeal.RunH.run (F := Ideal) m' ρ')
  obtain ⟨h0, h1, h2, h3, h4, h5, h6, h7, h8, h9, h10, h11, h12, h13, h14, h15⟩ := hagree c
  dsimp only
  rw [Cert.Ref.ref_value, Cert.KernelIdeal.Hand.result_net m c, h0, h1, h2, h3, h4, h5, h6, h7, h8, h9, h10, h11, h12, h13, h14, h15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
